-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024 : Shape := ⟨1, ![1024]⟩
abbrev S20000x512 : Shape := ⟨2, ![20000, 512]⟩
abbrev S20000 : Shape := ⟨1, ![20000]⟩
abbrev S512x512 : Shape := ⟨2, ![512, 512]⟩
abbrev S20000x128 : Shape := ⟨2, ![20000, 128]⟩
abbrev S512x128 : Shape := ⟨2, ![512, 128]⟩
abbrev S160000x32 : Shape := ⟨2, ![160000, 32]⟩
abbrev S160000 : Shape := ⟨1, ![160000]⟩
abbrev S512x32 : Shape := ⟨2, ![512, 32]⟩
abbrev S67735x8 : Shape := ⟨2, ![67735, 8]⟩
abbrev S67735 : Shape := ⟨1, ![67735]⟩
abbrev S512x8 : Shape := ⟨2, ![512, 8]⟩
abbrev S3x512 : Shape := ⟨2, ![3, 512]⟩
abbrev S3 : Shape := ⟨1, ![3]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S20000x512 : S_.BroadcastsInDim S20000x512 (![] : Fin 0 → Fin S20000x512.rank)
  reducesTo_S20000x512_S_d0_1 : S20000x512.ReducesTo [0, 1] S_
  bcast_S_S20000 : S_.BroadcastsInDim S20000 (![] : Fin 0 → Fin S20000.rank)
  reducesTo_S20000_S_d0 : S20000.ReducesTo [0] S_
  bcast_S_S512x512 : S_.BroadcastsInDim S512x512 (![] : Fin 0 → Fin S512x512.rank)
  reducesTo_S512x512_S_d0_1 : S512x512.ReducesTo [0, 1] S_
  bcast_S_S20000x128 : S_.BroadcastsInDim S20000x128 (![] : Fin 0 → Fin S20000x128.rank)
  reducesTo_S20000x128_S_d0_1 : S20000x128.ReducesTo [0, 1] S_
  bcast_S_S512x128 : S_.BroadcastsInDim S512x128 (![] : Fin 0 → Fin S512x128.rank)
  reducesTo_S512x128_S_d0_1 : S512x128.ReducesTo [0, 1] S_
  bcast_S_S160000x32 : S_.BroadcastsInDim S160000x32 (![] : Fin 0 → Fin S160000x32.rank)
  reducesTo_S160000x32_S_d0_1 : S160000x32.ReducesTo [0, 1] S_
  bcast_S_S160000 : S_.BroadcastsInDim S160000 (![] : Fin 0 → Fin S160000.rank)
  reducesTo_S160000_S_d0 : S160000.ReducesTo [0] S_
  bcast_S_S512x32 : S_.BroadcastsInDim S512x32 (![] : Fin 0 → Fin S512x32.rank)
  reducesTo_S512x32_S_d0_1 : S512x32.ReducesTo [0, 1] S_
  bcast_S_S67735x8 : S_.BroadcastsInDim S67735x8 (![] : Fin 0 → Fin S67735x8.rank)
  reducesTo_S67735x8_S_d0_1 : S67735x8.ReducesTo [0, 1] S_
  bcast_S_S67735 : S_.BroadcastsInDim S67735 (![] : Fin 0 → Fin S67735.rank)
  reducesTo_S67735_S_d0 : S67735.ReducesTo [0] S_
  bcast_S_S512x8 : S_.BroadcastsInDim S512x8 (![] : Fin 0 → Fin S512x8.rank)
  reducesTo_S512x8_S_d0_1 : S512x8.ReducesTo [0, 1] S_
  bcast_S_S3x512 : S_.BroadcastsInDim S3x512 (![] : Fin 0 → Fin S3x512.rank)
  reducesTo_S3x512_S_d0_1 : S3x512.ReducesTo [0, 1] S_
  bcast_S_S3 : S_.BroadcastsInDim S3 (![] : Fin 0 → Fin S3.rank)
  reducesTo_S3_S_d0 : S3.ReducesTo [0] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg1 : IVec S1024 32) (main_arg15 : FVec F S3 .f32) (main_v63 : IVec S_ 1) (main_v67 : IVec S_ 1) : IVec S_ 1 :=
  let main_v68 : IVec S_ 1 := andi main_v63 main_v67
  let main_v69 : FVec F S3 .f32 := Host.absf main_arg15
  let main_cst_26 : FVec F S_ .f32 := constant S_ .f32 0x7F800000#32
  let main_v70 : FVec F S3 .f32 := broadcastInDim S3 ![] bcast_S_S3 main_cst_26
  let main_v71 : IVec S3 1 := cmpf .olt main_v69 main_v70
  let main_c_27 : IVec S_ 1 := constantI S_ 1 1#1
  let main_v72 : IVec S_ 1 := (fun x v => Host.reduce IntOp.andi x v reducesTo_S3_S_d0 h_S_) main_v71 main_c_27
  let main_v73 : IVec S_ 1 := andi main_v68 main_v72
  let main_c_28 : IVec S_ 32 := constantI S_ 32 267735#32
  let main_v74 : IVec S1024 32 := broadcastInDim S1024 ![] bcast_S_S1024 main_c_28
  let main_v75 : IVec S1024 1 := cmpi .slt main_arg1 main_v74
  let main_c_29 : IVec S_ 1 := constantI S_ 1 1#1
  let main_v76 : IVec S_ 1 := (fun x v => Host.reduce IntOp.andi x v reducesTo_S1024_S_d0 h_S_) main_v75 main_c_29
  let main_v77 : IVec S_ 1 := andi main_v73 main_v76
  main_v77

def fn_part3 {F : FTy → Type} [FloatOps F] (main_arg1 : IVec S1024 32) (main_arg12 : FVec F S67735 .f32) (main_arg13 : FVec F S512x8 .f32) (main_arg14 : FVec F S3x512 .f32) (main_arg15 : FVec F S3 .f32) (main_v48 : IVec S_ 1) (main_v49 : FVec F S67735x8 .f32) (main_v50 : FVec F S67735x8 .f32) : IVec S_ 1 :=
  let main_v51 : IVec S67735x8 1 := cmpf .olt main_v49 main_v50
  let main_c_19 : IVec S_ 1 := constantI S_ 1 1#1
  let main_v52 : IVec S_ 1 := (fun x v => Host.reduce IntOp.andi x v reducesTo_S67735x8_S_d0_1 h_S_) main_v51 main_c_19
  let main_v53 : IVec S_ 1 := andi main_v48 main_v52
  let main_v54 : FVec F S67735 .f32 := Host.absf main_arg12
  let main_cst_20 : FVec F S_ .f32 := constant S_ .f32 0x7F800000#32
  let main_v55 : FVec F S67735 .f32 := broadcastInDim S67735 ![] bcast_S_S67735 main_cst_20
  let main_v56 : IVec S67735 1 := cmpf .olt main_v54 main_v55
  let main_c_21 : IVec S_ 1 := constantI S_ 1 1#1
  let main_v57 : IVec S_ 1 := (fun x v => Host.reduce IntOp.andi x v reducesTo_S67735_S_d0 h_S_) main_v56 main_c_21
  let main_v58 : IVec S_ 1 := andi main_v53 main_v57
  let main_v59 : FVec F S512x8 .f32 := Host.absf main_arg13
  let main_cst_22 : FVec F S_ .f32 := constant S_ .f32 0x7F800000#32
  let main_v60 : FVec F S512x8 .f32 := broadcastInDim S512x8 ![] bcast_S_S512x8 main_cst_22
  let main_v61 : IVec S512x8 1 := cmpf .olt main_v59 main_v60
  let main_c_23 : IVec S_ 1 := constantI S_ 1 1#1
  let main_v62 : IVec S_ 1 := (fun x v => Host.reduce IntOp.andi x v reducesTo_S512x8_S_d0_1 h_S_) main_v61 main_c_23
  let main_v63 : IVec S_ 1 := andi main_v58 main_v62
  let main_v64 : FVec F S3x512 .f32 := Host.absf main_arg14
  let main_cst_24 : FVec F S_ .f32 := constant S_ .f32 0x7F800000#32
  let main_v65 : FVec F S3x512 .f32 := broadcastInDim S3x512 ![] bcast_S_S3x512 main_cst_24
  let main_v66 : IVec S3x512 1 := cmpf .olt main_v64 main_v65
  let main_c_25 : IVec S_ 1 := constantI S_ 1 1#1
  let main_v67 : IVec S_ 1 := (fun x v => Host.reduce IntOp.andi x v reducesTo_S3x512_S_d0_1 h_S_) main_v66 main_c_25
  fn_part4 (F := F) main_arg1 main_arg15 main_v63 main_v67

def fn_part2 {F : FTy → Type} [FloatOps F] (main_arg1 : IVec S1024 32) (main_arg8 : FVec F S160000x32 .f32) (main_arg9 : FVec F S160000 .f32) (main_arg10 : FVec F S512x32 .f32) (main_arg11 : FVec F S67735x8 .f32) (main_arg12 : FVec F S67735 .f32) (main_arg13 : FVec F S512x8 .f32) (main_arg14 : FVec F S3x512 .f32) (main_arg15 : FVec F S3 .f32) (main_v33 : IVec S_ 1) : IVec S_ 1 :=
  let main_v34 : FVec F S160000x32 .f32 := Host.absf main_arg8
  let main_cst_12 : FVec F S_ .f32 := constant S_ .f32 0x7F800000#32
  let main_v35 : FVec F S160000x32 .f32 := broadcastInDim S160000x32 ![] bcast_S_S160000x32 main_cst_12
  let main_v36 : IVec S160000x32 1 := cmpf .olt main_v34 main_v35
  let main_c_13 : IVec S_ 1 := constantI S_ 1 1#1
  let main_v37 : IVec S_ 1 := (fun x v => Host.reduce IntOp.andi x v reducesTo_S160000x32_S_d0_1 h_S_) main_v36 main_c_13
  let main_v38 : IVec S_ 1 := andi main_v33 main_v37
  let main_v39 : FVec F S160000 .f32 := Host.absf main_arg9
  let main_cst_14 : FVec F S_ .f32 := constant S_ .f32 0x7F800000#32
  let main_v40 : FVec F S160000 .f32 := broadcastInDim S160000 ![] bcast_S_S160000 main_cst_14
  let main_v41 : IVec S160000 1 := cmpf .olt main_v39 main_v40
  let main_c_15 : IVec S_ 1 := constantI S_ 1 1#1
  let main_v42 : IVec S_ 1 := (fun x v => Host.reduce IntOp.andi x v reducesTo_S160000_S_d0 h_S_) main_v41 main_c_15
  let main_v43 : IVec S_ 1 := andi main_v38 main_v42
  let main_v44 : FVec F S512x32 .f32 := Host.absf main_arg10
  let main_cst_16 : FVec F S_ .f32 := constant S_ .f32 0x7F800000#32
  let main_v45 : FVec F S512x32 .f32 := broadcastInDim S512x32 ![] bcast_S_S512x32 main_cst_16
  let main_v46 : IVec S512x32 1 := cmpf .olt main_v44 main_v45
  let main_c_17 : IVec S_ 1 := constantI S_ 1 1#1
  let main_v47 : IVec S_ 1 := (fun x v => Host.reduce IntOp.andi x v reducesTo_S512x32_S_d0_1 h_S_) main_v46 main_c_17
  let main_v48 : IVec S_ 1 := andi main_v43 main_v47
  let main_v49 : FVec F S67735x8 .f32 := Host.absf main_arg11
  let main_cst_18 : FVec F S_ .f32 := constant S_ .f32 0x7F800000#32
  let main_v50 : FVec F S67735x8 .f32 := broadcastInDim S67735x8 ![] bcast_S_S67735x8 main_cst_18
  fn_part3 (F := F) main_arg1 main_arg12 main_arg13 main_arg14 main_arg15 main_v48 main_v49 main_v50

def fn_part1 {F : FTy → Type} [FloatOps F] (main_arg1 : IVec S1024 32) (main_arg5 : FVec F S20000x128 .f32) (main_arg6 : FVec F S20000 .f32) (main_arg7 : FVec F S512x128 .f32) (main_arg8 : FVec F S160000x32 .f32) (main_arg9 : FVec F S160000 .f32) (main_arg10 : FVec F S512x32 .f32) (main_arg11 : FVec F S67735x8 .f32) (main_arg12 : FVec F S67735 .f32) (main_arg13 : FVec F S512x8 .f32) (main_arg14 : FVec F S3x512 .f32) (main_arg15 : FVec F S3 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S20000x128 .f32 := Host.absf main_arg5
  let main_cst_6 : FVec F S_ .f32 := constant S_ .f32 0x7F800000#32
  let main_v20 : FVec F S20000x128 .f32 := broadcastInDim S20000x128 ![] bcast_S_S20000x128 main_cst_6
  let main_v21 : IVec S20000x128 1 := cmpf .olt main_v19 main_v20
  let main_c_7 : IVec S_ 1 := constantI S_ 1 1#1
  let main_v22 : IVec S_ 1 := (fun x v => Host.reduce IntOp.andi x v reducesTo_S20000x128_S_d0_1 h_S_) main_v21 main_c_7
  let main_v23 : IVec S_ 1 := andi main_v18 main_v22
  let main_v24 : FVec F S20000 .f32 := Host.absf main_arg6
  let main_cst_8 : FVec F S_ .f32 := constant S_ .f32 0x7F800000#32
  let main_v25 : FVec F S20000 .f32 := broadcastInDim S20000 ![] bcast_S_S20000 main_cst_8
  let main_v26 : IVec S20000 1 := cmpf .olt main_v24 main_v25
  let main_c_9 : IVec S_ 1 := constantI S_ 1 1#1
  let main_v27 : IVec S_ 1 := (fun x v => Host.reduce IntOp.andi x v reducesTo_S20000_S_d0 h_S_) main_v26 main_c_9
  let main_v28 : IVec S_ 1 := andi main_v23 main_v27
  let main_v29 : FVec F S512x128 .f32 := Host.absf main_arg7
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg1 main_arg8 main_arg9 main_arg10 main_arg11 main_arg12 main_arg13 main_arg14 main_arg15 main_v33

def fn {F : FTy → Type} [FloatOps F] (main_arg0 : FVec F S1024x512 .f32) (main_arg1 : IVec S1024 32) (main_arg2 : FVec F S20000x512 .f32) (main_arg3 : FVec F S20000 .f32) (main_arg4 : FVec F S512x512 .f32) (main_arg5 : FVec F S20000x128 .f32) (main_arg6 : FVec F S20000 .f32) (main_arg7 : FVec F S512x128 .f32) (main_arg8 : FVec F S160000x32 .f32) (main_arg9 : FVec F S160000 .f32) (main_arg10 : FVec F S512x32 .f32) (main_arg11 : FVec F S67735x8 .f32) (main_arg12 : FVec F S67735 .f32) (main_arg13 : FVec F S512x8 .f32) (main_arg14 : FVec F S3x512 .f32) (main_arg15 : FVec F S3 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S20000x512 .f32 := Host.absf main_arg2
  let main_cst_0 : FVec F S_ .f32 := constant S_ .f32 0x7F800000#32
  let main_v5 : FVec F S20000x512 .f32 := broadcastInDim S20000x512 ![] bcast_S_S20000x512 main_cst_0
  let main_v6 : IVec S20000x512 1 := cmpf .olt main_v4 main_v5
  let main_c_1 : IVec S_ 1 := constantI S_ 1 1#1
  let main_v7 : IVec S_ 1 := (fun x v => Host.reduce IntOp.andi x v reducesTo_S20000x512_S_d0_1 h_S_) main_v6 main_c_1
  let main_v8 : IVec S_ 1 := andi main_v3 main_v7
  let main_v9 : FVec F S20000 .f32 := Host.absf main_arg3
  let main_cst_2 : FVec F S_ .f32 := constant S_ .f32 0x7F800000#32
  let main_v10 : FVec F S20000 .f32 := broadcastInDim S20000 ![] bcast_S_S20000 main_cst_2
  let main_v11 : IVec S20000 1 := cmpf .olt main_v9 main_v10
  let main_c_3 : IVec S_ 1 := constantI S_ 1 1#1
  let main_v12 : IVec S_ 1 := (fun x v => Host.reduce IntOp.andi x v reducesTo_S20000_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg1 main_arg5 main_arg6 main_arg7 main_arg8 main_arg9 main_arg10 main_arg11 main_arg12 main_arg13 main_arg14 main_arg15 main_v13 main_v16
-- ==== Kernel.lean ====
abbrev S1024x512 : Shape := ⟨2, ![1024, 512]⟩
abbrev S1024 : Shape := ⟨1, ![1024]⟩
abbrev S20000x512 : Shape := ⟨2, ![20000, 512]⟩
abbrev S20000 : Shape := ⟨1, ![20000]⟩
abbrev S512x512 : Shape := ⟨2, ![512, 512]⟩
abbrev S20000x128 : Shape := ⟨2, ![20000, 128]⟩
abbrev S512x128 : Shape := ⟨2, ![512, 128]⟩
abbrev S160000x32 : Shape := ⟨2, ![160000, 32]⟩
abbrev S160000 : Shape := ⟨1, ![160000]⟩
abbrev S512x32 : Shape := ⟨2, ![512, 32]⟩
abbrev S67735x8 : Shape := ⟨2, ![67735, 8]⟩
abbrev S67735 : Shape := ⟨1, ![67735]⟩
abbrev S512x8 : Shape := ⟨2, ![512, 8]⟩
abbrev S3x512 : Shape := ⟨2, ![3, 512]⟩
abbrev S3 : Shape := ⟨1, ![3]⟩
abbrev S20003x512 : Shape := ⟨2, ![20003, 512]⟩
abbrev S20003 : Shape := ⟨1, ![20003]⟩
abbrev S_ : Shape := ⟨0, ![]⟩
abbrev S20480x512 : Shape := ⟨2, ![20480, 512]⟩
abbrev S20480 : Shape := ⟨1, ![20480]⟩
abbrev S1024x1 : Shape := ⟨2, ![1024, 1]⟩
abbrev S1024x4 : Shape := ⟨2, ![1024, 4]⟩
abbrev S512x1024 : Shape := ⟨2, ![512, 1024]⟩
abbrev S1024x1024 : Shape := ⟨2, ![1024, 1024]⟩
abbrev S1x1024 : Shape := ⟨2, ![1, 1024]⟩
abbrev S1024x3 : Shape := ⟨2, ![1024, 3]⟩
abbrev S20480x128 : Shape := ⟨2, ![20480, 128]⟩
abbrev S1024x128 : Shape := ⟨2, ![1024, 128]⟩
abbrev S128x1024 : Shape := ⟨2, ![128, 1024]⟩
abbrev S160768x32 : Shape := ⟨2, ![160768, 32]⟩
abbrev S160768 : Shape := ⟨1, ![160768]⟩
abbrev S1024x32 : Shape := ⟨2, ![1024, 32]⟩
abbrev S32x1024 : Shape := ⟨2, ![32, 1024]⟩
abbrev S68608x8 : Shape := ⟨2, ![68608, 8]⟩
abbrev S68608 : Shape := ⟨1, ![68608]⟩
abbrev S1024x8 : Shape := ⟨2, ![1024, 8]⟩
abbrev S8x1024 : Shape := ⟨2, ![8, 1024]⟩

abbrev nBuf : Space → Nat
  | .hbm => 143
  | .vmem => 48
  | .smem => 0
  | _ => 0

abbrev hbmTy0_0 (i : Nat) : BufTy := match i % 128 with
  | 0 => ⟨S1024x512, .f32⟩
  | 1 => ⟨S1024, .i32⟩
  | 2 => ⟨S20000x512, .f32⟩
  | 3 => ⟨S20000, .f32⟩
  | 4 => ⟨S512x512, .f32⟩
  | 5 => ⟨S20000x128, .f32⟩
  | 6 => ⟨S20000, .f32⟩
  | 7 => ⟨S512x128, .f32⟩
  | 8 => ⟨S160000x32, .f32⟩
  | 9 => ⟨S160000, .f32⟩
  | 10 => ⟨S512x32, .f32⟩
  | 11 => ⟨S67735x8, .f32⟩
  | 12 => ⟨S67735, .f32⟩
  | 13 => ⟨S512x8, .f32⟩
  | 14 => ⟨S3x512, .f32⟩
  | 15 => ⟨S3, .f32⟩
  | 16 => ⟨S1024x512, .bf16⟩
  | 17 => ⟨S20003x512, .f32⟩
  | 18 => ⟨S20003, .f32⟩
  | 19 => ⟨S_, .i32⟩
  | 20 => ⟨S_, .f32⟩
  | 21 => ⟨S20480x512, .f32⟩
  | 22 => ⟨S20480x512, .bf16⟩
  | 23 => ⟨S_, .i32⟩
  | 24 => ⟨S_, .f32⟩
  | 25 => ⟨S20480, .f32⟩
  | 26 => ⟨S512x512, .bf16⟩
  | 27 => ⟨S_, .i32⟩
  | 28 => ⟨S_, .i32⟩
  | 29 => ⟨S_, .i32⟩
  | 30 => ⟨S1024, .i32⟩
  | 31 => ⟨S1024, .i32⟩
  | 32 => ⟨S_, .i32⟩
  | 33 => ⟨S1024, .i32⟩
  | 34 => ⟨S1024, .i32⟩
  | 35 => ⟨S1024x1, .i32⟩
  | 36 => ⟨S1024x4, .f32⟩
  | 37 => ⟨S1024x1, .f32⟩
  | 38 => ⟨S1024, .f32⟩
  | 39 => ⟨S1024x3, .f32⟩
  | 40 => ⟨S1024, .f32⟩
  | 41 => ⟨S_, .i32⟩
  | 42 => ⟨S_, .f32⟩
  | 43 => ⟨S20480x128, .f32⟩
  | 44 => ⟨S20480x128, .bf16⟩
  | 45 => ⟨S_, .i32⟩
  | 46 => ⟨S_, .f32⟩
  | 47 => ⟨S20480, .f32⟩
  | 48 => ⟨S512x128, .bf16⟩
  | 49 => ⟨S_, .i32⟩
  | 50 => ⟨S1024, .i32⟩
  | 51 => ⟨S1024, .i32⟩
  | 52 => ⟨S_, .i32⟩
  | 53 => ⟨S_, .i32⟩
  | 54 => ⟨S_, .i32⟩
  | 55 => ⟨S1024, .i32⟩
  | 56 => ⟨S1024, .i32⟩
  | 57 => ⟨S_, .i32⟩
  | 58 => ⟨S1024, .i32⟩
  | 59 => ⟨S1024, .i32⟩
  | 60 => ⟨S1024x1, .i32⟩
  | 61 => ⟨S1024x1, .f32⟩
  | 62 => ⟨S1024, .f32⟩
  | 63 => ⟨S1024x1, .f32⟩
  | 64 => ⟨S1024, .f32⟩
  | 65 => ⟨S1024, .f32⟩
  | 66 => ⟨S_, .i32⟩
  | 67 => ⟨S1024, .i32⟩
  | 68 => ⟨S1024, .i1⟩
  | 69 => ⟨S_, .i32⟩
  | 70 => ⟨S1024, .i32⟩
  | 71 => ⟨S1024, .i1⟩
  | 72 => ⟨S1024, .i1⟩
  | 73 => ⟨S1024, .f32⟩
  | 74 => ⟨S1024, .f32⟩
  | 75 => ⟨S_, .i32⟩
  | 76 => ⟨S_, .f32⟩
  | 77 => ⟨S160768x32, .f32⟩
  | 78 => ⟨S160768x32, .bf16⟩
  | 79 => ⟨S_, .i32⟩
  | 80 => ⟨S_, .f32⟩
  | 81 => ⟨S160768, .f32⟩
  | 82 => ⟨S512x32, .bf16⟩
  | 83 => ⟨S_, .i32⟩
  | 84 => ⟨S1024, .i32⟩
  | 85 => ⟨S1024, .i32⟩
  | 86 => ⟨S_, .i32⟩
  | 87 => ⟨S_, .i32⟩
  | 88 => ⟨S_, .i32⟩
  | 89 => ⟨S1024, .i32⟩
  | 90 => ⟨S1024, .i32⟩
  | 91 => ⟨S_, .i32⟩
  | 92 => ⟨S1024, .i32⟩
  | 93 => ⟨S1024, .i32⟩
  | 94 => ⟨S1024x1, .i32⟩
  | 95 => ⟨S1024x1, .f32⟩
  | 96 => ⟨S1024, .f32⟩
  | 97 => ⟨S1024x1, .f32⟩
  | 98 => ⟨S1024, .f32⟩
  | 99 => ⟨S1024, .f32⟩
  | 100 => ⟨S_, .i32⟩
  | 101 => ⟨S1024, .i32⟩
  | 102 => ⟨S1024, .i1⟩
  | 103 => ⟨S_, .i32⟩
  | 104 => ⟨S1024, .i32⟩
  | 105 => ⟨S1024, .i1⟩
  | 106 => ⟨S1024, .i1⟩
  | 107 => ⟨S1024, .f32⟩
  | 108 => ⟨S1024, .f32⟩
  | 109 => ⟨S_, .i32⟩
  | 110 => ⟨S_, .f32⟩
  | 111 => ⟨S68608x8, .f32⟩
  | 112 => ⟨S68608x8, .bf16⟩
  | 113 => ⟨S_, .i32⟩
  | 114 => ⟨S_, .f32⟩
  | 115 => ⟨S68608, .f32⟩
  | 116 => ⟨S512x8, .bf16⟩
  | 117 => ⟨S_, .i32⟩
  | 118 => ⟨S1024, .i32⟩
  | 119 => ⟨S1024, .i32⟩
  | 120 => ⟨S_, .i32⟩
  | 121 => ⟨S_, .i32⟩
  | 122 => ⟨S_, .i32⟩
  | 123 => ⟨S1024, .i32⟩
  | 124 => ⟨S1024, .i32⟩
  | 125 => ⟨S_, .i32⟩
  | 126 => ⟨S1024, .i32⟩
  | 127 => ⟨S1024, .i32⟩
  | _ => ⟨S1024x512, .f32⟩

abbrev hbmTy0_1 (i : Nat) : BufTy := match i % 128 with
  | 0 => ⟨S1024x1, .i32⟩
  | 1 => ⟨S1024x1, .f32⟩
  | 2 => ⟨S1024, .f32⟩
  | 3 => ⟨S1024x1, .f32⟩
  | 4 => ⟨S1024, .f32⟩
  | 5 => ⟨S1024, .f32⟩
  | 6 => ⟨S_, .i32⟩
  | 7 => ⟨S1024, .i32⟩
  | 8 => ⟨S1024, .i1⟩
  | 9 => ⟨S_, .i32⟩
  | 10 => ⟨S1024, .i32⟩
  | 11 => ⟨S1024, .i1⟩
  | 12 => ⟨S1024, .i1⟩
  | 13 => ⟨S1024, .f32⟩
  | 14 => ⟨S1024, .f32⟩
  | _ => ⟨S1024x512, .f32⟩

abbrev hbmTy (i : Nat) : BufTy := match i / 128 with
  | 0 => hbmTy0_0 i
  | 1 => hbmTy0_1 i
  | _ => ⟨S1024x512, .f32⟩

abbrev bufTy : (tb : Table) → Fin (tcTables nBuf tb) → BufTy
  | .hbm, ⟨i, _⟩ => hbmTy i
  | .local _ .vmem, ⟨0, _⟩ => ⟨S1024x512, .bf16⟩
  | .local _ .vmem, ⟨1, _⟩ => ⟨S512x512, .bf16⟩
  | .local _ .vmem, ⟨2, _⟩ => ⟨S1024x512, .bf16⟩
  | .local _ .vmem, ⟨3, _⟩ => ⟨S1024x512, .bf16⟩
  | .local _ .vmem, ⟨4, _⟩ => ⟨S1024, .f32⟩
  | .local _ .vmem, ⟨5, _⟩ => ⟨S1024, .f32⟩
  | .local _ .vmem, ⟨6, _⟩ => ⟨S1024x1, .i32⟩
  | .local _ .vmem, ⟨7, _⟩ => ⟨S1024x4, .f32⟩
  | .local _ .vmem, ⟨8, _⟩ => ⟨S1024x512, .bf16⟩
  | .local _ .vmem, ⟨9, _⟩ => ⟨S1024x1, .f32⟩
  | .local _ .vmem, ⟨10, _⟩ => ⟨S1024x1, .f32⟩
  | .local _ .vmem, ⟨11, _⟩ => ⟨S1024x4, .f32⟩
  | .local _ .vmem, ⟨12, _⟩ => ⟨S1024x512, .bf16⟩
  | .local _ .vmem, ⟨13, _⟩ => ⟨S512x128, .bf16⟩
  | .local _ .vmem, ⟨14, _⟩ => ⟨S1024x128, .bf16⟩
  | .local _ .vmem, ⟨15, _⟩ => ⟨S1024x128, .bf16⟩
  | .local _ .vmem, ⟨16, _⟩ => ⟨S1024, .f32⟩
  | .local _ .vmem, ⟨17, _⟩ => ⟨S1024, .f32⟩
  | .local _ .vmem, ⟨18, _⟩ => ⟨S1024x1, .i32⟩
  | .local _ .vmem, ⟨19, _⟩ => ⟨S1024x1, .f32⟩
  | .local _ .vmem, ⟨20, _⟩ => ⟨S1024x128, .bf16⟩
  | .local _ .vmem, ⟨21, _⟩ => ⟨S1024x1, .f32⟩
  | .local _ .vmem, ⟨22, _⟩ => ⟨S1024x1, .f32⟩
  | .local _ .vmem, ⟨23, _⟩ => ⟨S1024x1, .f32⟩
  | .local _ .vmem, ⟨24, _⟩ => ⟨S1024x512, .bf16⟩
  | .local _ .vmem, ⟨25, _⟩ => ⟨S512x32, .bf16⟩
  | .local _ .vmem, ⟨26, _⟩ => ⟨S1024x32, .bf16⟩
  | .local _ .vmem, ⟨27, _⟩ => ⟨S1024x32, .bf16⟩
  | .local _ .vmem, ⟨28, _⟩ => ⟨S1024, .f32⟩
  | .local _ .vmem, ⟨29, _⟩ => ⟨S1024, .f32⟩
  | .local _ .vmem, ⟨30, _⟩ => ⟨S1024x1, .i32⟩
  | .local _ .vmem, ⟨31, _⟩ => ⟨S1024x1, .f32⟩
  | .local _ .vmem, ⟨32, _⟩ => ⟨S1024x32, .bf16⟩
  | .local _ .vmem, ⟨33, _⟩ => ⟨S1024x1, .f32⟩
  | .local _ .vmem, ⟨34, _⟩ => ⟨S1024x1, .f32⟩
  | .local _ .vmem, ⟨35, _⟩ => ⟨S1024x1, .f32⟩
  | .local _ .vmem, ⟨36, _⟩ => ⟨S1024x512, .bf16⟩
  | .local _ .vmem, ⟨37, _⟩ => ⟨S512x8, .bf16⟩
  | .local _ .vmem, ⟨38, _⟩ => ⟨S1024x8, .bf16⟩
  | .local _ .vmem, ⟨39, _⟩ => ⟨S1024x8, .bf16⟩
  | .local _ .vmem, ⟨40, _⟩ => ⟨S1024, .f32⟩
  | .local _ .vmem, ⟨41, _⟩ => ⟨S1024, .f32⟩
  | .local _ .vmem, ⟨42, _⟩ => ⟨S1024x1, .i32⟩
  | .local _ .vmem, ⟨43, _⟩ => ⟨S1024x1, .f32⟩
  | .local _ .vmem, ⟨44, _⟩ => ⟨S1024x8, .bf16⟩
  | .local _ .vmem, ⟨45, _⟩ => ⟨S1024x1, .f32⟩
  | .local _ .vmem, ⟨46, _⟩ => ⟨S1024x1, .f32⟩
  | .local _ .vmem, ⟨47, _⟩ => ⟨S1024x1, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_call0_v0 : Ref sig .tc := ⟨.hbm, 20, rfl⟩
abbrev main_v3 : Ref sig .tc := ⟨.hbm, 21, rfl⟩
abbrev main_v4 : Ref sig .tc := ⟨.hbm, 22, rfl⟩
abbrev main_c_0 : Ref sig .tc := ⟨.hbm, 23, rfl⟩
abbrev main_call1_v0 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_c_2 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c_3 : Ref sig .tc := ⟨.hbm, 41, rfl⟩
abbrev main_call3_v0 : Ref sig .tc := ⟨.hbm, 42, rfl⟩
abbrev main_v14 : Ref sig .tc := ⟨.hbm, 43, rfl⟩
abbrev main_v15 : Ref sig .tc := ⟨.hbm, 44, rfl⟩
abbrev main_c_4 : Ref sig .tc := ⟨.hbm, 45, rfl⟩
abbrev main_call4_v0 : Ref sig .tc := ⟨.hbm, 46, rfl⟩
abbrev main_v16 : Ref sig .tc := ⟨.hbm, 47, rfl⟩
abbrev main_v17 : Ref sig .tc := ⟨.hbm, 48, rfl⟩
abbrev main_c_5 : Ref sig .tc := ⟨.hbm, 49, rfl⟩
abbrev main_v18 : Ref sig .tc := ⟨.hbm, 50, rfl⟩
abbrev main_v19 : Ref sig .tc := ⟨.hbm, 51, rfl⟩
abbrev main_c_6 : Ref sig .tc := ⟨.hbm, 52, rfl⟩
abbrev main_c_7 : Ref sig .tc := ⟨.hbm, 53, rfl⟩
abbrev main_call5_v0 : Ref sig .tc := ⟨.hbm, 54, rfl⟩
abbrev main_call5_v1 : Ref sig .tc := ⟨.hbm, 55, rfl⟩
abbrev main_call5_v2 : Ref sig .tc := ⟨.hbm, 56, rfl⟩
abbrev main_call5_v3 : Ref sig .tc := ⟨.hbm, 57, rfl⟩
abbrev main_call5_v4 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_c_8 : Ref sig .tc := ⟨.hbm, 66, rfl⟩
abbrev main_v27 : Ref sig .tc := ⟨.hbm, 67, rfl⟩
abbrev main_v28 : Ref sig .tc := ⟨.hbm, 68, rfl⟩
abbrev main_c_9 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_c_10 : Ref sig .tc := ⟨.hbm, 75, rfl⟩
abbrev main_call7_v0 : Ref sig .tc := ⟨.hbm, 76, rfl⟩
abbrev main_v34 : Ref sig .tc := ⟨.hbm, 77, rfl⟩
abbrev main_v35 : Ref sig .tc := ⟨.hbm, 78, rfl⟩
abbrev main_c_11 : Ref sig .tc := ⟨.hbm, 79, rfl⟩
abbrev main_call8_v0 : Ref sig .tc := ⟨.hbm, 80, rfl⟩
abbrev main_v36 : Ref sig .tc := ⟨.hbm, 81, rfl⟩
abbrev main_v37 : Ref sig .tc := ⟨.hbm, 82, rfl⟩
abbrev main_c_12 : Ref sig .tc := ⟨.hbm, 83, rfl⟩
abbrev main_v38 : Ref sig .tc := ⟨.hbm, 84, rfl⟩
abbrev main_v39 : Ref sig .tc := ⟨.hbm, 85, rfl⟩
abbrev main_c_13 : Ref sig .tc := ⟨.hbm, 86, rfl⟩
abbrev main_c_14 : Ref sig .tc := ⟨.hbm, 87, rfl⟩
abbrev main_call9_v0 : Ref sig .tc := ⟨.hbm, 88, rfl⟩
abbrev main_call9_v1 : Ref sig .tc := ⟨.hbm, 89, rfl⟩
abbrev main_call9_v2 : Ref sig .tc := ⟨.hbm, 90, rfl⟩
abbrev main_call9_v3 : Ref sig .tc := ⟨.hbm, 91, rfl⟩
abbrev main_call9_v4 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_c_15 : Ref sig .tc := ⟨.hbm, 100, rfl⟩
abbrev main_v47 : Ref sig .tc := ⟨.hbm, 101, rfl⟩
abbrev main_v48 : Ref sig .tc := ⟨.hbm, 102, rfl⟩
abbrev main_c_16 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_c_17 : Ref sig .tc := ⟨.hbm, 109, rfl⟩
abbrev main_call11_v0 : Ref sig .tc := ⟨.hbm, 110, rfl⟩
abbrev main_v54 : Ref sig .tc := ⟨.hbm, 111, rfl⟩
abbrev main_v55 : Ref sig .tc := ⟨.hbm, 112, rfl⟩
abbrev main_c_18 : Ref sig .tc := ⟨.hbm, 113, rfl⟩
abbrev main_call12_v0 : Ref sig .tc := ⟨.hbm, 114, rfl⟩
abbrev main_v56 : Ref sig .tc := ⟨.hbm, 115, rfl⟩
abbrev main_v57 : Ref sig .tc := ⟨.hbm, 116, rfl⟩
abbrev main_c_19 : Ref sig .tc := ⟨.hbm, 117, rfl⟩
abbrev main_v58 : Ref sig .tc := ⟨.hbm, 118, rfl⟩
abbrev main_v59 : Ref sig .tc := ⟨.hbm, 119, rfl⟩
abbrev main_c_20 : Ref sig .tc := ⟨.hbm, 120, rfl⟩
abbrev main_c_21 : Ref sig .tc := ⟨.hbm, 121, rfl⟩
abbrev main_call13_v0 : Ref sig .tc := ⟨.hbm, 122, rfl⟩
abbrev main_call13_v1 : Ref sig .tc := ⟨.hbm, 123, rfl⟩
abbrev main_call13_v2 : Ref sig .tc := ⟨.hbm, 124, rfl⟩
abbrev main_call13_v3 : Ref sig .tc := ⟨.hbm, 125, rfl⟩
abbrev main_call13_v4 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_c_22 : Ref sig .tc := ⟨.hbm, 134, rfl⟩
abbrev main_v67 : Ref sig .tc := ⟨.hbm, 135, rfl⟩
abbrev main_v68 : Ref sig .tc := ⟨.hbm, 136, rfl⟩
abbrev main_c_23 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc1_scratch3 : Ref sig .tc := ⟨.vmem, 23, rfl⟩
abbrev cc2_stg0_0 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg5_0 : Ref sig .tc := ⟨.vmem, 31, rfl⟩
abbrev cc2_scratch0 : Ref sig .tc := ⟨.vmem, 32, rfl⟩
abbrev cc2_scratch1 : Ref sig .tc := ⟨.vmem, 33, rfl⟩
abbrev cc2_scratch2 : Ref sig .tc := ⟨.vmem, 34, rfl⟩
abbrev cc2_scratch3 : Ref sig .tc := ⟨.vmem, 35, rfl⟩
abbrev cc3_stg0_0 : Ref sig .tc := ⟨.vmem, 36, rfl⟩
abbrev cc3_stg1_0 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc3_stg5_0 : Ref sig .tc := ⟨.vmem, 43, rfl⟩
abbrev cc3_scratch0 : Ref sig .tc := ⟨.vmem, 44, rfl⟩
abbrev cc3_scratch1 : Ref sig .tc := ⟨.vmem, 45, rfl⟩
abbrev cc3_scratch2 : Ref sig .tc := ⟨.vmem, 46, rfl⟩
abbrev cc3_scratch3 : Ref sig .tc := ⟨.vmem, 47, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc2_sem0_0 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem5_0 : DmaSem sig := 23
abbrev cc3_sem0_0 : DmaSem sig := 24
abbrev cc3_sem1_0 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem5_0 : DmaSem sig := 31

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v73 : BitVec 1 := Scalar.cmpi .eq arg0 c19_i32
  let v74 : BitVec 32 := Scalar.extui v73
  let c0_i32_30 : BitVec 32 := 0#32
  let v75 : BitVec 1 := Scalar.cmpi .ne v74 c0_i32_30
  v75

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v54 : BitVec 1 := Scalar.cmpi .eq arg0 c19_i32
  let v55 : BitVec 32 := Scalar.extui v54
  let c0_i32_24 : BitVec 32 := 0#32
  let v56 : BitVec 1 := Scalar.cmpi .ne v55 c0_i32_24
  v56

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  ![arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S512x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1024x1 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![157], ![false]⟩

def k2_cond2 (i : grid2.Coords) : BitVec 1 :=
  let arg0 : BitVec 32 := BitVec.ofNat 32 (i 0).val
  let c156_i32 : BitVec 32 := 156#32
  let v54 : BitVec 1 := Scalar.cmpi .eq arg0 c156_i32
  let v55 : BitVec 32 := Scalar.extui v54
  let c0_i32_24 : BitVec 32 := 0#32
  let v56 : BitVec 1 := Scalar.cmpi .ne v55 c0_i32_24
  v56

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  ![arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x512 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S512x32 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x32 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1024x1 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![67], ![false]⟩

def k3_cond2 (i : grid3.Coords) : BitVec 1 :=
  let arg0 : BitVec 32 := BitVec.ofNat 32 (i 0).val
  let c66_i32 : BitVec 32 := 66#32
  let v54 : BitVec 1 := Scalar.cmpi .eq arg0 c66_i32
  let v55 : BitVec 32 := Scalar.extui v54
  let c0_i32_24 : BitVec 32 := 0#32
  let v56 : BitVec 1 := Scalar.cmpi .ne v55 c0_i32_24
  v56

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  ![arg0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1024x512 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S512x8 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1024x8 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1024x1 .i32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1024x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  bitsLt_bf16_f32 : FTy.bits .bf16 < FTy.bits .f32
  concatenates_S20000x512_S3x512_S20003x512_d0 : Shape.Concatenates [S20000x512, S3x512] S20003x512 0
  concatenates_S20000_S3_S20003_d0 : Shape.Concatenates [S20000, S3] S20003 0
  pads_S20003x512_S20480x512_04770_000 : S20003x512.Pads (![0, 0] : Fin 2 → Nat) ![477, 0] ![0, 0] S20480x512
  h_S_ : 0 < S_.numel
  pads_S20003_S20480_04770 : S20003.Pads (![0] : Fin 1 → Nat) ![477] ![0] S20480
  bcast_S_S1024 : S_.BroadcastsInDim S1024 (![] : Fin 0 → Fin S1024.rank)
  shapeCasts_S1024_S1024x1 : S1024.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S1024x512_S1024x512_0_0 : (Rect.unit (s := S1024x512) ![0, 0] S1024x512.size inb_S1024x512_S1024x512_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x4_S1024x4_0_0 : ∀ a, (![0, 0] : Fin 2 → Nat) a + S1024x4.size a ≤ S1024x4.size a
  h_S1024x4 : 0 < S1024x4.numel
  shapeCasts_S1024x4_S1024x4 : S1024x4.ShapeCasts S1024x4
  transposes_S1024x512_p1_0_S512x1024 : S1024x512.Transposes [1, 0] S512x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S1024x1024 : S1x1024.Broadcasts S1024x1024
  iota_S1024x1024_d1_w32 : S1024x1024.Iotas .tc 32 [1]
  reduces_S1024x1024_S1024 : S1024x1024.Reduces [1] S1024
  broadcasts_S1024x1_S1024x1024 : S1024x1.Broadcasts S1024x1024
  concatenates_S1024x1_S1024x1_S1024x1_S1024x1_S1024x4_d1 : Shape.Concatenates [S1024x1, S1024x1, S1024x1, S1024x1] S1024x4 1
  broadcasts_S1024x1_S1024x4 : S1024x1.Broadcasts S1024x4
  slices_S1024x4_S1024x1_0_0 : S1024x4.Slices ![0, 0] S1024x1
  shapeCasts_S1024x1_S1024 : S1024x1.ShapeCasts S1024
  slices_S1024x4_S1024x3_0_1 : S1024x4.Slices ![0, 1] S1024x3
  pads_S20000x128_S20480x128_04800_000 : S20000x128.Pads (![0, 0] : Fin 2 → Nat) ![480, 0] ![0, 0] S20480x128
  pads_S20000_S20480_04800 : S20000.Pads (![0] : Fin 1 → Nat) ![480] ![0] S20480
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  packedbf16_S1024x128_S1024x128_0_0 : (Rect.unit (s := S1024x128) ![0, 0] S1024x128.size inb_S1024x128_S1024x128_0_0).PackedRows (EltTy.packing .bf16)
  transposes_S1024x128_p1_0_S128x1024 : S1024x128.Transposes [1, 0] S128x1024
  slices_S1024x3_S1024x1_0_0 : S1024x3.Slices ![0, 0] S1024x1
  pads_S160000x32_S160768x32_07680_000 : S160000x32.Pads (![0, 0] : Fin 2 → Nat) ![768, 0] ![0, 0] S160768x32
  pads_S160000_S160768_07680 : S160000.Pads (![0] : Fin 1 → Nat) ![768] ![0] S160768
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  packedbf16_S1024x32_S1024x32_0_0 : (Rect.unit (s := S1024x32) ![0, 0] S1024x32.size inb_S1024x32_S1024x32_0_0).PackedRows (EltTy.packing .bf16)
  transposes_S1024x32_p1_0_S32x1024 : S1024x32.Transposes [1, 0] S32x1024
  slices_S1024x3_S1024x1_0_1 : S1024x3.Slices ![0, 1] S1024x1
  pads_S67735x8_S68608x8_08730_000 : S67735x8.Pads (![0, 0] : Fin 2 → Nat) ![873, 0] ![0, 0] S68608x8
  pads_S67735_S68608_08730 : S67735.Pads (![0] : Fin 1 → Nat) ![873] ![0] S68608
  inb_S512x8_S512x8_0_0 : ∀ a, (![0, 0] : Fin 2 → Nat) a + S512x8.size a ≤ S512x8.size a
  h_S512x8 : 0 < S512x8.numel
  shapeCasts_S512x8_S512x8 : S512x8.ShapeCasts S512x8
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  packedbf16_S1024x8_S1024x8_0_0 : (Rect.unit (s := S1024x8) ![0, 0] S1024x8.size inb_S1024x8_S1024x8_0_0).PackedRows (EltTy.packing .bf16)
  transposes_S1024x8_p1_0_S8x1024 : S1024x8.Transposes [1, 0] S8x1024
  slices_S1024x3_S1024x1_0_2 : S1024x3.Slices ![0, 2] S1024x1
  dot_S1024x512_S512x512_S1024x512_1_0_0_1_n_n_wf : DotDims.WF S1024x512 S512x512 S1024x512 [1] [0] [0] [1] [] []
  dot_S1024x512_S512x1024_S1024x1024_1_0_0_1_n_n_wf : DotDims.WF S1024x512 S512x1024 S1024x1024 [1] [0] [0] [1] [] []
  dot_S1024x512_S512x128_S1024x128_1_0_0_1_n_n_wf : DotDims.WF S1024x512 S512x128 S1024x128 [1] [0] [0] [1] [] []
  dot_S1024x128_S128x1024_S1024x1024_1_0_0_1_n_n_wf : DotDims.WF S1024x128 S128x1024 S1024x1024 [1] [0] [0] [1] [] []
  dot_S1024x512_S512x32_S1024x32_1_0_0_1_n_n_wf : DotDims.WF S1024x512 S512x32 S1024x32 [1] [0] [0] [1] [] []
  dot_S1024x32_S32x1024_S1024x1024_1_0_0_1_n_n_wf : DotDims.WF S1024x32 S32x1024 S1024x1024 [1] [0] [0] [1] [] []
  dot_S1024x512_S512x8_S1024x8_1_0_0_1_n_n_wf : DotDims.WF S1024x512 S512x8 S1024x8 [1] [0] [0] [1] [] []
  dot_S1024x8_S8x1024_S1024x1024_1_0_0_1_n_n_wf : DotDims.WF S1024x8 S8x1024 S1024x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .bf16 = 32 ∨ (Rect.block (s := S1024x512) S1024x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S20480x512.size a
  hwx0_2 : ∀ i : grid0.Coords, EltTy.bits .bf16 = 32 ∨ (Rect.block (s := S20480x512) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S20480.size a
  hwx0_3 : ∀ i : grid0.Coords, EltTy.bits .f32 = 32 ∨ (Rect.block (s := S20480) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S1024x1.size a
  hwx0_4 : ∀ i : grid0.Coords, EltTy.bits .i32 = 32 ∨ (Rect.block (s := S1024x1) S1024x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4.size a ≤ S1024x4.size a
  hwx0_5 : ∀ i : grid0.Coords, EltTy.bits .f32 = 32 ∨ (Rect.block (s := S1024x4) S1024x4.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S1024x512.size a
  hwx1_0 : ∀ i : grid1.Coords, EltTy.bits .bf16 = 32 ∨ (Rect.block (s := S1024x512) S1024x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .bf16 = 32 ∨ (Rect.block (s := S512x128) S512x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S20480x128.size a
  hwx1_2 : ∀ i : grid1.Coords, EltTy.bits .bf16 = 32 ∨ (Rect.block (s := S20480x128) S1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024.size a ≤ S20480.size a
  hwx1_3 : ∀ i : grid1.Coords, EltTy.bits .f32 = 32 ∨ (Rect.block (s := S20480) S1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S1024x1.size a
  hwx1_4 : ∀ i : grid1.Coords, EltTy.bits .i32 = 32 ∨ (Rect.block (s := S1024x1) S1024x1.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S1024x1.size a
  hwx1_5 : ∀ i : grid1.Coords, EltTy.bits .f32 = 32 ∨ (Rect.block (s := S1024x1) S1024x1.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S1024x512.size a
  hwx2_0 : ∀ i : grid2.Coords, EltTy.bits .bf16 = 32 ∨ (Rect.block (s := S1024x512) S1024x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x32.size a ≤ S512x32.size a
  hwx2_1 : ∀ i : grid2.Coords, EltTy.bits .bf16 = 32 ∨ (Rect.block (s := S512x32) S512x32.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x32.size a ≤ S160768x32.size a
  hwx2_2 : ∀ i : grid2.Coords, EltTy.bits .bf16 = 32 ∨ (Rect.block (s := S160768x32) S1024x32.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024.size a ≤ S160768.size a
  hwx2_3 : ∀ i : grid2.Coords, EltTy.bits .f32 = 32 ∨ (Rect.block (s := S160768) S1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024x1.size a ≤ S1024x1.size a
  hwx2_4 : ∀ i : grid2.Coords, EltTy.bits .i32 = 32 ∨ (Rect.block (s := S1024x1) S1024x1.size (cc2_transform_4 i) (hinb2_4 i)).WholeWords (EltTy.packing .i32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x1.size a ≤ S1024x1.size a
  hwx2_5 : ∀ i : grid2.Coords, EltTy.bits .f32 = 32 ∨ (Rect.block (s := S1024x1) S1024x1.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1024x512.size a ≤ S1024x512.size a
  hwx3_0 : ∀ i : grid3.Coords, EltTy.bits .bf16 = 32 ∨ (Rect.block (s := S1024x512) S1024x512.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x8.size a ≤ S512x8.size a
  hwx3_1 : ∀ i : grid3.Coords, EltTy.bits .bf16 = 32 ∨ (Rect.block (s := S512x8) S512x8.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x8.size a ≤ S68608x8.size a
  hwx3_2 : ∀ i : grid3.Coords, EltTy.bits .bf16 = 32 ∨ (Rect.block (s := S68608x8) S1024x8.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024.size a ≤ S68608.size a
  hwx3_3 : ∀ i : grid3.Coords, EltTy.bits .f32 = 32 ∨ (Rect.block (s := S68608) S1024.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1024x1.size a ≤ S1024x1.size a
  hwx3_4 : ∀ i : grid3.Coords, EltTy.bits .i32 = 32 ∨ (Rect.block (s := S1024x1) S1024x1.size (cc3_transform_4 i) (hinb3_4 i)).WholeWords (EltTy.packing .i32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1024x1.size a ≤ S1024x1.size a
  hwx3_5 : ∀ i : grid3.Coords, EltTy.bits .f32 = 32 ∨ (Rect.block (s := S1024x1) S1024x1.size (cc3_transform_5 i) (hinb3_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf
def dot_S1024x32_S32x1024_S1024x1024_1_0_0_1_n_n : DotDims S1024x32 S32x1024 S1024x1024 where
  lhsContracting := [1]
  rhsContracting := [0]
  lhsNonContracting := [0]
  rhsNonContracting := [1]
  lhsBatch := []
  rhsBatch := []
  wf := dot_S1024x32_S32x1024_S1024x1024_1_0_0_1_n_n_wf
def dot_S1024x512_S512x8_S1024x8_1_0_0_1_n_n : DotDims S1024x512 S512x8 S1024x8 where
  lhsContracting := [1]
  rhsContracting := [0]
  lhsNonContracting := [0]
  rhsNonContracting := [1]
  lhsBatch := []
  rhsBatch := []
  wf := dot_S1024x512_S512x8_S1024x8_1_0_0_1_n_n_wf
def dot_S1024x8_S8x1024_S1024x1024_1_0_0_1_n_n : DotDims S1024x8 S8x1024 S1024x1024 where
  lhsContracting := [1]
  rhsContracting := [0]
  lhsNonContracting := [0]
  rhsNonContracting := [1]
  lhsBatch := []
  rhsBatch := []
  wf := dot_S1024x8_S8x1024_S1024x1024_1_0_0_1_n_n_wf

abbrev win0_0 : Pipeline.Window sig grid0 :=
  Pipeline.Window.ofSpec (Memref.whole main_v0) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1024x4.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v0) S1024x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v17) S512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1024x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1024x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v0) S1024x512.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v37) S512x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1024x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1024x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S1024x1.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v0) S1024x512.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v57) S512x8.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1024x8.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v56) S1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v61) S1024x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v62) S1024x1.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== ReferenceIdeal.lean ====
abbrev S1024x512 : Shape := ⟨2, ![1024, 512]⟩
abbrev S1024 : Shape := ⟨1, ![1024]⟩
abbrev S20000x512 : Shape := ⟨2, ![20000, 512]⟩
abbrev S20000 : Shape := ⟨1, ![20000]⟩
abbrev S512x512 : Shape := ⟨2, ![512, 512]⟩
abbrev S20000x128 : Shape := ⟨2, ![20000, 128]⟩
abbrev S512x128 : Shape := ⟨2, ![512, 128]⟩
abbrev S160000x32 : Shape := ⟨2, ![160000, 32]⟩
abbrev S160000 : Shape := ⟨1, ![160000]⟩
abbrev S512x32 : Shape := ⟨2, ![512, 32]⟩
abbrev S67735x8 : Shape := ⟨2, ![67735, 8]⟩
abbrev S67735 : Shape := ⟨1, ![67735]⟩
abbrev S512x8 : Shape := ⟨2, ![512, 8]⟩
abbrev S3x512 : Shape := ⟨2, ![3, 512]⟩
abbrev S3 : Shape := ⟨1, ![3]⟩
abbrev S20003x512 : Shape := ⟨2, ![20003, 512]⟩
abbrev S20003 : Shape := ⟨1, ![20003]⟩
abbrev S512x20003 : Shape := ⟨2, ![512, 20003]⟩
abbrev S1024x20003 : Shape := ⟨2, ![1024, 20003]⟩
abbrev S1x20003 : Shape := ⟨2, ![1, 20003]⟩
abbrev S_ : Shape := ⟨0, ![]⟩
abbrev S1024x1 : Shape := ⟨2, ![1024, 1]⟩
abbrev S1024x2 : Shape := ⟨2, ![1024, 2]⟩
abbrev S1024x128 : Shape := ⟨2, ![1024, 128]⟩
abbrev S128x20000 : Shape := ⟨2, ![128, 20000]⟩
abbrev S1024x20000 : Shape := ⟨2, ![1024, 20000]⟩
abbrev S1x20000 : Shape := ⟨2, ![1, 20000]⟩
abbrev S1024x32 : Shape := ⟨2, ![1024, 32]⟩
abbrev S32x160000 : Shape := ⟨2, ![32, 160000]⟩
abbrev S1024x160000 : Shape := ⟨2, ![1024, 160000]⟩
abbrev S1x160000 : Shape := ⟨2, ![1, 160000]⟩
abbrev S1024x8 : Shape := ⟨2, ![1024, 8]⟩
abbrev S8x67735 : Shape := ⟨2, ![8, 67735]⟩
abbrev S1024x67735 : Shape := ⟨2, ![1024, 67735]⟩
abbrev S1x67735 : Shape := ⟨2, ![1, 67735]⟩

abbrev nBuf : Space → Nat
  | .hbm => 255
  | .vmem => 0
  | .smem => 0
  | _ => 0

abbrev hbmTy0_0 (i : Nat) : BufTy := match i % 128 with
  | 0 => ⟨S1024x512, .f32⟩
  | 1 => ⟨S1024, .i32⟩
  | 2 => ⟨S20000x512, .f32⟩
  | 3 => ⟨S20000, .f32⟩
  | 4 => ⟨S512x512, .f32⟩
  | 5 => ⟨S20000x128, .f32⟩
  | 6 => ⟨S20000, .f32⟩
  | 7 => ⟨S512x128, .f32⟩
  | 8 => ⟨S160000x32, .f32⟩
  | 9 => ⟨S160000, .f32⟩
  | 10 => ⟨S512x32, .f32⟩
  | 11 => ⟨S67735x8, .f32⟩
  | 12 => ⟨S67735, .f32⟩
  | 13 => ⟨S512x8, .f32⟩
  | 14 => ⟨S3x512, .f32⟩
  | 15 => ⟨S3, .f32⟩
  | 16 => ⟨S1024, .i32⟩
  | 17 => ⟨S20003x512, .f32⟩
  | 18 => ⟨S20003, .f32⟩
  | 19 => ⟨S1024x512, .f32⟩
  | 20 => ⟨S512x20003, .f32⟩
  | 21 => ⟨S1024x20003, .f32⟩
  | 22 => ⟨S1x20003, .f32⟩
  | 23 => ⟨S1024x20003, .f32⟩
  | 24 => ⟨S1024x20003, .f32⟩
  | 25 => ⟨S_, .f32⟩
  | 26 => ⟨S1024, .f32⟩
  | 27 => ⟨S_, .f32⟩
  | 28 => ⟨S1024, .f32⟩
  | 29 => ⟨S1024, .f32⟩
  | 30 => ⟨S1024x1, .f32⟩
  | 31 => ⟨S1024x20003, .f32⟩
  | 32 => ⟨S1024x20003, .f32⟩
  | 33 => ⟨S1024x20003, .f32⟩
  | 34 => ⟨S_, .f32⟩
  | 35 => ⟨S1024, .f32⟩
  | 36 => ⟨S1024x1, .f32⟩
  | 37 => ⟨S1024x1, .f32⟩
  | 38 => ⟨S1024x20003, .f32⟩
  | 39 => ⟨S1024x20003, .f32⟩
  | 40 => ⟨S_, .i32⟩
  | 41 => ⟨S1024, .i32⟩
  | 42 => ⟨S1024, .i1⟩
  | 43 => ⟨S1024, .i32⟩
  | 44 => ⟨S_, .i32⟩
  | 45 => ⟨S1024, .i32⟩
  | 46 => ⟨S1024, .i1⟩
  | 47 => ⟨S1024, .i32⟩
  | 48 => ⟨S1024, .i32⟩
  | 49 => ⟨S_, .i32⟩
  | 50 => ⟨S1024, .i32⟩
  | 51 => ⟨S1024, .i1⟩
  | 52 => ⟨S1024, .i32⟩
  | 53 => ⟨S1024, .i32⟩
  | 54 => ⟨S_, .i32⟩
  | 55 => ⟨S_, .i32⟩
  | 56 => ⟨S_, .i32⟩
  | 57 => ⟨S1024, .i32⟩
  | 58 => ⟨S1024, .i32⟩
  | 59 => ⟨S_, .i32⟩
  | 60 => ⟨S1024, .i32⟩
  | 61 => ⟨S1024, .i32⟩
  | 62 => ⟨S_, .i32⟩
  | 63 => ⟨S1024, .i32⟩
  | 64 => ⟨S1024, .i1⟩
  | 65 => ⟨S_, .i32⟩
  | 66 => ⟨S1024, .i32⟩
  | 67 => ⟨S1024, .i32⟩
  | 68 => ⟨S1024, .i32⟩
  | 69 => ⟨S_, .i32⟩
  | 70 => ⟨S1024, .i32⟩
  | 71 => ⟨S1024, .i1⟩
  | 72 => ⟨S_, .i32⟩
  | 73 => ⟨S1024, .i32⟩
  | 74 => ⟨S1024, .i32⟩
  | 75 => ⟨S1024, .i32⟩
  | 76 => ⟨S1024x1, .i32⟩
  | 77 => ⟨S1024x1, .i32⟩
  | 78 => ⟨S1024x2, .i32⟩
  | 79 => ⟨S1024, .f32⟩
  | 80 => ⟨S1024, .f32⟩
  | 81 => ⟨S1024x128, .f32⟩
  | 82 => ⟨S128x20000, .f32⟩
  | 83 => ⟨S1024x20000, .f32⟩
  | 84 => ⟨S1x20000, .f32⟩
  | 85 => ⟨S1024x20000, .f32⟩
  | 86 => ⟨S1024x20000, .f32⟩
  | 87 => ⟨S_, .f32⟩
  | 88 => ⟨S1024, .f32⟩
  | 89 => ⟨S_, .f32⟩
  | 90 => ⟨S1024, .f32⟩
  | 91 => ⟨S1024, .f32⟩
  | 92 => ⟨S1024x1, .f32⟩
  | 93 => ⟨S1024x20000, .f32⟩
  | 94 => ⟨S1024x20000, .f32⟩
  | 95 => ⟨S1024x20000, .f32⟩
  | 96 => ⟨S_, .f32⟩
  | 97 => ⟨S1024, .f32⟩
  | 98 => ⟨S1024x1, .f32⟩
  | 99 => ⟨S1024x1, .f32⟩
  | 100 => ⟨S1024x20000, .f32⟩
  | 101 => ⟨S1024x20000, .f32⟩
  | 102 => ⟨S_, .i32⟩
  | 103 => ⟨S1024, .i32⟩
  | 104 => ⟨S1024, .i32⟩
  | 105 => ⟨S_, .i32⟩
  | 106 => ⟨S_, .i32⟩
  | 107 => ⟨S_, .i32⟩
  | 108 => ⟨S1024, .i32⟩
  | 109 => ⟨S1024, .i32⟩
  | 110 => ⟨S_, .i32⟩
  | 111 => ⟨S1024, .i32⟩
  | 112 => ⟨S1024, .i32⟩
  | 113 => ⟨S1024x1, .f32⟩
  | 114 => ⟨S1024, .f32⟩
  | 115 => ⟨S_, .i32⟩
  | 116 => ⟨S1024, .i32⟩
  | 117 => ⟨S1024, .i1⟩
  | 118 => ⟨S_, .i32⟩
  | 119 => ⟨S1024, .i32⟩
  | 120 => ⟨S1024, .i32⟩
  | 121 => ⟨S1024, .i32⟩
  | 122 => ⟨S_, .i32⟩
  | 123 => ⟨S1024, .i32⟩
  | 124 => ⟨S1024, .i1⟩
  | 125 => ⟨S_, .i32⟩
  | 126 => ⟨S1024, .i32⟩
  | 127 => ⟨S1024, .i32⟩
  | _ => ⟨S1024x512, .f32⟩

abbrev hbmTy0_1 (i : Nat) : BufTy := match i % 128 with
  | 0 => ⟨S1024, .i32⟩
  | 1 => ⟨S1024x1, .i32⟩
  | 2 => ⟨S1024x1, .i32⟩
  | 3 => ⟨S1024x2, .i32⟩
  | 4 => ⟨S1024, .f32⟩
  | 5 => ⟨S1024, .f32⟩
  | 6 => ⟨S_, .i32⟩
  | 7 => ⟨S1024, .i32⟩
  | 8 => ⟨S1024, .i1⟩
  | 9 => ⟨S1024, .f32⟩
  | 10 => ⟨S1024, .f32⟩
  | 11 => ⟨S1024x32, .f32⟩
  | 12 => ⟨S32x160000, .f32⟩
  | 13 => ⟨S1024x160000, .f32⟩
  | 14 => ⟨S1x160000, .f32⟩
  | 15 => ⟨S1024x160000, .f32⟩
  | 16 => ⟨S1024x160000, .f32⟩
  | 17 => ⟨S_, .f32⟩
  | 18 => ⟨S1024, .f32⟩
  | 19 => ⟨S_, .f32⟩
  | 20 => ⟨S1024, .f32⟩
  | 21 => ⟨S1024, .f32⟩
  | 22 => ⟨S1024x1, .f32⟩
  | 23 => ⟨S1024x160000, .f32⟩
  | 24 => ⟨S1024x160000, .f32⟩
  | 25 => ⟨S1024x160000, .f32⟩
  | 26 => ⟨S_, .f32⟩
  | 27 => ⟨S1024, .f32⟩
  | 28 => ⟨S1024x1, .f32⟩
  | 29 => ⟨S1024x1, .f32⟩
  | 30 => ⟨S1024x160000, .f32⟩
  | 31 => ⟨S1024x160000, .f32⟩
  | 32 => ⟨S_, .i32⟩
  | 33 => ⟨S1024, .i32⟩
  | 34 => ⟨S1024, .i32⟩
  | 35 => ⟨S_, .i32⟩
  | 36 => ⟨S_, .i32⟩
  | 37 => ⟨S_, .i32⟩
  | 38 => ⟨S1024, .i32⟩
  | 39 => ⟨S1024, .i32⟩
  | 40 => ⟨S_, .i32⟩
  | 41 => ⟨S1024, .i32⟩
  | 42 => ⟨S1024, .i32⟩
  | 43 => ⟨S1024x1, .f32⟩
  | 44 => ⟨S1024, .f32⟩
  | 45 => ⟨S_, .i32⟩
  | 46 => ⟨S1024, .i32⟩
  | 47 => ⟨S1024, .i1⟩
  | 48 => ⟨S_, .i32⟩
  | 49 => ⟨S1024, .i32⟩
  | 50 => ⟨S1024, .i32⟩
  | 51 => ⟨S1024, .i32⟩
  | 52 => ⟨S_, .i32⟩
  | 53 => ⟨S1024, .i32⟩
  | 54 => ⟨S1024, .i1⟩
  | 55 => ⟨S_, .i32⟩
  | 56 => ⟨S1024, .i32⟩
  | 57 => ⟨S1024, .i32⟩
  | 58 => ⟨S1024, .i32⟩
  | 59 => ⟨S1024x1, .i32⟩
  | 60 => ⟨S1024x1, .i32⟩
  | 61 => ⟨S1024x2, .i32⟩
  | 62 => ⟨S1024, .f32⟩
  | 63 => ⟨S1024, .f32⟩
  | 64 => ⟨S_, .i32⟩
  | 65 => ⟨S1024, .i32⟩
  | 66 => ⟨S1024, .i1⟩
  | 67 => ⟨S1024, .f32⟩
  | 68 => ⟨S1024, .f32⟩
  | 69 => ⟨S1024x8, .f32⟩
  | 70 => ⟨S8x67735, .f32⟩
  | 71 => ⟨S1024x67735, .f32⟩
  | 72 => ⟨S1x67735, .f32⟩
  | 73 => ⟨S1024x67735, .f32⟩
  | 74 => ⟨S1024x67735, .f32⟩
  | 75 => ⟨S_, .f32⟩
  | 76 => ⟨S1024, .f32⟩
  | 77 => ⟨S_, .f32⟩
  | 78 => ⟨S1024, .f32⟩
  | 79 => ⟨S1024, .f32⟩
  | 80 => ⟨S1024x1, .f32⟩
  | 81 => ⟨S1024x67735, .f32⟩
  | 82 => ⟨S1024x67735, .f32⟩
  | 83 => ⟨S1024x67735, .f32⟩
  | 84 => ⟨S_, .f32⟩
  | 85 => ⟨S1024, .f32⟩
  | 86 => ⟨S1024x1, .f32⟩
  | 87 => ⟨S1024x1, .f32⟩
  | 88 => ⟨S1024x67735, .f32⟩
  | 89 => ⟨S1024x67735, .f32⟩
  | 90 => ⟨S_, .i32⟩
  | 91 => ⟨S1024, .i32⟩
  | 92 => ⟨S1024, .i32⟩
  | 93 => ⟨S_, .i32⟩
  | 94 => ⟨S_, .i32⟩
  | 95 => ⟨S_, .i32⟩
  | 96 => ⟨S1024, .i32⟩
  | 97 => ⟨S1024, .i32⟩
  | 98 => ⟨S_, .i32⟩
  | 99 => ⟨S1024, .i32⟩
  | 100 => ⟨S1024, .i32⟩
  | 101 => ⟨S1024x1, .f32⟩
  | 102 => ⟨S1024, .f32⟩
  | 103 => ⟨S_, .i32⟩
  | 104 => ⟨S1024, .i32⟩
  | 105 => ⟨S1024, .i1⟩
  | 106 => ⟨S_, .i32⟩
  | 107 => ⟨S1024, .i32⟩
  | 108 => ⟨S1024, .i32⟩
  | 109 => ⟨S1024, .i32⟩
  | 110 => ⟨S_, .i32⟩
  | 111 => ⟨S1024, .i32⟩
  | 112 => ⟨S1024, .i1⟩
  | 113 => ⟨S_, .i32⟩
  | 114 => ⟨S1024, .i32⟩
  | 115 => ⟨S1024, .i32⟩
  | 116 => ⟨S1024, .i32⟩
  | 117 => ⟨S1024x1, .i32⟩
  | 118 => ⟨S1024x1, .i32⟩
  | 119 => ⟨S1024x2, .i32⟩
  | 120 => ⟨S1024, .f32⟩
  | 121 => ⟨S1024, .f32⟩
  | 122 => ⟨S_, .i32⟩
  | 123 => ⟨S1024, .i32⟩
  | 124 => ⟨S1024, .i1⟩
  | 125 => ⟨S1024, .f32⟩
  | 126 => ⟨S1024, .f32⟩
  | _ => ⟨S1024x512, .f32⟩

abbrev hbmTy (i : Nat) : BufTy := match i / 128 with
  | 0 => hbmTy0_0 i
  | 1 => hbmTy0_1 i
  | _ => ⟨S1024x512, .f32⟩

abbrev bufTy : (tb : Table) → Fin (tcTables nBuf tb) → BufTy
  | .hbm, ⟨i, _⟩ => hbmTy i
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call0_cst : Ref sig .tc := ⟨.hbm, 25, rfl⟩
abbrev main_call0_v0 : Ref sig .tc := ⟨.hbm, 26, rfl⟩
abbrev main_call0_cst_0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_cst_1 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_v9 : Ref sig .tc := ⟨.hbm, 39, rfl⟩
abbrev main_c : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_c_0 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_c_1 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_c_2 : Ref sig .tc := ⟨.hbm, 54, rfl⟩
abbrev main_c_3 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v21 : Ref sig .tc := ⟨.hbm, 61, rfl⟩
abbrev main_c_4 : Ref sig .tc := ⟨.hbm, 62, rfl⟩
abbrev main_v22 : Ref sig .tc := ⟨.hbm, 63, rfl⟩
abbrev main_v23 : Ref sig .tc := ⟨.hbm, 64, rfl⟩
abbrev main_c_5 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_c_6 : Ref sig .tc := ⟨.hbm, 69, rfl⟩
abbrev main_v27 : Ref sig .tc := ⟨.hbm, 70, rfl⟩
abbrev main_v28 : Ref sig .tc := ⟨.hbm, 71, rfl⟩
abbrev main_c_7 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_call2_cst : Ref sig .tc := ⟨.hbm, 87, rfl⟩
abbrev main_call2_v0 : Ref sig .tc := ⟨.hbm, 88, rfl⟩
abbrev main_call2_cst_0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_v6 : Ref sig .tc := ⟨.hbm, 95, rfl⟩
abbrev main_call2_cst_1 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_v43 : Ref sig .tc := ⟨.hbm, 101, rfl⟩
abbrev main_c_8 : Ref sig .tc := ⟨.hbm, 102, rfl⟩
abbrev main_v44 : Ref sig .tc := ⟨.hbm, 103, rfl⟩
abbrev main_v45 : Ref sig .tc := ⟨.hbm, 104, rfl⟩
abbrev main_c_9 : Ref sig .tc := ⟨.hbm, 105, rfl⟩
abbrev main_c_10 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_c_11 : Ref sig .tc := ⟨.hbm, 115, rfl⟩
abbrev main_v49 : Ref sig .tc := ⟨.hbm, 116, rfl⟩
abbrev main_v50 : Ref sig .tc := ⟨.hbm, 117, rfl⟩
abbrev main_c_12 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_c_13 : Ref sig .tc := ⟨.hbm, 122, rfl⟩
abbrev main_v54 : Ref sig .tc := ⟨.hbm, 123, rfl⟩
abbrev main_v55 : Ref sig .tc := ⟨.hbm, 124, rfl⟩
abbrev main_c_14 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_c_15 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_call5_cst : Ref sig .tc := ⟨.hbm, 145, rfl⟩
abbrev main_call5_v0 : Ref sig .tc := ⟨.hbm, 146, rfl⟩
abbrev main_call5_cst_0 : Ref sig .tc := ⟨.hbm, 147, rfl⟩
abbrev main_call5_v1 : Ref sig .tc := ⟨.hbm, 148, rfl⟩
abbrev main_call5_v2 : Ref sig .tc := ⟨.hbm, 149, rfl⟩
abbrev main_call5_v3 : Ref sig .tc := ⟨.hbm, 150, rfl⟩
abbrev main_call5_v4 : Ref sig .tc := ⟨.hbm, 151, rfl⟩
abbrev main_call5_v5 : Ref sig .tc := ⟨.hbm, 152, rfl⟩
abbrev main_call5_v6 : Ref sig .tc := ⟨.hbm, 153, rfl⟩
abbrev main_call5_cst_1 : Ref sig .tc := ⟨.hbm, 154, rfl⟩
abbrev main_call5_v7 : Ref sig .tc := ⟨.hbm, 155, rfl⟩
abbrev main_call5_v8 : Ref sig .tc := ⟨.hbm, 156, rfl⟩
abbrev main_call5_v9 : Ref sig .tc := ⟨.hbm, 157, rfl⟩
abbrev main_call5_v10 : Ref sig .tc := ⟨.hbm, 158, rfl⟩
abbrev main_v74 : Ref sig .tc := ⟨.hbm, 159, rfl⟩
abbrev main_c_16 : Ref sig .tc := ⟨.hbm, 160, rfl⟩
abbrev main_v75 : Ref sig .tc := ⟨.hbm, 161, rfl⟩
abbrev main_v76 : Ref sig .tc := ⟨.hbm, 162, rfl⟩
abbrev main_c_17 : Ref sig .tc := ⟨.hbm, 163, rfl⟩
abbrev main_c_18 : Ref sig .tc := ⟨.hbm, 164, rfl⟩
abbrev main_call6_v0 : Ref sig .tc := ⟨.hbm, 165, rfl⟩
abbrev main_call6_v1 : Ref sig .tc := ⟨.hbm, 166, rfl⟩
abbrev main_call6_v2 : Ref sig .tc := ⟨.hbm, 167, rfl⟩
abbrev main_call6_v3 : Ref sig .tc := ⟨.hbm, 168, rfl⟩
abbrev main_call6_v4 : Ref sig .tc := ⟨.hbm, 169, rfl⟩
abbrev main_v77 : Ref sig .tc := ⟨.hbm, 170, rfl⟩
abbrev main_v78 : Ref sig .tc := ⟨.hbm, 171, rfl⟩
abbrev main_v79 : Ref sig .tc := ⟨.hbm, 172, rfl⟩
abbrev main_c_19 : Ref sig .tc := ⟨.hbm, 173, rfl⟩
abbrev main_v80 : Ref sig .tc := ⟨.hbm, 174, rfl⟩
abbrev main_v81 : Ref sig .tc := ⟨.hbm, 175, rfl⟩
abbrev main_c_20 : Ref sig .tc := ⟨.hbm, 176, rfl⟩
abbrev main_v82 : Ref sig .tc := ⟨.hbm, 177, rfl⟩
abbrev main_v83 : Ref sig .tc := ⟨.hbm, 178, rfl⟩
abbrev main_v84 : Ref sig .tc := ⟨.hbm, 179, rfl⟩
abbrev main_c_21 : Ref sig .tc := ⟨.hbm, 180, rfl⟩
abbrev main_v85 : Ref sig .tc := ⟨.hbm, 181, rfl⟩
abbrev main_v86 : Ref sig .tc := ⟨.hbm, 182, rfl⟩
abbrev main_c_22 : Ref sig .tc := ⟨.hbm, 183, rfl⟩
abbrev main_v87 : Ref sig .tc := ⟨.hbm, 184, rfl⟩
abbrev main_v88 : Ref sig .tc := ⟨.hbm, 185, rfl⟩
abbrev main_v89 : Ref sig .tc := ⟨.hbm, 186, rfl⟩
abbrev main_v90 : Ref sig .tc := ⟨.hbm, 187, rfl⟩
abbrev main_v91 : Ref sig .tc := ⟨.hbm, 188, rfl⟩
abbrev main_v92 : Ref sig .tc := ⟨.hbm, 189, rfl⟩
abbrev main_v93 : Ref sig .tc := ⟨.hbm, 190, rfl⟩
abbrev main_v94 : Ref sig .tc := ⟨.hbm, 191, rfl⟩
abbrev main_c_23 : Ref sig .tc := ⟨.hbm, 192, rfl⟩
abbrev main_v95 : Ref sig .tc := ⟨.hbm, 193, rfl⟩
abbrev main_v96 : Ref sig .tc := ⟨.hbm, 194, rfl⟩
abbrev main_v97 : Ref sig .tc := ⟨.hbm, 195, rfl⟩
abbrev main_v98 : Ref sig .tc := ⟨.hbm, 196, rfl⟩
abbrev main_v99 : Ref sig .tc := ⟨.hbm, 197, rfl⟩
abbrev main_v100 : Ref sig .tc := ⟨.hbm, 198, rfl⟩
abbrev main_v101 : Ref sig .tc := ⟨.hbm, 199, rfl⟩
abbrev main_v102 : Ref sig .tc := ⟨.hbm, 200, rfl⟩
abbrev main_v103 : Ref sig .tc := ⟨.hbm, 201, rfl⟩
abbrev main_v104 : Ref sig .tc := ⟨.hbm, 202, rfl⟩
abbrev main_call8_cst : Ref sig .tc := ⟨.hbm, 203, rfl⟩
abbrev main_call8_v0 : Ref sig .tc := ⟨.hbm, 204, rfl⟩
abbrev main_call8_cst_0 : Ref sig .tc := ⟨.hbm, 205, rfl⟩
abbrev main_call8_v1 : Ref sig .tc := ⟨.hbm, 206, rfl⟩
abbrev main_call8_v2 : Ref sig .tc := ⟨.hbm, 207, rfl⟩
abbrev main_call8_v3 : Ref sig .tc := ⟨.hbm, 208, rfl⟩
abbrev main_call8_v4 : Ref sig .tc := ⟨.hbm, 209, rfl⟩
abbrev main_call8_v5 : Ref sig .tc := ⟨.hbm, 210, rfl⟩
abbrev main_call8_v6 : Ref sig .tc := ⟨.hbm, 211, rfl⟩
abbrev main_call8_cst_1 : Ref sig .tc := ⟨.hbm, 212, rfl⟩
abbrev main_call8_v7 : Ref sig .tc := ⟨.hbm, 213, rfl⟩
abbrev main_call8_v8 : Ref sig .tc := ⟨.hbm, 214, rfl⟩
abbrev main_call8_v9 : Ref sig .tc := ⟨.hbm, 215, rfl⟩
abbrev main_call8_v10 : Ref sig .tc := ⟨.hbm, 216, rfl⟩
abbrev main_v105 : Ref sig .tc := ⟨.hbm, 217, rfl⟩
abbrev main_c_24 : Ref sig .tc := ⟨.hbm, 218, rfl⟩
abbrev main_v106 : Ref sig .tc := ⟨.hbm, 219, rfl⟩
abbrev main_v107 : Ref sig .tc := ⟨.hbm, 220, rfl⟩
abbrev main_c_25 : Ref sig .tc := ⟨.hbm, 221, rfl⟩
abbrev main_c_26 : Ref sig .tc := ⟨.hbm, 222, rfl⟩
abbrev main_call9_v0 : Ref sig .tc := ⟨.hbm, 223, rfl⟩
abbrev main_call9_v1 : Ref sig .tc := ⟨.hbm, 224, rfl⟩
abbrev main_call9_v2 : Ref sig .tc := ⟨.hbm, 225, rfl⟩
abbrev main_call9_v3 : Ref sig .tc := ⟨.hbm, 226, rfl⟩
abbrev main_call9_v4 : Ref sig .tc := ⟨.hbm, 227, rfl⟩
abbrev main_v108 : Ref sig .tc := ⟨.hbm, 228, rfl⟩
abbrev main_v109 : Ref sig .tc := ⟨.hbm, 229, rfl⟩
abbrev main_v110 : Ref sig .tc := ⟨.hbm, 230, rfl⟩
abbrev main_c_27 : Ref sig .tc := ⟨.hbm, 231, rfl⟩
abbrev main_v111 : Ref sig .tc := ⟨.hbm, 232, rfl⟩
abbrev main_v112 : Ref sig .tc := ⟨.hbm, 233, rfl⟩
abbrev main_c_28 : Ref sig .tc := ⟨.hbm, 234, rfl⟩
abbrev main_v113 : Ref sig .tc := ⟨.hbm, 235, rfl⟩
abbrev main_v114 : Ref sig .tc := ⟨.hbm, 236, rfl⟩
abbrev main_v115 : Ref sig .tc := ⟨.hbm, 237, rfl⟩
abbrev main_c_29 : Ref sig .tc := ⟨.hbm, 238, rfl⟩
abbrev main_v116 : Ref sig .tc := ⟨.hbm, 239, rfl⟩
abbrev main_v117 : Ref sig .tc := ⟨.hbm, 240, rfl⟩
abbrev main_c_30 : Ref sig .tc := ⟨.hbm, 241, rfl⟩
abbrev main_v118 : Ref sig .tc := ⟨.hbm, 242, rfl⟩
abbrev main_v119 : Ref sig .tc := ⟨.hbm, 243, rfl⟩
abbrev main_v120 : Ref sig .tc := ⟨.hbm, 244, rfl⟩
abbrev main_v121 : Ref sig .tc := ⟨.hbm, 245, rfl⟩
abbrev main_v122 : Ref sig .tc := ⟨.hbm, 246, rfl⟩
abbrev main_v123 : Ref sig .tc := ⟨.hbm, 247, rfl⟩
abbrev main_v124 : Ref sig .tc := ⟨.hbm, 248, rfl⟩
abbrev main_v125 : Ref sig .tc := ⟨.hbm, 249, rfl⟩
abbrev main_c_31 : Ref sig .tc := ⟨.hbm, 250, rfl⟩
abbrev main_v126 : Ref sig .tc := ⟨.hbm, 251, rfl⟩
abbrev main_v127 : Ref sig .tc := ⟨.hbm, 252, rfl⟩
abbrev main_v128 : Ref sig .tc := ⟨.hbm, 253, rfl⟩
abbrev main_v129 : Ref sig .tc := ⟨.hbm, 254, rfl⟩

abbrev nD : Nat := 1
abbrev τ : Topo := Topo.v7x

variable {F : FTy → Type} [FloatOps F]

class Facts₀ : Prop where
  concatenates_S20000x512_S3x512_S20003x512_d0 : Shape.Concatenates [S20000x512, S3x512] S20003x512 0
  concatenates_S20000_S3_S20003_d0 : Shape.Concatenates [S20000, S3] S20003 0
  transposes_S20003x512_S512x20003_1_0 : S20003x512.Transposes [1, 0] S512x20003
  bcast_S20003_S1x20003_1 : S20003.BroadcastsInDim S1x20003 (![1] : Fin 1 → Fin S1x20003.rank)
  bcast_S1x20003_S1024x20003_0_1 : S1x20003.BroadcastsInDim S1024x20003 (![0, 1] : Fin 2 → Fin S1024x20003.rank)
  reducesTo_S1024x20003_S1024_d1 : S1024x20003.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x20003_0_1 : S1024x1.BroadcastsInDim S1024x20003 (![0, 1] : Fin 2 → Fin S1024x20003.rank)
  natLt_1_32 : 1 < 32
  concatenates_S1024x1_S1024x1_S1024x2_d1 : Shape.Concatenates [S1024x1, S1024x1] S1024x2 1
  transposes_S20000x128_S128x20000_1_0 : S20000x128.Transposes [1, 0] S128x20000
  bcast_S20000_S1x20000_1 : S20000.BroadcastsInDim S1x20000 (![1] : Fin 1 → Fin S1x20000.rank)
  bcast_S1x20000_S1024x20000_0_1 : S1x20000.BroadcastsInDim S1024x20000 (![0, 1] : Fin 2 → Fin S1024x20000.rank)
  reducesTo_S1024x20000_S1024_d1 : S1024x20000.ReducesTo [1] S1024
  bcast_S1024x1_S1024x20000_0_1 : S1024x1.BroadcastsInDim S1024x20000 (![0, 1] : Fin 2 → Fin S1024x20000.rank)
  slices_S1024x20003_S1024x1_0_20002 : S1024x20003.Slices ![0, 20002] S1024x1
  shapeCasts_S1024x1_S1024 : S1024x1.ShapeCasts S1024
  transposes_S160000x32_S32x160000_1_0 : S160000x32.Transposes [1, 0] S32x160000
  bcast_S160000_S1x160000_1 : S160000.BroadcastsInDim S1x160000 (![1] : Fin 1 → Fin S1x160000.rank)
  bcast_S1x160000_S1024x160000_0_1 : S1x160000.BroadcastsInDim S1024x160000 (![0, 1] : Fin 2 → Fin S1024x160000.rank)
  reducesTo_S1024x160000_S1024_d1 : S1024x160000.ReducesTo [1] S1024
  bcast_S1024x1_S1024x160000_0_1 : S1024x1.BroadcastsInDim S1024x160000 (![0, 1] : Fin 2 → Fin S1024x160000.rank)
  slices_S1024x20003_S1024x1_0_20001 : S1024x20003.Slices ![0, 20001] S1024x1
  transposes_S67735x8_S8x67735_1_0 : S67735x8.Transposes [1, 0] S8x67735
  bcast_S67735_S1x67735_1 : S67735.BroadcastsInDim S1x67735 (![1] : Fin 1 → Fin S1x67735.rank)
  bcast_S1x67735_S1024x67735_0_1 : S1x67735.BroadcastsInDim S1024x67735 (![0, 1] : Fin 2 → Fin S1024x67735.rank)
  reducesTo_S1024x67735_S1024_d1 : S1024x67735.ReducesTo [1] S1024
  bcast_S1024x1_S1024x67735_0_1 : S1024x1.BroadcastsInDim S1024x67735 (![0, 1] : Fin 2 → Fin S1024x67735.rank)
  slices_S1024x20003_S1024x1_0_20000 : S1024x20003.Slices ![0, 20000] S1024x1
  dot_S1024x512_S512x512_S1024x512_1_0_0_1_n_n_wf : DotDims.WF S1024x512 S512x512 S1024x512 [1] [0] [0] [1] [] []
  dot_S1024x512_S512x20003_S1024x20003_1_0_0_1_n_n_wf : DotDims.WF S1024x512 S512x20003 S1024x20003 [1] [0] [0] [1] [] []
  gather_S1024x20003_S1024x2_S1024_n_01_n_n_01_1_11_wf : GatherDims.WF S1024x20003 S1024x2 S1024 [] [0, 1] [] [0, 1] [] 1 ![1, 1]
  dot_S1024x512_S512x128_S1024x128_1_0_0_1_n_n_wf : DotDims.WF S1024x512 S512x128 S1024x128 [1] [0] [0] [1] [] []
  dot_S1024x128_S128x20000_S1024x20000_1_0_0_1_n_n_wf : DotDims.WF S1024x128 S128x20000 S1024x20000 [1] [0] [0] [1] [] []
  gather_S1024x20000_S1024x2_S1024_n_01_n_n_01_1_11_wf : GatherDims.WF S1024x20000 S1024x2 S1024 [] [0, 1] [] [0, 1] [] 1 ![1, 1]
  dot_S1024x512_S512x32_S1024x32_1_0_0_1_n_n_wf : DotDims.WF S1024x512 S512x32 S1024x32 [1] [0] [0] [1] [] []
  dot_S1024x32_S32x160000_S1024x160000_1_0_0_1_n_n_wf : DotDims.WF S1024x32 S32x160000 S1024x160000 [1] [0] [0] [1] [] []
  gather_S1024x160000_S1024x2_S1024_n_01_n_n_01_1_11_wf : GatherDims.WF S1024x160000 S1024x2 S1024 [] [0, 1] [] [0, 1] [] 1 ![1, 1]
  dot_S1024x512_S512x8_S1024x8_1_0_0_1_n_n_wf : DotDims.WF S1024x512 S512x8 S1024x8 [1] [0] [0] [1] [] []
  dot_S1024x8_S8x67735_S1024x67735_1_0_0_1_n_n_wf : DotDims.WF S1024x8 S8x67735 S1024x67735 [1] [0] [0] [1] [] []
  gather_S1024x67735_S1024x2_S1024_n_01_n_n_01_1_11_wf : GatherDims.WF S1024x67735 S1024x2 S1024 [] [0, 1] [] [0, 1] [] 1 ![1, 1]

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x20003_S1024x20003_1_0_0_1_n_n : DotDims S1024x512 S512x20003 S1024x20003 where
  lhsContracting := [1]
  rhsContracting := [0]
  lhsNonContracting := [0]
  rhsNonContracting := [1]
  lhsBatch := []
  rhsBatch := []
  wf := dot_S1024x512_S512x20003_S1024x20003_1_0_0_1_n_n_wf
def gather_S1024x20003_S1024x2_S1024_n_01_n_n_01_1_11 : GatherDims S1024x20003 S1024x2 S1024 where
  offsetDims := []
  collapsedSliceDims := [0, 1]
  operandBatchingDims := []
  startIndicesBatchingDims := []
  startIndexMap := [0, 1]
  indexVectorDim := 1
  sliceSizes := ![1, 1]
  wf := gather_S1024x20003_S1024x2_S1024_n_01_n_n_01_1_11_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x128_S128x20000_S1024x20000_1_0_0_1_n_n : DotDims S1024x128 S128x20000 S1024x20000 where
  lhsContracting := [1]
  rhsContracting := [0]
  lhsNonContracting := [0]
  rhsNonContracting := [1]
  lhsBatch := []
  rhsBatch := []
  wf := dot_S1024x128_S128x20000_S1024x20000_1_0_0_1_n_n_wf
def gather_S1024x20000_S1024x2_S1024_n_01_n_n_01_1_11 : GatherDims S1024x20000 S1024x2 S1024 where
  offsetDims := []
  collapsedSliceDims := [0, 1]
  operandBatchingDims := []
  startIndicesBatchingDims := []
  startIndexMap := [0, 1]
  indexVectorDim := 1
  sliceSizes := ![1, 1]
  wf := gather_S1024x20000_S1024x2_S1024_n_01_n_n_01_1_11_wf
def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf
def dot_S1024x32_S32x160000_S1024x160000_1_0_0_1_n_n : DotDims S1024x32 S32x160000 S1024x160000 where
  lhsContracting := [1]
  rhsContracting := [0]
  lhsNonContracting := [0]
  rhsNonContracting := [1]
  lhsBatch := []
  rhsBatch := []
  wf := dot_S1024x32_S32x160000_S1024x160000_1_0_0_1_n_n_wf
def gather_S1024x160000_S1024x2_S1024_n_01_n_n_01_1_11 : GatherDims S1024x160000 S1024x2 S1024 where
  offsetDims := []
  collapsedSliceDims := [0, 1]
  operandBatchingDims := []
  startIndicesBatchingDims := []
  startIndexMap := [0, 1]
  indexVectorDim := 1
  sliceSizes := ![1, 1]
  wf := gather_S1024x160000_S1024x2_S1024_n_01_n_n_01_1_11_wf
def dot_S1024x512_S512x8_S1024x8_1_0_0_1_n_n : DotDims S1024x512 S512x8 S1024x8 where
  lhsContracting := [1]
  rhsContracting := [0]
  lhsNonContracting := [0]
  rhsNonContracting := [1]
  lhsBatch := []
  rhsBatch := []
  wf := dot_S1024x512_S512x8_S1024x8_1_0_0_1_n_n_wf
def dot_S1024x8_S8x67735_S1024x67735_1_0_0_1_n_n : DotDims S1024x8 S8x67735 S1024x67735 where
  lhsContracting := [1]
  rhsContracting := [0]
  lhsNonContracting := [0]
  rhsNonContracting := [1]
  lhsBatch := []
  rhsBatch := []
  wf := dot_S1024x8_S8x67735_S1024x67735_1_0_0_1_n_n_wf
def gather_S1024x67735_S1024x2_S1024_n_01_n_n_01_1_11 : GatherDims S1024x67735 S1024x2 S1024 where
  offsetDims := []
  collapsedSliceDims := [0, 1]
  operandBatchingDims := []
  startIndicesBatchingDims := []
  startIndexMap := [0, 1]
  indexVectorDim := 1
  sliceSizes := ![1, 1]
  wf := gather_S1024x67735_S1024x2_S1024_n_01_n_n_01_1_11_wf

class Facts : Prop extends Facts₀ where

variable [Facts]
-- ==== Proof.Preserves.lean ====
import proofs.«416365_j66236985639681_1_alg».proof.Defs

noncomputable section

namespace Cert.Proof.Parts

open Idealize.ShloMosaic

theorem neg_big : IdealRules.named_const.Statement Cert.KernelIdeal.κ "neg_big" .f32 0xF149F2CA#32 ⊥ :=
  IdealRules.named_const.statement Cert.KernelIdeal.κ "neg_big" .f32 0xF149F2CA#32 ⊥ rfl

theorem preserves : Cert.preserves_Kernel_KernelIdeal := ⟨neg_big, neg_big, neg_big, neg_big⟩

end Cert.Proof.Parts

end
-- ==== Proof.KI.RunCond.lean ====
import proofs.«416365_j66236985639681_1_alg».proof.Proof.KernelIdealRegions

set_option maxRecDepth 1276

noncomputable section

namespace Cert.KernelIdeal.H

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]
variable (m : (ℓ : Loc nD τ sig) → Buf (Elt F) ℓ)

set_option backward.isDefEq.respectTransparency.types false in

theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V7 m c) ∗ E 0 c) ⊢ R0.pre c)
    (hpost0 : ∀ c : Dev nD, R0.post c ⊢ iprop(StableHlo.held (c : Thread nD τ) (Pipeline.ucRefs τ sig) (V8 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V15 m outs c) ∗ E 1 c) ⊢ R1.pre c)
    (hpost1 : ∀ c : Dev nD, R1.post c ⊢ iprop(StableHlo.held (c : Thread nD τ) (Pipeline.ucRefs τ sig) (V16 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V25 m outs c) ∗ E 2 c) ⊢ R2.pre c)
    (hpost2 : ∀ c : Dev nD, R2.post c ⊢ iprop(StableHlo.held (c : Thread nD τ) (Pipeline.ucRefs τ sig) (V26 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V35 m outs c) ∗ E 3 c) ⊢ R3.pre c)
    (hpost3 : ∀ c : Dev nD, R3.post c ⊢ iprop(StableHlo.held (c : Thread nD τ) (Pipeline.ucRefs τ sig) (V36 m outs c) ∗ E 4 c)) :
    θ_run defs (onTc (τ := τ) (main (F := F))) ⟨m, fun _ => 0, ρ⟩ (fun r => ∀ c : Dev nD,
      r.2.mem ((c.tc : Thread nD τ).loc main_v73) = V38 m outs c main_v73
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5,
          StableHlo.seq hostOps3_6,
          StableHlo.seq hostOps3_7,
          StableHlo.seq hostOps3_8,
          Prog.lift (.customCall (Pipeline.entry 3) ()),
          StableHlo.seq hostOps4,
          StableHlo.seq hostOps4_1 ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V38 m outs c))
    (hch := fun c => ⟨.rfl, .rfl, .rfl, .rfl, .rfl, .rfl, .rfl, hpre0 c, hpost0 c, .rfl, .rfl, .rfl, .rfl, .rfl, .rfl, hpre1 c, hpost1 c, .rfl, .rfl, .rfl, .rfl, .rfl, .rfl, .rfl, .rfl, hpre2 c, hpost2 c, .rfl, .rfl, .rfl, .rfl, .rfl, .rfl, .rfl, .rfl, hpre3 c, hpost3 c, .rfl, sep_mono .rfl (hE4 c)⟩)
    (hinit := ?_) (QY := fun c s => s.mem ((c.tc : Thread nD τ).loc main_v73) = V38 m outs c main_v73 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V38 m outs c) s') $$ [Hh HSI]
    · isplitl [Hh] <;> iassumption
    icases Hr with ⟨%h, HSI⟩
    imodintro
    isplitr
    · ipureintro
      exact ⟨h (Proc.devRef .tc main_v73) (Finset.mem_filter.mpr ⟨StableHlo.devRef_mem_tcRefs main_v73, by decide⟩),
        (h (Proc.devRef .tc main_arg0) (Finset.mem_filter.mpr ⟨StableHlo.devRef_mem_tcRefs main_arg0, by decide⟩)).trans (V38_main_arg0 m outs c),
        (h (Proc.devRef .tc main_arg1) (Finset.mem_filter.mpr ⟨StableHlo.devRef_mem_tcRefs main_arg1, by decide⟩)).trans (V38_main_arg1 m outs c),
        (h (Proc.devRef .tc main_arg2) (Finset.mem_filter.mpr ⟨StableHlo.devRef_mem_tcRefs main_arg2, by decide⟩)).trans (V38_main_arg2 m outs c),
        (h (Proc.devRef .tc main_arg3) (Finset.mem_filter.mpr ⟨StableHlo.devRef_mem_tcRefs main_arg3, by decide⟩)).trans (V38_main_arg3 m outs c),
        (h (Proc.devRef .tc main_arg4) (Finset.mem_filter.mpr ⟨StableHlo.devRef_mem_tcRefs main_arg4, by decide⟩)).trans (V38_main_arg4 m outs c),
        (h (Proc.devRef .tc main_arg5) (Finset.mem_filter.mpr ⟨StableHlo.devRef_mem_tcRefs main_arg5, by decide⟩)).trans (V38_main_arg5 m outs c),
        (h (Proc.devRef .tc main_arg6) (Finset.mem_filter.mpr ⟨StableHlo.devRef_mem_tcRefs main_arg6, by decide⟩)).trans (V38_main_arg6 m outs c),
        (h (Proc.devRef .tc main_arg7) (Finset.mem_filter.mpr ⟨StableHlo.devRef_mem_tcRefs main_arg7, by decide⟩)).trans (V38_main_arg7 m outs c),
        (h (Proc.devRef .tc main_arg8) (Finset.mem_filter.mpr ⟨StableHlo.devRef_mem_tcRefs main_arg8, by decide⟩)).trans (V38_main_arg8 m outs c),
        (h (Proc.devRef .tc main_arg9) (Finset.mem_filter.mpr ⟨StableHlo.devRef_mem_tcRefs main_arg9, by decide⟩)).trans (V38_main_arg9 m outs c),
        (h (Proc.devRef .tc main_arg10) (Finset.mem_filter.mpr ⟨StableHlo.devRef_mem_tcRefs main_arg10, by decide⟩)).trans (V38_main_arg10 m outs c),
        (h (Proc.devRef .tc main_arg11) (Finset.mem_filter.mpr ⟨StableHlo.devRef_mem_tcRefs main_arg11, by decide⟩)).trans (V38_main_arg11 m outs c),
        (h (Proc.devRef .tc main_arg12) (Finset.mem_filter.mpr ⟨StableHlo.devRef_mem_tcRefs main_arg12, by decide⟩)).trans (V38_main_arg12 m outs c),
        (h (Proc.devRef .tc main_arg13) (Finset.mem_filter.mpr ⟨StableHlo.devRef_mem_tcRefs main_arg13, by decide⟩)).trans (V38_main_arg13 m outs c),
        (h (Proc.devRef .tc main_arg14) (Finset.mem_filter.mpr ⟨StableHlo.devRef_mem_tcRefs main_arg14, by decide⟩)).trans (V38_main_arg14 m outs c),
        (h (Proc.devRef .tc main_arg15) (Finset.mem_filter.mpr ⟨StableHlo.devRef_mem_tcRefs main_arg15, by decide⟩)).trans (V38_main_arg15 m outs c)⟩
    · iexact HSI

end Cert.KernelIdeal.H

end
-- ==== Proof.KI.Fam.lean ====
import proofs.«416365_j66236985639681_1_alg».proof.Proof.KernelIdealRegions
import Idealize.ShloMosaic.Lib.Pipeline.Regions
import Idealize.ShloMosaic.Lib.Pipeline.Kit

noncomputable section

namespace Cert.KernelIdeal.H

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev MM (F : FTy → Type) : Type := MT nD τ sig Unit (Elt F) ℕ (UR sig nD τ) ℕ

abbrev DatOf (F : FTy → Type) (cfg : Cfg sig Λ₀) (c : Dev nD) : Type := Dat τ (Elt F) Unit ℕ (UR sig nD τ) ℕ cfg c

def fam (d0 : (c : Dev nD) → DatOf F cfg0 c) (d1 : (c : Dev nD) → DatOf F cfg1 c)
    (d2 : (c : Dev nD) → DatOf F cfg2 c) (d3 : (c : Dev nD) → DatOf F cfg3 c) :
    (p : Fin 4) → (c : Dev nD) → DatOf F (cfgs p) c
  | ⟨0, _⟩ => d0
  | ⟨1, _⟩ => d1
  | ⟨2, _⟩ => d2
  | ⟨3, _⟩ => d3

abbrev 𝒱₀ : Variants := Variants.none

abbrev L : GSem nD τ sig → Finset Unit := fun _ => ∅
abbrev lv : GSem nD τ sig → Unit → ℕ := fun _ _ => 0

abbrev R (c : Dev nD) : sProp (MM F) :=
  iprop((∃ r, prngReg c r) ∗ ∃ W, owes (c : Thread nD τ) (0 : CellTallies nD τ sig Unit) W)

abbrev Val (F : FTy → Type) : Type := (c : Dev nD) → (b : Ref sig .tc) → Buf (Elt F) ((c : Thread nD τ).loc b)

example (d0 : (c : Dev nD) → DatOf F cfg0 c) (d1 : (c : Dev nD) → DatOf F cfg1 c)
    (d2 : (c : Dev nD) → DatOf F cfg2 c) (d3 : (c : Dev nD) → DatOf F cfg3 c) (c : Dev nD) :
    fam d0 d1 d2 d3 1 c = d1 c := rfl

end Cert.KernelIdeal.H

end
-- ==== Proof.KI.R0State.lean ====
import proofs.«416365_j66236985639681_1_alg».proof.Proof.KI.Fam
import proofs.«416365_j66236985639681_1_alg».proof.Proof.Gen.KernelIdeal.Skeleton
import proofs.«416365_j66236985639681_1_alg».proof.Proof.Gen.KernelIdeal.Points

noncomputable section

namespace Cert.KernelIdeal.H.R0

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

theorem N_pos : 0 < cfg0.N := by decide

abbrev t0 : Fin cfg0.N := ⟨0, N_pos⟩

variable (V : Val F)

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev hidden (c : Dev nD) : Vec F S1024x512 .bf16 := iblk V c 0 t0

abbrev proj (c : Dev nD) : Vec F S512x512 .bf16 := iblk V c 1 t0

abbrev wt (c : Dev nD) (t : Fin cfg0.N) : Vec F S1024x512 .bf16 := iblk V c 2 t

abbrev bt (c : Dev nD) (t : Fin cfg0.N) : Vec F S1024 .f32 := iblk V c 3 t

abbrev tgt (c : Dev nD) : Vec F S1024x1 .i32 := iblk V c 4 t0

structure St (F : FTy → Type) [FloatOps F] [Named F] where

  x : Vec F S1024x512 .bf16

  m : Vec F S1024x1 .f32

  l : Vec F S1024x1 .f32

  acc : Vec F S1024x4 .f32

def init (c : Dev nD) : St F := ⟨k0_pay2 (hidden V c) (proj V c), k0_pay3, k0_pay4, k0_pay5⟩

def base (c : Dev nD) (t : Fin cfg0.N) (s : St F) : St F :=
  if t.val = 0 then init V c else s

def step (c : Dev nD) (t : Fin cfg0.N) (s : St F) : St F :=
  let i := cfg0.grid.coords t
  let b := base V c t s
  { x := b.x
    m := k0_pay10 (k0_pay8 i b.x (wt V c t) (bt V c t) b.m)
    l := k0_pay9 i b.x (wt V c t) (bt V c t) b.m b.l
    acc := k0_pay11 (k0_pay6 i) (k0_pay7 i b.x (wt V c t) (bt V c t)) (tgt V c) b.acc }

def stAt (c : Dev nD) : ℕ → St F
  | 0 => init V c
  | n + 1 => if h : n < cfg0.N then step V c ⟨n, h⟩ (stAt c n) else stAt c n

theorem stAt_succ (c : Dev nD) (t : Fin cfg0.N) : stAt V c (t.val + 1) = step V c t (stAt V c t.val) := by
  rw [stAt, dif_pos t.isLt]

def outv (c : Dev nD) : Vec F S1024x4 .f32 :=
  k0_pay1 (stAt V c cfg0.N).m (stAt V c cfg0.N).l (stAt V c cfg0.N).acc

def scratchAt (c : Dev nD) (s : St F) : sProp (MM F) :=
  iprop(owns (c : Thread nD τ) (Memref.whole cc0_scratch0 : Memref sig .tc .vmem S1024x512 .bf16) fullShare s.x
    ∗ owns (c : Thread nD τ) (Memref.whole cc0_scratch1 : Memref sig .tc .vmem S1024x1 .f32) fullShare s.m
    ∗ owns (c : Thread nD τ) (Memref.whole cc0_scratch2 : Memref sig .tc .vmem S1024x1 .f32) fullShare s.l
    ∗ owns (c : Thread nD τ) (Memref.whole cc0_scratch3 : Memref sig .tc .vmem S1024x4 .f32) fullShare s.acc
    ∗ Pipeline.scopedRestBut (Ix := Unit) (Name := ℕ) (U := UR sig nD τ) (Lvl := ℕ) (Val := Elt F) spec0 c [cc0_scratch0, cc0_scratch1, cc0_scratch2, cc0_scratch3])

def dat (c : Dev nD) : DatOf F cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outv V c
  Φ n := if n.val = 0 then Pipeline.scopedRest (Ix := Unit) (Name := ℕ) (U := UR sig nD τ) (Lvl := ℕ) (Val := Elt F) spec0 c
    else scratchAt c (stAt V c n.val)
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = outv V c := by dsimp only [dat]

theorem Φ_zero (c : Dev nD) (n : Fin (cfg0.N + 1)) (h : n.val = 0) :
    (dat V c).Φ n = Pipeline.scopedRest (Ix := Unit) (Name := ℕ) (U := UR sig nD τ) (Lvl := ℕ) (Val := Elt F) spec0 c := by
  dsimp only [dat]; rw [if_pos h]

theorem Φ_pos (c : Dev nD) (n : Fin (cfg0.N + 1)) (h : n.val ≠ 0) :
    (dat V c).Φ n = scratchAt c (stAt V c n.val) := by
  dsimp only [dat]; rw [if_neg h]

theorem iblk_0_const (c : Dev nD) (t : Fin cfg0.N) : iblk V c 0 t = hidden V c := rfl
theorem iblk_1_const (c : Dev nD) (t : Fin cfg0.N) : iblk V c 1 t = proj V c := rfl
theorem iblk_4_const (c : Dev nD) (t : Fin cfg0.N) : iblk V c 4 t = tgt V c := rfl

end Cert.KernelIdeal.H.R0

end
-- ==== Proof.KI.R1State.lean ====
import proofs.«416365_j66236985639681_1_alg».proof.Proof.KI.Fam
import proofs.«416365_j66236985639681_1_alg».proof.Proof.Gen.KernelIdeal.Skeleton
import proofs.«416365_j66236985639681_1_alg».proof.Proof.Gen.KernelIdeal.Points

noncomputable section

namespace Cert.KernelIdeal.H.R1

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

theorem N_pos : 0 < cfg1.N := by decide

abbrev t0 : Fin cfg1.N := ⟨0, N_pos⟩

variable (V : Val F)

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev hidden (c : Dev nD) : Vec F S1024x512 .bf16 := iblk V c 0 t0

abbrev proj (c : Dev nD) : Vec F S512x128 .bf16 := iblk V c 1 t0

abbrev wt (c : Dev nD) (t : Fin cfg1.N) : Vec F S1024x128 .bf16 := iblk V c 2 t

abbrev bt (c : Dev nD) (t : Fin cfg1.N) : Vec F S1024 .f32 := iblk V c 3 t

abbrev tgt (c : Dev nD) : Vec F S1024x1 .i32 := iblk V c 4 t0

structure St (F : FTy → Type) [FloatOps F] [Named F] where

  x : Vec F S1024x128 .bf16

  m : Vec F S1024x1 .f32

  l : Vec F S1024x1 .f32

  acc : Vec F S1024x1 .f32

def base (c : Dev nD) (t : Fin cfg1.N) (s : St F) : St F :=
  if t.val = 0 then ⟨k1_pay4 (hidden V c) (proj V c), k1_pay5, k1_pay6, k1_pay7⟩ else s

def step (c : Dev nD) (t : Fin cfg1.N) (s : St F) : St F :=
  let i := cfg1.grid.coords t
  let b := base V c t s
  { x := b.x
    m := k1_pay1 (k1_pay10 i b.x (wt V c t) (bt V c t) b.m)
    l := k1_pay11 i b.x (wt V c t) (bt V c t) b.m b.l
    acc := k1_pay2 (k1_pay8 i) (k1_pay9 i b.x (wt V c t) (bt V c t)) (tgt V c) b.acc }

def stAt (c : Dev nD) : ℕ → St F
  | 0 => ⟨k1_pay4 (hidden V c) (proj V c), k1_pay5, k1_pay6, k1_pay7⟩
  | n + 1 => if h : n < cfg1.N then step V c ⟨n, h⟩ (stAt c n) else stAt c n

theorem stAt_succ (c : Dev nD) (t : Fin cfg1.N) : stAt V c (t.val + 1) = step V c t (stAt V c t.val) := by
  rw [stAt, dif_pos t.isLt]

def outv (c : Dev nD) : Vec F S1024x1 .f32 :=
  k1_pay3 (stAt V c cfg1.N).m (stAt V c cfg1.N).l (stAt V c cfg1.N).acc

def scratchAt (c : Dev nD) (s : St F) : sProp (MM F) :=
  iprop(owns (c : Thread nD τ) (Memref.whole cc1_scratch0 : Memref sig .tc .vmem S1024x128 .bf16) fullShare s.x
    ∗ owns (c : Thread nD τ) (Memref.whole cc1_scratch1 : Memref sig .tc .vmem S1024x1 .f32) fullShare s.m
    ∗ owns (c : Thread nD τ) (Memref.whole cc1_scratch2 : Memref sig .tc .vmem S1024x1 .f32) fullShare s.l
    ∗ owns (c : Thread nD τ) (Memref.whole cc1_scratch3 : Memref sig .tc .vmem S1024x1 .f32) fullShare s.acc
    ∗ Pipeline.scopedRestBut (Ix := Unit) (Name := ℕ) (U := UR sig nD τ) (Lvl := ℕ) (Val := Elt F) spec1 c [cc1_scratch0, cc1_scratch1, cc1_scratch2, cc1_scratch3])

def dat (c : Dev nD) : DatOf F cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outv V c
  Φ n := if n.val = 0 then Pipeline.scopedRest (Ix := Unit) (Name := ℕ) (U := UR sig nD τ) (Lvl := ℕ) (Val := Elt F) spec1 c
    else scratchAt c (stAt V c n.val)
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = outv V c := by dsimp only [dat]

theorem Φ_zero (c : Dev nD) (n : Fin (cfg1.N + 1)) (h : n.val = 0) :
    (dat V c).Φ n = Pipeline.scopedRest (Ix := Unit) (Name := ℕ) (U := UR sig nD τ) (Lvl := ℕ) (Val := Elt F) spec1 c := by
  dsimp only [dat]; rw [if_pos h]

theorem Φ_pos (c : Dev nD) (n : Fin (cfg1.N + 1)) (h : n.val ≠ 0) :
    (dat V c).Φ n = scratchAt c (stAt V c n.val) := by
  dsimp only [dat]; rw [if_neg h]

theorem iblk_0_const (c : Dev nD) (t : Fin cfg1.N) : iblk V c 0 t = hidden V c := rfl
theorem iblk_1_const (c : Dev nD) (t : Fin cfg1.N) : iblk V c 1 t = proj V c := rfl
theorem iblk_4_const (c : Dev nD) (t : Fin cfg1.N) : iblk V c 4 t = tgt V c := rfl

end Cert.KernelIdeal.H.R1

end
-- ==== Proof.KI.R2State.lean ====
/- Region 2 (a tail cluster: custom_call 2 on a grid of points along the cluster's padded column axis) as a
   state machine over its four carried scratch vectors, and the pipeline's proof data read off it.

   At every point the body reads the projected activations x, the running row maximum m, the running row sum l and
   the accumulated target logit acc; at the first point it first recomputes x from the hidden block and the
   projection block and resets m, l, acc; at the last point it writes m + log l subtracted from acc to the result. -/
import proofs.«416365_j66236985639681_1_alg».proof.Proof.KI.Fam
import proofs.«416365_j66236985639681_1_alg».proof.Proof.Gen.KernelIdeal.Skeleton
import proofs.«416365_j66236985639681_1_alg».proof.Proof.Gen.KernelIdeal.Points

noncomputable section

namespace Cert.KernelIdeal.H.R2

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The grid has a first point. -/
theorem N_pos : 0 < cfg2.N := by decide

/-- The first point. -/
abbrev t0 : Fin cfg2.N := ⟨0, N_pos⟩

variable (V : Val F)

/-! ## The windows' blocks -/

/-- Window w's block at point t, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The hidden activations: window 0's one block. -/
abbrev hidden (c : Dev nD) : Vec F S1024x512 .bf16 := iblk V c 0 t0
/-- The cluster's projection: window 1's one block. -/
abbrev proj (c : Dev nD) : Vec F S512x32 .bf16 := iblk V c 1 t0
/-- The weight tile of point t. -/
abbrev wt (c : Dev nD) (t : Fin cfg2.N) : Vec F S1024x32 .bf16 := iblk V c 2 t
/-- The bias tile of point t. -/
abbrev bt (c : Dev nD) (t : Fin cfg2.N) : Vec F S1024 .f32 := iblk V c 3 t
/-- The relative targets: window 4's one block. -/
abbrev tgt (c : Dev nD) : Vec F S1024x1 .i32 := iblk V c 4 t0

/-! ## The carried state -/

/-- What the four scratch vectors hold between two points. -/
structure St (F : FTy → Type) [FloatOps F] [Named F] where
  /-- the projected activations -/
  x : Vec F S1024x32 .bf16
  /-- the running row maximum -/
  m : Vec F S1024x1 .f32
  /-- the running row sum of exponentials -/
  l : Vec F S1024x1 .f32
  /-- the accumulated target logit -/
  acc : Vec F S1024x1 .f32

/-- The state the body computes from at point t: at the first point the projection recomputed and the three
    accumulators reset, elsewhere the state the point before left. -/
def base (c : Dev nD) (t : Fin cfg2.N) (s : St F) : St F :=
  if t.val = 0 then ⟨k2_pay4 (hidden V c) (proj V c), k2_pay5, k2_pay6, k2_pay7⟩ else s

/-- One point of the grid on the carried state. -/
def step (c : Dev nD) (t : Fin cfg2.N) (s : St F) : St F :=
  let i := cfg2.grid.coords t
  let b := base V c t s
  { x := b.x
    m := k2_pay1 (k2_pay10 i b.x (wt V c t) (bt V c t) b.m)
    l := k2_pay11 i b.x (wt V c t) (bt V c t) b.m b.l
    acc := k2_pay2 (k2_pay8 i) (k2_pay9 i b.x (wt V c t) (bt V c t)) (tgt V c) b.acc }

/-- The carried state after the first n points (what it is before the first point does not matter: the first
    point overwrites all of it). -/
def stAt (c : Dev nD) : ℕ → St F
  | 0 => ⟨k2_pay4 (hidden V c) (proj V c), k2_pay5, k2_pay6, k2_pay7⟩
  | n + 1 => if h : n < cfg2.N then step V c ⟨n, h⟩ (stAt c n) else stAt c n

theorem stAt_succ (c : Dev nD) (t : Fin cfg2.N) : stAt V c (t.val + 1) = step V c t (stAt V c t.val) := by
  rw [stAt, dif_pos t.isLt]

/-- The region's result: at the last point, the accumulated target logit less the sum of the row maximum and the
    logarithm of the row sum. -/
def outv (c : Dev nD) : Vec F S1024x1 .f32 :=
  k2_pay3 (stAt V c cfg2.N).m (stAt V c cfg2.N).l (stAt V c cfg2.N).acc

/-! ## The proof data -/

/-- The four scratch buffers whole at a carried state, beside every other scoped buffer unopened. -/
def scratchAt (c : Dev nD) (s : St F) : sProp (MM F) :=
  iprop(owns (c : Thread nD τ) (Memref.whole cc2_scratch0 : Memref sig .tc .vmem S1024x32 .bf16) fullShare s.x
    ∗ owns (c : Thread nD τ) (Memref.whole cc2_scratch1 : Memref sig .tc .vmem S1024x1 .f32) fullShare s.m
    ∗ owns (c : Thread nD τ) (Memref.whole cc2_scratch2 : Memref sig .tc .vmem S1024x1 .f32) fullShare s.l
    ∗ owns (c : Thread nD τ) (Memref.whole cc2_scratch3 : Memref sig .tc .vmem S1024x1 .f32) fullShare s.acc
    ∗ Pipeline.scopedRestBut (Ix := Unit) (Name := ℕ) (U := UR sig nD τ) (Lvl := ℕ) (Val := Elt F) spec2 c [cc2_scratch0, cc2_scratch1, cc2_scratch2, cc2_scratch3])

/-- The proof data of region 2 on core c: the arrays as the region finds them; after the body at point t each
    input's buffer at its block and the result's at the region's result (stored at the last point only); the invariant
    the scoped rest as found before the first point, and from then on the scratch at the carried state; nothing
    owed; full shares. -/
def dat (c : Dev nD) : DatOf F cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outv V c
  Φ n := if n.val = 0 then Pipeline.scopedRest (Ix := Unit) (Name := ℕ) (U := UR sig nD τ) (Lvl := ℕ) (Val := Elt F) spec2 c
    else scratchAt c (stAt V c n.val)
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = outv V c := by dsimp only [dat]

theorem Φ_zero (c : Dev nD) (n : Fin (cfg2.N + 1)) (h : n.val = 0) :
    (dat V c).Φ n = Pipeline.scopedRest (Ix := Unit) (Name := ℕ) (U := UR sig nD τ) (Lvl := ℕ) (Val := Elt F) spec2 c := by
  dsimp only [dat]; rw [if_pos h]

theorem Φ_pos (c : Dev nD) (n : Fin (cfg2.N + 1)) (h : n.val ≠ 0) :
    (dat V c).Φ n = scratchAt c (stAt V c n.val) := by
  dsimp only [dat]; rw [if_neg h]

/-- The blocks of the windows whose index does not move are the first point's. -/
theorem iblk_0_const (c : Dev nD) (t : Fin cfg2.N) : iblk V c 0 t = hidden V c := rfl
theorem iblk_1_const (c : Dev nD) (t : Fin cfg2.N) : iblk V c 1 t = proj V c := rfl
theorem iblk_4_const (c : Dev nD) (t : Fin cfg2.N) : iblk V c 4 t = tgt V c := rfl

end Cert.KernelIdeal.H.R2

end
-- ==== Proof.KI.R3State.lean ====
/- Region 3 (a tail cluster: custom_call 3 on a grid of points along the cluster's padded column axis) as a
   state machine over its four carried scratch vectors, and the pipeline's proof data read off it.

   At every point the body reads the projected activations x, the running row maximum m, the running row sum l and
   the accumulated target logit acc; at the first point it first recomputes x from the hidden block and the
   projection block and resets m, l, acc; at the last point it writes m + log l subtracted from acc to the result. -/
import proofs.«416365_j66236985639681_1_alg».proof.Proof.KI.Fam
import proofs.«416365_j66236985639681_1_alg».proof.Proof.Gen.KernelIdeal.Skeleton
import proofs.«416365_j66236985639681_1_alg».proof.Proof.Gen.KernelIdeal.Points

noncomputable section

namespace Cert.KernelIdeal.H.R3

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The grid has a first point. -/
theorem N_pos : 0 < cfg3.N := by decide

/-- The first point. -/
abbrev t0 : Fin cfg3.N := ⟨0, N_pos⟩

variable (V : Val F)

/-! ## The windows' blocks -/

/-- Window w's block at point t, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The hidden activations: window 0's one block. -/
abbrev hidden (c : Dev nD) : Vec F S1024x512 .bf16 := iblk V c 0 t0
/-- The cluster's projection: window 1's one block. -/
abbrev proj (c : Dev nD) : Vec F S512x8 .bf16 := iblk V c 1 t0
/-- The weight tile of point t. -/
abbrev wt (c : Dev nD) (t : Fin cfg3.N) : Vec F S1024x8 .bf16 := iblk V c 2 t
/-- The bias tile of point t. -/
abbrev bt (c : Dev nD) (t : Fin cfg3.N) : Vec F S1024 .f32 := iblk V c 3 t
/-- The relative targets: window 4's one block. -/
abbrev tgt (c : Dev nD) : Vec F S1024x1 .i32 := iblk V c 4 t0

/-! ## The carried state -/

/-- What the four scratch vectors hold between two points. -/
structure St (F : FTy → Type) [FloatOps F] [Named F] where
  /-- the projected activations -/
  x : Vec F S1024x8 .bf16
  /-- the running row maximum -/
  m : Vec F S1024x1 .f32
  /-- the running row sum of exponentials -/
  l : Vec F S1024x1 .f32
  /-- the accumulated target logit -/
  acc : Vec F S1024x1 .f32

/-- The state the body computes from at point t: at the first point the projection recomputed and the three
    accumulators reset, elsewhere the state the point before left. -/
def base (c : Dev nD) (t : Fin cfg3.N) (s : St F) : St F :=
  if t.val = 0 then ⟨k3_pay4 (hidden V c) (proj V c), k3_pay5, k3_pay6, k3_pay7⟩ else s

/-- One point of the grid on the carried state. -/
def step (c : Dev nD) (t : Fin cfg3.N) (s : St F) : St F :=
  let i := cfg3.grid.coords t
  let b := base V c t s
  { x := b.x
    m := k3_pay1 (k3_pay10 i b.x (wt V c t) (bt V c t) b.m)
    l := k3_pay11 i b.x (wt V c t) (bt V c t) b.m b.l
    acc := k3_pay2 (k3_pay8 i) (k3_pay9 i b.x (wt V c t) (bt V c t)) (tgt V c) b.acc }

/-- The carried state after the first n points (what it is before the first point does not matter: the first
    point overwrites all of it). -/
def stAt (c : Dev nD) : ℕ → St F
  | 0 => ⟨k3_pay4 (hidden V c) (proj V c), k3_pay5, k3_pay6, k3_pay7⟩
  | n + 1 => if h : n < cfg3.N then step V c ⟨n, h⟩ (stAt c n) else stAt c n

theorem stAt_succ (c : Dev nD) (t : Fin cfg3.N) : stAt V c (t.val + 1) = step V c t (stAt V c t.val) := by
  rw [stAt, dif_pos t.isLt]

/-- The region's result: at the last point, the accumulated target logit less the sum of the row maximum and the
    logarithm of the row sum. -/
def outv (c : Dev nD) : Vec F S1024x1 .f32 :=
  k3_pay3 (stAt V c cfg3.N).m (stAt V c cfg3.N).l (stAt V c cfg3.N).acc

/-! ## The proof data -/

/-- The four scratch buffers whole at a carried state, beside every other scoped buffer unopened. -/
def scratchAt (c : Dev nD) (s : St F) : sProp (MM F) :=
  iprop(owns (c : Thread nD τ) (Memref.whole cc3_scratch0 : Memref sig .tc .vmem S1024x8 .bf16) fullShare s.x
    ∗ owns (c : Thread nD τ) (Memref.whole cc3_scratch1 : Memref sig .tc .vmem S1024x1 .f32) fullShare s.m
    ∗ owns (c : Thread nD τ) (Memref.whole cc3_scratch2 : Memref sig .tc .vmem S1024x1 .f32) fullShare s.l
    ∗ owns (c : Thread nD τ) (Memref.whole cc3_scratch3 : Memref sig .tc .vmem S1024x1 .f32) fullShare s.acc
    ∗ Pipeline.scopedRestBut (Ix := Unit) (Name := ℕ) (U := UR sig nD τ) (Lvl := ℕ) (Val := Elt F) spec3 c [cc3_scratch0, cc3_scratch1, cc3_scratch2, cc3_scratch3])

/-- The proof data of region 3 on core c: the arrays as the region finds them; after the body at point t each
    input's buffer at its block and the result's at the region's result (stored at the last point only); the invariant
    the scoped rest as found before the first point, and from then on the scratch at the carried state; nothing
    owed; full shares. -/
def dat (c : Dev nD) : DatOf F cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outv V c
  Φ n := if n.val = 0 then Pipeline.scopedRest (Ix := Unit) (Name := ℕ) (U := UR sig nD τ) (Lvl := ℕ) (Val := Elt F) spec3 c
    else scratchAt c (stAt V c n.val)
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = iblk V c 4 t := by dsimp only [dat]
theorem after_5 (c : Dev nD) (t : Fin cfg3.N) : (dat V c).after 5 t = outv V c := by dsimp only [dat]

theorem Φ_zero (c : Dev nD) (n : Fin (cfg3.N + 1)) (h : n.val = 0) :
    (dat V c).Φ n = Pipeline.scopedRest (Ix := Unit) (Name := ℕ) (U := UR sig nD τ) (Lvl := ℕ) (Val := Elt F) spec3 c := by
  dsimp only [dat]; rw [if_pos h]

theorem Φ_pos (c : Dev nD) (n : Fin (cfg3.N + 1)) (h : n.val ≠ 0) :
    (dat V c).Φ n = scratchAt c (stAt V c n.val) := by
  dsimp only [dat]; rw [if_neg h]

/-- The blocks of the windows whose index does not move are the first point's. -/
theorem iblk_0_const (c : Dev nD) (t : Fin cfg3.N) : iblk V c 0 t = hidden V c := rfl
theorem iblk_1_const (c : Dev nD) (t : Fin cfg3.N) : iblk V c 1 t = proj V c := rfl
theorem iblk_4_const (c : Dev nD) (t : Fin cfg3.N) : iblk V c 4 t = tgt V c := rfl

end Cert.KernelIdeal.H.R3

end
-- ==== Proof.KI.Outs.lean ====
import proofs.«416365_j66236985639681_1_alg».proof.Proof.KI.RunCond
import proofs.«416365_j66236985639681_1_alg».proof.Proof.KI.R0State
import proofs.«416365_j66236985639681_1_alg».proof.Proof.KI.R1State
import proofs.«416365_j66236985639681_1_alg».proof.Proof.KI.R2State
import proofs.«416365_j66236985639681_1_alg».proof.Proof.KI.R3State

noncomputable section

namespace Cert.KernelIdeal.H

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F] [Named F]
variable (m : (ℓ : Loc nD τ sig) → Buf (Elt F) ℓ)

abbrev ResOf (F : FTy → Type) (r : Ref sig .tc) : Type := (c : Dev nD) → Buf (Elt F) ((c : Thread nD τ).loc r)

def mkOuts (a0 : ResOf F main_v9) (a1 : ResOf F main_v22) (a2 : ResOf F main_v42) (a3 : ResOf F main_v62) : Outs (F := F) :=
  fun _ r c =>
    if h0 : r = main_v9 then h0 ▸ a0 c
    else if h1 : r = main_v22 then h1 ▸ a1 c
    else if h2 : r = main_v42 then h2 ▸ a2 c
    else if h3 : r = main_v62 then h3 ▸ a3 c
    else m ((c : Thread nD τ).loc r)

variable (a0 : ResOf F main_v9) (a1 : ResOf F main_v22) (a2 : ResOf F main_v42) (a3 : ResOf F main_v62)

theorem mkOuts_v9 (J : ℕ) (c : Dev nD) : mkOuts m a0 a1 a2 a3 J main_v9 c = a0 c := by
  unfold mkOuts; rw [dif_pos rfl]
theorem mkOuts_v22 (J : ℕ) (c : Dev nD) : mkOuts m a0 a1 a2 a3 J main_v22 c = a1 c := by
  unfold mkOuts; rw [dif_neg (by decide), dif_pos rfl]
theorem mkOuts_v42 (J : ℕ) (c : Dev nD) : mkOuts m a0 a1 a2 a3 J main_v42 c = a2 c := by
  unfold mkOuts; rw [dif_neg (by decide), dif_neg (by decide), dif_pos rfl]
theorem mkOuts_v62 (J : ℕ) (c : Dev nD) : mkOuts m a0 a1 a2 a3 J main_v62 c = a3 c := by
  unfold mkOuts; rw [dif_neg (by decide), dif_neg (by decide), dif_neg (by decide), dif_pos rfl]

abbrev valOf (W : Dev nD → Valuation τ sig (Elt F)) : Val F := fun c b => W c b

variable (outs outs' : Outs (F := F))

theorem V15_congr (h8 : ∀ c, outs 8 main_v9 c = outs' 8 main_v9 c) (c : Dev nD) : V15 m outs c = V15 m outs' c := by
  simp only [V15, V14, V13, V12, V11, V10, V9, V8, h8]

theorem V25_congr (h8 : ∀ c, outs 8 main_v9 c = outs' 8 main_v9 c) (h16 : ∀ c, outs 16 main_v22 c = outs' 16 main_v22 c)
    (c : Dev nD) : V25 m outs c = V25 m outs' c := by
  simp only [V25, V24, V23, V22, V21, V20, V19, V18, V17, V16, V15, V14, V13, V12, V11, V10, V9, V8, h8, h16]

theorem V35_congr (h8 : ∀ c, outs 8 main_v9 c = outs' 8 main_v9 c) (h16 : ∀ c, outs 16 main_v22 c = outs' 16 main_v22 c)
    (h26 : ∀ c, outs 26 main_v42 c = outs' 26 main_v42 c) (c : Dev nD) : V35 m outs c = V35 m outs' c := by
  simp only [V35, V34, V33, V32, V31, V30, V29, V28, V27, V26, V25, V24, V23, V22, V21, V20, V19, V18, V17, V16, V15, V14, V13, V12, V11, V10, V9, V8, h8, h16, h26]

def res0 : ResOf F main_v9 := fun c => (R0.dat (valOf (V7 m)) c).arrAt 5 cfg0.N

def res1 : ResOf F main_v22 := fun c =>
  (R1.dat (valOf (V15 m (mkOuts m (res0 m) (fun c => m _) (fun c => m _) (fun c => m _)))) c).arrAt 5 cfg1.N

def res2 : ResOf F main_v42 := fun c =>
  (R2.dat (valOf (V25 m (mkOuts m (res0 m) (res1 m) (fun c => m _) (fun c => m _)))) c).arrAt 5 cfg2.N

def res3 : ResOf F main_v62 := fun c =>
  (R3.dat (valOf (V35 m (mkOuts m (res0 m) (res1 m) (res2 m) (fun c => m _)))) c).arrAt 5 cfg3.N

def outsOf : Outs (F := F) := mkOuts m (res0 m) (res1 m) (res2 m) (res3 m)

theorem V15_outsOf (c : Dev nD) :
    V15 m (outsOf m) c = V15 m (mkOuts m (res0 m) (fun c => m _) (fun c => m _) (fun c => m _)) c :=
  V15_congr m _ _ (fun c => by unfold outsOf; rw [mkOuts_v9, mkOuts_v9]) c

theorem V25_outsOf (c : Dev nD) :
    V25 m (outsOf m) c = V25 m (mkOuts m (res0 m) (res1 m) (fun c => m _) (fun c => m _)) c :=
  V25_congr m _ _ (fun c => by unfold outsOf; rw [mkOuts_v9, mkOuts_v9]) (fun c => by unfold outsOf; rw [mkOuts_v22, mkOuts_v22]) c

theorem V35_outsOf (c : Dev nD) :
    V35 m (outsOf m) c = V35 m (mkOuts m (res0 m) (res1 m) (res2 m) (fun c => m _)) c :=
  V35_congr m _ _ (fun c => by unfold outsOf; rw [mkOuts_v9, mkOuts_v9]) (fun c => by unfold outsOf; rw [mkOuts_v22, mkOuts_v22])
    (fun c => by unfold outsOf; rw [mkOuts_v42, mkOuts_v42]) c

end Cert.KernelIdeal.H

end
-- ==== Proof.KI.LaunchFacts.lean ====
import proofs.«416365_j66236985639681_1_alg».proof.Proof.KI.Fam

noncomputable section

namespace Cert.KernelIdeal.H

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

abbrev E (_ : Fin 5) (c : Dev nD) : sProp (MM F) := R c

abbrev u₀ : UR sig nD τ := initOf (Pipeline.cells cfgs cellOf_inj) (Pipeline.launchToks cfgs cellOf_inj)

theorem hu₀ : (ownU (u₀) : sProp (MM F))
    ⊢ |={Set.univ}=> iprop(BI.own (emb₁ (initOf (Pipeline.cells cfgs cellOf_inj) (Pipeline.launchToks cfgs cellOf_inj)))
        ∗ bigSep Finset.univ (fun _ : Dev nD => (BI.emp : sProp (MM F)))) := by
  iintro Hu; imodintro
  isplitl [Hu]
  · iapply (show (ownU (initOf (Pipeline.cells cfgs cellOf_inj) (Pipeline.launchToks cfgs cellOf_inj)) : sProp (MM F))
        ⊢ BI.own (emb₁ (initOf (Pipeline.cells cfgs cellOf_inj) (Pipeline.launchToks cfgs cellOf_inj))) from .rfl)
    iexact Hu
  iapply (show (BI.emp : sProp (MM F)) ⊢ bigSep Finset.univ (fun _ : Dev nD => (BI.emp : sProp (MM F))) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp (MM F)))) ∗ levAts L lv)
      ⊢ (|={Set.univ}=> bigSep Finset.univ (E (F := F) 0) : sProp (MM F)) := by
  have hcore : ∀ c : Dev nD, (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp (MM F))) : sProp (MM F))
      ⊢ (iprop((∃ r, prngReg c r) ∗ ∃ W, owes (c : Thread nD τ) (0 : CellTallies nD τ sig Unit) W) : sProp (MM F)) := fun c => by
    iintro ⟨-, HO, -, Hp, -⟩
    isplitl [Hp]; · iexists _; iexact Hp
    iexists ∅; iexact HO
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp (MM F))))
      ⊢ (bigSep Finset.univ (E (F := F) 0) : sProp (MM F)) :=
    bigSep_mono fun c _ => hcore c
  iintro ⟨H, -⟩
  imodintro
  ihave H' := hmono $$ H
  iexact H'

theorem hE4 (c : Dev nD) : E (F := F) 4 c ⊢ (iprop(∃ W, owes (c : Thread nD τ) (0 : CellTallies nD τ sig Unit) W) : sProp (MM F)) := by
  iintro ⟨-, HO⟩; iexact HO

end Cert.KernelIdeal.H

end
-- ==== Proof.KI.R0Body.lean ====
import proofs.«416365_j66236985639681_1_alg».proof.Proof.KI.R0State
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.H.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev cond1 (i : grid0.Coords) : Prop := (Scalar.cmpi .ne (Scalar.extui (Scalar.cmpi .eq (BitVec.ofNat 32 (i 0).val) 0#32)) 0#32) = 1#1
theorem hcond1 : ∀ t : Fin cfg0.N, cond1 (grid0.coords t) ↔ t.val = 0 :=
  (by decide +kernel : ∀ t : Fin grid0.N, cond1 (grid0.coords t) ↔ t.val = 0)

abbrev cond2 (i : grid0.Coords) : Prop := k0_cond2 i = 1#1
theorem hcond2 : ∀ t : Fin cfg0.N, cond2 (grid0.coords t) ↔ t.val + 1 = cfg0.N :=
  (by decide +kernel : ∀ t : Fin grid0.N, cond2 (grid0.coords t) ↔ t.val + 1 = grid0.N)

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl

theorem idle_5 : ∀ t : Fin cfg0.N, ¬cond2 (grid0.coords t) → cfg0.idle 5 (grid0.coords t) = true := by decide +kernel
theorem noflush_5 : ∀ t : Fin cfg0.N, ¬cond2 (grid0.coords t) → (cfg0.win 5).flush t = false := by decide +kernel
theorem live_5 : ∀ t : Fin cfg0.N, cond2 (grid0.coords t) → cfg0.idle 5 (grid0.coords t) = false := by decide +kernel

theorem readAt_whole_unread {κ : Kind} {sp : Space} {S : Shape} {e : EltTy} {M : Memref sig κ sp S e} (h : M.IsWhole)
    (X : S.Idx → Elt F e) {off : Fin S.rank → ℕ} (ho : off = fun _ => 0) (inb : ∀ a, off a + S.size a ≤ S.size a) :
    View.readAt (Elt F) M.view (Rect.unit off S.size inb).toLoadRect (h.unread X) = X :=
  (View.readAt_eq_ld M.view (h.unread X) (Rect.unit off S.size inb)).trans
    ((congrArg (fun Y => View.ld Y (Rect.unit off S.size inb)) (h.read_unread X)).trans (View.ld_unit_zero ho inb X))

theorem read_writes_whole {κ : Kind} {sp : Space} {S : Shape} {e : EltTy} (v : View sig κ sp S e) (f : v.ty.Contents (Elt F))
    {off : Fin S.rank → ℕ} (ho : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst ho; funext y
  have e := View.read_writes_cons_emb v f (Rect.whole S) w L y
  rw [Rect.emb_whole_apply] at e
  exact e

theorem zero2 : (![0, 0] : Fin 2 → ℕ) = fun _ => 0 := by funext a; fin_cases a <;> rfl
theorem zero1 : (![0] : Fin 1 → ℕ) = fun _ => 0 := by funext a; fin_cases a; rfl

theorem readCov_whole {κ : Kind} {sp : Space} {S : Shape} {e : EltTy} (v : View sig κ sp S e) {off : Fin S.rank → ℕ}
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w :=
  View.readCov_cons_toLoadRect v (Rect.unit off S.size inb) w L

open Lean Elab Tactic Meta in

elab "unfold_run_values" : tactic => do
  let g ← getMainGoal
  let ty ← instantiateMVars (← g.getType)
  let ty' ← deltaExpand ty fun n => n.components.contains `sl
  replaceMainGoal [← g.replaceTargetDefEq ty']

set_option maxHeartbeats 1000000 in

theorem run_first (c : Dev nD) (i : grid0.Coords) (arg1 : Memref sig .tc .vmem S1024x512 .bf16) (harg1 : arg1.IsWhole) (arg2 : Memref sig .tc .vmem S512x512 .bf16) (harg2 : arg2.IsWhole) (arg3 : Memref sig .tc .vmem S1024x512 .bf16) (harg3 : arg3.IsWhole) (arg4 : Memref sig .tc .vmem S1024 .f32) (harg4 : arg4.IsWhole) (arg5 : Memref sig .tc .vmem S1024x1 .i32) (harg5 : arg5.IsWhole) (arg6 : Memref sig .tc .vmem S1024x4 .f32) (harg6 : arg6.IsWhole) (arg7 : Memref sig .tc .vmem S1024x512 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x4 .f32) (harg10 : arg10.IsWhole)
    (hc1 : cond1 i) (hc2 : ¬cond2 i)
    (hd : Vec F S1024x512 .bf16) (pj : Vec F S512x512 .bf16) (w : Vec F S1024x512 .bf16) (b : Vec F S1024 .f32) (tg : Vec F S1024x1 .i32) (o : Vec F S1024x4 .f32)
    (x : Vec F S1024x512 .bf16) (m l : Vec F S1024x1 .f32) (a : Vec F S1024x4 .f32) (E : Set ℕ) (K : PUnit → sProp (MM F)) :
    iprop(owns (c : Thread nD τ) arg1 fullShare hd ∗ owns (c : Thread nD τ) arg2 fullShare pj ∗ owns (c : Thread nD τ) arg3 fullShare w
        ∗ owns (c : Thread nD τ) arg4 fullShare b ∗ owns (c : Thread nD τ) arg5 fullShare tg ∗ owns (c : Thread nD τ) arg6 fullShare o
        ∗ owns (c : Thread nD τ) arg7 fullShare x ∗ owns (c : Thread nD τ) arg8 fullShare m ∗ owns (c : Thread nD τ) arg9 fullShare l
        ∗ owns (c : Thread nD τ) arg10 fullShare a
        ∗ (iprop(owns (c : Thread nD τ) arg1 fullShare hd ∗ owns (c : Thread nD τ) arg2 fullShare pj ∗ owns (c : Thread nD τ) arg3 fullShare w
            ∗ owns (c : Thread nD τ) arg4 fullShare b ∗ owns (c : Thread nD τ) arg5 fullShare tg ∗ owns (c : Thread nD τ) arg6 fullShare o
            ∗ owns (c : Thread nD τ) arg7 fullShare (k0_pay2 hd pj)
            ∗ owns (c : Thread nD τ) arg8 fullShare (k0_pay10 (k0_pay8 i (k0_pay2 hd pj) w b k0_pay3))
            ∗ owns (c : Thread nD τ) arg9 fullShare (k0_pay9 i (k0_pay2 hd pj) w b k0_pay3 k0_pay4)
            ∗ owns (c : Thread nD τ) arg10 fullShare (k0_pay11 (k0_pay6 i) (k0_pay7 i (k0_pay2 hd pj) w b) tg k0_pay5)) -∗ K ⟨⟩))
      ⊢ wp frame (wpE (defs₀ (F := F)) 𝒱₀ c none) E (cc0__cluster_kernel_body i arg1 harg1 arg2 harg2 arg3 harg3 arg4 harg4 arg5 harg5 arg6 harg6 arg7 harg7 arg8 harg8 arg9 harg9 arg10 harg10) K := by
  simp only [cc0__cluster_kernel_body_eq_skeleton]; unfold cc0__cluster_kernel_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10
  sl_exec (disch := first | exact hc1 | exact hc2)
  sl_step
  iapply Hk
  isplitl [H1]; · iexists _; isplitr; swap; (· iexact H1); ipureintro; exact harg1.read_unread _
  isplitl [H2]; · iexists _; isplitr; swap; (· iexact H2); ipureintro; exact harg2.read_unread _
  isplitl [H3]; · iexists _; isplitr; swap; (· iexact H3); ipureintro; exact harg3.read_unread _
  isplitl [H4]; · iexists _; isplitr; swap; (· iexact H4); ipureintro; exact harg4.read_unread _
  isplitl [H5]; · iexists _; isplitr; swap; (· iexact H5); ipureintro; exact harg5.read_unread _
  isplitl [H6]; · iexists _; isplitr; swap; (· iexact H6); ipureintro; exact harg6.read_unread _
  isplitl [H7]
  · iexists _; isplitr; swap; (· iexact H7); ipureintro
    unfold_run_values
    refine (read_writes_whole _ _ zero2 _ _ _).trans ?_
    repeat (first | rw [readCov_whole] | rw [readAt_whole_unread harg1 hd zero2] | rw [readAt_whole_unread harg2 pj zero2] | rw [readAt_whole_unread harg3 w zero2] | rw [readAt_whole_unread harg4 b zero1] | rw [readAt_whole_unread harg5 tg zero2] | rw [readAt_whole_unread harg6 o zero2] | rw [readAt_whole_unread harg7 x zero2] | rw [readAt_whole_unread harg8 m zero2] | rw [readAt_whole_unread harg9 l zero2] | rw [readAt_whole_unread harg10 a zero2])
    first | done | rfl
  isplitl [H8]
  · iexists _; isplitr; swap; (· iexact H8); ipureintro
    unfold_run_values
    refine (read_writes_whole _ _ zero2 _ _ _).trans ?_
    repeat (first | rw [readCov_whole] | rw [readAt_whole_unread harg1 hd zero2] | rw [readAt_whole_unread harg2 pj zero2] | rw [readAt_whole_unread harg3 w zero2] | rw [readAt_whole_unread harg4 b zero1] | rw [readAt_whole_unread harg5 tg zero2] | rw [readAt_whole_unread harg6 o zero2] | rw [readAt_whole_unread harg7 x zero2] | rw [readAt_whole_unread harg8 m zero2] | rw [readAt_whole_unread harg9 l zero2] | rw [readAt_whole_unread harg10 a zero2])
    first | done | rfl
  isplitl [H9]
  · iexists _; isplitr; swap; (· iexact H9); ipureintro
    unfold_run_values
    refine (read_writes_whole _ _ zero2 _ _ _).trans ?_
    repeat (first | rw [readCov_whole] | rw [readAt_whole_unread harg1 hd zero2] | rw [readAt_whole_unread harg2 pj zero2] | rw [readAt_whole_unread harg3 w zero2] | rw [readAt_whole_unread harg4 b zero1] | rw [readAt_whole_unread harg5 tg zero2] | rw [readAt_whole_unread harg6 o zero2] | rw [readAt_whole_unread harg7 x zero2] | rw [readAt_whole_unread harg8 m zero2] | rw [readAt_whole_unread harg9 l zero2] | rw [readAt_whole_unread harg10 a zero2])
    first | done | rfl
  · iexists _; isplitr; swap; (· iexact H10); ipureintro
    unfold_run_values
    refine (read_writes_whole _ _ zero2 _ _ _).trans ?_
    repeat (first | rw [readCov_whole] | rw [readAt_whole_unread harg1 hd zero2] | rw [readAt_whole_unread harg2 pj zero2] | rw [readAt_whole_unread harg3 w zero2] | rw [readAt_whole_unread harg4 b zero1] | rw [readAt_whole_unread harg5 tg zero2] | rw [readAt_whole_unread harg6 o zero2] | rw [readAt_whole_unread harg7 x zero2] | rw [readAt_whole_unread harg8 m zero2] | rw [readAt_whole_unread harg9 l zero2] | rw [readAt_whole_unread harg10 a zero2])
    first | done | rfl

set_option maxHeartbeats 1000000 in

theorem run_mid (c : Dev nD) (i : grid0.Coords) (arg1 : Memref sig .tc .vmem S1024x512 .bf16) (harg1 : arg1.IsWhole) (arg2 : Memref sig .tc .vmem S512x512 .bf16) (harg2 : arg2.IsWhole) (arg3 : Memref sig .tc .vmem S1024x512 .bf16) (harg3 : arg3.IsWhole) (arg4 : Memref sig .tc .vmem S1024 .f32) (harg4 : arg4.IsWhole) (arg5 : Memref sig .tc .vmem S1024x1 .i32) (harg5 : arg5.IsWhole) (arg6 : Memref sig .tc .vmem S1024x4 .f32) (harg6 : arg6.IsWhole) (arg7 : Memref sig .tc .vmem S1024x512 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x4 .f32) (harg10 : arg10.IsWhole)
    (hc1 : ¬cond1 i) (hc2 : ¬cond2 i)
    (hd : Vec F S1024x512 .bf16) (pj : Vec F S512x512 .bf16) (w : Vec F S1024x512 .bf16) (b : Vec F S1024 .f32) (tg : Vec F S1024x1 .i32) (o : Vec F S1024x4 .f32)
    (x : Vec F S1024x512 .bf16) (m l : Vec F S1024x1 .f32) (a : Vec F S1024x4 .f32) (E : Set ℕ) (K : PUnit → sProp (MM F)) :
    iprop(owns (c : Thread nD τ) arg1 fullShare hd ∗ owns (c : Thread nD τ) arg2 fullShare pj ∗ owns (c : Thread nD τ) arg3 fullShare w
        ∗ owns (c : Thread nD τ) arg4 fullShare b ∗ owns (c : Thread nD τ) arg5 fullShare tg ∗ owns (c : Thread nD τ) arg6 fullShare o
        ∗ owns (c : Thread nD τ) arg7 fullShare x ∗ owns (c : Thread nD τ) arg8 fullShare m ∗ owns (c : Thread nD τ) arg9 fullShare l
        ∗ owns (c : Thread nD τ) arg10 fullShare a
        ∗ (iprop(owns (c : Thread nD τ) arg1 fullShare hd ∗ owns (c : Thread nD τ) arg2 fullShare pj ∗ owns (c : Thread nD τ) arg3 fullShare w
            ∗ owns (c : Thread nD τ) arg4 fullShare b ∗ owns (c : Thread nD τ) arg5 fullShare tg ∗ owns (c : Thread nD τ) arg6 fullShare o
            ∗ owns (c : Thread nD τ) arg7 fullShare x
            ∗ owns (c : Thread nD τ) arg8 fullShare (k0_pay10 (k0_pay8 i x w b m))
            ∗ owns (c : Thread nD τ) arg9 fullShare (k0_pay9 i x w b m l)
            ∗ owns (c : Thread nD τ) arg10 fullShare (k0_pay11 (k0_pay6 i) (k0_pay7 i x w b) tg a)) -∗ K ⟨⟩))
      ⊢ wp frame (wpE (defs₀ (F := F)) 𝒱₀ c none) E (cc0__cluster_kernel_body i arg1 harg1 arg2 harg2 arg3 harg3 arg4 harg4 arg5 harg5 arg6 harg6 arg7 harg7 arg8 harg8 arg9 harg9 arg10 harg10) K := by
  simp only [cc0__cluster_kernel_body_eq_skeleton]; unfold cc0__cluster_kernel_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10
  sl_exec (disch := first | exact hc1 | exact hc2)
  sl_step
  iapply Hk
  isplitl [H1]; · iexists _; isplitr; swap; (· iexact H1); ipureintro; exact harg1.read_unread _
  isplitl [H2]; · iexists _; isplitr; swap; (· iexact H2); ipureintro; exact harg2.read_unread _
  isplitl [H3]; · iexists _; isplitr; swap; (· iexact H3); ipureintro; exact harg3.read_unread _
  isplitl [H4]; · iexists _; isplitr; swap; (· iexact H4); ipureintro; exact harg4.read_unread _
  isplitl [H5]; · iexists _; isplitr; swap; (· iexact H5); ipureintro; exact harg5.read_unread _
  isplitl [H6]; · iexists _; isplitr; swap; (· iexact H6); ipureintro; exact harg6.read_unread _
  isplitl [H7]; · iexists _; isplitr; swap; (· iexact H7); ipureintro; exact harg7.read_unread _
  isplitl [H8]
  · iexists _; isplitr; swap; (· iexact H8); ipureintro
    unfold_run_values
    refine (read_writes_whole _ _ zero2 _ _ _).trans ?_
    repeat (first | rw [readCov_whole] | rw [readAt_whole_unread harg1 hd zero2] | rw [readAt_whole_unread harg2 pj zero2] | rw [readAt_whole_unread harg3 w zero2] | rw [readAt_whole_unread harg4 b zero1] | rw [readAt_whole_unread harg5 tg zero2] | rw [readAt_whole_unread harg6 o zero2] | rw [readAt_whole_unread harg7 x zero2] | rw [readAt_whole_unread harg8 m zero2] | rw [readAt_whole_unread harg9 l zero2] | rw [readAt_whole_unread harg10 a zero2])
    first | done | rfl
  isplitl [H9]
  · iexists _; isplitr; swap; (· iexact H9); ipureintro
    unfold_run_values
    refine (read_writes_whole _ _ zero2 _ _ _).trans ?_
    repeat (first | rw [readCov_whole] | rw [readAt_whole_unread harg1 hd zero2] | rw [readAt_whole_unread harg2 pj zero2] | rw [readAt_whole_unread harg3 w zero2] | rw [readAt_whole_unread harg4 b zero1] | rw [readAt_whole_unread harg5 tg zero2] | rw [readAt_whole_unread harg6 o zero2] | rw [readAt_whole_unread harg7 x zero2] | rw [readAt_whole_unread harg8 m zero2] | rw [readAt_whole_unread harg9 l zero2] | rw [readAt_whole_unread harg10 a zero2])
    first | done | rfl
  · iexists _; isplitr; swap; (· iexact H10); ipureintro
    unfold_run_values
    refine (read_writes_whole _ _ zero2 _ _ _).trans ?_
    repeat (first | rw [readCov_whole] | rw [readAt_whole_unread harg1 hd zero2] | rw [readAt_whole_unread harg2 pj zero2] | rw [readAt_whole_unread harg3 w zero2] | rw [readAt_whole_unread harg4 b zero1] | rw [readAt_whole_unread harg5 tg zero2] | rw [readAt_whole_unread harg6 o zero2] | rw [readAt_whole_unread harg7 x zero2] | rw [readAt_whole_unread harg8 m zero2] | rw [readAt_whole_unread harg9 l zero2] | rw [readAt_whole_unread harg10 a zero2])
    first | done | rfl

set_option maxHeartbeats 1000000 in

theorem run_last (c : Dev nD) (i : grid0.Coords) (arg1 : Memref sig .tc .vmem S1024x512 .bf16) (harg1 : arg1.IsWhole) (arg2 : Memref sig .tc .vmem S512x512 .bf16) (harg2 : arg2.IsWhole) (arg3 : Memref sig .tc .vmem S1024x512 .bf16) (harg3 : arg3.IsWhole) (arg4 : Memref sig .tc .vmem S1024 .f32) (harg4 : arg4.IsWhole) (arg5 : Memref sig .tc .vmem S1024x1 .i32) (harg5 : arg5.IsWhole) (arg6 : Memref sig .tc .vmem S1024x4 .f32) (harg6 : arg6.IsWhole) (arg7 : Memref sig .tc .vmem S1024x512 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x4 .f32) (harg10 : arg10.IsWhole)
    (hc1 : ¬cond1 i) (hc2 : cond2 i)
    (hd : Vec F S1024x512 .bf16) (pj : Vec F S512x512 .bf16) (w : Vec F S1024x512 .bf16) (b : Vec F S1024 .f32) (tg : Vec F S1024x1 .i32) (o : Vec F S1024x4 .f32)
    (x : Vec F S1024x512 .bf16) (m l : Vec F S1024x1 .f32) (a : Vec F S1024x4 .f32) (E : Set ℕ) (K : PUnit → sProp (MM F)) :
    iprop(owns (c : Thread nD τ) arg1 fullShare hd ∗ owns (c : Thread nD τ) arg2 fullShare pj ∗ owns (c : Thread nD τ) arg3 fullShare w
        ∗ owns (c : Thread nD τ) arg4 fullShare b ∗ owns (c : Thread nD τ) arg5 fullShare tg ∗ owns (c : Thread nD τ) arg6 fullShare o
        ∗ owns (c : Thread nD τ) arg7 fullShare x ∗ owns (c : Thread nD τ) arg8 fullShare m ∗ owns (c : Thread nD τ) arg9 fullShare l
        ∗ owns (c : Thread nD τ) arg10 fullShare a
        ∗ (iprop(owns (c : Thread nD τ) arg1 fullShare hd ∗ owns (c : Thread nD τ) arg2 fullShare pj ∗ owns (c : Thread nD τ) arg3 fullShare w
            ∗ owns (c : Thread nD τ) arg4 fullShare b ∗ owns (c : Thread nD τ) arg5 fullShare tg ∗ owns (c : Thread nD τ) arg6 fullShare (k0_pay1 (k0_pay10 (k0_pay8 i x w b m)) (k0_pay9 i x w b m l) (k0_pay11 (k0_pay6 i) (k0_pay7 i x w b) tg a))
            ∗ owns (c : Thread nD τ) arg7 fullShare x
            ∗ owns (c : Thread nD τ) arg8 fullShare (k0_pay10 (k0_pay8 i x w b m))
            ∗ owns (c : Thread nD τ) arg9 fullShare (k0_pay9 i x w b m l)
            ∗ owns (c : Thread nD τ) arg10 fullShare (k0_pay11 (k0_pay6 i) (k0_pay7 i x w b) tg a)) -∗ K ⟨⟩))
      ⊢ wp frame (wpE (defs₀ (F := F)) 𝒱₀ c none) E (cc0__cluster_kernel_body i arg1 harg1 arg2 harg2 arg3 harg3 arg4 harg4 arg5 harg5 arg6 harg6 arg7 harg7 arg8 harg8 arg9 harg9 arg10 harg10) K := by
  simp only [cc0__cluster_kernel_body_eq_skeleton]; unfold cc0__cluster_kernel_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10
  sl_exec (disch := first | exact hc1 | exact hc2)
  sl_step
  iapply Hk
  isplitl [H1]; · iexists _; isplitr; swap; (· iexact H1); ipureintro; exact harg1.read_unread _
  isplitl [H2]; · iexists _; isplitr; swap; (· iexact H2); ipureintro; exact harg2.read_unread _
  isplitl [H3]; · iexists _; isplitr; swap; (· iexact H3); ipureintro; exact harg3.read_unread _
  isplitl [H4]; · iexists _; isplitr; swap; (· iexact H4); ipureintro; exact harg4.read_unread _
  isplitl [H5]; · iexists _; isplitr; swap; (· iexact H5); ipureintro; exact harg5.read_unread _
  isplitl [H6]
  · iexists _; isplitr; swap; (· iexact H6); ipureintro
    unfold_run_values
    refine (read_writes_whole _ _ zero2 _ _ _).trans ?_
    repeat (first | rw [readCov_whole] | rw [readAt_whole_unread harg1 hd zero2] | rw [readAt_whole_unread harg2 pj zero2] | rw [readAt_whole_unread harg3 w zero2] | rw [readAt_whole_unread harg4 b zero1] | rw [readAt_whole_unread harg5 tg zero2] | rw [readAt_whole_unread harg6 o zero2] | rw [readAt_whole_unread harg7 x zero2] | rw [readAt_whole_unread harg8 m zero2] | rw [readAt_whole_unread harg9 l zero2] | rw [readAt_whole_unread harg10 a zero2])
    first | done | rfl
  isplitl [H7]; · iexists _; isplitr; swap; (· iexact H7); ipureintro; exact harg7.read_unread _
  isplitl [H8]
  · iexists _; isplitr; swap; (· iexact H8); ipureintro
    unfold_run_values
    refine (read_writes_whole _ _ zero2 _ _ _).trans ?_
    repeat (first | rw [readCov_whole] | rw [readAt_whole_unread harg1 hd zero2] | rw [readAt_whole_unread harg2 pj zero2] | rw [readAt_whole_unread harg3 w zero2] | rw [readAt_whole_unread harg4 b zero1] | rw [readAt_whole_unread harg5 tg zero2] | rw [readAt_whole_unread harg6 o zero2] | rw [readAt_whole_unread harg7 x zero2] | rw [readAt_whole_unread harg8 m zero2] | rw [readAt_whole_unread harg9 l zero2] | rw [readAt_whole_unread harg10 a zero2])
    first | done | rfl
  isplitl [H9]
  · iexists _; isplitr; swap; (· iexact H9); ipureintro
    unfold_run_values
    refine (read_writes_whole _ _ zero2 _ _ _).trans ?_
    repeat (first | rw [readCov_whole] | rw [readAt_whole_unread harg1 hd zero2] | rw [readAt_whole_unread harg2 pj zero2] | rw [readAt_whole_unread harg3 w zero2] | rw [readAt_whole_unread harg4 b zero1] | rw [readAt_whole_unread harg5 tg zero2] | rw [readAt_whole_unread harg6 o zero2] | rw [readAt_whole_unread harg7 x zero2] | rw [readAt_whole_unread harg8 m zero2] | rw [readAt_whole_unread harg9 l zero2] | rw [readAt_whole_unread harg10 a zero2])
    first | done | rfl
  · iexists _; isplitr; swap; (· iexact H10); ipureintro
    unfold_run_values
    refine (read_writes_whole _ _ zero2 _ _ _).trans ?_
    repeat (first | rw [readCov_whole] | rw [readAt_whole_unread harg1 hd zero2] | rw [readAt_whole_unread harg2 pj zero2] | rw [readAt_whole_unread harg3 w zero2] | rw [readAt_whole_unread harg4 b zero1] | rw [readAt_whole_unread harg5 tg zero2] | rw [readAt_whole_unread harg6 o zero2] | rw [readAt_whole_unread harg7 x zero2] | rw [readAt_whole_unread harg8 m zero2] | rw [readAt_whole_unread harg9 l zero2] | rw [readAt_whole_unread harg10 a zero2])
    first | done | rfl

variable (V : Val F)

theorem before_0 (c : Dev nD) (t : Fin cfg0.N) (d) : (dat V c).before 0 t d = hidden V c :=
  (((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)).trans (iblk_0_const V c t)
theorem before_1 (c : Dev nD) (t : Fin cfg0.N) (d) : (dat V c).before 1 t d = proj V c :=
  (((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)).trans (iblk_1_const V c t)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = tgt V c :=
  (((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)).trans (iblk_4_const V c t)

theorem leaves_0 (c : Dev nD) (t : Fin cfg0.N) : (dat V c).leavesExact 0 t = owns (c : Thread nD τ) (st0_0 t) fullShare (hidden V c) := by
  unfold Dat.leavesExact; rw [live_0 t, after_0, iblk_0_const]
theorem leaves_1 (c : Dev nD) (t : Fin cfg0.N) : (dat V c).leavesExact 1 t = owns (c : Thread nD τ) (st0_1 t) fullShare (proj V c) := by
  unfold Dat.leavesExact; rw [live_1 t, after_1, iblk_1_const]
theorem leaves_2 (c : Dev nD) (t : Fin cfg0.N) : (dat V c).leavesExact 2 t = owns (c : Thread nD τ) (st0_2 t) fullShare (wt V c t) := by
  unfold Dat.leavesExact; rw [live_2 t, after_2]
theorem leaves_3 (c : Dev nD) (t : Fin cfg0.N) : (dat V c).leavesExact 3 t = owns (c : Thread nD τ) (st0_3 t) fullShare (bt V c t) := by
  unfold Dat.leavesExact; rw [live_3 t, after_3]
theorem leaves_4 (c : Dev nD) (t : Fin cfg0.N) : (dat V c).leavesExact 4 t = owns (c : Thread nD τ) (st0_4 t) fullShare (tgt V c) := by
  unfold Dat.leavesExact; rw [live_4 t, after_4, iblk_4_const]

def scr (c : Dev nD) (x : Vec F S1024x512 .bf16) (m l : Vec F S1024x1 .f32) (a : Vec F S1024x4 .f32) : sProp (MM F) :=
  iprop(owns (c : Thread nD τ) (Memref.whole cc0_scratch0 : Memref sig .tc .vmem S1024x512 .bf16) fullShare x
    ∗ owns (c : Thread nD τ) (Memref.whole cc0_scratch1 : Memref sig .tc .vmem S1024x1 .f32) fullShare m
    ∗ owns (c : Thread nD τ) (Memref.whole cc0_scratch2 : Memref sig .tc .vmem S1024x1 .f32) fullShare l
    ∗ owns (c : Thread nD τ) (Memref.whole cc0_scratch3 : Memref sig .tc .vmem S1024x4 .f32) fullShare a
    ∗ Pipeline.scopedRestBut (Ix := Unit) (Name := ℕ) (U := UR sig nD τ) (Lvl := ℕ) (Val := Elt F) spec0 c [cc0_scratch0, cc0_scratch1, cc0_scratch2, cc0_scratch3])

theorem scratchAt_eq (c : Dev nD) (s : St F) : scratchAt c s = scr c s.x s.m s.l s.acc := rfl

theorem scopedRest_eq (c : Dev nD) :
    (Pipeline.scopedRest (Ix := Unit) (Name := ℕ) (U := UR sig nD τ) (Lvl := ℕ) (Val := Elt F) spec0 c : sProp (MM F))
      = iprop(iprop((∃ x, owns (c : Thread nD τ) (Memref.whole cc0_scratch0 : Memref sig .tc .vmem S1024x512 .bf16) fullShare x)
          ∗ (∃ m, owns (c : Thread nD τ) (Memref.whole cc0_scratch1 : Memref sig .tc .vmem S1024x1 .f32) fullShare m)
          ∗ (∃ l, owns (c : Thread nD τ) (Memref.whole cc0_scratch2 : Memref sig .tc .vmem S1024x1 .f32) fullShare l)
          ∗ (∃ a, owns (c : Thread nD τ) (Memref.whole cc0_scratch3 : Memref sig .tc .vmem S1024x4 .f32) fullShare a))
        ∗ Pipeline.scopedRestBut (Ix := Unit) (Name := ℕ) (U := UR sig nD τ) (Lvl := ℕ) (Val := Elt F) spec0 c [cc0_scratch0, cc0_scratch1, cc0_scratch2, cc0_scratch3]) := by
  rw [scopedRest0_split]; simp only [owns_whole]; try rfl

theorem Φ_before_first (c : Dev nD) (t : Fin cfg0.N) (h0 : t.val = 0) :
    (dat V c).Φ t.castSucc = Pipeline.scopedRest (Ix := Unit) (Name := ℕ) (U := UR sig nD τ) (Lvl := ℕ) (Val := Elt F) spec0 c :=
  Φ_zero V c t.castSucc h0

theorem Φ_before_pos (c : Dev nD) (t : Fin cfg0.N) (h0 : t.val ≠ 0) :
    (dat V c).Φ t.castSucc = scr c (stAt V c t.val).x (stAt V c t.val).m (stAt V c t.val).l (stAt V c t.val).acc :=
  Φ_pos V c t.castSucc h0

theorem Φ_after_first (c : Dev nD) (t : Fin cfg0.N) (h0 : t.val = 0) :
    (dat V c).Φ t.succ = scr c (k0_pay2 (hidden V c) (proj V c))
      (k0_pay10 (k0_pay8 (grid0.coords t) (k0_pay2 (hidden V c) (proj V c)) (wt V c t) (bt V c t) k0_pay3))
      (k0_pay9 (grid0.coords t) (k0_pay2 (hidden V c) (proj V c)) (wt V c t) (bt V c t) k0_pay3 k0_pay4)
      (k0_pay11 (k0_pay6 (grid0.coords t)) (k0_pay7 (grid0.coords t) (k0_pay2 (hidden V c) (proj V c)) (wt V c t) (bt V c t)) (tgt V c) k0_pay5) := by
  rw [Φ_pos V c t.succ (Nat.succ_ne_zero _), show t.succ.val = t.val + 1 from rfl, stAt_succ, scratchAt_eq]
  unfold step base; rw [if_pos h0]; rfl

theorem Φ_after_pos (c : Dev nD) (t : Fin cfg0.N) (h0 : t.val ≠ 0) :
    (dat V c).Φ t.succ = scr c (stAt V c t.val).x
      (k0_pay10 (k0_pay8 (grid0.coords t) (stAt V c t.val).x (wt V c t) (bt V c t) (stAt V c t.val).m))
      (k0_pay9 (grid0.coords t) (stAt V c t.val).x (wt V c t) (bt V c t) (stAt V c t.val).m (stAt V c t.val).l)
      (k0_pay11 (k0_pay6 (grid0.coords t)) (k0_pay7 (grid0.coords t) (stAt V c t.val).x (wt V c t) (bt V c t)) (tgt V c) (stAt V c t.val).acc) := by
  rw [Φ_pos V c t.succ (Nat.succ_ne_zero _), show t.succ.val = t.val + 1 from rfl, stAt_succ, scratchAt_eq]
  unfold step base; rw [if_neg h0]

theorem outv_last (c : Dev nD) (t : Fin cfg0.N) (h0 : t.val ≠ 0) (hl : t.val + 1 = cfg0.N) :
    outv V c = k0_pay1
      (k0_pay10 (k0_pay8 (grid0.coords t) (stAt V c t.val).x (wt V c t) (bt V c t) (stAt V c t.val).m))
      (k0_pay9 (grid0.coords t) (stAt V c t.val).x (wt V c t) (bt V c t) (stAt V c t.val).m (stAt V c t.val).l)
      (k0_pay11 (k0_pay6 (grid0.coords t)) (k0_pay7 (grid0.coords t) (stAt V c t.val).x (wt V c t) (bt V c t)) (tgt V c) (stAt V c t.val).acc) := by
  have e : stAt V c cfg0.N = step V c t (stAt V c t.val) := by
    have h := stAt_succ V c t; rw [hl] at h; exact h
  unfold outv; rw [e]
  unfold step base; rw [if_neg h0]

def bodyPre (c : Dev nD) (t : Fin cfg0.N) : sProp (MM F) :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

def bodyPost (c : Dev nD) (t : Fin cfg0.N) : sProp (MM F) :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

set_option maxHeartbeats 1600000 in

theorem sound_body (c : Dev nD) (t : Fin cfg0.N) :
    bodyPre V c t ⊢ wp frame (wpE (defs₀ (F := F)) 𝒱₀ c none) Set.univ (bodyAt0 t) (fun _ => bodyPost V c t) := by
  unfold bodyPre bodyPost bodyAt0
  simp only [before_0, before_1, before_2, before_3, before_4]
  rw [show (dat V c).owesAt () t.succ = (dat V c).owesAt () t.castSucc from rfl]
  rw [leaves_0, leaves_1, leaves_2, leaves_3, leaves_4]
  have hN : t.val < 20 := lt_of_lt_of_eq t.isLt (show cfg0.N = 20 from N_0)
  by_cases h0 : t.val = 0
  · have hc1 : cond1 (grid0.coords t) := (hcond1 t).mpr h0
    have hc2 : ¬cond2 (grid0.coords t) := fun h => by
      have h1 := (hcond2 t).mp h; have h2 : cfg0.N = 20 := N_0; omega
    rw [Dat.leavesExact_idle (dat V c) 5 t (idle_5 t hc2) (noflush_5 t hc2)]
    rw [Φ_before_first V c t h0, Φ_after_first V c t h0, scopedRest_eq]
    unfold scr
    iintro ⟨⟨⟨⟨%x, S0⟩, ⟨%m, S1⟩, ⟨%l, S2⟩, ⟨%a, S3⟩⟩, Hrest⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ _ _ _ _ _ _ hc1 hc2 (hidden V c) (proj V c) (wt V c t) (bt V c t) (tgt V c) _ x m l a Set.univ _)
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    isplitl [S3]; · iexact S3
    iintro ⟨H0, H1, H2, H3, H4, H5, S0, S1, S2, S3⟩
    isplitl [S0 S1 S2 S3 Hrest]
    · isplitl [S0]; · iexact S0
      isplitl [S1]; · iexact S1
      isplitl [S2]; · iexact S2
      isplitl [S3]; · iexact S3
      iexact Hrest
    isplitl [Ho]; · iexact Ho
    isplitl [H0]; · iexact H0
    isplitl [H1]; · iexact H1
    isplitl [H2]; · iexact H2
    isplitl [H3]; · iexact H3
    isplitl [H4]; · iexact H4
    iexists _; iexact H5
  · have hc1 : ¬cond1 (grid0.coords t) := fun h => h0 ((hcond1 t).mp h)
    rw [Φ_before_pos V c t h0, Φ_after_pos V c t h0]
    unfold scr
    by_cases hl : t.val + 1 = cfg0.N
    · have hc2 : cond2 (grid0.coords t) := (hcond2 t).mpr hl
      rw [show (dat V c).leavesExact 5 t = owns (c : Thread nD τ) (st0_5 t) fullShare (outv V c) from by
        unfold Dat.leavesExact; rw [live_5 t hc2, after_5]]
      rw [outv_last V c t h0 hl]
      iintro ⟨⟨S0, S1, S2, S3, Hrest⟩, Ho, ⟨%d0, H0⟩, ⟨%d1, H1⟩, ⟨%d2, H2⟩, ⟨%d3, H3⟩, ⟨%d4, H4⟩, ⟨%d5, H5⟩⟩
      iapply (run_last c (grid0.coords t) _ _ _ _ _ _ _ _ _ _ _ _ _ _ _ _ _ _ _ _ hc1 hc2 (hidden V c) (proj V c) (wt V c t) (bt V c t) (tgt V c) _ (stAt V c t.val).x (stAt V c t.val).m (stAt V c t.val).l (stAt V c t.val).acc Set.univ _)
      isplitl [H0]; · iexact H0
      isplitl [H1]; · iexact H1
      isplitl [H2]; · iexact H2
      isplitl [H3]; · iexact H3
      isplitl [H4]; · iexact H4
      isplitl [H5]; · iexact H5
      isplitl [S0]; · iexact S0
      isplitl [S1]; · iexact S1
      isplitl [S2]; · iexact S2
      isplitl [S3]; · iexact S3
      iintro ⟨H0, H1, H2, H3, H4, H5, S0, S1, S2, S3⟩
      isplitl [S0 S1 S2 S3 Hrest]
      · isplitl [S0]; · iexact S0
        isplitl [S1]; · iexact S1
        isplitl [S2]; · iexact S2
        isplitl [S3]; · iexact S3
        iexact Hrest
      isplitl [Ho]; · iexact Ho
      isplitl [H0]; · iexact H0
      isplitl [H1]; · iexact H1
      isplitl [H2]; · iexact H2
      isplitl [H3]; · iexact H3
      isplitl [H4]; · iexact H4
      iexact H5
    · have hc2 : ¬cond2 (grid0.coords t) := fun h => hl ((hcond2 t).mp h)
      rw [Dat.leavesExact_idle (dat V c) 5 t (idle_5 t hc2) (noflush_5 t hc2)]
      iintro ⟨⟨S0, S1, S2, S3, Hrest⟩, Ho, ⟨%d0, H0⟩, ⟨%d1, H1⟩, ⟨%d2, H2⟩, ⟨%d3, H3⟩, ⟨%d4, H4⟩, ⟨%d5, H5⟩⟩
      iapply (run_mid c (grid0.coords t) _ _ _ _ _ _ _ _ _ _ _ _ _ _ _ _ _ _ _ _ hc1 hc2 (hidden V c) (proj V c) (wt V c t) (bt V c t) (tgt V c) _ (stAt V c t.val).x (stAt V c t.val).m (stAt V c t.val).l (stAt V c t.val).acc Set.univ _)
      isplitl [H0]; · iexact H0
      isplitl [H1]; · iexact H1
      isplitl [H2]; · iexact H2
      isplitl [H3]; · iexact H3
      isplitl [H4]; · iexact H4
      isplitl [H5]; · iexact H5
      isplitl [S0]; · iexact S0
      isplitl [S1]; · iexact S1
      isplitl [S2]; · iexact S2
      isplitl [S3]; · iexact S3
      iintro ⟨H0, H1, H2, H3, H4, H5, S0, S1, S2, S3⟩
      isplitl [S0 S1 S2 S3 Hrest]
      · isplitl [S0]; · iexact S0
        isplitl [S1]; · iexact S1
        isplitl [S2]; · iexact S2
        isplitl [S3]; · iexact S3
        iexact Hrest
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation (c : Dev nD) : BodyObligation (dat V c) (defs₀ (F := F)) 𝒱₀ () Set.univ := fun t => by
  rw [bigSep_W0, bigSep_W0]
  exact sound_body V c t

end Cert.KernelIdeal.H.R0

end
-- ==== Proof.KI.R0Seg.lean ====
import proofs.«416365_j66236985639681_1_alg».proof.Proof.KI.R0Body
import Idealize.ShloMosaic.Lib.Pipeline.RegionsLoop
import Idealize.ShloMosaic.Lib.Pipeline.FrameSuffix
import Idealize.ShloMosaic.Lib.Pipeline.Cells

set_option maxRecDepth 16384

noncomputable section

namespace Cert.KernelIdeal.H.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev tl : Fin cfg0.N := ⟨cfg0.N - 1, Nat.sub_lt N_pos Nat.one_pos⟩
theorem tl_succ : (tl : Fin cfg0.N).val + 1 = cfg0.N := Nat.sub_add_cancel N_pos

theorem flush_last : ∀ t : Fin cfg0.N, t.val + 1 = cfg0.N → (cfg0.win 5).flush t = true :=
  (by decide +kernel : ∀ t : Fin grid0.N, t.val + 1 = grid0.N → win0_5.flush t = true)

section Out
variable (V : Val F)

theorem arrAt_out (c : Dev nD) : (dat V c).arrAt 5 cfg0.N = outv V c := by
  have e := (dat V c).arrAt_succ 5 tl
  rw [flush_last tl tl_succ, if_pos rfl] at e
  refine (congrArg ((dat V c).arrAt 5) tl_succ.symm).trans (e.trans ?_)
  refine (Memref.write_access_unit_zero_univ (Elt F) main_v9 (by funext a; fin_cases a <;> rfl) _ _ _).trans ?_
  exact after_5 V c tl

end Out

abbrev Vof (W : Dev nD → Valuation τ sig (Elt F)) : Val F := fun c b => W c b

variable (W Wp : Dev nD → Valuation τ sig (Elt F))

set_option maxHeartbeats 2000000 in
set_option backward.isDefEq.respectTransparency.types false in

def reg (d1 : (c : Dev nD) → DatOf F cfg1 c) (d2 : (c : Dev nD) → DatOf F cfg2 c) (d3 : (c : Dev nD) → DatOf F cfg3 c)
    (hWp_out : ∀ c, Vof Wp c main_v9 = (dat (Vof W) c).arrAt 5 cfg0.N)
    (hWp_ne : ∀ c (b : Ref sig .tc), b ≠ main_v9 → Vof Wp c b = Vof W c b) :
    Pipeline.RegionSeg (pcfgs (F := F)) adm (fam (dat (Vof W)) d1 d2 d3) () defs₀ 𝒱₀ L lv 0 where
  win := launch0.win.to₀
  block_pos := launch0.block_pos
  stage_whole := launch0.stage_whole
  K := PEmpty
  osem k := k.elim
  ho := Pipeline.OwnSemFacts.none _
  hbody c := (body_obligation (Vof W) c).loose
  hwaits := Pipeline.hwaits_of_owed_zero _ _ _ _ L lv 0 fun _ _ => rfl
  pre c := iprop(StableHlo.held (c : Thread nD τ) (Pipeline.ucRefs τ sig) (W c) ∗ R c)
  post c := iprop(StableHlo.held (c : Thread nD τ) (Pipeline.ucRefs τ sig) (Wp c) ∗ R c)
  X _ := BI.emp
  Y _ := BI.emp
  Z c := iprop(Pipeline.unscopedRest (Ix := Unit) (Name := ℕ) (U := UR sig nD τ) (Lvl := ℕ) spec0 c (Vof W c) ∗ ∃ r, prngReg c r)
  hentry c := by
    rw [Pipeline.ownSems0_none]
    have hsplit := Pipeline.arrays_of_unscopedBufs (p := 0) (pcfgs (F := F)) adm (fam (dat (Vof W)) d1 d2 d3) launch0.win launch0.arr_whole c
      ((fam (dat (Vof W)) d1 d2 d3 0 c).share_full fun _ => rfl) (Vof W c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W', HO⟩; iexists W'; isplitr; · ipureintro; exact fun _ _ => Or.inl trivial
      iexact HO
    isplitr; · iempintro
    isplitl [Hrest]; · iexact Hrest
    iexact Hp
  hin c := by
    rw [show (fam (dat (Vof W)) d1 d2 d3 0 c).Φ 0 = _ from Φ_zero (Vof W) c 0 rfl]
    iintro ⟨-, -, Hr⟩; iexact Hr
  hout c := by
    rw [Pipeline.ownSems0_none, show (fam (dat (Vof W)) d1 d2 d3 0 c).Φ (Fin.last _) = _ from
      Φ_pos (Vof W) c (Fin.last cfg0.N) (Nat.ne_of_gt N_pos)]
    change _ ⊢ iprop(BI.emp ∗ BI.emp ∗ (Pipeline.scopedRest (Ix := Unit) (Name := ℕ) (U := UR sig nD τ) (Lvl := ℕ) (Val := Elt F) spec0 c : sProp (MM F)))
    rw [scopedRest_eq]
    unfold scratchAt
    iintro ⟨H0, H1, H2, H3, Hr⟩
    isplitr; · iempintro
    isplitr; · iempintro
    isplitl [H0 H1 H2 H3]
    · isplitl [H0]; · iexists _; iexact H0
      isplitl [H1]; · iexists _; iexact H1
      isplitl [H2]; · iexists _; iexact H2
      iexists _; iexact H3
    iexact Hr
  hexit c := by
    have hjoin := Pipeline.unscopedBufs_of_arrays (p := 0) (pcfgs (F := F)) adm (Ix := Unit) (Name := ℕ) (U := UR sig nD τ) (Lvl := ℕ)
      launch0.win launch0.arr_whole c (fam (dat (Vof W)) d1 d2 d3) ((fam (dat (Vof W)) d1 d2 d3 0 c).share_full fun _ => rfl)
      (Vof W c) (Vof Wp c) ((fam (dat (Vof W)) d1 d2 d3 0 c).arrAt · cfg0.N)
      (fun w => by
        fin_cases w
        · exact ((dat (Vof W) c).arrAt_in 0 rfl _).trans (hWp_ne c _ (by decide)).symm
        · exact ((dat (Vof W) c).arrAt_in 1 rfl _).trans (hWp_ne c _ (by decide)).symm
        · exact ((dat (Vof W) c).arrAt_in 2 rfl _).trans (hWp_ne c _ (by decide)).symm
        · exact ((dat (Vof W) c).arrAt_in 3 rfl _).trans (hWp_ne c _ (by decide)).symm
        · exact ((dat (Vof W) c).arrAt_in 4 rfl _).trans (hWp_ne c _ (by decide)).symm
        · exact (hWp_out c).symm)
      (fun b hb => hWp_ne c b fun h => hb (h ▸ Finset.mem_image.mpr ⟨5, Finset.mem_univ _, rfl⟩))
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W', -, HO⟩; iexists W'; iexact HO

end Cert.KernelIdeal.H.R0

end
-- ==== Proof.KI.R1Body.lean ====
import proofs.«416365_j66236985639681_1_alg».proof.Proof.KI.R1State
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.H.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev cond1 (i : grid1.Coords) : Prop := (Scalar.cmpi .ne (Scalar.extui (Scalar.cmpi .eq (BitVec.ofNat 32 (i 0).val) 0#32)) 0#32) = 1#1
theorem hcond1 : ∀ t : Fin cfg1.N, cond1 (grid1.coords t) ↔ t.val = 0 :=
  (by decide +kernel : ∀ t : Fin grid1.N, cond1 (grid1.coords t) ↔ t.val = 0)

abbrev cond2 (i : grid1.Coords) : Prop := k1_cond2 i = 1#1
theorem hcond2 : ∀ t : Fin cfg1.N, cond2 (grid1.coords t) ↔ t.val + 1 = cfg1.N :=
  (by decide +kernel : ∀ t : Fin grid1.N, cond2 (grid1.coords t) ↔ t.val + 1 = grid1.N)

def nxt (i : grid1.Coords) (x : Vec F S1024x128 .bf16) (m l a : Vec F S1024x1 .f32) (w : Vec F S1024x128 .bf16) (b : Vec F S1024 .f32)
    (tg : Vec F S1024x1 .i32) : St F :=
  { x := x
    m := k1_pay1 (k1_pay10 i x w b m)
    l := k1_pay11 i x w b m l
    acc := k1_pay2 (k1_pay8 i) (k1_pay9 i x w b) tg a }

section Whole
variable {sp : Space} {S : Shape} {e : EltTy}

theorem readAt_whole (v : View sig .tc sp S e) {off : Fin S.rank → Nat} (h : off = fun _ => 0)
    (inb : ∀ a, off a + S.size a ≤ S.size a) (f : v.ty.Contents (Elt F)) :
    v.readAt (Elt F) (Rect.unit off S.size inb).toLoadRect f = v.read (Elt F) f :=
  (View.readAt_eq_ld v f _).trans (View.ld_unit_zero h inb _)

theorem read_writes_whole (v : View sig .tc sp S e) (f : v.ty.Contents (Elt F)) {off : Fin S.rank → Nat} (h : off = fun _ => 0)
    (inb : ∀ a, off a + S.size a ≤ S.size a) (W : S.Idx → Elt F e) (L : List (View.Piece (Elt F) S e)) :
    v.read (Elt F) (v.writes (Elt F) f (⟨Rect.unit off S.size inb, W⟩ :: L)) = W :=
  (View.read_writes_eq_canon v f _ (fun y => ⟨_, List.mem_cons_self, View.mem_set_unit_zero h inb y⟩)).trans
    (View.canon_cons_unit_zero h inb W L)

theorem readCov_whole (v : View sig .tc sp S e) {off : Fin S.rank → Nat}
    (inb : ∀ a, off a + S.size a ≤ S.size a) (W : S.Idx → Elt F e) (L : List (View.Piece (Elt F) S e)) :
    v.readCov (⟨Rect.unit off S.size inb, W⟩ :: L) (Rect.unit off S.size inb).toLoadRect = W :=
  View.readCov_cons_toLoadRect v (Rect.unit off S.size inb) W L
end Whole

theorem zoff1 : (![0] : Fin 1 → ℕ) = fun _ => 0 := by funext a; fin_cases a; rfl
theorem zoff2 : (![0, 0] : Fin 2 → ℕ) = fun _ => 0 := by funext a; fin_cases a <;> rfl

theorem rd_S1024x512 {e : EltTy} (v : View sig .tc .vmem S1024x512 e) (f : v.ty.Contents (Elt F)) :
    v.readAt (Elt F) (Rect.unit (s := S1024x512) ![0, 0] S1024x512.size inb_S1024x512_S1024x512_0_0).toLoadRect f = v.read (Elt F) f := readAt_whole v zoff2 _ f
theorem rd_S512x128 {e : EltTy} (v : View sig .tc .vmem S512x128 e) (f : v.ty.Contents (Elt F)) :
    v.readAt (Elt F) (Rect.unit (s := S512x128) ![0, 0] S512x128.size inb_S512x128_S512x128_0_0).toLoadRect f = v.read (Elt F) f := readAt_whole v zoff2 _ f
theorem rd_S1024x128 {e : EltTy} (v : View sig .tc .vmem S1024x128 e) (f : v.ty.Contents (Elt F)) :
    v.readAt (Elt F) (Rect.unit (s := S1024x128) ![0, 0] S1024x128.size inb_S1024x128_S1024x128_0_0).toLoadRect f = v.read (Elt F) f := readAt_whole v zoff2 _ f
theorem rd_S1024 {e : EltTy} (v : View sig .tc .vmem S1024 e) (f : v.ty.Contents (Elt F)) :
    v.readAt (Elt F) (Rect.unit (s := S1024) ![0] S1024.size inb_S1024_S1024_0).toLoadRect f = v.read (Elt F) f := readAt_whole v zoff1 _ f
theorem rd_S1024x1 {e : EltTy} (v : View sig .tc .vmem S1024x1 e) (f : v.ty.Contents (Elt F)) :
    v.readAt (Elt F) (Rect.unit (s := S1024x1) ![0, 0] S1024x1.size inb_S1024x1_S1024x1_0_0).toLoadRect f = v.read (Elt F) f := readAt_whole v zoff2 _ f

macro "rd_all" : tactic =>
  `(tactic| repeat (first | rw [readCov_whole] | rw [rd_S1024x128] | rw [rd_S1024x1] | rw [rd_S1024] | rw [rd_S1024x512] | rw [rd_S512x128]))
set_option maxHeartbeats 1000000 in
theorem run_mid (c : Dev nD) (i : grid1.Coords) (arg1 : Memref sig .tc .vmem S1024x512 .bf16) (harg1 : arg1.IsWhole) (arg2 : Memref sig .tc .vmem S512x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (hc1 : ¬cond1 i) (hc2 : ¬cond2 i)
    (hd : Vec F S1024x512 .bf16) (pj : Vec F S512x128 .bf16) (w : Vec F S1024x128 .bf16) (b : Vec F S1024 .f32) (tg : Vec F S1024x1 .i32) (o : Vec F S1024x1 .f32)
    (x : Vec F S1024x128 .bf16) (m l a : Vec F S1024x1 .f32) (E : Set ℕ) (K : PUnit → sProp (MM F)) :
    iprop(owns (c : Thread nD τ) arg1 fullShare hd ∗ owns (c : Thread nD τ) arg2 fullShare pj ∗ owns (c : Thread nD τ) arg3 fullShare w
        ∗ owns (c : Thread nD τ) arg4 fullShare b ∗ owns (c : Thread nD τ) arg5 fullShare tg ∗ owns (c : Thread nD τ) arg6 fullShare o
        ∗ owns (c : Thread nD τ) arg7 fullShare x ∗ owns (c : Thread nD τ) arg8 fullShare m ∗ owns (c : Thread nD τ) arg9 fullShare l
        ∗ owns (c : Thread nD τ) arg10 fullShare a
        ∗ (iprop(owns (c : Thread nD τ) arg1 fullShare hd ∗ owns (c : Thread nD τ) arg2 fullShare pj ∗ owns (c : Thread nD τ) arg3 fullShare w
            ∗ owns (c : Thread nD τ) arg4 fullShare b ∗ owns (c : Thread nD τ) arg5 fullShare tg ∗ owns (c : Thread nD τ) arg6 fullShare o
            ∗ owns (c : Thread nD τ) arg7 fullShare (nxt i x m l a w b tg).x ∗ owns (c : Thread nD τ) arg8 fullShare (nxt i x m l a w b tg).m
            ∗ owns (c : Thread nD τ) arg9 fullShare (nxt i x m l a w b tg).l ∗ owns (c : Thread nD τ) arg10 fullShare (nxt i x m l a w b tg).acc) -∗ K ⟨⟩))
      ⊢ wp frame (wpE (defs₀ (F := F)) 𝒱₀ c none) E (cc1__cluster_kernel_body i arg1 harg1 arg2 harg2 arg3 harg3 arg4 harg4 arg5 harg5 arg6 harg6 arg7 harg7 arg8 harg8 arg9 harg9 arg10 harg10) K := by
  simp only [cc1__cluster_kernel_body_eq_skeleton]; unfold cc1__cluster_kernel_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf1 hf2 hf3 hf4 hf5 hf6 hf7 hf8 hf9 hf10
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap; · iexact H8
    ipureintro; refine (read_writes_whole _ _ zoff2 _ _ _).trans ?_
    unfold run_mid.sl.r_1; rd_all; first | done | rfl
  isplitl [H9]
  · iexists _; isplitr; swap; · iexact H9
    ipureintro; refine (read_writes_whole _ _ zoff2 _ _ _).trans ?_
    rd_all; first | done | rfl
  iexists _; isplitr; swap; · iexact H10
  ipureintro; refine (read_writes_whole _ _ zoff2 _ _ _).trans ?_
  unfold run_mid.sl.r; rd_all; first | done | rfl

set_option maxHeartbeats 1000000 in
theorem run_first (c : Dev nD) (i : grid1.Coords) (arg1 : Memref sig .tc .vmem S1024x512 .bf16) (harg1 : arg1.IsWhole) (arg2 : Memref sig .tc .vmem S512x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (hc1 : cond1 i) (hc2 : ¬cond2 i)
    (hd : Vec F S1024x512 .bf16) (pj : Vec F S512x128 .bf16) (w : Vec F S1024x128 .bf16) (b : Vec F S1024 .f32) (tg : Vec F S1024x1 .i32) (o : Vec F S1024x1 .f32)
    (x : Vec F S1024x128 .bf16) (m l a : Vec F S1024x1 .f32) (E : Set ℕ) (K : PUnit → sProp (MM F)) :
    iprop(owns (c : Thread nD τ) arg1 fullShare hd ∗ owns (c : Thread nD τ) arg2 fullShare pj ∗ owns (c : Thread nD τ) arg3 fullShare w
        ∗ owns (c : Thread nD τ) arg4 fullShare b ∗ owns (c : Thread nD τ) arg5 fullShare tg ∗ owns (c : Thread nD τ) arg6 fullShare o
        ∗ owns (c : Thread nD τ) arg7 fullShare x ∗ owns (c : Thread nD τ) arg8 fullShare m ∗ owns (c : Thread nD τ) arg9 fullShare l
        ∗ owns (c : Thread nD τ) arg10 fullShare a
        ∗ (iprop(owns (c : Thread nD τ) arg1 fullShare hd ∗ owns (c : Thread nD τ) arg2 fullShare pj ∗ owns (c : Thread nD τ) arg3 fullShare w
            ∗ owns (c : Thread nD τ) arg4 fullShare b ∗ owns (c : Thread nD τ) arg5 fullShare tg ∗ owns (c : Thread nD τ) arg6 fullShare o
            ∗ owns (c : Thread nD τ) arg7 fullShare (nxt i (k1_pay4 hd pj) k1_pay5 k1_pay6 k1_pay7 w b tg).x ∗ owns (c : Thread nD τ) arg8 fullShare (nxt i (k1_pay4 hd pj) k1_pay5 k1_pay6 k1_pay7 w b tg).m
            ∗ owns (c : Thread nD τ) arg9 fullShare (nxt i (k1_pay4 hd pj) k1_pay5 k1_pay6 k1_pay7 w b tg).l ∗ owns (c : Thread nD τ) arg10 fullShare (nxt i (k1_pay4 hd pj) k1_pay5 k1_pay6 k1_pay7 w b tg).acc) -∗ K ⟨⟩))
      ⊢ wp frame (wpE (defs₀ (F := F)) 𝒱₀ c none) E (cc1__cluster_kernel_body i arg1 harg1 arg2 harg2 arg3 harg3 arg4 harg4 arg5 harg5 arg6 harg6 arg7 harg7 arg8 harg8 arg9 harg9 arg10 harg10) K := by
  simp only [cc1__cluster_kernel_body_eq_skeleton]; unfold cc1__cluster_kernel_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf1 hf2 hf3 hf4 hf5 hf6 hf7 hf8 hf9 hf10
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro; unfold run_first.sl.H7_1; refine (read_writes_whole _ _ zoff2 _ _ _).trans ?_
    rd_all; first | done | rfl
  isplitl [H8]
  · iexists _; isplitr; swap; · iexact H8
    ipureintro; refine (read_writes_whole _ _ zoff2 _ _ _).trans ?_
    unfold run_first.sl.r_1 run_first.sl.v3 run_first.sl.v21 run_first.sl.H7_1 run_first.sl.H8_1; rd_all; first | done | rfl
  isplitl [H9]
  · iexists _; isplitr; swap; · iexact H9
    ipureintro; refine (read_writes_whole _ _ zoff2 _ _ _).trans ?_
    unfold run_first.sl.v3 run_first.sl.v21 run_first.sl.v30 run_first.sl.H7_1 run_first.sl.H8_1 run_first.sl.H9_1; rd_all; first | done | rfl
  iexists _; isplitr; swap; · iexact H10
  ipureintro; refine (read_writes_whole _ _ zoff2 _ _ _).trans ?_
  unfold run_first.sl.r run_first.sl.v3 run_first.sl.v49 run_first.sl.H7_1 run_first.sl.H10_1; rd_all; first | done | rfl

set_option maxHeartbeats 1000000 in
theorem run_last (c : Dev nD) (i : grid1.Coords) (arg1 : Memref sig .tc .vmem S1024x512 .bf16) (harg1 : arg1.IsWhole) (arg2 : Memref sig .tc .vmem S512x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (hc1 : ¬cond1 i) (hc2 : cond2 i)
    (hd : Vec F S1024x512 .bf16) (pj : Vec F S512x128 .bf16) (w : Vec F S1024x128 .bf16) (b : Vec F S1024 .f32) (tg : Vec F S1024x1 .i32) (o : Vec F S1024x1 .f32)
    (x : Vec F S1024x128 .bf16) (m l a : Vec F S1024x1 .f32) (E : Set ℕ) (K : PUnit → sProp (MM F)) :
    iprop(owns (c : Thread nD τ) arg1 fullShare hd ∗ owns (c : Thread nD τ) arg2 fullShare pj ∗ owns (c : Thread nD τ) arg3 fullShare w
        ∗ owns (c : Thread nD τ) arg4 fullShare b ∗ owns (c : Thread nD τ) arg5 fullShare tg ∗ owns (c : Thread nD τ) arg6 fullShare o
        ∗ owns (c : Thread nD τ) arg7 fullShare x ∗ owns (c : Thread nD τ) arg8 fullShare m ∗ owns (c : Thread nD τ) arg9 fullShare l
        ∗ owns (c : Thread nD τ) arg10 fullShare a
        ∗ (iprop(owns (c : Thread nD τ) arg1 fullShare hd ∗ owns (c : Thread nD τ) arg2 fullShare pj ∗ owns (c : Thread nD τ) arg3 fullShare w
            ∗ owns (c : Thread nD τ) arg4 fullShare b ∗ owns (c : Thread nD τ) arg5 fullShare tg ∗ owns (c : Thread nD τ) arg6 fullShare (k1_pay3 (nxt i x m l a w b tg).m (nxt i x m l a w b tg).l (nxt i x m l a w b tg).acc)
            ∗ owns (c : Thread nD τ) arg7 fullShare (nxt i x m l a w b tg).x ∗ owns (c : Thread nD τ) arg8 fullShare (nxt i x m l a w b tg).m
            ∗ owns (c : Thread nD τ) arg9 fullShare (nxt i x m l a w b tg).l ∗ owns (c : Thread nD τ) arg10 fullShare (nxt i x m l a w b tg).acc) -∗ K ⟨⟩))
      ⊢ wp frame (wpE (defs₀ (F := F)) 𝒱₀ c none) E (cc1__cluster_kernel_body i arg1 harg1 arg2 harg2 arg3 harg3 arg4 harg4 arg5 harg5 arg6 harg6 arg7 harg7 arg8 harg8 arg9 harg9 arg10 harg10) K := by
  simp only [cc1__cluster_kernel_body_eq_skeleton]; unfold cc1__cluster_kernel_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf1 hf2 hf3 hf4 hf5 hf6 hf7 hf8 hf9 hf10
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro; refine (read_writes_whole _ _ zoff2 _ _ _).trans ?_
    unfold run_last.sl.v57 run_last.sl.v58 run_last.sl.v61 run_last.sl.H8_1 run_last.sl.H9_1 run_last.sl.H10_1 run_last.sl.r_1 run_last.sl.r
    rd_all; first | done | rfl
  isplitl [H7]
  · iexists f7; isplitr; · ipureintro; rfl
    iexact H7
  isplitl [H8]
  · iexists _; isplitr; swap; · iexact H8
    ipureintro; unfold run_last.sl.H8_1 run_last.sl.r_1; refine (read_writes_whole _ _ zoff2 _ _ _).trans ?_
    rd_all; first | done | rfl
  isplitl [H9]
  · iexists _; isplitr; swap; · iexact H9
    ipureintro; unfold run_last.sl.H9_1; refine (read_writes_whole _ _ zoff2 _ _ _).trans ?_
    rd_all; first | done | rfl
  iexists _; isplitr; swap; · iexact H10
  ipureintro; unfold run_last.sl.H10_1 run_last.sl.r; refine (read_writes_whole _ _ zoff2 _ _ _).trans ?_
  rd_all; first | done | rfl

variable (V : Val F)

theorem one_lt_N : 1 < cfg1.N := by decide

theorem live_0 (t : Fin cfg1.N) : cfg1.idle 0 (cfg1.grid.coords t) = false := rfl
theorem live_1 (t : Fin cfg1.N) : cfg1.idle 1 (cfg1.grid.coords t) = false := rfl
theorem live_2 (t : Fin cfg1.N) : cfg1.idle 2 (cfg1.grid.coords t) = false := rfl
theorem live_3 (t : Fin cfg1.N) : cfg1.idle 3 (cfg1.grid.coords t) = false := rfl
theorem live_4 (t : Fin cfg1.N) : cfg1.idle 4 (cfg1.grid.coords t) = false := rfl
theorem idle_5 : ∀ t : Fin cfg1.N, ¬cond2 (grid1.coords t) → cfg1.idle 5 (cfg1.grid.coords t) = true :=
  (by decide +kernel : ∀ t : Fin grid1.N, ¬cond2 (grid1.coords t) → idle1 5 (grid1.coords t) = true)
theorem live_5 : ∀ t : Fin cfg1.N, cond2 (grid1.coords t) → cfg1.idle 5 (cfg1.grid.coords t) = false :=
  (by decide +kernel : ∀ t : Fin grid1.N, cond2 (grid1.coords t) → idle1 5 (grid1.coords t) = false)
theorem noFlush_5 : ∀ t : Fin cfg1.N, ¬cond2 (grid1.coords t) → (cfg1.win 5).flush t = false :=
  (by decide +kernel : ∀ t : Fin grid1.N, ¬cond2 (grid1.coords t) → win1_5.flush t = false)

theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

theorem step_first (c : Dev nD) (t : Fin cfg1.N) (h0 : t.val = 0) (s : St F) :
    step V c t s = nxt (grid1.coords t) (k1_pay4 (hidden V c) (proj V c)) k1_pay5 k1_pay6 k1_pay7 (wt V c t) (bt V c t) (tgt V c) := by
  unfold step base; rw [if_pos h0]; rfl
theorem step_later (c : Dev nD) (t : Fin cfg1.N) (h0 : t.val ≠ 0) (s : St F) :
    step V c t s = nxt (grid1.coords t) s.x s.m s.l s.acc (wt V c t) (bt V c t) (tgt V c) := by
  unfold step base; rw [if_neg h0]; rfl

theorem outv_last (c : Dev nD) (t : Fin cfg1.N) (hl : t.val + 1 = cfg1.N) :
    outv V c = k1_pay3 (step V c t (stAt V c t.val)).m (step V c t (stAt V c t.val)).l (step V c t (stAt V c t.val)).acc := by
  have e : stAt V c cfg1.N = step V c t (stAt V c t.val) := by
    have h := stAt_succ V c t; rw [hl] at h; exact h
  unfold outv; rw [e]

theorem rest_eq (c : Dev nD) :
    (Pipeline.scopedRest (Ix := Unit) (Name := ℕ) (U := UR sig nD τ) (Lvl := ℕ) (Val := Elt F) spec1 c : sProp (MM F))
      = iprop(iprop((∃ d, owns (c : Thread nD τ) (Memref.whole cc1_scratch0 : Memref sig .tc .vmem S1024x128 .bf16) fullShare d)
          ∗ (∃ d, owns (c : Thread nD τ) (Memref.whole cc1_scratch1 : Memref sig .tc .vmem S1024x1 .f32) fullShare d)
          ∗ (∃ d, owns (c : Thread nD τ) (Memref.whole cc1_scratch2 : Memref sig .tc .vmem S1024x1 .f32) fullShare d)
          ∗ (∃ d, owns (c : Thread nD τ) (Memref.whole cc1_scratch3 : Memref sig .tc .vmem S1024x1 .f32) fullShare d))
        ∗ Pipeline.scopedRestBut (Ix := Unit) (Name := ℕ) (U := UR sig nD τ) (Lvl := ℕ) (Val := Elt F) spec1 c [cc1_scratch0, cc1_scratch1, cc1_scratch2, cc1_scratch3]) := by
  rw [scopedRest1_split]; simp only [owns_whole]; try rfl

def bodyPre (c : Dev nD) (t : Fin cfg1.N) : sProp (MM F) :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

def bodyPost (c : Dev nD) (t : Fin cfg1.N) : sProp (MM F) :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

set_option maxHeartbeats 2000000 in

theorem sound_body (c : Dev nD) (t : Fin cfg1.N) :
    bodyPre V c t ⊢ wp frame (wpE (defs₀ (F := F)) 𝒱₀ c none) Set.univ (bodyAt1 t) (fun _ => bodyPost V c t) := by
  unfold bodyPre bodyPost bodyAt1
  simp only [before_0, before_1, before_2, before_3, before_4]
  rw [show (dat V c).owesAt () t.succ = (dat V c).owesAt () t.castSucc from rfl]
  rw [show (dat V c).leavesExact 0 t = owns (c : Thread nD τ) (st1_0 t) fullShare (iblk V c 0 t) from by
      unfold Dat.leavesExact; rw [live_0 t, after_0],
    show (dat V c).leavesExact 1 t = owns (c : Thread nD τ) (st1_1 t) fullShare (iblk V c 1 t) from by
      unfold Dat.leavesExact; rw [live_1 t, after_1],
    show (dat V c).leavesExact 2 t = owns (c : Thread nD τ) (st1_2 t) fullShare (iblk V c 2 t) from by
      unfold Dat.leavesExact; rw [live_2 t, after_2],
    show (dat V c).leavesExact 3 t = owns (c : Thread nD τ) (st1_3 t) fullShare (iblk V c 3 t) from by
      unfold Dat.leavesExact; rw [live_3 t, after_3],
    show (dat V c).leavesExact 4 t = owns (c : Thread nD τ) (st1_4 t) fullShare (iblk V c 4 t) from by
      unfold Dat.leavesExact; rw [live_4 t, after_4]]
  rw [Φ_pos V c t.succ (by rw [Fin.val_succ]; exact Nat.succ_ne_zero _), Fin.val_succ, stAt_succ]
  rw [iblk_0_const V c t, iblk_1_const V c t, iblk_4_const V c t]
  by_cases h0 : t.val = 0
  · have hc1 : cond1 (grid1.coords t) := (hcond1 t).mpr h0
    have hc2 : ¬cond2 (grid1.coords t) := fun h => by
      have h' := (hcond2 t).mp h; have h1 := one_lt_N; omega
    rw [Dat.leavesExact_idle (dat V c) 5 t (idle_5 t hc2) (noFlush_5 t hc2)]
    rw [Φ_zero V c t.castSucc (by rw [Fin.coe_castSucc]; exact h0), rest_eq, step_first V c t h0]
    unfold scratchAt
    iintro ⟨⟨⟨⟨%x0, HS0⟩, ⟨%m0, HS1⟩, ⟨%l0, HS2⟩, ⟨%a0, HS3⟩⟩, Hrest⟩, Ho, ⟨%d0, H0⟩, ⟨%d1, H1⟩, ⟨%d2, H2⟩, ⟨%d3, H3⟩, ⟨%d4, H4⟩, ⟨%d5, H5⟩⟩
    iapply (run_first c (grid1.coords t) _ _ _ _ _ _ _ _ _ _ _ _ _ _ _ _ _ _ _ _ hc1 hc2 (hidden V c) (proj V c) (wt V c t) (bt V c t) (tgt V c) _ x0 m0 l0 a0 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    isplitl [HS0 HS1 HS2 HS3 Hrest]
    · isplitl [HS0]; · iexact HS0
      isplitl [HS1]; · iexact HS1
      isplitl [HS2]; · iexact HS2
      isplitl [HS3]; · iexact HS3
      iexact Hrest
    isplitl [Ho]; · iexact Ho
    isplitl [H0]; · iexact H0
    isplitl [H1]; · iexact H1
    isplitl [H2]; · iexact H2
    isplitl [H3]; · iexact H3
    isplitl [H4]; · iexact H4
    iexists _; iexact H5
  · have hc1 : ¬cond1 (grid1.coords t) := fun h => h0 ((hcond1 t).mp h)
    rw [Φ_pos V c t.castSucc (by rw [Fin.coe_castSucc]; exact h0), Fin.coe_castSucc, step_later V c t h0]
    unfold scratchAt
    by_cases hl : t.val + 1 = cfg1.N
    · have hc2 : cond2 (grid1.coords t) := (hcond2 t).mpr hl
      rw [show (dat V c).leavesExact 5 t = owns (c : Thread nD τ) (st1_5 t) fullShare (outv V c) from by
        unfold Dat.leavesExact; rw [live_5 t hc2, after_5]]
      rw [outv_last V c t hl, step_later V c t h0]
      iintro ⟨⟨HS0, HS1, HS2, HS3, Hrest⟩, Ho, ⟨%d0, H0⟩, ⟨%d1, H1⟩, ⟨%d2, H2⟩, ⟨%d3, H3⟩, ⟨%d4, H4⟩, ⟨%d5, H5⟩⟩
      iapply (run_last c (grid1.coords t) _ _ _ _ _ _ _ _ _ _ _ _ _ _ _ _ _ _ _ _ hc1 hc2 (hidden V c) (proj V c) (wt V c t) (bt V c t) (tgt V c) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hrest]
      · isplitl [HS0]; · iexact HS0
        isplitl [HS1]; · iexact HS1
        isplitl [HS2]; · iexact HS2
        isplitl [HS3]; · iexact HS3
        iexact Hrest
      isplitl [Ho]; · iexact Ho
      isplitl [H0]; · iexact H0
      isplitl [H1]; · iexact H1
      isplitl [H2]; · iexact H2
      isplitl [H3]; · iexact H3
      isplitl [H4]; · iexact H4
      iexact H5
    · have hc2 : ¬cond2 (grid1.coords t) := fun h => hl ((hcond2 t).mp h)
      rw [Dat.leavesExact_idle (dat V c) 5 t (idle_5 t hc2) (noFlush_5 t hc2)]
      iintro ⟨⟨HS0, HS1, HS2, HS3, Hrest⟩, Ho, ⟨%d0, H0⟩, ⟨%d1, H1⟩, ⟨%d2, H2⟩, ⟨%d3, H3⟩, ⟨%d4, H4⟩, ⟨%d5, H5⟩⟩
      iapply (run_mid c (grid1.coords t) _ _ _ _ _ _ _ _ _ _ _ _ _ _ _ _ _ _ _ _ hc1 hc2 (hidden V c) (proj V c) (wt V c t) (bt V c t) (tgt V c) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hrest]
      · isplitl [HS0]; · iexact HS0
        isplitl [HS1]; · iexact HS1
        isplitl [HS2]; · iexact HS2
        isplitl [HS3]; · iexact HS3
        iexact Hrest
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation (c : Dev nD) : BodyObligation (dat V c) (defs₀ (F := F)) 𝒱₀ () Set.univ := fun t => by
  rw [bigSep_W1, bigSep_W1]
  exact sound_body V c t

end Cert.KernelIdeal.H.R1

end
-- ==== Proof.KI.R1Seg.lean ====
import proofs.«416365_j66236985639681_1_alg».proof.Proof.KI.R1Body
import Idealize.ShloMosaic.Lib.Pipeline.RegionsLoop
import Idealize.ShloMosaic.Lib.Pipeline.FrameSuffix
import Idealize.ShloMosaic.Lib.Pipeline.Cells

set_option maxRecDepth 16384

noncomputable section

namespace Cert.KernelIdeal.H.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev tl : Fin cfg1.N := ⟨cfg1.N - 1, Nat.sub_lt N_pos Nat.one_pos⟩
theorem tl_succ : (tl : Fin cfg1.N).val + 1 = cfg1.N := Nat.sub_add_cancel N_pos

theorem flush_last : ∀ t : Fin cfg1.N, t.val + 1 = cfg1.N → (cfg1.win 5).flush t = true :=
  (by decide +kernel : ∀ t : Fin grid1.N, t.val + 1 = grid1.N → win1_5.flush t = true)

section Out
variable (V : Val F)

theorem arrAt_out (c : Dev nD) : (dat V c).arrAt 5 cfg1.N = outv V c := by
  have e := (dat V c).arrAt_succ 5 tl
  rw [flush_last tl tl_succ, if_pos rfl] at e
  refine (congrArg ((dat V c).arrAt 5) tl_succ.symm).trans (e.trans ?_)
  refine (Memref.write_access_unit_zero_univ (Elt F) main_v22 (by funext a; fin_cases a <;> rfl) _ _ _).trans ?_
  exact after_5 V c tl

end Out

abbrev Vof (W : Dev nD → Valuation τ sig (Elt F)) : Val F := fun c b => W c b

variable (W Wp : Dev nD → Valuation τ sig (Elt F))

set_option maxHeartbeats 2000000 in
set_option backward.isDefEq.respectTransparency.types false in

def reg (d0 : (c : Dev nD) → DatOf F cfg0 c) (d2 : (c : Dev nD) → DatOf F cfg2 c) (d3 : (c : Dev nD) → DatOf F cfg3 c)
    (hWp_out : ∀ c, Vof Wp c main_v22 = (dat (Vof W) c).arrAt 5 cfg1.N)
    (hWp_ne : ∀ c (b : Ref sig .tc), b ≠ main_v22 → Vof Wp c b = Vof W c b) :
    Pipeline.RegionSeg (pcfgs (F := F)) adm (fam d0 (dat (Vof W)) d2 d3) () defs₀ 𝒱₀ L lv 1 where
  win := launch1.win.to₀
  block_pos := launch1.block_pos
  stage_whole := launch1.stage_whole
  K := PEmpty
  osem k := k.elim
  ho := Pipeline.OwnSemFacts.none _
  hbody c := (body_obligation (Vof W) c).loose
  hwaits := Pipeline.hwaits_of_owed_zero _ _ _ _ L lv 1 fun _ _ => rfl
  pre c := iprop(StableHlo.held (c : Thread nD τ) (Pipeline.ucRefs τ sig) (W c) ∗ R c)
  post c := iprop(StableHlo.held (c : Thread nD τ) (Pipeline.ucRefs τ sig) (Wp c) ∗ R c)
  X _ := BI.emp
  Y _ := BI.emp
  Z c := iprop(Pipeline.unscopedRest (Ix := Unit) (Name := ℕ) (U := UR sig nD τ) (Lvl := ℕ) spec1 c (Vof W c) ∗ ∃ r, prngReg c r)
  hentry c := by
    rw [Pipeline.ownSems0_none]
    have hsplit := Pipeline.arrays_of_unscopedBufs (p := 1) (pcfgs (F := F)) adm (fam d0 (dat (Vof W)) d2 d3) launch1.win launch1.arr_whole c
      ((fam d0 (dat (Vof W)) d2 d3 1 c).share_full fun _ => rfl) (Vof W c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W', HO⟩; iexists W'; isplitr; · ipureintro; exact fun _ _ => Or.inl trivial
      iexact HO
    isplitr; · iempintro
    isplitl [Hrest]; · iexact Hrest
    iexact Hp
  hin c := by
    rw [show (fam d0 (dat (Vof W)) d2 d3 1 c).Φ 0 = _ from Φ_zero (Vof W) c 0 rfl]
    iintro ⟨-, -, Hr⟩; iexact Hr
  hout c := by
    rw [Pipeline.ownSems0_none, show (fam d0 (dat (Vof W)) d2 d3 1 c).Φ (Fin.last _) = _ from
      Φ_pos (Vof W) c (Fin.last cfg1.N) (Nat.ne_of_gt N_pos)]
    change _ ⊢ iprop(BI.emp ∗ BI.emp ∗ (Pipeline.scopedRest (Ix := Unit) (Name := ℕ) (U := UR sig nD τ) (Lvl := ℕ) (Val := Elt F) spec1 c : sProp (MM F)))
    rw [rest_eq]
    unfold scratchAt
    iintro ⟨H0, H1, H2, H3, Hr⟩
    isplitr; · iempintro
    isplitr; · iempintro
    isplitl [H0 H1 H2 H3]
    · isplitl [H0]; · iexists _; iexact H0
      isplitl [H1]; · iexists _; iexact H1
      isplitl [H2]; · iexists _; iexact H2
      iexists _; iexact H3
    iexact Hr
  hexit c := by
    have hjoin := Pipeline.unscopedBufs_of_arrays (p := 1) (pcfgs (F := F)) adm (Ix := Unit) (Name := ℕ) (U := UR sig nD τ) (Lvl := ℕ)
      launch1.win launch1.arr_whole c (fam d0 (dat (Vof W)) d2 d3) ((fam d0 (dat (Vof W)) d2 d3 1 c).share_full fun _ => rfl)
      (Vof W c) (Vof Wp c) ((fam d0 (dat (Vof W)) d2 d3 1 c).arrAt · cfg1.N)
      (fun w => by
        fin_cases w
        · exact ((dat (Vof W) c).arrAt_in 0 rfl _).trans (hWp_ne c _ (by decide)).symm
        · exact ((dat (Vof W) c).arrAt_in 1 rfl _).trans (hWp_ne c _ (by decide)).symm
        · exact ((dat (Vof W) c).arrAt_in 2 rfl _).trans (hWp_ne c _ (by decide)).symm
        · exact ((dat (Vof W) c).arrAt_in 3 rfl _).trans (hWp_ne c _ (by decide)).symm
        · exact ((dat (Vof W) c).arrAt_in 4 rfl _).trans (hWp_ne c _ (by decide)).symm
        · exact (hWp_out c).symm)
      (fun b hb => hWp_ne c b fun h => hb (h ▸ Finset.mem_image.mpr ⟨5, Finset.mem_univ _, rfl⟩))
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W', -, HO⟩; iexists W'; iexact HO

end Cert.KernelIdeal.H.R1

end
-- ==== Proof.KI.R2Body.lean ====
/- Region 2's body at every point of its grid: the kernel run on whole staging and scratch memrefs in the three
   places a point can have on the grid (the first, the last, between), and from them the pipeline's body obligation
   for the proof data of the region's carried state. -/
import proofs.«416365_j66236985639681_1_alg».proof.Proof.KI.R2State
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.H.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The condition of the body's first conditional: the point is the first. -/
abbrev cond1 (i : grid2.Coords) : Prop := (Scalar.cmpi .ne (Scalar.extui (Scalar.cmpi .eq (BitVec.ofNat 32 (i 0).val) 0#32)) 0#32) = 1#1
theorem hcond1 : ∀ t : Fin cfg2.N, cond1 (grid2.coords t) ↔ t.val = 0 :=
  (by decide +kernel : ∀ t : Fin grid2.N, cond1 (grid2.coords t) ↔ t.val = 0)
/-- The condition of the body's second conditional: the point is the last. -/
abbrev cond2 (i : grid2.Coords) : Prop := k2_cond2 i = 1#1
theorem hcond2 : ∀ t : Fin cfg2.N, cond2 (grid2.coords t) ↔ t.val + 1 = cfg2.N :=
  (by decide +kernel : ∀ t : Fin grid2.N, cond2 (grid2.coords t) ↔ t.val + 1 = grid2.N)

/-- One point on the carried vectors once the first point's reset is applied. -/
def nxt (i : grid2.Coords) (x : Vec F S1024x32 .bf16) (m l a : Vec F S1024x1 .f32) (w : Vec F S1024x32 .bf16) (b : Vec F S1024 .f32)
    (tg : Vec F S1024x1 .i32) : St F :=
  { x := x
    m := k2_pay1 (k2_pay10 i x w b m)
    l := k2_pay11 i x w b m l
    acc := k2_pay2 (k2_pay8 i) (k2_pay9 i x w b) tg a }

/-! ## Whole-buffer accesses: a load through the whole-shape rectangle reads the contents, a store through it leaves
    its payload -/

section Whole
variable {sp : Space} {S : Shape} {e : EltTy}

theorem readAt_whole (v : View sig .tc sp S e) {off : Fin S.rank → Nat} (h : off = fun _ => 0)
    (inb : ∀ a, off a + S.size a ≤ S.size a) (f : v.ty.Contents (Elt F)) :
    v.readAt (Elt F) (Rect.unit off S.size inb).toLoadRect f = v.read (Elt F) f :=
  (View.readAt_eq_ld v f _).trans (View.ld_unit_zero h inb _)

theorem read_writes_whole (v : View sig .tc sp S e) (f : v.ty.Contents (Elt F)) {off : Fin S.rank → Nat} (h : off = fun _ => 0)
    (inb : ∀ a, off a + S.size a ≤ S.size a) (W : S.Idx → Elt F e) (L : List (View.Piece (Elt F) S e)) :
    v.read (Elt F) (v.writes (Elt F) f (⟨Rect.unit off S.size inb, W⟩ :: L)) = W :=
  (View.read_writes_eq_canon v f _ (fun y => ⟨_, List.mem_cons_self, View.mem_set_unit_zero h inb y⟩)).trans
    (View.canon_cons_unit_zero h inb W L)

theorem readCov_whole (v : View sig .tc sp S e) {off : Fin S.rank → Nat}
    (inb : ∀ a, off a + S.size a ≤ S.size a) (W : S.Idx → Elt F e) (L : List (View.Piece (Elt F) S e)) :
    v.readCov (⟨Rect.unit off S.size inb, W⟩ :: L) (Rect.unit off S.size inb).toLoadRect = W :=
  View.readCov_cons_toLoadRect v (Rect.unit off S.size inb) W L
end Whole

theorem zoff1 : (![0] : Fin 1 → ℕ) = fun _ => 0 := by funext a; fin_cases a; rfl
theorem zoff2 : (![0, 0] : Fin 2 → ℕ) = fun _ => 0 := by funext a; fin_cases a <;> rfl

theorem rd_S1024x512 {e : EltTy} (v : View sig .tc .vmem S1024x512 e) (f : v.ty.Contents (Elt F)) :
    v.readAt (Elt F) (Rect.unit (s := S1024x512) ![0, 0] S1024x512.size inb_S1024x512_S1024x512_0_0).toLoadRect f = v.read (Elt F) f := readAt_whole v zoff2 _ f
theorem rd_S512x32 {e : EltTy} (v : View sig .tc .vmem S512x32 e) (f : v.ty.Contents (Elt F)) :
    v.readAt (Elt F) (Rect.unit (s := S512x32) ![0, 0] S512x32.size inb_S512x32_S512x32_0_0).toLoadRect f = v.read (Elt F) f := readAt_whole v zoff2 _ f
theorem rd_S1024x32 {e : EltTy} (v : View sig .tc .vmem S1024x32 e) (f : v.ty.Contents (Elt F)) :
    v.readAt (Elt F) (Rect.unit (s := S1024x32) ![0, 0] S1024x32.size inb_S1024x32_S1024x32_0_0).toLoadRect f = v.read (Elt F) f := readAt_whole v zoff2 _ f
theorem rd_S1024 {e : EltTy} (v : View sig .tc .vmem S1024 e) (f : v.ty.Contents (Elt F)) :
    v.readAt (Elt F) (Rect.unit (s := S1024) ![0] S1024.size inb_S1024_S1024_0).toLoadRect f = v.read (Elt F) f := readAt_whole v zoff1 _ f
theorem rd_S1024x1 {e : EltTy} (v : View sig .tc .vmem S1024x1 e) (f : v.ty.Contents (Elt F)) :
    v.readAt (Elt F) (Rect.unit (s := S1024x1) ![0, 0] S1024x1.size inb_S1024x1_S1024x1_0_0).toLoadRect f = v.read (Elt F) f := readAt_whole v zoff2 _ f

/-- Every whole-buffer load read as the buffer's contents. -/
macro "rd_all" : tactic =>
  `(tactic| repeat (first | rw [readCov_whole] | rw [rd_S1024x32] | rw [rd_S1024x1] | rw [rd_S1024] | rw [rd_S1024x512] | rw [rd_S512x32]))
set_option maxHeartbeats 1000000 in
theorem run_mid (c : Dev nD) (i : grid2.Coords) (arg1 : Memref sig .tc .vmem S1024x512 .bf16) (harg1 : arg1.IsWhole) (arg2 : Memref sig .tc .vmem S512x32 .bf16) (harg2 : arg2.IsWhole) (arg3 : Memref sig .tc .vmem S1024x32 .bf16) (harg3 : arg3.IsWhole) (arg4 : Memref sig .tc .vmem S1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (hc1 : ¬cond1 i) (hc2 : ¬cond2 i)
    (hd : Vec F S1024x512 .bf16) (pj : Vec F S512x32 .bf16) (w : Vec F S1024x32 .bf16) (b : Vec F S1024 .f32) (tg : Vec F S1024x1 .i32) (o : Vec F S1024x1 .f32)
    (x : Vec F S1024x32 .bf16) (m l a : Vec F S1024x1 .f32) (E : Set ℕ) (K : PUnit → sProp (MM F)) :
    iprop(owns (c : Thread nD τ) arg1 fullShare hd ∗ owns (c : Thread nD τ) arg2 fullShare pj ∗ owns (c : Thread nD τ) arg3 fullShare w
        ∗ owns (c : Thread nD τ) arg4 fullShare b ∗ owns (c : Thread nD τ) arg5 fullShare tg ∗ owns (c : Thread nD τ) arg6 fullShare o
        ∗ owns (c : Thread nD τ) arg7 fullShare x ∗ owns (c : Thread nD τ) arg8 fullShare m ∗ owns (c : Thread nD τ) arg9 fullShare l
        ∗ owns (c : Thread nD τ) arg10 fullShare a
        ∗ (iprop(owns (c : Thread nD τ) arg1 fullShare hd ∗ owns (c : Thread nD τ) arg2 fullShare pj ∗ owns (c : Thread nD τ) arg3 fullShare w
            ∗ owns (c : Thread nD τ) arg4 fullShare b ∗ owns (c : Thread nD τ) arg5 fullShare tg ∗ owns (c : Thread nD τ) arg6 fullShare o
            ∗ owns (c : Thread nD τ) arg7 fullShare (nxt i x m l a w b tg).x ∗ owns (c : Thread nD τ) arg8 fullShare (nxt i x m l a w b tg).m
            ∗ owns (c : Thread nD τ) arg9 fullShare (nxt i x m l a w b tg).l ∗ owns (c : Thread nD τ) arg10 fullShare (nxt i x m l a w b tg).acc) -∗ K ⟨⟩))
      ⊢ wp frame (wpE (defs₀ (F := F)) 𝒱₀ c none) E (cc2__cluster_kernel_body i arg1 harg1 arg2 harg2 arg3 harg3 arg4 harg4 arg5 harg5 arg6 harg6 arg7 harg7 arg8 harg8 arg9 harg9 arg10 harg10) K := by
  simp only [cc2__cluster_kernel_body_eq_skeleton]; unfold cc2__cluster_kernel_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf1 hf2 hf3 hf4 hf5 hf6 hf7 hf8 hf9 hf10
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap; · iexact H8
    ipureintro; refine (read_writes_whole _ _ zoff2 _ _ _).trans ?_
    unfold run_mid.sl.r_1; rd_all; first | done | rfl
  isplitl [H9]
  · iexists _; isplitr; swap; · iexact H9
    ipureintro; refine (read_writes_whole _ _ zoff2 _ _ _).trans ?_
    rd_all; first | done | rfl
  iexists _; isplitr; swap; · iexact H10
  ipureintro; refine (read_writes_whole _ _ zoff2 _ _ _).trans ?_
  unfold run_mid.sl.r; rd_all; first | done | rfl

set_option maxHeartbeats 1000000 in
theorem run_first (c : Dev nD) (i : grid2.Coords) (arg1 : Memref sig .tc .vmem S1024x512 .bf16) (harg1 : arg1.IsWhole) (arg2 : Memref sig .tc .vmem S512x32 .bf16) (harg2 : arg2.IsWhole) (arg3 : Memref sig .tc .vmem S1024x32 .bf16) (harg3 : arg3.IsWhole) (arg4 : Memref sig .tc .vmem S1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (hc1 : cond1 i) (hc2 : ¬cond2 i)
    (hd : Vec F S1024x512 .bf16) (pj : Vec F S512x32 .bf16) (w : Vec F S1024x32 .bf16) (b : Vec F S1024 .f32) (tg : Vec F S1024x1 .i32) (o : Vec F S1024x1 .f32)
    (x : Vec F S1024x32 .bf16) (m l a : Vec F S1024x1 .f32) (E : Set ℕ) (K : PUnit → sProp (MM F)) :
    iprop(owns (c : Thread nD τ) arg1 fullShare hd ∗ owns (c : Thread nD τ) arg2 fullShare pj ∗ owns (c : Thread nD τ) arg3 fullShare w
        ∗ owns (c : Thread nD τ) arg4 fullShare b ∗ owns (c : Thread nD τ) arg5 fullShare tg ∗ owns (c : Thread nD τ) arg6 fullShare o
        ∗ owns (c : Thread nD τ) arg7 fullShare x ∗ owns (c : Thread nD τ) arg8 fullShare m ∗ owns (c : Thread nD τ) arg9 fullShare l
        ∗ owns (c : Thread nD τ) arg10 fullShare a
        ∗ (iprop(owns (c : Thread nD τ) arg1 fullShare hd ∗ owns (c : Thread nD τ) arg2 fullShare pj ∗ owns (c : Thread nD τ) arg3 fullShare w
            ∗ owns (c : Thread nD τ) arg4 fullShare b ∗ owns (c : Thread nD τ) arg5 fullShare tg ∗ owns (c : Thread nD τ) arg6 fullShare o
            ∗ owns (c : Thread nD τ) arg7 fullShare (nxt i (k2_pay4 hd pj) k2_pay5 k2_pay6 k2_pay7 w b tg).x ∗ owns (c : Thread nD τ) arg8 fullShare (nxt i (k2_pay4 hd pj) k2_pay5 k2_pay6 k2_pay7 w b tg).m
            ∗ owns (c : Thread nD τ) arg9 fullShare (nxt i (k2_pay4 hd pj) k2_pay5 k2_pay6 k2_pay7 w b tg).l ∗ owns (c : Thread nD τ) arg10 fullShare (nxt i (k2_pay4 hd pj) k2_pay5 k2_pay6 k2_pay7 w b tg).acc) -∗ K ⟨⟩))
      ⊢ wp frame (wpE (defs₀ (F := F)) 𝒱₀ c none) E (cc2__cluster_kernel_body i arg1 harg1 arg2 harg2 arg3 harg3 arg4 harg4 arg5 harg5 arg6 harg6 arg7 harg7 arg8 harg8 arg9 harg9 arg10 harg10) K := by
  simp only [cc2__cluster_kernel_body_eq_skeleton]; unfold cc2__cluster_kernel_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf1 hf2 hf3 hf4 hf5 hf6 hf7 hf8 hf9 hf10
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro; unfold run_first.sl.H7_1; refine (read_writes_whole _ _ zoff2 _ _ _).trans ?_
    rd_all; first | done | rfl
  isplitl [H8]
  · iexists _; isplitr; swap; · iexact H8
    ipureintro; refine (read_writes_whole _ _ zoff2 _ _ _).trans ?_
    unfold run_first.sl.r_1 run_first.sl.v3 run_first.sl.v21 run_first.sl.H7_1 run_first.sl.H8_1; rd_all; first | done | rfl
  isplitl [H9]
  · iexists _; isplitr; swap; · iexact H9
    ipureintro; refine (read_writes_whole _ _ zoff2 _ _ _).trans ?_
    unfold run_first.sl.v3 run_first.sl.v21 run_first.sl.v30 run_first.sl.H7_1 run_first.sl.H8_1 run_first.sl.H9_1; rd_all; first | done | rfl
  iexists _; isplitr; swap; · iexact H10
  ipureintro; refine (read_writes_whole _ _ zoff2 _ _ _).trans ?_
  unfold run_first.sl.r run_first.sl.v3 run_first.sl.v49 run_first.sl.H7_1 run_first.sl.H10_1; rd_all; first | done | rfl

set_option maxHeartbeats 1000000 in
theorem run_last (c : Dev nD) (i : grid2.Coords) (arg1 : Memref sig .tc .vmem S1024x512 .bf16) (harg1 : arg1.IsWhole) (arg2 : Memref sig .tc .vmem S512x32 .bf16) (harg2 : arg2.IsWhole) (arg3 : Memref sig .tc .vmem S1024x32 .bf16) (harg3 : arg3.IsWhole) (arg4 : Memref sig .tc .vmem S1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (hc1 : ¬cond1 i) (hc2 : cond2 i)
    (hd : Vec F S1024x512 .bf16) (pj : Vec F S512x32 .bf16) (w : Vec F S1024x32 .bf16) (b : Vec F S1024 .f32) (tg : Vec F S1024x1 .i32) (o : Vec F S1024x1 .f32)
    (x : Vec F S1024x32 .bf16) (m l a : Vec F S1024x1 .f32) (E : Set ℕ) (K : PUnit → sProp (MM F)) :
    iprop(owns (c : Thread nD τ) arg1 fullShare hd ∗ owns (c : Thread nD τ) arg2 fullShare pj ∗ owns (c : Thread nD τ) arg3 fullShare w
        ∗ owns (c : Thread nD τ) arg4 fullShare b ∗ owns (c : Thread nD τ) arg5 fullShare tg ∗ owns (c : Thread nD τ) arg6 fullShare o
        ∗ owns (c : Thread nD τ) arg7 fullShare x ∗ owns (c : Thread nD τ) arg8 fullShare m ∗ owns (c : Thread nD τ) arg9 fullShare l
        ∗ owns (c : Thread nD τ) arg10 fullShare a
        ∗ (iprop(owns (c : Thread nD τ) arg1 fullShare hd ∗ owns (c : Thread nD τ) arg2 fullShare pj ∗ owns (c : Thread nD τ) arg3 fullShare w
            ∗ owns (c : Thread nD τ) arg4 fullShare b ∗ owns (c : Thread nD τ) arg5 fullShare tg ∗ owns (c : Thread nD τ) arg6 fullShare (k2_pay3 (nxt i x m l a w b tg).m (nxt i x m l a w b tg).l (nxt i x m l a w b tg).acc)
            ∗ owns (c : Thread nD τ) arg7 fullShare (nxt i x m l a w b tg).x ∗ owns (c : Thread nD τ) arg8 fullShare (nxt i x m l a w b tg).m
            ∗ owns (c : Thread nD τ) arg9 fullShare (nxt i x m l a w b tg).l ∗ owns (c : Thread nD τ) arg10 fullShare (nxt i x m l a w b tg).acc) -∗ K ⟨⟩))
      ⊢ wp frame (wpE (defs₀ (F := F)) 𝒱₀ c none) E (cc2__cluster_kernel_body i arg1 harg1 arg2 harg2 arg3 harg3 arg4 harg4 arg5 harg5 arg6 harg6 arg7 harg7 arg8 harg8 arg9 harg9 arg10 harg10) K := by
  simp only [cc2__cluster_kernel_body_eq_skeleton]; unfold cc2__cluster_kernel_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf1 hf2 hf3 hf4 hf5 hf6 hf7 hf8 hf9 hf10
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro; refine (read_writes_whole _ _ zoff2 _ _ _).trans ?_
    unfold run_last.sl.v57 run_last.sl.v58 run_last.sl.v61 run_last.sl.H8_1 run_last.sl.H9_1 run_last.sl.H10_1 run_last.sl.r_1 run_last.sl.r
    rd_all; first | done | rfl
  isplitl [H7]
  · iexists f7; isplitr; · ipureintro; rfl
    iexact H7
  isplitl [H8]
  · iexists _; isplitr; swap; · iexact H8
    ipureintro; unfold run_last.sl.H8_1 run_last.sl.r_1; refine (read_writes_whole _ _ zoff2 _ _ _).trans ?_
    rd_all; first | done | rfl
  isplitl [H9]
  · iexists _; isplitr; swap; · iexact H9
    ipureintro; unfold run_last.sl.H9_1; refine (read_writes_whole _ _ zoff2 _ _ _).trans ?_
    rd_all; first | done | rfl
  iexists _; isplitr; swap; · iexact H10
  ipureintro; unfold run_last.sl.H10_1 run_last.sl.r; refine (read_writes_whole _ _ zoff2 _ _ _).trans ?_
  rd_all; first | done | rfl

/-! ## The body obligation -/

variable (V : Val F)

/-- More than one point: the first is not the last. -/
theorem one_lt_N : 1 < cfg2.N := by decide

/-- The inputs are never idle; the result's buffer is idle but at the last point, which alone writes it back. -/
theorem live_0 (t : Fin cfg2.N) : cfg2.idle 0 (cfg2.grid.coords t) = false := rfl
theorem live_1 (t : Fin cfg2.N) : cfg2.idle 1 (cfg2.grid.coords t) = false := rfl
theorem live_2 (t : Fin cfg2.N) : cfg2.idle 2 (cfg2.grid.coords t) = false := rfl
theorem live_3 (t : Fin cfg2.N) : cfg2.idle 3 (cfg2.grid.coords t) = false := rfl
theorem live_4 (t : Fin cfg2.N) : cfg2.idle 4 (cfg2.grid.coords t) = false := rfl
theorem idle_5 : ∀ t : Fin cfg2.N, ¬cond2 (grid2.coords t) → cfg2.idle 5 (cfg2.grid.coords t) = true :=
  (by decide +kernel : ∀ t : Fin grid2.N, ¬cond2 (grid2.coords t) → idle2 5 (grid2.coords t) = true)
theorem live_5 : ∀ t : Fin cfg2.N, cond2 (grid2.coords t) → cfg2.idle 5 (cfg2.grid.coords t) = false :=
  (by decide +kernel : ∀ t : Fin grid2.N, cond2 (grid2.coords t) → idle2 5 (grid2.coords t) = false)
theorem noFlush_5 : ∀ t : Fin cfg2.N, ¬cond2 (grid2.coords t) → (cfg2.win 5).flush t = false :=
  (by decide +kernel : ∀ t : Fin grid2.N, ¬cond2 (grid2.coords t) → win2_5.flush t = false)

/-- Each input window's current buffer holds its block at every point, fetched there or not. -/
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg2.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg2.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- One point of the carried state, at the first point and after it. -/
theorem step_first (c : Dev nD) (t : Fin cfg2.N) (h0 : t.val = 0) (s : St F) :
    step V c t s = nxt (grid2.coords t) (k2_pay4 (hidden V c) (proj V c)) k2_pay5 k2_pay6 k2_pay7 (wt V c t) (bt V c t) (tgt V c) := by
  unfold step base; rw [if_pos h0]; rfl
theorem step_later (c : Dev nD) (t : Fin cfg2.N) (h0 : t.val ≠ 0) (s : St F) :
    step V c t s = nxt (grid2.coords t) s.x s.m s.l s.acc (wt V c t) (bt V c t) (tgt V c) := by
  unfold step base; rw [if_neg h0]; rfl

/-- The region's result is what the last point computes. -/
theorem outv_last (c : Dev nD) (t : Fin cfg2.N) (hl : t.val + 1 = cfg2.N) :
    outv V c = k2_pay3 (step V c t (stAt V c t.val)).m (step V c t (stAt V c t.val)).l (step V c t (stAt V c t.val)).acc := by
  have e : stAt V c cfg2.N = step V c t (stAt V c t.val) := by
    have h := stAt_succ V c t; rw [hl] at h; exact h
  unfold outv; rw [e]

/-- The scoped rest before the first point, its four scratch buffers as whole memrefs at some contents. -/
theorem rest_eq (c : Dev nD) :
    (Pipeline.scopedRest (Ix := Unit) (Name := ℕ) (U := UR sig nD τ) (Lvl := ℕ) (Val := Elt F) spec2 c : sProp (MM F))
      = iprop(iprop((∃ d, owns (c : Thread nD τ) (Memref.whole cc2_scratch0 : Memref sig .tc .vmem S1024x32 .bf16) fullShare d)
          ∗ (∃ d, owns (c : Thread nD τ) (Memref.whole cc2_scratch1 : Memref sig .tc .vmem S1024x1 .f32) fullShare d)
          ∗ (∃ d, owns (c : Thread nD τ) (Memref.whole cc2_scratch2 : Memref sig .tc .vmem S1024x1 .f32) fullShare d)
          ∗ (∃ d, owns (c : Thread nD τ) (Memref.whole cc2_scratch3 : Memref sig .tc .vmem S1024x1 .f32) fullShare d))
        ∗ Pipeline.scopedRestBut (Ix := Unit) (Name := ℕ) (U := UR sig nD τ) (Lvl := ℕ) (Val := Elt F) spec2 c [cc2_scratch0, cc2_scratch1, cc2_scratch2, cc2_scratch3]) := by
  rw [scopedRest2_split]; simp only [owns_whole]; try rfl

/-- What the body is called with at point t, the windows one by one, -/
def bodyPre (c : Dev nD) (t : Fin cfg2.N) : sProp (MM F) :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns. -/
def bodyPost (c : Dev nD) (t : Fin cfg2.N) : sProp (MM F) :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

set_option maxHeartbeats 2000000 in
/-- The body at any point: the inputs' buffers hold their blocks, the scratch the carried state (anything, at the
    first point); the point's place on the grid decides the two conditionals; the scratch is handed back at the next
    carried state, the result's buffer untouched but at the last point, where it holds the region's result. -/
theorem sound_body (c : Dev nD) (t : Fin cfg2.N) :
    bodyPre V c t ⊢ wp frame (wpE (defs₀ (F := F)) 𝒱₀ c none) Set.univ (bodyAt2 t) (fun _ => bodyPost V c t) := by
  unfold bodyPre bodyPost bodyAt2
  simp only [before_0, before_1, before_2, before_3, before_4]
  rw [show (dat V c).owesAt () t.succ = (dat V c).owesAt () t.castSucc from rfl]
  rw [show (dat V c).leavesExact 0 t = owns (c : Thread nD τ) (st2_0 t) fullShare (iblk V c 0 t) from by
      unfold Dat.leavesExact; rw [live_0 t, after_0],
    show (dat V c).leavesExact 1 t = owns (c : Thread nD τ) (st2_1 t) fullShare (iblk V c 1 t) from by
      unfold Dat.leavesExact; rw [live_1 t, after_1],
    show (dat V c).leavesExact 2 t = owns (c : Thread nD τ) (st2_2 t) fullShare (iblk V c 2 t) from by
      unfold Dat.leavesExact; rw [live_2 t, after_2],
    show (dat V c).leavesExact 3 t = owns (c : Thread nD τ) (st2_3 t) fullShare (iblk V c 3 t) from by
      unfold Dat.leavesExact; rw [live_3 t, after_3],
    show (dat V c).leavesExact 4 t = owns (c : Thread nD τ) (st2_4 t) fullShare (iblk V c 4 t) from by
      unfold Dat.leavesExact; rw [live_4 t, after_4]]
  rw [Φ_pos V c t.succ (by rw [Fin.val_succ]; exact Nat.succ_ne_zero _), Fin.val_succ, stAt_succ]
  rw [iblk_0_const V c t, iblk_1_const V c t, iblk_4_const V c t]
  by_cases h0 : t.val = 0
  · have hc1 : cond1 (grid2.coords t) := (hcond1 t).mpr h0
    have hc2 : ¬cond2 (grid2.coords t) := fun h => by
      have h' := (hcond2 t).mp h; have h1 := one_lt_N; omega
    rw [Dat.leavesExact_idle (dat V c) 5 t (idle_5 t hc2) (noFlush_5 t hc2)]
    rw [Φ_zero V c t.castSucc (by rw [Fin.coe_castSucc]; exact h0), rest_eq, step_first V c t h0]
    unfold scratchAt
    iintro ⟨⟨⟨⟨%x0, HS0⟩, ⟨%m0, HS1⟩, ⟨%l0, HS2⟩, ⟨%a0, HS3⟩⟩, Hrest⟩, Ho, ⟨%d0, H0⟩, ⟨%d1, H1⟩, ⟨%d2, H2⟩, ⟨%d3, H3⟩, ⟨%d4, H4⟩, ⟨%d5, H5⟩⟩
    iapply (run_first c (grid2.coords t) _ _ _ _ _ _ _ _ _ _ _ _ _ _ _ _ _ _ _ _ hc1 hc2 (hidden V c) (proj V c) (wt V c t) (bt V c t) (tgt V c) _ x0 m0 l0 a0 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    isplitl [HS0 HS1 HS2 HS3 Hrest]
    · isplitl [HS0]; · iexact HS0
      isplitl [HS1]; · iexact HS1
      isplitl [HS2]; · iexact HS2
      isplitl [HS3]; · iexact HS3
      iexact Hrest
    isplitl [Ho]; · iexact Ho
    isplitl [H0]; · iexact H0
    isplitl [H1]; · iexact H1
    isplitl [H2]; · iexact H2
    isplitl [H3]; · iexact H3
    isplitl [H4]; · iexact H4
    iexists _; iexact H5
  · have hc1 : ¬cond1 (grid2.coords t) := fun h => h0 ((hcond1 t).mp h)
    rw [Φ_pos V c t.castSucc (by rw [Fin.coe_castSucc]; exact h0), Fin.coe_castSucc, step_later V c t h0]
    unfold scratchAt
    by_cases hl : t.val + 1 = cfg2.N
    · have hc2 : cond2 (grid2.coords t) := (hcond2 t).mpr hl
      rw [show (dat V c).leavesExact 5 t = owns (c : Thread nD τ) (st2_5 t) fullShare (outv V c) from by
        unfold Dat.leavesExact; rw [live_5 t hc2, after_5]]
      rw [outv_last V c t hl, step_later V c t h0]
      iintro ⟨⟨HS0, HS1, HS2, HS3, Hrest⟩, Ho, ⟨%d0, H0⟩, ⟨%d1, H1⟩, ⟨%d2, H2⟩, ⟨%d3, H3⟩, ⟨%d4, H4⟩, ⟨%d5, H5⟩⟩
      iapply (run_last c (grid2.coords t) _ _ _ _ _ _ _ _ _ _ _ _ _ _ _ _ _ _ _ _ hc1 hc2 (hidden V c) (proj V c) (wt V c t) (bt V c t) (tgt V c) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hrest]
      · isplitl [HS0]; · iexact HS0
        isplitl [HS1]; · iexact HS1
        isplitl [HS2]; · iexact HS2
        isplitl [HS3]; · iexact HS3
        iexact Hrest
      isplitl [Ho]; · iexact Ho
      isplitl [H0]; · iexact H0
      isplitl [H1]; · iexact H1
      isplitl [H2]; · iexact H2
      isplitl [H3]; · iexact H3
      isplitl [H4]; · iexact H4
      iexact H5
    · have hc2 : ¬cond2 (grid2.coords t) := fun h => hl ((hcond2 t).mp h)
      rw [Dat.leavesExact_idle (dat V c) 5 t (idle_5 t hc2) (noFlush_5 t hc2)]
      iintro ⟨⟨HS0, HS1, HS2, HS3, Hrest⟩, Ho, ⟨%d0, H0⟩, ⟨%d1, H1⟩, ⟨%d2, H2⟩, ⟨%d3, H3⟩, ⟨%d4, H4⟩, ⟨%d5, H5⟩⟩
      iapply (run_mid c (grid2.coords t) _ _ _ _ _ _ _ _ _ _ _ _ _ _ _ _ _ _ _ _ hc1 hc2 (hidden V c) (proj V c) (wt V c t) (bt V c t) (tgt V c) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hrest]
      · isplitl [HS0]; · iexact HS0
        isplitl [HS1]; · iexact HS1
        isplitl [HS2]; · iexact HS2
        isplitl [HS3]; · iexact HS3
        iexact Hrest
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat V c) (defs₀ (F := F)) 𝒱₀ () Set.univ := fun t => by
  rw [bigSep_W2, bigSep_W2]
  exact sound_body V c t

end Cert.KernelIdeal.H.R2

end
-- ==== Proof.KI.R2Seg.lean ====
/- Region 2 as a segment of the program's run over the thread state "every unscoped buffer at given contents, beside
   the generator register and the core owing nothing": entered by splitting the region's six arrays out of the
   unscoped buffers, left with them put back — the five inputs as entered, the result's array holding the region's
   result. -/
import proofs.«416365_j66236985639681_1_alg».proof.Proof.KI.R2Body
import Idealize.ShloMosaic.Lib.Pipeline.RegionsLoop
import Idealize.ShloMosaic.Lib.Pipeline.FrameSuffix
import Idealize.ShloMosaic.Lib.Pipeline.Cells

set_option maxRecDepth 16384

noncomputable section

namespace Cert.KernelIdeal.H.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The last point. -/
abbrev tl : Fin cfg2.N := ⟨cfg2.N - 1, Nat.sub_lt N_pos Nat.one_pos⟩
theorem tl_succ : (tl : Fin cfg2.N).val + 1 = cfg2.N := Nat.sub_add_cancel N_pos

/-- The last point writes the result's block back. -/
theorem flush_last : ∀ t : Fin cfg2.N, t.val + 1 = cfg2.N → (cfg2.win 5).flush t = true :=
  (by decide +kernel : ∀ t : Fin grid2.N, t.val + 1 = grid2.N → win2_5.flush t = true)

section Out
variable (V : Val F)

/-- The result's array after the region: its one block is the whole array, written back once, at the last point, from
    the staging buffer holding the region's result. -/
theorem arrAt_out (c : Dev nD) : (dat V c).arrAt 5 cfg2.N = outv V c := by
  have e := (dat V c).arrAt_succ 5 tl
  rw [flush_last tl tl_succ, if_pos rfl] at e
  refine (congrArg ((dat V c).arrAt 5) tl_succ.symm).trans (e.trans ?_)
  refine (Memref.write_access_unit_zero_univ (Elt F) main_v42 (by funext a; fin_cases a <;> rfl) _ _ _).trans ?_
  exact after_5 V c tl

end Out

/-- The contents of the TensorCore's references read off a valuation of every reference. -/
abbrev Vof (W : Dev nD → Valuation τ sig (Elt F)) : Val F := fun c b => W c b

variable (W Wp : Dev nD → Valuation τ sig (Elt F))

set_option maxHeartbeats 2000000 in
set_option backward.isDefEq.respectTransparency.types false in
/-- Region 2 over the thread state: entered from every unscoped buffer at W, left at Wp, which holds the region's
    result in the result's array and agrees with W elsewhere; nothing owed; no semaphore of the kernel's own. -/
def reg (d0 : (c : Dev nD) → DatOf F cfg0 c) (d1 : (c : Dev nD) → DatOf F cfg1 c) (d3 : (c : Dev nD) → DatOf F cfg3 c)
    (hWp_out : ∀ c, Vof Wp c main_v42 = (dat (Vof W) c).arrAt 5 cfg2.N)
    (hWp_ne : ∀ c (b : Ref sig .tc), b ≠ main_v42 → Vof Wp c b = Vof W c b) :
    Pipeline.RegionSeg (pcfgs (F := F)) adm (fam d0 d1 (dat (Vof W)) d3) () defs₀ 𝒱₀ L lv 2 where
  win := launch2.win.to₀
  block_pos := launch2.block_pos
  stage_whole := launch2.stage_whole
  K := PEmpty
  osem k := k.elim
  ho := Pipeline.OwnSemFacts.none _
  hbody c := (body_obligation (Vof W) c).loose
  hwaits := Pipeline.hwaits_of_owed_zero _ _ _ _ L lv 2 fun _ _ => rfl
  pre c := iprop(StableHlo.held (c : Thread nD τ) (Pipeline.ucRefs τ sig) (W c) ∗ R c)
  post c := iprop(StableHlo.held (c : Thread nD τ) (Pipeline.ucRefs τ sig) (Wp c) ∗ R c)
  X _ := BI.emp
  Y _ := BI.emp
  Z c := iprop(Pipeline.unscopedRest (Ix := Unit) (Name := ℕ) (U := UR sig nD τ) (Lvl := ℕ) spec2 c (Vof W c) ∗ ∃ r, prngReg c r)
  hentry c := by
    rw [Pipeline.ownSems0_none]
    have hsplit := Pipeline.arrays_of_unscopedBufs (p := 2) (pcfgs (F := F)) adm (fam d0 d1 (dat (Vof W)) d3) launch2.win launch2.arr_whole c
      ((fam d0 d1 (dat (Vof W)) d3 2 c).share_full fun _ => rfl) (Vof W c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W', HO⟩; iexists W'; isplitr; · ipureintro; exact fun _ _ => Or.inl trivial
      iexact HO
    isplitr; · iempintro
    isplitl [Hrest]; · iexact Hrest
    iexact Hp
  hin c := by
    rw [show (fam d0 d1 (dat (Vof W)) d3 2 c).Φ 0 = _ from Φ_zero (Vof W) c 0 rfl]
    iintro ⟨-, -, Hr⟩; iexact Hr
  hout c := by
    rw [Pipeline.ownSems0_none, show (fam d0 d1 (dat (Vof W)) d3 2 c).Φ (Fin.last _) = _ from
      Φ_pos (Vof W) c (Fin.last cfg2.N) (Nat.ne_of_gt N_pos)]
    change _ ⊢ iprop(BI.emp ∗ BI.emp ∗ (Pipeline.scopedRest (Ix := Unit) (Name := ℕ) (U := UR sig nD τ) (Lvl := ℕ) (Val := Elt F) spec2 c : sProp (MM F)))
    rw [rest_eq]
    unfold scratchAt
    iintro ⟨H0, H1, H2, H3, Hr⟩
    isplitr; · iempintro
    isplitr; · iempintro
    isplitl [H0 H1 H2 H3]
    · isplitl [H0]; · iexists _; iexact H0
      isplitl [H1]; · iexists _; iexact H1
      isplitl [H2]; · iexists _; iexact H2
      iexists _; iexact H3
    iexact Hr
  hexit c := by
    have hjoin := Pipeline.unscopedBufs_of_arrays (p := 2) (pcfgs (F := F)) adm (Ix := Unit) (Name := ℕ) (U := UR sig nD τ) (Lvl := ℕ)
      launch2.win launch2.arr_whole c (fam d0 d1 (dat (Vof W)) d3) ((fam d0 d1 (dat (Vof W)) d3 2 c).share_full fun _ => rfl)
      (Vof W c) (Vof Wp c) ((fam d0 d1 (dat (Vof W)) d3 2 c).arrAt · cfg2.N)
      (fun w => by
        fin_cases w
        · exact ((dat (Vof W) c).arrAt_in 0 rfl _).trans (hWp_ne c _ (by decide)).symm
        · exact ((dat (Vof W) c).arrAt_in 1 rfl _).trans (hWp_ne c _ (by decide)).symm
        · exact ((dat (Vof W) c).arrAt_in 2 rfl _).trans (hWp_ne c _ (by decide)).symm
        · exact ((dat (Vof W) c).arrAt_in 3 rfl _).trans (hWp_ne c _ (by decide)).symm
        · exact ((dat (Vof W) c).arrAt_in 4 rfl _).trans (hWp_ne c _ (by decide)).symm
        · exact (hWp_out c).symm)
      (fun b hb => hWp_ne c b fun h => hb (h ▸ Finset.mem_image.mpr ⟨5, Finset.mem_univ _, rfl⟩))
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W', -, HO⟩; iexists W'; iexact HO

end Cert.KernelIdeal.H.R2

end
-- ==== Proof.KI.R3Body.lean ====
/- Region 3's body at every point of its grid: the kernel run on whole staging and scratch memrefs in the three
   places a point can have on the grid (the first, the last, between), and from them the pipeline's body obligation
   for the proof data of the region's carried state. -/
import proofs.«416365_j66236985639681_1_alg».proof.Proof.KI.R3State
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.H.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The condition of the body's first conditional: the point is the first. -/
abbrev cond1 (i : grid3.Coords) : Prop := (Scalar.cmpi .ne (Scalar.extui (Scalar.cmpi .eq (BitVec.ofNat 32 (i 0).val) 0#32)) 0#32) = 1#1
theorem hcond1 : ∀ t : Fin cfg3.N, cond1 (grid3.coords t) ↔ t.val = 0 :=
  (by decide +kernel : ∀ t : Fin grid3.N, cond1 (grid3.coords t) ↔ t.val = 0)
/-- The condition of the body's second conditional: the point is the last. -/
abbrev cond2 (i : grid3.Coords) : Prop := k3_cond2 i = 1#1
theorem hcond2 : ∀ t : Fin cfg3.N, cond2 (grid3.coords t) ↔ t.val + 1 = cfg3.N :=
  (by decide +kernel : ∀ t : Fin grid3.N, cond2 (grid3.coords t) ↔ t.val + 1 = grid3.N)

/-- One point on the carried vectors once the first point's reset is applied. -/
def nxt (i : grid3.Coords) (x : Vec F S1024x8 .bf16) (m l a : Vec F S1024x1 .f32) (w : Vec F S1024x8 .bf16) (b : Vec F S1024 .f32)
    (tg : Vec F S1024x1 .i32) : St F :=
  { x := x
    m := k3_pay1 (k3_pay10 i x w b m)
    l := k3_pay11 i x w b m l
    acc := k3_pay2 (k3_pay8 i) (k3_pay9 i x w b) tg a }

/-! ## Whole-buffer accesses: a load through the whole-shape rectangle reads the contents, a store through it leaves
    its payload -/

section Whole
variable {sp : Space} {S : Shape} {e : EltTy}

theorem readAt_whole (v : View sig .tc sp S e) {off : Fin S.rank → Nat} (h : off = fun _ => 0)
    (inb : ∀ a, off a + S.size a ≤ S.size a) (f : v.ty.Contents (Elt F)) :
    v.readAt (Elt F) (Rect.unit off S.size inb).toLoadRect f = v.read (Elt F) f :=
  (View.readAt_eq_ld v f _).trans (View.ld_unit_zero h inb _)

theorem read_writes_whole (v : View sig .tc sp S e) (f : v.ty.Contents (Elt F)) {off : Fin S.rank → Nat} (h : off = fun _ => 0)
    (inb : ∀ a, off a + S.size a ≤ S.size a) (W : S.Idx → Elt F e) (L : List (View.Piece (Elt F) S e)) :
    v.read (Elt F) (v.writes (Elt F) f (⟨Rect.unit off S.size inb, W⟩ :: L)) = W :=
  (View.read_writes_eq_canon v f _ (fun y => ⟨_, List.mem_cons_self, View.mem_set_unit_zero h inb y⟩)).trans
    (View.canon_cons_unit_zero h inb W L)

theorem readCov_whole (v : View sig .tc sp S e) {off : Fin S.rank → Nat}
    (inb : ∀ a, off a + S.size a ≤ S.size a) (W : S.Idx → Elt F e) (L : List (View.Piece (Elt F) S e)) :
    v.readCov (⟨Rect.unit off S.size inb, W⟩ :: L) (Rect.unit off S.size inb).toLoadRect = W :=
  View.readCov_cons_toLoadRect v (Rect.unit off S.size inb) W L
end Whole

theorem zoff1 : (![0] : Fin 1 → ℕ) = fun _ => 0 := by funext a; fin_cases a; rfl
theorem zoff2 : (![0, 0] : Fin 2 → ℕ) = fun _ => 0 := by funext a; fin_cases a <;> rfl

theorem rd_S1024x512 {e : EltTy} (v : View sig .tc .vmem S1024x512 e) (f : v.ty.Contents (Elt F)) :
    v.readAt (Elt F) (Rect.unit (s := S1024x512) ![0, 0] S1024x512.size inb_S1024x512_S1024x512_0_0).toLoadRect f = v.read (Elt F) f := readAt_whole v zoff2 _ f
theorem rd_S512x8 {e : EltTy} (v : View sig .tc .vmem S512x8 e) (f : v.ty.Contents (Elt F)) :
    v.readAt (Elt F) (Rect.unit (s := S512x8) ![0, 0] S512x8.size inb_S512x8_S512x8_0_0).toLoadRect f = v.read (Elt F) f := readAt_whole v zoff2 _ f
theorem rd_S1024x8 {e : EltTy} (v : View sig .tc .vmem S1024x8 e) (f : v.ty.Contents (Elt F)) :
    v.readAt (Elt F) (Rect.unit (s := S1024x8) ![0, 0] S1024x8.size inb_S1024x8_S1024x8_0_0).toLoadRect f = v.read (Elt F) f := readAt_whole v zoff2 _ f
theorem rd_S1024 {e : EltTy} (v : View sig .tc .vmem S1024 e) (f : v.ty.Contents (Elt F)) :
    v.readAt (Elt F) (Rect.unit (s := S1024) ![0] S1024.size inb_S1024_S1024_0).toLoadRect f = v.read (Elt F) f := readAt_whole v zoff1 _ f
theorem rd_S1024x1 {e : EltTy} (v : View sig .tc .vmem S1024x1 e) (f : v.ty.Contents (Elt F)) :
    v.readAt (Elt F) (Rect.unit (s := S1024x1) ![0, 0] S1024x1.size inb_S1024x1_S1024x1_0_0).toLoadRect f = v.read (Elt F) f := readAt_whole v zoff2 _ f

/-- Every whole-buffer load read as the buffer's contents. -/
macro "rd_all" : tactic =>
  `(tactic| repeat (first | rw [readCov_whole] | rw [rd_S1024x8] | rw [rd_S1024x1] | rw [rd_S1024] | rw [rd_S1024x512] | rw [rd_S512x8]))
set_option maxHeartbeats 1000000 in
theorem run_mid (c : Dev nD) (i : grid3.Coords) (arg1 : Memref sig .tc .vmem S1024x512 .bf16) (harg1 : arg1.IsWhole) (arg2 : Memref sig .tc .vmem S512x8 .bf16) (harg2 : arg2.IsWhole) (arg3 : Memref sig .tc .vmem S1024x8 .bf16) (harg3 : arg3.IsWhole) (arg4 : Memref sig .tc .vmem S1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (hc1 : ¬cond1 i) (hc2 : ¬cond2 i)
    (hd : Vec F S1024x512 .bf16) (pj : Vec F S512x8 .bf16) (w : Vec F S1024x8 .bf16) (b : Vec F S1024 .f32) (tg : Vec F S1024x1 .i32) (o : Vec F S1024x1 .f32)
    (x : Vec F S1024x8 .bf16) (m l a : Vec F S1024x1 .f32) (E : Set ℕ) (K : PUnit → sProp (MM F)) :
    iprop(owns (c : Thread nD τ) arg1 fullShare hd ∗ owns (c : Thread nD τ) arg2 fullShare pj ∗ owns (c : Thread nD τ) arg3 fullShare w
        ∗ owns (c : Thread nD τ) arg4 fullShare b ∗ owns (c : Thread nD τ) arg5 fullShare tg ∗ owns (c : Thread nD τ) arg6 fullShare o
        ∗ owns (c : Thread nD τ) arg7 fullShare x ∗ owns (c : Thread nD τ) arg8 fullShare m ∗ owns (c : Thread nD τ) arg9 fullShare l
        ∗ owns (c : Thread nD τ) arg10 fullShare a
        ∗ (iprop(owns (c : Thread nD τ) arg1 fullShare hd ∗ owns (c : Thread nD τ) arg2 fullShare pj ∗ owns (c : Thread nD τ) arg3 fullShare w
            ∗ owns (c : Thread nD τ) arg4 fullShare b ∗ owns (c : Thread nD τ) arg5 fullShare tg ∗ owns (c : Thread nD τ) arg6 fullShare o
            ∗ owns (c : Thread nD τ) arg7 fullShare (nxt i x m l a w b tg).x ∗ owns (c : Thread nD τ) arg8 fullShare (nxt i x m l a w b tg).m
            ∗ owns (c : Thread nD τ) arg9 fullShare (nxt i x m l a w b tg).l ∗ owns (c : Thread nD τ) arg10 fullShare (nxt i x m l a w b tg).acc) -∗ K ⟨⟩))
      ⊢ wp frame (wpE (defs₀ (F := F)) 𝒱₀ c none) E (cc3__cluster_kernel_body i arg1 harg1 arg2 harg2 arg3 harg3 arg4 harg4 arg5 harg5 arg6 harg6 arg7 harg7 arg8 harg8 arg9 harg9 arg10 harg10) K := by
  simp only [cc3__cluster_kernel_body_eq_skeleton]; unfold cc3__cluster_kernel_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf1 hf2 hf3 hf4 hf5 hf6 hf7 hf8 hf9 hf10
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap; · iexact H8
    ipureintro; refine (read_writes_whole _ _ zoff2 _ _ _).trans ?_
    unfold run_mid.sl.r_1; rd_all; first | done | rfl
  isplitl [H9]
  · iexists _; isplitr; swap; · iexact H9
    ipureintro; refine (read_writes_whole _ _ zoff2 _ _ _).trans ?_
    rd_all; first | done | rfl
  iexists _; isplitr; swap; · iexact H10
  ipureintro; refine (read_writes_whole _ _ zoff2 _ _ _).trans ?_
  unfold run_mid.sl.r; rd_all; first | done | rfl

set_option maxHeartbeats 1000000 in
theorem run_first (c : Dev nD) (i : grid3.Coords) (arg1 : Memref sig .tc .vmem S1024x512 .bf16) (harg1 : arg1.IsWhole) (arg2 : Memref sig .tc .vmem S512x8 .bf16) (harg2 : arg2.IsWhole) (arg3 : Memref sig .tc .vmem S1024x8 .bf16) (harg3 : arg3.IsWhole) (arg4 : Memref sig .tc .vmem S1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (hc1 : cond1 i) (hc2 : ¬cond2 i)
    (hd : Vec F S1024x512 .bf16) (pj : Vec F S512x8 .bf16) (w : Vec F S1024x8 .bf16) (b : Vec F S1024 .f32) (tg : Vec F S1024x1 .i32) (o : Vec F S1024x1 .f32)
    (x : Vec F S1024x8 .bf16) (m l a : Vec F S1024x1 .f32) (E : Set ℕ) (K : PUnit → sProp (MM F)) :
    iprop(owns (c : Thread nD τ) arg1 fullShare hd ∗ owns (c : Thread nD τ) arg2 fullShare pj ∗ owns (c : Thread nD τ) arg3 fullShare w
        ∗ owns (c : Thread nD τ) arg4 fullShare b ∗ owns (c : Thread nD τ) arg5 fullShare tg ∗ owns (c : Thread nD τ) arg6 fullShare o
        ∗ owns (c : Thread nD τ) arg7 fullShare x ∗ owns (c : Thread nD τ) arg8 fullShare m ∗ owns (c : Thread nD τ) arg9 fullShare l
        ∗ owns (c : Thread nD τ) arg10 fullShare a
        ∗ (iprop(owns (c : Thread nD τ) arg1 fullShare hd ∗ owns (c : Thread nD τ) arg2 fullShare pj ∗ owns (c : Thread nD τ) arg3 fullShare w
            ∗ owns (c : Thread nD τ) arg4 fullShare b ∗ owns (c : Thread nD τ) arg5 fullShare tg ∗ owns (c : Thread nD τ) arg6 fullShare o
            ∗ owns (c : Thread nD τ) arg7 fullShare (nxt i (k3_pay4 hd pj) k3_pay5 k3_pay6 k3_pay7 w b tg).x ∗ owns (c : Thread nD τ) arg8 fullShare (nxt i (k3_pay4 hd pj) k3_pay5 k3_pay6 k3_pay7 w b tg).m
            ∗ owns (c : Thread nD τ) arg9 fullShare (nxt i (k3_pay4 hd pj) k3_pay5 k3_pay6 k3_pay7 w b tg).l ∗ owns (c : Thread nD τ) arg10 fullShare (nxt i (k3_pay4 hd pj) k3_pay5 k3_pay6 k3_pay7 w b tg).acc) -∗ K ⟨⟩))
      ⊢ wp frame (wpE (defs₀ (F := F)) 𝒱₀ c none) E (cc3__cluster_kernel_body i arg1 harg1 arg2 harg2 arg3 harg3 arg4 harg4 arg5 harg5 arg6 harg6 arg7 harg7 arg8 harg8 arg9 harg9 arg10 harg10) K := by
  simp only [cc3__cluster_kernel_body_eq_skeleton]; unfold cc3__cluster_kernel_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf1 hf2 hf3 hf4 hf5 hf6 hf7 hf8 hf9 hf10
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro; unfold run_first.sl.H7_1; refine (read_writes_whole _ _ zoff2 _ _ _).trans ?_
    rd_all; first | done | rfl
  isplitl [H8]
  · iexists _; isplitr; swap; · iexact H8
    ipureintro; refine (read_writes_whole _ _ zoff2 _ _ _).trans ?_
    unfold run_first.sl.r_1 run_first.sl.v3 run_first.sl.v21 run_first.sl.H7_1 run_first.sl.H8_1; rd_all; first | done | rfl
  isplitl [H9]
  · iexists _; isplitr; swap; · iexact H9
    ipureintro; refine (read_writes_whole _ _ zoff2 _ _ _).trans ?_
    unfold run_first.sl.v3 run_first.sl.v21 run_first.sl.v30 run_first.sl.H7_1 run_first.sl.H8_1 run_first.sl.H9_1; rd_all; first | done | rfl
  iexists _; isplitr; swap; · iexact H10
  ipureintro; refine (read_writes_whole _ _ zoff2 _ _ _).trans ?_
  unfold run_first.sl.r run_first.sl.v3 run_first.sl.v49 run_first.sl.H7_1 run_first.sl.H10_1; rd_all; first | done | rfl

set_option maxHeartbeats 1000000 in
theorem run_last (c : Dev nD) (i : grid3.Coords) (arg1 : Memref sig .tc .vmem S1024x512 .bf16) (harg1 : arg1.IsWhole) (arg2 : Memref sig .tc .vmem S512x8 .bf16) (harg2 : arg2.IsWhole) (arg3 : Memref sig .tc .vmem S1024x8 .bf16) (harg3 : arg3.IsWhole) (arg4 : Memref sig .tc .vmem S1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (hc1 : ¬cond1 i) (hc2 : cond2 i)
    (hd : Vec F S1024x512 .bf16) (pj : Vec F S512x8 .bf16) (w : Vec F S1024x8 .bf16) (b : Vec F S1024 .f32) (tg : Vec F S1024x1 .i32) (o : Vec F S1024x1 .f32)
    (x : Vec F S1024x8 .bf16) (m l a : Vec F S1024x1 .f32) (E : Set ℕ) (K : PUnit → sProp (MM F)) :
    iprop(owns (c : Thread nD τ) arg1 fullShare hd ∗ owns (c : Thread nD τ) arg2 fullShare pj ∗ owns (c : Thread nD τ) arg3 fullShare w
        ∗ owns (c : Thread nD τ) arg4 fullShare b ∗ owns (c : Thread nD τ) arg5 fullShare tg ∗ owns (c : Thread nD τ) arg6 fullShare o
        ∗ owns (c : Thread nD τ) arg7 fullShare x ∗ owns (c : Thread nD τ) arg8 fullShare m ∗ owns (c : Thread nD τ) arg9 fullShare l
        ∗ owns (c : Thread nD τ) arg10 fullShare a
        ∗ (iprop(owns (c : Thread nD τ) arg1 fullShare hd ∗ owns (c : Thread nD τ) arg2 fullShare pj ∗ owns (c : Thread nD τ) arg3 fullShare w
            ∗ owns (c : Thread nD τ) arg4 fullShare b ∗ owns (c : Thread nD τ) arg5 fullShare tg ∗ owns (c : Thread nD τ) arg6 fullShare (k3_pay3 (nxt i x m l a w b tg).m (nxt i x m l a w b tg).l (nxt i x m l a w b tg).acc)
            ∗ owns (c : Thread nD τ) arg7 fullShare (nxt i x m l a w b tg).x ∗ owns (c : Thread nD τ) arg8 fullShare (nxt i x m l a w b tg).m
            ∗ owns (c : Thread nD τ) arg9 fullShare (nxt i x m l a w b tg).l ∗ owns (c : Thread nD τ) arg10 fullShare (nxt i x m l a w b tg).acc) -∗ K ⟨⟩))
      ⊢ wp frame (wpE (defs₀ (F := F)) 𝒱₀ c none) E (cc3__cluster_kernel_body i arg1 harg1 arg2 harg2 arg3 harg3 arg4 harg4 arg5 harg5 arg6 harg6 arg7 harg7 arg8 harg8 arg9 harg9 arg10 harg10) K := by
  simp only [cc3__cluster_kernel_body_eq_skeleton]; unfold cc3__cluster_kernel_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf1 hf2 hf3 hf4 hf5 hf6 hf7 hf8 hf9 hf10
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro; refine (read_writes_whole _ _ zoff2 _ _ _).trans ?_
    unfold run_last.sl.v57 run_last.sl.v58 run_last.sl.v61 run_last.sl.H8_1 run_last.sl.H9_1 run_last.sl.H10_1 run_last.sl.r_1 run_last.sl.r
    rd_all; first | done | rfl
  isplitl [H7]
  · iexists f7; isplitr; · ipureintro; rfl
    iexact H7
  isplitl [H8]
  · iexists _; isplitr; swap; · iexact H8
    ipureintro; unfold run_last.sl.H8_1 run_last.sl.r_1; refine (read_writes_whole _ _ zoff2 _ _ _).trans ?_
    rd_all; first | done | rfl
  isplitl [H9]
  · iexists _; isplitr; swap; · iexact H9
    ipureintro; unfold run_last.sl.H9_1; refine (read_writes_whole _ _ zoff2 _ _ _).trans ?_
    rd_all; first | done | rfl
  iexists _; isplitr; swap; · iexact H10
  ipureintro; unfold run_last.sl.H10_1 run_last.sl.r; refine (read_writes_whole _ _ zoff2 _ _ _).trans ?_
  rd_all; first | done | rfl

/-! ## The body obligation -/

variable (V : Val F)

/-- More than one point: the first is not the last. -/
theorem one_lt_N : 1 < cfg3.N := by decide

/-- The inputs are never idle; the result's buffer is idle but at the last point, which alone writes it back. -/
theorem live_0 (t : Fin cfg3.N) : cfg3.idle 0 (cfg3.grid.coords t) = false := rfl
theorem live_1 (t : Fin cfg3.N) : cfg3.idle 1 (cfg3.grid.coords t) = false := rfl
theorem live_2 (t : Fin cfg3.N) : cfg3.idle 2 (cfg3.grid.coords t) = false := rfl
theorem live_3 (t : Fin cfg3.N) : cfg3.idle 3 (cfg3.grid.coords t) = false := rfl
theorem live_4 (t : Fin cfg3.N) : cfg3.idle 4 (cfg3.grid.coords t) = false := rfl
theorem idle_5 : ∀ t : Fin cfg3.N, ¬cond2 (grid3.coords t) → cfg3.idle 5 (cfg3.grid.coords t) = true :=
  (by decide +kernel : ∀ t : Fin grid3.N, ¬cond2 (grid3.coords t) → idle3 5 (grid3.coords t) = true)
theorem live_5 : ∀ t : Fin cfg3.N, cond2 (grid3.coords t) → cfg3.idle 5 (cfg3.grid.coords t) = false :=
  (by decide +kernel : ∀ t : Fin grid3.N, cond2 (grid3.coords t) → idle3 5 (grid3.coords t) = false)
theorem noFlush_5 : ∀ t : Fin cfg3.N, ¬cond2 (grid3.coords t) → (cfg3.win 5).flush t = false :=
  (by decide +kernel : ∀ t : Fin grid3.N, ¬cond2 (grid3.coords t) → win3_5.flush t = false)

/-- Each input window's current buffer holds its block at every point, fetched there or not. -/
theorem before_0 (c : Dev nD) (t : Fin cfg3.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg3.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg3.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg3.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- One point of the carried state, at the first point and after it. -/
theorem step_first (c : Dev nD) (t : Fin cfg3.N) (h0 : t.val = 0) (s : St F) :
    step V c t s = nxt (grid3.coords t) (k3_pay4 (hidden V c) (proj V c)) k3_pay5 k3_pay6 k3_pay7 (wt V c t) (bt V c t) (tgt V c) := by
  unfold step base; rw [if_pos h0]; rfl
theorem step_later (c : Dev nD) (t : Fin cfg3.N) (h0 : t.val ≠ 0) (s : St F) :
    step V c t s = nxt (grid3.coords t) s.x s.m s.l s.acc (wt V c t) (bt V c t) (tgt V c) := by
  unfold step base; rw [if_neg h0]; rfl

/-- The region's result is what the last point computes. -/
theorem outv_last (c : Dev nD) (t : Fin cfg3.N) (hl : t.val + 1 = cfg3.N) :
    outv V c = k3_pay3 (step V c t (stAt V c t.val)).m (step V c t (stAt V c t.val)).l (step V c t (stAt V c t.val)).acc := by
  have e : stAt V c cfg3.N = step V c t (stAt V c t.val) := by
    have h := stAt_succ V c t; rw [hl] at h; exact h
  unfold outv; rw [e]

/-- The scoped rest before the first point, its four scratch buffers as whole memrefs at some contents. -/
theorem rest_eq (c : Dev nD) :
    (Pipeline.scopedRest (Ix := Unit) (Name := ℕ) (U := UR sig nD τ) (Lvl := ℕ) (Val := Elt F) spec3 c : sProp (MM F))
      = iprop(iprop((∃ d, owns (c : Thread nD τ) (Memref.whole cc3_scratch0 : Memref sig .tc .vmem S1024x8 .bf16) fullShare d)
          ∗ (∃ d, owns (c : Thread nD τ) (Memref.whole cc3_scratch1 : Memref sig .tc .vmem S1024x1 .f32) fullShare d)
          ∗ (∃ d, owns (c : Thread nD τ) (Memref.whole cc3_scratch2 : Memref sig .tc .vmem S1024x1 .f32) fullShare d)
          ∗ (∃ d, owns (c : Thread nD τ) (Memref.whole cc3_scratch3 : Memref sig .tc .vmem S1024x1 .f32) fullShare d))
        ∗ Pipeline.scopedRestBut (Ix := Unit) (Name := ℕ) (U := UR sig nD τ) (Lvl := ℕ) (Val := Elt F) spec3 c [cc3_scratch0, cc3_scratch1, cc3_scratch2, cc3_scratch3]) := by
  rw [scopedRest3_split]; simp only [owns_whole]; try rfl

/-- What the body is called with at point t, the windows one by one, -/
def bodyPre (c : Dev nD) (t : Fin cfg3.N) : sProp (MM F) :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d)))

/-- and what it returns. -/
def bodyPost (c : Dev nD) (t : Fin cfg3.N) : sProp (MM F) :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

set_option maxHeartbeats 2000000 in
/-- The body at any point: the inputs' buffers hold their blocks, the scratch the carried state (anything, at the
    first point); the point's place on the grid decides the two conditionals; the scratch is handed back at the next
    carried state, the result's buffer untouched but at the last point, where it holds the region's result. -/
theorem sound_body (c : Dev nD) (t : Fin cfg3.N) :
    bodyPre V c t ⊢ wp frame (wpE (defs₀ (F := F)) 𝒱₀ c none) Set.univ (bodyAt3 t) (fun _ => bodyPost V c t) := by
  unfold bodyPre bodyPost bodyAt3
  simp only [before_0, before_1, before_2, before_3, before_4]
  rw [show (dat V c).owesAt () t.succ = (dat V c).owesAt () t.castSucc from rfl]
  rw [show (dat V c).leavesExact 0 t = owns (c : Thread nD τ) (st3_0 t) fullShare (iblk V c 0 t) from by
      unfold Dat.leavesExact; rw [live_0 t, after_0],
    show (dat V c).leavesExact 1 t = owns (c : Thread nD τ) (st3_1 t) fullShare (iblk V c 1 t) from by
      unfold Dat.leavesExact; rw [live_1 t, after_1],
    show (dat V c).leavesExact 2 t = owns (c : Thread nD τ) (st3_2 t) fullShare (iblk V c 2 t) from by
      unfold Dat.leavesExact; rw [live_2 t, after_2],
    show (dat V c).leavesExact 3 t = owns (c : Thread nD τ) (st3_3 t) fullShare (iblk V c 3 t) from by
      unfold Dat.leavesExact; rw [live_3 t, after_3],
    show (dat V c).leavesExact 4 t = owns (c : Thread nD τ) (st3_4 t) fullShare (iblk V c 4 t) from by
      unfold Dat.leavesExact; rw [live_4 t, after_4]]
  rw [Φ_pos V c t.succ (by rw [Fin.val_succ]; exact Nat.succ_ne_zero _), Fin.val_succ, stAt_succ]
  rw [iblk_0_const V c t, iblk_1_const V c t, iblk_4_const V c t]
  by_cases h0 : t.val = 0
  · have hc1 : cond1 (grid3.coords t) := (hcond1 t).mpr h0
    have hc2 : ¬cond2 (grid3.coords t) := fun h => by
      have h' := (hcond2 t).mp h; have h1 := one_lt_N; omega
    rw [Dat.leavesExact_idle (dat V c) 5 t (idle_5 t hc2) (noFlush_5 t hc2)]
    rw [Φ_zero V c t.castSucc (by rw [Fin.coe_castSucc]; exact h0), rest_eq, step_first V c t h0]
    unfold scratchAt
    iintro ⟨⟨⟨⟨%x0, HS0⟩, ⟨%m0, HS1⟩, ⟨%l0, HS2⟩, ⟨%a0, HS3⟩⟩, Hrest⟩, Ho, ⟨%d0, H0⟩, ⟨%d1, H1⟩, ⟨%d2, H2⟩, ⟨%d3, H3⟩, ⟨%d4, H4⟩, ⟨%d5, H5⟩⟩
    iapply (run_first c (grid3.coords t) _ _ _ _ _ _ _ _ _ _ _ _ _ _ _ _ _ _ _ _ hc1 hc2 (hidden V c) (proj V c) (wt V c t) (bt V c t) (tgt V c) _ x0 m0 l0 a0 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    isplitl [HS0 HS1 HS2 HS3 Hrest]
    · isplitl [HS0]; · iexact HS0
      isplitl [HS1]; · iexact HS1
      isplitl [HS2]; · iexact HS2
      isplitl [HS3]; · iexact HS3
      iexact Hrest
    isplitl [Ho]; · iexact Ho
    isplitl [H0]; · iexact H0
    isplitl [H1]; · iexact H1
    isplitl [H2]; · iexact H2
    isplitl [H3]; · iexact H3
    isplitl [H4]; · iexact H4
    iexists _; iexact H5
  · have hc1 : ¬cond1 (grid3.coords t) := fun h => h0 ((hcond1 t).mp h)
    rw [Φ_pos V c t.castSucc (by rw [Fin.coe_castSucc]; exact h0), Fin.coe_castSucc, step_later V c t h0]
    unfold scratchAt
    by_cases hl : t.val + 1 = cfg3.N
    · have hc2 : cond2 (grid3.coords t) := (hcond2 t).mpr hl
      rw [show (dat V c).leavesExact 5 t = owns (c : Thread nD τ) (st3_5 t) fullShare (outv V c) from by
        unfold Dat.leavesExact; rw [live_5 t hc2, after_5]]
      rw [outv_last V c t hl, step_later V c t h0]
      iintro ⟨⟨HS0, HS1, HS2, HS3, Hrest⟩, Ho, ⟨%d0, H0⟩, ⟨%d1, H1⟩, ⟨%d2, H2⟩, ⟨%d3, H3⟩, ⟨%d4, H4⟩, ⟨%d5, H5⟩⟩
      iapply (run_last c (grid3.coords t) _ _ _ _ _ _ _ _ _ _ _ _ _ _ _ _ _ _ _ _ hc1 hc2 (hidden V c) (proj V c) (wt V c t) (bt V c t) (tgt V c) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hrest]
      · isplitl [HS0]; · iexact HS0
        isplitl [HS1]; · iexact HS1
        isplitl [HS2]; · iexact HS2
        isplitl [HS3]; · iexact HS3
        iexact Hrest
      isplitl [Ho]; · iexact Ho
      isplitl [H0]; · iexact H0
      isplitl [H1]; · iexact H1
      isplitl [H2]; · iexact H2
      isplitl [H3]; · iexact H3
      isplitl [H4]; · iexact H4
      iexact H5
    · have hc2 : ¬cond2 (grid3.coords t) := fun h => hl ((hcond2 t).mp h)
      rw [Dat.leavesExact_idle (dat V c) 5 t (idle_5 t hc2) (noFlush_5 t hc2)]
      iintro ⟨⟨HS0, HS1, HS2, HS3, Hrest⟩, Ho, ⟨%d0, H0⟩, ⟨%d1, H1⟩, ⟨%d2, H2⟩, ⟨%d3, H3⟩, ⟨%d4, H4⟩, ⟨%d5, H5⟩⟩
      iapply (run_mid c (grid3.coords t) _ _ _ _ _ _ _ _ _ _ _ _ _ _ _ _ _ _ _ _ hc1 hc2 (hidden V c) (proj V c) (wt V c t) (bt V c t) (tgt V c) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hrest]
      · isplitl [HS0]; · iexact HS0
        isplitl [HS1]; · iexact HS1
        isplitl [HS2]; · iexact HS2
        isplitl [HS3]; · iexact HS3
        iexact Hrest
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat V c) (defs₀ (F := F)) 𝒱₀ () Set.univ := fun t => by
  rw [bigSep_W3, bigSep_W3]
  exact sound_body V c t

end Cert.KernelIdeal.H.R3

end
-- ==== Proof.KI.R3Seg.lean ====
/- Region 3 as a segment of the program's run over the thread state "every unscoped buffer at given contents, beside
   the generator register and the core owing nothing": entered by splitting the region's six arrays out of the
   unscoped buffers, left with them put back — the five inputs as entered, the result's array holding the region's
   result. -/
import proofs.«416365_j66236985639681_1_alg».proof.Proof.KI.R3Body
import Idealize.ShloMosaic.Lib.Pipeline.RegionsLoop
import Idealize.ShloMosaic.Lib.Pipeline.FrameSuffix
import Idealize.ShloMosaic.Lib.Pipeline.Cells

set_option maxRecDepth 16384

noncomputable section

namespace Cert.KernelIdeal.H.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The last point. -/
abbrev tl : Fin cfg3.N := ⟨cfg3.N - 1, Nat.sub_lt N_pos Nat.one_pos⟩
theorem tl_succ : (tl : Fin cfg3.N).val + 1 = cfg3.N := Nat.sub_add_cancel N_pos

/-- The last point writes the result's block back. -/
theorem flush_last : ∀ t : Fin cfg3.N, t.val + 1 = cfg3.N → (cfg3.win 5).flush t = true :=
  (by decide +kernel : ∀ t : Fin grid3.N, t.val + 1 = grid3.N → win3_5.flush t = true)

section Out
variable (V : Val F)

/-- The result's array after the region: its one block is the whole array, written back once, at the last point, from
    the staging buffer holding the region's result. -/
theorem arrAt_out (c : Dev nD) : (dat V c).arrAt 5 cfg3.N = outv V c := by
  have e := (dat V c).arrAt_succ 5 tl
  rw [flush_last tl tl_succ, if_pos rfl] at e
  refine (congrArg ((dat V c).arrAt 5) tl_succ.symm).trans (e.trans ?_)
  refine (Memref.write_access_unit_zero_univ (Elt F) main_v62 (by funext a; fin_cases a <;> rfl) _ _ _).trans ?_
  exact after_5 V c tl

end Out

/-- The contents of the TensorCore's references read off a valuation of every reference. -/
abbrev Vof (W : Dev nD → Valuation τ sig (Elt F)) : Val F := fun c b => W c b

variable (W Wp : Dev nD → Valuation τ sig (Elt F))

set_option maxHeartbeats 2000000 in
set_option backward.isDefEq.respectTransparency.types false in
/-- Region 3 over the thread state: entered from every unscoped buffer at W, left at Wp, which holds the region's
    result in the result's array and agrees with W elsewhere; nothing owed; no semaphore of the kernel's own. -/
def reg (d0 : (c : Dev nD) → DatOf F cfg0 c) (d1 : (c : Dev nD) → DatOf F cfg1 c) (d2 : (c : Dev nD) → DatOf F cfg2 c)
    (hWp_out : ∀ c, Vof Wp c main_v62 = (dat (Vof W) c).arrAt 5 cfg3.N)
    (hWp_ne : ∀ c (b : Ref sig .tc), b ≠ main_v62 → Vof Wp c b = Vof W c b) :
    Pipeline.RegionSeg (pcfgs (F := F)) adm (fam d0 d1 d2 (dat (Vof W))) () defs₀ 𝒱₀ L lv 3 where
  win := launch3.win.to₀
  block_pos := launch3.block_pos
  stage_whole := launch3.stage_whole
  K := PEmpty
  osem k := k.elim
  ho := Pipeline.OwnSemFacts.none _
  hbody c := (body_obligation (Vof W) c).loose
  hwaits := Pipeline.hwaits_of_owed_zero _ _ _ _ L lv 3 fun _ _ => rfl
  pre c := iprop(StableHlo.held (c : Thread nD τ) (Pipeline.ucRefs τ sig) (W c) ∗ R c)
  post c := iprop(StableHlo.held (c : Thread nD τ) (Pipeline.ucRefs τ sig) (Wp c) ∗ R c)
  X _ := BI.emp
  Y _ := BI.emp
  Z c := iprop(Pipeline.unscopedRest (Ix := Unit) (Name := ℕ) (U := UR sig nD τ) (Lvl := ℕ) spec3 c (Vof W c) ∗ ∃ r, prngReg c r)
  hentry c := by
    rw [Pipeline.ownSems0_none]
    have hsplit := Pipeline.arrays_of_unscopedBufs (p := 3) (pcfgs (F := F)) adm (fam d0 d1 d2 (dat (Vof W))) launch3.win launch3.arr_whole c
      ((fam d0 d1 d2 (dat (Vof W)) 3 c).share_full fun _ => rfl) (Vof W c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W', HO⟩; iexists W'; isplitr; · ipureintro; exact fun _ _ => Or.inl trivial
      iexact HO
    isplitr; · iempintro
    isplitl [Hrest]; · iexact Hrest
    iexact Hp
  hin c := by
    rw [show (fam d0 d1 d2 (dat (Vof W)) 3 c).Φ 0 = _ from Φ_zero (Vof W) c 0 rfl]
    iintro ⟨-, -, Hr⟩; iexact Hr
  hout c := by
    rw [Pipeline.ownSems0_none, show (fam d0 d1 d2 (dat (Vof W)) 3 c).Φ (Fin.last _) = _ from
      Φ_pos (Vof W) c (Fin.last cfg3.N) (Nat.ne_of_gt N_pos)]
    change _ ⊢ iprop(BI.emp ∗ BI.emp ∗ (Pipeline.scopedRest (Ix := Unit) (Name := ℕ) (U := UR sig nD τ) (Lvl := ℕ) (Val := Elt F) spec3 c : sProp (MM F)))
    rw [rest_eq]
    unfold scratchAt
    iintro ⟨H0, H1, H2, H3, Hr⟩
    isplitr; · iempintro
    isplitr; · iempintro
    isplitl [H0 H1 H2 H3]
    · isplitl [H0]; · iexists _; iexact H0
      isplitl [H1]; · iexists _; iexact H1
      isplitl [H2]; · iexists _; iexact H2
      iexists _; iexact H3
    iexact Hr
  hexit c := by
    have hjoin := Pipeline.unscopedBufs_of_arrays (p := 3) (pcfgs (F := F)) adm (Ix := Unit) (Name := ℕ) (U := UR sig nD τ) (Lvl := ℕ)
      launch3.win launch3.arr_whole c (fam d0 d1 d2 (dat (Vof W))) ((fam d0 d1 d2 (dat (Vof W)) 3 c).share_full fun _ => rfl)
      (Vof W c) (Vof Wp c) ((fam d0 d1 d2 (dat (Vof W)) 3 c).arrAt · cfg3.N)
      (fun w => by
        fin_cases w
        · exact ((dat (Vof W) c).arrAt_in 0 rfl _).trans (hWp_ne c _ (by decide)).symm
        · exact ((dat (Vof W) c).arrAt_in 1 rfl _).trans (hWp_ne c _ (by decide)).symm
        · exact ((dat (Vof W) c).arrAt_in 2 rfl _).trans (hWp_ne c _ (by decide)).symm
        · exact ((dat (Vof W) c).arrAt_in 3 rfl _).trans (hWp_ne c _ (by decide)).symm
        · exact ((dat (Vof W) c).arrAt_in 4 rfl _).trans (hWp_ne c _ (by decide)).symm
        · exact (hWp_out c).symm)
      (fun b hb => hWp_ne c b fun h => hb (h ▸ Finset.mem_image.mpr ⟨5, Finset.mem_univ _, rfl⟩))
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W', -, HO⟩; iexists W'; iexact HO

end Cert.KernelIdeal.H.R3

end
-- ==== Proof.KI.Assemble.lean ====
import proofs.«416365_j66236985639681_1_alg».proof.Proof.KI.Outs
import proofs.«416365_j66236985639681_1_alg».proof.Proof.KI.LaunchFacts
import proofs.«416365_j66236985639681_1_alg».proof.Proof.KI.R0Seg
import proofs.«416365_j66236985639681_1_alg».proof.Proof.KI.R1Seg
import proofs.«416365_j66236985639681_1_alg».proof.Proof.KI.R2Seg
import proofs.«416365_j66236985639681_1_alg».proof.Proof.KI.R3Seg

noncomputable section

namespace Cert.KernelIdeal.H

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]
variable (m : (ℓ : Loc nD τ sig) → Buf (Elt F) ℓ)

abbrev d0 : (c : Dev nD) → DatOf F cfg0 c := R0.dat (valOf (V7 m))
abbrev d1 : (c : Dev nD) → DatOf F cfg1 c := R1.dat (valOf (V15 m (outsOf m)))
abbrev d2 : (c : Dev nD) → DatOf F cfg2 c := R2.dat (valOf (V25 m (outsOf m)))
abbrev d3 : (c : Dev nD) → DatOf F cfg3 c := R3.dat (valOf (V35 m (outsOf m)))
abbrev pdats : (p : Fin 4) → (c : Dev nD) → DatOf F (cfgs p) c := fam (d0 m) (d1 m) (d2 m) (d3 m)

theorem vin1_eq : (valOf (V15 m (outsOf m)) : Val F) = valOf (V15 m (mkOuts m (res0 m) (fun c => m _) (fun c => m _) (fun c => m _))) :=
  funext fun c => funext fun b => congrFun (V15_outsOf m c) b
theorem vin2_eq : (valOf (V25 m (outsOf m)) : Val F) = valOf (V25 m (mkOuts m (res0 m) (res1 m) (fun c => m _) (fun c => m _))) :=
  funext fun c => funext fun b => congrFun (V25_outsOf m c) b
theorem vin3_eq : (valOf (V35 m (outsOf m)) : Val F) = valOf (V35 m (mkOuts m (res0 m) (res1 m) (res2 m) (fun c => m _))) :=
  funext fun c => funext fun b => congrFun (V35_outsOf m c) b

theorem hout0 (c : Dev nD) : valOf (V8 m (outsOf m)) c main_v9 = (R0.dat (valOf (V7 m)) c).arrAt 5 cfg0.N := by
  show Function.update (V7 m c) _ (outsOf m 8 main_v9 c) _ = _
  rw [Function.update_self]; unfold outsOf; rw [mkOuts_v9]; rfl
theorem hne0 (c : Dev nD) (b : Ref sig .tc) (hb : b ≠ main_v9) : valOf (V8 m (outsOf m)) c b = valOf (V7 m) c b :=
  V8_of m (outsOf m) c b (by simpa using hb)

theorem hout1 (c : Dev nD) : valOf (V16 m (outsOf m)) c main_v22 = (R1.dat (valOf (V15 m (outsOf m))) c).arrAt 5 cfg1.N := by
  show Function.update (V15 m (outsOf m) c) _ (outsOf m 16 main_v22 c) _ = _
  rw [Function.update_self, vin1_eq]; unfold outsOf; rw [mkOuts_v22]; rfl
theorem hne1 (c : Dev nD) (b : Ref sig .tc) (hb : b ≠ main_v22) : valOf (V16 m (outsOf m)) c b = valOf (V15 m (outsOf m)) c b :=
  V16_of m (outsOf m) c b (by simpa using hb)

theorem hout2 (c : Dev nD) : valOf (V26 m (outsOf m)) c main_v42 = (R2.dat (valOf (V25 m (outsOf m))) c).arrAt 5 cfg2.N := by
  show Function.update (V25 m (outsOf m) c) _ (outsOf m 26 main_v42 c) _ = _
  rw [Function.update_self, vin2_eq]; unfold outsOf; rw [mkOuts_v42]; rfl
theorem hne2 (c : Dev nD) (b : Ref sig .tc) (hb : b ≠ main_v42) : valOf (V26 m (outsOf m)) c b = valOf (V25 m (outsOf m)) c b :=
  V26_of m (outsOf m) c b (by simpa using hb)

theorem hout3 (c : Dev nD) : valOf (V36 m (outsOf m)) c main_v62 = (R3.dat (valOf (V35 m (outsOf m))) c).arrAt 5 cfg3.N := by
  show Function.update (V35 m (outsOf m) c) _ (outsOf m 36 main_v62 c) _ = _
  rw [Function.update_self, vin3_eq]; unfold outsOf; rw [mkOuts_v62]; rfl
theorem hne3 (c : Dev nD) (b : Ref sig .tc) (hb : b ≠ main_v62) : valOf (V36 m (outsOf m)) c b = valOf (V35 m (outsOf m)) c b :=
  V36_of m (outsOf m) c b (by simpa using hb)

variable (ρ : Dev nD → PrngReg)

theorem run_value :
    θ_run defs (onTc (τ := τ) (main (F := F))) ⟨m, fun _ => 0, ρ⟩ (fun r => ∀ c : Dev nD,
      r.2.mem ((c.tc : Thread nD τ).loc main_v73) = V38 m (outsOf m) c main_v73
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_cond (F := F) m (EP := emb₁) (ι := ()) (𝒱₀ := 𝒱₀) (L := L) (lv := lv) (hL := fun _ _ => rfl) (ρ := ρ)
    (outs := outsOf m) (pdats := pdats m) (O₀ := 0) (G := fun _ => iprop(emp)) (u₀ := u₀) (hu₀ := hu₀)
    (E := E) (hE0 := hE0 ρ) (hE4 := hE4)
    (R0 := R0.reg (V7 m) (V8 m (outsOf m)) (d1 m) (d2 m) (d3 m) (hout0 m) (hne0 m))
    (hpre0 := fun _ => .rfl)
    (hpost0 := fun _ => .rfl)
    (R1 := R1.reg (V15 m (outsOf m)) (V16 m (outsOf m)) (d0 m) (d2 m) (d3 m) (hout1 m) (hne1 m))
    (hpre1 := fun _ => .rfl)
    (hpost1 := fun _ => .rfl)
    (R2 := R2.reg (V25 m (outsOf m)) (V26 m (outsOf m)) (d0 m) (d1 m) (d3 m) (hout2 m) (hne2 m))
    (hpre2 := fun _ => .rfl)
    (hpost2 := fun _ => .rfl)
    (R3 := R3.reg (V35 m (outsOf m)) (V36 m (outsOf m)) (d0 m) (d1 m) (d2 m) (hout3 m) (hne3 m))
    (hpre3 := fun _ => .rfl)
    (hpost3 := fun _ => .rfl)

end Cert.KernelIdeal.H

end
-- ==== Proof.Spec.lean ====
import Idealize.ShloMosaic.PureOps.Ideal

noncomputable section

namespace Cert.Spec

open Idealize.ShloMosaic

def proj {D K : ℕ} (h : Fin 1024 → Fin D → EReal) (P : Fin D → Fin K → EReal) (n : Fin 1024) (e : Fin K) : EReal :=
  ∑ d, h n d * P d e

def logits {K V : ℕ} (x : Fin 1024 → Fin K → EReal) (W : Fin V → Fin K → EReal) (b : Fin V → EReal)
    (n : Fin 1024) (v : Fin V) : EReal :=
  (∑ e, x n e * W v e) + b v

def logSoftmax {V : ℕ} (x : Fin V → EReal) (v : Fin V) : EReal :=
  (x v - Finset.univ.sup x) - Ideal.log (∑ v', Ideal.exp (x v' - Finset.univ.sup x))

def headW (W0 : Fin 20000 → Fin 512 → EReal) (cw : Fin 3 → Fin 512 → EReal) (v : Fin 20003) (e : Fin 512) : EReal :=
  if h : v.val < 20000 then W0 ⟨v.val, h⟩ e else cw ⟨v.val - 20000, by omega⟩ e

def headB (b0 : Fin 20000 → EReal) (cb : Fin 3 → EReal) (v : Fin 20003) : EReal :=
  if h : v.val < 20000 then b0 ⟨v.val, h⟩ else cb ⟨v.val - 20000, by omega⟩

def clipIdx (V : ℕ) (hV : 0 < V) (z : ℤ) : Fin V :=
  ⟨(max 0 (min z ((V : ℤ) - 1))).toNat, by omega⟩

structure Args where
  hidden : Fin 1024 → Fin 512 → EReal
  target : Fin 1024 → BitVec 32
  W0 : Fin 20000 → Fin 512 → EReal
  b0 : Fin 20000 → EReal
  proj0 : Fin 512 → Fin 512 → EReal
  W1 : Fin 20000 → Fin 128 → EReal
  b1 : Fin 20000 → EReal
  proj1 : Fin 512 → Fin 128 → EReal
  W2 : Fin 160000 → Fin 32 → EReal
  b2 : Fin 160000 → EReal
  proj2 : Fin 512 → Fin 32 → EReal
  W3 : Fin 67735 → Fin 8 → EReal
  b3 : Fin 67735 → EReal
  proj3 : Fin 512 → Fin 8 → EReal
  cw : Fin 3 → Fin 512 → EReal
  cb : Fin 3 → EReal

def headLp (a : Args) (n : Fin 1024) : Fin 20003 → EReal :=
  logSoftmax (logits (proj a.hidden a.proj0) (headW a.W0 a.cw) (headB a.b0 a.cb) n)

def tail1Lp (a : Args) (n : Fin 1024) : Fin 20000 → EReal := logSoftmax (logits (proj a.hidden a.proj1) a.W1 a.b1 n)
def tail2Lp (a : Args) (n : Fin 1024) : Fin 160000 → EReal := logSoftmax (logits (proj a.hidden a.proj2) a.W2 a.b2 n)
def tail3Lp (a : Args) (n : Fin 1024) : Fin 67735 → EReal := logSoftmax (logits (proj a.hidden a.proj3) a.W3 a.b3 n)

def nll (a : Args) (n : Fin 1024) : EReal :=
  let t : ℤ := (a.target n).toInt
  if 200000 ≤ t then -(headLp a n ⟨20000, by omega⟩ + tail3Lp a n (clipIdx 67735 (by omega) (t - 200000)))
  else if 40000 ≤ t then -(headLp a n ⟨20001, by omega⟩ + tail2Lp a n (clipIdx 160000 (by omega) (t - 40000)))
  else if 20000 ≤ t then -(headLp a n ⟨20002, by omega⟩ + tail1Lp a n (clipIdx 20000 (by omega) (t - 20000)))
  else -(headLp a n (Fin.castLE (by omega) (clipIdx 20000 (by omega) t)))

end Cert.Spec

end
-- ==== Proof.KI.HostHead.lean ====
import proofs.«416365_j66236985639681_1_alg».proof.Proof.KernelIdealRegions
import proofs.«416365_j66236985639681_1_alg».proof.Proof.Spec
import Idealize.ShloMosaic.Lib.ValueIdx
import Idealize.ShloMosaic.Lib.ValueLayout
import Idealize.ShloMosaic.Lib.KernelVsHost
import Idealize.ShloMosaic.Lib.StableHlo.Predicate

noncomputable section

namespace Cert.KernelIdeal.H.Head

open Cert.KernelIdeal Cert.KernelIdeal.Gen
open Idealize.ShloMosaic Idealize.ShloMosaic.TcCoe
open Idealize.ShloMosaic.ValueIdx
open Idealize.ShloMosaic.StableHlo

variable (m : (ℓ : Loc nD τ sig) → Buf (Elt Ideal) ℓ) (outs : Outs (F := Ideal))

def argsOf (c : Dev nD) : Cert.Spec.Args where
  hidden n d := (m ((c : Thread nD τ).loc main_arg0) : S1024x512.Idx → EReal) (ix2 n d)
  target n := (m ((c : Thread nD τ).loc main_arg1) : S1024.Idx → BitVec 32) (ix1 n)
  W0 v e := (m ((c : Thread nD τ).loc main_arg2) : S20000x512.Idx → EReal) (ix2 v e)
  b0 v := (m ((c : Thread nD τ).loc main_arg3) : S20000.Idx → EReal) (ix1 v)
  proj0 d e := (m ((c : Thread nD τ).loc main_arg4) : S512x512.Idx → EReal) (ix2 d e)
  W1 v e := (m ((c : Thread nD τ).loc main_arg5) : S20000x128.Idx → EReal) (ix2 v e)
  b1 v := (m ((c : Thread nD τ).loc main_arg6) : S20000.Idx → EReal) (ix1 v)
  proj1 d e := (m ((c : Thread nD τ).loc main_arg7) : S512x128.Idx → EReal) (ix2 d e)
  W2 v e := (m ((c : Thread nD τ).loc main_arg8) : S160000x32.Idx → EReal) (ix2 v e)
  b2 v := (m ((c : Thread nD τ).loc main_arg9) : S160000.Idx → EReal) (ix1 v)
  proj2 d e := (m ((c : Thread nD τ).loc main_arg10) : S512x32.Idx → EReal) (ix2 d e)
  W3 v e := (m ((c : Thread nD τ).loc main_arg11) : S67735x8.Idx → EReal) (ix2 v e)
  b3 v := (m ((c : Thread nD τ).loc main_arg12) : S67735.Idx → EReal) (ix1 v)
  proj3 d e := (m ((c : Thread nD τ).loc main_arg13) : S512x8.Idx → EReal) (ix2 d e)
  cw v e := (m ((c : Thread nD τ).loc main_arg14) : S3x512.Idx → EReal) (ix2 v e)
  cb v := (m ((c : Thread nD τ).loc main_arg15) : S3.Idx → EReal) (ix1 v)

section Generic
variable {α : Type}

theorem pad_rows_apply {n n' k p : ℕ} (x : (⟨2, ![n, k]⟩ : Shape).Idx → α) {u : Shape} (v : u.Idx → α)
    (h : (⟨2, ![n, k]⟩ : Shape).Pads ![0, 0] ![p, 0] ![0, 0] ⟨2, ![n', k]⟩) (hu : 0 < u.numel)
    (j : (⟨2, ![n', k]⟩ : Shape).Idx) :
    pad ⟨2, ![n', k]⟩ ![0, 0] ![p, 0] ![0, 0] x v h hu j
      = if hlt : (j 0).val < n then x (ix2 ⟨(j 0).val, hlt⟩ (j 1)) else v (Shape.Idx.first hu) := by
  by_cases hlt : (j 0).val < n
  · rw [dif_pos hlt]
    refine pad_apply_of_inside _ _ _ x v h hu j _ fun a => ?_
    match a with
    | ⟨0, _⟩ => show (j 0).val = 0 + (j 0).val * (0 + 1); omega
    | ⟨1, _⟩ => show (j 1).val = 0 + (j 1).val * (0 + 1); omega
  · rw [dif_neg hlt]
    refine pad_apply_of_not_inside _ _ _ x v h hu j ⟨0, Nat.zero_lt_two⟩ fun hh => hlt ?_
    have h3 : ((j 0).val - 0) / (0 + 1) < n := hh.2.2
    rw [Nat.sub_zero, Nat.zero_add, Nat.div_one] at h3
    exact h3

theorem pad_end_apply {n n' p : ℕ} (x : (⟨1, ![n]⟩ : Shape).Idx → α) {u : Shape} (v : u.Idx → α)
    (h : (⟨1, ![n]⟩ : Shape).Pads ![0] ![p] ![0] ⟨1, ![n']⟩) (hu : 0 < u.numel)
    (j : (⟨1, ![n']⟩ : Shape).Idx) :
    pad ⟨1, ![n']⟩ ![0] ![p] ![0] x v h hu j
      = if hlt : (j 0).val < n then x (ix1 ⟨(j 0).val, hlt⟩) else v (Shape.Idx.first hu) := by
  by_cases hlt : (j 0).val < n
  · rw [dif_pos hlt]
    refine pad_apply_of_inside _ _ _ x v h hu j _ fun a => ?_
    match a with
    | ⟨0, _⟩ => show (j 0).val = 0 + (j 0).val * (0 + 1); omega
  · rw [dif_neg hlt]
    refine pad_apply_of_not_inside _ _ _ x v h hu j ⟨0, Nat.zero_lt_one⟩ fun hh => hlt ?_
    have h3 : ((j 0).val - 0) / (0 + 1) < n := hh.2.2
    rw [Nat.sub_zero, Nat.zero_add, Nat.div_one] at h3
    exact h3

theorem concat_rows_apply {n₁ n₂ n k : ℕ} (hn : n = n₁ + n₂) (x₁ : (⟨2, ![n₁, k]⟩ : Shape).Idx → α)
    (x₂ : (⟨2, ![n₂, k]⟩ : Shape).Idx → α)
    (h : Shape.Concatenates [(⟨2, ![n₁, k]⟩ : Shape), ⟨2, ![n₂, k]⟩] ⟨2, ![n, k]⟩ (0 : Fin 2))
    (j : (⟨2, ![n, k]⟩ : Shape).Idx) :
    concatenate ⟨2, ![n, k]⟩ (0 : Fin 2) [⟨⟨2, ![n₁, k]⟩, x₁⟩, ⟨⟨2, ![n₂, k]⟩, x₂⟩] h j
      = if hlt : (j 0).val < n₁ then x₁ (ix2 ⟨(j 0).val, hlt⟩ (j 1))
        else x₂ (ix2 ⟨(j 0).val - n₁, by have : (j 0).val < n := (j 0).isLt; omega⟩ (j 1)) := by
  by_cases hlt : (j 0).val < n₁
  · rw [dif_pos hlt]
    exact concatenate_pair_apply_left (0 : Fin 2) x₁ x₂ h j rfl _ fun b => match b with
      | ⟨0, _⟩ => rfl
      | ⟨1, _⟩ => rfl
  · rw [dif_neg hlt]
    exact concatenate_pair_apply_right (0 : Fin 2) x₁ x₂ h j rfl rfl _ (fun b hb => match b, hb with
      | ⟨0, _⟩, hb => absurd rfl hb
      | ⟨1, _⟩, _ => rfl)
      (by show (j 0).val - n₁ + n₁ = (j 0).val; omega)

theorem concat_end_apply {n₁ n₂ n : ℕ} (hn : n = n₁ + n₂) (x₁ : (⟨1, ![n₁]⟩ : Shape).Idx → α)
    (x₂ : (⟨1, ![n₂]⟩ : Shape).Idx → α)
    (h : Shape.Concatenates [(⟨1, ![n₁]⟩ : Shape), ⟨1, ![n₂]⟩] ⟨1, ![n]⟩ (0 : Fin 1))
    (j : (⟨1, ![n]⟩ : Shape).Idx) :
    concatenate ⟨1, ![n]⟩ (0 : Fin 1) [⟨⟨1, ![n₁]⟩, x₁⟩, ⟨⟨1, ![n₂]⟩, x₂⟩] h j
      = if hlt : (j 0).val < n₁ then x₁ (ix1 ⟨(j 0).val, hlt⟩)
        else x₂ (ix1 ⟨(j 0).val - n₁, by have : (j 0).val < n := (j 0).isLt; omega⟩) := by
  by_cases hlt : (j 0).val < n₁
  · rw [dif_pos hlt]
    exact concatenate_pair_apply_left (0 : Fin 1) x₁ x₂ h j rfl _ fun b => match b with
      | ⟨0, _⟩ => rfl
  · rw [dif_neg hlt]
    exact concatenate_pair_apply_right (0 : Fin 1) x₁ x₂ h j rfl rfl _ (fun b hb => match b, hb with
      | ⟨0, _⟩, hb => absurd rfl hb)
      (by show (j 0).val - n₁ + n₁ = (j 0).val; omega)

theorem shapeCast_a_a1_apply {a : ℕ} (x : (⟨1, ![a]⟩ : Shape).Idx → α) (h : (⟨1, ![a]⟩ : Shape).ShapeCasts ⟨2, ![a, 1]⟩)
    (j : (⟨2, ![a, 1]⟩ : Shape).Idx) : shapeCast ⟨2, ![a, 1]⟩ x h j = x (ix1 (j 0)) :=
  shapeCast_apply x h _ _ (by
    have hu : (j 1).val < 1 := (j 1).isLt
    rw [Shape.rowMajor_val_two, Shape.rowMajor_val_one]
    show (j 0).val = (j 0).val * 1 + (j 1).val
    omega)

end Generic

theorem sitofp_zero_apply (z : S_.Idx → BitVec 32) (hz : z = constantI S_ 32 0#32) (i : S_.Idx) :
    (sitofp .f32 z : FVec Ideal S_ .f32) i = 0 := by
  subst hz
  show (((0#32 : BitVec 32).toInt : ℝ) : EReal) = 0
  rw [show (0#32 : BitVec 32).toInt = 0 from by decide]
  simp

theorem pad_rows_zero_apply {n n' k p : ℕ} (x : (⟨2, ![n, k]⟩ : Shape).Idx → EReal) (z : S_.Idx → BitVec 32)
    (hz : z = constantI S_ 32 0#32)
    (h : (⟨2, ![n, k]⟩ : Shape).Pads ![0, 0] ![p, 0] ![0, 0] ⟨2, ![n', k]⟩) (hu : 0 < S_.numel)
    (j : (⟨2, ![n', k]⟩ : Shape).Idx) :
    pad ⟨2, ![n', k]⟩ ![0, 0] ![p, 0] ![0, 0] x (sitofp .f32 z : FVec Ideal S_ .f32) h hu j
      = if hlt : (j 0).val < n then x (ix2 ⟨(j 0).val, hlt⟩ (j 1)) else 0 := by
  rw [pad_rows_apply, sitofp_zero_apply z hz]

theorem pad_end_zero_apply {n n' p : ℕ} (x : (⟨1, ![n]⟩ : Shape).Idx → EReal) (z : S_.Idx → BitVec 32)
    (hz : z = constantI S_ 32 0#32)
    (h : (⟨1, ![n]⟩ : Shape).Pads ![0] ![p] ![0] ⟨1, ![n']⟩) (hu : 0 < S_.numel)
    (j : (⟨1, ![n']⟩ : Shape).Idx) :
    pad ⟨1, ![n']⟩ ![0] ![p] ![0] x (sitofp .f32 z : FVec Ideal S_ .f32) h hu j
      = if hlt : (j 0).val < n then x (ix1 ⟨(j 0).val, hlt⟩) else 0 := by
  rw [pad_end_apply, sitofp_zero_apply z hz]

def clipWord (hi t : BitVec 32) : BitVec 32 := IntOp.minsi hi (IntOp.maxsi 0#32 t)

theorem clipWord_toInt (hi t : BitVec 32) (hhi : 0 ≤ hi.toInt) :
    (clipWord hi t).toInt = max 0 (min t.toInt hi.toInt) := by
  have h0 : (0#32 : BitVec 32).toInt = 0 := by decide
  unfold clipWord IntOp.minsi IntOp.maxsi
  by_cases h1 : t.slt 0#32
  · rw [if_pos h1]
    rw [BitVec.slt_iff_toInt_lt, h0] at h1
    by_cases h2 : hi.slt 0#32
    · rw [BitVec.slt_iff_toInt_lt, h0] at h2; omega
    · rw [if_neg h2, h0]; omega
  · rw [if_neg h1]
    rw [BitVec.slt_iff_toInt_lt, h0] at h1
    by_cases h2 : hi.slt t
    · rw [if_pos h2]; rw [BitVec.slt_iff_toInt_lt] at h2; omega
    · rw [if_neg h2]; rw [BitVec.slt_iff_toInt_lt] at h2; omega

theorem toInt_ofNat_lt (n : ℕ) (hn : n < 2 ^ 31) : (BitVec.ofNat 32 n).toInt = n := by
  rw [BitVec.toInt_ofNat', Int.bmod_def]
  push_cast
  split <;> omega

theorem clipWord_toInt_clipIdx (V : ℕ) (hV : 0 < V) (hV' : V < 2 ^ 31) (t : BitVec 32) :
    (clipWord (BitVec.ofNat 32 (V - 1)) t).toInt = ((Cert.Spec.clipIdx V hV t.toInt).val : ℤ) := by
  have hhi : (BitVec.ofNat 32 (V - 1)).toInt = ((V - 1 : ℕ) : ℤ) := toInt_ofNat_lt _ (by omega)
  rw [clipWord_toInt _ _ (by rw [hhi]; omega), hhi]
  unfold Cert.Spec.clipIdx
  show _ = ((max 0 (min t.toInt ((V : ℤ) - 1))).toNat : ℤ)
  omega

theorem clipWord_sub_toInt (V : ℕ) (hV : 0 < V) (hV' : V < 2 ^ 31) (lo : ℕ) (hlo : lo < 2 ^ 31) (t : BitVec 32)
    (hw : (lo : ℤ) - 2 ^ 31 ≤ t.toInt) :
    (clipWord (BitVec.ofNat 32 (V - 1)) (IntOp.subi t (BitVec.ofNat 32 lo))).toInt
      = ((Cert.Spec.clipIdx V hV (t.toInt - lo)).val : ℤ) := by
  have hs : (IntOp.subi t (BitVec.ofNat 32 lo)).toInt = t.toInt - lo := by
    unfold IntOp.subi
    rw [BitVec.toInt_sub, toInt_ofNat_lt lo hlo, Int.bmod_def]
    have := BitVec.toInt_lt (x := t)
    have := BitVec.le_toInt (x := t)
    split <;> omega
  rw [clipWord_toInt_clipIdx V hV hV', hs]

theorem clip_apply (c0 c1 : S_.Idx → BitVec 32) (t : S1024.Idx → BitVec 32) (hi : BitVec 32)
    (h0 : c0 = constantI S_ 32 0#32) (h1 : c1 = constantI S_ 32 hi) (i : S1024.Idx) :
    minsi (broadcastInDim S1024 ![] bcast_S_S1024 c1) (maxsi (broadcastInDim S1024 ![] bcast_S_S1024 c0) t) i
      = clipWord hi (t i) := by
  subst h0 h1
  show IntOp.minsi (broadcastInDim S1024 ![] bcast_S_S1024 (constantI S_ 32 hi) i)
      (IntOp.maxsi (broadcastInDim S1024 ![] bcast_S_S1024 (constantI S_ 32 0#32) i) (t i)) = _
  rw [Predicate.bcast_scalar bcast_S_S1024 h_S_, Predicate.bcast_scalar bcast_S_S1024 h_S_]
  rfl

theorem sub_apply (t : S1024.Idx → BitVec 32) (lo : BitVec 32) (i : S1024.Idx) :
    subi t (broadcastInDim S1024 ![] bcast_S_S1024 (constantI S_ 32 lo)) i = IntOp.subi (t i) lo := by
  show IntOp.subi (t i) (broadcastInDim S1024 ![] bcast_S_S1024 (constantI S_ 32 lo) i) = _
  rw [Predicate.bcast_scalar bcast_S_S1024 h_S_]
  rfl

theorem headW_eq (x₁ : S20000x512.Idx → EReal) (x₂ : S3x512.Idx → EReal) (v : Fin 20003) (e : Fin 512) :
    concatenate S20003x512 0 [⟨S20000x512, x₁⟩, ⟨S3x512, x₂⟩] concatenates_S20000x512_S3x512_S20003x512_d0 (ix2 v e)
      = Cert.Spec.headW (fun v e => x₁ (ix2 v e)) (fun v e => x₂ (ix2 v e)) v e := by
  refine (concat_rows_apply (n₁ := 20000) (n₂ := 3) rfl x₁ x₂ _ _).trans ?_
  unfold Cert.Spec.headW
  rfl

theorem headB_eq (x₁ : S20000.Idx → EReal) (x₂ : S3.Idx → EReal) (v : Fin 20003) :
    concatenate S20003 0 [⟨S20000, x₁⟩, ⟨S3, x₂⟩] concatenates_S20000_S3_S20003_d0 (ix1 v)
      = Cert.Spec.headB (fun v => x₁ (ix1 v)) (fun v => x₂ (ix1 v)) v := by
  refine (concat_end_apply (n₁ := 20000) (n₂ := 3) rfl x₁ x₂ _ _).trans ?_
  unfold Cert.Spec.headB
  rfl

section Stretch
variable (W : Valuation τ sig (Elt Ideal))

theorem st0_v0 : (StableHlo.after (hostOps0 (F := Ideal)) W main_v0 : S1024x512.Idx → EReal) = (W main_arg0 : S1024x512.Idx → EReal) := by
  dsimp only [hostOps0]; after_results <;> rfl

theorem st0_v1 : (StableHlo.after (hostOps0 (F := Ideal)) W main_v1 : S20003x512.Idx → EReal)
    = concatenate S20003x512 0 [⟨S20000x512, (W main_arg2 : S20000x512.Idx → EReal)⟩, ⟨S3x512, (W main_arg14 : S3x512.Idx → EReal)⟩] concatenates_S20000x512_S3x512_S20003x512_d0 := by
  dsimp only [hostOps0]; after_results <;> rfl

theorem st0_v2 : (StableHlo.after (hostOps0 (F := Ideal)) W main_v2 : S20003.Idx → EReal)
    = concatenate S20003 0 [⟨S20000, (W main_arg3 : S20000.Idx → EReal)⟩, ⟨S3, (W main_arg15 : S3.Idx → EReal)⟩] concatenates_S20000_S3_S20003_d0 := by
  dsimp only [hostOps0]; after_results <;> rfl

theorem st0_c : (StableHlo.after (hostOps0 (F := Ideal)) W main_c : S_.Idx → BitVec 32) = constantI S_ 32 0#32 := by
  dsimp only [hostOps0]; after_results <;> rfl

theorem st0_1_v3 : (StableHlo.after (hostOps0_1 (F := Ideal)) W main_v3 : S20480x512.Idx → EReal)
    = pad S20480x512 ![0, 0] ![477, 0] ![0, 0] (W main_v1 : S20003x512.Idx → EReal) (sitofp .f32 (W main_c : S_.Idx → BitVec 32) : FVec Ideal S_ .f32) pads_S20003x512_S20480x512_04770_000 h_S_ := by
  dsimp only [hostOps0_1]; after_results <;> rfl

theorem st0_2_v4 : (StableHlo.after (hostOps0_2 (F := Ideal)) W main_v4 : S20480x512.Idx → EReal) = (W main_v3 : S20480x512.Idx → EReal) := by
  dsimp only [hostOps0_2]; after_results <;> rfl

theorem st0_2_c0 : (StableHlo.after (hostOps0_2 (F := Ideal)) W main_c_0 : S_.Idx → BitVec 32) = constantI S_ 32 0#32 := by
  dsimp only [hostOps0_2]; after_results <;> rfl

theorem st0_3_v5 : (StableHlo.after (hostOps0_3 (F := Ideal)) W main_v5 : S20480.Idx → EReal)
    = pad S20480 ![0] ![477] ![0] (W main_v2 : S20003.Idx → EReal) (sitofp .f32 (W main_c_0 : S_.Idx → BitVec 32) : FVec Ideal S_ .f32) pads_S20003_S20480_04770 h_S_ := by
  dsimp only [hostOps0_3]; after_results <;> rfl

theorem st0_4_v6 : (StableHlo.after (hostOps0_4 (F := Ideal)) W main_v6 : S512x512.Idx → EReal) = (W main_arg4 : S512x512.Idx → EReal) := by
  dsimp only [hostOps0_4]; after_results <;> rfl

theorem st0_4_c1 : (StableHlo.after (hostOps0_4 (F := Ideal)) W main_c_1 : S_.Idx → BitVec 32) = constantI S_ 32 0#32 := by
  dsimp only [hostOps0_4]; after_results <;> rfl

theorem st0_4_c2 : (StableHlo.after (hostOps0_4 (F := Ideal)) W main_c_2 : S_.Idx → BitVec 32) = constantI S_ 32 19999#32 := by
  dsimp only [hostOps0_4]; after_results <;> rfl

theorem st0_5_v7 : (StableHlo.after (hostOps0_5 (F := Ideal)) W main_v7 : S1024.Idx → BitVec 32)
    = minsi (broadcastInDim S1024 ![] bcast_S_S1024 (W main_c_2 : S_.Idx → BitVec 32))
        (maxsi (broadcastInDim S1024 ![] bcast_S_S1024 (W main_c_1 : S_.Idx → BitVec 32)) (W main_arg1 : S1024.Idx → BitVec 32)) := by
  dsimp only [hostOps0_5]; after_results <;> rfl

theorem st0_6_v8 : (StableHlo.after (hostOps0_6 (F := Ideal)) W main_v8 : S1024x1.Idx → BitVec 32)
    = shapeCast S1024x1 (W main_v7 : S1024.Idx → BitVec 32) shapeCasts_S1024_S1024x1 := by
  dsimp only [hostOps0_6]; after_results <;> rfl

theorem st1_cW : (StableHlo.after (hostOps1 (F := Ideal)) W main_c_3 : S_.Idx → BitVec 32) = constantI S_ 32 0#32 := by
  dsimp only [hostOps1]; after_results <;> rfl

theorem st1_1_padW : (StableHlo.after (hostOps1_1 (F := Ideal)) W main_v14 : S20480x128.Idx → EReal)
    = pad S20480x128 ![0, 0] ![480, 0] ![0, 0] (W main_arg5 : S20000x128.Idx → EReal) (sitofp .f32 (W main_c_3 : S_.Idx → BitVec 32) : FVec Ideal S_ .f32) pads_S20000x128_S20480x128_04800_000 h_S_ := by
  dsimp only [hostOps1_1]; after_results <;> rfl

theorem st1_2_rows : (StableHlo.after (hostOps1_2 (F := Ideal)) W main_v15 : S20480x128.Idx → EReal) = (W main_v14 : S20480x128.Idx → EReal) := by
  dsimp only [hostOps1_2]; after_results <;> rfl

theorem st1_2_cB : (StableHlo.after (hostOps1_2 (F := Ideal)) W main_c_4 : S_.Idx → BitVec 32) = constantI S_ 32 0#32 := by
  dsimp only [hostOps1_2]; after_results <;> rfl

theorem st1_3_bias : (StableHlo.after (hostOps1_3 (F := Ideal)) W main_v16 : S20480.Idx → EReal)
    = pad S20480 ![0] ![480] ![0] (W main_arg6 : S20000.Idx → EReal) (sitofp .f32 (W main_c_4 : S_.Idx → BitVec 32) : FVec Ideal S_ .f32) pads_S20000_S20480_04800 h_S_ := by
  dsimp only [hostOps1_3]; after_results <;> rfl

theorem st1_4_proj : (StableHlo.after (hostOps1_4 (F := Ideal)) W main_v17 : S512x128.Idx → EReal) = (W main_arg7 : S512x128.Idx → EReal) := by
  dsimp only [hostOps1_4]; after_results <;> rfl

theorem st1_4_sub : (StableHlo.after (hostOps1_4 (F := Ideal)) W main_v19 : S1024.Idx → BitVec 32)
    = subi (W main_arg1 : S1024.Idx → BitVec 32) (broadcastInDim S1024 ![] bcast_S_S1024 (constantI S_ 32 20000#32)) := by
  dsimp only [hostOps1_4]; after_results <;> rfl

theorem st1_4_c0 : (StableHlo.after (hostOps1_4 (F := Ideal)) W main_c_6 : S_.Idx → BitVec 32) = constantI S_ 32 0#32 := by
  dsimp only [hostOps1_4]; after_results <;> rfl

theorem st1_4_c1 : (StableHlo.after (hostOps1_4 (F := Ideal)) W main_c_7 : S_.Idx → BitVec 32) = constantI S_ 32 19999#32 := by
  dsimp only [hostOps1_4]; after_results <;> rfl

theorem st1_5_clip : (StableHlo.after (hostOps1_5 (F := Ideal)) W main_v20 : S1024.Idx → BitVec 32)
    = minsi (broadcastInDim S1024 ![] bcast_S_S1024 (W main_c_7 : S_.Idx → BitVec 32))
        (maxsi (broadcastInDim S1024 ![] bcast_S_S1024 (W main_c_6 : S_.Idx → BitVec 32)) (W main_v19 : S1024.Idx → BitVec 32)) := by
  dsimp only [hostOps1_5]; after_results <;> rfl

theorem st1_6_lab : (StableHlo.after (hostOps1_6 (F := Ideal)) W main_v21 : S1024x1.Idx → BitVec 32)
    = shapeCast S1024x1 (W main_v20 : S1024.Idx → BitVec 32) shapeCasts_S1024_S1024x1 := by
  dsimp only [hostOps1_6]; after_results <;> rfl

theorem st2_2_cW : (StableHlo.after (hostOps2_2 (F := Ideal)) W main_c_10 : S_.Idx → BitVec 32) = constantI S_ 32 0#32 := by
  dsimp only [hostOps2_2]; after_results <;> rfl

theorem st2_3_padW : (StableHlo.after (hostOps2_3 (F := Ideal)) W main_v34 : S160768x32.Idx → EReal)
    = pad S160768x32 ![0, 0] ![768, 0] ![0, 0] (W main_arg8 : S160000x32.Idx → EReal) (sitofp .f32 (W main_c_10 : S_.Idx → BitVec 32) : FVec Ideal S_ .f32) pads_S160000x32_S160768x32_07680_000 h_S_ := by
  dsimp only [hostOps2_3]; after_results <;> rfl

theorem st2_4_rows : (StableHlo.after (hostOps2_4 (F := Ideal)) W main_v35 : S160768x32.Idx → EReal) = (W main_v34 : S160768x32.Idx → EReal) := by
  dsimp only [hostOps2_4]; after_results <;> rfl

theorem st2_4_cB : (StableHlo.after (hostOps2_4 (F := Ideal)) W main_c_11 : S_.Idx → BitVec 32) = constantI S_ 32 0#32 := by
  dsimp only [hostOps2_4]; after_results <;> rfl

theorem st2_5_bias : (StableHlo.after (hostOps2_5 (F := Ideal)) W main_v36 : S160768.Idx → EReal)
    = pad S160768 ![0] ![768] ![0] (W main_arg9 : S160000.Idx → EReal) (sitofp .f32 (W main_c_11 : S_.Idx → BitVec 32) : FVec Ideal S_ .f32) pads_S160000_S160768_07680 h_S_ := by
  dsimp only [hostOps2_5]; after_results <;> rfl

theorem st2_6_proj : (StableHlo.after (hostOps2_6 (F := Ideal)) W main_v37 : S512x32.Idx → EReal) = (W main_arg10 : S512x32.Idx → EReal) := by
  dsimp only [hostOps2_6]; after_results <;> rfl

theorem st2_6_sub : (StableHlo.after (hostOps2_6 (F := Ideal)) W main_v39 : S1024.Idx → BitVec 32)
    = subi (W main_arg1 : S1024.Idx → BitVec 32) (broadcastInDim S1024 ![] bcast_S_S1024 (constantI S_ 32 40000#32)) := by
  dsimp only [hostOps2_6]; after_results <;> rfl

theorem st2_6_c0 : (StableHlo.after (hostOps2_6 (F := Ideal)) W main_c_13 : S_.Idx → BitVec 32) = constantI S_ 32 0#32 := by
  dsimp only [hostOps2_6]; after_results <;> rfl

theorem st2_6_c1 : (StableHlo.after (hostOps2_6 (F := Ideal)) W main_c_14 : S_.Idx → BitVec 32) = constantI S_ 32 159999#32 := by
  dsimp only [hostOps2_6]; after_results <;> rfl

theorem st2_7_clip : (StableHlo.after (hostOps2_7 (F := Ideal)) W main_v40 : S1024.Idx → BitVec 32)
    = minsi (broadcastInDim S1024 ![] bcast_S_S1024 (W main_c_14 : S_.Idx → BitVec 32))
        (maxsi (broadcastInDim S1024 ![] bcast_S_S1024 (W main_c_13 : S_.Idx → BitVec 32)) (W main_v39 : S1024.Idx → BitVec 32)) := by
  dsimp only [hostOps2_7]; after_results <;> rfl

theorem st2_8_lab : (StableHlo.after (hostOps2_8 (F := Ideal)) W main_v41 : S1024x1.Idx → BitVec 32)
    = shapeCast S1024x1 (W main_v40 : S1024.Idx → BitVec 32) shapeCasts_S1024_S1024x1 := by
  dsimp only [hostOps2_8]; after_results <;> rfl

theorem st3_2_cW : (StableHlo.after (hostOps3_2 (F := Ideal)) W main_c_17 : S_.Idx → BitVec 32) = constantI S_ 32 0#32 := by
  dsimp only [hostOps3_2]; after_results <;> rfl

theorem st3_3_padW : (StableHlo.after (hostOps3_3 (F := Ideal)) W main_v54 : S68608x8.Idx → EReal)
    = pad S68608x8 ![0, 0] ![873, 0] ![0, 0] (W main_arg11 : S67735x8.Idx → EReal) (sitofp .f32 (W main_c_17 : S_.Idx → BitVec 32) : FVec Ideal S_ .f32) pads_S67735x8_S68608x8_08730_000 h_S_ := by
  dsimp only [hostOps3_3]; after_results <;> rfl

theorem st3_4_rows : (StableHlo.after (hostOps3_4 (F := Ideal)) W main_v55 : S68608x8.Idx → EReal) = (W main_v54 : S68608x8.Idx → EReal) := by
  dsimp only [hostOps3_4]; after_results <;> rfl

theorem st3_4_cB : (StableHlo.after (hostOps3_4 (F := Ideal)) W main_c_18 : S_.Idx → BitVec 32) = constantI S_ 32 0#32 := by
  dsimp only [hostOps3_4]; after_results <;> rfl

theorem st3_5_bias : (StableHlo.after (hostOps3_5 (F := Ideal)) W main_v56 : S68608.Idx → EReal)
    = pad S68608 ![0] ![873] ![0] (W main_arg12 : S67735.Idx → EReal) (sitofp .f32 (W main_c_18 : S_.Idx → BitVec 32) : FVec Ideal S_ .f32) pads_S67735_S68608_08730 h_S_ := by
  dsimp only [hostOps3_5]; after_results <;> rfl

theorem st3_6_proj : (StableHlo.after (hostOps3_6 (F := Ideal)) W main_v57 : S512x8.Idx → EReal) = (W main_arg13 : S512x8.Idx → EReal) := by
  dsimp only [hostOps3_6]; after_results <;> rfl

theorem st3_6_sub : (StableHlo.after (hostOps3_6 (F := Ideal)) W main_v59 : S1024.Idx → BitVec 32)
    = subi (W main_arg1 : S1024.Idx → BitVec 32) (broadcastInDim S1024 ![] bcast_S_S1024 (constantI S_ 32 200000#32)) := by
  dsimp only [hostOps3_6]; after_results <;> rfl

theorem st3_6_c0 : (StableHlo.after (hostOps3_6 (F := Ideal)) W main_c_20 : S_.Idx → BitVec 32) = constantI S_ 32 0#32 := by
  dsimp only [hostOps3_6]; after_results <;> rfl

theorem st3_6_c1 : (StableHlo.after (hostOps3_6 (F := Ideal)) W main_c_21 : S_.Idx → BitVec 32) = constantI S_ 32 67734#32 := by
  dsimp only [hostOps3_6]; after_results <;> rfl

theorem st3_7_clip : (StableHlo.after (hostOps3_7 (F := Ideal)) W main_v60 : S1024.Idx → BitVec 32)
    = minsi (broadcastInDim S1024 ![] bcast_S_S1024 (W main_c_21 : S_.Idx → BitVec 32))
        (maxsi (broadcastInDim S1024 ![] bcast_S_S1024 (W main_c_20 : S_.Idx → BitVec 32)) (W main_v59 : S1024.Idx → BitVec 32)) := by
  dsimp only [hostOps3_7]; after_results <;> rfl

theorem st3_8_lab : (StableHlo.after (hostOps3_8 (F := Ideal)) W main_v61 : S1024x1.Idx → BitVec 32)
    = shapeCast S1024x1 (W main_v60 : S1024.Idx → BitVec 32) shapeCasts_S1024_S1024x1 := by
  dsimp only [hostOps3_8]; after_results <;> rfl

end Stretch

theorem hidden0_apply (c : Dev nD) (j : S1024x512.Idx) :
    (V7 m c main_v0 : S1024x512.Idx → EReal) j = (argsOf m c).hidden (j 0) (j 1) := by
  have e : (V7 m c main_v0 : S1024x512.Idx → EReal) = (V0 m c main_arg0 : S1024x512.Idx → EReal) :=
    ((V7_of m c main_v0 (by decide)).trans <| (V6_of m c main_v0 (by decide)).trans <| (V5_of m c main_v0 (by decide)).trans <| (V4_of m c main_v0 (by decide)).trans <| (V3_of m c main_v0 (by decide)).trans <| (V2_of m c main_v0 (by decide))).trans (st0_v0 (V0 m c))
  refine (congrFun e j).trans ?_
  exact congrArg (V0 m c main_arg0 : S1024x512.Idx → EReal) (eq_ix2 j)

theorem proj0_apply (c : Dev nD) (j : S512x512.Idx) :
    (V7 m c main_v6 : S512x512.Idx → EReal) j = (argsOf m c).proj0 (j 0) (j 1) := by
  have e : (V7 m c main_v6 : S512x512.Idx → EReal) = (V0 m c main_arg4 : S512x512.Idx → EReal) :=
    (((V7_of m c main_v6 (by decide)).trans <| (V6_of m c main_v6 (by decide))).trans (st0_4_v6 (V4 m c))).trans ((V4_of m c main_arg4 (by decide)).trans <| (V3_of m c main_arg4 (by decide)).trans <| (V2_of m c main_arg4 (by decide)).trans <| (V1_of m c main_arg4 (by decide)))
  refine (congrFun e j).trans ?_
  exact congrArg (V0 m c main_arg4 : S512x512.Idx → EReal) (eq_ix2 j)

theorem rows0_apply (c : Dev nD) (j : S20480x512.Idx) :
    (V7 m c main_v4 : S20480x512.Idx → EReal) j
      = if h : (j 0).val < 20003 then Cert.Spec.headW (argsOf m c).W0 (argsOf m c).cw ⟨(j 0).val, h⟩ (j 1) else 0 := by
  have e4 : (V7 m c main_v4 : S20480x512.Idx → EReal) = (V2 m c main_v3 : S20480x512.Idx → EReal) :=
    ((V7_of m c main_v4 (by decide)).trans <| (V6_of m c main_v4 (by decide)).trans <| (V5_of m c main_v4 (by decide)).trans <| (V4_of m c main_v4 (by decide))).trans (st0_2_v4 (V2 m c))
  have e3 : (V2 m c main_v3 : S20480x512.Idx → EReal)
      = pad S20480x512 ![0, 0] ![477, 0] ![0, 0] (V1 m c main_v1 : S20003x512.Idx → EReal)
          (sitofp .f32 (V1 m c main_c : S_.Idx → BitVec 32) : FVec Ideal S_ .f32) pads_S20003x512_S20480x512_04770_000 h_S_ :=
    st0_1_v3 (V1 m c)
  have ec : (V1 m c main_c : S_.Idx → BitVec 32) = constantI S_ 32 0#32 := st0_c (V0 m c)
  have e1 : (V1 m c main_v1 : S20003x512.Idx → EReal)
      = concatenate S20003x512 0 [⟨S20000x512, (V0 m c main_arg2 : S20000x512.Idx → EReal)⟩, ⟨S3x512, (V0 m c main_arg14 : S3x512.Idx → EReal)⟩] concatenates_S20000x512_S3x512_S20003x512_d0 :=
    st0_v1 (V0 m c)
  refine (congrFun (e4.trans e3) j).trans ?_
  refine (pad_rows_zero_apply _ _ ec _ _ j).trans ?_
  by_cases h : (j 0).val < 20003
  · rw [dif_pos h, dif_pos h, e1]
    exact headW_eq _ _ ⟨(j 0).val, h⟩ (j 1)
  · rw [dif_neg h, dif_neg h]

theorem bias0_apply (c : Dev nD) (j : S20480.Idx) :
    (V7 m c main_v5 : S20480.Idx → EReal) j
      = if h : (j 0).val < 20003 then Cert.Spec.headB (argsOf m c).b0 (argsOf m c).cb ⟨(j 0).val, h⟩ else 0 := by
  have e5 : (V7 m c main_v5 : S20480.Idx → EReal)
      = pad S20480 ![0] ![477] ![0] (V3 m c main_v2 : S20003.Idx → EReal)
          (sitofp .f32 (V3 m c main_c_0 : S_.Idx → BitVec 32) : FVec Ideal S_ .f32) pads_S20003_S20480_04770 h_S_ :=
    ((V7_of m c main_v5 (by decide)).trans <| (V6_of m c main_v5 (by decide)).trans <| (V5_of m c main_v5 (by decide))).trans (st0_3_v5 (V3 m c))
  have ec : (V3 m c main_c_0 : S_.Idx → BitVec 32) = constantI S_ 32 0#32 := st0_2_c0 (V2 m c)
  have e1 : (V3 m c main_v2 : S20003.Idx → EReal)
      = concatenate S20003 0 [⟨S20000, (V0 m c main_arg3 : S20000.Idx → EReal)⟩, ⟨S3, (V0 m c main_arg15 : S3.Idx → EReal)⟩] concatenates_S20000_S3_S20003_d0 :=
    ((V3_of m c main_v2 (by decide)).trans <| (V2_of m c main_v2 (by decide))).trans (st0_v2 (V0 m c))
  refine (congrFun e5 j).trans ?_
  refine (pad_end_zero_apply _ _ ec _ _ j).trans ?_
  by_cases h : (j 0).val < 20003
  · rw [dif_pos h, dif_pos h, e1]
    exact headB_eq _ _ ⟨(j 0).val, h⟩
  · rw [dif_neg h, dif_neg h]

theorem label0_apply (c : Dev nD) (j : S1024x1.Idx) :
    (V7 m c main_v8 : S1024x1.Idx → BitVec 32) j = clipWord 19999#32 ((argsOf m c).target (j 0)) := by
  have e8 : (V7 m c main_v8 : S1024x1.Idx → BitVec 32)
      = shapeCast S1024x1 (V6 m c main_v7 : S1024.Idx → BitVec 32) shapeCasts_S1024_S1024x1 := st0_6_v8 (V6 m c)
  have e7 : (V6 m c main_v7 : S1024.Idx → BitVec 32)
      = minsi (broadcastInDim S1024 ![] bcast_S_S1024 (V5 m c main_c_2 : S_.Idx → BitVec 32))
          (maxsi (broadcastInDim S1024 ![] bcast_S_S1024 (V5 m c main_c_1 : S_.Idx → BitVec 32)) (V5 m c main_arg1 : S1024.Idx → BitVec 32)) :=
    st0_5_v7 (V5 m c)
  have ec1 : (V5 m c main_c_1 : S_.Idx → BitVec 32) = constantI S_ 32 0#32 := st0_4_c1 (V4 m c)
  have ec2 : (V5 m c main_c_2 : S_.Idx → BitVec 32) = constantI S_ 32 19999#32 := st0_4_c2 (V4 m c)
  have ea : (V5 m c main_arg1 : S1024.Idx → BitVec 32) = (V0 m c main_arg1 : S1024.Idx → BitVec 32) :=
    (V5_of m c main_arg1 (by decide)).trans <| (V4_of m c main_arg1 (by decide)).trans <| (V3_of m c main_arg1 (by decide)).trans <| (V2_of m c main_arg1 (by decide)).trans <| (V1_of m c main_arg1 (by decide))
  refine (congrFun e8 j).trans ?_
  refine (shapeCast_a_a1_apply _ _ j).trans ?_
  rw [e7]
  refine (clip_apply _ _ _ 19999#32 ec1 ec2 _).trans ?_
  rw [ea]
  rfl

theorem label0_toInt (c : Dev nD) (j : S1024x1.Idx) :
    ((V7 m c main_v8 : S1024x1.Idx → BitVec 32) j).toInt
      = ((Cert.Spec.clipIdx 20000 (by omega) ((argsOf m c).target (j 0)).toInt).val : ℤ) := by
  rw [label0_apply]
  exact clipWord_toInt_clipIdx 20000 (by omega) (by omega) _

theorem hidden1_apply (c : Dev nD) (j : S1024x512.Idx) :
    (V15 m outs c main_v0 : S1024x512.Idx → EReal) j = (argsOf m c).hidden (j 0) (j 1) := by
  have e : (V15 m outs c main_v0 : S1024x512.Idx → EReal) = (V0 m c main_arg0 : S1024x512.Idx → EReal) :=
    ((V15_of m outs c main_v0 (by decide)).trans <| (V14_of m outs c main_v0 (by decide)).trans <| (V13_of m outs c main_v0 (by decide)).trans <| (V12_of m outs c main_v0 (by decide)).trans <| (V11_of m outs c main_v0 (by decide)).trans <| (V10_of m outs c main_v0 (by decide)).trans <| (V9_of m outs c main_v0 (by decide)).trans <| (V8_of m outs c main_v0 (by decide)).trans <| (V7_of m c main_v0 (by decide)).trans <| (V6_of m c main_v0 (by decide)).trans <| (V5_of m c main_v0 (by decide)).trans <| (V4_of m c main_v0 (by decide)).trans <| (V3_of m c main_v0 (by decide)).trans <| (V2_of m c main_v0 (by decide))).trans (st0_v0 (V0 m c))
  refine (congrFun e j).trans ?_
  exact congrArg (V0 m c main_arg0 : S1024x512.Idx → EReal) (eq_ix2 j)

theorem proj1_apply (c : Dev nD) (j : S512x128.Idx) :
    (V15 m outs c main_v17 : S512x128.Idx → EReal) j = (argsOf m c).proj1 (j 0) (j 1) := by
  have e : (V15 m outs c main_v17 : S512x128.Idx → EReal) = (V0 m c main_arg7 : S512x128.Idx → EReal) :=
    (((V15_of m outs c main_v17 (by decide)).trans <| (V14_of m outs c main_v17 (by decide))).trans (st1_4_proj (V12 m outs c))).trans ((V12_of m outs c main_arg7 (by decide)).trans <| (V11_of m outs c main_arg7 (by decide)).trans <| (V10_of m outs c main_arg7 (by decide)).trans <| (V9_of m outs c main_arg7 (by decide)).trans <| (V8_of m outs c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)))
  refine (congrFun e j).trans ?_
  exact congrArg (V0 m c main_arg7 : S512x128.Idx → EReal) (eq_ix2 j)

theorem rows1_apply (c : Dev nD) (j : S20480x128.Idx) :
    (V15 m outs c main_v15 : S20480x128.Idx → EReal) j
      = if h : (j 0).val < 20000 then (argsOf m c).W1 ⟨(j 0).val, h⟩ (j 1) else 0 := by
  have e4 : (V15 m outs c main_v15 : S20480x128.Idx → EReal) = (V10 m outs c main_v14 : S20480x128.Idx → EReal) :=
    ((V15_of m outs c main_v15 (by decide)).trans <| (V14_of m outs c main_v15 (by decide)).trans <| (V13_of m outs c main_v15 (by decide)).trans <| (V12_of m outs c main_v15 (by decide))).trans (st1_2_rows (V10 m outs c))
  have e3 : (V10 m outs c main_v14 : S20480x128.Idx → EReal)
      = pad S20480x128 ![0, 0] ![480, 0] ![0, 0] (V9 m outs c main_arg5 : S20000x128.Idx → EReal)
          (sitofp .f32 (V9 m outs c main_c_3 : S_.Idx → BitVec 32) : FVec Ideal S_ .f32) pads_S20000x128_S20480x128_04800_000 h_S_ :=
    st1_1_padW (V9 m outs c)
  have ec : (V9 m outs c main_c_3 : S_.Idx → BitVec 32) = constantI S_ 32 0#32 := st1_cW (V8 m outs c)
  have ea : (V9 m outs c main_arg5 : S20000x128.Idx → EReal) = (V0 m c main_arg5 : S20000x128.Idx → EReal) :=
    (V9_of m outs c main_arg5 (by decide)).trans <| (V8_of m outs c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide))
  refine (congrFun (e4.trans e3) j).trans ?_
  refine (pad_rows_zero_apply _ _ ec _ _ j).trans ?_
  rw [ea]
  rfl

theorem bias1_apply (c : Dev nD) (j : S20480.Idx) :
    (V15 m outs c main_v16 : S20480.Idx → EReal) j
      = if h : (j 0).val < 20000 then (argsOf m c).b1 ⟨(j 0).val, h⟩ else 0 := by
  have e5 : (V15 m outs c main_v16 : S20480.Idx → EReal)
      = pad S20480 ![0] ![480] ![0] (V11 m outs c main_arg6 : S20000.Idx → EReal)
          (sitofp .f32 (V11 m outs c main_c_4 : S_.Idx → BitVec 32) : FVec Ideal S_ .f32) pads_S20000_S20480_04800 h_S_ :=
    ((V15_of m outs c main_v16 (by decide)).trans <| (V14_of m outs c main_v16 (by decide)).trans <| (V13_of m outs c main_v16 (by decide))).trans (st1_3_bias (V11 m outs c))
  have ec : (V11 m outs c main_c_4 : S_.Idx → BitVec 32) = constantI S_ 32 0#32 := st1_2_cB (V10 m outs c)
  have ea : (V11 m outs c main_arg6 : S20000.Idx → EReal) = (V0 m c main_arg6 : S20000.Idx → EReal) :=
    (V11_of m outs c main_arg6 (by decide)).trans <| (V10_of m outs c main_arg6 (by decide)).trans <| (V9_of m outs c main_arg6 (by decide)).trans <| (V8_of m outs c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide))
  refine (congrFun e5 j).trans ?_
  refine (pad_end_zero_apply _ _ ec _ _ j).trans ?_
  rw [ea]
  rfl

theorem label1_apply (c : Dev nD) (j : S1024x1.Idx) :
    (V15 m outs c main_v21 : S1024x1.Idx → BitVec 32) j = clipWord 19999#32 (IntOp.subi ((argsOf m c).target (j 0)) 20000#32) := by
  have e8 : (V15 m outs c main_v21 : S1024x1.Idx → BitVec 32)
      = shapeCast S1024x1 (V14 m outs c main_v20 : S1024.Idx → BitVec 32) shapeCasts_S1024_S1024x1 := st1_6_lab (V14 m outs c)
  have e7 : (V14 m outs c main_v20 : S1024.Idx → BitVec 32)
      = minsi (broadcastInDim S1024 ![] bcast_S_S1024 (V13 m outs c main_c_7 : S_.Idx → BitVec 32))
          (maxsi (broadcastInDim S1024 ![] bcast_S_S1024 (V13 m outs c main_c_6 : S_.Idx → BitVec 32)) (V13 m outs c main_v19 : S1024.Idx → BitVec 32)) :=
    st1_5_clip (V13 m outs c)
  have ec0 : (V13 m outs c main_c_6 : S_.Idx → BitVec 32) = constantI S_ 32 0#32 := st1_4_c0 (V12 m outs c)
  have ec1 : (V13 m outs c main_c_7 : S_.Idx → BitVec 32) = constantI S_ 32 19999#32 := st1_4_c1 (V12 m outs c)
  have es : (V13 m outs c main_v19 : S1024.Idx → BitVec 32)
      = subi (V12 m outs c main_arg1 : S1024.Idx → BitVec 32) (broadcastInDim S1024 ![] bcast_S_S1024 (constantI S_ 32 20000#32)) :=
    st1_4_sub (V12 m outs c)
  have ea : (V12 m outs c main_arg1 : S1024.Idx → BitVec 32) = (V0 m c main_arg1 : S1024.Idx → BitVec 32) :=
    (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide))
  refine (congrFun e8 j).trans ?_
  refine (shapeCast_a_a1_apply _ _ j).trans ?_
  rw [e7]
  refine (clip_apply _ _ _ 19999#32 ec0 ec1 _).trans ?_
  rw [es, sub_apply, ea]
  rfl

theorem label1_toInt (c : Dev nD) (j : S1024x1.Idx) (hw : (20000 : ℤ) - 2 ^ 31 ≤ ((argsOf m c).target (j 0)).toInt) :
    ((V15 m outs c main_v21 : S1024x1.Idx → BitVec 32) j).toInt
      = ((Cert.Spec.clipIdx 20000 (by omega) (((argsOf m c).target (j 0)).toInt - 20000)).val : ℤ) := by
  rw [label1_apply]
  have h := clipWord_sub_toInt 20000 (by omega) (by omega) 20000 (by omega) ((argsOf m c).target (j 0)) (by exact_mod_cast hw)
  exact_mod_cast h

theorem hidden2_apply (c : Dev nD) (j : S1024x512.Idx) :
    (V25 m outs c main_v0 : S1024x512.Idx → EReal) j = (argsOf m c).hidden (j 0) (j 1) := by
  have e : (V25 m outs c main_v0 : S1024x512.Idx → EReal) = (V0 m c main_arg0 : S1024x512.Idx → EReal) :=
    ((V25_of m outs c main_v0 (by decide)).trans <| (V24_of m outs c main_v0 (by decide)).trans <| (V23_of m outs c main_v0 (by decide)).trans <| (V22_of m outs c main_v0 (by decide)).trans <| (V21_of m outs c main_v0 (by decide)).trans <| (V20_of m outs c main_v0 (by decide)).trans <| (V19_of m outs c main_v0 (by decide)).trans <| (V18_of m outs c main_v0 (by decide)).trans <| (V17_of m outs c main_v0 (by decide)).trans <| (V16_of m outs c main_v0 (by decide)).trans <| (V15_of m outs c main_v0 (by decide)).trans <| (V14_of m outs c main_v0 (by decide)).trans <| (V13_of m outs c main_v0 (by decide)).trans <| (V12_of m outs c main_v0 (by decide)).trans <| (V11_of m outs c main_v0 (by decide)).trans <| (V10_of m outs c main_v0 (by decide)).trans <| (V9_of m outs c main_v0 (by decide)).trans <| (V8_of m outs c main_v0 (by decide)).trans <| (V7_of m c main_v0 (by decide)).trans <| (V6_of m c main_v0 (by decide)).trans <| (V5_of m c main_v0 (by decide)).trans <| (V4_of m c main_v0 (by decide)).trans <| (V3_of m c main_v0 (by decide)).trans <| (V2_of m c main_v0 (by decide))).trans (st0_v0 (V0 m c))
  refine (congrFun e j).trans ?_
  exact congrArg (V0 m c main_arg0 : S1024x512.Idx → EReal) (eq_ix2 j)

theorem proj2_apply (c : Dev nD) (j : S512x32.Idx) :
    (V25 m outs c main_v37 : S512x32.Idx → EReal) j = (argsOf m c).proj2 (j 0) (j 1) := by
  have e : (V25 m outs c main_v37 : S512x32.Idx → EReal) = (V0 m c main_arg10 : S512x32.Idx → EReal) :=
    (((V25_of m outs c main_v37 (by decide)).trans <| (V24_of m outs c main_v37 (by decide))).trans (st2_6_proj (V22 m outs c))).trans ((V22_of m outs c main_arg10 (by decide)).trans <| (V21_of m outs c main_arg10 (by decide)).trans <| (V20_of m outs c main_arg10 (by decide)).trans <| (V19_of m outs c main_arg10 (by decide)).trans <| (V18_of m outs c main_arg10 (by decide)).trans <| (V17_of m outs c main_arg10 (by decide)).trans <| (V16_of m outs c main_arg10 (by decide)).trans <| (V15_of m outs c main_arg10 (by decide)).trans <| (V14_of m outs c main_arg10 (by decide)).trans <| (V13_of m outs c main_arg10 (by decide)).trans <| (V12_of m outs c main_arg10 (by decide)).trans <| (V11_of m outs c main_arg10 (by decide)).trans <| (V10_of m outs c main_arg10 (by decide)).trans <| (V9_of m outs c main_arg10 (by decide)).trans <| (V8_of m outs c main_arg10 (by decide)).trans <| (V7_of m c main_arg10 (by decide)).trans <| (V6_of m c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide)))
  refine (congrFun e j).trans ?_
  exact congrArg (V0 m c main_arg10 : S512x32.Idx → EReal) (eq_ix2 j)

theorem rows2_apply (c : Dev nD) (j : S160768x32.Idx) :
    (V25 m outs c main_v35 : S160768x32.Idx → EReal) j
      = if h : (j 0).val < 160000 then (argsOf m c).W2 ⟨(j 0).val, h⟩ (j 1) else 0 := by
  have e4 : (V25 m outs c main_v35 : S160768x32.Idx → EReal) = (V20 m outs c main_v34 : S160768x32.Idx → EReal) :=
    ((V25_of m outs c main_v35 (by decide)).trans <| (V24_of m outs c main_v35 (by decide)).trans <| (V23_of m outs c main_v35 (by decide)).trans <| (V22_of m outs c main_v35 (by decide))).trans (st2_4_rows (V20 m outs c))
  have e3 : (V20 m outs c main_v34 : S160768x32.Idx → EReal)
      = pad S160768x32 ![0, 0] ![768, 0] ![0, 0] (V19 m outs c main_arg8 : S160000x32.Idx → EReal)
          (sitofp .f32 (V19 m outs c main_c_10 : S_.Idx → BitVec 32) : FVec Ideal S_ .f32) pads_S160000x32_S160768x32_07680_000 h_S_ :=
    st2_3_padW (V19 m outs c)
  have ec : (V19 m outs c main_c_10 : S_.Idx → BitVec 32) = constantI S_ 32 0#32 := st2_2_cW (V18 m outs c)
  have ea : (V19 m outs c main_arg8 : S160000x32.Idx → EReal) = (V0 m c main_arg8 : S160000x32.Idx → EReal) :=
    (V19_of m outs c main_arg8 (by decide)).trans <| (V18_of m outs c main_arg8 (by decide)).trans <| (V17_of m outs c main_arg8 (by decide)).trans <| (V16_of m outs c main_arg8 (by decide)).trans <| (V15_of m outs c main_arg8 (by decide)).trans <| (V14_of m outs c main_arg8 (by decide)).trans <| (V13_of m outs c main_arg8 (by decide)).trans <| (V12_of m outs c main_arg8 (by decide)).trans <| (V11_of m outs c main_arg8 (by decide)).trans <| (V10_of m outs c main_arg8 (by decide)).trans <| (V9_of m outs c main_arg8 (by decide)).trans <| (V8_of m outs c main_arg8 (by decide)).trans <| (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide))
  refine (congrFun (e4.trans e3) j).trans ?_
  refine (pad_rows_zero_apply _ _ ec _ _ j).trans ?_
  rw [ea]
  rfl

theorem bias2_apply (c : Dev nD) (j : S160768.Idx) :
    (V25 m outs c main_v36 : S160768.Idx → EReal) j
      = if h : (j 0).val < 160000 then (argsOf m c).b2 ⟨(j 0).val, h⟩ else 0 := by
  have e5 : (V25 m outs c main_v36 : S160768.Idx → EReal)
      = pad S160768 ![0] ![768] ![0] (V21 m outs c main_arg9 : S160000.Idx → EReal)
          (sitofp .f32 (V21 m outs c main_c_11 : S_.Idx → BitVec 32) : FVec Ideal S_ .f32) pads_S160000_S160768_07680 h_S_ :=
    ((V25_of m outs c main_v36 (by decide)).trans <| (V24_of m outs c main_v36 (by decide)).trans <| (V23_of m outs c main_v36 (by decide))).trans (st2_5_bias (V21 m outs c))
  have ec : (V21 m outs c main_c_11 : S_.Idx → BitVec 32) = constantI S_ 32 0#32 := st2_4_cB (V20 m outs c)
  have ea : (V21 m outs c main_arg9 : S160000.Idx → EReal) = (V0 m c main_arg9 : S160000.Idx → EReal) :=
    (V21_of m outs c main_arg9 (by decide)).trans <| (V20_of m outs c main_arg9 (by decide)).trans <| (V19_of m outs c main_arg9 (by decide)).trans <| (V18_of m outs c main_arg9 (by decide)).trans <| (V17_of m outs c main_arg9 (by decide)).trans <| (V16_of m outs c main_arg9 (by decide)).trans <| (V15_of m outs c main_arg9 (by decide)).trans <| (V14_of m outs c main_arg9 (by decide)).trans <| (V13_of m outs c main_arg9 (by decide)).trans <| (V12_of m outs c main_arg9 (by decide)).trans <| (V11_of m outs c main_arg9 (by decide)).trans <| (V10_of m outs c main_arg9 (by decide)).trans <| (V9_of m outs c main_arg9 (by decide)).trans <| (V8_of m outs c main_arg9 (by decide)).trans <| (V7_of m c main_arg9 (by decide)).trans <| (V6_of m c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide))
  refine (congrFun e5 j).trans ?_
  refine (pad_end_zero_apply _ _ ec _ _ j).trans ?_
  rw [ea]
  rfl

theorem label2_apply (c : Dev nD) (j : S1024x1.Idx) :
    (V25 m outs c main_v41 : S1024x1.Idx → BitVec 32) j = clipWord 159999#32 (IntOp.subi ((argsOf m c).target (j 0)) 40000#32) := by
  have e8 : (V25 m outs c main_v41 : S1024x1.Idx → BitVec 32)
      = shapeCast S1024x1 (V24 m outs c main_v40 : S1024.Idx → BitVec 32) shapeCasts_S1024_S1024x1 := st2_8_lab (V24 m outs c)
  have e7 : (V24 m outs c main_v40 : S1024.Idx → BitVec 32)
      = minsi (broadcastInDim S1024 ![] bcast_S_S1024 (V23 m outs c main_c_14 : S_.Idx → BitVec 32))
          (maxsi (broadcastInDim S1024 ![] bcast_S_S1024 (V23 m outs c main_c_13 : S_.Idx → BitVec 32)) (V23 m outs c main_v39 : S1024.Idx → BitVec 32)) :=
    st2_7_clip (V23 m outs c)
  have ec0 : (V23 m outs c main_c_13 : S_.Idx → BitVec 32) = constantI S_ 32 0#32 := st2_6_c0 (V22 m outs c)
  have ec1 : (V23 m outs c main_c_14 : S_.Idx → BitVec 32) = constantI S_ 32 159999#32 := st2_6_c1 (V22 m outs c)
  have es : (V23 m outs c main_v39 : S1024.Idx → BitVec 32)
      = subi (V22 m outs c main_arg1 : S1024.Idx → BitVec 32) (broadcastInDim S1024 ![] bcast_S_S1024 (constantI S_ 32 40000#32)) :=
    st2_6_sub (V22 m outs c)
  have ea : (V22 m outs c main_arg1 : S1024.Idx → BitVec 32) = (V0 m c main_arg1 : S1024.Idx → BitVec 32) :=
    (V22_of m outs c main_arg1 (by decide)).trans <| (V21_of m outs c main_arg1 (by decide)).trans <| (V20_of m outs c main_arg1 (by decide)).trans <| (V19_of m outs c main_arg1 (by decide)).trans <| (V18_of m outs c main_arg1 (by decide)).trans <| (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide))
  refine (congrFun e8 j).trans ?_
  refine (shapeCast_a_a1_apply _ _ j).trans ?_
  rw [e7]
  refine (clip_apply _ _ _ 159999#32 ec0 ec1 _).trans ?_
  rw [es, sub_apply, ea]
  rfl

theorem label2_toInt (c : Dev nD) (j : S1024x1.Idx) (hw : (40000 : ℤ) - 2 ^ 31 ≤ ((argsOf m c).target (j 0)).toInt) :
    ((V25 m outs c main_v41 : S1024x1.Idx → BitVec 32) j).toInt
      = ((Cert.Spec.clipIdx 160000 (by omega) (((argsOf m c).target (j 0)).toInt - 40000)).val : ℤ) := by
  rw [label2_apply]
  have h := clipWord_sub_toInt 160000 (by omega) (by omega) 40000 (by omega) ((argsOf m c).target (j 0)) (by exact_mod_cast hw)
  exact_mod_cast h

theorem hidden3_apply (c : Dev nD) (j : S1024x512.Idx) :
    (V35 m outs c main_v0 : S1024x512.Idx → EReal) j = (argsOf m c).hidden (j 0) (j 1) := by
  have e : (V35 m outs c main_v0 : S1024x512.Idx → EReal) = (V0 m c main_arg0 : S1024x512.Idx → EReal) :=
    ((V35_of m outs c main_v0 (by decide)).trans <| (V34_of m outs c main_v0 (by decide)).trans <| (V33_of m outs c main_v0 (by decide)).trans <| (V32_of m outs c main_v0 (by decide)).trans <| (V31_of m outs c main_v0 (by decide)).trans <| (V30_of m outs c main_v0 (by decide)).trans <| (V29_of m outs c main_v0 (by decide)).trans <| (V28_of m outs c main_v0 (by decide)).trans <| (V27_of m outs c main_v0 (by decide)).trans <| (V26_of m outs c main_v0 (by decide)).trans <| (V25_of m outs c main_v0 (by decide)).trans <| (V24_of m outs c main_v0 (by decide)).trans <| (V23_of m outs c main_v0 (by decide)).trans <| (V22_of m outs c main_v0 (by decide)).trans <| (V21_of m outs c main_v0 (by decide)).trans <| (V20_of m outs c main_v0 (by decide)).trans <| (V19_of m outs c main_v0 (by decide)).trans <| (V18_of m outs c main_v0 (by decide)).trans <| (V17_of m outs c main_v0 (by decide)).trans <| (V16_of m outs c main_v0 (by decide)).trans <| (V15_of m outs c main_v0 (by decide)).trans <| (V14_of m outs c main_v0 (by decide)).trans <| (V13_of m outs c main_v0 (by decide)).trans <| (V12_of m outs c main_v0 (by decide)).trans <| (V11_of m outs c main_v0 (by decide)).trans <| (V10_of m outs c main_v0 (by decide)).trans <| (V9_of m outs c main_v0 (by decide)).trans <| (V8_of m outs c main_v0 (by decide)).trans <| (V7_of m c main_v0 (by decide)).trans <| (V6_of m c main_v0 (by decide)).trans <| (V5_of m c main_v0 (by decide)).trans <| (V4_of m c main_v0 (by decide)).trans <| (V3_of m c main_v0 (by decide)).trans <| (V2_of m c main_v0 (by decide))).trans (st0_v0 (V0 m c))
  refine (congrFun e j).trans ?_
  exact congrArg (V0 m c main_arg0 : S1024x512.Idx → EReal) (eq_ix2 j)

theorem proj3_apply (c : Dev nD) (j : S512x8.Idx) :
    (V35 m outs c main_v57 : S512x8.Idx → EReal) j = (argsOf m c).proj3 (j 0) (j 1) := by
  have e : (V35 m outs c main_v57 : S512x8.Idx → EReal) = (V0 m c main_arg13 : S512x8.Idx → EReal) :=
    (((V35_of m outs c main_v57 (by decide)).trans <| (V34_of m outs c main_v57 (by decide))).trans (st3_6_proj (V32 m outs c))).trans ((V32_of m outs c main_arg13 (by decide)).trans <| (V31_of m outs c main_arg13 (by decide)).trans <| (V30_of m outs c main_arg13 (by decide)).trans <| (V29_of m outs c main_arg13 (by decide)).trans <| (V28_of m outs c main_arg13 (by decide)).trans <| (V27_of m outs c main_arg13 (by decide)).trans <| (V26_of m outs c main_arg13 (by decide)).trans <| (V25_of m outs c main_arg13 (by decide)).trans <| (V24_of m outs c main_arg13 (by decide)).trans <| (V23_of m outs c main_arg13 (by decide)).trans <| (V22_of m outs c main_arg13 (by decide)).trans <| (V21_of m outs c main_arg13 (by decide)).trans <| (V20_of m outs c main_arg13 (by decide)).trans <| (V19_of m outs c main_arg13 (by decide)).trans <| (V18_of m outs c main_arg13 (by decide)).trans <| (V17_of m outs c main_arg13 (by decide)).trans <| (V16_of m outs c main_arg13 (by decide)).trans <| (V15_of m outs c main_arg13 (by decide)).trans <| (V14_of m outs c main_arg13 (by decide)).trans <| (V13_of m outs c main_arg13 (by decide)).trans <| (V12_of m outs c main_arg13 (by decide)).trans <| (V11_of m outs c main_arg13 (by decide)).trans <| (V10_of m outs c main_arg13 (by decide)).trans <| (V9_of m outs c main_arg13 (by decide)).trans <| (V8_of m outs c main_arg13 (by decide)).trans <| (V7_of m c main_arg13 (by decide)).trans <| (V6_of m c main_arg13 (by decide)).trans <| (V5_of m c main_arg13 (by decide)).trans <| (V4_of m c main_arg13 (by decide)).trans <| (V3_of m c main_arg13 (by decide)).trans <| (V2_of m c main_arg13 (by decide)).trans <| (V1_of m c main_arg13 (by decide)))
  refine (congrFun e j).trans ?_
  exact congrArg (V0 m c main_arg13 : S512x8.Idx → EReal) (eq_ix2 j)

theorem rows3_apply (c : Dev nD) (j : S68608x8.Idx) :
    (V35 m outs c main_v55 : S68608x8.Idx → EReal) j
      = if h : (j 0).val < 67735 then (argsOf m c).W3 ⟨(j 0).val, h⟩ (j 1) else 0 := by
  have e4 : (V35 m outs c main_v55 : S68608x8.Idx → EReal) = (V30 m outs c main_v54 : S68608x8.Idx → EReal) :=
    ((V35_of m outs c main_v55 (by decide)).trans <| (V34_of m outs c main_v55 (by decide)).trans <| (V33_of m outs c main_v55 (by decide)).trans <| (V32_of m outs c main_v55 (by decide))).trans (st3_4_rows (V30 m outs c))
  have e3 : (V30 m outs c main_v54 : S68608x8.Idx → EReal)
      = pad S68608x8 ![0, 0] ![873, 0] ![0, 0] (V29 m outs c main_arg11 : S67735x8.Idx → EReal)
          (sitofp .f32 (V29 m outs c main_c_17 : S_.Idx → BitVec 32) : FVec Ideal S_ .f32) pads_S67735x8_S68608x8_08730_000 h_S_ :=
    st3_3_padW (V29 m outs c)
  have ec : (V29 m outs c main_c_17 : S_.Idx → BitVec 32) = constantI S_ 32 0#32 := st3_2_cW (V28 m outs c)
  have ea : (V29 m outs c main_arg11 : S67735x8.Idx → EReal) = (V0 m c main_arg11 : S67735x8.Idx → EReal) :=
    (V29_of m outs c main_arg11 (by decide)).trans <| (V28_of m outs c main_arg11 (by decide)).trans <| (V27_of m outs c main_arg11 (by decide)).trans <| (V26_of m outs c main_arg11 (by decide)).trans <| (V25_of m outs c main_arg11 (by decide)).trans <| (V24_of m outs c main_arg11 (by decide)).trans <| (V23_of m outs c main_arg11 (by decide)).trans <| (V22_of m outs c main_arg11 (by decide)).trans <| (V21_of m outs c main_arg11 (by decide)).trans <| (V20_of m outs c main_arg11 (by decide)).trans <| (V19_of m outs c main_arg11 (by decide)).trans <| (V18_of m outs c main_arg11 (by decide)).trans <| (V17_of m outs c main_arg11 (by decide)).trans <| (V16_of m outs c main_arg11 (by decide)).trans <| (V15_of m outs c main_arg11 (by decide)).trans <| (V14_of m outs c main_arg11 (by decide)).trans <| (V13_of m outs c main_arg11 (by decide)).trans <| (V12_of m outs c main_arg11 (by decide)).trans <| (V11_of m outs c main_arg11 (by decide)).trans <| (V10_of m outs c main_arg11 (by decide)).trans <| (V9_of m outs c main_arg11 (by decide)).trans <| (V8_of m outs c main_arg11 (by decide)).trans <| (V7_of m c main_arg11 (by decide)).trans <| (V6_of m c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide))
  refine (congrFun (e4.trans e3) j).trans ?_
  refine (pad_rows_zero_apply _ _ ec _ _ j).trans ?_
  rw [ea]
  rfl

theorem bias3_apply (c : Dev nD) (j : S68608.Idx) :
    (V35 m outs c main_v56 : S68608.Idx → EReal) j
      = if h : (j 0).val < 67735 then (argsOf m c).b3 ⟨(j 0).val, h⟩ else 0 := by
  have e5 : (V35 m outs c main_v56 : S68608.Idx → EReal)
      = pad S68608 ![0] ![873] ![0] (V31 m outs c main_arg12 : S67735.Idx → EReal)
          (sitofp .f32 (V31 m outs c main_c_18 : S_.Idx → BitVec 32) : FVec Ideal S_ .f32) pads_S67735_S68608_08730 h_S_ :=
    ((V35_of m outs c main_v56 (by decide)).trans <| (V34_of m outs c main_v56 (by decide)).trans <| (V33_of m outs c main_v56 (by decide))).trans (st3_5_bias (V31 m outs c))
  have ec : (V31 m outs c main_c_18 : S_.Idx → BitVec 32) = constantI S_ 32 0#32 := st3_4_cB (V30 m outs c)
  have ea : (V31 m outs c main_arg12 : S67735.Idx → EReal) = (V0 m c main_arg12 : S67735.Idx → EReal) :=
    (V31_of m outs c main_arg12 (by decide)).trans <| (V30_of m outs c main_arg12 (by decide)).trans <| (V29_of m outs c main_arg12 (by decide)).trans <| (V28_of m outs c main_arg12 (by decide)).trans <| (V27_of m outs c main_arg12 (by decide)).trans <| (V26_of m outs c main_arg12 (by decide)).trans <| (V25_of m outs c main_arg12 (by decide)).trans <| (V24_of m outs c main_arg12 (by decide)).trans <| (V23_of m outs c main_arg12 (by decide)).trans <| (V22_of m outs c main_arg12 (by decide)).trans <| (V21_of m outs c main_arg12 (by decide)).trans <| (V20_of m outs c main_arg12 (by decide)).trans <| (V19_of m outs c main_arg12 (by decide)).trans <| (V18_of m outs c main_arg12 (by decide)).trans <| (V17_of m outs c main_arg12 (by decide)).trans <| (V16_of m outs c main_arg12 (by decide)).trans <| (V15_of m outs c main_arg12 (by decide)).trans <| (V14_of m outs c main_arg12 (by decide)).trans <| (V13_of m outs c main_arg12 (by decide)).trans <| (V12_of m outs c main_arg12 (by decide)).trans <| (V11_of m outs c main_arg12 (by decide)).trans <| (V10_of m outs c main_arg12 (by decide)).trans <| (V9_of m outs c main_arg12 (by decide)).trans <| (V8_of m outs c main_arg12 (by decide)).trans <| (V7_of m c main_arg12 (by decide)).trans <| (V6_of m c main_arg12 (by decide)).trans <| (V5_of m c main_arg12 (by decide)).trans <| (V4_of m c main_arg12 (by decide)).trans <| (V3_of m c main_arg12 (by decide)).trans <| (V2_of m c main_arg12 (by decide)).trans <| (V1_of m c main_arg12 (by decide))
  refine (congrFun e5 j).trans ?_
  refine (pad_end_zero_apply _ _ ec _ _ j).trans ?_
  rw [ea]
  rfl

theorem label3_apply (c : Dev nD) (j : S1024x1.Idx) :
    (V35 m outs c main_v61 : S1024x1.Idx → BitVec 32) j = clipWord 67734#32 (IntOp.subi ((argsOf m c).target (j 0)) 200000#32) := by
  have e8 : (V35 m outs c main_v61 : S1024x1.Idx → BitVec 32)
      = shapeCast S1024x1 (V34 m outs c main_v60 : S1024.Idx → BitVec 32) shapeCasts_S1024_S1024x1 := st3_8_lab (V34 m outs c)
  have e7 : (V34 m outs c main_v60 : S1024.Idx → BitVec 32)
      = minsi (broadcastInDim S1024 ![] bcast_S_S1024 (V33 m outs c main_c_21 : S_.Idx → BitVec 32))
          (maxsi (broadcastInDim S1024 ![] bcast_S_S1024 (V33 m outs c main_c_20 : S_.Idx → BitVec 32)) (V33 m outs c main_v59 : S1024.Idx → BitVec 32)) :=
    st3_7_clip (V33 m outs c)
  have ec0 : (V33 m outs c main_c_20 : S_.Idx → BitVec 32) = constantI S_ 32 0#32 := st3_6_c0 (V32 m outs c)
  have ec1 : (V33 m outs c main_c_21 : S_.Idx → BitVec 32) = constantI S_ 32 67734#32 := st3_6_c1 (V32 m outs c)
  have es : (V33 m outs c main_v59 : S1024.Idx → BitVec 32)
      = subi (V32 m outs c main_arg1 : S1024.Idx → BitVec 32) (broadcastInDim S1024 ![] bcast_S_S1024 (constantI S_ 32 200000#32)) :=
    st3_6_sub (V32 m outs c)
  have ea : (V32 m outs c main_arg1 : S1024.Idx → BitVec 32) = (V0 m c main_arg1 : S1024.Idx → BitVec 32) :=
    (V32_of m outs c main_arg1 (by decide)).trans <| (V31_of m outs c main_arg1 (by decide)).trans <| (V30_of m outs c main_arg1 (by decide)).trans <| (V29_of m outs c main_arg1 (by decide)).trans <| (V28_of m outs c main_arg1 (by decide)).trans <| (V27_of m outs c main_arg1 (by decide)).trans <| (V26_of m outs c main_arg1 (by decide)).trans <| (V25_of m outs c main_arg1 (by decide)).trans <| (V24_of m outs c main_arg1 (by decide)).trans <| (V23_of m outs c main_arg1 (by decide)).trans <| (V22_of m outs c main_arg1 (by decide)).trans <| (V21_of m outs c main_arg1 (by decide)).trans <| (V20_of m outs c main_arg1 (by decide)).trans <| (V19_of m outs c main_arg1 (by decide)).trans <| (V18_of m outs c main_arg1 (by decide)).trans <| (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide))
  refine (congrFun e8 j).trans ?_
  refine (shapeCast_a_a1_apply _ _ j).trans ?_
  rw [e7]
  refine (clip_apply _ _ _ 67734#32 ec0 ec1 _).trans ?_
  rw [es, sub_apply, ea]
  rfl

theorem label3_toInt (c : Dev nD) (j : S1024x1.Idx) (hw : (200000 : ℤ) - 2 ^ 31 ≤ ((argsOf m c).target (j 0)).toInt) :
    ((V35 m outs c main_v61 : S1024x1.Idx → BitVec 32) j).toInt
      = ((Cert.Spec.clipIdx 67735 (by omega) (((argsOf m c).target (j 0)).toInt - 200000)).val : ℤ) := by
  rw [label3_apply]
  have h := clipWord_sub_toInt 67735 (by omega) (by omega) 200000 (by omega) ((argsOf m c).target (j 0)) (by exact_mod_cast hw)
  exact_mod_cast h

end Cert.KernelIdeal.H.Head

end
-- ==== Proof.KI.HostTail.lean ====
import proofs.«416365_j66236985639681_1_alg».proof.Proof.KernelIdealRegions
import Idealize.ShloMosaic.Lib.ValueIdx
import Idealize.ShloMosaic.Lib.ValueLayout
import Idealize.ShloMosaic.Lib.Pipeline.Value
import Idealize.ShloMosaic.Lib.StableHlo.Predicate

set_option maxRecDepth 1276

noncomputable section

namespace Cert.KernelIdeal.H.Tail

open Cert.KernelIdeal Cert.KernelIdeal.Gen
open Idealize.ShloMosaic Idealize.ShloMosaic.TcCoe Idealize.ShloMosaic.ValueIdx

theorem flat_at {α : Type} (x : S1024x1.Idx → α) (n : Fin 1024) :
    shapeCast S1024 x Facts₀.shapeCasts_S1024x1_S1024 (ix1 n) = x (ix2 n 0) := by
  refine shapeCast_apply x _ (ix1 n) (ix2 n 0) ?_
  rw [Shape.rowMajor_val_two, Shape.rowMajor_val_one]
  show n.val * 1 + 0 = n.val
  omega

theorem col3_at {α : Type} (x : S1024x3.Idx → α) (o : ℕ) (ho : o < 3) (h : S1024x3.Slices ![0, o] S1024x1) (n : Fin 1024) :
    shapeCast S1024 (extractStridedSlice S1024x1 ![0, o] x h) Facts₀.shapeCasts_S1024x1_S1024 (ix1 n) = x (ix2 n ⟨o, ho⟩) := by
  refine (flat_at _ n).trans (slice2_axis1_apply o x h n 0 ⟨o, ho⟩ ?_)
  show o = o + 0
  omega

theorem col0_at {α : Type} (x : S1024x4.Idx → α) (n : Fin 1024) :
    shapeCast S1024 (extractStridedSlice S1024x1 ![0, 0] x Facts₀.slices_S1024x4_S1024x1_0_0) Facts₀.shapeCasts_S1024x1_S1024 (ix1 n)
      = x (ix2 n 0) := by
  refine (flat_at _ n).trans (slice2_axis1_apply 0 x _ n 0 0 ?_)
  show 0 = 0 + 0
  omega

theorem cols123_at {α : Type} (x : S1024x4.Idx → α) (n : Fin 1024) (k : Fin 3) :
    extractStridedSlice S1024x3 ![0, 1] x Facts₀.slices_S1024x4_S1024x3_0_1 (ix2 n k) = x (ix2 n k.succ) := by
  refine slice2_axis1_apply 1 x _ n k k.succ ?_
  show k.val + 1 = 1 + k.val
  omega

theorem inRange_bit (tv : IVec S1024 32) (lo hi : BitVec 32) (L H : ℤ) (hL : lo.toInt = L) (hH : hi.toInt = H) (n : Fin 1024) :
    andi (cmpi .sge tv (broadcastInDim S1024 ![] Facts₀.bcast_S_S1024 (constantI S_ 32 lo)))
         (cmpi .slt tv (broadcastInDim S1024 ![] Facts₀.bcast_S_S1024 (constantI S_ 32 hi))) (ix1 n) = 1#1
      ↔ L ≤ (tv (ix1 n)).toInt ∧ (tv (ix1 n)).toInt < H := by
  show IntOp.andi (IntOp.cmpi .sge (tv (ix1 n)) lo) (IntOp.cmpi .slt (tv (ix1 n)) hi) = 1#1 ↔ _
  generalize tv (ix1 n) = t
  subst hL hH
  unfold IntOp.andi IntOp.cmpi
  show BitVec.ofBool (lo.sle t) &&& BitVec.ofBool (t.slt hi) = 1#1 ↔ _
  rw [← BitVec.sle_iff_toInt_le, ← BitVec.slt_iff_toInt_lt]
  cases lo.sle t <;> cases t.slt hi <;> decide

theorem select_at {α : Type} (b : IVec S1024 1) (x y : S1024.Idx → α) (n : Fin 1024) (P : Prop) [Decidable P]
    (hb : b (ix1 n) = 1#1 ↔ P) : select b x y (ix1 n) = if P then x (ix1 n) else y (ix1 n) := by
  show (if b (ix1 n) = 1 then x (ix1 n) else y (ix1 n)) = _
  exact if_congr hb rfl rfl

theorem negCol0_at (x : FVec Ideal S1024x4 .f32) (n : Fin 1024) :
    Host.negf (F := Ideal) (φ := .f32)
      (shapeCast S1024 (extractStridedSlice S1024x1 ![0, 0] x Facts₀.slices_S1024x4_S1024x1_0_0) Facts₀.shapeCasts_S1024x1_S1024) (ix1 n)
      = -(x (ix2 n 0)) :=
  congrArg (fun z : EReal => -z) (col0_at x n)

theorem negSum_at (x : FVec Ideal S1024x3 .f32) (y : FVec Ideal S1024x1 .f32) (o : ℕ) (ho : o < 3)
    (h : S1024x3.Slices ![0, o] S1024x1) (n : Fin 1024) :
    Host.negf (F := Ideal) (φ := .f32)
      (addf (shapeCast S1024 (extractStridedSlice S1024x1 ![0, o] x h) Facts₀.shapeCasts_S1024x1_S1024)
        (shapeCast S1024 y Facts₀.shapeCasts_S1024x1_S1024)) (ix1 n)
      = -(x (ix2 n ⟨o, ho⟩) + y (ix2 n 0)) := by
  show -(shapeCast S1024 (extractStridedSlice S1024x1 ![0, o] x h) Facts₀.shapeCasts_S1024x1_S1024 (ix1 n)
        + shapeCast S1024 y Facts₀.shapeCasts_S1024x1_S1024 (ix1 n)) = _
  rw [col3_at x o ho h n, flat_at y n]

variable (m : (ℓ : Loc nD τ sig) → Buf (Elt Ideal) ℓ) (outs : Outs (F := Ideal))

abbrev labels (c : Dev nD) : IVec S1024 32 := m ((c : Thread nD τ).loc main_arg1)

abbrev label (c : Dev nD) (n : Fin 1024) : ℤ := (labels m c (ix1 n)).toInt

abbrev head (c : Dev nD) : FVec Ideal S1024x4 .f32 := outs 8 main_v9 c

abbrev tail1 (c : Dev nD) : FVec Ideal S1024x1 .f32 := outs 16 main_v22 c

abbrev tail2 (c : Dev nD) : FVec Ideal S1024x1 .f32 := outs 26 main_v42 c

abbrev tail3 (c : Dev nD) : FVec Ideal S1024x1 .f32 := outs 36 main_v62 c

theorem labels_V16 (c : Dev nD) : V16 m outs c main_arg1 = labels m c :=
  (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide))

theorem labels_V26 (c : Dev nD) : V26 m outs c main_arg1 = labels m c :=
  ((V26_of m outs c main_arg1 (by decide)).trans <| (V25_of m outs c main_arg1 (by decide)).trans <| (V24_of m outs c main_arg1 (by decide)).trans <| (V23_of m outs c main_arg1 (by decide)).trans <| (V22_of m outs c main_arg1 (by decide)).trans <| (V21_of m outs c main_arg1 (by decide)).trans <| (V20_of m outs c main_arg1 (by decide)).trans <| (V19_of m outs c main_arg1 (by decide)).trans <| (V18_of m outs c main_arg1 (by decide)).trans <| (V17_of m outs c main_arg1 (by decide))).trans (labels_V16 m outs c)

theorem labels_V36 (c : Dev nD) : V36 m outs c main_arg1 = labels m c :=
  ((V36_of m outs c main_arg1 (by decide)).trans <| (V35_of m outs c main_arg1 (by decide)).trans <| (V34_of m outs c main_arg1 (by decide)).trans <| (V33_of m outs c main_arg1 (by decide)).trans <| (V32_of m outs c main_arg1 (by decide)).trans <| (V31_of m outs c main_arg1 (by decide)).trans <| (V30_of m outs c main_arg1 (by decide)).trans <| (V29_of m outs c main_arg1 (by decide)).trans <| (V28_of m outs c main_arg1 (by decide)).trans <| (V27_of m outs c main_arg1 (by decide))).trans (labels_V26 m outs c)

theorem head_V8 (c : Dev nD) : V8 m outs c main_v9 = head outs c := Function.update_self ..
theorem tail1_V16 (c : Dev nD) : V16 m outs c main_v22 = tail1 outs c := Function.update_self ..
theorem tail2_V26 (c : Dev nD) : V26 m outs c main_v42 = tail2 outs c := Function.update_self ..
theorem tail3_V36 (c : Dev nD) : V36 m outs c main_v62 = tail3 outs c := Function.update_self ..

theorem cols_V16 (c : Dev nD) : V16 m outs c main_v12 = V9 m outs c main_v12 :=
  (V16_of m outs c main_v12 (by decide)).trans <| (V15_of m outs c main_v12 (by decide)).trans <| (V14_of m outs c main_v12 (by decide)).trans <| (V13_of m outs c main_v12 (by decide)).trans <| (V12_of m outs c main_v12 (by decide)).trans <| (V11_of m outs c main_v12 (by decide)).trans <| (V10_of m outs c main_v12 (by decide))
theorem cols_V26 (c : Dev nD) : V26 m outs c main_v12 = V9 m outs c main_v12 :=
  ((V26_of m outs c main_v12 (by decide)).trans <| (V25_of m outs c main_v12 (by decide)).trans <| (V24_of m outs c main_v12 (by decide)).trans <| (V23_of m outs c main_v12 (by decide)).trans <| (V22_of m outs c main_v12 (by decide)).trans <| (V21_of m outs c main_v12 (by decide)).trans <| (V20_of m outs c main_v12 (by decide)).trans <| (V19_of m outs c main_v12 (by decide)).trans <| (V18_of m outs c main_v12 (by decide)).trans <| (V17_of m outs c main_v12 (by decide))).trans (cols_V16 m outs c)
theorem cols_V36 (c : Dev nD) : V36 m outs c main_v12 = V9 m outs c main_v12 :=
  ((V36_of m outs c main_v12 (by decide)).trans <| (V35_of m outs c main_v12 (by decide)).trans <| (V34_of m outs c main_v12 (by decide)).trans <| (V33_of m outs c main_v12 (by decide)).trans <| (V32_of m outs c main_v12 (by decide)).trans <| (V31_of m outs c main_v12 (by decide)).trans <| (V30_of m outs c main_v12 (by decide)).trans <| (V29_of m outs c main_v12 (by decide)).trans <| (V28_of m outs c main_v12 (by decide)).trans <| (V27_of m outs c main_v12 (by decide))).trans (cols_V26 m outs c)

theorem run0_V17 (c : Dev nD) : V17 m outs c main_v13 = V9 m outs c main_v13 :=
  (V17_of m outs c main_v13 (by decide)).trans <| (V16_of m outs c main_v13 (by decide)).trans <| (V15_of m outs c main_v13 (by decide)).trans <| (V14_of m outs c main_v13 (by decide)).trans <| (V13_of m outs c main_v13 (by decide)).trans <| (V12_of m outs c main_v13 (by decide)).trans <| (V11_of m outs c main_v13 (by decide)).trans <| (V10_of m outs c main_v13 (by decide))
theorem run1_V27 (c : Dev nD) : V27 m outs c main_v33 = V18 m outs c main_v33 :=
  (V27_of m outs c main_v33 (by decide)).trans <| (V26_of m outs c main_v33 (by decide)).trans <| (V25_of m outs c main_v33 (by decide)).trans <| (V24_of m outs c main_v33 (by decide)).trans <| (V23_of m outs c main_v33 (by decide)).trans <| (V22_of m outs c main_v33 (by decide)).trans <| (V21_of m outs c main_v33 (by decide)).trans <| (V20_of m outs c main_v33 (by decide)).trans <| (V19_of m outs c main_v33 (by decide))
theorem run2_V37 (c : Dev nD) : V37 m outs c main_v53 = V28 m outs c main_v53 :=
  (V37_of m outs c main_v53 (by decide)).trans <| (V36_of m outs c main_v53 (by decide)).trans <| (V35_of m outs c main_v53 (by decide)).trans <| (V34_of m outs c main_v53 (by decide)).trans <| (V33_of m outs c main_v53 (by decide)).trans <| (V32_of m outs c main_v53 (by decide)).trans <| (V31_of m outs c main_v53 (by decide)).trans <| (V30_of m outs c main_v53 (by decide)).trans <| (V29_of m outs c main_v53 (by decide))

theorem run0_at (c : Dev nD) (n : Fin 1024) :
    (V9 m outs c main_v13 : FVec Ideal S1024 .f32) (ix1 n) = -(head outs c (ix2 n 0)) := by
  have e : (V9 m outs c main_v13 : FVec Ideal S1024 .f32) = Host.negf (F := Ideal) (φ := .f32)
      (shapeCast S1024 (extractStridedSlice S1024x1 ![0, 0] (V8 m outs c main_v9 : FVec Ideal S1024x4 .f32)
        Facts₀.slices_S1024x4_S1024x1_0_0) Facts₀.shapeCasts_S1024x1_S1024) := by
    show StableHlo.after hostOps1 _ (Proc.devRef .tc main_v13) = _
    after_results
    rfl
  rw [e, head_V8]
  exact negCol0_at _ n

theorem cols_at (c : Dev nD) (n : Fin 1024) (k : Fin 3) :
    (V9 m outs c main_v12 : FVec Ideal S1024x3 .f32) (ix2 n k) = head outs c (ix2 n k.succ) := by
  have e : (V9 m outs c main_v12 : FVec Ideal S1024x3 .f32)
      = extractStridedSlice S1024x3 ![0, 1] (V8 m outs c main_v9 : FVec Ideal S1024x4 .f32) Facts₀.slices_S1024x4_S1024x3_0_1 := by
    show StableHlo.after hostOps1 _ (Proc.devRef .tc main_v12) = _
    after_results
  rw [e, head_V8]
  exact cols123_at _ n k

theorem bit1_iff (c : Dev nD) (n : Fin 1024) :
    (V17 m outs c main_v31 : IVec S1024 1) (ix1 n) = 1#1 ↔ 20000 ≤ label m c n ∧ label m c n < 40000 := by
  have e : (V17 m outs c main_v31 : IVec S1024 1)
      = andi (cmpi .sge (V16 m outs c main_arg1 : IVec S1024 32) (broadcastInDim S1024 ![] Facts₀.bcast_S_S1024 (constantI S_ 32 20000#32)))
          (cmpi .slt (V16 m outs c main_arg1 : IVec S1024 32) (broadcastInDim S1024 ![] Facts₀.bcast_S_S1024 (constantI S_ 32 40000#32))) := by
    show StableHlo.after hostOps2 _ (Proc.devRef .tc main_v31) = _
    after_results
  rw [e, labels_V16]
  exact inRange_bit _ _ _ 20000 40000 (by decide) (by decide) n

theorem cand1_at (c : Dev nD) (n : Fin 1024) :
    (V17 m outs c main_v32 : FVec Ideal S1024 .f32) (ix1 n) = -(head outs c (ix2 n 1) + tail1 outs c (ix2 n 0)) := by
  have e : (V17 m outs c main_v32 : FVec Ideal S1024 .f32) = Host.negf (F := Ideal) (φ := .f32)
      (addf (shapeCast S1024 (extractStridedSlice S1024x1 ![0, 0] (V16 m outs c main_v12 : FVec Ideal S1024x3 .f32)
              Facts₀.slices_S1024x3_S1024x1_0_0) Facts₀.shapeCasts_S1024x1_S1024)
        (shapeCast S1024 (V16 m outs c main_v22 : FVec Ideal S1024x1 .f32) Facts₀.shapeCasts_S1024x1_S1024)) := by
    show StableHlo.after hostOps2 _ (Proc.devRef .tc main_v32) = _
    after_results
    rfl
  rw [e, tail1_V16, cols_V16]
  exact (negSum_at _ _ 0 (by omega) _ n).trans
    (congrArg (fun z : EReal => -(z + tail1 outs c (ix2 n 0))) (cols_at m outs c n ⟨0, by omega⟩))

theorem run1_at (c : Dev nD) (n : Fin 1024) :
    (V18 m outs c main_v33 : FVec Ideal S1024 .f32) (ix1 n)
      = if 20000 ≤ label m c n ∧ label m c n < 40000 then -(head outs c (ix2 n 1) + tail1 outs c (ix2 n 0))
        else -(head outs c (ix2 n 0)) := by
  have e : (V18 m outs c main_v33 : FVec Ideal S1024 .f32)
      = select (V17 m outs c main_v31 : IVec S1024 1) (V17 m outs c main_v32 : FVec Ideal S1024 .f32)
          (V17 m outs c main_v13 : FVec Ideal S1024 .f32) := by
    show StableHlo.after hostOps2_1 _ (Proc.devRef .tc main_v33) = _
    simp only [StableHlo.after_cons, StableHlo.after_nil]
    exact StableHlo.ternary_result ..
  rw [e, select_at _ _ _ n _ (bit1_iff m outs c n), cand1_at, run0_V17, run0_at]

theorem bit2_iff (c : Dev nD) (n : Fin 1024) :
    (V27 m outs c main_v51 : IVec S1024 1) (ix1 n) = 1#1 ↔ 40000 ≤ label m c n ∧ label m c n < 200000 := by
  have e : (V27 m outs c main_v51 : IVec S1024 1)
      = andi (cmpi .sge (V26 m outs c main_arg1 : IVec S1024 32) (broadcastInDim S1024 ![] Facts₀.bcast_S_S1024 (constantI S_ 32 40000#32)))
          (cmpi .slt (V26 m outs c main_arg1 : IVec S1024 32) (broadcastInDim S1024 ![] Facts₀.bcast_S_S1024 (constantI S_ 32 200000#32))) := by
    show StableHlo.after hostOps3 _ (Proc.devRef .tc main_v51) = _
    after_results
  rw [e, labels_V26]
  exact inRange_bit _ _ _ 40000 200000 (by decide) (by decide) n

theorem cand2_at (c : Dev nD) (n : Fin 1024) :
    (V27 m outs c main_v52 : FVec Ideal S1024 .f32) (ix1 n) = -(head outs c (ix2 n 2) + tail2 outs c (ix2 n 0)) := by
  have e : (V27 m outs c main_v52 : FVec Ideal S1024 .f32) = Host.negf (F := Ideal) (φ := .f32)
      (addf (shapeCast S1024 (extractStridedSlice S1024x1 ![0, 1] (V26 m outs c main_v12 : FVec Ideal S1024x3 .f32)
              Facts₀.slices_S1024x3_S1024x1_0_1) Facts₀.shapeCasts_S1024x1_S1024)
        (shapeCast S1024 (V26 m outs c main_v42 : FVec Ideal S1024x1 .f32) Facts₀.shapeCasts_S1024x1_S1024)) := by
    show StableHlo.after hostOps3 _ (Proc.devRef .tc main_v52) = _
    after_results
    rfl
  rw [e, tail2_V26, cols_V26]
  exact (negSum_at _ _ 1 (by omega) _ n).trans
    (congrArg (fun z : EReal => -(z + tail2 outs c (ix2 n 0))) (cols_at m outs c n ⟨1, by omega⟩))

theorem run2_at (c : Dev nD) (n : Fin 1024) :
    (V28 m outs c main_v53 : FVec Ideal S1024 .f32) (ix1 n)
      = if 40000 ≤ label m c n ∧ label m c n < 200000 then -(head outs c (ix2 n 2) + tail2 outs c (ix2 n 0))
        else if 20000 ≤ label m c n ∧ label m c n < 40000 then -(head outs c (ix2 n 1) + tail1 outs c (ix2 n 0))
        else -(head outs c (ix2 n 0)) := by
  have e : (V28 m outs c main_v53 : FVec Ideal S1024 .f32)
      = select (V27 m outs c main_v51 : IVec S1024 1) (V27 m outs c main_v52 : FVec Ideal S1024 .f32)
          (V27 m outs c main_v33 : FVec Ideal S1024 .f32) := by
    show StableHlo.after hostOps3_1 _ (Proc.devRef .tc main_v53) = _
    simp only [StableHlo.after_cons, StableHlo.after_nil]
    exact StableHlo.ternary_result ..
  rw [e, select_at _ _ _ n _ (bit2_iff m outs c n), cand2_at, run1_V27, run1_at]

theorem bit3_iff (c : Dev nD) (n : Fin 1024) :
    (V37 m outs c main_v71 : IVec S1024 1) (ix1 n) = 1#1 ↔ 200000 ≤ label m c n ∧ label m c n < 267735 := by
  have e : (V37 m outs c main_v71 : IVec S1024 1)
      = andi (cmpi .sge (V36 m outs c main_arg1 : IVec S1024 32) (broadcastInDim S1024 ![] Facts₀.bcast_S_S1024 (constantI S_ 32 200000#32)))
          (cmpi .slt (V36 m outs c main_arg1 : IVec S1024 32) (broadcastInDim S1024 ![] Facts₀.bcast_S_S1024 (constantI S_ 32 267735#32))) := by
    show StableHlo.after hostOps4 _ (Proc.devRef .tc main_v71) = _
    after_results
  rw [e, labels_V36]
  exact inRange_bit _ _ _ 200000 267735 (by decide) (by decide) n

theorem cand3_at (c : Dev nD) (n : Fin 1024) :
    (V37 m outs c main_v72 : FVec Ideal S1024 .f32) (ix1 n) = -(head outs c (ix2 n 3) + tail3 outs c (ix2 n 0)) := by
  have e : (V37 m outs c main_v72 : FVec Ideal S1024 .f32) = Host.negf (F := Ideal) (φ := .f32)
      (addf (shapeCast S1024 (extractStridedSlice S1024x1 ![0, 2] (V36 m outs c main_v12 : FVec Ideal S1024x3 .f32)
              Facts₀.slices_S1024x3_S1024x1_0_2) Facts₀.shapeCasts_S1024x1_S1024)
        (shapeCast S1024 (V36 m outs c main_v62 : FVec Ideal S1024x1 .f32) Facts₀.shapeCasts_S1024x1_S1024)) := by
    show StableHlo.after hostOps4 _ (Proc.devRef .tc main_v72) = _
    after_results
    rfl
  rw [e, tail3_V36, cols_V36]
  exact (negSum_at _ _ 2 (by omega) _ n).trans
    (congrArg (fun z : EReal => -(z + tail3 outs c (ix2 n 0))) (cols_at m outs c n ⟨2, by omega⟩))

theorem run3_at (c : Dev nD) (n : Fin 1024) :
    (V38 m outs c main_v73 : FVec Ideal S1024 .f32) (ix1 n)
      = if 200000 ≤ label m c n ∧ label m c n < 267735 then -(head outs c (ix2 n 3) + tail3 outs c (ix2 n 0))
        else if 40000 ≤ label m c n ∧ label m c n < 200000 then -(head outs c (ix2 n 2) + tail2 outs c (ix2 n 0))
        else if 20000 ≤ label m c n ∧ label m c n < 40000 then -(head outs c (ix2 n 1) + tail1 outs c (ix2 n 0))
        else -(head outs c (ix2 n 0)) := by
  have e : (V38 m outs c main_v73 : FVec Ideal S1024 .f32)
      = select (V37 m outs c main_v71 : IVec S1024 1) (V37 m outs c main_v72 : FVec Ideal S1024 .f32)
          (V37 m outs c main_v53 : FVec Ideal S1024 .f32) := by
    show StableHlo.after hostOps4_1 _ (Proc.devRef .tc main_v73) = _
    simp only [StableHlo.after_cons, StableHlo.after_nil]
    exact StableHlo.ternary_result ..
  rw [e, select_at _ _ _ n _ (bit3_iff m outs c n), cand3_at, run2_V37, run2_at]

theorem result_at (c : Dev nD) (n : Fin 1024) :
    (V38 m outs c main_v73 : FVec Ideal S1024 .f32) (ix1 n)
      = if 200000 ≤ label m c n ∧ label m c n < 267735 then -(head outs c (ix2 n 3) + tail3 outs c (ix2 n 0))
        else if 40000 ≤ label m c n ∧ label m c n < 200000 then -(head outs c (ix2 n 2) + tail2 outs c (ix2 n 0))
        else if 20000 ≤ label m c n ∧ label m c n < 40000 then -(head outs c (ix2 n 1) + tail1 outs c (ix2 n 0))
        else -(head outs c (ix2 n 0)) :=
  run3_at m outs c n

end Cert.KernelIdeal.H.Tail

end
-- ==== Proof.KI.PreDecode.lean ====
import proofs.«416365_j66236985639681_1_alg».proof.Defs
import Idealize.ShloMosaic.Lib.ReduceAll
import Idealize.ShloMosaic.Lib.IdealHost

noncomputable section

namespace Cert.KernelIdeal.H.PreDecode

open Idealize.ShloMosaic Idealize.SL.Sem
open Cert.Pre_finite_inputs (S_)

instance subsingletonScalarIdx : Subsingleton S_.Idx := ⟨fun a b => funext fun d => d.elim0⟩

theorem ofBits_inf : Ideal.ofBits .f32 0x7F800000#32 = (⊤ : EReal) := by
  simp [Ideal.ofBits, Ideal.ieee]

theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

theorem all_real {s : Shape} {axes : List (Fin s.rank)} (x : FVec Ideal s .f32)
    (hb : S_.BroadcastsInDim s (![] : Fin 0 → Fin s.rank)) (hr : s.ReducesTo axes S_) (hu : 0 < S_.numel) (j0 : S_.Idx)
    (e : Host.reduce IntOp.andi (cmpf .olt (Host.absf x) (broadcastInDim s ![] hb (constant S_ .f32 0x7F800000#32)))
          (constantI S_ 1 1#1) hr hu j0 = 1#1) :
    ∀ j, ∃ r : ℝ, (x j : EReal) = (r : EReal) := by
  intro j
  have hj := Host.reduce_andi_all _ _ hr hu j0 e j
  exact real_of_abs_lt_inf (x j) hj

theorem all_lt {s : Shape} {axes : List (Fin s.rank)} (t : IVec s 32)
    (hb : S_.BroadcastsInDim s (![] : Fin 0 → Fin s.rank)) (hr : s.ReducesTo axes S_) (hu : 0 < S_.numel) (j0 : S_.Idx)
    (e : Host.reduce IntOp.andi (cmpi .slt t (broadcastInDim s ![] hb (constantI S_ 32 267735#32)))
          (constantI S_ 1 1#1) hr hu j0 = 1#1) :
    ∀ j, (t j).toInt < 267735 := by
  intro j
  have hj := Host.reduce_andi_all _ _ hr hu j0 e j
  have h2 : IntOp.cmpi .slt (t j) 267735#32 = 1#1 := hj
  rw [IntOp.cmpi_slt] at h2
  exact h2

section Decode

variable [Cert.Pre_finite_inputs.Facts]

theorem decode
    (a0 : FVec Ideal Cert.Pre_finite_inputs.S1024x512 .f32)
    (a1 : IVec Cert.Pre_finite_inputs.S1024 32)
    (a2 : FVec Ideal Cert.Pre_finite_inputs.S20000x512 .f32)
    (a3 : FVec Ideal Cert.Pre_finite_inputs.S20000 .f32)
    (a4 : FVec Ideal Cert.Pre_finite_inputs.S512x512 .f32)
    (a5 : FVec Ideal Cert.Pre_finite_inputs.S20000x128 .f32)
    (a6 : FVec Ideal Cert.Pre_finite_inputs.S20000 .f32)
    (a7 : FVec Ideal Cert.Pre_finite_inputs.S512x128 .f32)
    (a8 : FVec Ideal Cert.Pre_finite_inputs.S160000x32 .f32)
    (a9 : FVec Ideal Cert.Pre_finite_inputs.S160000 .f32)
    (a10 : FVec Ideal Cert.Pre_finite_inputs.S512x32 .f32)
    (a11 : FVec Ideal Cert.Pre_finite_inputs.S67735x8 .f32)
    (a12 : FVec Ideal Cert.Pre_finite_inputs.S67735 .f32)
    (a13 : FVec Ideal Cert.Pre_finite_inputs.S512x8 .f32)
    (a14 : FVec Ideal Cert.Pre_finite_inputs.S3x512 .f32)
    (a15 : FVec Ideal Cert.Pre_finite_inputs.S3 .f32)
    (h : Cert.Pre_finite_inputs.fn (F := Ideal) a0 a1 a2 a3 a4 a5 a6 a7 a8 a9 a10 a11 a12 a13 a14 a15 = (fun _ => 1#1)) :
    (∀ j, ∃ r : ℝ, (a0 j : EReal) = (r : EReal))
      ∧ (∀ j, ∃ r : ℝ, (a2 j : EReal) = (r : EReal))
      ∧ (∀ j, ∃ r : ℝ, (a3 j : EReal) = (r : EReal))
      ∧ (∀ j, ∃ r : ℝ, (a4 j : EReal) = (r : EReal))
      ∧ (∀ j, ∃ r : ℝ, (a5 j : EReal) = (r : EReal))
      ∧ (∀ j, ∃ r : ℝ, (a6 j : EReal) = (r : EReal))
      ∧ (∀ j, ∃ r : ℝ, (a7 j : EReal) = (r : EReal))
      ∧ (∀ j, ∃ r : ℝ, (a8 j : EReal) = (r : EReal))
      ∧ (∀ j, ∃ r : ℝ, (a9 j : EReal) = (r : EReal))
      ∧ (∀ j, ∃ r : ℝ, (a10 j : EReal) = (r : EReal))
      ∧ (∀ j, ∃ r : ℝ, (a11 j : EReal) = (r : EReal))
      ∧ (∀ j, ∃ r : ℝ, (a12 j : EReal) = (r : EReal))
      ∧ (∀ j, ∃ r : ℝ, (a13 j : EReal) = (r : EReal))
      ∧ (∀ j, ∃ r : ℝ, (a14 j : EReal) = (r : EReal))
      ∧ (∀ j, ∃ r : ℝ, (a15 j : EReal) = (r : EReal))
      ∧ (∀ j, (a1 j).toInt < 267735) := by
  have e := congrFun h ValueIdx.ix0
  unfold Cert.Pre_finite_inputs.fn Cert.Pre_finite_inputs.fn_part1 Cert.Pre_finite_inputs.fn_part2
    Cert.Pre_finite_inputs.fn_part3 Cert.Pre_finite_inputs.fn_part4 at e
  simp only [andi, IntOp.andi_eq_one] at e
  obtain ⟨⟨⟨⟨⟨⟨⟨⟨⟨⟨⟨⟨⟨⟨⟨h0, h2⟩, h3⟩, h4⟩, h5⟩, h6⟩, h7⟩, h8⟩, h9⟩, h10⟩, h11⟩, h12⟩, h13⟩, h14⟩, h15⟩, ht⟩ := e
  exact ⟨all_real a0 _ _ _ _ h0,
    all_real a2 _ _ _ _ h2,
    all_real a3 _ _ _ _ h3,
    all_real a4 _ _ _ _ h4,
    all_real a5 _ _ _ _ h5,
    all_real a6 _ _ _ _ h6,
    all_real a7 _ _ _ _ h7,
    all_real a8 _ _ _ _ h8,
    all_real a9 _ _ _ _ h9,
    all_real a10 _ _ _ _ h10,
    all_real a11 _ _ _ _ h11,
    all_real a12 _ _ _ _ h12,
    all_real a13 _ _ _ _ h13,
    all_real a14 _ _ _ _ h14,
    all_real a15 _ _ _ _ h15,
    all_lt a1 _ _ _ _ ht⟩

end Decode

section Mem

open Cert.KernelIdeal

variable [Cert.Pre_finite_inputs.Facts]
variable (m : (ℓ : Loc nD τ sig) → Buf (Elt Ideal) ℓ)

theorem pre_decoded (h : Cert.Pre_KernelIdeal m) (c : Dev nD) :
    (∀ j : S1024x512.Idx, ∃ r : ℝ, (m ((c.tc : Thread nD τ).loc main_arg0) : S1024x512.Idx → EReal) j = (r : EReal))
      ∧ (∀ j : S20000x512.Idx, ∃ r : ℝ, (m ((c.tc : Thread nD τ).loc main_arg2) : S20000x512.Idx → EReal) j = (r : EReal))
      ∧ (∀ j : S20000.Idx, ∃ r : ℝ, (m ((c.tc : Thread nD τ).loc main_arg3) : S20000.Idx → EReal) j = (r : EReal))
      ∧ (∀ j : S512x512.Idx, ∃ r : ℝ, (m ((c.tc : Thread nD τ).loc main_arg4) : S512x512.Idx → EReal) j = (r : EReal))
      ∧ (∀ j : S20000x128.Idx, ∃ r : ℝ, (m ((c.tc : Thread nD τ).loc main_arg5) : S20000x128.Idx → EReal) j = (r : EReal))
      ∧ (∀ j : S20000.Idx, ∃ r : ℝ, (m ((c.tc : Thread nD τ).loc main_arg6) : S20000.Idx → EReal) j = (r : EReal))
      ∧ (∀ j : S512x128.Idx, ∃ r : ℝ, (m ((c.tc : Thread nD τ).loc main_arg7) : S512x128.Idx → EReal) j = (r : EReal))
      ∧ (∀ j : S160000x32.Idx, ∃ r : ℝ, (m ((c.tc : Thread nD τ).loc main_arg8) : S160000x32.Idx → EReal) j = (r : EReal))
      ∧ (∀ j : S160000.Idx, ∃ r : ℝ, (m ((c.tc : Thread nD τ).loc main_arg9) : S160000.Idx → EReal) j = (r : EReal))
      ∧ (∀ j : S512x32.Idx, ∃ r : ℝ, (m ((c.tc : Thread nD τ).loc main_arg10) : S512x32.Idx → EReal) j = (r : EReal))
      ∧ (∀ j : S67735x8.Idx, ∃ r : ℝ, (m ((c.tc : Thread nD τ).loc main_arg11) : S67735x8.Idx → EReal) j = (r : EReal))
      ∧ (∀ j : S67735.Idx, ∃ r : ℝ, (m ((c.tc : Thread nD τ).loc main_arg12) : S67735.Idx → EReal) j = (r : EReal))
      ∧ (∀ j : S512x8.Idx, ∃ r : ℝ, (m ((c.tc : Thread nD τ).loc main_arg13) : S512x8.Idx → EReal) j = (r : EReal))
      ∧ (∀ j : S3x512.Idx, ∃ r : ℝ, (m ((c.tc : Thread nD τ).loc main_arg14) : S3x512.Idx → EReal) j = (r : EReal))
      ∧ (∀ j : S3.Idx, ∃ r : ℝ, (m ((c.tc : Thread nD τ).loc main_arg15) : S3.Idx → EReal) j = (r : EReal))
      ∧ (∀ j : S1024.Idx, ((m ((c.tc : Thread nD τ).loc main_arg1) : S1024.Idx → BitVec 32) j).toInt < 267735) :=
  decode _ _ _ _ _ _ _ _ _ _ _ _ _ _ _ _ (h c)

theorem real_arg0 (h : Cert.Pre_KernelIdeal m) (c : Dev nD) :
    ∀ j : S1024x512.Idx, ∃ r : ℝ, (m ((c.tc : Thread nD τ).loc main_arg0) : S1024x512.Idx → EReal) j = (r : EReal) :=
  (pre_decoded m h c).1

theorem real_arg2 (h : Cert.Pre_KernelIdeal m) (c : Dev nD) :
    ∀ j : S20000x512.Idx, ∃ r : ℝ, (m ((c.tc : Thread nD τ).loc main_arg2) : S20000x512.Idx → EReal) j = (r : EReal) :=
  (pre_decoded m h c).2.1

theorem real_arg3 (h : Cert.Pre_KernelIdeal m) (c : Dev nD) :
    ∀ j : S20000.Idx, ∃ r : ℝ, (m ((c.tc : Thread nD τ).loc main_arg3) : S20000.Idx → EReal) j = (r : EReal) :=
  (pre_decoded m h c).2.2.1

theorem real_arg4 (h : Cert.Pre_KernelIdeal m) (c : Dev nD) :
    ∀ j : S512x512.Idx, ∃ r : ℝ, (m ((c.tc : Thread nD τ).loc main_arg4) : S512x512.Idx → EReal) j = (r : EReal) :=
  (pre_decoded m h c).2.2.2.1

theorem real_arg5 (h : Cert.Pre_KernelIdeal m) (c : Dev nD) :
    ∀ j : S20000x128.Idx, ∃ r : ℝ, (m ((c.tc : Thread nD τ).loc main_arg5) : S20000x128.Idx → EReal) j = (r : EReal) :=
  (pre_decoded m h c).2.2.2.2.1

theorem real_arg6 (h : Cert.Pre_KernelIdeal m) (c : Dev nD) :
    ∀ j : S20000.Idx, ∃ r : ℝ, (m ((c.tc : Thread nD τ).loc main_arg6) : S20000.Idx → EReal) j = (r : EReal) :=
  (pre_decoded m h c).2.2.2.2.2.1

theorem real_arg7 (h : Cert.Pre_KernelIdeal m) (c : Dev nD) :
    ∀ j : S512x128.Idx, ∃ r : ℝ, (m ((c.tc : Thread nD τ).loc main_arg7) : S512x128.Idx → EReal) j = (r : EReal) :=
  (pre_decoded m h c).2.2.2.2.2.2.1

theorem real_arg8 (h : Cert.Pre_KernelIdeal m) (c : Dev nD) :
    ∀ j : S160000x32.Idx, ∃ r : ℝ, (m ((c.tc : Thread nD τ).loc main_arg8) : S160000x32.Idx → EReal) j = (r : EReal) :=
  (pre_decoded m h c).2.2.2.2.2.2.2.1

theorem real_arg9 (h : Cert.Pre_KernelIdeal m) (c : Dev nD) :
    ∀ j : S160000.Idx, ∃ r : ℝ, (m ((c.tc : Thread nD τ).loc main_arg9) : S160000.Idx → EReal) j = (r : EReal) :=
  (pre_decoded m h c).2.2.2.2.2.2.2.2.1

theorem real_arg10 (h : Cert.Pre_KernelIdeal m) (c : Dev nD) :
    ∀ j : S512x32.Idx, ∃ r : ℝ, (m ((c.tc : Thread nD τ).loc main_arg10) : S512x32.Idx → EReal) j = (r : EReal) :=
  (pre_decoded m h c).2.2.2.2.2.2.2.2.2.1

theorem real_arg11 (h : Cert.Pre_KernelIdeal m) (c : Dev nD) :
    ∀ j : S67735x8.Idx, ∃ r : ℝ, (m ((c.tc : Thread nD τ).loc main_arg11) : S67735x8.Idx → EReal) j = (r : EReal) :=
  (pre_decoded m h c).2.2.2.2.2.2.2.2.2.2.1

theorem real_arg12 (h : Cert.Pre_KernelIdeal m) (c : Dev nD) :
    ∀ j : S67735.Idx, ∃ r : ℝ, (m ((c.tc : Thread nD τ).loc main_arg12) : S67735.Idx → EReal) j = (r : EReal) :=
  (pre_decoded m h c).2.2.2.2.2.2.2.2.2.2.2.1

theorem real_arg13 (h : Cert.Pre_KernelIdeal m) (c : Dev nD) :
    ∀ j : S512x8.Idx, ∃ r : ℝ, (m ((c.tc : Thread nD τ).loc main_arg13) : S512x8.Idx → EReal) j = (r : EReal) :=
  (pre_decoded m h c).2.2.2.2.2.2.2.2.2.2.2.2.1

theorem real_arg14 (h : Cert.Pre_KernelIdeal m) (c : Dev nD) :
    ∀ j : S3x512.Idx, ∃ r : ℝ, (m ((c.tc : Thread nD τ).loc main_arg14) : S3x512.Idx → EReal) j = (r : EReal) :=
  (pre_decoded m h c).2.2.2.2.2.2.2.2.2.2.2.2.2.1

theorem real_arg15 (h : Cert.Pre_KernelIdeal m) (c : Dev nD) :
    ∀ j : S3.Idx, ∃ r : ℝ, (m ((c.tc : Thread nD τ).loc main_arg15) : S3.Idx → EReal) j = (r : EReal) :=
  (pre_decoded m h c).2.2.2.2.2.2.2.2.2.2.2.2.2.2.1

theorem target_lt (h : Cert.Pre_KernelIdeal m) (c : Dev nD) :
    ∀ j : S1024.Idx, ((m ((c.tc : Thread nD τ).loc main_arg1) : S1024.Idx → BitVec 32) j).toInt < 267735 :=
  (pre_decoded m h c).2.2.2.2.2.2.2.2.2.2.2.2.2.2.2

end Mem

end Cert.KernelIdeal.H.PreDecode

end
-- ==== Proof.KI.R0ValueConst.lean ====
import proofs.«416365_j66236985639681_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.H.R0V

open Cert.KernelIdeal Cert.KernelIdeal.Gen
open Idealize.ShloMosaic Idealize.ShloMosaic.TcCoe Idealize.ShloMosaic.ValueIdx

theorem ofBits_neg_inf : Ideal.ofBits .f32 0xFF800000#32 = ⊥ := by simp [Ideal.ofBits, Ideal.ieee]

theorem neg_big_eq : Named.named (F := Ideal) κ "neg_big" (φ := .f32) 0xF149F2CA#32 = ⊥ :=
  IdealRules.named_const.ideal_named_scalar _ _ _ _ rfl

theorem shapeCast_self_apply {α : Type} {s : Shape} (x : s.Idx → α) (h : s.ShapeCasts s) (j : s.Idx) :
    shapeCast s x h j = x j := shapeCast_apply x h j j rfl

theorem pay3_apply (j : S1024x1.Idx) : k0_pay3 (F := Ideal) j = ⊥ := by
  unfold k0_pay3
  refine (shapeCast_self_apply _ _ j).trans ?_
  exact ofBits_neg_inf

theorem pay4_apply (j : S1024x1.Idx) : k0_pay4 (F := Ideal) j = 0 := by
  unfold k0_pay4
  refine (shapeCast_self_apply _ _ j).trans ?_
  exact Ideal.ofBits_zero_f32

theorem pay5_apply (j : S1024x4.Idx) : k0_pay5 (F := Ideal) j = 0 := by
  unfold k0_pay5
  refine (shapeCast_self_apply _ _ j).trans ?_
  exact Ideal.ofBits_zero_f32

theorem pay10_apply (v : FVec Ideal S1024x1 .f32) (j : S1024x1.Idx) : k0_pay10 v j = v j := by
  unfold k0_pay10
  exact shapeCast_self_apply _ _ j

end Cert.KernelIdeal.H.R0V

end
-- ==== Proof.KI.R0ValueDot.lean ====
import proofs.«416365_j66236985639681_1_alg».proof.Proof.KI.R0ValueConst
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.H.R0V

open Cert.KernelIdeal Cert.KernelIdeal.Gen
open Idealize.ShloMosaic Idealize.ShloMosaic.TcCoe Idealize.ShloMosaic.ValueIdx

theorem xp_lhs_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem xp_lhs_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem xp_rhs_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem xp_rhs_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

theorem xp_matmul_apply (x : FVec Ideal S1024x512 .bf16) (y : FVec Ideal S512x512 .bf16) (n : Fin 1024) (k : Fin 512) :
    FloatOps.matmul dot_S1024x512_S512x512_S1024x512_1_0_0_1_n_n none x y (constant S1024x512 .f32 0x00000000#32) (ix2 n k)
      = ∑ e : Fin 512, x (ix2 n e) * y (ix2 e k) := by
  rw [Ideal.matmul_constant_zero_apply, ← Equiv.sum_comp (contrEquiv1 dot_S1024x512_S512x512_S1024x512_1_0_0_1_n_n 512 rfl rfl).symm]
  refine Finset.sum_congr rfl fun e _ => ?_
  have he := contrEquiv1_symm_val dot_S1024x512_S512x512_S1024x512_1_0_0_1_n_n 512 rfl rfl e
  have el : dot_S1024x512_S512x512_S1024x512_1_0_0_1_n_n.lhsIdx (ix2 n k) ((contrEquiv1 dot_S1024x512_S512x512_S1024x512_1_0_0_1_n_n 512 rfl rfl).symm e) = ix2 n e := funext fun a => Fin.ext (by
    match a with
    | ⟨0, _⟩ => exact xp_lhs_0 _ _
    | ⟨1, _⟩ => exact (xp_lhs_1 _ _).trans he)
  have er : dot_S1024x512_S512x512_S1024x512_1_0_0_1_n_n.rhsIdx (ix2 n k) ((contrEquiv1 dot_S1024x512_S512x512_S1024x512_1_0_0_1_n_n 512 rfl rfl).symm e) = ix2 e k := funext fun a => Fin.ext (by
    match a with
    | ⟨0, _⟩ => exact (xp_rhs_0 _ _).trans he
    | ⟨1, _⟩ => exact xp_rhs_1 _ _)
  rw [el, er]

theorem lg_lhs_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lg_lhs_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem lg_rhs_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem lg_rhs_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

theorem lg_matmul_apply (x : FVec Ideal S1024x512 .bf16) (y : FVec Ideal S512x1024 .bf16) (n : Fin 1024) (k : Fin 1024) :
    FloatOps.matmul dot_S1024x512_S512x1024_S1024x1024_1_0_0_1_n_n none x y (constant S1024x1024 .f32 0x00000000#32) (ix2 n k)
      = ∑ e : Fin 512, x (ix2 n e) * y (ix2 e k) := by
  rw [Ideal.matmul_constant_zero_apply, ← Equiv.sum_comp (contrEquiv1 dot_S1024x512_S512x1024_S1024x1024_1_0_0_1_n_n 512 rfl rfl).symm]
  refine Finset.sum_congr rfl fun e _ => ?_
  have he := contrEquiv1_symm_val dot_S1024x512_S512x1024_S1024x1024_1_0_0_1_n_n 512 rfl rfl e
  have el : dot_S1024x512_S512x1024_S1024x1024_1_0_0_1_n_n.lhsIdx (ix2 n k) ((contrEquiv1 dot_S1024x512_S512x1024_S1024x1024_1_0_0_1_n_n 512 rfl rfl).symm e) = ix2 n e := funext fun a => Fin.ext (by
    match a with
    | ⟨0, _⟩ => exact lg_lhs_0 _ _
    | ⟨1, _⟩ => exact (lg_lhs_1 _ _).trans he)
  have er : dot_S1024x512_S512x1024_S1024x1024_1_0_0_1_n_n.rhsIdx (ix2 n k) ((contrEquiv1 dot_S1024x512_S512x1024_S1024x1024_1_0_0_1_n_n 512 rfl rfl).symm e) = ix2 e k := funext fun a => Fin.ext (by
    match a with
    | ⟨0, _⟩ => exact (lg_rhs_0 _ _).trans he
    | ⟨1, _⟩ => exact lg_rhs_1 _ _)
  rw [el, er]

theorem pay2_apply (hid : Vec Ideal S1024x512 .bf16) (pj : Vec Ideal S512x512 .bf16) (n : Fin 1024) (e : Fin 512) :
    k0_pay2 hid pj (ix2 n e) = ∑ d : Fin 512, hid (ix2 n d) * pj (ix2 d e) := by
  unfold k0_pay2
  refine (shapeCast_self_apply _ _ _).trans ?_
  refine (xp_matmul_apply _ _ n e).trans ?_
  refine Finset.sum_congr rfl fun d _ => ?_
  exact congrArg₂ (· * ·) (shapeCast_self_apply _ _ _) (shapeCast_self_apply _ _ _)

end Cert.KernelIdeal.H.R0V

end
-- ==== Proof.KI.R0ValueLogit.lean ====
import proofs.«416365_j66236985639681_1_alg».proof.Proof.KI.R0ValueDot
import Idealize.ShloMosaic.Lib.StableHlo.Predicate

noncomputable section

namespace Cert.KernelIdeal.H.R0V

open Cert.KernelIdeal Cert.KernelIdeal.Gen
open Idealize.ShloMosaic Idealize.ShloMosaic.TcCoe Idealize.ShloMosaic.ValueIdx

theorem pay6_apply (i : grid0.Coords) (n k : Fin 1024) :
    k0_pay6 i (ix2 n k) = BitVec.ofNat 32 ((i 0).val * 1024 + k.val) := by
  unfold k0_pay6
  show IntOp.addi (IntOp.muli (BitVec.ofNat 32 (i 0).val) (BitVec.ofNat 32 1024)) (iota .tc S1024x1024 32 [1] iota_S1024x1024_d1_w32 (ix2 n k)) = _
  rw [iota_single_apply]
  show BitVec.ofNat 32 (i 0).val * BitVec.ofNat 32 1024 + BitVec.ofNat 32 k.val = _
  rw [← BitVec.ofNat_mul, ← BitVec.ofNat_add]

theorem col_toNat (j k : ℕ) (hj : j < 20) (hk : k < 1024) : (BitVec.ofNat 32 (j * 1024 + k)).toNat = j * 1024 + k := by
  rw [BitVec.toNat_ofNat]; omega

theorem logit_apply (x : FVec Ideal S1024x512 .bf16) (w : FVec Ideal S1024x512 .bf16) (b : FVec Ideal S1024 .f32) (n k : Fin 1024) :
    addf (F := Ideal) (matmul dot_S1024x512_S512x1024_S1024x1024_1_0_0_1_n_n none x
        (transpose S512x1024 [1, 0] (shapeCast S1024x512 w shapeCasts_S1024x512_S1024x512) transposes_S1024x512_p1_0_S512x1024)
        (constant S1024x1024 .f32 0x00000000#32))
      (broadcastTo S1024x1024 (shapeCast S1x1024 (shapeCast S1024 b shapeCasts_S1024_S1024) shapeCasts_S1024_S1x1024) broadcasts_S1x1024_S1024x1024)
      (ix2 n k)
    = ((∑ e : Fin 512, x (ix2 n e) * w (ix2 k e) : EReal) + (b (ix1 k) : EReal) : EReal) := by
  rw [addf_apply]
  refine congrArg₂ (· + ·) ?_ ?_
  · refine (lg_matmul_apply _ _ n k).trans ?_
    refine Finset.sum_congr rfl fun e _ => ?_
    refine congrArg (x (ix2 n e) * ·) ?_
    refine (transpose_ix2_apply _ _ e k).trans ?_
    exact shapeCast_self_apply _ _ _
  · refine (broadcastTo_1b_ab_apply _ _ n k).trans ?_
    refine (shapeCast_a_1a_apply _ _ (0 : Fin 1) k).trans ?_
    exact shapeCast_self_apply _ _ _

theorem pay7_apply (i : grid0.Coords) (x : FVec Ideal S1024x512 .bf16) (w : FVec Ideal S1024x512 .bf16) (b : FVec Ideal S1024 .f32) (n k : Fin 1024) :
    k0_pay7 (F := Ideal) i x w b (ix2 n k)
      = if (i 0).val * 1024 + k.val < 20003 then ((∑ e : Fin 512, x (ix2 n e) * w (ix2 k e) : EReal) + (b (ix1 k) : EReal) : EReal) else ⊥ := by
  unfold k0_pay7
  rw [select_apply]
  have hc : cmpi .slt (k0_pay6 i) (broadcast S1024x1024 20003#32) (ix2 n k) = 1#1 ↔ (i 0).val * 1024 + k.val < 20003 := by
    show IntOp.cmpi .slt (k0_pay6 i (ix2 n k)) 20003#32 = 1#1 ↔ _
    have hi : (i 0).val < 20 := (i 0).isLt
    have hcol := col_toNat (i 0).val k.val hi k.isLt
    rw [pay6_apply, StableHlo.Predicate.slt_iff_toNat (by rw [hcol]; have := k.isLt; omega) (by decide), hcol]
    exact Iff.rfl
  by_cases h : (i 0).val * 1024 + k.val < 20003
  · rw [hc.2 h, select_one, if_pos h]
    exact logit_apply x w b n k
  · rw [eq_zero_of_ne_one (fun h1 => h (hc.1 h1)), select_zero, if_neg h]
    exact neg_big_eq

end Cert.KernelIdeal.H.R0V

end
-- ==== Proof.KI.R0ValueReduce.lean ====
import proofs.«416365_j66236985639681_1_alg».proof.Proof.KI.R0ValueLogit

noncomputable section

namespace Cert.KernelIdeal.H.R0V

open Cert.KernelIdeal Cert.KernelIdeal.Gen
open Idealize.ShloMosaic Idealize.ShloMosaic.TcCoe Idealize.ShloMosaic.ValueIdx

theorem lift_row (n : Fin 1024) (k : Fin (S1024x1024.size (1 : Fin 2))) :
    reduces_S1024x1024_S1024.lift (ix1 n) k = ix2 n (k : Fin 1024) :=
  funext fun a => Fin.ext (match a with | ⟨0, _⟩ => rfl | ⟨1, _⟩ => rfl)

theorem shapeCast_col_apply {α : Type} (v : S1024.Idx → α) (n : Fin 1024) :
    shapeCast S1024x1 v shapeCasts_S1024_S1024x1 (ix2 n (0 : Fin 1)) = v (ix1 n) :=
  shapeCast_apply v _ _ _ (by
    rw [Shape.rowMajor_val_two, Shape.rowMajor_val_one]
    show n.val = n.val * 1 + 0
    omega)

theorem broadcastTo_col_apply {α : Type} {m : ℕ} (v : (⟨2, ![1024, 1]⟩ : Shape).Idx → α)
    (h : (⟨2, ![1024, 1]⟩ : Shape).Broadcasts ⟨2, ![1024, m]⟩) (n : Fin 1024) (k : Fin m) :
    broadcastTo ⟨2, ![1024, m]⟩ v h (ix2 n k) = v (ix2 n (0 : Fin 1)) := by
  refine broadcastTo_apply v h (ix2 n k) (ix2 n (0 : Fin 1)) fun ax => ?_
  match ax with
  | ⟨0, _⟩ => rfl
  | ⟨1, _⟩ => rfl

theorem rowMax_apply (src : FVec Ideal S1024x1024 .f32) (n : Fin 1024) :
    shapeCast S1024x1 (multiReduction (F := Ideal) .maximumf [1] S1024 src 0xFF800000#32 reduces_S1024x1024_S1024 (.inl rfl) rfl)
        shapeCasts_S1024_S1024x1 (ix2 n (0 : Fin 1))
      = Finset.univ.sup fun k : Fin 1024 => (src (ix2 n k) : EReal) := by
  refine (shapeCast_col_apply _ n).trans ?_
  refine (Ideal.multiReduction_maximumf_single src _ reduces_S1024x1024_S1024 _ _ (ix1 n)).trans ?_
  have hf : (src ∘ reduces_S1024x1024_S1024.lift (ix1 n)) = fun k : Fin 1024 => (src (ix2 n k) : EReal) :=
    funext fun k => congrArg src (lift_row n k)
  rw [hf]
  show Finset.univ.fold max (Ideal.ofBits .f32 0xFF800000#32) _ = _
  rw [ofBits_neg_inf]
  rfl

theorem rowSum_apply (src : FVec Ideal S1024x1024 .f32) (n : Fin 1024) :
    shapeCast S1024x1 (multiReduction (F := Ideal) .add [1] S1024 src 0x00000000#32 reduces_S1024x1024_S1024 (.inl rfl) rfl)
        shapeCasts_S1024_S1024x1 (ix2 n (0 : Fin 1))
      = ∑ k : Fin 1024, (src (ix2 n k) : EReal) := by
  refine (shapeCast_col_apply _ n).trans ?_
  refine (Ideal.multiReduction_add_single src _ reduces_S1024x1024_S1024 _ _ (ix1 n)).trans ?_
  exact Finset.sum_congr rfl fun k _ => congrArg src (lift_row n k)

variable (i : grid0.Coords) (x w : FVec Ideal S1024x512 .bf16) (b : FVec Ideal S1024 .f32)

theorem pay8_apply (m : FVec Ideal S1024x1 .f32) (n : Fin 1024) :
    k0_pay8 (F := Ideal) i x w b m (ix2 n (0 : Fin 1))
      = max (m (ix2 n (0 : Fin 1)) : EReal) (Finset.univ.sup fun k : Fin 1024 => (k0_pay7 (F := Ideal) i x w b (ix2 n k) : EReal)) := by
  unfold k0_pay8
  refine (maximumf_apply _ _ _).trans ?_
  exact congrArg (max (m (ix2 n (0 : Fin 1)) : EReal)) (rowMax_apply _ n)

theorem pay9_apply (m l : FVec Ideal S1024x1 .f32) (n : Fin 1024) :
    k0_pay9 (F := Ideal) i x w b m l (ix2 n (0 : Fin 1))
      = (Ideal.exp ((m (ix2 n (0 : Fin 1)) : EReal) - k0_pay8 (F := Ideal) i x w b m (ix2 n (0 : Fin 1))) * (l (ix2 n (0 : Fin 1)) : EReal)
        + ∑ k : Fin 1024, Ideal.exp ((k0_pay7 (F := Ideal) i x w b (ix2 n k) : EReal) - k0_pay8 (F := Ideal) i x w b m (ix2 n (0 : Fin 1))) : EReal) := by
  unfold k0_pay9
  refine (shapeCast_self_apply _ _ _).trans ?_
  refine (addf_apply _ _ _).trans ?_
  refine congrArg₂ (fun p q : EReal => p + q) rfl ?_
  refine (rowSum_apply _ n).trans ?_
  refine Finset.sum_congr rfl fun k _ => ?_
  show Ideal.exp ((k0_pay7 (F := Ideal) i x w b (ix2 n k) : EReal)
      - broadcastTo S1024x1024 (k0_pay8 (F := Ideal) i x w b m) broadcasts_S1024x1_S1024x1024 (ix2 n k)) = _
  rw [broadcastTo_col_apply]

theorem pay1_apply (m l : FVec Ideal S1024x1 .f32) (acc : FVec Ideal S1024x4 .f32) (n : Fin 1024) (q : Fin 4) :
    k0_pay1 (F := Ideal) m l acc (ix2 n q)
      = ((acc (ix2 n q) : EReal) - ((m (ix2 n (0 : Fin 1)) : EReal) + Ideal.log (l (ix2 n (0 : Fin 1)))) : EReal) := by
  unfold k0_pay1
  refine (subf_apply _ _ _).trans ?_
  refine congrArg (fun p : EReal => (acc (ix2 n q) : EReal) - p) ?_
  exact broadcastTo_col_apply _ _ n q

end Cert.KernelIdeal.H.R0V

end
-- ==== Proof.KI.R0ValueOnehot.lean ====
import proofs.«416365_j66236985639681_1_alg».proof.Proof.KI.R0ValueReduce

noncomputable section

namespace Cert.KernelIdeal.H.R0V

open Cert.KernelIdeal Cert.KernelIdeal.Gen
open Idealize.ShloMosaic Idealize.ShloMosaic.TcCoe Idealize.ShloMosaic.ValueIdx

theorem onehot_apply (cols sel : IVec S1024x1024 32) (lg : FVec Ideal S1024x1024 .f32) (n : Fin 1024) :
    shapeCast S1024x1 (multiReduction (F := Ideal) .add [1] S1024
        (select (cmpi .eq cols sel) lg (broadcast S1024x1024 (Scalar.ofBits (F := Ideal) .f32 0x00000000#32)))
        0x00000000#32 reduces_S1024x1024_S1024 (.inl rfl) rfl) shapeCasts_S1024_S1024x1 (ix2 n (0 : Fin 1))
      = ∑ k : Fin 1024, if cols (ix2 n k) = sel (ix2 n k) then (lg (ix2 n k) : EReal) else 0 := by
  refine (rowSum_apply _ n).trans ?_
  refine Finset.sum_congr rfl fun k _ => ?_
  show Scalar.select (IntOp.cmpi .eq (cols (ix2 n k)) (sel (ix2 n k))) (lg (ix2 n k) : EReal) (Ideal.ofBits .f32 0x00000000#32) = _
  by_cases h : cols (ix2 n k) = sel (ix2 n k)
  · rw [StableHlo.Predicate.cmpi_eq_iff.2 h, select_one, if_pos h]
  · rw [eq_zero_of_ne_one (fun h1 => h (StableHlo.Predicate.cmpi_eq_iff.1 h1)), select_zero, if_neg h]
    exact Ideal.ofBits_zero_f32

theorem concat4_apply {α : Type} (p0 p1 p2 p3 : S1024x1.Idx → α) (n : Fin 1024) :
    concatenate S1024x4 1 [⟨S1024x1, p0⟩, ⟨S1024x1, p1⟩, ⟨S1024x1, p2⟩, ⟨S1024x1, p3⟩]
        concatenates_S1024x1_S1024x1_S1024x1_S1024x1_S1024x4_d1 (ix2 n (0 : Fin 4)) = p0 (ix2 n (0 : Fin 1))
    ∧ concatenate S1024x4 1 [⟨S1024x1, p0⟩, ⟨S1024x1, p1⟩, ⟨S1024x1, p2⟩, ⟨S1024x1, p3⟩]
        concatenates_S1024x1_S1024x1_S1024x1_S1024x1_S1024x4_d1 (ix2 n (1 : Fin 4)) = p1 (ix2 n (0 : Fin 1))
    ∧ concatenate S1024x4 1 [⟨S1024x1, p0⟩, ⟨S1024x1, p1⟩, ⟨S1024x1, p2⟩, ⟨S1024x1, p3⟩]
        concatenates_S1024x1_S1024x1_S1024x1_S1024x1_S1024x4_d1 (ix2 n (2 : Fin 4)) = p2 (ix2 n (0 : Fin 1))
    ∧ concatenate S1024x4 1 [⟨S1024x1, p0⟩, ⟨S1024x1, p1⟩, ⟨S1024x1, p2⟩, ⟨S1024x1, p3⟩]
        concatenates_S1024x1_S1024x1_S1024x1_S1024x1_S1024x4_d1 (ix2 n (3 : Fin 4)) = p3 (ix2 n (0 : Fin 1)) := by
  have hi : ∀ (q : Fin 4) (b : Fin S1024x1.rank), b.cast (rfl : S1024x1.rank = S1024x4.rank) ≠ (1 : Fin S1024x4.rank) →
      ((ix2 n (0 : Fin 1) : S1024x1.Idx) b).val = ((ix2 n q : S1024x4.Idx) (b.cast rfl)).val := fun q b hb =>
    match b, hb with
    | ⟨0, _⟩, _ => rfl
    | ⟨1, _⟩, hb => absurd rfl hb
  refine ⟨?_, ?_, ?_, ?_⟩
  · exact concatenate_apply_piece (1 : Fin S1024x4.rank) _ _ (ix2 n (0 : Fin 4)) 0 (by show 0 < 4; omega) S1024x1 p0 rfl rfl 0 rfl (ix2 n (0 : Fin 1)) (hi 0) rfl
  · exact concatenate_apply_piece (1 : Fin S1024x4.rank) _ _ (ix2 n (1 : Fin 4)) 1 (by show 1 < 4; omega) S1024x1 p1 rfl rfl 1 rfl (ix2 n (0 : Fin 1)) (hi 1) rfl
  · exact concatenate_apply_piece (1 : Fin S1024x4.rank) _ _ (ix2 n (2 : Fin 4)) 2 (by show 2 < 4; omega) S1024x1 p2 rfl rfl 2 rfl (ix2 n (0 : Fin 1)) (hi 2) rfl
  · exact concatenate_apply_piece (1 : Fin S1024x4.rank) _ _ (ix2 n (3 : Fin 4)) 3 (by show 3 < 4; omega) S1024x1 p3 rfl rfl 3 rfl (ix2 n (0 : Fin 1)) (hi 3) rfl

theorem pay11_apply (cols : IVec S1024x1024 32) (lg : FVec Ideal S1024x1024 .f32) (tg : IVec S1024x1 32)
    (acc : FVec Ideal S1024x4 .f32) (n : Fin 1024) :
    k0_pay11 (F := Ideal) cols lg tg acc (ix2 n (0 : Fin 4))
        = ((acc (ix2 n (0 : Fin 4)) : EReal) + ∑ k : Fin 1024, if cols (ix2 n k) = tg (ix2 n (0 : Fin 1)) then (lg (ix2 n k) : EReal) else 0 : EReal)
    ∧ k0_pay11 (F := Ideal) cols lg tg acc (ix2 n (1 : Fin 4))
        = ((acc (ix2 n (1 : Fin 4)) : EReal) + ∑ k : Fin 1024, if cols (ix2 n k) = 20002#32 then (lg (ix2 n k) : EReal) else 0 : EReal)
    ∧ k0_pay11 (F := Ideal) cols lg tg acc (ix2 n (2 : Fin 4))
        = ((acc (ix2 n (2 : Fin 4)) : EReal) + ∑ k : Fin 1024, if cols (ix2 n k) = 20001#32 then (lg (ix2 n k) : EReal) else 0 : EReal)
    ∧ k0_pay11 (F := Ideal) cols lg tg acc (ix2 n (3 : Fin 4))
        = ((acc (ix2 n (3 : Fin 4)) : EReal) + ∑ k : Fin 1024, if cols (ix2 n k) = 20000#32 then (lg (ix2 n k) : EReal) else 0 : EReal) := by
  unfold k0_pay11
  obtain ⟨c0, c1, c2, c3⟩ := concat4_apply (α := EReal)
    (shapeCast S1024x1 (multiReduction (F := Ideal) .add [1] S1024
        (select (cmpi .eq cols (broadcastTo S1024x1024 (shapeCast S1024x1 tg shapeCasts_S1024x1_S1024x1) broadcasts_S1024x1_S1024x1024)) lg (broadcast S1024x1024 (Scalar.ofBits (F := Ideal) .f32 0x00000000#32)))
        0x00000000#32 reduces_S1024x1024_S1024 (.inl rfl) rfl) shapeCasts_S1024_S1024x1)
    (shapeCast S1024x1 (multiReduction (F := Ideal) .add [1] S1024
        (select (cmpi .eq cols (broadcast S1024x1024 20002#32)) lg (broadcast S1024x1024 (Scalar.ofBits (F := Ideal) .f32 0x00000000#32)))
        0x00000000#32 reduces_S1024x1024_S1024 (.inl rfl) rfl) shapeCasts_S1024_S1024x1)
    (shapeCast S1024x1 (multiReduction (F := Ideal) .add [1] S1024
        (select (cmpi .eq cols (broadcast S1024x1024 20001#32)) lg (broadcast S1024x1024 (Scalar.ofBits (F := Ideal) .f32 0x00000000#32)))
        0x00000000#32 reduces_S1024x1024_S1024 (.inl rfl) rfl) shapeCasts_S1024_S1024x1)
    (shapeCast S1024x1 (multiReduction (F := Ideal) .add [1] S1024
        (select (cmpi .eq cols (broadcast S1024x1024 20000#32)) lg (broadcast S1024x1024 (Scalar.ofBits (F := Ideal) .f32 0x00000000#32)))
        0x00000000#32 reduces_S1024x1024_S1024 (.inl rfl) rfl) shapeCasts_S1024_S1024x1) n
  refine ⟨?_, ?_, ?_, ?_⟩
  · refine (shapeCast_self_apply _ _ _).trans ((addf_apply _ _ _).trans ?_)
    refine congrArg (fun p : EReal => (acc (ix2 n (0 : Fin 4)) : EReal) + p) (c0.trans ((onehot_apply _ _ _ n).trans ?_))
    refine Finset.sum_congr rfl fun k _ => ?_
    have e : broadcastTo S1024x1024 (shapeCast S1024x1 tg shapeCasts_S1024x1_S1024x1) broadcasts_S1024x1_S1024x1024 (ix2 n k) = tg (ix2 n (0 : Fin 1)) :=
      (broadcastTo_col_apply _ _ n k).trans (shapeCast_self_apply _ _ _)
    rw [e]
  · refine (shapeCast_self_apply _ _ _).trans ((addf_apply _ _ _).trans ?_)
    exact congrArg (fun p : EReal => (acc (ix2 n (1 : Fin 4)) : EReal) + p) (c1.trans (onehot_apply _ _ _ n))
  · refine (shapeCast_self_apply _ _ _).trans ((addf_apply _ _ _).trans ?_)
    exact congrArg (fun p : EReal => (acc (ix2 n (2 : Fin 4)) : EReal) + p) (c2.trans (onehot_apply _ _ _ n))
  · refine (shapeCast_self_apply _ _ _).trans ((addf_apply _ _ _).trans ?_)
    exact congrArg (fun p : EReal => (acc (ix2 n (3 : Fin 4)) : EReal) + p) (c3.trans (onehot_apply _ _ _ n))

end Cert.KernelIdeal.H.R0V

end
-- ==== Proof.KI.R0ValueBlocks.lean ====
import proofs.«416365_j66236985639681_1_alg».proof.Proof.KI.R0State
import Idealize.ShloMosaic.Lib.ValueIdx

noncomputable section

namespace Cert.KernelIdeal.H.R0V

open Cert.KernelIdeal Cert.KernelIdeal.Gen Cert.KernelIdeal.H
open Idealize.ShloMosaic Idealize.ShloMosaic.TcCoe Idealize.ShloMosaic.ValueIdx

variable {F : FTy → Type} [FloatOps F] [Named F]

theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 1) = t.val
    ∧ win0_4.index t (0 : Fin 2) = 0 ∧ win0_4.index t (1 : Fin 2) = 0 :=
  (by decide +kernel : ∀ t : Fin grid0.N, _)

variable (V : Val F) (c : Dev nD)

theorem hidden_apply (n : Fin 1024) (d : Fin 512) : R0.hidden V c (ix2 n d) = V c main_v0 (ix2 n d) := by
  obtain ⟨e0, e1, -⟩ := idx_facts R0.t0
  show V c main_v0 (((cfg0.win 0).blk R0.t0).view.emb (ix2 n d)) = _
  refine congrArg (V c main_v0) (funext fun a => Fin.ext ?_)
  match a with
  | ⟨0, _⟩ => show win0_0.index R0.t0 (0 : Fin 2) * 1024 + 1 * n.val = n.val; omega
  | ⟨1, _⟩ => show win0_0.index R0.t0 (1 : Fin 2) * 512 + 1 * d.val = d.val; omega

theorem proj_apply (d : Fin 512) (e : Fin 512) : R0.proj V c (ix2 d e) = V c main_v6 (ix2 d e) := by
  obtain ⟨-, -, e0, e1, -⟩ := idx_facts R0.t0
  show V c main_v6 (((cfg0.win 1).blk R0.t0).view.emb (ix2 d e)) = _
  refine congrArg (V c main_v6) (funext fun a => Fin.ext ?_)
  match a with
  | ⟨0, _⟩ => show win0_1.index R0.t0 (0 : Fin 2) * 512 + 1 * d.val = d.val; omega
  | ⟨1, _⟩ => show win0_1.index R0.t0 (1 : Fin 2) * 512 + 1 * e.val = e.val; omega

theorem wt_apply (t : Fin cfg0.N) (r : Fin 1024) (e : Fin 512) :
    R0.wt V c t (ix2 r e) = V c main_v4 (ix2 (⟨t.val * 1024 + r.val, by have := t.isLt; have : cfg0.N = 20 := rfl; omega⟩ : Fin 20480) e) := by
  obtain ⟨-, -, -, -, e0, e1, -⟩ := idx_facts t
  show V c main_v4 (((cfg0.win 2).blk t).view.emb (ix2 r e)) = _
  refine congrArg (V c main_v4) (funext fun a => Fin.ext ?_)
  match a with
  | ⟨0, _⟩ => show win0_2.index t (0 : Fin 2) * 1024 + 1 * r.val = t.val * 1024 + r.val; omega
  | ⟨1, _⟩ => show win0_2.index t (1 : Fin 2) * 512 + 1 * e.val = e.val; omega

theorem bt_apply (t : Fin cfg0.N) (r : Fin 1024) :
    R0.bt V c t (ix1 r) = V c main_v5 (ix1 (⟨t.val * 1024 + r.val, by have := t.isLt; have : cfg0.N = 20 := rfl; omega⟩ : Fin 20480)) := by
  obtain ⟨-, -, -, -, -, -, e0, -⟩ := idx_facts t
  show V c main_v5 (((cfg0.win 3).blk t).view.emb (ix1 r)) = _
  refine congrArg (V c main_v5) (funext fun a => Fin.ext ?_)
  match a with
  | ⟨0, _⟩ => show win0_3.index t (0 : Fin 1) * 1024 + 1 * r.val = t.val * 1024 + r.val; omega

theorem tgt_apply (n : Fin 1024) : R0.tgt V c (ix2 n (0 : Fin 1)) = V c main_v8 (ix2 n (0 : Fin 1)) := by
  obtain ⟨-, -, -, -, -, -, -, e0, e1⟩ := idx_facts R0.t0
  show V c main_v8 (((cfg0.win 4).blk R0.t0).view.emb (ix2 n (0 : Fin 1))) = _
  refine congrArg (V c main_v8) (funext fun a => Fin.ext ?_)
  match a with
  | ⟨0, _⟩ => show win0_4.index R0.t0 (0 : Fin 2) * 1024 + 1 * n.val = n.val; omega
  | ⟨1, _⟩ => show win0_4.index R0.t0 (1 : Fin 2) * 1 + 1 * 0 = 0; omega

end Cert.KernelIdeal.H.R0V

end
-- ==== Proof.LibOnlineLogSumExp.lean ====
import Idealize.ShloMosaic.PureOps.Ideal
import Mathlib.Algebra.BigOperators.Fin

noncomputable section

namespace Cert.LibOnlineLogSumExp

open Idealize.ShloMosaic

variable {T B V : ℕ}

def runMax (mx : Fin T → EReal) : ℕ → EReal
  | 0 => ⊥
  | n + 1 => if h : n < T then max (runMax mx n) (mx ⟨n, h⟩) else runMax mx n

def runSum (x : Fin T → Fin B → EReal) (mx : Fin T → EReal) : ℕ → EReal
  | 0 => 0
  | n + 1 =>
    if h : n < T then
      Ideal.exp (runMax mx n - runMax mx (n + 1)) * runSum x mx n
        + ∑ k : Fin B, Ideal.exp (x ⟨n, h⟩ k - runMax mx (n + 1))
    else runSum x mx n

def runAcc (x : Fin T → Fin B → EReal) (idx : ℕ) : ℕ → EReal
  | 0 => 0
  | n + 1 =>
    if h : n < T then
      runAcc x idx n + ∑ k : Fin B, (if n * B + k.val = idx then x ⟨n, h⟩ k else 0)
    else runAcc x idx n

@[simp] theorem runMax_zero (mx : Fin T → EReal) : runMax mx 0 = ⊥ := rfl

theorem runMax_succ (mx : Fin T → EReal) {n : ℕ} (h : n < T) :
    runMax mx (n + 1) = max (runMax mx n) (mx ⟨n, h⟩) := by
  simp only [runMax, dif_pos h]

@[simp] theorem runSum_zero (x : Fin T → Fin B → EReal) (mx : Fin T → EReal) : runSum x mx 0 = 0 := rfl

theorem runSum_succ (x : Fin T → Fin B → EReal) (mx : Fin T → EReal) {n : ℕ} (h : n < T) :
    runSum x mx (n + 1)
      = Ideal.exp (runMax mx n - runMax mx (n + 1)) * runSum x mx n
          + ∑ k : Fin B, Ideal.exp (x ⟨n, h⟩ k - runMax mx (n + 1)) := by
  simp only [runSum, dif_pos h]

@[simp] theorem runAcc_zero (x : Fin T → Fin B → EReal) (idx : ℕ) : runAcc x idx 0 = 0 := rfl

theorem runAcc_succ (x : Fin T → Fin B → EReal) (idx : ℕ) {n : ℕ} (h : n < T) :
    runAcc x idx (n + 1)
      = runAcc x idx n + ∑ k : Fin B, (if n * B + k.val = idx then x ⟨n, h⟩ k else 0) := by
  simp only [runAcc, dif_pos h]

theorem coe_finsetSum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sub_add_real (a M L : ℝ) :
    (a : EReal) - ((M : EReal) + (L : EReal)) = ((a : EReal) - (M : EReal)) - (L : EReal) := by
  rw [← EReal.coe_add, ← EReal.coe_sub, ← EReal.coe_sub, ← EReal.coe_sub, sub_add_eq_sub_sub]

def padded (r : Fin V → ℝ) (i : ℕ) : EReal := if h : i < V then (r ⟨i, h⟩ : EReal) else ⊥

def shiftedExp (r : Fin V → ℝ) (μ : ℝ) (i : ℕ) : ℝ := if h : i < V then Real.exp (r ⟨i, h⟩ - μ) else 0

theorem exp_padded_sub (r : Fin V → ℝ) (μ : ℝ) (i : ℕ) :
    Ideal.exp (padded r i - (μ : EReal)) = (shiftedExp r μ i : EReal) := by
  unfold padded shiftedExp
  by_cases h : i < V
  · rw [dif_pos h, dif_pos h, ← EReal.coe_sub, Ideal.exp_coe]
  · rw [dif_neg h, dif_neg h, EReal.bot_sub, Ideal.exp_bot, EReal.coe_zero]

theorem shiftedExp_rescale (r : Fin V → ℝ) (μ μ' : ℝ) (i : ℕ) :
    Real.exp (μ - μ') * shiftedExp r μ i = shiftedExp r μ' i := by
  unfold shiftedExp
  by_cases h : i < V
  · rw [dif_pos h, dif_pos h, ← Real.exp_add]; congr 1; ring
  · rw [dif_neg h, dif_neg h, mul_zero]

theorem sum_shiftedExp_cover (r : Fin V → ℝ) (μ : ℝ) {N : ℕ} (hN : V ≤ N) :
    ∑ i ∈ Finset.range N, shiftedExp r μ i = ∑ i ∈ Finset.range V, shiftedExp r μ i := by
  symm
  apply Finset.sum_subset (Finset.range_subset_range.2 hN)
  intro i _ hi
  unfold shiftedExp
  rw [dif_neg (by simpa using hi)]

theorem sum_exp_sub (r : Fin V → ℝ) (μ : ℝ) :
    ∑ v : Fin V, Ideal.exp ((r v : EReal) - (μ : EReal)) = ((∑ i ∈ Finset.range V, shiftedExp r μ i : ℝ) : EReal) := by
  rw [coe_finsetSum, ← Fin.sum_univ_eq_sum_range (fun i => (shiftedExp r μ i : EReal)) V]
  apply Finset.sum_congr rfl
  intro v _
  unfold shiftedExp
  rw [dif_pos v.isLt, ← EReal.coe_sub, Ideal.exp_coe]

section Real

variable (x : Fin T → Fin B → EReal) (mx : Fin T → EReal) (r : Fin V → ℝ)

theorem mx_real
    (hne : ∀ j : Fin T, j.val * B < V)
    (hx : ∀ (j : Fin T) (k : Fin B), x j k = padded r (j.val * B + k.val))
    (hmx_le : ∀ j k, x j k ≤ mx j) (hmx_mem : ∀ j, ∃ k, mx j = x j k) (j : Fin T) :
    ∃ v : Fin V, mx j = (r v : EReal) := by
  obtain ⟨k, hk⟩ := hmx_mem j
  by_cases h : j.val * B + k.val < V
  · exact ⟨⟨_, h⟩, by rw [hk, hx, padded, dif_pos h]⟩
  · exfalso
    have h0 := hmx_le j ⟨0, k.pos⟩
    rw [hk, hx, hx, padded, padded, dif_neg h, dif_pos (by simpa using hne j)] at h0
    exact EReal.coe_ne_bot _ (le_bot_iff.1 h0)

theorem runMax_attained
    (hne : ∀ j : Fin T, j.val * B < V)
    (hx : ∀ (j : Fin T) (k : Fin B), x j k = padded r (j.val * B + k.val))
    (hmx_le : ∀ j k, x j k ≤ mx j) (hmx_mem : ∀ j, ∃ k, mx j = x j k)
    {n : ℕ} (h1 : 1 ≤ n) (hn : n ≤ T) :
    ∃ v : Fin V, runMax mx n = (r v : EReal) := by
  induction n, h1 using Nat.le_induction with
  | base =>
    have h : 0 < T := hn
    obtain ⟨w, hw⟩ := mx_real x mx r hne hx hmx_le hmx_mem ⟨0, h⟩
    exact ⟨w, by rw [runMax_succ mx h, runMax_zero, max_eq_right bot_le, hw]⟩
  | succ n _ ih =>
    have h : n < T := hn
    obtain ⟨v, hv⟩ := ih (le_of_lt h)
    obtain ⟨w, hw⟩ := mx_real x mx r hne hx hmx_le hmx_mem ⟨n, h⟩
    rw [runMax_succ mx h, hv, hw]
    rcases le_total (r v : EReal) (r w : EReal) with hle | hle
    · exact ⟨w, max_eq_right hle⟩
    · exact ⟨v, max_eq_left hle⟩

theorem le_runMax
    (hx : ∀ (j : Fin T) (k : Fin B), x j k = padded r (j.val * B + k.val))
    (hmx_le : ∀ j k, x j k ≤ mx j)
    {n : ℕ} (hn : n ≤ T) {i : ℕ} (hi : i < n * B) :
    padded r i ≤ runMax mx n := by
  induction n with
  | zero => simp at hi
  | succ n ih =>
    have h : n < T := hn
    rw [runMax_succ mx h]
    by_cases hlt : i < n * B
    · exact le_trans (ih (le_of_lt h) hlt) (le_max_left _ _)
    · rw [Nat.succ_mul] at hi
      have hk : i - n * B < B := by omega
      have hxi : x ⟨n, h⟩ ⟨i - n * B, hk⟩ = padded r i := by
        rw [hx]; congr 1; simp only; omega
      rw [← hxi]
      exact le_trans (hmx_le _ _) (le_max_right _ _)

theorem tile_sum
    (hx : ∀ (j : Fin T) (k : Fin B), x j k = padded r (j.val * B + k.val))
    {n : ℕ} (h : n < T) (μ : ℝ) :
    ∑ k : Fin B, Ideal.exp (x ⟨n, h⟩ k - (μ : EReal))
      = ((∑ k ∈ Finset.range B, shiftedExp r μ (n * B + k) : ℝ) : EReal) := by
  rw [coe_finsetSum, ← Fin.sum_univ_eq_sum_range (fun k => (shiftedExp r μ (n * B + k) : EReal)) B]
  apply Finset.sum_congr rfl
  intro k _
  rw [hx, exp_padded_sub]

theorem runSum_real
    (hne : ∀ j : Fin T, j.val * B < V)
    (hx : ∀ (j : Fin T) (k : Fin B), x j k = padded r (j.val * B + k.val))
    (hmx_le : ∀ j k, x j k ≤ mx j) (hmx_mem : ∀ j, ∃ k, mx j = x j k)
    {n : ℕ} (hn : n ≤ T) (μ : ℝ) (hμ : runMax mx n = (μ : EReal)) :
    runSum x mx n = ((∑ i ∈ Finset.range (n * B), shiftedExp r μ i : ℝ) : EReal) := by
  induction n generalizing μ with
  | zero => exact absurd hμ.symm (EReal.coe_ne_bot μ)
  | succ n ih =>
    have h : n < T := hn
    rw [runSum_succ x mx h, hμ, tile_sum x r hx h μ]
    rcases Nat.eq_zero_or_pos n with rfl | hpos
    · rw [runSum_zero, mul_zero, zero_add]
      simp only [Nat.zero_mul, zero_add, Nat.one_mul]
    · obtain ⟨v, hv⟩ := runMax_attained x mx r hne hx hmx_le hmx_mem hpos (le_of_lt h)
      rw [hv, ih (le_of_lt h) (r v) hv, ← EReal.coe_sub, Ideal.exp_coe, ← EReal.coe_mul, ← EReal.coe_add,
        Finset.mul_sum, Nat.succ_mul, Finset.sum_range_add]
      congr 2
      exact Finset.sum_congr rfl (fun i _ => shiftedExp_rescale r (r v) μ i)

theorem runAcc_eq_sum
    (hx : ∀ (j : Fin T) (k : Fin B), x j k = padded r (j.val * B + k.val))
    (idx : ℕ) {n : ℕ} (hn : n ≤ T) :
    runAcc x idx n = ∑ i ∈ Finset.range (n * B), (if i = idx then padded r i else 0) := by
  induction n with
  | zero => simp
  | succ n ih =>
    have h : n < T := hn
    rw [runAcc_succ x idx h, ih (le_of_lt h), Nat.succ_mul, Finset.sum_range_add,
      ← Fin.sum_univ_eq_sum_range (fun k => if n * B + k = idx then padded r (n * B + k) else 0) B]
    congr 1
    apply Finset.sum_congr rfl
    intro k _
    rw [hx]

end Real

section Last

variable (x : Fin T → Fin B → EReal) (mx : Fin T → EReal) (r : Fin V → ℝ)

theorem one_le_tiles (hV : 0 < V) (hcov : V ≤ T * B) : 1 ≤ T := by
  rcases Nat.eq_zero_or_pos T with rfl | h
  · rw [Nat.zero_mul] at hcov; omega
  · exact h

theorem shiftedExp_nonneg (μ : ℝ) (i : ℕ) : 0 ≤ shiftedExp r μ i := by
  unfold shiftedExp
  by_cases h : i < V
  · rw [dif_pos h]; exact (Real.exp_pos _).le
  · rw [dif_neg h]

theorem one_le_sum_shiftedExp (v0 : Fin V) : 1 ≤ ∑ i ∈ Finset.range V, shiftedExp r (r v0) i := by
  have h1 : shiftedExp r (r v0) v0.val = 1 := by
    unfold shiftedExp; rw [dif_pos v0.isLt]; simp
  calc (1 : ℝ) = shiftedExp r (r v0) v0.val := h1.symm
    _ ≤ ∑ i ∈ Finset.range V, shiftedExp r (r v0) i :=
      Finset.single_le_sum (f := fun i => shiftedExp r (r v0) i) (fun i _ => shiftedExp_nonneg r (r v0) i)
        (Finset.mem_range.2 v0.isLt)

theorem runMax_last_real
    (hV : 0 < V) (hcov : V ≤ T * B) (hne : ∀ j : Fin T, j.val * B < V)
    (hx : ∀ (j : Fin T) (k : Fin B), x j k = padded r (j.val * B + k.val))
    (hmx_le : ∀ j k, x j k ≤ mx j) (hmx_mem : ∀ j, ∃ k, mx j = x j k) :
    ∃ v0 : Fin V, runMax mx T = (r v0 : EReal)
      ∧ Finset.univ.sup (fun v => (r v : EReal)) = (r v0 : EReal) := by
  obtain ⟨v0, h0⟩ := runMax_attained x mx r hne hx hmx_le hmx_mem (one_le_tiles hV hcov) le_rfl
  refine ⟨v0, h0, le_antisymm (Finset.sup_le fun v _ => ?_)
    (Finset.le_sup (f := fun v => (r v : EReal)) (Finset.mem_univ v0))⟩
  have hle := le_runMax x mx r hx hmx_le le_rfl (lt_of_lt_of_le v.isLt hcov)
  rw [padded, dif_pos v.isLt, h0] at hle
  exact hle

theorem runSum_last_real
    (hcov : V ≤ T * B) (hne : ∀ j : Fin T, j.val * B < V)
    (hx : ∀ (j : Fin T) (k : Fin B), x j k = padded r (j.val * B + k.val))
    (hmx_le : ∀ j k, x j k ≤ mx j) (hmx_mem : ∀ j, ∃ k, mx j = x j k)
    (μ : ℝ) (hμ : runMax mx T = (μ : EReal)) :
    runSum x mx T = ((∑ i ∈ Finset.range V, shiftedExp r μ i : ℝ) : EReal) := by
  rw [runSum_real x mx r hne hx hmx_le hmx_mem le_rfl μ hμ, sum_shiftedExp_cover r μ hcov]

theorem runAcc_last_real
    (hcov : V ≤ T * B)
    (hx : ∀ (j : Fin T) (k : Fin B), x j k = padded r (j.val * B + k.val))
    (idx : ℕ) (hidx : idx < V) :
    runAcc x idx T = (r ⟨idx, hidx⟩ : EReal) := by
  rw [runAcc_eq_sum x r hx idx le_rfl, Finset.sum_ite_eq' (Finset.range (T * B)) idx (padded r),
    if_pos (Finset.mem_range.2 (lt_of_lt_of_le hidx hcov)), padded, dif_pos hidx]

theorem online_real
    (hV : 0 < V) (hcov : V ≤ T * B) (hne : ∀ j : Fin T, j.val * B < V)
    (hx : ∀ (j : Fin T) (k : Fin B), x j k = padded r (j.val * B + k.val))
    (hmx_le : ∀ j k, x j k ≤ mx j) (hmx_mem : ∀ j, ∃ k, mx j = x j k)
    (idx : ℕ) (hidx : idx < V) :
    runAcc x idx T - (runMax mx T + Ideal.log (runSum x mx T))
      = ((r ⟨idx, hidx⟩ : EReal) - Finset.univ.sup (fun v => (r v : EReal)))
          - Ideal.log (∑ v, Ideal.exp ((r v : EReal) - Finset.univ.sup (fun v => (r v : EReal)))) := by
  obtain ⟨v0, h0, hs⟩ := runMax_last_real x mx r hV hcov hne hx hmx_le hmx_mem
  have hpos : 0 < ∑ i ∈ Finset.range V, shiftedExp r (r v0) i :=
    lt_of_lt_of_le one_pos (one_le_sum_shiftedExp r v0)
  rw [hs, h0, runSum_last_real x mx r hcov hne hx hmx_le hmx_mem (r v0) h0, sum_exp_sub r (r v0),
    runAcc_last_real x r hcov hx idx hidx, Ideal.log_coe, if_neg (not_le.2 hpos), sub_add_real]

end Last

section Row

variable (x : Fin T → Fin B → EReal) (mx : Fin T → EReal) (y : Fin V → EReal)

theorem exists_real_row
    (hx : ∀ (j : Fin T) (k : Fin B),
      x j k = if h : j.val * B + k.val < V then y ⟨j.val * B + k.val, h⟩ else ⊥)
    (hy : ∀ v, ∃ r : ℝ, y v = (r : EReal)) :
    ∃ r : Fin V → ℝ, y = (fun v => (r v : EReal))
      ∧ ∀ (j : Fin T) (k : Fin B), x j k = padded r (j.val * B + k.val) := by
  choose r hr using hy
  have hyr : y = fun v => (r v : EReal) := funext hr
  subst hyr
  exact ⟨r, rfl, fun j k => (hx j k).trans rfl⟩

end Row

theorem online_eq_logSoftmax
    (x : Fin T → Fin B → EReal) (mx : Fin T → EReal) (y : Fin V → EReal) (idx : ℕ)
    (hV : 0 < V) (hcov : V ≤ T * B) (hne : ∀ j : Fin T, j.val * B < V)
    (hx : ∀ (j : Fin T) (k : Fin B),
      x j k = if h : j.val * B + k.val < V then y ⟨j.val * B + k.val, h⟩ else ⊥)
    (hy : ∀ v, ∃ r : ℝ, y v = (r : EReal))
    (hmx_le : ∀ j k, x j k ≤ mx j) (hmx_mem : ∀ j, ∃ k, mx j = x j k)
    (hidx : idx < V) :
    runAcc x idx T - (runMax mx T + Ideal.log (runSum x mx T))
      = (y ⟨idx, hidx⟩ - Finset.univ.sup y)
          - Ideal.log (∑ v, Ideal.exp (y v - Finset.univ.sup y)) := by
  obtain ⟨r, rfl, hx'⟩ := exists_real_row x y hx hy
  exact online_real x mx r hV hcov hne hx' hmx_le hmx_mem idx hidx

end Cert.LibOnlineLogSumExp

end
-- ==== Proof.KI.R0ValueInv.lean ====
import proofs.«416365_j66236985639681_1_alg».proof.Proof.KI.R0ValueOnehot
import proofs.«416365_j66236985639681_1_alg».proof.Proof.KI.R0ValueBlocks
import proofs.«416365_j66236985639681_1_alg».proof.Proof.LibOnlineLogSumExp
import proofs.«416365_j66236985639681_1_alg».proof.Proof.Spec

noncomputable section

namespace Cert.KernelIdeal.H.R0V

open Cert.KernelIdeal Cert.KernelIdeal.Gen
open Idealize.ShloMosaic Idealize.ShloMosaic.TcCoe Idealize.ShloMosaic.ValueIdx

open Cert.KernelIdeal.H Cert.LibOnlineLogSumExp

abbrev nTrue : ℕ := 20003

abbrev nShort : ℕ := 20000

abbrev nTiles : ℕ := 20

abbrev tileW : ℕ := 1024

abbrev nPad : ℕ := 20480

abbrev embW : ℕ := 512

theorem coords_val : ∀ t : Fin cfg0.N, (cfg0.grid.coords t 0).val = t.val :=
  (by decide +kernel : ∀ t : Fin grid0.N, (grid0.coords t 0).val = t.val)

theorem ofNat_eq_iff (p q : ℕ) (hp : p < 2 ^ 32) (hq : q < 2 ^ 32) : BitVec.ofNat 32 p = BitVec.ofNat 32 q ↔ p = q := by
  constructor
  · intro e
    have e' := congrArg BitVec.toNat e
    rw [BitVec.toNat_ofNat, BitVec.toNat_ofNat, Nat.mod_eq_of_lt hp, Nat.mod_eq_of_lt hq] at e'
    exact e'
  · intro e; rw [e]

section Rows

variable (V : Val Ideal) (c : Dev nD)
  (h : Fin 1024 → Fin 512 → EReal) (P : Fin 512 → Fin embW → EReal)
  (W : Fin nTrue → Fin embW → EReal) (b : Fin nTrue → EReal)

def xs (n : Fin 1024) (j : Fin nTiles) (k : Fin tileW) : EReal :=
  if hv : j.val * tileW + k.val < nTrue then Cert.Spec.logits (Cert.Spec.proj h P) W b n ⟨j.val * tileW + k.val, hv⟩ else ⊥

def mx (n : Fin 1024) (j : Fin nTiles) : EReal := Finset.univ.sup fun k : Fin tileW => xs h P W b n j k

variable (hH : ∀ (n : Fin 1024) (d : Fin 512), V c main_v0 (ix2 n d) = h n d)
  (hP : ∀ (d : Fin 512) (e : Fin embW), V c main_v6 (ix2 d e) = P d e)
  (hW : ∀ (v : Fin nPad) (e : Fin embW), V c main_v4 (ix2 v e) = if hv : v.val < nTrue then W ⟨v.val, hv⟩ e else 0)
  (hB : ∀ v : Fin nPad, V c main_v5 (ix1 v) = if hv : v.val < nTrue then b ⟨v.val, hv⟩ else 0)

include hH hP in

theorem xproj_apply (n : Fin 1024) (e : Fin embW) :
    k0_pay2 (F := Ideal) (R0.hidden V c) (R0.proj V c) (ix2 n e) = Cert.Spec.proj h P n e := by
  rw [pay2_apply]
  unfold Cert.Spec.proj
  refine Finset.sum_congr rfl fun d _ => ?_
  rw [hidden_apply, proj_apply, hH, hP]

include hH hP hW hB in

theorem masked_eq (t : Fin cfg0.N) (n k : Fin 1024) :
    k0_pay7 (F := Ideal) (cfg0.grid.coords t) (k0_pay2 (F := Ideal) (R0.hidden V c) (R0.proj V c)) (R0.wt V c t) (R0.bt V c t) (ix2 n k)
      = xs h P W b n ⟨t.val, t.isLt⟩ k := by
  rw [pay7_apply, coords_val t]
  unfold xs
  by_cases hv : t.val * 1024 + k.val < 20003
  · rw [if_pos hv, dif_pos hv]
    unfold Cert.Spec.logits
    refine congrArg₂ (fun p q : EReal => p + q) (Finset.sum_congr rfl fun e _ => ?_) ?_
    · rw [xproj_apply V c h P hH hP n e, wt_apply V c t k e, hW, dif_pos hv]
    · rw [bt_apply V c t k, hB, dif_pos hv]
  · rw [if_neg hv, dif_neg hv]

end Rows

section Run

variable (V : Val Ideal) (c : Dev nD)
  (h : Fin 1024 → Fin 512 → EReal) (P : Fin 512 → Fin embW → EReal)
  (W : Fin nTrue → Fin embW → EReal) (b : Fin nTrue → EReal) (idx : Fin 1024 → Fin nShort)

structure Holds (s : R0.St Ideal) (row : Fin 1024) (n : ℕ) : Prop where
  x : s.x = k0_pay2 (F := Ideal) (R0.hidden V c) (R0.proj V c)
  m : (s.m (ix2 row (0 : Fin 1)) : EReal) = runMax (mx h P W b row) n
  l : (s.l (ix2 row (0 : Fin 1)) : EReal) = runSum (xs h P W b row) (mx h P W b row) n
  a0 : (s.acc (ix2 row (0 : Fin 4)) : EReal) = runAcc (xs h P W b row) (idx row).val n
  a1 : (s.acc (ix2 row (1 : Fin 4)) : EReal) = runAcc (xs h P W b row) 20002 n
  a2 : (s.acc (ix2 row (2 : Fin 4)) : EReal) = runAcc (xs h P W b row) 20001 n
  a3 : (s.acc (ix2 row (3 : Fin 4)) : EReal) = runAcc (xs h P W b row) 20000 n

theorem holds_init (row : Fin 1024) : Holds V c h P W b idx (R0.init V c) row 0 :=
  ⟨rfl, pay3_apply (ix2 row (0 : Fin 1)), pay4_apply (ix2 row (0 : Fin 1)), pay5_apply (ix2 row (0 : Fin 4)), pay5_apply (ix2 row (1 : Fin 4)),
    pay5_apply (ix2 row (2 : Fin 4)), pay5_apply (ix2 row (3 : Fin 4))⟩

variable (hH : ∀ (n : Fin 1024) (d : Fin 512), V c main_v0 (ix2 n d) = h n d)
  (hP : ∀ (d : Fin 512) (e : Fin embW), V c main_v6 (ix2 d e) = P d e)
  (hW : ∀ (v : Fin nPad) (e : Fin embW), V c main_v4 (ix2 v e) = if hv : v.val < nTrue then W ⟨v.val, hv⟩ e else 0)
  (hB : ∀ v : Fin nPad, V c main_v5 (ix1 v) = if hv : v.val < nTrue then b ⟨v.val, hv⟩ else 0)
  (hT : ∀ n : Fin 1024, V c main_v8 (ix2 n (0 : Fin 1)) = BitVec.ofNat 32 (idx n).val)

include hH hP hW hB hT in

theorem holds_step (t : Fin cfg0.N) (s : R0.St Ideal) (row : Fin 1024) (hs : Holds V c h P W b idx s row t.val)
    (ht0 : t.val = 0 → s = R0.init V c) : Holds V c h P W b idx (R0.step V c t s) row (t.val + 1) := by
  have hbase : R0.base V c t s = s := by
    unfold R0.base
    split
    · next h0 => exact (ht0 h0).symm
    · rfl
  have ht : t.val < 20 := t.isLt
  have hx7 : ∀ k : Fin 1024, (k0_pay7 (F := Ideal) (cfg0.grid.coords t) s.x (R0.wt V c t) (R0.bt V c t) (ix2 row k) : EReal)
      = xs h P W b row ⟨t.val, ht⟩ k := fun k => by
    rw [hs.x]; exact masked_eq V c h P W b hH hP hW hB t row k
  have hsup : (Finset.univ.sup fun k : Fin 1024 => (k0_pay7 (F := Ideal) (cfg0.grid.coords t) s.x (R0.wt V c t) (R0.bt V c t) (ix2 row k) : EReal))
      = mx h P W b row ⟨t.val, ht⟩ := by
    unfold mx; exact congrArg (Finset.sup Finset.univ) (funext hx7)
  have hm8 : (k0_pay8 (F := Ideal) (cfg0.grid.coords t) s.x (R0.wt V c t) (R0.bt V c t) s.m (ix2 row (0 : Fin 1)) : EReal)
      = runMax (mx h P W b row) (t.val + 1) := by
    rw [pay8_apply, hsup, hs.m, runMax_succ _ ht]
  have hone : ∀ (sel : BitVec 32) (q : ℕ), q < 2 ^ 32 → sel = BitVec.ofNat 32 q →
      (∑ k : Fin 1024, if k0_pay6 (cfg0.grid.coords t) (ix2 row k) = sel
          then (k0_pay7 (F := Ideal) (cfg0.grid.coords t) s.x (R0.wt V c t) (R0.bt V c t) (ix2 row k) : EReal) else 0)
        = ∑ k : Fin tileW, if t.val * tileW + k.val = q then xs h P W b row ⟨t.val, ht⟩ k else 0 := fun sel q hq hsel => by
    refine Finset.sum_congr rfl fun k _ => ?_
    rw [pay6_apply, coords_val t, hsel, hx7 k]
    exact if_congr (ofNat_eq_iff _ _ (by have := k.isLt; omega) hq) rfl rfl
  have htg : R0.tgt V c (ix2 row (0 : Fin 1)) = BitVec.ofNat 32 (idx row).val := (tgt_apply V c row).trans (hT row)
  obtain ⟨c0, c1, c2, c3⟩ := pay11_apply (k0_pay6 (cfg0.grid.coords t))
    (k0_pay7 (F := Ideal) (cfg0.grid.coords t) s.x (R0.wt V c t) (R0.bt V c t)) (R0.tgt V c) s.acc row
  refine ⟨?_, ?_, ?_, ?_, ?_, ?_, ?_⟩
  · show (R0.base V c t s).x = _
    rw [hbase]; exact hs.x
  · show (k0_pay10 (F := Ideal) (k0_pay8 (F := Ideal) (cfg0.grid.coords t) (R0.base V c t s).x (R0.wt V c t) (R0.bt V c t) (R0.base V c t s).m) (ix2 row (0 : Fin 1)) : EReal) = _
    rw [hbase, pay10_apply]; exact hm8
  · show (k0_pay9 (F := Ideal) (cfg0.grid.coords t) (R0.base V c t s).x (R0.wt V c t) (R0.bt V c t) (R0.base V c t s).m (R0.base V c t s).l (ix2 row (0 : Fin 1)) : EReal) = _
    rw [hbase, pay9_apply, hm8, hs.m, hs.l, runSum_succ _ _ ht]
    refine congrArg (fun q : EReal => Ideal.exp (runMax (mx h P W b row) t.val - runMax (mx h P W b row) (t.val + 1)) * runSum (xs h P W b row) (mx h P W b row) t.val + q) ?_
    exact Finset.sum_congr rfl fun k _ => by rw [hx7 k]
  · show (k0_pay11 (F := Ideal) (k0_pay6 (cfg0.grid.coords t)) (k0_pay7 (F := Ideal) (cfg0.grid.coords t) (R0.base V c t s).x (R0.wt V c t) (R0.bt V c t)) (R0.tgt V c) (R0.base V c t s).acc (ix2 row (0 : Fin 4)) : EReal) = _
    rw [hbase, c0, hs.a0, runAcc_succ _ _ ht, hone _ (idx row).val (by have hi : (idx row).val < 20000 := (idx row).isLt; omega) htg]
  · show (k0_pay11 (F := Ideal) (k0_pay6 (cfg0.grid.coords t)) (k0_pay7 (F := Ideal) (cfg0.grid.coords t) (R0.base V c t s).x (R0.wt V c t) (R0.bt V c t)) (R0.tgt V c) (R0.base V c t s).acc (ix2 row (1 : Fin 4)) : EReal) = _
    rw [hbase, c1, hs.a1, runAcc_succ _ _ ht, hone _ 20002 (by norm_num) rfl]
  · show (k0_pay11 (F := Ideal) (k0_pay6 (cfg0.grid.coords t)) (k0_pay7 (F := Ideal) (cfg0.grid.coords t) (R0.base V c t s).x (R0.wt V c t) (R0.bt V c t)) (R0.tgt V c) (R0.base V c t s).acc (ix2 row (2 : Fin 4)) : EReal) = _
    rw [hbase, c2, hs.a2, runAcc_succ _ _ ht, hone _ 20001 (by norm_num) rfl]
  · show (k0_pay11 (F := Ideal) (k0_pay6 (cfg0.grid.coords t)) (k0_pay7 (F := Ideal) (cfg0.grid.coords t) (R0.base V c t s).x (R0.wt V c t) (R0.bt V c t)) (R0.tgt V c) (R0.base V c t s).acc (ix2 row (3 : Fin 4)) : EReal) = _
    rw [hbase, c3, hs.a3, runAcc_succ _ _ ht, hone _ 20000 (by norm_num) rfl]

include hH hP hW hB hT in

theorem holds_stAt (row : Fin 1024) : ∀ n : ℕ, n ≤ nTiles → Holds V c h P W b idx (R0.stAt V c n) row n
  | 0, _ => holds_init V c h P W b idx row
  | n + 1, hn => by
    have hn' : n < cfg0.N := hn
    have e := R0.stAt_succ V c ⟨n, hn'⟩
    rw [show R0.stAt V c (n + 1) = R0.step V c ⟨n, hn'⟩ (R0.stAt V c n) from e]
    exact holds_step V c h P W b idx hH hP hW hB hT ⟨n, hn'⟩ (R0.stAt V c n) row
      (holds_stAt row n (Nat.le_of_succ_le hn)) (fun h0 => by
        have h0' : n = 0 := h0
        rw [h0']; rfl)

end Run

end Cert.KernelIdeal.H.R0V

end
-- ==== Proof.KI.R0Value.lean ====
import proofs.«416365_j66236985639681_1_alg».proof.Proof.KI.R0ValueInv

noncomputable section

namespace Cert.KernelIdeal.H.R0V

open Cert.KernelIdeal Cert.KernelIdeal.Gen
open Idealize.ShloMosaic Idealize.ShloMosaic.TcCoe Idealize.ShloMosaic.ValueIdx

open Cert.KernelIdeal.H Cert.LibOnlineLogSumExp

theorem logits_real {K Vn : ℕ} (h : Fin 1024 → Fin 512 → EReal) (P : Fin 512 → Fin K → EReal)
    (W : Fin Vn → Fin K → EReal) (b : Fin Vn → EReal)
    (hh : ∀ n d, ∃ r : ℝ, h n d = (r : EReal)) (hPr : ∀ d e, ∃ r : ℝ, P d e = (r : EReal))
    (hWr : ∀ v e, ∃ r : ℝ, W v e = (r : EReal)) (hbr : ∀ v, ∃ r : ℝ, b v = (r : EReal)) (n : Fin 1024) (v : Fin Vn) :
    ∃ r : ℝ, Cert.Spec.logits (Cert.Spec.proj h P) W b n v = (r : EReal) := by
  choose hr hhr using hh
  choose Pr hPr' using hPr
  choose Wr hWr' using hWr
  choose br hbr' using hbr
  refine ⟨(∑ e, (∑ d, hr n d * Pr d e) * Wr v e) + br v, ?_⟩
  unfold Cert.Spec.logits Cert.Spec.proj
  rw [EReal.coe_add, coe_finsetSum]
  refine congrArg₂ (fun p q : EReal => p + q) (Finset.sum_congr rfl fun e _ => ?_) (hbr' v)
  rw [EReal.coe_mul, coe_finsetSum, hWr']
  refine congrArg (fun p : EReal => p * (Wr v e : EReal)) (Finset.sum_congr rfl fun d _ => ?_)
  rw [EReal.coe_mul, hhr, hPr']

theorem outv_eq (V : Val Ideal) (c : Dev nD)
    (h : Fin 1024 → Fin 512 → EReal) (P : Fin 512 → Fin embW → EReal)
    (W : Fin nTrue → Fin embW → EReal) (b : Fin nTrue → EReal) (idx : Fin 1024 → Fin nShort)
    (hH : ∀ (n : Fin 1024) (d : Fin 512), V c main_v0 (ix2 n d) = h n d)
    (hP : ∀ (d : Fin 512) (e : Fin embW), V c main_v6 (ix2 d e) = P d e)
    (hW : ∀ (v : Fin nPad) (e : Fin embW), V c main_v4 (ix2 v e) = if hv : v.val < nTrue then W ⟨v.val, hv⟩ e else 0)
    (hB : ∀ v : Fin nPad, V c main_v5 (ix1 v) = if hv : v.val < nTrue then b ⟨v.val, hv⟩ else 0)
    (hT : ∀ n : Fin 1024, V c main_v8 (ix2 n (0 : Fin 1)) = BitVec.ofNat 32 (idx n).val)
    (hh : ∀ n d, ∃ r : ℝ, h n d = (r : EReal)) (hPr : ∀ d e, ∃ r : ℝ, P d e = (r : EReal))
    (hWr : ∀ v e, ∃ r : ℝ, W v e = (r : EReal)) (hbr : ∀ v, ∃ r : ℝ, b v = (r : EReal)) :
    ∀ n : Fin 1024,
      R0.outv V c (ix2 n (0 : Fin 4)) = Cert.Spec.logSoftmax (Cert.Spec.logits (Cert.Spec.proj h P) W b n) (Fin.castLE (by decide) (idx n))
      ∧ R0.outv V c (ix2 n (1 : Fin 4)) = Cert.Spec.logSoftmax (Cert.Spec.logits (Cert.Spec.proj h P) W b n) ⟨20002, by decide⟩
      ∧ R0.outv V c (ix2 n (2 : Fin 4)) = Cert.Spec.logSoftmax (Cert.Spec.logits (Cert.Spec.proj h P) W b n) ⟨20001, by decide⟩
      ∧ R0.outv V c (ix2 n (3 : Fin 4)) = Cert.Spec.logSoftmax (Cert.Spec.logits (Cert.Spec.proj h P) W b n) ⟨20000, by decide⟩ := by
  intro n
  have H : Holds V c h P W b idx (R0.stAt V c cfg0.N) n nTiles := holds_stAt V c h P W b idx hH hP hW hB hT n nTiles (le_refl _)
  have hne : (Finset.univ : Finset (Fin tileW)).Nonempty := ⟨⟨0, by decide⟩, Finset.mem_univ _⟩
  have key : ∀ (q : Fin 4) (i : ℕ) (hi : i < nTrue),
      ((R0.stAt V c cfg0.N).acc (ix2 n q) : EReal) = runAcc (xs h P W b n) i nTiles →
      R0.outv V c (ix2 n q) = Cert.Spec.logSoftmax (Cert.Spec.logits (Cert.Spec.proj h P) W b n) ⟨i, hi⟩ := by
    intro q i hi hacc
    unfold R0.outv
    rw [pay1_apply, hacc, H.m, H.l]
    exact online_eq_logSoftmax (xs h P W b n) (mx h P W b n) (Cert.Spec.logits (Cert.Spec.proj h P) W b n) i
      (by decide) (by decide) (fun j => by have hj : j.val < 20 := j.isLt; show j.val * 1024 < 20003; omega) (fun j k => rfl)
      (logits_real h P W b hh hPr hWr hbr n)
      (fun j k => Finset.le_sup (f := fun k : Fin tileW => xs h P W b n j k) (Finset.mem_univ k))
      (fun j => by
        obtain ⟨k, -, hk⟩ := Finset.exists_mem_eq_sup Finset.univ hne (fun k : Fin tileW => xs h P W b n j k)
        exact ⟨k, hk⟩)
      hi
  exact ⟨key 0 (idx n).val (by have hi : (idx n).val < 20000 := (idx n).isLt; show (idx n).val < 20003; omega) H.a0, key 1 20002 (by decide) H.a1,
    key 2 20001 (by decide) H.a2, key 3 20000 (by decide) H.a3⟩

end Cert.KernelIdeal.H.R0V

end
-- ==== Proof.KI.R1ValueBlocks.lean ====
import proofs.«416365_j66236985639681_1_alg».proof.Proof.KI.R1State
import Idealize.ShloMosaic.Lib.ValueIdx

noncomputable section

namespace Cert.KernelIdeal.H.R1V

open Cert.KernelIdeal Cert.KernelIdeal.Gen
open Idealize.ShloMosaic Idealize.ShloMosaic.TcCoe
open Idealize.ShloMosaic.ValueIdx
open Idealize.ShloMosaic.Pipeline (Dat Cfg Window BodyObligation cellOf)

abbrev nCol : ℕ := 20000

abbrev nTile : ℕ := 20

abbrev nPad : ℕ := 20480

abbrev nEmb : ℕ := 128

theorem tiles_pad : nTile * 1024 = nPad := by decide

theorem col_le_pad : nCol ≤ nPad := by decide

theorem last_tile_lt : (nTile - 1) * 1024 < nCol := by decide

theorem grid_tiles : cfg1.N = nTile := by decide

theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 1) = t.val
    ∧ win1_4.index t (0 : Fin 2) = 0 ∧ win1_4.index t (1 : Fin 2) = 0
    ∧ (grid1.coords t 0).val = t.val ∧ t.val < nTile :=
  (by decide +kernel : ∀ t : Fin grid1.N, _)

theorem coord_val (t : Fin cfg1.N) : (cfg1.grid.coords t 0).val = t.val := (idx_facts t).2.2.2.2.2.2.2.2.2.1

theorem point_lt (t : Fin cfg1.N) : t.val < nTile := (idx_facts t).2.2.2.2.2.2.2.2.2.2

theorem row_lt_pad (t : Fin cfg1.N) (r : Fin 1024) : t.val * 1024 + r.val < nPad := by
  have := point_lt t; have := r.isLt; have := tiles_pad; omega

variable (V : Val Ideal) (c : Dev nD)

theorem hidden_apply (n : Fin 1024) (d : Fin 512) : R1.hidden V c (ix2 n d) = V c main_v0 (ix2 n d) := by
  obtain ⟨e0, e1, -⟩ := idx_facts R1.t0
  show V c main_v0 (((cfg1.win 0).blk R1.t0).view.emb (ix2 n d)) = _
  refine congrArg (V c main_v0) ?_
  funext a; apply Fin.ext
  match a with
  | ⟨0, _⟩ => show win1_0.index R1.t0 (0 : Fin 2) * 1024 + 1 * n.val = n.val; omega
  | ⟨1, _⟩ => show win1_0.index R1.t0 (1 : Fin 2) * 512 + 1 * d.val = d.val; omega

theorem proj_apply (d : Fin 512) (e : Fin nEmb) : R1.proj V c (ix2 d e) = V c main_v17 (ix2 d e) := by
  obtain ⟨-, -, e0, e1, -⟩ := idx_facts R1.t0
  show V c main_v17 (((cfg1.win 1).blk R1.t0).view.emb (ix2 d e)) = _
  refine congrArg (V c main_v17) ?_
  funext a; apply Fin.ext
  match a with
  | ⟨0, _⟩ => show win1_1.index R1.t0 (0 : Fin 2) * 512 + 1 * d.val = d.val; omega
  | ⟨1, _⟩ => show win1_1.index R1.t0 (1 : Fin 2) * nEmb + 1 * e.val = e.val; rw [e1, Nat.zero_mul, Nat.zero_add, Nat.one_mul]

theorem wt_apply (t : Fin cfg1.N) (r : Fin 1024) (e : Fin nEmb) :
    R1.wt V c t (ix2 r e) = V c main_v15 (ix2 ⟨t.val * 1024 + r.val, row_lt_pad t r⟩ e) := by
  obtain ⟨-, -, -, -, e0, e1, -⟩ := idx_facts t
  show V c main_v15 (((cfg1.win 2).blk t).view.emb (ix2 r e)) = _
  refine congrArg (V c main_v15) ?_
  funext a; apply Fin.ext
  match a with
  | ⟨0, _⟩ => show win1_2.index t (0 : Fin 2) * 1024 + 1 * r.val = t.val * 1024 + r.val; omega
  | ⟨1, _⟩ => show win1_2.index t (1 : Fin 2) * nEmb + 1 * e.val = e.val; rw [e1, Nat.zero_mul, Nat.zero_add, Nat.one_mul]

theorem bt_apply (t : Fin cfg1.N) (r : Fin 1024) :
    R1.bt V c t (ix1 r) = V c main_v16 (ix1 ⟨t.val * 1024 + r.val, row_lt_pad t r⟩) := by
  obtain ⟨-, -, -, -, -, -, e0, -⟩ := idx_facts t
  show V c main_v16 (((cfg1.win 3).blk t).view.emb (ix1 r)) = _
  refine congrArg (V c main_v16) ?_
  funext a; apply Fin.ext
  match a with
  | ⟨0, _⟩ => show win1_3.index t (0 : Fin 1) * 1024 + 1 * r.val = t.val * 1024 + r.val; omega

theorem tgt_apply (n : Fin 1024) : R1.tgt V c (ix2 n (0 : Fin 1)) = V c main_v21 (ix2 n (0 : Fin 1)) := by
  obtain ⟨-, -, -, -, -, -, -, e0, e1, -⟩ := idx_facts R1.t0
  show V c main_v21 (((cfg1.win 4).blk R1.t0).view.emb (ix2 n (0 : Fin 1))) = _
  refine congrArg (V c main_v21) ?_
  funext a; apply Fin.ext
  match a with
  | ⟨0, _⟩ => show win1_4.index R1.t0 (0 : Fin 2) * 1024 + 1 * n.val = n.val; omega
  | ⟨1, _⟩ => show win1_4.index R1.t0 (1 : Fin 2) * 1 + 1 * 0 = 0; omega

end Cert.KernelIdeal.H.R1V
end
-- ==== Proof.KI.R1ValuePay.lean ====
import proofs.«416365_j66236985639681_1_alg».proof.Proof.KI.R1ValueBlocks
import Idealize.ShloMosaic.Lib.ValueIdx
import Idealize.ShloMosaic.Lib.ValueLayout
import Idealize.ShloMosaic.Lib.Pipeline.Value
import Idealize.ShloMosaic.Lib.StackMember
import Idealize.ShloMosaic.Lib.WordArith
import Idealize.ShloMosaic.PureOps.Ideal.Laws
import Idealize.ShloMosaic.PureOps.IdealRules

noncomputable section

namespace Cert.KernelIdeal.H.R1V

open Cert.KernelIdeal Cert.KernelIdeal.Gen
open Idealize.ShloMosaic Idealize.ShloMosaic.TcCoe
open Idealize.ShloMosaic.ValueIdx
open Idealize.ShloMosaic.Pipeline (Dat Cfg Window BodyObligation cellOf)

theorem col_word (j k : ℕ) :
    IntOp.addi (Scalar.muli (BitVec.ofNat 32 j) 1024#32) (BitVec.ofNat 32 k) = BitVec.ofNat 32 (j * 1024 + k) := by
  show BitVec.ofNat 32 j * BitVec.ofNat 32 1024 + BitVec.ofNat 32 k = _
  rw [BitVec.ofNat_add, BitVec.ofNat_mul]

theorem slt_word (a b : ℕ) (ha : a < 2 ^ 31) (hb : b < 2 ^ 31) :
    IntOp.cmpi .slt (BitVec.ofNat 32 a) (BitVec.ofNat 32 b) = if a < b then 1#1 else 0#1 := by
  show BitVec.ofBool ((BitVec.ofNat 32 a).slt (BitVec.ofNat 32 b)) = _
  have hi : (BitVec.ofNat 32 a).slt (BitVec.ofNat 32 b) = decide (a < b) := by
    rw [BitVec.slt_eq_decide, WordArith.toInt_ofNat_small a ha, WordArith.toInt_ofNat_small b hb]
    exact decide_eq_decide.mpr Nat.cast_lt
  rw [hi]
  by_cases h : a < b
  · rw [if_pos h, decide_eq_true h]; rfl
  · rw [if_neg h, decide_eq_false h]; rfl

theorem eq_word (a b : ℕ) (ha : a < 2 ^ 32) (hb : b < 2 ^ 32) :
    IntOp.cmpi .eq (BitVec.ofNat 32 a) (BitVec.ofNat 32 b) = if a = b then 1#1 else 0#1 := by
  show BitVec.ofBool (BitVec.ofNat 32 a == BitVec.ofNat 32 b) = _
  by_cases h : a = b
  · subst h; rw [if_pos rfl, beq_self_eq_true]; rfl
  · rw [if_neg h]
    have hne : BitVec.ofNat 32 a ≠ BitVec.ofNat 32 b := fun e => h (by
      have := congrArg BitVec.toNat e
      rwa [WordArith.toNat_ofNat_of_lt a ha, WordArith.toNat_ofNat_of_lt b hb] at this)
    rw [beq_eq_false_iff_ne.mpr hne]; rfl

theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  show FloatOps.matmul (DotDims.plain m k n) prec A B (constant (F := Ideal) ⟨2, ![m, n]⟩ .f32 0x00000000#32) (ix2 a b) = _
  rw [Ideal.matmul_constant_zero_apply]
  exact (Ideal.dotGeneral_apply (DotDims.plain m k n) prec _ A B (ix2 a b)).symm.trans
    (StackMember.dotGeneral_plain_apply prec A B a b)

theorem pay4_apply (hid : Vec Ideal S1024x512 .bf16) (prj : Vec Ideal S512x128 .bf16) (n : Fin 1024) (e : Fin nEmb) :
    k1_pay4 hid prj (ix2 n e) = ∑ d : Fin 512, hid (ix2 n d) * prj (ix2 d e) := by
  unfold k1_pay4
  show shapeCast S1024x128 (truncf .bf16 (matmul dot_S1024x512_S512x128_S1024x128_1_0_0_1_n_n none
      (shapeCast S1024x512 hid shapeCasts_S1024x512_S1024x512) (shapeCast S512x128 prj shapeCasts_S512x128_S512x128)
      (constant (F := Ideal) S1024x128 .f32 0x00000000#32)) bitsLt_bf16_f32) shapeCasts_S1024x128_S1024x128 (ix2 n e) = _
  rw [shapeCast_self, shapeCast_self, shapeCast_self]
  exact matmul_plain_zero_apply (m := 1024) (k := 512) (n := nEmb) (φ₁ := .bf16) (φ₂ := .bf16) none hid prj n e

theorem pay5_apply (j : S1024x1.Idx) : k1_pay5 (F := Ideal) j = ⊥ := by
  show Ideal.ofBits .f32 0xFF800000#32 = ⊥
  simp [Ideal.ofBits, Ideal.ieee]

theorem pay6_apply (j : S1024x1.Idx) : k1_pay6 (F := Ideal) j = 0 := by
  show Ideal.ofBits .f32 0x00000000#32 = 0
  exact Ideal.ofBits_zero_f32

theorem pay7_apply (j : S1024x1.Idx) : k1_pay7 (F := Ideal) j = 0 := by
  show Ideal.ofBits .f32 0x00000000#32 = 0
  exact Ideal.ofBits_zero_f32

theorem pay8_apply (i : grid1.Coords) (n k : Fin 1024) :
    k1_pay8 i (ix2 n k) = BitVec.ofNat 32 ((i 0).val * 1024 + k.val) := by
  unfold k1_pay8
  show IntOp.addi (Scalar.muli (BitVec.ofNat 32 (i 0).val) 1024#32) (iota .tc S1024x1024 32 [1] iota_S1024x1024_d1_w32 (ix2 n k)) = _
  rw [iota_single_apply]
  exact col_word _ _

def mlogit (i : grid1.Coords) (x w : Vec Ideal S1024x128 .bf16) (b : Vec Ideal S1024 .f32) (n k : Fin 1024) : EReal :=
  if (i 0).val * 1024 + k.val < nCol then (∑ e : Fin nEmb, x (ix2 n e) * w (ix2 k e)) + b (ix1 k) else ⊥

theorem logit_mm (x w : Vec Ideal S1024x128 .bf16) (n k : Fin 1024) :
    matmul (φ₁ := .bf16) (φ₂ := .bf16) dot_S1024x128_S128x1024_S1024x1024_1_0_0_1_n_n none x
      (transpose S128x1024 [1, 0] (shapeCast S1024x128 w shapeCasts_S1024x128_S1024x128) transposes_S1024x128_p1_0_S128x1024)
      (constant (F := Ideal) S1024x1024 .f32 0x00000000#32) (ix2 n k) = ∑ e : Fin nEmb, x (ix2 n e) * w (ix2 k e) := by
  rw [shapeCast_self]
  refine (matmul_plain_zero_apply (m := 1024) (k := nEmb) (n := 1024) (φ₁ := .bf16) (φ₂ := .bf16) none x
    (transpose S128x1024 [1, 0] w transposes_S1024x128_p1_0_S128x1024) n k).trans ?_
  refine Finset.sum_congr rfl fun e _ => ?_
  rw [transpose_ix2_apply]

theorem bias_row (b : Vec Ideal S1024 .f32) (n k : Fin 1024) :
    broadcastTo S1024x1024 (shapeCast S1x1024 (shapeCast S1024 b shapeCasts_S1024_S1024) shapeCasts_S1024_S1x1024)
      broadcasts_S1x1024_S1024x1024 (ix2 n k) = b (ix1 k) := by
  rw [shapeCast_self, broadcastTo_1b_ab_apply, shapeCast_a_1a_apply]

theorem mask_apply (i : grid1.Coords) (n k : Fin 1024) (hi : (i 0).val < nTile) :
    IntOp.cmpi .slt (k1_pay8 i (ix2 n k)) 20000#32 = if (i 0).val * 1024 + k.val < nCol then 1#1 else 0#1 := by
  rw [pay8_apply]
  have hk := k.isLt
  have h20 : nTile * 1024 ≤ 2 ^ 31 - 1024 := by decide
  exact slt_word _ _ (by omega) (by decide)

theorem neg_big_eq : Named.named (F := Ideal) κ "neg_big" (φ := .f32) 0xF149F2CA#32 = ⊥ :=
  IdealRules.named_const.ideal_named_scalar _ _ _ _ rfl

theorem pay9_apply (i : grid1.Coords) (x w : Vec Ideal S1024x128 .bf16) (b : Vec Ideal S1024 .f32) (n k : Fin 1024)
    (hi : (i 0).val < nTile) : k1_pay9 i x w b (ix2 n k) = mlogit i x w b n k := by
  unfold k1_pay9 mlogit
  show Scalar.select (IntOp.cmpi .slt (k1_pay8 i (ix2 n k)) 20000#32)
    (matmul (φ₁ := .bf16) (φ₂ := .bf16) dot_S1024x128_S128x1024_S1024x1024_1_0_0_1_n_n none x
      (transpose S128x1024 [1, 0] (shapeCast S1024x128 w shapeCasts_S1024x128_S1024x128) transposes_S1024x128_p1_0_S128x1024)
      (constant (F := Ideal) S1024x1024 .f32 0x00000000#32) (ix2 n k)
     + broadcastTo S1024x1024 (shapeCast S1x1024 (shapeCast S1024 b shapeCasts_S1024_S1024) shapeCasts_S1024_S1x1024)
      broadcasts_S1x1024_S1024x1024 (ix2 n k))
    (Named.named (F := Ideal) κ "neg_big" (φ := .f32) 0xF149F2CA#32) = _
  rw [mask_apply i n k hi, logit_mm, bias_row, neg_big_eq]
  split
  · exact select_one _ _
  · exact select_zero _ _

end Cert.KernelIdeal.H.R1V
end
-- ==== Proof.KI.R1ValueReduce.lean ====
import proofs.«416365_j66236985639681_1_alg».proof.Proof.KI.R1ValuePay
import Mathlib.Data.Finset.Fold
import Mathlib.Data.Finset.Max

noncomputable section

namespace Cert.KernelIdeal.H.R1V

open Cert.KernelIdeal Cert.KernelIdeal.Gen
open Idealize.ShloMosaic Idealize.ShloMosaic.TcCoe
open Idealize.ShloMosaic.ValueIdx
open Idealize.ShloMosaic.Pipeline (Dat Cfg Window BodyObligation cellOf)

theorem le_fold_max {m : ℕ} (f : Fin m → EReal) (k : Fin m) : f k ≤ (Finset.univ : Finset (Fin m)).fold max ⊥ f :=
  (Finset.le_fold_max _).mpr (Or.inr ⟨k, Finset.mem_univ k, le_rfl⟩)

theorem fold_max_mem {m : ℕ} (hm : 0 < m) (f : Fin m → EReal) : ∃ k, (Finset.univ : Finset (Fin m)).fold max ⊥ f = f k := by
  obtain ⟨k, -, hk⟩ := Finset.exists_max_image (Finset.univ : Finset (Fin m)) f ⟨⟨0, hm⟩, Finset.mem_univ _⟩
  exact ⟨k, le_antisymm ((Finset.fold_max_le _).mpr ⟨bot_le, fun k' hk' => hk k' hk'⟩) (le_fold_max f k)⟩

theorem lift_row (h : S1024x1024.Reduces [1] S1024) (n k : Fin 1024) : h.lift (ix1 n) k = ix2 n k := by
  funext a; apply Fin.ext
  match a with
  | ⟨0, _⟩ => rfl
  | ⟨1, _⟩ => rfl

theorem col_cast {α : Type} (v : S1024.Idx → α) (n : Fin 1024) :
    shapeCast S1024x1 v shapeCasts_S1024_S1024x1 (ix2 n (0 : Fin 1)) = v (ix1 n) :=
  shapeCast_apply v shapeCasts_S1024_S1024x1 (ix2 n (0 : Fin 1)) (ix1 n) (by
    rw [Shape.rowMajor_val_two, Shape.rowMajor_val_one]
    show n.val = n.val * 1 + 0
    omega)

theorem bcast_col {α : Type} (v : S1024x1.Idx → α) (n k : Fin 1024) :
    broadcastTo S1024x1024 v broadcasts_S1024x1_S1024x1024 (ix2 n k) = v (ix2 n (0 : Fin 1)) := by
  refine broadcastTo_apply v broadcasts_S1024x1_S1024x1024 (ix2 n k) (ix2 n (0 : Fin 1)) fun ax => ?_
  match ax with
  | ⟨0, _⟩ => show n.val = if (1024 : ℕ) = 1 then 0 else n.val; rw [if_neg (by decide)]
  | ⟨1, _⟩ => show (0 : ℕ) = if (1 : ℕ) = 1 then 0 else k.val; rw [if_pos rfl]

theorem neg_inf_eq : (FloatOps.ofBits (F := Ideal) .f32 0xFF800000#32 : EReal) = ⊥ := by
  show Ideal.ofBits .f32 0xFF800000#32 = ⊥
  simp [Ideal.ofBits, Ideal.ieee]

theorem row_max (src : FVec Ideal S1024x1024 .f32) (n : Fin 1024) :
    shapeCast S1024x1 (multiReduction (F := Ideal) .maximumf [1] S1024 src 0xFF800000#32 reduces_S1024x1024_S1024 (.inl rfl) rfl)
      shapeCasts_S1024_S1024x1 (ix2 n (0 : Fin 1))
      = (Finset.univ : Finset (Fin 1024)).fold max ⊥ (fun k => src (ix2 n k)) := by
  refine (col_cast _ n).trans ?_
  refine (Ideal.multiReduction_maximumf_single src _ reduces_S1024x1024_S1024 _ _ (ix1 n)).trans ?_
  rw [neg_inf_eq]
  exact Finset.fold_congr fun k _ => congrArg src (lift_row _ n k)

theorem row_sum (src : FVec Ideal S1024x1024 .f32) (n : Fin 1024) :
    shapeCast S1024x1 (multiReduction (F := Ideal) .add [1] S1024 src 0x00000000#32 reduces_S1024x1024_S1024 (.inl rfl) rfl)
      shapeCasts_S1024_S1024x1 (ix2 n (0 : Fin 1))
      = ∑ k : Fin 1024, src (ix2 n k) := by
  refine (col_cast _ n).trans ?_
  refine (Ideal.multiReduction_add_single src _ reduces_S1024x1024_S1024 _ _ (ix1 n)).trans ?_
  exact Finset.sum_congr rfl fun k _ => congrArg src (lift_row _ n k)

def tmax (i : grid1.Coords) (x w : Vec Ideal S1024x128 .bf16) (b : Vec Ideal S1024 .f32) (n : Fin 1024) : EReal :=
  (Finset.univ : Finset (Fin 1024)).fold max ⊥ (fun k => mlogit i x w b n k)

theorem pay10_apply (i : grid1.Coords) (x w : Vec Ideal S1024x128 .bf16) (b : Vec Ideal S1024 .f32)
    (m : Vec Ideal S1024x1 .f32) (n : Fin 1024) (hi : (i 0).val < nTile) :
    k1_pay10 i x w b m (ix2 n (0 : Fin 1)) = max (m (ix2 n (0 : Fin 1))) (tmax i x w b n) := by
  unfold k1_pay10
  refine (maximumf_apply _ _ _).trans ?_
  refine congrArg (max (m (ix2 n (0 : Fin 1)))) ?_
  refine (row_max _ n).trans ?_
  unfold tmax
  exact Finset.fold_congr fun k _ => pay9_apply i x w b n k hi

theorem pay1_eq (v : FVec Ideal S1024x1 .f32) : k1_pay1 v = v := by
  unfold k1_pay1
  exact shapeCast_self _ _

theorem pay11_apply (i : grid1.Coords) (x w : Vec Ideal S1024x128 .bf16) (b : Vec Ideal S1024 .f32)
    (m l : Vec Ideal S1024x1 .f32) (n : Fin 1024) (hi : (i 0).val < nTile) :
    k1_pay11 i x w b m l (ix2 n (0 : Fin 1))
      = Ideal.exp (m (ix2 n (0 : Fin 1)) - k1_pay10 i x w b m (ix2 n (0 : Fin 1))) * l (ix2 n (0 : Fin 1))
        + ∑ k : Fin 1024, Ideal.exp (mlogit i x w b n k - k1_pay10 i x w b m (ix2 n (0 : Fin 1))) := by
  unfold k1_pay11
  refine (congrFun (shapeCast_self _ _) _).trans ?_
  refine (addf_apply _ _ _).trans ?_
  refine congrArg₂ (fun p q : EReal => p + q) rfl ?_
  refine (row_sum _ n).trans ?_
  refine Finset.sum_congr rfl fun k _ => ?_
  show Ideal.exp (k1_pay9 i x w b (ix2 n k)
    - broadcastTo S1024x1024 (k1_pay10 i x w b m) broadcasts_S1024x1_S1024x1024 (ix2 n k)) = _
  rw [bcast_col, pay9_apply i x w b n k hi]

theorem pay2_apply (i : grid1.Coords) (lg : FVec Ideal S1024x1024 .f32) (tg : Vec Ideal S1024x1 .i32)
    (acc : Vec Ideal S1024x1 .f32) (n : Fin 1024) (t : ℕ) (ht : tg (ix2 n (0 : Fin 1)) = BitVec.ofNat 32 t)
    (ht' : t < 2 ^ 31) (hi : (i 0).val < nTile) :
    k1_pay2 (k1_pay8 i) lg tg acc (ix2 n (0 : Fin 1))
      = acc (ix2 n (0 : Fin 1)) + ∑ k : Fin 1024, (if (i 0).val * 1024 + k.val = t then lg (ix2 n k) else 0) := by
  unfold k1_pay2
  refine (congrFun (shapeCast_self _ _) _).trans ?_
  refine (addf_apply _ _ _).trans ?_
  refine congrArg (fun q : EReal => acc (ix2 n (0 : Fin 1)) + q) ?_
  refine (row_sum _ n).trans ?_
  refine Finset.sum_congr rfl fun k _ => ?_
  show Scalar.select (IntOp.cmpi .eq (k1_pay8 i (ix2 n k))
      (broadcastTo S1024x1024 (shapeCast S1024x1 tg shapeCasts_S1024x1_S1024x1) broadcasts_S1024x1_S1024x1024 (ix2 n k)))
    (lg (ix2 n k)) (Ideal.ofBits .f32 0x00000000#32) = _
  have hk := k.isLt
  have h20 : nTile * 1024 ≤ 2 ^ 31 - 1024 := by decide
  rw [shapeCast_self, pay8_apply, bcast_col, ht, eq_word _ _ (by omega) (by omega), Ideal.ofBits_zero_f32]
  split
  · exact select_one _ _
  · exact select_zero _ _

theorem pay3_apply (m l acc : Vec Ideal S1024x1 .f32) (j : S1024x1.Idx) :
    k1_pay3 m l acc j = acc j - (m j + Ideal.log (l j)) := rfl

end Cert.KernelIdeal.H.R1V
end
-- ==== Proof.KI.R1ValueInv.lean ====
import proofs.«416365_j66236985639681_1_alg».proof.Proof.KI.R1ValueReduce
import proofs.«416365_j66236985639681_1_alg».proof.Proof.LibOnlineLogSumExp
import proofs.«416365_j66236985639681_1_alg».proof.Proof.Spec

noncomputable section

namespace Cert.KernelIdeal.H.R1V

open Cert.KernelIdeal Cert.KernelIdeal.Gen
open Idealize.ShloMosaic Idealize.ShloMosaic.TcCoe
open Idealize.ShloMosaic.ValueIdx
open Idealize.ShloMosaic.Pipeline (Dat Cfg Window BodyObligation cellOf)

open Cert.LibOnlineLogSumExp

section Rows

variable (V : Val Ideal) (c : Dev nD)
  (h : Fin 1024 → Fin 512 → EReal) (P : Fin 512 → Fin nEmb → EReal)
  (W : Fin nCol → Fin nEmb → EReal) (b : Fin nCol → EReal)

def xs (n : Fin 1024) (j : Fin nTile) (k : Fin 1024) : EReal :=
  if hv : j.val * 1024 + k.val < nCol then Cert.Spec.logits (Cert.Spec.proj h P) W b n ⟨j.val * 1024 + k.val, hv⟩ else ⊥

def mx (n : Fin 1024) (j : Fin nTile) : EReal := (Finset.univ : Finset (Fin 1024)).fold max ⊥ (xs h P W b n j)

variable (hH : ∀ (n : Fin 1024) (d : Fin 512), V c main_v0 (ix2 n d) = h n d)
  (hP : ∀ (d : Fin 512) (e : Fin nEmb), V c main_v17 (ix2 d e) = P d e)
  (hW : ∀ (v : Fin nPad) (e : Fin nEmb), V c main_v15 (ix2 v e) = if hv : v.val < nCol then W ⟨v.val, hv⟩ e else 0)
  (hB : ∀ v : Fin nPad, V c main_v16 (ix1 v) = if hv : v.val < nCol then b ⟨v.val, hv⟩ else 0)

include hH hP in

theorem xproj_apply (n : Fin 1024) (e : Fin nEmb) :
    k1_pay4 (R1.hidden V c) (R1.proj V c) (ix2 n e) = Cert.Spec.proj h P n e := by
  rw [pay4_apply]
  unfold Cert.Spec.proj
  refine Finset.sum_congr rfl fun d _ => ?_
  rw [hidden_apply, proj_apply, hH, hP]

include hH hP hW hB in

theorem mlogit_eq (i : grid1.Coords) (t : Fin cfg1.N) (hi : (i 0).val = t.val) (n k : Fin 1024) :
    mlogit i (k1_pay4 (R1.hidden V c) (R1.proj V c)) (R1.wt V c t) (R1.bt V c t) n k
      = xs h P W b n ⟨t.val, point_lt t⟩ k := by
  unfold mlogit xs
  rw [hi]
  by_cases hv : t.val * 1024 + k.val < nCol
  · rw [if_pos hv, dif_pos hv]
    unfold Cert.Spec.logits
    refine congrArg₂ (fun p q : EReal => p + q) (Finset.sum_congr rfl fun e _ => ?_) ?_
    · rw [xproj_apply V c h P hH hP n e, wt_apply V c t k e, hW, dif_pos hv]
    · rw [bt_apply V c t k, hB, dif_pos hv]
  · rw [if_neg hv, dif_neg hv]

end Rows

section Run

variable (V : Val Ideal) (c : Dev nD)
  (h : Fin 1024 → Fin 512 → EReal) (P : Fin 512 → Fin nEmb → EReal)
  (W : Fin nCol → Fin nEmb → EReal) (b : Fin nCol → EReal) (idx : Fin 1024 → Fin nCol)

structure Holds (s : R1.St Ideal) (row : Fin 1024) (p : ℕ) : Prop where
  x : s.x = k1_pay4 (R1.hidden V c) (R1.proj V c)
  m : s.m (ix2 row (0 : Fin 1)) = runMax (mx h P W b row) p
  l : s.l (ix2 row (0 : Fin 1)) = runSum (xs h P W b row) (mx h P W b row) p
  acc : s.acc (ix2 row (0 : Fin 1)) = runAcc (xs h P W b row) (idx row).val p

theorem holds_init (row : Fin 1024) : Holds V c h P W b idx (R1.stAt V c 0) row 0 :=
  ⟨rfl, pay5_apply (ix2 row (0 : Fin 1)), pay6_apply (ix2 row (0 : Fin 1)), pay7_apply (ix2 row (0 : Fin 1))⟩

theorem base_stAt (t : Fin cfg1.N) : R1.base V c t (R1.stAt V c t.val) = R1.stAt V c t.val := by
  unfold R1.base
  split
  · next h0 => rw [h0]; rfl
  · rfl

variable (hH : ∀ (n : Fin 1024) (d : Fin 512), V c main_v0 (ix2 n d) = h n d)
  (hP : ∀ (d : Fin 512) (e : Fin nEmb), V c main_v17 (ix2 d e) = P d e)
  (hW : ∀ (v : Fin nPad) (e : Fin nEmb), V c main_v15 (ix2 v e) = if hv : v.val < nCol then W ⟨v.val, hv⟩ e else 0)
  (hB : ∀ v : Fin nPad, V c main_v16 (ix1 v) = if hv : v.val < nCol then b ⟨v.val, hv⟩ else 0)
  (hT : ∀ n : Fin 1024, V c main_v21 (ix2 n (0 : Fin 1)) = BitVec.ofNat 32 (idx n).val)

include hH hP hW hB hT in

theorem holds_step (t : Fin cfg1.N) (s : R1.St Ideal) (row : Fin 1024) (hs : Holds V c h P W b idx s row t.val)
    (hb : R1.base V c t s = s) : Holds V c h P W b idx (R1.step V c t s) row (t.val + 1) := by
  have ht : t.val < nTile := point_lt t
  have hc : (cfg1.grid.coords t 0).val = t.val := coord_val t
  have hi : (cfg1.grid.coords t 0).val < nTile := by rw [hc]; exact ht
  have hlg : ∀ k : Fin 1024, mlogit (cfg1.grid.coords t) s.x (R1.wt V c t) (R1.bt V c t) row k
      = xs h P W b row ⟨t.val, ht⟩ k := fun k => by
    rw [hs.x]; exact mlogit_eq V c h P W b hH hP hW hB (cfg1.grid.coords t) t hc row k
  have htm : tmax (cfg1.grid.coords t) s.x (R1.wt V c t) (R1.bt V c t) row = mx h P W b row ⟨t.val, ht⟩ := by
    unfold tmax mx; exact Finset.fold_congr fun k _ => hlg k
  have hm : k1_pay10 (cfg1.grid.coords t) s.x (R1.wt V c t) (R1.bt V c t) s.m (ix2 row (0 : Fin 1))
      = runMax (mx h P W b row) (t.val + 1) := by
    rw [pay10_apply _ _ _ _ _ _ hi, htm, hs.m, runMax_succ _ ht]
  have htg : R1.tgt V c (ix2 row (0 : Fin 1)) = BitVec.ofNat 32 (idx row).val := (tgt_apply V c row).trans (hT row)
  have hidx : (idx row).val < 2 ^ 31 := by
    have h1 := (idx row).isLt
    have h2 : nCol < 2 ^ 31 := by decide
    omega
  refine ⟨?_, ?_, ?_, ?_⟩
  · show (R1.base V c t s).x = _
    rw [hb]; exact hs.x
  · show k1_pay1 (k1_pay10 (cfg1.grid.coords t) (R1.base V c t s).x (R1.wt V c t) (R1.bt V c t) (R1.base V c t s).m)
      (ix2 row (0 : Fin 1)) = _
    rw [hb, pay1_eq]; exact hm
  · show k1_pay11 (cfg1.grid.coords t) (R1.base V c t s).x (R1.wt V c t) (R1.bt V c t) (R1.base V c t s).m
      (R1.base V c t s).l (ix2 row (0 : Fin 1)) = _
    rw [hb, pay11_apply _ _ _ _ _ _ _ hi, hm, hs.m, hs.l, runSum_succ _ _ ht]
    refine congrArg (fun q : EReal => Ideal.exp (runMax (mx h P W b row) t.val - runMax (mx h P W b row) (t.val + 1))
      * runSum (xs h P W b row) (mx h P W b row) t.val + q) (Finset.sum_congr rfl fun k _ => ?_)
    rw [hlg k]
  · show k1_pay2 (k1_pay8 (cfg1.grid.coords t))
      (k1_pay9 (cfg1.grid.coords t) (R1.base V c t s).x (R1.wt V c t) (R1.bt V c t)) (R1.tgt V c) (R1.base V c t s).acc
      (ix2 row (0 : Fin 1)) = _
    rw [hb, pay2_apply _ _ _ _ row (idx row).val htg hidx hi, hs.acc, runAcc_succ _ _ ht]
    refine congrArg (fun q : EReal => runAcc (xs h P W b row) (idx row).val t.val + q)
      (Finset.sum_congr rfl fun k _ => ?_)
    rw [pay9_apply _ _ _ _ row k hi, hlg k, hc]

include hH hP hW hB hT in

theorem holds_stAt (row : Fin 1024) : ∀ p : ℕ, p ≤ nTile → Holds V c h P W b idx (R1.stAt V c p) row p
  | 0, _ => holds_init V c h P W b idx row
  | p + 1, hp => by
    have hp' : p < cfg1.N := by rw [grid_tiles]; exact hp
    rw [show R1.stAt V c (p + 1) = R1.step V c ⟨p, hp'⟩ (R1.stAt V c p) from R1.stAt_succ V c ⟨p, hp'⟩]
    exact holds_step V c h P W b idx hH hP hW hB hT ⟨p, hp'⟩ (R1.stAt V c p) row
      (holds_stAt row p (Nat.le_of_succ_le hp)) (base_stAt V c ⟨p, hp'⟩)

end Run

end Cert.KernelIdeal.H.R1V
end
-- ==== Proof.KI.R1Value.lean ====
import proofs.«416365_j66236985639681_1_alg».proof.Proof.KI.R1ValueInv

noncomputable section

namespace Cert.KernelIdeal.H.R1V

open Cert.KernelIdeal Cert.KernelIdeal.Gen
open Idealize.ShloMosaic Idealize.ShloMosaic.TcCoe
open Idealize.ShloMosaic.ValueIdx
open Idealize.ShloMosaic.Pipeline (Dat Cfg Window BodyObligation cellOf)

open Cert.LibOnlineLogSumExp

theorem real_dot {m : ℕ} (u v : Fin m → EReal) (hu : ∀ i, ∃ r : ℝ, u i = (r : EReal)) (hv : ∀ i, ∃ r : ℝ, v i = (r : EReal)) :
    ∃ r : ℝ, ∑ i, u i * v i = (r : EReal) := by
  choose ur hur using hu
  choose vr hvr using hv
  refine ⟨∑ i, ur i * vr i, ?_⟩
  rw [coe_finsetSum]
  exact Finset.sum_congr rfl fun i _ => by rw [hur, hvr, EReal.coe_mul]

section Final

variable (V : Val Ideal) (c : Dev nD)
  (h : Fin 1024 → Fin 512 → EReal) (P : Fin 512 → Fin nEmb → EReal)
  (W : Fin nCol → Fin nEmb → EReal) (b : Fin nCol → EReal) (idx : Fin 1024 → Fin nCol)
  (hH : ∀ (n : Fin 1024) (d : Fin 512), V c main_v0 (ix2 n d) = h n d)
  (hP : ∀ (d : Fin 512) (e : Fin nEmb), V c main_v17 (ix2 d e) = P d e)
  (hW : ∀ (v : Fin nPad) (e : Fin nEmb), V c main_v15 (ix2 v e) = if hv : v.val < nCol then W ⟨v.val, hv⟩ e else 0)
  (hB : ∀ v : Fin nPad, V c main_v16 (ix1 v) = if hv : v.val < nCol then b ⟨v.val, hv⟩ else 0)
  (hT : ∀ n : Fin 1024, V c main_v21 (ix2 n (0 : Fin 1)) = BitVec.ofNat 32 (idx n).val)
  (hh : ∀ n d, ∃ r : ℝ, h n d = (r : EReal))
  (hPr : ∀ d e, ∃ r : ℝ, P d e = (r : EReal))
  (hWr : ∀ v e, ∃ r : ℝ, W v e = (r : EReal))
  (hbr : ∀ v, ∃ r : ℝ, b v = (r : EReal))

include hh hPr hWr hbr in

theorem real_logits (n : Fin 1024) (v : Fin nCol) :
    ∃ r : ℝ, Cert.Spec.logits (Cert.Spec.proj h P) W b n v = (r : EReal) := by
  obtain ⟨r1, e1⟩ := real_dot (fun e => Cert.Spec.proj h P n e) (fun e => W v e)
    (fun e => real_dot (fun d => h n d) (fun d => P d e) (hh n) (fun d => hPr d e)) (hWr v)
  obtain ⟨r2, e2⟩ := hbr v
  refine ⟨r1 + r2, ?_⟩
  unfold Cert.Spec.logits
  exact (congrArg₂ (fun p q : EReal => p + q) e1 e2).trans (EReal.coe_add r1 r2).symm

include hH hP hW hB hT hh hPr hWr hbr in

theorem outv_eq : ∀ n : Fin 1024, R1.outv V c (ix2 n (0 : Fin 1))
    = Cert.Spec.logSoftmax (Cert.Spec.logits (Cert.Spec.proj h P) W b n) (idx n) := by
  intro n
  have H := holds_stAt V c h P W b idx hH hP hW hB hT n nTile le_rfl
  unfold R1.outv
  rw [pay3_apply, grid_tiles, H.m, H.l, H.acc]
  exact online_eq_logSoftmax (xs h P W b n) (mx h P W b n) (Cert.Spec.logits (Cert.Spec.proj h P) W b n) (idx n).val
    (by decide) (by decide)
    (fun j => by have h1 := j.isLt; have h2 := last_tile_lt; omega)
    (fun j k => rfl)
    (fun v => real_logits h P W b hh hPr hWr hbr n v)
    (fun j k => le_fold_max _ k)
    (fun j => fold_max_mem (by decide) _)
    (idx n).isLt

end Final

end Cert.KernelIdeal.H.R1V
end
-- ==== Proof.KI.R2ValueBlocks.lean ====
/- Region 2's operand blocks read off the operand arrays.

   Every window's block at a grid point is a box of rows of its array: the hidden activations, the projection and the
   relative targets are one block each (the whole array), the weight tile and the bias tile of point t are rows
   t * 1024 to t * 1024 + 1023 of the padded weight matrix and of the padded bias vector. -/
import proofs.«416365_j66236985639681_1_alg».proof.Proof.KI.R2State
import Idealize.ShloMosaic.Lib.ValueIdx

noncomputable section

namespace Cert.KernelIdeal.H.R2V

open Cert.KernelIdeal Cert.KernelIdeal.Gen
open Idealize.ShloMosaic Idealize.ShloMosaic.TcCoe
open Idealize.ShloMosaic.ValueIdx
open Idealize.ShloMosaic.Pipeline (Dat Cfg Window BodyObligation cellOf)

/-! ## The cluster's sizes -/

/-- The cluster's true number of columns. -/
abbrev nCol : ℕ := 160000
/-- The number of column tiles (the grid's points). -/
abbrev nTile : ℕ := 157
/-- The padded number of columns. -/
abbrev nPad : ℕ := 160768
/-- The cluster's embedding width. -/
abbrev nEmb : ℕ := 32

/-- The tiles fill the padded columns. -/
theorem tiles_pad : nTile * 1024 = nPad := by decide
/-- The true columns are among the padded ones. -/
theorem col_le_pad : nCol ≤ nPad := by decide
/-- Every tile holds a true column: the last tile starts below the true size. -/
theorem last_tile_lt : (nTile - 1) * 1024 < nCol := by decide
/-- The grid has one point per tile. -/
theorem grid_tiles : cfg2.N = nTile := by decide

/-- The printed index maps over the grid: the hidden block, the projection block and the target block stay at the
    origin, the weight tile and the bias tile of point t are the t-th, and the point's one coordinate is its number. -/
theorem idx_facts : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 1) = t.val
    ∧ win2_4.index t (0 : Fin 2) = 0 ∧ win2_4.index t (1 : Fin 2) = 0
    ∧ (grid2.coords t 0).val = t.val ∧ t.val < nTile :=
  (by decide +kernel : ∀ t : Fin grid2.N, _)

/-- The coordinate of point t is t. -/
theorem coord_val (t : Fin cfg2.N) : (cfg2.grid.coords t 0).val = t.val := (idx_facts t).2.2.2.2.2.2.2.2.2.1

/-- A point's number is below the number of tiles. -/
theorem point_lt (t : Fin cfg2.N) : t.val < nTile := (idx_facts t).2.2.2.2.2.2.2.2.2.2

/-- A row of tile t is a padded column. -/
theorem row_lt_pad (t : Fin cfg2.N) (r : Fin 1024) : t.val * 1024 + r.val < nPad := by
  have := point_lt t; have := r.isLt; have := tiles_pad; omega

variable (V : Val Ideal) (c : Dev nD)

/-! ## The blocks as rows of the arrays -/

/-- The hidden block is the hidden array. -/
theorem hidden_apply (n : Fin 1024) (d : Fin 512) : R2.hidden V c (ix2 n d) = V c main_v0 (ix2 n d) := by
  obtain ⟨e0, e1, -⟩ := idx_facts R2.t0
  show V c main_v0 (((cfg2.win 0).blk R2.t0).view.emb (ix2 n d)) = _
  refine congrArg (V c main_v0) ?_
  funext a; apply Fin.ext
  match a with
  | ⟨0, _⟩ => show win2_0.index R2.t0 (0 : Fin 2) * 1024 + 1 * n.val = n.val; omega
  | ⟨1, _⟩ => show win2_0.index R2.t0 (1 : Fin 2) * 512 + 1 * d.val = d.val; omega

/-- The projection block is the projection array. -/
theorem proj_apply (d : Fin 512) (e : Fin nEmb) : R2.proj V c (ix2 d e) = V c main_v37 (ix2 d e) := by
  obtain ⟨-, -, e0, e1, -⟩ := idx_facts R2.t0
  show V c main_v37 (((cfg2.win 1).blk R2.t0).view.emb (ix2 d e)) = _
  refine congrArg (V c main_v37) ?_
  funext a; apply Fin.ext
  match a with
  | ⟨0, _⟩ => show win2_1.index R2.t0 (0 : Fin 2) * 512 + 1 * d.val = d.val; omega
  | ⟨1, _⟩ => show win2_1.index R2.t0 (1 : Fin 2) * nEmb + 1 * e.val = e.val; rw [e1, Nat.zero_mul, Nat.zero_add, Nat.one_mul]

/-- The weight tile of point t is rows t * 1024 + r of the padded weight matrix. -/
theorem wt_apply (t : Fin cfg2.N) (r : Fin 1024) (e : Fin nEmb) :
    R2.wt V c t (ix2 r e) = V c main_v35 (ix2 ⟨t.val * 1024 + r.val, row_lt_pad t r⟩ e) := by
  obtain ⟨-, -, -, -, e0, e1, -⟩ := idx_facts t
  show V c main_v35 (((cfg2.win 2).blk t).view.emb (ix2 r e)) = _
  refine congrArg (V c main_v35) ?_
  funext a; apply Fin.ext
  match a with
  | ⟨0, _⟩ => show win2_2.index t (0 : Fin 2) * 1024 + 1 * r.val = t.val * 1024 + r.val; omega
  | ⟨1, _⟩ => show win2_2.index t (1 : Fin 2) * nEmb + 1 * e.val = e.val; rw [e1, Nat.zero_mul, Nat.zero_add, Nat.one_mul]

/-- The bias tile of point t is entries t * 1024 + r of the padded bias vector. -/
theorem bt_apply (t : Fin cfg2.N) (r : Fin 1024) :
    R2.bt V c t (ix1 r) = V c main_v36 (ix1 ⟨t.val * 1024 + r.val, row_lt_pad t r⟩) := by
  obtain ⟨-, -, -, -, -, -, e0, -⟩ := idx_facts t
  show V c main_v36 (((cfg2.win 3).blk t).view.emb (ix1 r)) = _
  refine congrArg (V c main_v36) ?_
  funext a; apply Fin.ext
  match a with
  | ⟨0, _⟩ => show win2_3.index t (0 : Fin 1) * 1024 + 1 * r.val = t.val * 1024 + r.val; omega

/-- The target block is the target array. -/
theorem tgt_apply (n : Fin 1024) : R2.tgt V c (ix2 n (0 : Fin 1)) = V c main_v41 (ix2 n (0 : Fin 1)) := by
  obtain ⟨-, -, -, -, -, -, -, e0, e1, -⟩ := idx_facts R2.t0
  show V c main_v41 (((cfg2.win 4).blk R2.t0).view.emb (ix2 n (0 : Fin 1))) = _
  refine congrArg (V c main_v41) ?_
  funext a; apply Fin.ext
  match a with
  | ⟨0, _⟩ => show win2_4.index R2.t0 (0 : Fin 2) * 1024 + 1 * n.val = n.val; omega
  | ⟨1, _⟩ => show win2_4.index R2.t0 (1 : Fin 2) * 1 + 1 * 0 = 0; omega

end Cert.KernelIdeal.H.R2V
end
-- ==== Proof.KI.R2ValuePay.lean ====
/- Region 2's payloads read at an index, at the ideal values: the projected activations, the reset values, the column
   numbers of a tile, and the tile's masked logits (the projected row times a weight row plus the bias on the true
   columns, ⊥ on the padding). -/
import proofs.«416365_j66236985639681_1_alg».proof.Proof.KI.R2ValueBlocks
import Idealize.ShloMosaic.Lib.ValueIdx
import Idealize.ShloMosaic.Lib.ValueLayout
import Idealize.ShloMosaic.Lib.Pipeline.Value
import Idealize.ShloMosaic.Lib.StackMember
import Idealize.ShloMosaic.Lib.WordArith
import Idealize.ShloMosaic.PureOps.Ideal.Laws
import Idealize.ShloMosaic.PureOps.IdealRules

noncomputable section

namespace Cert.KernelIdeal.H.R2V

open Cert.KernelIdeal Cert.KernelIdeal.Gen
open Idealize.ShloMosaic Idealize.ShloMosaic.TcCoe
open Idealize.ShloMosaic.ValueIdx
open Idealize.ShloMosaic.Pipeline (Dat Cfg Window BodyObligation cellOf)

/-! ## Words -/

/-- The column number of lane k in tile j, as a 32-bit word. -/
theorem col_word (j k : ℕ) :
    IntOp.addi (Scalar.muli (BitVec.ofNat 32 j) 1024#32) (BitVec.ofNat 32 k) = BitVec.ofNat 32 (j * 1024 + k) := by
  show BitVec.ofNat 32 j * BitVec.ofNat 32 1024 + BitVec.ofNat 32 k = _
  rw [BitVec.ofNat_add, BitVec.ofNat_mul]

/-- Two small numbers compared as signed words. -/
theorem slt_word (a b : ℕ) (ha : a < 2 ^ 31) (hb : b < 2 ^ 31) :
    IntOp.cmpi .slt (BitVec.ofNat 32 a) (BitVec.ofNat 32 b) = if a < b then 1#1 else 0#1 := by
  show BitVec.ofBool ((BitVec.ofNat 32 a).slt (BitVec.ofNat 32 b)) = _
  have hi : (BitVec.ofNat 32 a).slt (BitVec.ofNat 32 b) = decide (a < b) := by
    rw [BitVec.slt_eq_decide, WordArith.toInt_ofNat_small a ha, WordArith.toInt_ofNat_small b hb]
    exact decide_eq_decide.mpr Nat.cast_lt
  rw [hi]
  by_cases h : a < b
  · rw [if_pos h, decide_eq_true h]; rfl
  · rw [if_neg h, decide_eq_false h]; rfl

/-- Two small numbers compared for equality as words. -/
theorem eq_word (a b : ℕ) (ha : a < 2 ^ 32) (hb : b < 2 ^ 32) :
    IntOp.cmpi .eq (BitVec.ofNat 32 a) (BitVec.ofNat 32 b) = if a = b then 1#1 else 0#1 := by
  show BitVec.ofBool (BitVec.ofNat 32 a == BitVec.ofNat 32 b) = _
  by_cases h : a = b
  · subst h; rw [if_pos rfl, beq_self_eq_true]; rfl
  · rw [if_neg h]
    have hne : BitVec.ofNat 32 a ≠ BitVec.ofNat 32 b := fun e => h (by
      have := congrArg BitVec.toNat e
      rwa [WordArith.toNat_ofNat_of_lt a ha, WordArith.toNat_ofNat_of_lt b hb] at this)
    rw [beq_eq_false_iff_ne.mpr hne]; rfl

/-! ## The matrix product into zero -/

/-- An m × k by k × n product into a zero accumulator, at an entry: the sum over the contracted coordinate. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  show FloatOps.matmul (DotDims.plain m k n) prec A B (constant (F := Ideal) ⟨2, ![m, n]⟩ .f32 0x00000000#32) (ix2 a b) = _
  rw [Ideal.matmul_constant_zero_apply]
  exact (Ideal.dotGeneral_apply (DotDims.plain m k n) prec _ A B (ix2 a b)).symm.trans
    (StackMember.dotGeneral_plain_apply prec A B a b)

/-! ## The payloads at an index -/

/-- The projected activations: the hidden row times the projection's column. -/
theorem pay4_apply (hid : Vec Ideal S1024x512 .bf16) (prj : Vec Ideal S512x32 .bf16) (n : Fin 1024) (e : Fin nEmb) :
    k2_pay4 hid prj (ix2 n e) = ∑ d : Fin 512, hid (ix2 n d) * prj (ix2 d e) := by
  unfold k2_pay4
  show shapeCast S1024x32 (truncf .bf16 (matmul dot_S1024x512_S512x32_S1024x32_1_0_0_1_n_n none
      (shapeCast S1024x512 hid shapeCasts_S1024x512_S1024x512) (shapeCast S512x32 prj shapeCasts_S512x32_S512x32)
      (constant (F := Ideal) S1024x32 .f32 0x00000000#32)) bitsLt_bf16_f32) shapeCasts_S1024x32_S1024x32 (ix2 n e) = _
  rw [shapeCast_self, shapeCast_self, shapeCast_self]
  exact matmul_plain_zero_apply (m := 1024) (k := 512) (n := nEmb) (φ₁ := .bf16) (φ₂ := .bf16) none hid prj n e

/-- The reset row maximum is ⊥. -/
theorem pay5_apply (j : S1024x1.Idx) : k2_pay5 (F := Ideal) j = ⊥ := by
  show Ideal.ofBits .f32 0xFF800000#32 = ⊥
  simp [Ideal.ofBits, Ideal.ieee]

/-- The reset row sum is 0. -/
theorem pay6_apply (j : S1024x1.Idx) : k2_pay6 (F := Ideal) j = 0 := by
  show Ideal.ofBits .f32 0x00000000#32 = 0
  exact Ideal.ofBits_zero_f32

/-- The reset accumulated target logit is 0. -/
theorem pay7_apply (j : S1024x1.Idx) : k2_pay7 (F := Ideal) j = 0 := by
  show Ideal.ofBits .f32 0x00000000#32 = 0
  exact Ideal.ofBits_zero_f32

/-- The column number of lane k in the tile at coordinate i. -/
theorem pay8_apply (i : grid2.Coords) (n k : Fin 1024) :
    k2_pay8 i (ix2 n k) = BitVec.ofNat 32 ((i 0).val * 1024 + k.val) := by
  unfold k2_pay8
  show IntOp.addi (Scalar.muli (BitVec.ofNat 32 (i 0).val) 1024#32) (iota .tc S1024x1024 32 [1] iota_S1024x1024_d1_w32 (ix2 n k)) = _
  rw [iota_single_apply]
  exact col_word _ _

/-! ## The masked logits of a tile -/

/-- The masked logit of row n at lane k of the tile at coordinate i: the projected row times weight row k plus bias k
    where the lane's column is a true column, ⊥ on the padding. -/
def mlogit (i : grid2.Coords) (x w : Vec Ideal S1024x32 .bf16) (b : Vec Ideal S1024 .f32) (n k : Fin 1024) : EReal :=
  if (i 0).val * 1024 + k.val < nCol then (∑ e : Fin nEmb, x (ix2 n e) * w (ix2 k e)) + b (ix1 k) else ⊥

/-- The projected rows times the transposed weight tile, at an entry. -/
theorem logit_mm (x w : Vec Ideal S1024x32 .bf16) (n k : Fin 1024) :
    matmul (φ₁ := .bf16) (φ₂ := .bf16) dot_S1024x32_S32x1024_S1024x1024_1_0_0_1_n_n none x
      (transpose S32x1024 [1, 0] (shapeCast S1024x32 w shapeCasts_S1024x32_S1024x32) transposes_S1024x32_p1_0_S32x1024)
      (constant (F := Ideal) S1024x1024 .f32 0x00000000#32) (ix2 n k) = ∑ e : Fin nEmb, x (ix2 n e) * w (ix2 k e) := by
  rw [shapeCast_self]
  refine (matmul_plain_zero_apply (m := 1024) (k := nEmb) (n := 1024) (φ₁ := .bf16) (φ₂ := .bf16) none x
    (transpose S32x1024 [1, 0] w transposes_S1024x32_p1_0_S32x1024) n k).trans ?_
  refine Finset.sum_congr rfl fun e _ => ?_
  rw [transpose_ix2_apply]

/-- The bias tile laid along every row, at an entry. -/
theorem bias_row (b : Vec Ideal S1024 .f32) (n k : Fin 1024) :
    broadcastTo S1024x1024 (shapeCast S1x1024 (shapeCast S1024 b shapeCasts_S1024_S1024) shapeCasts_S1024_S1x1024)
      broadcasts_S1x1024_S1024x1024 (ix2 n k) = b (ix1 k) := by
  rw [shapeCast_self, broadcastTo_1b_ab_apply, shapeCast_a_1a_apply]

/-- The mask bit of a lane: its column is a true column. -/
theorem mask_apply (i : grid2.Coords) (n k : Fin 1024) (hi : (i 0).val < nTile) :
    IntOp.cmpi .slt (k2_pay8 i (ix2 n k)) 160000#32 = if (i 0).val * 1024 + k.val < nCol then 1#1 else 0#1 := by
  rw [pay8_apply]
  have hk := k.isLt
  have h20 : nTile * 1024 ≤ 2 ^ 31 - 1024 := by decide
  exact slt_word _ _ (by omega) (by decide)

/-- The fill of the padding lanes is ⊥. -/
theorem neg_big_eq : Named.named (F := Ideal) κ "neg_big" (φ := .f32) 0xF149F2CA#32 = ⊥ :=
  IdealRules.named_const.ideal_named_scalar _ _ _ _ rfl

/-- The masked logits at an entry. -/
theorem pay9_apply (i : grid2.Coords) (x w : Vec Ideal S1024x32 .bf16) (b : Vec Ideal S1024 .f32) (n k : Fin 1024)
    (hi : (i 0).val < nTile) : k2_pay9 i x w b (ix2 n k) = mlogit i x w b n k := by
  unfold k2_pay9 mlogit
  show Scalar.select (IntOp.cmpi .slt (k2_pay8 i (ix2 n k)) 160000#32)
    (matmul (φ₁ := .bf16) (φ₂ := .bf16) dot_S1024x32_S32x1024_S1024x1024_1_0_0_1_n_n none x
      (transpose S32x1024 [1, 0] (shapeCast S1024x32 w shapeCasts_S1024x32_S1024x32) transposes_S1024x32_p1_0_S32x1024)
      (constant (F := Ideal) S1024x1024 .f32 0x00000000#32) (ix2 n k)
     + broadcastTo S1024x1024 (shapeCast S1x1024 (shapeCast S1024 b shapeCasts_S1024_S1024) shapeCasts_S1024_S1x1024)
      broadcasts_S1x1024_S1024x1024 (ix2 n k))
    (Named.named (F := Ideal) κ "neg_big" (φ := .f32) 0xF149F2CA#32) = _
  rw [mask_apply i n k hi, logit_mm, bias_row, neg_big_eq]
  split
  · exact select_one _ _
  · exact select_zero _ _

end Cert.KernelIdeal.H.R2V
end
-- ==== Proof.KI.R2ValueReduce.lean ====
/- Region 2's lane reductions read at a row, at the ideal values: the lane maximum as the fold of max from ⊥, the lane
   sum as a sum; with them the new row maximum, the new row sum of exponentials, the accumulated target logit, and
   the result's subtraction. -/
import proofs.«416365_j66236985639681_1_alg».proof.Proof.KI.R2ValuePay
import Mathlib.Data.Finset.Fold
import Mathlib.Data.Finset.Max

noncomputable section

namespace Cert.KernelIdeal.H.R2V

open Cert.KernelIdeal Cert.KernelIdeal.Gen
open Idealize.ShloMosaic Idealize.ShloMosaic.TcCoe
open Idealize.ShloMosaic.ValueIdx
open Idealize.ShloMosaic.Pipeline (Dat Cfg Window BodyObligation cellOf)

/-! ## The lane reductions -/

/-- The fold of max from ⊥ is at least every entry. -/
theorem le_fold_max {m : ℕ} (f : Fin m → EReal) (k : Fin m) : f k ≤ (Finset.univ : Finset (Fin m)).fold max ⊥ f :=
  (Finset.le_fold_max _).mpr (Or.inr ⟨k, Finset.mem_univ k, le_rfl⟩)

/-- Over a nonempty range the fold of max from ⊥ is attained. -/
theorem fold_max_mem {m : ℕ} (hm : 0 < m) (f : Fin m → EReal) : ∃ k, (Finset.univ : Finset (Fin m)).fold max ⊥ f = f k := by
  obtain ⟨k, -, hk⟩ := Finset.exists_max_image (Finset.univ : Finset (Fin m)) f ⟨⟨0, hm⟩, Finset.mem_univ _⟩
  exact ⟨k, le_antisymm ((Finset.fold_max_le _).mpr ⟨bot_le, fun k' hk' => hk k' hk'⟩) (le_fold_max f k)⟩

/-- The index a reduction along the lanes reads at row n and lane k. -/
theorem lift_row (h : S1024x1024.Reduces [1] S1024) (n k : Fin 1024) : h.lift (ix1 n) k = ix2 n k := by
  funext a; apply Fin.ext
  match a with
  | ⟨0, _⟩ => rfl
  | ⟨1, _⟩ => rfl

/-- A vector of rows cast to one column, at row n. -/
theorem col_cast {α : Type} (v : S1024.Idx → α) (n : Fin 1024) :
    shapeCast S1024x1 v shapeCasts_S1024_S1024x1 (ix2 n (0 : Fin 1)) = v (ix1 n) :=
  shapeCast_apply v shapeCasts_S1024_S1024x1 (ix2 n (0 : Fin 1)) (ix1 n) (by
    rw [Shape.rowMajor_val_two, Shape.rowMajor_val_one]
    show n.val = n.val * 1 + 0
    omega)

/-- One column laid along every lane, at an entry. -/
theorem bcast_col {α : Type} (v : S1024x1.Idx → α) (n k : Fin 1024) :
    broadcastTo S1024x1024 v broadcasts_S1024x1_S1024x1024 (ix2 n k) = v (ix2 n (0 : Fin 1)) := by
  refine broadcastTo_apply v broadcasts_S1024x1_S1024x1024 (ix2 n k) (ix2 n (0 : Fin 1)) fun ax => ?_
  match ax with
  | ⟨0, _⟩ => show n.val = if (1024 : ℕ) = 1 then 0 else n.val; rw [if_neg (by decide)]
  | ⟨1, _⟩ => show (0 : ℕ) = if (1 : ℕ) = 1 then 0 else k.val; rw [if_pos rfl]

/-- The bit pattern of minus infinity is ⊥. -/
theorem neg_inf_eq : (FloatOps.ofBits (F := Ideal) .f32 0xFF800000#32 : EReal) = ⊥ := by
  show Ideal.ofBits .f32 0xFF800000#32 = ⊥
  simp [Ideal.ofBits, Ideal.ieee]

/-- The lane maximum from minus infinity, as one column, at row n: the fold of max from ⊥ over the row's entries. -/
theorem row_max (src : FVec Ideal S1024x1024 .f32) (n : Fin 1024) :
    shapeCast S1024x1 (multiReduction (F := Ideal) .maximumf [1] S1024 src 0xFF800000#32 reduces_S1024x1024_S1024 (.inl rfl) rfl)
      shapeCasts_S1024_S1024x1 (ix2 n (0 : Fin 1))
      = (Finset.univ : Finset (Fin 1024)).fold max ⊥ (fun k => src (ix2 n k)) := by
  refine (col_cast _ n).trans ?_
  refine (Ideal.multiReduction_maximumf_single src _ reduces_S1024x1024_S1024 _ _ (ix1 n)).trans ?_
  rw [neg_inf_eq]
  exact Finset.fold_congr fun k _ => congrArg src (lift_row _ n k)

/-- The lane sum, as one column, at row n: the sum of the row's entries. -/
theorem row_sum (src : FVec Ideal S1024x1024 .f32) (n : Fin 1024) :
    shapeCast S1024x1 (multiReduction (F := Ideal) .add [1] S1024 src 0x00000000#32 reduces_S1024x1024_S1024 (.inl rfl) rfl)
      shapeCasts_S1024_S1024x1 (ix2 n (0 : Fin 1))
      = ∑ k : Fin 1024, src (ix2 n k) := by
  refine (col_cast _ n).trans ?_
  refine (Ideal.multiReduction_add_single src _ reduces_S1024x1024_S1024 _ _ (ix1 n)).trans ?_
  exact Finset.sum_congr rfl fun k _ => congrArg src (lift_row _ n k)

/-! ## The row maximum, the row sum, the target logit and the result -/

/-- The largest masked logit of row n in the tile at coordinate i. -/
def tmax (i : grid2.Coords) (x w : Vec Ideal S1024x32 .bf16) (b : Vec Ideal S1024 .f32) (n : Fin 1024) : EReal :=
  (Finset.univ : Finset (Fin 1024)).fold max ⊥ (fun k => mlogit i x w b n k)

/-- The new row maximum: the larger of the old one and the tile's. -/
theorem pay10_apply (i : grid2.Coords) (x w : Vec Ideal S1024x32 .bf16) (b : Vec Ideal S1024 .f32)
    (m : Vec Ideal S1024x1 .f32) (n : Fin 1024) (hi : (i 0).val < nTile) :
    k2_pay10 i x w b m (ix2 n (0 : Fin 1)) = max (m (ix2 n (0 : Fin 1))) (tmax i x w b n) := by
  unfold k2_pay10
  refine (maximumf_apply _ _ _).trans ?_
  refine congrArg (max (m (ix2 n (0 : Fin 1)))) ?_
  refine (row_max _ n).trans ?_
  unfold tmax
  exact Finset.fold_congr fun k _ => pay9_apply i x w b n k hi

/-- The stored row maximum is the new row maximum. -/
theorem pay1_eq (v : FVec Ideal S1024x1 .f32) : k2_pay1 v = v := by
  unfold k2_pay1
  exact shapeCast_self _ _

/-- The new row sum: the old one rescaled to the new maximum plus the tile's exponentials. -/
theorem pay11_apply (i : grid2.Coords) (x w : Vec Ideal S1024x32 .bf16) (b : Vec Ideal S1024 .f32)
    (m l : Vec Ideal S1024x1 .f32) (n : Fin 1024) (hi : (i 0).val < nTile) :
    k2_pay11 i x w b m l (ix2 n (0 : Fin 1))
      = Ideal.exp (m (ix2 n (0 : Fin 1)) - k2_pay10 i x w b m (ix2 n (0 : Fin 1))) * l (ix2 n (0 : Fin 1))
        + ∑ k : Fin 1024, Ideal.exp (mlogit i x w b n k - k2_pay10 i x w b m (ix2 n (0 : Fin 1))) := by
  unfold k2_pay11
  refine (congrFun (shapeCast_self _ _) _).trans ?_
  refine (addf_apply _ _ _).trans ?_
  refine congrArg₂ (fun p q : EReal => p + q) rfl ?_
  refine (row_sum _ n).trans ?_
  refine Finset.sum_congr rfl fun k _ => ?_
  show Ideal.exp (k2_pay9 i x w b (ix2 n k)
    - broadcastTo S1024x1024 (k2_pay10 i x w b m) broadcasts_S1024x1_S1024x1024 (ix2 n k)) = _
  rw [bcast_col, pay9_apply i x w b n k hi]

/-- The new accumulated target logit: the old one plus the tile's logit at the target column, if it is in the tile. -/
theorem pay2_apply (i : grid2.Coords) (lg : FVec Ideal S1024x1024 .f32) (tg : Vec Ideal S1024x1 .i32)
    (acc : Vec Ideal S1024x1 .f32) (n : Fin 1024) (t : ℕ) (ht : tg (ix2 n (0 : Fin 1)) = BitVec.ofNat 32 t)
    (ht' : t < 2 ^ 31) (hi : (i 0).val < nTile) :
    k2_pay2 (k2_pay8 i) lg tg acc (ix2 n (0 : Fin 1))
      = acc (ix2 n (0 : Fin 1)) + ∑ k : Fin 1024, (if (i 0).val * 1024 + k.val = t then lg (ix2 n k) else 0) := by
  unfold k2_pay2
  refine (congrFun (shapeCast_self _ _) _).trans ?_
  refine (addf_apply _ _ _).trans ?_
  refine congrArg (fun q : EReal => acc (ix2 n (0 : Fin 1)) + q) ?_
  refine (row_sum _ n).trans ?_
  refine Finset.sum_congr rfl fun k _ => ?_
  show Scalar.select (IntOp.cmpi .eq (k2_pay8 i (ix2 n k))
      (broadcastTo S1024x1024 (shapeCast S1024x1 tg shapeCasts_S1024x1_S1024x1) broadcasts_S1024x1_S1024x1024 (ix2 n k)))
    (lg (ix2 n k)) (Ideal.ofBits .f32 0x00000000#32) = _
  have hk := k.isLt
  have h20 : nTile * 1024 ≤ 2 ^ 31 - 1024 := by decide
  rw [shapeCast_self, pay8_apply, bcast_col, ht, eq_word _ _ (by omega) (by omega), Ideal.ofBits_zero_f32]
  split
  · exact select_one _ _
  · exact select_zero _ _

/-- The result: the accumulated target logit less the sum of the row maximum and the logarithm of the row sum. -/
theorem pay3_apply (m l acc : Vec Ideal S1024x1 .f32) (j : S1024x1.Idx) :
    k2_pay3 m l acc j = acc j - (m j + Ideal.log (l j)) := rfl

end Cert.KernelIdeal.H.R2V
end
-- ==== Proof.KI.R2ValueInv.lean ====
/- Region 2's carried state over the points, row by row: after p points the running maximum, the running sum of
   exponentials and the accumulated target logit are the online log-sum-exp run over the first p tiles of the row's
   masked logits; the projected activations never change. -/
import proofs.«416365_j66236985639681_1_alg».proof.Proof.KI.R2ValueReduce
import proofs.«416365_j66236985639681_1_alg».proof.Proof.LibOnlineLogSumExp
import proofs.«416365_j66236985639681_1_alg».proof.Proof.Spec

noncomputable section

namespace Cert.KernelIdeal.H.R2V

open Cert.KernelIdeal Cert.KernelIdeal.Gen
open Idealize.ShloMosaic Idealize.ShloMosaic.TcCoe
open Idealize.ShloMosaic.ValueIdx
open Idealize.ShloMosaic.Pipeline (Dat Cfg Window BodyObligation cellOf)

open Cert.LibOnlineLogSumExp

/-! ## A row's masked logits, tile by tile -/

section Rows

variable (V : Val Ideal) (c : Dev nD)
  (h : Fin 1024 → Fin 512 → EReal) (P : Fin 512 → Fin nEmb → EReal)
  (W : Fin nCol → Fin nEmb → EReal) (b : Fin nCol → EReal)

/-- Row n's masked logits tile by tile: the cluster's logit on the true columns, ⊥ on the padding. -/
def xs (n : Fin 1024) (j : Fin nTile) (k : Fin 1024) : EReal :=
  if hv : j.val * 1024 + k.val < nCol then Cert.Spec.logits (Cert.Spec.proj h P) W b n ⟨j.val * 1024 + k.val, hv⟩ else ⊥

/-- The largest masked logit of row n's tile j. -/
def mx (n : Fin 1024) (j : Fin nTile) : EReal := (Finset.univ : Finset (Fin 1024)).fold max ⊥ (xs h P W b n j)

variable (hH : ∀ (n : Fin 1024) (d : Fin 512), V c main_v0 (ix2 n d) = h n d)
  (hP : ∀ (d : Fin 512) (e : Fin nEmb), V c main_v37 (ix2 d e) = P d e)
  (hW : ∀ (v : Fin nPad) (e : Fin nEmb), V c main_v35 (ix2 v e) = if hv : v.val < nCol then W ⟨v.val, hv⟩ e else 0)
  (hB : ∀ v : Fin nPad, V c main_v36 (ix1 v) = if hv : v.val < nCol then b ⟨v.val, hv⟩ else 0)

include hH hP in
/-- The projected activations the state carries: the hidden rows times the projection. -/
theorem xproj_apply (n : Fin 1024) (e : Fin nEmb) :
    k2_pay4 (R2.hidden V c) (R2.proj V c) (ix2 n e) = Cert.Spec.proj h P n e := by
  rw [pay4_apply]
  unfold Cert.Spec.proj
  refine Finset.sum_congr rfl fun d _ => ?_
  rw [hidden_apply, proj_apply, hH, hP]

include hH hP hW hB in
/-- The masked logits of point t's tile, off the carried projection and the point's weight and bias tiles, are the
    row's masked logits of tile t. -/
theorem mlogit_eq (i : grid2.Coords) (t : Fin cfg2.N) (hi : (i 0).val = t.val) (n k : Fin 1024) :
    mlogit i (k2_pay4 (R2.hidden V c) (R2.proj V c)) (R2.wt V c t) (R2.bt V c t) n k
      = xs h P W b n ⟨t.val, point_lt t⟩ k := by
  unfold mlogit xs
  rw [hi]
  by_cases hv : t.val * 1024 + k.val < nCol
  · rw [if_pos hv, dif_pos hv]
    unfold Cert.Spec.logits
    refine congrArg₂ (fun p q : EReal => p + q) (Finset.sum_congr rfl fun e _ => ?_) ?_
    · rw [xproj_apply V c h P hH hP n e, wt_apply V c t k e, hW, dif_pos hv]
    · rw [bt_apply V c t k, hB, dif_pos hv]
  · rw [if_neg hv, dif_neg hv]

end Rows

/-! ## The invariant over the points -/

section Run

variable (V : Val Ideal) (c : Dev nD)
  (h : Fin 1024 → Fin 512 → EReal) (P : Fin 512 → Fin nEmb → EReal)
  (W : Fin nCol → Fin nEmb → EReal) (b : Fin nCol → EReal) (idx : Fin 1024 → Fin nCol)

/-- What the carried state holds for one row after p points: the projection, and the running maximum, the running
    sum and the accumulated target logit of the online log-sum-exp over the row's first p tiles. -/
structure Holds (s : R2.St Ideal) (row : Fin 1024) (p : ℕ) : Prop where
  x : s.x = k2_pay4 (R2.hidden V c) (R2.proj V c)
  m : s.m (ix2 row (0 : Fin 1)) = runMax (mx h P W b row) p
  l : s.l (ix2 row (0 : Fin 1)) = runSum (xs h P W b row) (mx h P W b row) p
  acc : s.acc (ix2 row (0 : Fin 1)) = runAcc (xs h P W b row) (idx row).val p

/-- The reset state holds the empty run. -/
theorem holds_init (row : Fin 1024) : Holds V c h P W b idx (R2.stAt V c 0) row 0 :=
  ⟨rfl, pay5_apply (ix2 row (0 : Fin 1)), pay6_apply (ix2 row (0 : Fin 1)), pay7_apply (ix2 row (0 : Fin 1))⟩

/-- At every point the body computes from the state the point before left: at the first point that is the reset. -/
theorem base_stAt (t : Fin cfg2.N) : R2.base V c t (R2.stAt V c t.val) = R2.stAt V c t.val := by
  unfold R2.base
  split
  · next h0 => rw [h0]; rfl
  · rfl

variable (hH : ∀ (n : Fin 1024) (d : Fin 512), V c main_v0 (ix2 n d) = h n d)
  (hP : ∀ (d : Fin 512) (e : Fin nEmb), V c main_v37 (ix2 d e) = P d e)
  (hW : ∀ (v : Fin nPad) (e : Fin nEmb), V c main_v35 (ix2 v e) = if hv : v.val < nCol then W ⟨v.val, hv⟩ e else 0)
  (hB : ∀ v : Fin nPad, V c main_v36 (ix1 v) = if hv : v.val < nCol then b ⟨v.val, hv⟩ else 0)
  (hT : ∀ n : Fin 1024, V c main_v41 (ix2 n (0 : Fin 1)) = BitVec.ofNat 32 (idx n).val)

include hH hP hW hB hT in
/-- One point carries the run one tile further. -/
theorem holds_step (t : Fin cfg2.N) (s : R2.St Ideal) (row : Fin 1024) (hs : Holds V c h P W b idx s row t.val)
    (hb : R2.base V c t s = s) : Holds V c h P W b idx (R2.step V c t s) row (t.val + 1) := by
  have ht : t.val < nTile := point_lt t
  have hc : (cfg2.grid.coords t 0).val = t.val := coord_val t
  have hi : (cfg2.grid.coords t 0).val < nTile := by rw [hc]; exact ht
  have hlg : ∀ k : Fin 1024, mlogit (cfg2.grid.coords t) s.x (R2.wt V c t) (R2.bt V c t) row k
      = xs h P W b row ⟨t.val, ht⟩ k := fun k => by
    rw [hs.x]; exact mlogit_eq V c h P W b hH hP hW hB (cfg2.grid.coords t) t hc row k
  have htm : tmax (cfg2.grid.coords t) s.x (R2.wt V c t) (R2.bt V c t) row = mx h P W b row ⟨t.val, ht⟩ := by
    unfold tmax mx; exact Finset.fold_congr fun k _ => hlg k
  have hm : k2_pay10 (cfg2.grid.coords t) s.x (R2.wt V c t) (R2.bt V c t) s.m (ix2 row (0 : Fin 1))
      = runMax (mx h P W b row) (t.val + 1) := by
    rw [pay10_apply _ _ _ _ _ _ hi, htm, hs.m, runMax_succ _ ht]
  have htg : R2.tgt V c (ix2 row (0 : Fin 1)) = BitVec.ofNat 32 (idx row).val := (tgt_apply V c row).trans (hT row)
  have hidx : (idx row).val < 2 ^ 31 := by
    have h1 := (idx row).isLt
    have h2 : nCol < 2 ^ 31 := by decide
    omega
  refine ⟨?_, ?_, ?_, ?_⟩
  · show (R2.base V c t s).x = _
    rw [hb]; exact hs.x
  · show k2_pay1 (k2_pay10 (cfg2.grid.coords t) (R2.base V c t s).x (R2.wt V c t) (R2.bt V c t) (R2.base V c t s).m)
      (ix2 row (0 : Fin 1)) = _
    rw [hb, pay1_eq]; exact hm
  · show k2_pay11 (cfg2.grid.coords t) (R2.base V c t s).x (R2.wt V c t) (R2.bt V c t) (R2.base V c t s).m
      (R2.base V c t s).l (ix2 row (0 : Fin 1)) = _
    rw [hb, pay11_apply _ _ _ _ _ _ _ hi, hm, hs.m, hs.l, runSum_succ _ _ ht]
    refine congrArg (fun q : EReal => Ideal.exp (runMax (mx h P W b row) t.val - runMax (mx h P W b row) (t.val + 1))
      * runSum (xs h P W b row) (mx h P W b row) t.val + q) (Finset.sum_congr rfl fun k _ => ?_)
    rw [hlg k]
  · show k2_pay2 (k2_pay8 (cfg2.grid.coords t))
      (k2_pay9 (cfg2.grid.coords t) (R2.base V c t s).x (R2.wt V c t) (R2.bt V c t)) (R2.tgt V c) (R2.base V c t s).acc
      (ix2 row (0 : Fin 1)) = _
    rw [hb, pay2_apply _ _ _ _ row (idx row).val htg hidx hi, hs.acc, runAcc_succ _ _ ht]
    refine congrArg (fun q : EReal => runAcc (xs h P W b row) (idx row).val t.val + q)
      (Finset.sum_congr rfl fun k _ => ?_)
    rw [pay9_apply _ _ _ _ row k hi, hlg k, hc]

include hH hP hW hB hT in
/-- After p points the carried state holds the run over the row's first p tiles. -/
theorem holds_stAt (row : Fin 1024) : ∀ p : ℕ, p ≤ nTile → Holds V c h P W b idx (R2.stAt V c p) row p
  | 0, _ => holds_init V c h P W b idx row
  | p + 1, hp => by
    have hp' : p < cfg2.N := by rw [grid_tiles]; exact hp
    rw [show R2.stAt V c (p + 1) = R2.step V c ⟨p, hp'⟩ (R2.stAt V c p) from R2.stAt_succ V c ⟨p, hp'⟩]
    exact holds_step V c h P W b idx hH hP hW hB hT ⟨p, hp'⟩ (R2.stAt V c p) row
      (holds_stAt row p (Nat.le_of_succ_le hp)) (base_stAt V c ⟨p, hp'⟩)

end Run

end Cert.KernelIdeal.H.R2V
end
-- ==== Proof.KI.R2Value.lean ====
/- Region 2's result, row by row: the log-softmax of the row's logits at the row's target column.

   The row's logits are reals (finite sums of products of reals plus a real), every tile holds a true column, and the
   tile maxima bound and are attained by the masked logits: so the online log-sum-exp the carried state holds after
   the last point is the shifted log-softmax of the row's true columns. -/
import proofs.«416365_j66236985639681_1_alg».proof.Proof.KI.R2ValueInv

noncomputable section

namespace Cert.KernelIdeal.H.R2V

open Cert.KernelIdeal Cert.KernelIdeal.Gen
open Idealize.ShloMosaic Idealize.ShloMosaic.TcCoe
open Idealize.ShloMosaic.ValueIdx
open Idealize.ShloMosaic.Pipeline (Dat Cfg Window BodyObligation cellOf)

open Cert.LibOnlineLogSumExp

/-! ## The logits are reals -/

/-- A finite sum of products of reals is a real. -/
theorem real_dot {m : ℕ} (u v : Fin m → EReal) (hu : ∀ i, ∃ r : ℝ, u i = (r : EReal)) (hv : ∀ i, ∃ r : ℝ, v i = (r : EReal)) :
    ∃ r : ℝ, ∑ i, u i * v i = (r : EReal) := by
  choose ur hur using hu
  choose vr hvr using hv
  refine ⟨∑ i, ur i * vr i, ?_⟩
  rw [coe_finsetSum]
  exact Finset.sum_congr rfl fun i _ => by rw [hur, hvr, EReal.coe_mul]

section Final

variable (V : Val Ideal) (c : Dev nD)
  (h : Fin 1024 → Fin 512 → EReal) (P : Fin 512 → Fin nEmb → EReal)
  (W : Fin nCol → Fin nEmb → EReal) (b : Fin nCol → EReal) (idx : Fin 1024 → Fin nCol)
  (hH : ∀ (n : Fin 1024) (d : Fin 512), V c main_v0 (ix2 n d) = h n d)
  (hP : ∀ (d : Fin 512) (e : Fin nEmb), V c main_v37 (ix2 d e) = P d e)
  (hW : ∀ (v : Fin nPad) (e : Fin nEmb), V c main_v35 (ix2 v e) = if hv : v.val < nCol then W ⟨v.val, hv⟩ e else 0)
  (hB : ∀ v : Fin nPad, V c main_v36 (ix1 v) = if hv : v.val < nCol then b ⟨v.val, hv⟩ else 0)
  (hT : ∀ n : Fin 1024, V c main_v41 (ix2 n (0 : Fin 1)) = BitVec.ofNat 32 (idx n).val)
  (hh : ∀ n d, ∃ r : ℝ, h n d = (r : EReal))
  (hPr : ∀ d e, ∃ r : ℝ, P d e = (r : EReal))
  (hWr : ∀ v e, ∃ r : ℝ, W v e = (r : EReal))
  (hbr : ∀ v, ∃ r : ℝ, b v = (r : EReal))

include hh hPr hWr hbr in
/-- Every logit of a row is a real: a finite sum of products of reals plus a real. -/
theorem real_logits (n : Fin 1024) (v : Fin nCol) :
    ∃ r : ℝ, Cert.Spec.logits (Cert.Spec.proj h P) W b n v = (r : EReal) := by
  obtain ⟨r1, e1⟩ := real_dot (fun e => Cert.Spec.proj h P n e) (fun e => W v e)
    (fun e => real_dot (fun d => h n d) (fun d => P d e) (hh n) (fun d => hPr d e)) (hWr v)
  obtain ⟨r2, e2⟩ := hbr v
  refine ⟨r1 + r2, ?_⟩
  unfold Cert.Spec.logits
  exact (congrArg₂ (fun p q : EReal => p + q) e1 e2).trans (EReal.coe_add r1 r2).symm

include hH hP hW hB hT hh hPr hWr hbr in
/-- Region 2's result, row by row: the log-softmax of the row's logits at the row's target column. -/
theorem outv_eq : ∀ n : Fin 1024, R2.outv V c (ix2 n (0 : Fin 1))
    = Cert.Spec.logSoftmax (Cert.Spec.logits (Cert.Spec.proj h P) W b n) (idx n) := by
  intro n
  have H := holds_stAt V c h P W b idx hH hP hW hB hT n nTile le_rfl
  unfold R2.outv
  rw [pay3_apply, grid_tiles, H.m, H.l, H.acc]
  exact online_eq_logSoftmax (xs h P W b n) (mx h P W b n) (Cert.Spec.logits (Cert.Spec.proj h P) W b n) (idx n).val
    (by decide) (by decide)
    (fun j => by have h1 := j.isLt; have h2 := last_tile_lt; omega)
    (fun j k => rfl)
    (fun v => real_logits h P W b hh hPr hWr hbr n v)
    (fun j k => le_fold_max _ k)
    (fun j => fold_max_mem (by decide) _)
    (idx n).isLt

end Final

end Cert.KernelIdeal.H.R2V
end
-- ==== Proof.KI.R3ValueBlocks.lean ====
/- Region 3's operand blocks read off the operand arrays.

   Every window's block at a grid point is a box of rows of its array: the hidden activations, the projection and the
   relative targets are one block each (the whole array), the weight tile and the bias tile of point t are rows
   t * 1024 to t * 1024 + 1023 of the padded weight matrix and of the padded bias vector. -/
import proofs.«416365_j66236985639681_1_alg».proof.Proof.KI.R3State
import Idealize.ShloMosaic.Lib.ValueIdx

noncomputable section

namespace Cert.KernelIdeal.H.R3V

open Cert.KernelIdeal Cert.KernelIdeal.Gen
open Idealize.ShloMosaic Idealize.ShloMosaic.TcCoe
open Idealize.ShloMosaic.ValueIdx
open Idealize.ShloMosaic.Pipeline (Dat Cfg Window BodyObligation cellOf)

/-! ## The cluster's sizes -/

/-- The cluster's true number of columns. -/
abbrev nCol : ℕ := 67735
/-- The number of column tiles (the grid's points). -/
abbrev nTile : ℕ := 67
/-- The padded number of columns. -/
abbrev nPad : ℕ := 68608
/-- The cluster's embedding width. -/
abbrev nEmb : ℕ := 8

/-- The tiles fill the padded columns. -/
theorem tiles_pad : nTile * 1024 = nPad := by decide
/-- The true columns are among the padded ones. -/
theorem col_le_pad : nCol ≤ nPad := by decide
/-- Every tile holds a true column: the last tile starts below the true size. -/
theorem last_tile_lt : (nTile - 1) * 1024 < nCol := by decide
/-- The grid has one point per tile. -/
theorem grid_tiles : cfg3.N = nTile := by decide

/-- The printed index maps over the grid: the hidden block, the projection block and the target block stay at the
    origin, the weight tile and the bias tile of point t are the t-th, and the point's one coordinate is its number. -/
theorem idx_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 1) = t.val
    ∧ win3_4.index t (0 : Fin 2) = 0 ∧ win3_4.index t (1 : Fin 2) = 0
    ∧ (grid3.coords t 0).val = t.val ∧ t.val < nTile :=
  (by decide +kernel : ∀ t : Fin grid3.N, _)

/-- The coordinate of point t is t. -/
theorem coord_val (t : Fin cfg3.N) : (cfg3.grid.coords t 0).val = t.val := (idx_facts t).2.2.2.2.2.2.2.2.2.1

/-- A point's number is below the number of tiles. -/
theorem point_lt (t : Fin cfg3.N) : t.val < nTile := (idx_facts t).2.2.2.2.2.2.2.2.2.2

/-- A row of tile t is a padded column. -/
theorem row_lt_pad (t : Fin cfg3.N) (r : Fin 1024) : t.val * 1024 + r.val < nPad := by
  have := point_lt t; have := r.isLt; have := tiles_pad; omega

variable (V : Val Ideal) (c : Dev nD)

/-! ## The blocks as rows of the arrays -/

/-- The hidden block is the hidden array. -/
theorem hidden_apply (n : Fin 1024) (d : Fin 512) : R3.hidden V c (ix2 n d) = V c main_v0 (ix2 n d) := by
  obtain ⟨e0, e1, -⟩ := idx_facts R3.t0
  show V c main_v0 (((cfg3.win 0).blk R3.t0).view.emb (ix2 n d)) = _
  refine congrArg (V c main_v0) ?_
  funext a; apply Fin.ext
  match a with
  | ⟨0, _⟩ => show win3_0.index R3.t0 (0 : Fin 2) * 1024 + 1 * n.val = n.val; omega
  | ⟨1, _⟩ => show win3_0.index R3.t0 (1 : Fin 2) * 512 + 1 * d.val = d.val; omega

/-- The projection block is the projection array. -/
theorem proj_apply (d : Fin 512) (e : Fin nEmb) : R3.proj V c (ix2 d e) = V c main_v57 (ix2 d e) := by
  obtain ⟨-, -, e0, e1, -⟩ := idx_facts R3.t0
  show V c main_v57 (((cfg3.win 1).blk R3.t0).view.emb (ix2 d e)) = _
  refine congrArg (V c main_v57) ?_
  funext a; apply Fin.ext
  match a with
  | ⟨0, _⟩ => show win3_1.index R3.t0 (0 : Fin 2) * 512 + 1 * d.val = d.val; omega
  | ⟨1, _⟩ => show win3_1.index R3.t0 (1 : Fin 2) * nEmb + 1 * e.val = e.val; rw [e1, Nat.zero_mul, Nat.zero_add, Nat.one_mul]

/-- The weight tile of point t is rows t * 1024 + r of the padded weight matrix. -/
theorem wt_apply (t : Fin cfg3.N) (r : Fin 1024) (e : Fin nEmb) :
    R3.wt V c t (ix2 r e) = V c main_v55 (ix2 ⟨t.val * 1024 + r.val, row_lt_pad t r⟩ e) := by
  obtain ⟨-, -, -, -, e0, e1, -⟩ := idx_facts t
  show V c main_v55 (((cfg3.win 2).blk t).view.emb (ix2 r e)) = _
  refine congrArg (V c main_v55) ?_
  funext a; apply Fin.ext
  match a with
  | ⟨0, _⟩ => show win3_2.index t (0 : Fin 2) * 1024 + 1 * r.val = t.val * 1024 + r.val; omega
  | ⟨1, _⟩ => show win3_2.index t (1 : Fin 2) * nEmb + 1 * e.val = e.val; rw [e1, Nat.zero_mul, Nat.zero_add, Nat.one_mul]

/-- The bias tile of point t is entries t * 1024 + r of the padded bias vector. -/
theorem bt_apply (t : Fin cfg3.N) (r : Fin 1024) :
    R3.bt V c t (ix1 r) = V c main_v56 (ix1 ⟨t.val * 1024 + r.val, row_lt_pad t r⟩) := by
  obtain ⟨-, -, -, -, -, -, e0, -⟩ := idx_facts t
  show V c main_v56 (((cfg3.win 3).blk t).view.emb (ix1 r)) = _
  refine congrArg (V c main_v56) ?_
  funext a; apply Fin.ext
  match a with
  | ⟨0, _⟩ => show win3_3.index t (0 : Fin 1) * 1024 + 1 * r.val = t.val * 1024 + r.val; omega

/-- The target block is the target array. -/
theorem tgt_apply (n : Fin 1024) : R3.tgt V c (ix2 n (0 : Fin 1)) = V c main_v61 (ix2 n (0 : Fin 1)) := by
  obtain ⟨-, -, -, -, -, -, -, e0, e1, -⟩ := idx_facts R3.t0
  show V c main_v61 (((cfg3.win 4).blk R3.t0).view.emb (ix2 n (0 : Fin 1))) = _
  refine congrArg (V c main_v61) ?_
  funext a; apply Fin.ext
  match a with
  | ⟨0, _⟩ => show win3_4.index R3.t0 (0 : Fin 2) * 1024 + 1 * n.val = n.val; omega
  | ⟨1, _⟩ => show win3_4.index R3.t0 (1 : Fin 2) * 1 + 1 * 0 = 0; omega

end Cert.KernelIdeal.H.R3V
end
-- ==== Proof.KI.R3ValuePay.lean ====
/- Region 3's payloads read at an index, at the ideal values: the projected activations, the reset values, the column
   numbers of a tile, and the tile's masked logits (the projected row times a weight row plus the bias on the true
   columns, ⊥ on the padding). -/
import proofs.«416365_j66236985639681_1_alg».proof.Proof.KI.R3ValueBlocks
import Idealize.ShloMosaic.Lib.ValueIdx
import Idealize.ShloMosaic.Lib.ValueLayout
import Idealize.ShloMosaic.Lib.Pipeline.Value
import Idealize.ShloMosaic.Lib.StackMember
import Idealize.ShloMosaic.Lib.WordArith
import Idealize.ShloMosaic.PureOps.Ideal.Laws
import Idealize.ShloMosaic.PureOps.IdealRules

noncomputable section

namespace Cert.KernelIdeal.H.R3V

open Cert.KernelIdeal Cert.KernelIdeal.Gen
open Idealize.ShloMosaic Idealize.ShloMosaic.TcCoe
open Idealize.ShloMosaic.ValueIdx
open Idealize.ShloMosaic.Pipeline (Dat Cfg Window BodyObligation cellOf)

/-! ## Words -/

/-- The column number of lane k in tile j, as a 32-bit word. -/
theorem col_word (j k : ℕ) :
    IntOp.addi (Scalar.muli (BitVec.ofNat 32 j) 1024#32) (BitVec.ofNat 32 k) = BitVec.ofNat 32 (j * 1024 + k) := by
  show BitVec.ofNat 32 j * BitVec.ofNat 32 1024 + BitVec.ofNat 32 k = _
  rw [BitVec.ofNat_add, BitVec.ofNat_mul]

/-- Two small numbers compared as signed words. -/
theorem slt_word (a b : ℕ) (ha : a < 2 ^ 31) (hb : b < 2 ^ 31) :
    IntOp.cmpi .slt (BitVec.ofNat 32 a) (BitVec.ofNat 32 b) = if a < b then 1#1 else 0#1 := by
  show BitVec.ofBool ((BitVec.ofNat 32 a).slt (BitVec.ofNat 32 b)) = _
  have hi : (BitVec.ofNat 32 a).slt (BitVec.ofNat 32 b) = decide (a < b) := by
    rw [BitVec.slt_eq_decide, WordArith.toInt_ofNat_small a ha, WordArith.toInt_ofNat_small b hb]
    exact decide_eq_decide.mpr Nat.cast_lt
  rw [hi]
  by_cases h : a < b
  · rw [if_pos h, decide_eq_true h]; rfl
  · rw [if_neg h, decide_eq_false h]; rfl

/-- Two small numbers compared for equality as words. -/
theorem eq_word (a b : ℕ) (ha : a < 2 ^ 32) (hb : b < 2 ^ 32) :
    IntOp.cmpi .eq (BitVec.ofNat 32 a) (BitVec.ofNat 32 b) = if a = b then 1#1 else 0#1 := by
  show BitVec.ofBool (BitVec.ofNat 32 a == BitVec.ofNat 32 b) = _
  by_cases h : a = b
  · subst h; rw [if_pos rfl, beq_self_eq_true]; rfl
  · rw [if_neg h]
    have hne : BitVec.ofNat 32 a ≠ BitVec.ofNat 32 b := fun e => h (by
      have := congrArg BitVec.toNat e
      rwa [WordArith.toNat_ofNat_of_lt a ha, WordArith.toNat_ofNat_of_lt b hb] at this)
    rw [beq_eq_false_iff_ne.mpr hne]; rfl

/-! ## The matrix product into zero -/

/-- An m × k by k × n product into a zero accumulator, at an entry: the sum over the contracted coordinate. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  show FloatOps.matmul (DotDims.plain m k n) prec A B (constant (F := Ideal) ⟨2, ![m, n]⟩ .f32 0x00000000#32) (ix2 a b) = _
  rw [Ideal.matmul_constant_zero_apply]
  exact (Ideal.dotGeneral_apply (DotDims.plain m k n) prec _ A B (ix2 a b)).symm.trans
    (StackMember.dotGeneral_plain_apply prec A B a b)

/-! ## The payloads at an index -/

/-- The projected activations: the hidden row times the projection's column. -/
theorem pay4_apply (hid : Vec Ideal S1024x512 .bf16) (prj : Vec Ideal S512x8 .bf16) (n : Fin 1024) (e : Fin nEmb) :
    k3_pay4 hid prj (ix2 n e) = ∑ d : Fin 512, hid (ix2 n d) * prj (ix2 d e) := by
  unfold k3_pay4
  show shapeCast S1024x8 (truncf .bf16 (matmul dot_S1024x512_S512x8_S1024x8_1_0_0_1_n_n none
      (shapeCast S1024x512 hid shapeCasts_S1024x512_S1024x512) (shapeCast S512x8 prj shapeCasts_S512x8_S512x8)
      (constant (F := Ideal) S1024x8 .f32 0x00000000#32)) bitsLt_bf16_f32) shapeCasts_S1024x8_S1024x8 (ix2 n e) = _
  rw [shapeCast_self, shapeCast_self, shapeCast_self]
  exact matmul_plain_zero_apply (m := 1024) (k := 512) (n := nEmb) (φ₁ := .bf16) (φ₂ := .bf16) none hid prj n e

/-- The reset row maximum is ⊥. -/
theorem pay5_apply (j : S1024x1.Idx) : k3_pay5 (F := Ideal) j = ⊥ := by
  show Ideal.ofBits .f32 0xFF800000#32 = ⊥
  simp [Ideal.ofBits, Ideal.ieee]

/-- The reset row sum is 0. -/
theorem pay6_apply (j : S1024x1.Idx) : k3_pay6 (F := Ideal) j = 0 := by
  show Ideal.ofBits .f32 0x00000000#32 = 0
  exact Ideal.ofBits_zero_f32

/-- The reset accumulated target logit is 0. -/
theorem pay7_apply (j : S1024x1.Idx) : k3_pay7 (F := Ideal) j = 0 := by
  show Ideal.ofBits .f32 0x00000000#32 = 0
  exact Ideal.ofBits_zero_f32

/-- The column number of lane k in the tile at coordinate i. -/
theorem pay8_apply (i : grid3.Coords) (n k : Fin 1024) :
    k3_pay8 i (ix2 n k) = BitVec.ofNat 32 ((i 0).val * 1024 + k.val) := by
  unfold k3_pay8
  show IntOp.addi (Scalar.muli (BitVec.ofNat 32 (i 0).val) 1024#32) (iota .tc S1024x1024 32 [1] iota_S1024x1024_d1_w32 (ix2 n k)) = _
  rw [iota_single_apply]
  exact col_word _ _

/-! ## The masked logits of a tile -/

/-- The masked logit of row n at lane k of the tile at coordinate i: the projected row times weight row k plus bias k
    where the lane's column is a true column, ⊥ on the padding. -/
def mlogit (i : grid3.Coords) (x w : Vec Ideal S1024x8 .bf16) (b : Vec Ideal S1024 .f32) (n k : Fin 1024) : EReal :=
  if (i 0).val * 1024 + k.val < nCol then (∑ e : Fin nEmb, x (ix2 n e) * w (ix2 k e)) + b (ix1 k) else ⊥

/-- The projected rows times the transposed weight tile, at an entry. -/
theorem logit_mm (x w : Vec Ideal S1024x8 .bf16) (n k : Fin 1024) :
    matmul (φ₁ := .bf16) (φ₂ := .bf16) dot_S1024x8_S8x1024_S1024x1024_1_0_0_1_n_n none x
      (transpose S8x1024 [1, 0] (shapeCast S1024x8 w shapeCasts_S1024x8_S1024x8) transposes_S1024x8_p1_0_S8x1024)
      (constant (F := Ideal) S1024x1024 .f32 0x00000000#32) (ix2 n k) = ∑ e : Fin nEmb, x (ix2 n e) * w (ix2 k e) := by
  rw [shapeCast_self]
  refine (matmul_plain_zero_apply (m := 1024) (k := nEmb) (n := 1024) (φ₁ := .bf16) (φ₂ := .bf16) none x
    (transpose S8x1024 [1, 0] w transposes_S1024x8_p1_0_S8x1024) n k).trans ?_
  refine Finset.sum_congr rfl fun e _ => ?_
  rw [transpose_ix2_apply]

/-- The bias tile laid along every row, at an entry. -/
theorem bias_row (b : Vec Ideal S1024 .f32) (n k : Fin 1024) :
    broadcastTo S1024x1024 (shapeCast S1x1024 (shapeCast S1024 b shapeCasts_S1024_S1024) shapeCasts_S1024_S1x1024)
      broadcasts_S1x1024_S1024x1024 (ix2 n k) = b (ix1 k) := by
  rw [shapeCast_self, broadcastTo_1b_ab_apply, shapeCast_a_1a_apply]

/-- The mask bit of a lane: its column is a true column. -/
theorem mask_apply (i : grid3.Coords) (n k : Fin 1024) (hi : (i 0).val < nTile) :
    IntOp.cmpi .slt (k3_pay8 i (ix2 n k)) 67735#32 = if (i 0).val * 1024 + k.val < nCol then 1#1 else 0#1 := by
  rw [pay8_apply]
  have hk := k.isLt
  have h20 : nTile * 1024 ≤ 2 ^ 31 - 1024 := by decide
  exact slt_word _ _ (by omega) (by decide)

/-- The fill of the padding lanes is ⊥. -/
theorem neg_big_eq : Named.named (F := Ideal) κ "neg_big" (φ := .f32) 0xF149F2CA#32 = ⊥ :=
  IdealRules.named_const.ideal_named_scalar _ _ _ _ rfl

/-- The masked logits at an entry. -/
theorem pay9_apply (i : grid3.Coords) (x w : Vec Ideal S1024x8 .bf16) (b : Vec Ideal S1024 .f32) (n k : Fin 1024)
    (hi : (i 0).val < nTile) : k3_pay9 i x w b (ix2 n k) = mlogit i x w b n k := by
  unfold k3_pay9 mlogit
  show Scalar.select (IntOp.cmpi .slt (k3_pay8 i (ix2 n k)) 67735#32)
    (matmul (φ₁ := .bf16) (φ₂ := .bf16) dot_S1024x8_S8x1024_S1024x1024_1_0_0_1_n_n none x
      (transpose S8x1024 [1, 0] (shapeCast S1024x8 w shapeCasts_S1024x8_S1024x8) transposes_S1024x8_p1_0_S8x1024)
      (constant (F := Ideal) S1024x1024 .f32 0x00000000#32) (ix2 n k)
     + broadcastTo S1024x1024 (shapeCast S1x1024 (shapeCast S1024 b shapeCasts_S1024_S1024) shapeCasts_S1024_S1x1024)
      broadcasts_S1x1024_S1024x1024 (ix2 n k))
    (Named.named (F := Ideal) κ "neg_big" (φ := .f32) 0xF149F2CA#32) = _
  rw [mask_apply i n k hi, logit_mm, bias_row, neg_big_eq]
  split
  · exact select_one _ _
  · exact select_zero _ _

end Cert.KernelIdeal.H.R3V
end
-- ==== Proof.KI.R3ValueReduce.lean ====
/- Region 3's lane reductions read at a row, at the ideal values: the lane maximum as the fold of max from ⊥, the lane
   sum as a sum; with them the new row maximum, the new row sum of exponentials, the accumulated target logit, and
   the result's subtraction. -/
import proofs.«416365_j66236985639681_1_alg».proof.Proof.KI.R3ValuePay
import Mathlib.Data.Finset.Fold
import Mathlib.Data.Finset.Max

noncomputable section

namespace Cert.KernelIdeal.H.R3V

open Cert.KernelIdeal Cert.KernelIdeal.Gen
open Idealize.ShloMosaic Idealize.ShloMosaic.TcCoe
open Idealize.ShloMosaic.ValueIdx
open Idealize.ShloMosaic.Pipeline (Dat Cfg Window BodyObligation cellOf)

/-! ## The lane reductions -/

/-- The fold of max from ⊥ is at least every entry. -/
theorem le_fold_max {m : ℕ} (f : Fin m → EReal) (k : Fin m) : f k ≤ (Finset.univ : Finset (Fin m)).fold max ⊥ f :=
  (Finset.le_fold_max _).mpr (Or.inr ⟨k, Finset.mem_univ k, le_rfl⟩)

/-- Over a nonempty range the fold of max from ⊥ is attained. -/
theorem fold_max_mem {m : ℕ} (hm : 0 < m) (f : Fin m → EReal) : ∃ k, (Finset.univ : Finset (Fin m)).fold max ⊥ f = f k := by
  obtain ⟨k, -, hk⟩ := Finset.exists_max_image (Finset.univ : Finset (Fin m)) f ⟨⟨0, hm⟩, Finset.mem_univ _⟩
  exact ⟨k, le_antisymm ((Finset.fold_max_le _).mpr ⟨bot_le, fun k' hk' => hk k' hk'⟩) (le_fold_max f k)⟩

/-- The index a reduction along the lanes reads at row n and lane k. -/
theorem lift_row (h : S1024x1024.Reduces [1] S1024) (n k : Fin 1024) : h.lift (ix1 n) k = ix2 n k := by
  funext a; apply Fin.ext
  match a with
  | ⟨0, _⟩ => rfl
  | ⟨1, _⟩ => rfl

/-- A vector of rows cast to one column, at row n. -/
theorem col_cast {α : Type} (v : S1024.Idx → α) (n : Fin 1024) :
    shapeCast S1024x1 v shapeCasts_S1024_S1024x1 (ix2 n (0 : Fin 1)) = v (ix1 n) :=
  shapeCast_apply v shapeCasts_S1024_S1024x1 (ix2 n (0 : Fin 1)) (ix1 n) (by
    rw [Shape.rowMajor_val_two, Shape.rowMajor_val_one]
    show n.val = n.val * 1 + 0
    omega)

/-- One column laid along every lane, at an entry. -/
theorem bcast_col {α : Type} (v : S1024x1.Idx → α) (n k : Fin 1024) :
    broadcastTo S1024x1024 v broadcasts_S1024x1_S1024x1024 (ix2 n k) = v (ix2 n (0 : Fin 1)) := by
  refine broadcastTo_apply v broadcasts_S1024x1_S1024x1024 (ix2 n k) (ix2 n (0 : Fin 1)) fun ax => ?_
  match ax with
  | ⟨0, _⟩ => show n.val = if (1024 : ℕ) = 1 then 0 else n.val; rw [if_neg (by decide)]
  | ⟨1, _⟩ => show (0 : ℕ) = if (1 : ℕ) = 1 then 0 else k.val; rw [if_pos rfl]

/-- The bit pattern of minus infinity is ⊥. -/
theorem neg_inf_eq : (FloatOps.ofBits (F := Ideal) .f32 0xFF800000#32 : EReal) = ⊥ := by
  show Ideal.ofBits .f32 0xFF800000#32 = ⊥
  simp [Ideal.ofBits, Ideal.ieee]

/-- The lane maximum from minus infinity, as one column, at row n: the fold of max from ⊥ over the row's entries. -/
theorem row_max (src : FVec Ideal S1024x1024 .f32) (n : Fin 1024) :
    shapeCast S1024x1 (multiReduction (F := Ideal) .maximumf [1] S1024 src 0xFF800000#32 reduces_S1024x1024_S1024 (.inl rfl) rfl)
      shapeCasts_S1024_S1024x1 (ix2 n (0 : Fin 1))
      = (Finset.univ : Finset (Fin 1024)).fold max ⊥ (fun k => src (ix2 n k)) := by
  refine (col_cast _ n).trans ?_
  refine (Ideal.multiReduction_maximumf_single src _ reduces_S1024x1024_S1024 _ _ (ix1 n)).trans ?_
  rw [neg_inf_eq]
  exact Finset.fold_congr fun k _ => congrArg src (lift_row _ n k)

/-- The lane sum, as one column, at row n: the sum of the row's entries. -/
theorem row_sum (src : FVec Ideal S1024x1024 .f32) (n : Fin 1024) :
    shapeCast S1024x1 (multiReduction (F := Ideal) .add [1] S1024 src 0x00000000#32 reduces_S1024x1024_S1024 (.inl rfl) rfl)
      shapeCasts_S1024_S1024x1 (ix2 n (0 : Fin 1))
      = ∑ k : Fin 1024, src (ix2 n k) := by
  refine (col_cast _ n).trans ?_
  refine (Ideal.multiReduction_add_single src _ reduces_S1024x1024_S1024 _ _ (ix1 n)).trans ?_
  exact Finset.sum_congr rfl fun k _ => congrArg src (lift_row _ n k)

/-! ## The row maximum, the row sum, the target logit and the result -/

/-- The largest masked logit of row n in the tile at coordinate i. -/
def tmax (i : grid3.Coords) (x w : Vec Ideal S1024x8 .bf16) (b : Vec Ideal S1024 .f32) (n : Fin 1024) : EReal :=
  (Finset.univ : Finset (Fin 1024)).fold max ⊥ (fun k => mlogit i x w b n k)

/-- The new row maximum: the larger of the old one and the tile's. -/
theorem pay10_apply (i : grid3.Coords) (x w : Vec Ideal S1024x8 .bf16) (b : Vec Ideal S1024 .f32)
    (m : Vec Ideal S1024x1 .f32) (n : Fin 1024) (hi : (i 0).val < nTile) :
    k3_pay10 i x w b m (ix2 n (0 : Fin 1)) = max (m (ix2 n (0 : Fin 1))) (tmax i x w b n) := by
  unfold k3_pay10
  refine (maximumf_apply _ _ _).trans ?_
  refine congrArg (max (m (ix2 n (0 : Fin 1)))) ?_
  refine (row_max _ n).trans ?_
  unfold tmax
  exact Finset.fold_congr fun k _ => pay9_apply i x w b n k hi

/-- The stored row maximum is the new row maximum. -/
theorem pay1_eq (v : FVec Ideal S1024x1 .f32) : k3_pay1 v = v := by
  unfold k3_pay1
  exact shapeCast_self _ _

/-- The new row sum: the old one rescaled to the new maximum plus the tile's exponentials. -/
theorem pay11_apply (i : grid3.Coords) (x w : Vec Ideal S1024x8 .bf16) (b : Vec Ideal S1024 .f32)
    (m l : Vec Ideal S1024x1 .f32) (n : Fin 1024) (hi : (i 0).val < nTile) :
    k3_pay11 i x w b m l (ix2 n (0 : Fin 1))
      = Ideal.exp (m (ix2 n (0 : Fin 1)) - k3_pay10 i x w b m (ix2 n (0 : Fin 1))) * l (ix2 n (0 : Fin 1))
        + ∑ k : Fin 1024, Ideal.exp (mlogit i x w b n k - k3_pay10 i x w b m (ix2 n (0 : Fin 1))) := by
  unfold k3_pay11
  refine (congrFun (shapeCast_self _ _) _).trans ?_
  refine (addf_apply _ _ _).trans ?_
  refine congrArg₂ (fun p q : EReal => p + q) rfl ?_
  refine (row_sum _ n).trans ?_
  refine Finset.sum_congr rfl fun k _ => ?_
  show Ideal.exp (k3_pay9 i x w b (ix2 n k)
    - broadcastTo S1024x1024 (k3_pay10 i x w b m) broadcasts_S1024x1_S1024x1024 (ix2 n k)) = _
  rw [bcast_col, pay9_apply i x w b n k hi]

/-- The new accumulated target logit: the old one plus the tile's logit at the target column, if it is in the tile. -/
theorem pay2_apply (i : grid3.Coords) (lg : FVec Ideal S1024x1024 .f32) (tg : Vec Ideal S1024x1 .i32)
    (acc : Vec Ideal S1024x1 .f32) (n : Fin 1024) (t : ℕ) (ht : tg (ix2 n (0 : Fin 1)) = BitVec.ofNat 32 t)
    (ht' : t < 2 ^ 31) (hi : (i 0).val < nTile) :
    k3_pay2 (k3_pay8 i) lg tg acc (ix2 n (0 : Fin 1))
      = acc (ix2 n (0 : Fin 1)) + ∑ k : Fin 1024, (if (i 0).val * 1024 + k.val = t then lg (ix2 n k) else 0) := by
  unfold k3_pay2
  refine (congrFun (shapeCast_self _ _) _).trans ?_
  refine (addf_apply _ _ _).trans ?_
  refine congrArg (fun q : EReal => acc (ix2 n (0 : Fin 1)) + q) ?_
  refine (row_sum _ n).trans ?_
  refine Finset.sum_congr rfl fun k _ => ?_
  show Scalar.select (IntOp.cmpi .eq (k3_pay8 i (ix2 n k))
      (broadcastTo S1024x1024 (shapeCast S1024x1 tg shapeCasts_S1024x1_S1024x1) broadcasts_S1024x1_S1024x1024 (ix2 n k)))
    (lg (ix2 n k)) (Ideal.ofBits .f32 0x00000000#32) = _
  have hk := k.isLt
  have h20 : nTile * 1024 ≤ 2 ^ 31 - 1024 := by decide
  rw [shapeCast_self, pay8_apply, bcast_col, ht, eq_word _ _ (by omega) (by omega), Ideal.ofBits_zero_f32]
  split
  · exact select_one _ _
  · exact select_zero _ _

/-- The result: the accumulated target logit less the sum of the row maximum and the logarithm of the row sum. -/
theorem pay3_apply (m l acc : Vec Ideal S1024x1 .f32) (j : S1024x1.Idx) :
    k3_pay3 m l acc j = acc j - (m j + Ideal.log (l j)) := rfl

end Cert.KernelIdeal.H.R3V
end
-- ==== Proof.KI.R3ValueInv.lean ====
/- Region 3's carried state over the points, row by row: after p points the running maximum, the running sum of
   exponentials and the accumulated target logit are the online log-sum-exp run over the first p tiles of the row's
   masked logits; the projected activations never change. -/
import proofs.«416365_j66236985639681_1_alg».proof.Proof.KI.R3ValueReduce
import proofs.«416365_j66236985639681_1_alg».proof.Proof.LibOnlineLogSumExp
import proofs.«416365_j66236985639681_1_alg».proof.Proof.Spec

noncomputable section

namespace Cert.KernelIdeal.H.R3V

open Cert.KernelIdeal Cert.KernelIdeal.Gen
open Idealize.ShloMosaic Idealize.ShloMosaic.TcCoe
open Idealize.ShloMosaic.ValueIdx
open Idealize.ShloMosaic.Pipeline (Dat Cfg Window BodyObligation cellOf)

open Cert.LibOnlineLogSumExp

/-! ## A row's masked logits, tile by tile -/

section Rows

variable (V : Val Ideal) (c : Dev nD)
  (h : Fin 1024 → Fin 512 → EReal) (P : Fin 512 → Fin nEmb → EReal)
  (W : Fin nCol → Fin nEmb → EReal) (b : Fin nCol → EReal)

/-- Row n's masked logits tile by tile: the cluster's logit on the true columns, ⊥ on the padding. -/
def xs (n : Fin 1024) (j : Fin nTile) (k : Fin 1024) : EReal :=
  if hv : j.val * 1024 + k.val < nCol then Cert.Spec.logits (Cert.Spec.proj h P) W b n ⟨j.val * 1024 + k.val, hv⟩ else ⊥

/-- The largest masked logit of row n's tile j. -/
def mx (n : Fin 1024) (j : Fin nTile) : EReal := (Finset.univ : Finset (Fin 1024)).fold max ⊥ (xs h P W b n j)

variable (hH : ∀ (n : Fin 1024) (d : Fin 512), V c main_v0 (ix2 n d) = h n d)
  (hP : ∀ (d : Fin 512) (e : Fin nEmb), V c main_v57 (ix2 d e) = P d e)
  (hW : ∀ (v : Fin nPad) (e : Fin nEmb), V c main_v55 (ix2 v e) = if hv : v.val < nCol then W ⟨v.val, hv⟩ e else 0)
  (hB : ∀ v : Fin nPad, V c main_v56 (ix1 v) = if hv : v.val < nCol then b ⟨v.val, hv⟩ else 0)

include hH hP in
/-- The projected activations the state carries: the hidden rows times the projection. -/
theorem xproj_apply (n : Fin 1024) (e : Fin nEmb) :
    k3_pay4 (R3.hidden V c) (R3.proj V c) (ix2 n e) = Cert.Spec.proj h P n e := by
  rw [pay4_apply]
  unfold Cert.Spec.proj
  refine Finset.sum_congr rfl fun d _ => ?_
  rw [hidden_apply, proj_apply, hH, hP]

include hH hP hW hB in
/-- The masked logits of point t's tile, off the carried projection and the point's weight and bias tiles, are the
    row's masked logits of tile t. -/
theorem mlogit_eq (i : grid3.Coords) (t : Fin cfg3.N) (hi : (i 0).val = t.val) (n k : Fin 1024) :
    mlogit i (k3_pay4 (R3.hidden V c) (R3.proj V c)) (R3.wt V c t) (R3.bt V c t) n k
      = xs h P W b n ⟨t.val, point_lt t⟩ k := by
  unfold mlogit xs
  rw [hi]
  by_cases hv : t.val * 1024 + k.val < nCol
  · rw [if_pos hv, dif_pos hv]
    unfold Cert.Spec.logits
    refine congrArg₂ (fun p q : EReal => p + q) (Finset.sum_congr rfl fun e _ => ?_) ?_
    · rw [xproj_apply V c h P hH hP n e, wt_apply V c t k e, hW, dif_pos hv]
    · rw [bt_apply V c t k, hB, dif_pos hv]
  · rw [if_neg hv, dif_neg hv]

end Rows

/-! ## The invariant over the points -/

section Run

variable (V : Val Ideal) (c : Dev nD)
  (h : Fin 1024 → Fin 512 → EReal) (P : Fin 512 → Fin nEmb → EReal)
  (W : Fin nCol → Fin nEmb → EReal) (b : Fin nCol → EReal) (idx : Fin 1024 → Fin nCol)

/-- What the carried state holds for one row after p points: the projection, and the running maximum, the running
    sum and the accumulated target logit of the online log-sum-exp over the row's first p tiles. -/
structure Holds (s : R3.St Ideal) (row : Fin 1024) (p : ℕ) : Prop where
  x : s.x = k3_pay4 (R3.hidden V c) (R3.proj V c)
  m : s.m (ix2 row (0 : Fin 1)) = runMax (mx h P W b row) p
  l : s.l (ix2 row (0 : Fin 1)) = runSum (xs h P W b row) (mx h P W b row) p
  acc : s.acc (ix2 row (0 : Fin 1)) = runAcc (xs h P W b row) (idx row).val p

/-- The reset state holds the empty run. -/
theorem holds_init (row : Fin 1024) : Holds V c h P W b idx (R3.stAt V c 0) row 0 :=
  ⟨rfl, pay5_apply (ix2 row (0 : Fin 1)), pay6_apply (ix2 row (0 : Fin 1)), pay7_apply (ix2 row (0 : Fin 1))⟩

/-- At every point the body computes from the state the point before left: at the first point that is the reset. -/
theorem base_stAt (t : Fin cfg3.N) : R3.base V c t (R3.stAt V c t.val) = R3.stAt V c t.val := by
  unfold R3.base
  split
  · next h0 => rw [h0]; rfl
  · rfl

variable (hH : ∀ (n : Fin 1024) (d : Fin 512), V c main_v0 (ix2 n d) = h n d)
  (hP : ∀ (d : Fin 512) (e : Fin nEmb), V c main_v57 (ix2 d e) = P d e)
  (hW : ∀ (v : Fin nPad) (e : Fin nEmb), V c main_v55 (ix2 v e) = if hv : v.val < nCol then W ⟨v.val, hv⟩ e else 0)
  (hB : ∀ v : Fin nPad, V c main_v56 (ix1 v) = if hv : v.val < nCol then b ⟨v.val, hv⟩ else 0)
  (hT : ∀ n : Fin 1024, V c main_v61 (ix2 n (0 : Fin 1)) = BitVec.ofNat 32 (idx n).val)

include hH hP hW hB hT in
/-- One point carries the run one tile further. -/
theorem holds_step (t : Fin cfg3.N) (s : R3.St Ideal) (row : Fin 1024) (hs : Holds V c h P W b idx s row t.val)
    (hb : R3.base V c t s = s) : Holds V c h P W b idx (R3.step V c t s) row (t.val + 1) := by
  have ht : t.val < nTile := point_lt t
  have hc : (cfg3.grid.coords t 0).val = t.val := coord_val t
  have hi : (cfg3.grid.coords t 0).val < nTile := by rw [hc]; exact ht
  have hlg : ∀ k : Fin 1024, mlogit (cfg3.grid.coords t) s.x (R3.wt V c t) (R3.bt V c t) row k
      = xs h P W b row ⟨t.val, ht⟩ k := fun k => by
    rw [hs.x]; exact mlogit_eq V c h P W b hH hP hW hB (cfg3.grid.coords t) t hc row k
  have htm : tmax (cfg3.grid.coords t) s.x (R3.wt V c t) (R3.bt V c t) row = mx h P W b row ⟨t.val, ht⟩ := by
    unfold tmax mx; exact Finset.fold_congr fun k _ => hlg k
  have hm : k3_pay10 (cfg3.grid.coords t) s.x (R3.wt V c t) (R3.bt V c t) s.m (ix2 row (0 : Fin 1))
      = runMax (mx h P W b row) (t.val + 1) := by
    rw [pay10_apply _ _ _ _ _ _ hi, htm, hs.m, runMax_succ _ ht]
  have htg : R3.tgt V c (ix2 row (0 : Fin 1)) = BitVec.ofNat 32 (idx row).val := (tgt_apply V c row).trans (hT row)
  have hidx : (idx row).val < 2 ^ 31 := by
    have h1 := (idx row).isLt
    have h2 : nCol < 2 ^ 31 := by decide
    omega
  refine ⟨?_, ?_, ?_, ?_⟩
  · show (R3.base V c t s).x = _
    rw [hb]; exact hs.x
  · show k3_pay1 (k3_pay10 (cfg3.grid.coords t) (R3.base V c t s).x (R3.wt V c t) (R3.bt V c t) (R3.base V c t s).m)
      (ix2 row (0 : Fin 1)) = _
    rw [hb, pay1_eq]; exact hm
  · show k3_pay11 (cfg3.grid.coords t) (R3.base V c t s).x (R3.wt V c t) (R3.bt V c t) (R3.base V c t s).m
      (R3.base V c t s).l (ix2 row (0 : Fin 1)) = _
    rw [hb, pay11_apply _ _ _ _ _ _ _ hi, hm, hs.m, hs.l, runSum_succ _ _ ht]
    refine congrArg (fun q : EReal => Ideal.exp (runMax (mx h P W b row) t.val - runMax (mx h P W b row) (t.val + 1))
      * runSum (xs h P W b row) (mx h P W b row) t.val + q) (Finset.sum_congr rfl fun k _ => ?_)
    rw [hlg k]
  · show k3_pay2 (k3_pay8 (cfg3.grid.coords t))
      (k3_pay9 (cfg3.grid.coords t) (R3.base V c t s).x (R3.wt V c t) (R3.bt V c t)) (R3.tgt V c) (R3.base V c t s).acc
      (ix2 row (0 : Fin 1)) = _
    rw [hb, pay2_apply _ _ _ _ row (idx row).val htg hidx hi, hs.acc, runAcc_succ _ _ ht]
    refine congrArg (fun q : EReal => runAcc (xs h P W b row) (idx row).val t.val + q)
      (Finset.sum_congr rfl fun k _ => ?_)
    rw [pay9_apply _ _ _ _ row k hi, hlg k, hc]

include hH hP hW hB hT in
/-- After p points the carried state holds the run over the row's first p tiles. -/
theorem holds_stAt (row : Fin 1024) : ∀ p : ℕ, p ≤ nTile → Holds V c h P W b idx (R3.stAt V c p) row p
  | 0, _ => holds_init V c h P W b idx row
  | p + 1, hp => by
    have hp' : p < cfg3.N := by rw [grid_tiles]; exact hp
    rw [show R3.stAt V c (p + 1) = R3.step V c ⟨p, hp'⟩ (R3.stAt V c p) from R3.stAt_succ V c ⟨p, hp'⟩]
    exact holds_step V c h P W b idx hH hP hW hB hT ⟨p, hp'⟩ (R3.stAt V c p) row
      (holds_stAt row p (Nat.le_of_succ_le hp)) (base_stAt V c ⟨p, hp'⟩)

end Run

end Cert.KernelIdeal.H.R3V
end
-- ==== Proof.KI.R3Value.lean ====
/- Region 3's result, row by row: the log-softmax of the row's logits at the row's target column.

   The row's logits are reals (finite sums of products of reals plus a real), every tile holds a true column, and the
   tile maxima bound and are attained by the masked logits: so the online log-sum-exp the carried state holds after
   the last point is the shifted log-softmax of the row's true columns. -/
import proofs.«416365_j66236985639681_1_alg».proof.Proof.KI.R3ValueInv

noncomputable section

namespace Cert.KernelIdeal.H.R3V

open Cert.KernelIdeal Cert.KernelIdeal.Gen
open Idealize.ShloMosaic Idealize.ShloMosaic.TcCoe
open Idealize.ShloMosaic.ValueIdx
open Idealize.ShloMosaic.Pipeline (Dat Cfg Window BodyObligation cellOf)

open Cert.LibOnlineLogSumExp

/-! ## The logits are reals -/

/-- A finite sum of products of reals is a real. -/
theorem real_dot {m : ℕ} (u v : Fin m → EReal) (hu : ∀ i, ∃ r : ℝ, u i = (r : EReal)) (hv : ∀ i, ∃ r : ℝ, v i = (r : EReal)) :
    ∃ r : ℝ, ∑ i, u i * v i = (r : EReal) := by
  choose ur hur using hu
  choose vr hvr using hv
  refine ⟨∑ i, ur i * vr i, ?_⟩
  rw [coe_finsetSum]
  exact Finset.sum_congr rfl fun i _ => by rw [hur, hvr, EReal.coe_mul]

section Final

variable (V : Val Ideal) (c : Dev nD)
  (h : Fin 1024 → Fin 512 → EReal) (P : Fin 512 → Fin nEmb → EReal)
  (W : Fin nCol → Fin nEmb → EReal) (b : Fin nCol → EReal) (idx : Fin 1024 → Fin nCol)
  (hH : ∀ (n : Fin 1024) (d : Fin 512), V c main_v0 (ix2 n d) = h n d)
  (hP : ∀ (d : Fin 512) (e : Fin nEmb), V c main_v57 (ix2 d e) = P d e)
  (hW : ∀ (v : Fin nPad) (e : Fin nEmb), V c main_v55 (ix2 v e) = if hv : v.val < nCol then W ⟨v.val, hv⟩ e else 0)
  (hB : ∀ v : Fin nPad, V c main_v56 (ix1 v) = if hv : v.val < nCol then b ⟨v.val, hv⟩ else 0)
  (hT : ∀ n : Fin 1024, V c main_v61 (ix2 n (0 : Fin 1)) = BitVec.ofNat 32 (idx n).val)
  (hh : ∀ n d, ∃ r : ℝ, h n d = (r : EReal))
  (hPr : ∀ d e, ∃ r : ℝ, P d e = (r : EReal))
  (hWr : ∀ v e, ∃ r : ℝ, W v e = (r : EReal))
  (hbr : ∀ v, ∃ r : ℝ, b v = (r : EReal))

include hh hPr hWr hbr in
/-- Every logit of a row is a real: a finite sum of products of reals plus a real. -/
theorem real_logits (n : Fin 1024) (v : Fin nCol) :
    ∃ r : ℝ, Cert.Spec.logits (Cert.Spec.proj h P) W b n v = (r : EReal) := by
  obtain ⟨r1, e1⟩ := real_dot (fun e => Cert.Spec.proj h P n e) (fun e => W v e)
    (fun e => real_dot (fun d => h n d) (fun d => P d e) (hh n) (fun d => hPr d e)) (hWr v)
  obtain ⟨r2, e2⟩ := hbr v
  refine ⟨r1 + r2, ?_⟩
  unfold Cert.Spec.logits
  exact (congrArg₂ (fun p q : EReal => p + q) e1 e2).trans (EReal.coe_add r1 r2).symm

include hH hP hW hB hT hh hPr hWr hbr in
/-- Region 3's result, row by row: the log-softmax of the row's logits at the row's target column. -/
theorem outv_eq : ∀ n : Fin 1024, R3.outv V c (ix2 n (0 : Fin 1))
    = Cert.Spec.logSoftmax (Cert.Spec.logits (Cert.Spec.proj h P) W b n) (idx n) := by
  intro n
  have H := holds_stAt V c h P W b idx hH hP hW hB hT n nTile le_rfl
  unfold R3.outv
  rw [pay3_apply, grid_tiles, H.m, H.l, H.acc]
  exact online_eq_logSoftmax (xs h P W b n) (mx h P W b n) (Cert.Spec.logits (Cert.Spec.proj h P) W b n) (idx n).val
    (by decide) (by decide)
    (fun j => by have h1 := j.isLt; have h2 := last_tile_lt; omega)
    (fun j k => rfl)
    (fun v => real_logits h P W b hh hPr hWr hbr n v)
    (fun j k => le_fold_max _ k)
    (fun j => fold_max_mem (by decide) _)
    (idx n).isLt

end Final

end Cert.KernelIdeal.H.R3V
end
-- ==== Proof.KI.KernelValue.lean ====
import proofs.«416365_j66236985639681_1_alg».proof.Proof.KI.Outs
import proofs.«416365_j66236985639681_1_alg».proof.Proof.KI.HostHead
import proofs.«416365_j66236985639681_1_alg».proof.Proof.KI.HostTail
import proofs.«416365_j66236985639681_1_alg».proof.Proof.KI.PreDecode
import proofs.«416365_j66236985639681_1_alg».proof.Proof.KI.R0Seg
import proofs.«416365_j66236985639681_1_alg».proof.Proof.KI.R1Seg
import proofs.«416365_j66236985639681_1_alg».proof.Proof.KI.R2Seg
import proofs.«416365_j66236985639681_1_alg».proof.Proof.KI.R3Seg
import proofs.«416365_j66236985639681_1_alg».proof.Proof.KI.R0Value
import proofs.«416365_j66236985639681_1_alg».proof.Proof.KI.R1Value
import proofs.«416365_j66236985639681_1_alg».proof.Proof.KI.R2Value
import proofs.«416365_j66236985639681_1_alg».proof.Proof.KI.R3Value

noncomputable section

namespace Cert.KernelIdeal.H.KV

open Cert.KernelIdeal Cert.KernelIdeal.Gen Cert.KernelIdeal.H
open Idealize.ShloMosaic Idealize.ShloMosaic.TcCoe Idealize.ShloMosaic.ValueIdx

theorem toNat_of_toInt_eq (w : BitVec 32) (k : ℕ) (h : w.toInt = (k : ℤ)) : w.toNat = k := by
  have hw := w.isLt
  rw [BitVec.toInt_eq_toNat_cond] at h
  split_ifs at h <;> omega

theorem clipWord_toNat_lt (V : ℕ) (hV : 0 < V) (hV' : V < 2 ^ 31) (t : BitVec 32) :
    (Head.clipWord (BitVec.ofNat 32 (V - 1)) t).toNat < V := by
  have hhi : (BitVec.ofNat 32 (V - 1)).toInt = ((V - 1 : ℕ) : ℤ) := Head.toInt_ofNat_lt (V - 1) (by omega)
  have h := Head.clipWord_toInt (BitVec.ofNat 32 (V - 1)) t (by rw [hhi]; exact Int.natCast_nonneg _)
  rw [hhi] at h
  have h0 : 0 ≤ (Head.clipWord (BitVec.ofNat 32 (V - 1)) t).toInt := by rw [h]; exact le_max_left _ _
  have h1 : (Head.clipWord (BitVec.ofNat 32 (V - 1)) t).toInt ≤ ((V - 1 : ℕ) : ℤ) := by
    rw [h]; exact max_le (Int.natCast_nonneg _) (min_le_right _ _)
  have hw := (Head.clipWord (BitVec.ofNat 32 (V - 1)) t).isLt
  rw [BitVec.toInt_eq_toNat_cond] at h0 h1
  split_ifs at h0 h1 <;> omega

def colOf (V : ℕ) (hV : 0 < V) (hV' : V < 2 ^ 31) (t : BitVec 32) : Fin V :=
  ⟨(Head.clipWord (BitVec.ofNat 32 (V - 1)) t).toNat, clipWord_toNat_lt V hV hV' t⟩

theorem ofNat_colOf (V : ℕ) (hV : 0 < V) (hV' : V < 2 ^ 31) (t : BitVec 32) :
    BitVec.ofNat 32 (colOf V hV hV' t).val = Head.clipWord (BitVec.ofNat 32 (V - 1)) t := by
  show BitVec.ofNat 32 (Head.clipWord (BitVec.ofNat 32 (V - 1)) t).toNat = Head.clipWord (BitVec.ofNat 32 (V - 1)) t
  exact (BitVec.ofNat_toNat 32 (Head.clipWord (BitVec.ofNat 32 (V - 1)) t)).trans (BitVec.setWidth_eq _)

theorem colOf_eq_of_toInt (V : ℕ) (hV : 0 < V) (hV' : V < 2 ^ 31) (t : BitVec 32) (k : Fin V)
    (h : (Head.clipWord (BitVec.ofNat 32 (V - 1)) t).toInt = (k.val : ℤ)) : colOf V hV hV' t = k := by
  apply Fin.ext
  show (Head.clipWord (BitVec.ofNat 32 (V - 1)) t).toNat = k.val
  exact toNat_of_toInt_eq (Head.clipWord (BitVec.ofNat 32 (V - 1)) t) k.val h

section Spec

variable (a : Cert.Spec.Args) (n : Fin 1024)

theorem nll_ge3 (h3 : 200000 ≤ (a.target n).toInt) :
    Cert.Spec.nll a n = -(Cert.Spec.headLp a n ⟨20000, by decide⟩
      + Cert.Spec.tail3Lp a n (Cert.Spec.clipIdx 67735 (by decide) ((a.target n).toInt - 200000))) := by
  unfold Cert.Spec.nll; exact if_pos h3

theorem nll_ge2 (h3 : ¬ 200000 ≤ (a.target n).toInt) (h2 : 40000 ≤ (a.target n).toInt) :
    Cert.Spec.nll a n = -(Cert.Spec.headLp a n ⟨20001, by decide⟩
      + Cert.Spec.tail2Lp a n (Cert.Spec.clipIdx 160000 (by decide) ((a.target n).toInt - 40000))) := by
  unfold Cert.Spec.nll; exact (if_neg h3).trans (if_pos h2)

theorem nll_ge1 (h3 : ¬ 200000 ≤ (a.target n).toInt) (h2 : ¬ 40000 ≤ (a.target n).toInt) (h1 : 20000 ≤ (a.target n).toInt) :
    Cert.Spec.nll a n = -(Cert.Spec.headLp a n ⟨20002, by decide⟩
      + Cert.Spec.tail1Lp a n (Cert.Spec.clipIdx 20000 (by decide) ((a.target n).toInt - 20000))) := by
  unfold Cert.Spec.nll; exact (if_neg h3).trans ((if_neg h2).trans (if_pos h1))

theorem nll_lt (h3 : ¬ 200000 ≤ (a.target n).toInt) (h2 : ¬ 40000 ≤ (a.target n).toInt) (h1 : ¬ 20000 ≤ (a.target n).toInt) :
    Cert.Spec.nll a n = -(Cert.Spec.headLp a n (Fin.castLE (by decide) (Cert.Spec.clipIdx 20000 (by decide) (a.target n).toInt))) := by
  unfold Cert.Spec.nll; exact (if_neg h3).trans ((if_neg h2).trans (if_neg h1))

end Spec

section Regions

variable [Cert.Pre_finite_inputs.Facts]
variable (m : (ℓ : Loc nD τ sig) → Buf (Elt Ideal) ℓ)

abbrev outs1 : Outs (F := Ideal) := mkOuts m (res0 m) (fun c => m _) (fun c => m _) (fun c => m _)

abbrev outs2 : Outs (F := Ideal) := mkOuts m (res0 m) (res1 m) (fun c => m _) (fun c => m _)

abbrev outs3 : Outs (F := Ideal) := mkOuts m (res0 m) (res1 m) (res2 m) (fun c => m _)

theorem real_headW (hpre : Cert.Pre_KernelIdeal m) (c : Dev nD) (v : Fin 20003) (e : Fin 512) :
    ∃ r : ℝ, Cert.Spec.headW (Head.argsOf m c).W0 (Head.argsOf m c).cw v e = (r : EReal) := by
  unfold Cert.Spec.headW
  split_ifs with h
  · exact PreDecode.real_arg2 m hpre c (ix2 _ e)
  · exact PreDecode.real_arg14 m hpre c (ix2 _ e)

theorem real_headB (hpre : Cert.Pre_KernelIdeal m) (c : Dev nD) (v : Fin 20003) : ∃ r : ℝ, Cert.Spec.headB (Head.argsOf m c).b0 (Head.argsOf m c).cb v = (r : EReal) := by
  unfold Cert.Spec.headB
  split_ifs with h
  · exact PreDecode.real_arg3 m hpre c (ix1 _)
  · exact PreDecode.real_arg15 m hpre c (ix1 _)

omit [Cert.Pre_finite_inputs.Facts] in

theorem head_outv (c : Dev nD) : Tail.head (outsOf m) c = R0.outv (valOf (V7 m)) c := by
  show outsOf m 8 main_v9 c = _
  unfold outsOf
  rw [mkOuts_v9]
  exact R0.arrAt_out _ c

omit [Cert.Pre_finite_inputs.Facts] in

theorem label0_word (c : Dev nD) (n : Fin 1024) :
    valOf (V7 m) c main_v8 (ix2 n (0 : Fin 1))
      = BitVec.ofNat 32 (Cert.Spec.clipIdx 20000 (by decide) ((Head.argsOf m c).target n).toInt).val := by
  have h := Head.label0_toInt m c (ix2 n (0 : Fin 1))
  apply BitVec.eq_of_toInt_eq
  have hk := (Cert.Spec.clipIdx 20000 (by decide) ((Head.argsOf m c).target n).toInt).isLt
  rw [Head.toInt_ofNat_lt _ (by omega)]
  exact h

theorem head_value (hpre : Cert.Pre_KernelIdeal m) (c : Dev nD) (n : Fin 1024) :
    Tail.head (outsOf m) c (ix2 n (0 : Fin 4))
        = Cert.Spec.headLp (Head.argsOf m c) n (Fin.castLE (by decide) (Cert.Spec.clipIdx 20000 (by decide) ((Head.argsOf m c).target n).toInt))
      ∧ Tail.head (outsOf m) c (ix2 n (1 : Fin 4)) = Cert.Spec.headLp (Head.argsOf m c) n ⟨20002, by decide⟩
      ∧ Tail.head (outsOf m) c (ix2 n (2 : Fin 4)) = Cert.Spec.headLp (Head.argsOf m c) n ⟨20001, by decide⟩
      ∧ Tail.head (outsOf m) c (ix2 n (3 : Fin 4)) = Cert.Spec.headLp (Head.argsOf m c) n ⟨20000, by decide⟩ := by
  rw [head_outv]
  exact R0V.outv_eq (valOf (V7 m)) c (Head.argsOf m c).hidden (Head.argsOf m c).proj0 (Cert.Spec.headW (Head.argsOf m c).W0 (Head.argsOf m c).cw) (Cert.Spec.headB (Head.argsOf m c).b0 (Head.argsOf m c).cb)
    (fun n => Cert.Spec.clipIdx 20000 (by decide) ((Head.argsOf m c).target n).toInt)
    (fun n d => Head.hidden0_apply m c (ix2 n d))
    (fun d e => Head.proj0_apply m c (ix2 d e))
    (fun v e => Head.rows0_apply m c (ix2 v e))
    (fun v => Head.bias0_apply m c (ix1 v))
    (label0_word m c)
    (fun n d => PreDecode.real_arg0 m hpre c (ix2 n d))
    (fun d e => PreDecode.real_arg4 m hpre c (ix2 d e))
    (real_headW m hpre c) (real_headB m hpre c) n

abbrev col1 (c : Dev nD) (n : Fin 1024) : Fin 20000 :=
  colOf 20000 (by norm_num) (by norm_num) (IntOp.subi ((Head.argsOf m c).target n) 20000#32)

theorem tail1_outv (c : Dev nD) : Tail.tail1 (outsOf m) c = R1.outv (valOf (V15 m (outs1 m))) c := by
  show outsOf m 16 main_v22 c = _
  unfold outsOf
  rw [mkOuts_v22]
  exact R1.arrAt_out _ c

theorem tail1_value (hpre : Cert.Pre_KernelIdeal m) (c : Dev nD) (n : Fin 1024) :
    Tail.tail1 (outsOf m) c (ix2 n (0 : Fin 1)) = Cert.Spec.tail1Lp (Head.argsOf m c) n (col1 m c n) := by
  rw [tail1_outv]
  exact R1V.outv_eq (valOf (V15 m (outs1 m))) c (Head.argsOf m c).hidden (Head.argsOf m c).proj1 (Head.argsOf m c).W1 (Head.argsOf m c).b1 (col1 m c)
    (fun n d => Head.hidden1_apply m (outs1 m) c (ix2 n d))
    (fun d e => Head.proj1_apply m (outs1 m) c (ix2 d e))
    (fun v e => Head.rows1_apply m (outs1 m) c (ix2 v e))
    (fun v => Head.bias1_apply m (outs1 m) c (ix1 v))
    (fun n => (Head.label1_apply m (outs1 m) c (ix2 n (0 : Fin 1))).trans (ofNat_colOf 20000 (by norm_num) (by norm_num) (IntOp.subi ((Head.argsOf m c).target n) 20000#32)).symm)
    (fun n d => PreDecode.real_arg0 m hpre c (ix2 n d))
    (fun d e => PreDecode.real_arg7 m hpre c (ix2 d e))
    (fun v e => PreDecode.real_arg5 m hpre c (ix2 v e))
    (fun v => PreDecode.real_arg6 m hpre c (ix1 v)) n

omit [Cert.Pre_finite_inputs.Facts] in

theorem col1_eq (c : Dev nD) (n : Fin 1024) (hw : (20000 : ℤ) - 2 ^ 31 ≤ ((Head.argsOf m c).target n).toInt) :
    col1 m c n = Cert.Spec.clipIdx 20000 (by decide) (((Head.argsOf m c).target n).toInt - 20000) := by
  have h := Head.label1_toInt m (outs1 m) c (ix2 n (0 : Fin 1)) hw
  rw [Head.label1_apply] at h
  exact colOf_eq_of_toInt 20000 (by norm_num) (by norm_num) (IntOp.subi ((Head.argsOf m c).target n) 20000#32) _ h

abbrev col2 (c : Dev nD) (n : Fin 1024) : Fin 160000 :=
  colOf 160000 (by norm_num) (by norm_num) (IntOp.subi ((Head.argsOf m c).target n) 40000#32)

theorem tail2_outv (c : Dev nD) : Tail.tail2 (outsOf m) c = R2.outv (valOf (V25 m (outs2 m))) c := by
  show outsOf m 26 main_v42 c = _
  unfold outsOf
  rw [mkOuts_v42]
  exact R2.arrAt_out _ c

theorem tail2_value (hpre : Cert.Pre_KernelIdeal m) (c : Dev nD) (n : Fin 1024) :
    Tail.tail2 (outsOf m) c (ix2 n (0 : Fin 1)) = Cert.Spec.tail2Lp (Head.argsOf m c) n (col2 m c n) := by
  rw [tail2_outv]
  exact R2V.outv_eq (valOf (V25 m (outs2 m))) c (Head.argsOf m c).hidden (Head.argsOf m c).proj2 (Head.argsOf m c).W2 (Head.argsOf m c).b2 (col2 m c)
    (fun n d => Head.hidden2_apply m (outs2 m) c (ix2 n d))
    (fun d e => Head.proj2_apply m (outs2 m) c (ix2 d e))
    (fun v e => Head.rows2_apply m (outs2 m) c (ix2 v e))
    (fun v => Head.bias2_apply m (outs2 m) c (ix1 v))
    (fun n => (Head.label2_apply m (outs2 m) c (ix2 n (0 : Fin 1))).trans (ofNat_colOf 160000 (by norm_num) (by norm_num) (IntOp.subi ((Head.argsOf m c).target n) 40000#32)).symm)
    (fun n d => PreDecode.real_arg0 m hpre c (ix2 n d))
    (fun d e => PreDecode.real_arg10 m hpre c (ix2 d e))
    (fun v e => PreDecode.real_arg8 m hpre c (ix2 v e))
    (fun v => PreDecode.real_arg9 m hpre c (ix1 v)) n

omit [Cert.Pre_finite_inputs.Facts] in

theorem col2_eq (c : Dev nD) (n : Fin 1024) (hw : (40000 : ℤ) - 2 ^ 31 ≤ ((Head.argsOf m c).target n).toInt) :
    col2 m c n = Cert.Spec.clipIdx 160000 (by decide) (((Head.argsOf m c).target n).toInt - 40000) := by
  have h := Head.label2_toInt m (outs2 m) c (ix2 n (0 : Fin 1)) hw
  rw [Head.label2_apply] at h
  exact colOf_eq_of_toInt 160000 (by norm_num) (by norm_num) (IntOp.subi ((Head.argsOf m c).target n) 40000#32) _ h

abbrev col3 (c : Dev nD) (n : Fin 1024) : Fin 67735 :=
  colOf 67735 (by norm_num) (by norm_num) (IntOp.subi ((Head.argsOf m c).target n) 200000#32)

theorem tail3_outv (c : Dev nD) : Tail.tail3 (outsOf m) c = R3.outv (valOf (V35 m (outs3 m))) c := by
  show outsOf m 36 main_v62 c = _
  unfold outsOf
  rw [mkOuts_v62]
  exact R3.arrAt_out _ c

theorem tail3_value (hpre : Cert.Pre_KernelIdeal m) (c : Dev nD) (n : Fin 1024) :
    Tail.tail3 (outsOf m) c (ix2 n (0 : Fin 1)) = Cert.Spec.tail3Lp (Head.argsOf m c) n (col3 m c n) := by
  rw [tail3_outv]
  exact R3V.outv_eq (valOf (V35 m (outs3 m))) c (Head.argsOf m c).hidden (Head.argsOf m c).proj3 (Head.argsOf m c).W3 (Head.argsOf m c).b3 (col3 m c)
    (fun n d => Head.hidden3_apply m (outs3 m) c (ix2 n d))
    (fun d e => Head.proj3_apply m (outs3 m) c (ix2 d e))
    (fun v e => Head.rows3_apply m (outs3 m) c (ix2 v e))
    (fun v => Head.bias3_apply m (outs3 m) c (ix1 v))
    (fun n => (Head.label3_apply m (outs3 m) c (ix2 n (0 : Fin 1))).trans (ofNat_colOf 67735 (by norm_num) (by norm_num) (IntOp.subi ((Head.argsOf m c).target n) 200000#32)).symm)
    (fun n d => PreDecode.real_arg0 m hpre c (ix2 n d))
    (fun d e => PreDecode.real_arg13 m hpre c (ix2 d e))
    (fun v e => PreDecode.real_arg11 m hpre c (ix2 v e))
    (fun v => PreDecode.real_arg12 m hpre c (ix1 v)) n

omit [Cert.Pre_finite_inputs.Facts] in

theorem col3_eq (c : Dev nD) (n : Fin 1024) (hw : (200000 : ℤ) - 2 ^ 31 ≤ ((Head.argsOf m c).target n).toInt) :
    col3 m c n = Cert.Spec.clipIdx 67735 (by decide) (((Head.argsOf m c).target n).toInt - 200000) := by
  have h := Head.label3_toInt m (outs3 m) c (ix2 n (0 : Fin 1)) hw
  rw [Head.label3_apply] at h
  exact colOf_eq_of_toInt 67735 (by norm_num) (by norm_num) (IntOp.subi ((Head.argsOf m c).target n) 200000#32) _ h

theorem kernel_value (hpre : Cert.Pre_KernelIdeal m) (c : Dev nD) (n : Fin 1024) :
    (V38 m (outsOf m) c main_v73 : FVec Ideal S1024 .f32) (ix1 n) = Cert.Spec.nll (Head.argsOf m c) n := by
  have hlt : Tail.label m c n < 267735 := PreDecode.target_lt m hpre c (ix1 n)
  obtain ⟨e0, e1, e2, e3⟩ := head_value m hpre c n
  rw [Tail.result_at]
  by_cases h3 : 200000 ≤ Tail.label m c n
  · have h3' : 200000 ≤ ((Head.argsOf m c).target n).toInt := h3
    rw [if_pos ⟨h3, hlt⟩, nll_ge3 _ _ h3', e3, tail3_value m hpre c n, col3_eq m c n (by omega)]
  · have h3' : ¬ 200000 ≤ ((Head.argsOf m c).target n).toInt := h3
    rw [if_neg (fun h => h3 h.1)]
    by_cases h2 : 40000 ≤ Tail.label m c n
    · have h2' : 40000 ≤ ((Head.argsOf m c).target n).toInt := h2
      rw [if_pos ⟨h2, not_le.1 h3⟩, nll_ge2 _ _ h3' h2', e2, tail2_value m hpre c n, col2_eq m c n (by omega)]
    · have h2' : ¬ 40000 ≤ ((Head.argsOf m c).target n).toInt := h2
      rw [if_neg (fun h => h2 h.1)]
      by_cases h1 : 20000 ≤ Tail.label m c n
      · have h1' : 20000 ≤ ((Head.argsOf m c).target n).toInt := h1
        rw [if_pos ⟨h1, not_le.1 h2⟩, nll_ge1 _ _ h3' h2' h1', e1, tail1_value m hpre c n, col1_eq m c n (by omega)]
      · have h1' : ¬ 20000 ≤ ((Head.argsOf m c).target n).toInt := h1
        rw [if_neg (fun h => h1 h.1), nll_lt _ _ h3' h2' h1', e0]

end Regions

end Cert.KernelIdeal.H.KV

end
-- ==== Proof.Ref.LibAfter.lean ====
import Idealize.ShloMosaic.Lib.StableHlo.Run
import Idealize.ShloMosaic.Lib.Pipeline.Frame

noncomputable section

namespace Idealize.ShloMosaic.StableHlo

variable {τ : Topo} {sig : RefSig} {Val : EltTy → Type}

def WritesAre (ops : List (HloOp τ sig Val)) (wr : List (Ref sig .tc)) : Prop :=
  ops.map (fun op => op.writes) = wr.map (fun r => ({Proc.devRef (τ := τ) .tc r} : Finset (DevRef τ sig)))

theorem WritesAre.length_eq {ops : List (HloOp τ sig Val)} {wr : List (Ref sig .tc)} (hw : WritesAre ops wr) :
    ops.length = wr.length := by
  have h := congrArg List.length hw
  rwa [List.length_map, List.length_map] at h

theorem WritesAre.not_mem_drop {ops : List (HloOp τ sig Val)} {wr : List (Ref sig .tc)} (hw : WritesAre ops wr)
    (j : ℕ) {a : Ref sig .tc} (ha : a ∉ wr.drop j) : ∀ op ∈ ops.drop j, Proc.devRef (τ := τ) .tc a ∉ op.writes := by
  intro op hop hmem
  have h1 : op.writes ∈ (ops.drop j).map (fun op => op.writes) := List.mem_map_of_mem hop
  rw [List.map_drop, show ops.map (fun op => op.writes) = _ from hw, ← List.map_drop] at h1
  obtain ⟨r, hr, he⟩ := List.mem_map.mp h1
  rw [← he, Finset.mem_singleton] at hmem
  exact ha (Proc.devRef_injective _ hmem ▸ hr)

theorem WritesAre.after_take {ops : List (HloOp τ sig Val)} {wr : List (Ref sig .tc)} (hw : WritesAre ops wr)
    (k : ℕ) (a : Ref sig .tc) (ha : a ∉ wr.drop k) (V : Valuation τ sig Val) :
    after (ops.take k) V (Proc.devRef .tc a) = after ops V (Proc.devRef .tc a) := by
  conv_rhs => rw [← List.take_append_drop k ops, after_append]
  exact (after_of_forall_not_mem _ _ (hw.not_mem_drop k ha)).symm

theorem WritesAre.after_at {ops : List (HloOp τ sig Val)} {wr : List (Ref sig .tc)} (hw : WritesAre ops wr)
    (k : ℕ) (hk : k < wr.length) (y : Ref sig .tc) (hy : y ∉ wr.drop (k + 1)) (V : Valuation τ sig Val) :
    after ops V (Proc.devRef .tc y)
      = (ops[k]'(hw.length_eq ▸ hk)).result (after (ops.take k) V) (Proc.devRef .tc y) := by
  have hk' : k < ops.length := hw.length_eq ▸ hk
  conv_lhs => rw [← List.take_append_drop k ops, after_append, List.drop_eq_getElem_cons hk', after_cons]
  exact after_of_forall_not_mem _ _ (hw.not_mem_drop (k + 1) hy)

theorem WritesAre.after_arg {ops : List (HloOp τ sig Val)} {wr : List (Ref sig .tc)} (hw : WritesAre ops wr)
    (a : Ref sig .tc) (ha : a ∉ wr) (V : Valuation τ sig Val) :
    after ops V (Proc.devRef .tc a) = V (Proc.devRef .tc a) :=
  after_of_forall_not_mem _ _ (by simpa using hw.not_mem_drop 0 (by simpa using ha))

namespace TRef

variable {Ta Tb Tc Ty : BufTy}

theorem nullary_result_heq (y : TRef sig Ty) (v : Ty.Contents Val) (F : Valuation τ sig Val) :
    HEq ((TRef.nullary (τ := τ) y v).result F (Proc.devRef .tc y.ref)) v := by
  obtain ⟨ry, rfl, hy1, hy2⟩ := y
  exact heq_of_eq (StableHlo.nullary_result ..)

theorem unary_result_heq (x : TRef sig Ta) (y : TRef sig Ty) (f : Ta.Contents Val → Ty.Contents Val)
    (F : Valuation τ sig Val) (vx : Ta.Contents Val) (hx : HEq (F (Proc.devRef .tc x.ref)) vx) :
    HEq ((TRef.unary (τ := τ) x y f).result F (Proc.devRef .tc y.ref)) (f vx) := by
  obtain ⟨rx, rfl, hx1, hx2⟩ := x
  obtain ⟨ry, rfl, hy1, hy2⟩ := y
  cases hx
  exact heq_of_eq (StableHlo.unary_result ..)

theorem binary_result_heq (a : TRef sig Ta) (b : TRef sig Tb) (y : TRef sig Ty)
    (f : Ta.Contents Val → Tb.Contents Val → Ty.Contents Val) (F : Valuation τ sig Val)
    (va : Ta.Contents Val) (vb : Tb.Contents Val)
    (ha : HEq (F (Proc.devRef .tc a.ref)) va) (hb : HEq (F (Proc.devRef .tc b.ref)) vb) :
    HEq ((TRef.binary (τ := τ) a b y f).result F (Proc.devRef .tc y.ref)) (f va vb) := by
  obtain ⟨ra, rfl, ha1, ha2⟩ := a
  obtain ⟨rb, rfl, hb1, hb2⟩ := b
  obtain ⟨ry, rfl, hy1, hy2⟩ := y
  cases ha
  cases hb
  exact heq_of_eq (StableHlo.binary_result ..)

theorem ternary_result_heq (c : TRef sig Tc) (a : TRef sig Ta) (b : TRef sig Tb) (y : TRef sig Ty)
    (f : Tc.Contents Val → Ta.Contents Val → Tb.Contents Val → Ty.Contents Val) (F : Valuation τ sig Val)
    (vc : Tc.Contents Val) (va : Ta.Contents Val) (vb : Tb.Contents Val)
    (hc : HEq (F (Proc.devRef .tc c.ref)) vc) (ha : HEq (F (Proc.devRef .tc a.ref)) va)
    (hb : HEq (F (Proc.devRef .tc b.ref)) vb) :
    HEq ((TRef.ternary (τ := τ) c a b y f).result F (Proc.devRef .tc y.ref)) (f vc va vb) := by
  obtain ⟨rc, rfl, hc1, hc2⟩ := c
  obtain ⟨ra, rfl, ha1, ha2⟩ := a
  obtain ⟨rb, rfl, hb1, hb2⟩ := b
  obtain ⟨ry, rfl, hy1, hy2⟩ := y
  cases hc
  cases ha
  cases hb
  exact heq_of_eq (StableHlo.ternary_result ..)

end TRef

end Idealize.ShloMosaic.StableHlo

end
-- ==== Proof.Ref.Stages0.lean ====
/- The reference's @main read at its LAST valuation, operations 1 … 48 of 239: what the whole line of operations
   leaves in the reference an operation writes is that operation's stage value (the Read module's `val_<buffer>`) at
   the arguments' launch contents. Every reference is written once, so the last valuation of an operation's result is
   the operation's function of the last valuations of its operands: one lemma per operation, each from its operands'. -/
import proofs.«416365_j66236985639681_1_alg».proof.Proof.Ref.RunP
import proofs.«416365_j66236985639681_1_alg».proof.Proof.Ref.ReadP
import proofs.«416365_j66236985639681_1_alg».proof.Proof.Ref.LibAfter

set_option maxRecDepth 8192

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.Value Cert.ReferenceIdeal.Read

variable {F : FTy → Type} [FloatOps F]

/-- The references @main's operations write, in the operations' order: each operation writes one, no two the same. -/
abbrev wr : List (Ref sig .tc) :=
  [main_v0, main_v1, main_v2, main_v3, main_v4, main_v5, main_v6, main_v7, main_v8, main_call0_cst, main_call0_v0, main_call0_cst_0, main_call0_v1, main_call0_v2, main_call0_v3, main_call0_v4, main_call0_v5, main_call0_v6, main_call0_cst_1, main_call0_v7, main_call0_v8, main_call0_v9, main_call0_v10, main_v9, main_c, main_v10, main_v11, main_v12, main_c_0, main_v13, main_v14, main_v15, main_v16, main_c_1, main_v17, main_v18, main_v19, main_v20, main_c_2, main_c_3, main_call1_v0, main_call1_v1, main_call1_v2, main_call1_v3, main_call1_v4, main_v21, main_c_4, main_v22, main_v23, main_c_5, main_v24, main_v25, main_v26, main_c_6, main_v27, main_v28, main_c_7, main_v29, main_v30, main_v31, main_v32, main_v33, main_v34, main_v35, main_v36, main_v37, main_v38, main_v39, main_v40, main_v41, main_v42, main_call2_cst, main_call2_v0, main_call2_cst_0, main_call2_v1, main_call2_v2, main_call2_v3, main_call2_v4, main_call2_v5, main_call2_v6, main_call2_cst_1, main_call2_v7, main_call2_v8, main_call2_v9, main_call2_v10, main_v43, main_c_8, main_v44, main_v45, main_c_9, main_c_10, main_call3_v0, main_call3_v1, main_call3_v2, main_call3_v3, main_call3_v4, main_v46, main_v47, main_v48, main_c_11, main_v49, main_v50, main_c_12, main_v51, main_v52, main_v53, main_c_13, main_v54, main_v55, main_c_14, main_v56, main_v57, main_v58, main_v59, main_v60, main_v61, main_v62, main_v63, main_c_15, main_v64, main_v65, main_v66, main_v67, main_v68, main_v69, main_v70, main_v71, main_v72, main_v73, main_call5_cst, main_call5_v0, main_call5_cst_0, main_call5_v1, main_call5_v2, main_call5_v3, main_call5_v4, main_call5_v5, main_call5_v6, main_call5_cst_1, main_call5_v7, main_call5_v8, main_call5_v9, main_call5_v10, main_v74, main_c_16, main_v75, main_v76, main_c_17, main_c_18, main_call6_v0, main_call6_v1, main_call6_v2, main_call6_v3, main_call6_v4, main_v77, main_v78, main_v79, main_c_19, main_v80, main_v81, main_c_20, main_v82, main_v83, main_v84, main_c_21, main_v85, main_v86, main_c_22, main_v87, main_v88, main_v89, main_v90, main_v91, main_v92, main_v93, main_v94, main_c_23, main_v95, main_v96, main_v97, main_v98, main_v99, main_v100, main_v101, main_v102, main_v103, main_v104, main_call8_cst, main_call8_v0, main_call8_cst_0, main_call8_v1, main_call8_v2, main_call8_v3, main_call8_v4, main_call8_v5, main_call8_v6, main_call8_cst_1, main_call8_v7, main_call8_v8, main_call8_v9, main_call8_v10, main_v105, main_c_24, main_v106, main_v107, main_c_25, main_c_26, main_call9_v0, main_call9_v1, main_call9_v2, main_call9_v3, main_call9_v4, main_v108, main_v109, main_v110, main_c_27, main_v111, main_v112, main_c_28, main_v113, main_v114, main_v115, main_c_29, main_v116, main_v117, main_c_30, main_v118, main_v119, main_v120, main_v121, main_v122, main_v123, main_v124, main_v125, main_c_31, main_v126, main_v127, main_v128, main_v129]

/-- Operation `k` writes the `k`-th of them and nothing else. -/
theorem ops_wr : WritesAre (ops (F := F)) wr := rfl

theorem st_main_v0 (m : (ℓ : Loc nD τ sig) → Buf (Elt F) ℓ) (c : Dev nD) :
    after (ops (F := F)) (launchContents m c) (Proc.devRef .tc main_v0) = val_main_v0 (F := F) := by
  refine (ops_wr.after_at 0 (by decide) main_v0 (by decide) _).trans ?_
  show ((nullary main_v0 (iotaInDim S1024 32 0) : HloOp τ sig (Elt F))).result _ _ = _
  refine (nullary_result ..).trans ?_
  rfl

theorem st_main_v1 (m : (ℓ : Loc nD τ sig) → Buf (Elt F) ℓ) (c : Dev nD) :
    after (ops (F := F)) (launchContents m c) (Proc.devRef .tc main_v1) = val_main_v1 (F := F) (m ((c.tc : Thread nD τ).loc main_arg2)) (m ((c.tc : Thread nD τ).loc main_arg14)) := by
  refine (ops_wr.after_at 1 (by decide) main_v1 (by decide) _).trans ?_
  show ((binary main_arg2 main_arg14 main_v1 ((fun a b => concatenate S20003x512 0 [⟨S20000x512, a⟩, ⟨S3x512, b⟩] concatenates_S20000x512_S3x512_S20003x512_d0) : (⟨S20000x512, .f32⟩ : BufTy).Contents (Elt F) → (⟨S3x512, .f32⟩ : BufTy).Contents (Elt F) → (⟨S20003x512, .f32⟩ : BufTy).Contents (Elt F)) : HloOp τ sig (Elt F))).result _ _ = _
  refine (binary_result ..).trans ?_
  rw [ops_wr.after_take 1 main_arg2 (by decide), ops_wr.after_arg main_arg2 (by decide), ops_wr.after_take 1 main_arg14 (by decide), ops_wr.after_arg main_arg14 (by decide)]
  rfl

theorem st_main_v2 (m : (ℓ : Loc nD τ sig) → Buf (Elt F) ℓ) (c : Dev nD) :
    after (ops (F := F)) (launchContents m c) (Proc.devRef .tc main_v2) = val_main_v2 (F := F) (m ((c.tc : Thread nD τ).loc main_arg3)) (m ((c.tc : Thread nD τ).loc main_arg15)) := by
  refine (ops_wr.after_at 2 (by decide) main_v2 (by decide) _).trans ?_
  show ((binary main_arg3 main_arg15 main_v2 ((fun a b => concatenate S20003 0 [⟨S20000, a⟩, ⟨S3, b⟩] concatenates_S20000_S3_S20003_d0) : (⟨S20000, .f32⟩ : BufTy).Contents (Elt F) → (⟨S3, .f32⟩ : BufTy).Contents (Elt F) → (⟨S20003, .f32⟩ : BufTy).Contents (Elt F)) : HloOp τ sig (Elt F))).result _ _ = _
  refine (binary_result ..).trans ?_
  rw [ops_wr.after_take 2 main_arg3 (by decide), ops_wr.after_arg main_arg3 (by decide), ops_wr.after_take 2 main_arg15 (by decide), ops_wr.after_arg main_arg15 (by decide)]
  rfl

theorem st_main_v3 (m : (ℓ : Loc nD τ sig) → Buf (Elt F) ℓ) (c : Dev nD) :
    after (ops (F := F)) (launchContents m c) (Proc.devRef .tc main_v3) = val_main_v3 (F := F) (m ((c.tc : Thread nD τ).loc main_arg0)) (m ((c.tc : Thread nD τ).loc main_arg4)) := by
  refine (ops_wr.after_at 3 (by decide) main_v3 (by decide) _).trans ?_
  show ((binary main_arg0 main_arg4 main_v3 ((fun l r => Host.dotGeneral dot_S1024x512_S512x512_S1024x512_1_0_0_1_n_n none l r) : (⟨S1024x512, .f32⟩ : BufTy).Contents (Elt F) → (⟨S512x512, .f32⟩ : BufTy).Contents (Elt F) → (⟨S1024x512, .f32⟩ : BufTy).Contents (Elt F)) : HloOp τ sig (Elt F))).result _ _ = _
  refine (binary_result ..).trans ?_
  rw [ops_wr.after_take 3 main_arg0 (by decide), ops_wr.after_arg main_arg0 (by decide), ops_wr.after_take 3 main_arg4 (by decide), ops_wr.after_arg main_arg4 (by decide)]
  rfl

theorem st_main_v4 (m : (ℓ : Loc nD τ sig) → Buf (Elt F) ℓ) (c : Dev nD) :
    after (ops (F := F)) (launchContents m c) (Proc.devRef .tc main_v4) = val_main_v4 (F := F) (m ((c.tc : Thread nD τ).loc main_arg2)) (m ((c.tc : Thread nD τ).loc main_arg14)) := by
  refine (ops_wr.after_at 4 (by decide) main_v4 (by decide) _).trans ?_
  show ((unary main_v1 main_v4 ((transpose S512x20003 [1, 0] · transposes_S20003x512_S512x20003_1_0) : (⟨S20003x512, .f32⟩ : BufTy).Contents (Elt F) → (⟨S512x20003, .f32⟩ : BufTy).Contents (Elt F)) : HloOp τ sig (Elt F))).result _ _ = _
  refine (unary_result ..).trans ?_
  rw [ops_wr.after_take 4 main_v1 (by decide), st_main_v1 m c]
  rfl

theorem st_main_v5 (m : (ℓ : Loc nD τ sig) → Buf (Elt F) ℓ) (c : Dev nD) :
    after (ops (F := F)) (launchContents m c) (Proc.devRef .tc main_v5) = val_main_v5 (F := F) (m ((c.tc : Thread nD τ).loc main_arg0)) (m ((c.tc : Thread nD τ).loc main_arg2)) (m ((c.tc : Thread nD τ).loc main_arg4)) (m ((c.tc : Thread nD τ).loc main_arg14)) := by
  refine (ops_wr.after_at 5 (by decide) main_v5 (by decide) _).trans ?_
  show ((binary main_v3 main_v4 main_v5 ((fun l r => Host.dotGeneral dot_S1024x512_S512x20003_S1024x20003_1_0_0_1_n_n none l r) : (⟨S1024x512, .f32⟩ : BufTy).Contents (Elt F) → (⟨S512x20003, .f32⟩ : BufTy).Contents (Elt F) → (⟨S1024x20003, .f32⟩ : BufTy).Contents (Elt F)) : HloOp τ sig (Elt F))).result _ _ = _
  refine (binary_result ..).trans ?_
  rw [ops_wr.after_take 5 main_v3 (by decide), st_main_v3 m c, ops_wr.after_take 5 main_v4 (by decide), st_main_v4 m c]
  rfl

theorem st_main_v6 (m : (ℓ : Loc nD τ sig) → Buf (Elt F) ℓ) (c : Dev nD) :
    after (ops (F := F)) (launchContents m c) (Proc.devRef .tc main_v6) = val_main_v6 (F := F) (m ((c.tc : Thread nD τ).loc main_arg3)) (m ((c.tc : Thread nD τ).loc main_arg15)) := by
  refine (ops_wr.after_at 6 (by decide) main_v6 (by decide) _).trans ?_
  show ((unary main_v2 main_v6 (broadcastInDim S1x20003 ![1] bcast_S20003_S1x20003_1 : (⟨S20003, .f32⟩ : BufTy).Contents (Elt F) → (⟨S1x20003, .f32⟩ : BufTy).Contents (Elt F)) : HloOp τ sig (Elt F))).result _ _ = _
  refine (unary_result ..).trans ?_
  rw [ops_wr.after_take 6 main_v2 (by decide), st_main_v2 m c]
  rfl

theorem st_main_v7 (m : (ℓ : Loc nD τ sig) → Buf (Elt F) ℓ) (c : Dev nD) :
    after (ops (F := F)) (launchContents m c) (Proc.devRef .tc main_v7) = val_main_v7 (F := F) (m ((c.tc : Thread nD τ).loc main_arg3)) (m ((c.tc : Thread nD τ).loc main_arg15)) := by
  refine (ops_wr.after_at 7 (by decide) main_v7 (by decide) _).trans ?_
  show ((unary main_v6 main_v7 (broadcastInDim S1024x20003 ![0, 1] bcast_S1x20003_S1024x20003_0_1 : (⟨S1x20003, .f32⟩ : BufTy).Contents (Elt F) → (⟨S1024x20003, .f32⟩ : BufTy).Contents (Elt F)) : HloOp τ sig (Elt F))).result _ _ = _
  refine (unary_result ..).trans ?_
  rw [ops_wr.after_take 7 main_v6 (by decide), st_main_v6 m c]
  rfl

theorem st_main_v8 (m : (ℓ : Loc nD τ sig) → Buf (Elt F) ℓ) (c : Dev nD) :
    after (ops (F := F)) (launchContents m c) (Proc.devRef .tc main_v8) = val_main_v8 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)) := by
  refine (ops_wr.after_at 8 (by decide) main_v8 (by decide) _).trans ?_
  show ((binary main_v5 main_v7 main_v8 (addf : (⟨S1024x20003, .f32⟩ : BufTy).Contents (Elt F) → (⟨S1024x20003, .f32⟩ : BufTy).Contents (Elt F) → (⟨S1024x20003, .f32⟩ : BufTy).Contents (Elt F)) : HloOp τ sig (Elt F))).result _ _ = _
  refine (binary_result ..).trans ?_
  rw [ops_wr.after_take 8 main_v5 (by decide), st_main_v5 m c, ops_wr.after_take 8 main_v7 (by decide), st_main_v7 m c]
  rfl

theorem st_main_call0_cst (m : (ℓ : Loc nD τ sig) → Buf (Elt F) ℓ) (c : Dev nD) :
    after (ops (F := F)) (launchContents m c) (Proc.devRef .tc main_call0_cst) = val_main_call0_cst (F := F) := by
  refine (ops_wr.after_at 9 (by decide) main_call0_cst (by decide) _).trans ?_
  show ((TRef.nullary (TRef.of (T := ⟨S_, .f32⟩) main_call0_cst) (constant S_ .f32 0xFF800000#32) : HloOp τ sig (Elt F))).result _ _ = _
  exact eq_of_heq (TRef.nullary_result_heq _ _ _)

theorem st_main_call0_v0 (m : (ℓ : Loc nD τ sig) → Buf (Elt F) ℓ) (c : Dev nD) :
    after (ops (F := F)) (launchContents m c) (Proc.devRef .tc main_call0_v0) = val_main_call0_v0 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)) := by
  refine (ops_wr.after_at 10 (by decide) main_call0_v0 (by decide) _).trans ?_
  show ((TRef.binary (TRef.of (T := ⟨S1024x20003, .f32⟩) main_v8) (TRef.of (T := ⟨S_, .f32⟩) main_call0_cst) (TRef.of (T := ⟨S1024, .f32⟩) main_call0_v0) (fun x v => Host.reduce FloatOps.maximumf x v reducesTo_S1024x20003_S1024_d1 h_S_) : HloOp τ sig (Elt F))).result _ _ = _
  exact eq_of_heq (TRef.binary_result_heq _ _ _ _ _ (val_main_v8 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15))) (val_main_call0_cst (F := F))
    (heq_of_eq ((ops_wr.after_take 10 main_v8 (by decide) _).trans (st_main_v8 m c)))
    (heq_of_eq ((ops_wr.after_take 10 main_call0_cst (by decide) _).trans (st_main_call0_cst m c))))

theorem st_main_call0_cst_0 (m : (ℓ : Loc nD τ sig) → Buf (Elt F) ℓ) (c : Dev nD) :
    after (ops (F := F)) (launchContents m c) (Proc.devRef .tc main_call0_cst_0) = val_main_call0_cst_0 (F := F) := by
  refine (ops_wr.after_at 11 (by decide) main_call0_cst_0 (by decide) _).trans ?_
  show ((TRef.nullary (TRef.of (T := ⟨S_, .f32⟩) main_call0_cst_0) (constant S_ .f32 0xFF800000#32) : HloOp τ sig (Elt F))).result _ _ = _
  exact eq_of_heq (TRef.nullary_result_heq _ _ _)

theorem st_main_call0_v1 (m : (ℓ : Loc nD τ sig) → Buf (Elt F) ℓ) (c : Dev nD) :
    after (ops (F := F)) (launchContents m c) (Proc.devRef .tc main_call0_v1) = val_main_call0_v1 (F := F) := by
  refine (ops_wr.after_at 12 (by decide) main_call0_v1 (by decide) _).trans ?_
  show ((TRef.unary (TRef.of (T := ⟨S_, .f32⟩) main_call0_cst_0) (TRef.of (T := ⟨S1024, .f32⟩) main_call0_v1) (broadcastInDim S1024 ![] bcast_S_S1024) : HloOp τ sig (Elt F))).result _ _ = _
  exact eq_of_heq (TRef.unary_result_heq _ _ _ _ (val_main_call0_cst_0 (F := F))
    (heq_of_eq ((ops_wr.after_take 12 main_call0_cst_0 (by decide) _).trans (st_main_call0_cst_0 m c))))

theorem st_main_call0_v2 (m : (ℓ : Loc nD τ sig) → Buf (Elt F) ℓ) (c : Dev nD) :
    after (ops (F := F)) (launchContents m c) (Proc.devRef .tc main_call0_v2) = val_main_call0_v2 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)) := by
  refine (ops_wr.after_at 13 (by decide) main_call0_v2 (by decide) _).trans ?_
  show ((TRef.binary (TRef.of (T := ⟨S1024, .f32⟩) main_call0_v1) (TRef.of (T := ⟨S1024, .f32⟩) main_call0_v0) (TRef.of (T := ⟨S1024, .f32⟩) main_call0_v2) maximumf : HloOp τ sig (Elt F))).result _ _ = _
  exact eq_of_heq (TRef.binary_result_heq _ _ _ _ _ (val_main_call0_v1 (F := F)) (val_main_call0_v0 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)))
    (heq_of_eq ((ops_wr.after_take 13 main_call0_v1 (by decide) _).trans (st_main_call0_v1 m c)))
    (heq_of_eq ((ops_wr.after_take 13 main_call0_v0 (by decide) _).trans (st_main_call0_v0 m c))))

theorem st_main_call0_v3 (m : (ℓ : Loc nD τ sig) → Buf (Elt F) ℓ) (c : Dev nD) :
    after (ops (F := F)) (launchContents m c) (Proc.devRef .tc main_call0_v3) = val_main_call0_v3 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)) := by
  refine (ops_wr.after_at 14 (by decide) main_call0_v3 (by decide) _).trans ?_
  show ((TRef.unary (TRef.of (T := ⟨S1024, .f32⟩) main_call0_v2) (TRef.of (T := ⟨S1024x1, .f32⟩) main_call0_v3) (broadcastInDim S1024x1 ![0] bcast_S1024_S1024x1_0) : HloOp τ sig (Elt F))).result _ _ = _
  exact eq_of_heq (TRef.unary_result_heq _ _ _ _ (val_main_call0_v2 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)))
    (heq_of_eq ((ops_wr.after_take 14 main_call0_v2 (by decide) _).trans (st_main_call0_v2 m c))))

theorem st_main_call0_v4 (m : (ℓ : Loc nD τ sig) → Buf (Elt F) ℓ) (c : Dev nD) :
    after (ops (F := F)) (launchContents m c) (Proc.devRef .tc main_call0_v4) = val_main_call0_v4 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)) := by
  refine (ops_wr.after_at 15 (by decide) main_call0_v4 (by decide) _).trans ?_
  show ((TRef.unary (TRef.of (T := ⟨S1024x1, .f32⟩) main_call0_v3) (TRef.of (T := ⟨S1024x20003, .f32⟩) main_call0_v4) (broadcastInDim S1024x20003 ![0, 1] bcast_S1024x1_S1024x20003_0_1) : HloOp τ sig (Elt F))).result _ _ = _
  exact eq_of_heq (TRef.unary_result_heq _ _ _ _ (val_main_call0_v3 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)))
    (heq_of_eq ((ops_wr.after_take 15 main_call0_v3 (by decide) _).trans (st_main_call0_v3 m c))))

theorem st_main_call0_v5 (m : (ℓ : Loc nD τ sig) → Buf (Elt F) ℓ) (c : Dev nD) :
    after (ops (F := F)) (launchContents m c) (Proc.devRef .tc main_call0_v5) = val_main_call0_v5 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)) := by
  refine (ops_wr.after_at 16 (by decide) main_call0_v5 (by decide) _).trans ?_
  show ((TRef.binary (TRef.of (T := ⟨S1024x20003, .f32⟩) main_v8) (TRef.of (T := ⟨S1024x20003, .f32⟩) main_call0_v4) (TRef.of (T := ⟨S1024x20003, .f32⟩) main_call0_v5) subf : HloOp τ sig (Elt F))).result _ _ = _
  exact eq_of_heq (TRef.binary_result_heq _ _ _ _ _ (val_main_v8 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15))) (val_main_call0_v4 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)))
    (heq_of_eq ((ops_wr.after_take 16 main_v8 (by decide) _).trans (st_main_v8 m c)))
    (heq_of_eq ((ops_wr.after_take 16 main_call0_v4 (by decide) _).trans (st_main_call0_v4 m c))))

theorem st_main_call0_v6 (m : (ℓ : Loc nD τ sig) → Buf (Elt F) ℓ) (c : Dev nD) :
    after (ops (F := F)) (launchContents m c) (Proc.devRef .tc main_call0_v6) = val_main_call0_v6 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)) := by
  refine (ops_wr.after_at 17 (by decide) main_call0_v6 (by decide) _).trans ?_
  show ((TRef.unary (TRef.of (T := ⟨S1024x20003, .f32⟩) main_call0_v5) (TRef.of (T := ⟨S1024x20003, .f32⟩) main_call0_v6) Host.exp : HloOp τ sig (Elt F))).result _ _ = _
  exact eq_of_heq (TRef.unary_result_heq _ _ _ _ (val_main_call0_v5 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)))
    (heq_of_eq ((ops_wr.after_take 17 main_call0_v5 (by decide) _).trans (st_main_call0_v5 m c))))

theorem st_main_call0_cst_1 (m : (ℓ : Loc nD τ sig) → Buf (Elt F) ℓ) (c : Dev nD) :
    after (ops (F := F)) (launchContents m c) (Proc.devRef .tc main_call0_cst_1) = val_main_call0_cst_1 (F := F) := by
  refine (ops_wr.after_at 18 (by decide) main_call0_cst_1 (by decide) _).trans ?_
  show ((TRef.nullary (TRef.of (T := ⟨S_, .f32⟩) main_call0_cst_1) (constant S_ .f32 0x00000000#32) : HloOp τ sig (Elt F))).result _ _ = _
  exact eq_of_heq (TRef.nullary_result_heq _ _ _)

theorem st_main_call0_v7 (m : (ℓ : Loc nD τ sig) → Buf (Elt F) ℓ) (c : Dev nD) :
    after (ops (F := F)) (launchContents m c) (Proc.devRef .tc main_call0_v7) = val_main_call0_v7 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)) := by
  refine (ops_wr.after_at 19 (by decide) main_call0_v7 (by decide) _).trans ?_
  show ((TRef.binary (TRef.of (T := ⟨S1024x20003, .f32⟩) main_call0_v6) (TRef.of (T := ⟨S_, .f32⟩) main_call0_cst_1) (TRef.of (T := ⟨S1024, .f32⟩) main_call0_v7) (fun x v => Host.reduceAdd x v reducesTo_S1024x20003_S1024_d1 h_S_) : HloOp τ sig (Elt F))).result _ _ = _
  exact eq_of_heq (TRef.binary_result_heq _ _ _ _ _ (val_main_call0_v6 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15))) (val_main_call0_cst_1 (F := F))
    (heq_of_eq ((ops_wr.after_take 19 main_call0_v6 (by decide) _).trans (st_main_call0_v6 m c)))
    (heq_of_eq ((ops_wr.after_take 19 main_call0_cst_1 (by decide) _).trans (st_main_call0_cst_1 m c))))

theorem st_main_call0_v8 (m : (ℓ : Loc nD τ sig) → Buf (Elt F) ℓ) (c : Dev nD) :
    after (ops (F := F)) (launchContents m c) (Proc.devRef .tc main_call0_v8) = val_main_call0_v8 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)) := by
  refine (ops_wr.after_at 20 (by decide) main_call0_v8 (by decide) _).trans ?_
  show ((TRef.unary (TRef.of (T := ⟨S1024, .f32⟩) main_call0_v7) (TRef.of (T := ⟨S1024x1, .f32⟩) main_call0_v8) (broadcastInDim S1024x1 ![0] bcast_S1024_S1024x1_0) : HloOp τ sig (Elt F))).result _ _ = _
  exact eq_of_heq (TRef.unary_result_heq _ _ _ _ (val_main_call0_v7 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)))
    (heq_of_eq ((ops_wr.after_take 20 main_call0_v7 (by decide) _).trans (st_main_call0_v7 m c))))

theorem st_main_call0_v9 (m : (ℓ : Loc nD τ sig) → Buf (Elt F) ℓ) (c : Dev nD) :
    after (ops (F := F)) (launchContents m c) (Proc.devRef .tc main_call0_v9) = val_main_call0_v9 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)) := by
  refine (ops_wr.after_at 21 (by decide) main_call0_v9 (by decide) _).trans ?_
  show ((TRef.unary (TRef.of (T := ⟨S1024x1, .f32⟩) main_call0_v8) (TRef.of (T := ⟨S1024x1, .f32⟩) main_call0_v9) Host.log : HloOp τ sig (Elt F))).result _ _ = _
  exact eq_of_heq (TRef.unary_result_heq _ _ _ _ (val_main_call0_v8 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)))
    (heq_of_eq ((ops_wr.after_take 21 main_call0_v8 (by decide) _).trans (st_main_call0_v8 m c))))

theorem st_main_call0_v10 (m : (ℓ : Loc nD τ sig) → Buf (Elt F) ℓ) (c : Dev nD) :
    after (ops (F := F)) (launchContents m c) (Proc.devRef .tc main_call0_v10) = val_main_call0_v10 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)) := by
  refine (ops_wr.after_at 22 (by decide) main_call0_v10 (by decide) _).trans ?_
  show ((TRef.unary (TRef.of (T := ⟨S1024x1, .f32⟩) main_call0_v9) (TRef.of (T := ⟨S1024x20003, .f32⟩) main_call0_v10) (broadcastInDim S1024x20003 ![0, 1] bcast_S1024x1_S1024x20003_0_1) : HloOp τ sig (Elt F))).result _ _ = _
  exact eq_of_heq (TRef.unary_result_heq _ _ _ _ (val_main_call0_v9 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)))
    (heq_of_eq ((ops_wr.after_take 22 main_call0_v9 (by decide) _).trans (st_main_call0_v9 m c))))

theorem st_main_v9 (m : (ℓ : Loc nD τ sig) → Buf (Elt F) ℓ) (c : Dev nD) :
    after (ops (F := F)) (launchContents m c) (Proc.devRef .tc main_v9) = val_main_v9 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)) := by
  refine (ops_wr.after_at 23 (by decide) main_v9 (by decide) _).trans ?_
  show ((TRef.binary (TRef.of (T := ⟨S1024x20003, .f32⟩) main_call0_v5) (TRef.of (T := ⟨S1024x20003, .f32⟩) main_call0_v10) (TRef.of (T := ⟨S1024x20003, .f32⟩) main_v9) subf : HloOp τ sig (Elt F))).result _ _ = _
  exact eq_of_heq (TRef.binary_result_heq _ _ _ _ _ (val_main_call0_v5 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15))) (val_main_call0_v10 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)))
    (heq_of_eq ((ops_wr.after_take 23 main_call0_v5 (by decide) _).trans (st_main_call0_v5 m c)))
    (heq_of_eq ((ops_wr.after_take 23 main_call0_v10 (by decide) _).trans (st_main_call0_v10 m c))))

theorem st_main_c (m : (ℓ : Loc nD τ sig) → Buf (Elt F) ℓ) (c : Dev nD) :
    after (ops (F := F)) (launchContents m c) (Proc.devRef .tc main_c) = val_main_c (F := F) := by
  refine (ops_wr.after_at 24 (by decide) main_c (by decide) _).trans ?_
  show ((nullary main_c (constantI S_ 32 20000#32) : HloOp τ sig (Elt F))).result _ _ = _
  refine (nullary_result ..).trans ?_
  rfl

theorem st_main_v10 (m : (ℓ : Loc nD τ sig) → Buf (Elt F) ℓ) (c : Dev nD) :
    after (ops (F := F)) (launchContents m c) (Proc.devRef .tc main_v10) = val_main_v10 (F := F) := by
  refine (ops_wr.after_at 25 (by decide) main_v10 (by decide) _).trans ?_
  show ((unary main_c main_v10 (broadcastInDim S1024 ![] bcast_S_S1024 : (⟨S_, .i32⟩ : BufTy).Contents (Elt F) → (⟨S1024, .i32⟩ : BufTy).Contents (Elt F)) : HloOp τ sig (Elt F))).result _ _ = _
  refine (unary_result ..).trans ?_
  rw [ops_wr.after_take 25 main_c (by decide), st_main_c m c]
  rfl

theorem st_main_v11 (m : (ℓ : Loc nD τ sig) → Buf (Elt F) ℓ) (c : Dev nD) :
    after (ops (F := F)) (launchContents m c) (Proc.devRef .tc main_v11) = val_main_v11 (F := F) (m ((c.tc : Thread nD τ).loc main_arg1)) := by
  refine (ops_wr.after_at 26 (by decide) main_v11 (by decide) _).trans ?_
  show ((binary main_arg1 main_v10 main_v11 (cmpi .sge : (⟨S1024, .i32⟩ : BufTy).Contents (Elt F) → (⟨S1024, .i32⟩ : BufTy).Contents (Elt F) → (⟨S1024, .i1⟩ : BufTy).Contents (Elt F)) : HloOp τ sig (Elt F))).result _ _ = _
  refine (binary_result ..).trans ?_
  rw [ops_wr.after_take 26 main_arg1 (by decide), ops_wr.after_arg main_arg1 (by decide), ops_wr.after_take 26 main_v10 (by decide), st_main_v10 m c]
  rfl

theorem st_main_v12 (m : (ℓ : Loc nD τ sig) → Buf (Elt F) ℓ) (c : Dev nD) :
    after (ops (F := F)) (launchContents m c) (Proc.devRef .tc main_v12) = val_main_v12 (F := F) (m ((c.tc : Thread nD τ).loc main_arg1)) := by
  refine (ops_wr.after_at 27 (by decide) main_v12 (by decide) _).trans ?_
  show ((unary main_v11 main_v12 ((extui 32 · natLt_1_32) : (⟨S1024, .i1⟩ : BufTy).Contents (Elt F) → (⟨S1024, .i32⟩ : BufTy).Contents (Elt F)) : HloOp τ sig (Elt F))).result _ _ = _
  refine (unary_result ..).trans ?_
  rw [ops_wr.after_take 27 main_v11 (by decide), st_main_v11 m c]
  rfl

theorem st_main_c_0 (m : (ℓ : Loc nD τ sig) → Buf (Elt F) ℓ) (c : Dev nD) :
    after (ops (F := F)) (launchContents m c) (Proc.devRef .tc main_c_0) = val_main_c_0 (F := F) := by
  refine (ops_wr.after_at 28 (by decide) main_c_0 (by decide) _).trans ?_
  show ((nullary main_c_0 (constantI S_ 32 40000#32) : HloOp τ sig (Elt F))).result _ _ = _
  refine (nullary_result ..).trans ?_
  rfl

theorem st_main_v13 (m : (ℓ : Loc nD τ sig) → Buf (Elt F) ℓ) (c : Dev nD) :
    after (ops (F := F)) (launchContents m c) (Proc.devRef .tc main_v13) = val_main_v13 (F := F) := by
  refine (ops_wr.after_at 29 (by decide) main_v13 (by decide) _).trans ?_
  show ((unary main_c_0 main_v13 (broadcastInDim S1024 ![] bcast_S_S1024 : (⟨S_, .i32⟩ : BufTy).Contents (Elt F) → (⟨S1024, .i32⟩ : BufTy).Contents (Elt F)) : HloOp τ sig (Elt F))).result _ _ = _
  refine (unary_result ..).trans ?_
  rw [ops_wr.after_take 29 main_c_0 (by decide), st_main_c_0 m c]
  rfl

theorem st_main_v14 (m : (ℓ : Loc nD τ sig) → Buf (Elt F) ℓ) (c : Dev nD) :
    after (ops (F := F)) (launchContents m c) (Proc.devRef .tc main_v14) = val_main_v14 (F := F) (m ((c.tc : Thread nD τ).loc main_arg1)) := by
  refine (ops_wr.after_at 30 (by decide) main_v14 (by decide) _).trans ?_
  show ((binary main_arg1 main_v13 main_v14 (cmpi .sge : (⟨S1024, .i32⟩ : BufTy).Contents (Elt F) → (⟨S1024, .i32⟩ : BufTy).Contents (Elt F) → (⟨S1024, .i1⟩ : BufTy).Contents (Elt F)) : HloOp τ sig (Elt F))).result _ _ = _
  refine (binary_result ..).trans ?_
  rw [ops_wr.after_take 30 main_arg1 (by decide), ops_wr.after_arg main_arg1 (by decide), ops_wr.after_take 30 main_v13 (by decide), st_main_v13 m c]
  rfl

theorem st_main_v15 (m : (ℓ : Loc nD τ sig) → Buf (Elt F) ℓ) (c : Dev nD) :
    after (ops (F := F)) (launchContents m c) (Proc.devRef .tc main_v15) = val_main_v15 (F := F) (m ((c.tc : Thread nD τ).loc main_arg1)) := by
  refine (ops_wr.after_at 31 (by decide) main_v15 (by decide) _).trans ?_
  show ((unary main_v14 main_v15 ((extui 32 · natLt_1_32) : (⟨S1024, .i1⟩ : BufTy).Contents (Elt F) → (⟨S1024, .i32⟩ : BufTy).Contents (Elt F)) : HloOp τ sig (Elt F))).result _ _ = _
  refine (unary_result ..).trans ?_
  rw [ops_wr.after_take 31 main_v14 (by decide), st_main_v14 m c]
  rfl

theorem st_main_v16 (m : (ℓ : Loc nD τ sig) → Buf (Elt F) ℓ) (c : Dev nD) :
    after (ops (F := F)) (launchContents m c) (Proc.devRef .tc main_v16) = val_main_v16 (F := F) (m ((c.tc : Thread nD τ).loc main_arg1)) := by
  refine (ops_wr.after_at 32 (by decide) main_v16 (by decide) _).trans ?_
  show ((binary main_v12 main_v15 main_v16 (addi : (⟨S1024, .i32⟩ : BufTy).Contents (Elt F) → (⟨S1024, .i32⟩ : BufTy).Contents (Elt F) → (⟨S1024, .i32⟩ : BufTy).Contents (Elt F)) : HloOp τ sig (Elt F))).result _ _ = _
  refine (binary_result ..).trans ?_
  rw [ops_wr.after_take 32 main_v12 (by decide), st_main_v12 m c, ops_wr.after_take 32 main_v15 (by decide), st_main_v15 m c]
  rfl

theorem st_main_c_1 (m : (ℓ : Loc nD τ sig) → Buf (Elt F) ℓ) (c : Dev nD) :
    after (ops (F := F)) (launchContents m c) (Proc.devRef .tc main_c_1) = val_main_c_1 (F := F) := by
  refine (ops_wr.after_at 33 (by decide) main_c_1 (by decide) _).trans ?_
  show ((nullary main_c_1 (constantI S_ 32 200000#32) : HloOp τ sig (Elt F))).result _ _ = _
  refine (nullary_result ..).trans ?_
  rfl

theorem st_main_v17 (m : (ℓ : Loc nD τ sig) → Buf (Elt F) ℓ) (c : Dev nD) :
    after (ops (F := F)) (launchContents m c) (Proc.devRef .tc main_v17) = val_main_v17 (F := F) := by
  refine (ops_wr.after_at 34 (by decide) main_v17 (by decide) _).trans ?_
  show ((unary main_c_1 main_v17 (broadcastInDim S1024 ![] bcast_S_S1024 : (⟨S_, .i32⟩ : BufTy).Contents (Elt F) → (⟨S1024, .i32⟩ : BufTy).Contents (Elt F)) : HloOp τ sig (Elt F))).result _ _ = _
  refine (unary_result ..).trans ?_
  rw [ops_wr.after_take 34 main_c_1 (by decide), st_main_c_1 m c]
  rfl

theorem st_main_v18 (m : (ℓ : Loc nD τ sig) → Buf (Elt F) ℓ) (c : Dev nD) :
    after (ops (F := F)) (launchContents m c) (Proc.devRef .tc main_v18) = val_main_v18 (F := F) (m ((c.tc : Thread nD τ).loc main_arg1)) := by
  refine (ops_wr.after_at 35 (by decide) main_v18 (by decide) _).trans ?_
  show ((binary main_arg1 main_v17 main_v18 (cmpi .sge : (⟨S1024, .i32⟩ : BufTy).Contents (Elt F) → (⟨S1024, .i32⟩ : BufTy).Contents (Elt F) → (⟨S1024, .i1⟩ : BufTy).Contents (Elt F)) : HloOp τ sig (Elt F))).result _ _ = _
  refine (binary_result ..).trans ?_
  rw [ops_wr.after_take 35 main_arg1 (by decide), ops_wr.after_arg main_arg1 (by decide), ops_wr.after_take 35 main_v17 (by decide), st_main_v17 m c]
  rfl

theorem st_main_v19 (m : (ℓ : Loc nD τ sig) → Buf (Elt F) ℓ) (c : Dev nD) :
    after (ops (F := F)) (launchContents m c) (Proc.devRef .tc main_v19) = val_main_v19 (F := F) (m ((c.tc : Thread nD τ).loc main_arg1)) := by
  refine (ops_wr.after_at 36 (by decide) main_v19 (by decide) _).trans ?_
  show ((unary main_v18 main_v19 ((extui 32 · natLt_1_32) : (⟨S1024, .i1⟩ : BufTy).Contents (Elt F) → (⟨S1024, .i32⟩ : BufTy).Contents (Elt F)) : HloOp τ sig (Elt F))).result _ _ = _
  refine (unary_result ..).trans ?_
  rw [ops_wr.after_take 36 main_v18 (by decide), st_main_v18 m c]
  rfl

theorem st_main_v20 (m : (ℓ : Loc nD τ sig) → Buf (Elt F) ℓ) (c : Dev nD) :
    after (ops (F := F)) (launchContents m c) (Proc.devRef .tc main_v20) = val_main_v20 (F := F) (m ((c.tc : Thread nD τ).loc main_arg1)) := by
  refine (ops_wr.after_at 37 (by decide) main_v20 (by decide) _).trans ?_
  show ((binary main_v16 main_v19 main_v20 (addi : (⟨S1024, .i32⟩ : BufTy).Contents (Elt F) → (⟨S1024, .i32⟩ : BufTy).Contents (Elt F) → (⟨S1024, .i32⟩ : BufTy).Contents (Elt F)) : HloOp τ sig (Elt F))).result _ _ = _
  refine (binary_result ..).trans ?_
  rw [ops_wr.after_take 37 main_v16 (by decide), st_main_v16 m c, ops_wr.after_take 37 main_v19 (by decide), st_main_v19 m c]
  rfl

theorem st_main_c_2 (m : (ℓ : Loc nD τ sig) → Buf (Elt F) ℓ) (c : Dev nD) :
    after (ops (F := F)) (launchContents m c) (Proc.devRef .tc main_c_2) = val_main_c_2 (F := F) := by
  refine (ops_wr.after_at 38 (by decide) main_c_2 (by decide) _).trans ?_
  show ((nullary main_c_2 (constantI S_ 32 0#32) : HloOp τ sig (Elt F))).result _ _ = _
  refine (nullary_result ..).trans ?_
  rfl

theorem st_main_c_3 (m : (ℓ : Loc nD τ sig) → Buf (Elt F) ℓ) (c : Dev nD) :
    after (ops (F := F)) (launchContents m c) (Proc.devRef .tc main_c_3) = val_main_c_3 (F := F) := by
  refine (ops_wr.after_at 39 (by decide) main_c_3 (by decide) _).trans ?_
  show ((nullary main_c_3 (constantI S_ 32 19999#32) : HloOp τ sig (Elt F))).result _ _ = _
  refine (nullary_result ..).trans ?_
  rfl

theorem st_main_call1_v0 (m : (ℓ : Loc nD τ sig) → Buf (Elt F) ℓ) (c : Dev nD) :
    after (ops (F := F)) (launchContents m c) (Proc.devRef .tc main_call1_v0) = val_main_call1_v0 (F := F) := by
  refine (ops_wr.after_at 40 (by decide) main_call1_v0 (by decide) _).trans ?_
  show ((TRef.unary (TRef.of (T := ⟨S_, .i32⟩) main_c_2) (TRef.of (T := ⟨S_, .i32⟩) main_call1_v0) id : HloOp τ sig (Elt F))).result _ _ = _
  exact eq_of_heq (TRef.unary_result_heq _ _ _ _ (val_main_c_2 (F := F))
    (heq_of_eq ((ops_wr.after_take 40 main_c_2 (by decide) _).trans (st_main_c_2 m c))))

theorem st_main_call1_v1 (m : (ℓ : Loc nD τ sig) → Buf (Elt F) ℓ) (c : Dev nD) :
    after (ops (F := F)) (launchContents m c) (Proc.devRef .tc main_call1_v1) = val_main_call1_v1 (F := F) := by
  refine (ops_wr.after_at 41 (by decide) main_call1_v1 (by decide) _).trans ?_
  show ((TRef.unary (TRef.of (T := ⟨S_, .i32⟩) main_call1_v0) (TRef.of (T := ⟨S1024, .i32⟩) main_call1_v1) (broadcastInDim S1024 ![] bcast_S_S1024) : HloOp τ sig (Elt F))).result _ _ = _
  exact eq_of_heq (TRef.unary_result_heq _ _ _ _ (val_main_call1_v0 (F := F))
    (heq_of_eq ((ops_wr.after_take 41 main_call1_v0 (by decide) _).trans (st_main_call1_v0 m c))))

theorem st_main_call1_v2 (m : (ℓ : Loc nD τ sig) → Buf (Elt F) ℓ) (c : Dev nD) :
    after (ops (F := F)) (launchContents m c) (Proc.devRef .tc main_call1_v2) = val_main_call1_v2 (F := F) (m ((c.tc : Thread nD τ).loc main_arg1)) := by
  refine (ops_wr.after_at 42 (by decide) main_call1_v2 (by decide) _).trans ?_
  show ((TRef.binary (TRef.of (T := ⟨S1024, .i32⟩) main_call1_v1) (TRef.of (T := ⟨S1024, .i32⟩) main_arg1) (TRef.of (T := ⟨S1024, .i32⟩) main_call1_v2) maxsi : HloOp τ sig (Elt F))).result _ _ = _
  exact eq_of_heq (TRef.binary_result_heq _ _ _ _ _ (val_main_call1_v1 (F := F)) (m ((c.tc : Thread nD τ).loc main_arg1))
    (heq_of_eq ((ops_wr.after_take 42 main_call1_v1 (by decide) _).trans (st_main_call1_v1 m c)))
    (heq_of_eq ((ops_wr.after_take 42 main_arg1 (by decide) _).trans (ops_wr.after_arg main_arg1 (by decide) _))))

theorem st_main_call1_v3 (m : (ℓ : Loc nD τ sig) → Buf (Elt F) ℓ) (c : Dev nD) :
    after (ops (F := F)) (launchContents m c) (Proc.devRef .tc main_call1_v3) = val_main_call1_v3 (F := F) := by
  refine (ops_wr.after_at 43 (by decide) main_call1_v3 (by decide) _).trans ?_
  show ((TRef.unary (TRef.of (T := ⟨S_, .i32⟩) main_c_3) (TRef.of (T := ⟨S_, .i32⟩) main_call1_v3) id : HloOp τ sig (Elt F))).result _ _ = _
  exact eq_of_heq (TRef.unary_result_heq _ _ _ _ (val_main_c_3 (F := F))
    (heq_of_eq ((ops_wr.after_take 43 main_c_3 (by decide) _).trans (st_main_c_3 m c))))

theorem st_main_call1_v4 (m : (ℓ : Loc nD τ sig) → Buf (Elt F) ℓ) (c : Dev nD) :
    after (ops (F := F)) (launchContents m c) (Proc.devRef .tc main_call1_v4) = val_main_call1_v4 (F := F) := by
  refine (ops_wr.after_at 44 (by decide) main_call1_v4 (by decide) _).trans ?_
  show ((TRef.unary (TRef.of (T := ⟨S_, .i32⟩) main_call1_v3) (TRef.of (T := ⟨S1024, .i32⟩) main_call1_v4) (broadcastInDim S1024 ![] bcast_S_S1024) : HloOp τ sig (Elt F))).result _ _ = _
  exact eq_of_heq (TRef.unary_result_heq _ _ _ _ (val_main_call1_v3 (F := F))
    (heq_of_eq ((ops_wr.after_take 44 main_call1_v3 (by decide) _).trans (st_main_call1_v3 m c))))

theorem st_main_v21 (m : (ℓ : Loc nD τ sig) → Buf (Elt F) ℓ) (c : Dev nD) :
    after (ops (F := F)) (launchContents m c) (Proc.devRef .tc main_v21) = val_main_v21 (F := F) (m ((c.tc : Thread nD τ).loc main_arg1)) := by
  refine (ops_wr.after_at 45 (by decide) main_v21 (by decide) _).trans ?_
  show ((TRef.binary (TRef.of (T := ⟨S1024, .i32⟩) main_call1_v4) (TRef.of (T := ⟨S1024, .i32⟩) main_call1_v2) (TRef.of (T := ⟨S1024, .i32⟩) main_v21) minsi : HloOp τ sig (Elt F))).result _ _ = _
  exact eq_of_heq (TRef.binary_result_heq _ _ _ _ _ (val_main_call1_v4 (F := F)) (val_main_call1_v2 (F := F) (m ((c.tc : Thread nD τ).loc main_arg1)))
    (heq_of_eq ((ops_wr.after_take 45 main_call1_v4 (by decide) _).trans (st_main_call1_v4 m c)))
    (heq_of_eq ((ops_wr.after_take 45 main_call1_v2 (by decide) _).trans (st_main_call1_v2 m c))))

theorem st_main_c_4 (m : (ℓ : Loc nD τ sig) → Buf (Elt F) ℓ) (c : Dev nD) :
    after (ops (F := F)) (launchContents m c) (Proc.devRef .tc main_c_4) = val_main_c_4 (F := F) := by
  refine (ops_wr.after_at 46 (by decide) main_c_4 (by decide) _).trans ?_
  show ((nullary main_c_4 (constantI S_ 32 0#32) : HloOp τ sig (Elt F))).result _ _ = _
  refine (nullary_result ..).trans ?_
  rfl

theorem st_main_v22 (m : (ℓ : Loc nD τ sig) → Buf (Elt F) ℓ) (c : Dev nD) :
    after (ops (F := F)) (launchContents m c) (Proc.devRef .tc main_v22) = val_main_v22 (F := F) := by
  refine (ops_wr.after_at 47 (by decide) main_v22 (by decide) _).trans ?_
  show ((unary main_c_4 main_v22 (broadcastInDim S1024 ![] bcast_S_S1024 : (⟨S_, .i32⟩ : BufTy).Contents (Elt F) → (⟨S1024, .i32⟩ : BufTy).Contents (Elt F)) : HloOp τ sig (Elt F))).result _ _ = _
  refine (unary_result ..).trans ?_
  rw [ops_wr.after_take 47 main_c_4 (by decide), st_main_c_4 m c]
  rfl

end Cert.ReferenceIdeal.Stages

end
-- ==== Proof.Ref.Stages1.lean ====
/- The reference's @main read at its LAST valuation, operations 49 … 96 of 239: what the whole line of operations
   leaves in the reference an operation writes is that operation's stage value (the Read module's `val_<buffer>`) at
   the arguments' launch contents. Every reference is written once, so the last valuation of an operation's result is
   the operation's function of the last valuations of its operands: one lemma per operation, each from its operands'. -/
import proofs.«416365_j66236985639681_1_alg».proof.Proof.Ref.Stages0

set_option maxRecDepth 8192

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.Value Cert.ReferenceIdeal.Read

variable {F : FTy → Type} [FloatOps F]

theorem st_main_v23 (m : (ℓ : Loc nD τ sig) → Buf (Elt F) ℓ) (c : Dev nD) :
    after (ops (F := F)) (launchContents m c) (Proc.devRef .tc main_v23) = val_main_v23 (F := F) := by
  refine (ops_wr.after_at 48 (by decide) main_v23 (by decide) _).trans ?_
  show ((binary main_v0 main_v22 main_v23 (cmpi .slt : (⟨S1024, .i32⟩ : BufTy).Contents (Elt F) → (⟨S1024, .i32⟩ : BufTy).Contents (Elt F) → (⟨S1024, .i1⟩ : BufTy).Contents (Elt F)) : HloOp τ sig (Elt F))).result _ _ = _
  refine (binary_result ..).trans ?_
  rw [ops_wr.after_take 48 main_v0 (by decide), st_main_v0 m c, ops_wr.after_take 48 main_v22 (by decide), st_main_v22 m c]
  rfl

theorem st_main_c_5 (m : (ℓ : Loc nD τ sig) → Buf (Elt F) ℓ) (c : Dev nD) :
    after (ops (F := F)) (launchContents m c) (Proc.devRef .tc main_c_5) = val_main_c_5 (F := F) := by
  refine (ops_wr.after_at 49 (by decide) main_c_5 (by decide) _).trans ?_
  show ((nullary main_c_5 (constantI S_ 32 1024#32) : HloOp τ sig (Elt F))).result _ _ = _
  refine (nullary_result ..).trans ?_
  rfl

theorem st_main_v24 (m : (ℓ : Loc nD τ sig) → Buf (Elt F) ℓ) (c : Dev nD) :
    after (ops (F := F)) (launchContents m c) (Proc.devRef .tc main_v24) = val_main_v24 (F := F) := by
  refine (ops_wr.after_at 50 (by decide) main_v24 (by decide) _).trans ?_
  show ((unary main_c_5 main_v24 (broadcastInDim S1024 ![] bcast_S_S1024 : (⟨S_, .i32⟩ : BufTy).Contents (Elt F) → (⟨S1024, .i32⟩ : BufTy).Contents (Elt F)) : HloOp τ sig (Elt F))).result _ _ = _
  refine (unary_result ..).trans ?_
  rw [ops_wr.after_take 50 main_c_5 (by decide), st_main_c_5 m c]
  rfl

theorem st_main_v25 (m : (ℓ : Loc nD τ sig) → Buf (Elt F) ℓ) (c : Dev nD) :
    after (ops (F := F)) (launchContents m c) (Proc.devRef .tc main_v25) = val_main_v25 (F := F) := by
  refine (ops_wr.after_at 51 (by decide) main_v25 (by decide) _).trans ?_
  show ((binary main_v0 main_v24 main_v25 (addi : (⟨S1024, .i32⟩ : BufTy).Contents (Elt F) → (⟨S1024, .i32⟩ : BufTy).Contents (Elt F) → (⟨S1024, .i32⟩ : BufTy).Contents (Elt F)) : HloOp τ sig (Elt F))).result _ _ = _
  refine (binary_result ..).trans ?_
  rw [ops_wr.after_take 51 main_v0 (by decide), st_main_v0 m c, ops_wr.after_take 51 main_v24 (by decide), st_main_v24 m c]
  rfl

theorem st_main_v26 (m : (ℓ : Loc nD τ sig) → Buf (Elt F) ℓ) (c : Dev nD) :
    after (ops (F := F)) (launchContents m c) (Proc.devRef .tc main_v26) = val_main_v26 (F := F) := by
  refine (ops_wr.after_at 52 (by decide) main_v26 (by decide) _).trans ?_
  show ((ternary main_v23 main_v25 main_v0 main_v26 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) : HloOp τ sig (Elt F))).result _ _ = _
  refine (ternary_result ..).trans ?_
  rw [ops_wr.after_take 52 main_v23 (by decide), st_main_v23 m c, ops_wr.after_take 52 main_v25 (by decide), st_main_v25 m c, ops_wr.after_take 52 main_v0 (by decide), st_main_v0 m c]
  rfl

theorem st_main_c_6 (m : (ℓ : Loc nD τ sig) → Buf (Elt F) ℓ) (c : Dev nD) :
    after (ops (F := F)) (launchContents m c) (Proc.devRef .tc main_c_6) = val_main_c_6 (F := F) := by
  refine (ops_wr.after_at 53 (by decide) main_c_6 (by decide) _).trans ?_
  show ((nullary main_c_6 (constantI S_ 32 0#32) : HloOp τ sig (Elt F))).result _ _ = _
  refine (nullary_result ..).trans ?_
  rfl

theorem st_main_v27 (m : (ℓ : Loc nD τ sig) → Buf (Elt F) ℓ) (c : Dev nD) :
    after (ops (F := F)) (launchContents m c) (Proc.devRef .tc main_v27) = val_main_v27 (F := F) := by
  refine (ops_wr.after_at 54 (by decide) main_v27 (by decide) _).trans ?_
  show ((unary main_c_6 main_v27 (broadcastInDim S1024 ![] bcast_S_S1024 : (⟨S_, .i32⟩ : BufTy).Contents (Elt F) → (⟨S1024, .i32⟩ : BufTy).Contents (Elt F)) : HloOp τ sig (Elt F))).result _ _ = _
  refine (unary_result ..).trans ?_
  rw [ops_wr.after_take 54 main_c_6 (by decide), st_main_c_6 m c]
  rfl

theorem st_main_v28 (m : (ℓ : Loc nD τ sig) → Buf (Elt F) ℓ) (c : Dev nD) :
    after (ops (F := F)) (launchContents m c) (Proc.devRef .tc main_v28) = val_main_v28 (F := F) (m ((c.tc : Thread nD τ).loc main_arg1)) := by
  refine (ops_wr.after_at 55 (by decide) main_v28 (by decide) _).trans ?_
  show ((binary main_v21 main_v27 main_v28 (cmpi .slt : (⟨S1024, .i32⟩ : BufTy).Contents (Elt F) → (⟨S1024, .i32⟩ : BufTy).Contents (Elt F) → (⟨S1024, .i1⟩ : BufTy).Contents (Elt F)) : HloOp τ sig (Elt F))).result _ _ = _
  refine (binary_result ..).trans ?_
  rw [ops_wr.after_take 55 main_v21 (by decide), st_main_v21 m c, ops_wr.after_take 55 main_v27 (by decide), st_main_v27 m c]
  rfl

theorem st_main_c_7 (m : (ℓ : Loc nD τ sig) → Buf (Elt F) ℓ) (c : Dev nD) :
    after (ops (F := F)) (launchContents m c) (Proc.devRef .tc main_c_7) = val_main_c_7 (F := F) := by
  refine (ops_wr.after_at 56 (by decide) main_c_7 (by decide) _).trans ?_
  show ((nullary main_c_7 (constantI S_ 32 20003#32) : HloOp τ sig (Elt F))).result _ _ = _
  refine (nullary_result ..).trans ?_
  rfl

theorem st_main_v29 (m : (ℓ : Loc nD τ sig) → Buf (Elt F) ℓ) (c : Dev nD) :
    after (ops (F := F)) (launchContents m c) (Proc.devRef .tc main_v29) = val_main_v29 (F := F) := by
  refine (ops_wr.after_at 57 (by decide) main_v29 (by decide) _).trans ?_
  show ((unary main_c_7 main_v29 (broadcastInDim S1024 ![] bcast_S_S1024 : (⟨S_, .i32⟩ : BufTy).Contents (Elt F) → (⟨S1024, .i32⟩ : BufTy).Contents (Elt F)) : HloOp τ sig (Elt F))).result _ _ = _
  refine (unary_result ..).trans ?_
  rw [ops_wr.after_take 57 main_c_7 (by decide), st_main_c_7 m c]
  rfl

theorem st_main_v30 (m : (ℓ : Loc nD τ sig) → Buf (Elt F) ℓ) (c : Dev nD) :
    after (ops (F := F)) (launchContents m c) (Proc.devRef .tc main_v30) = val_main_v30 (F := F) (m ((c.tc : Thread nD τ).loc main_arg1)) := by
  refine (ops_wr.after_at 58 (by decide) main_v30 (by decide) _).trans ?_
  show ((binary main_v21 main_v29 main_v30 (addi : (⟨S1024, .i32⟩ : BufTy).Contents (Elt F) → (⟨S1024, .i32⟩ : BufTy).Contents (Elt F) → (⟨S1024, .i32⟩ : BufTy).Contents (Elt F)) : HloOp τ sig (Elt F))).result _ _ = _
  refine (binary_result ..).trans ?_
  rw [ops_wr.after_take 58 main_v21 (by decide), st_main_v21 m c, ops_wr.after_take 58 main_v29 (by decide), st_main_v29 m c]
  rfl

theorem st_main_v31 (m : (ℓ : Loc nD τ sig) → Buf (Elt F) ℓ) (c : Dev nD) :
    after (ops (F := F)) (launchContents m c) (Proc.devRef .tc main_v31) = val_main_v31 (F := F) (m ((c.tc : Thread nD τ).loc main_arg1)) := by
  refine (ops_wr.after_at 59 (by decide) main_v31 (by decide) _).trans ?_
  show ((ternary main_v28 main_v30 main_v21 main_v31 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) : HloOp τ sig (Elt F))).result _ _ = _
  refine (ternary_result ..).trans ?_
  rw [ops_wr.after_take 59 main_v28 (by decide), st_main_v28 m c, ops_wr.after_take 59 main_v30 (by decide), st_main_v30 m c, ops_wr.after_take 59 main_v21 (by decide), st_main_v21 m c]
  rfl

theorem st_main_v32 (m : (ℓ : Loc nD τ sig) → Buf (Elt F) ℓ) (c : Dev nD) :
    after (ops (F := F)) (launchContents m c) (Proc.devRef .tc main_v32) = val_main_v32 (F := F) := by
  refine (ops_wr.after_at 60 (by decide) main_v32 (by decide) _).trans ?_
  show ((unary main_v26 main_v32 (broadcastInDim S1024x1 ![0] bcast_S1024_S1024x1_0 : (⟨S1024, .i32⟩ : BufTy).Contents (Elt F) → (⟨S1024x1, .i32⟩ : BufTy).Contents (Elt F)) : HloOp τ sig (Elt F))).result _ _ = _
  refine (unary_result ..).trans ?_
  rw [ops_wr.after_take 60 main_v26 (by decide), st_main_v26 m c]
  rfl

theorem st_main_v33 (m : (ℓ : Loc nD τ sig) → Buf (Elt F) ℓ) (c : Dev nD) :
    after (ops (F := F)) (launchContents m c) (Proc.devRef .tc main_v33) = val_main_v33 (F := F) (m ((c.tc : Thread nD τ).loc main_arg1)) := by
  refine (ops_wr.after_at 61 (by decide) main_v33 (by decide) _).trans ?_
  show ((unary main_v31 main_v33 (broadcastInDim S1024x1 ![0] bcast_S1024_S1024x1_0 : (⟨S1024, .i32⟩ : BufTy).Contents (Elt F) → (⟨S1024x1, .i32⟩ : BufTy).Contents (Elt F)) : HloOp τ sig (Elt F))).result _ _ = _
  refine (unary_result ..).trans ?_
  rw [ops_wr.after_take 61 main_v31 (by decide), st_main_v31 m c]
  rfl

theorem st_main_v34 (m : (ℓ : Loc nD τ sig) → Buf (Elt F) ℓ) (c : Dev nD) :
    after (ops (F := F)) (launchContents m c) (Proc.devRef .tc main_v34) = val_main_v34 (F := F) (m ((c.tc : Thread nD τ).loc main_arg1)) := by
  refine (ops_wr.after_at 62 (by decide) main_v34 (by decide) _).trans ?_
  show ((binary main_v32 main_v33 main_v34 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F)) : HloOp τ sig (Elt F))).result _ _ = _
  refine (binary_result ..).trans ?_
  rw [ops_wr.after_take 62 main_v32 (by decide), st_main_v32 m c, ops_wr.after_take 62 main_v33 (by decide), st_main_v33 m c]
  rfl

theorem st_main_v35 (m : (ℓ : Loc nD τ sig) → Buf (Elt F) ℓ) (c : Dev nD) :
    after (ops (F := F)) (launchContents m c) (Proc.devRef .tc main_v35) = val_main_v35 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)) := by
  refine (ops_wr.after_at 63 (by decide) main_v35 (by decide) _).trans ?_
  show ((binary main_v9 main_v34 main_v35 ((fun x i => Host.gather gather_S1024x20003_S1024x2_S1024_n_01_n_n_01_1_11 x i) : (⟨S1024x20003, .f32⟩ : BufTy).Contents (Elt F) → (⟨S1024x2, .i32⟩ : BufTy).Contents (Elt F) → (⟨S1024, .f32⟩ : BufTy).Contents (Elt F)) : HloOp τ sig (Elt F))).result _ _ = _
  refine (binary_result ..).trans ?_
  rw [ops_wr.after_take 63 main_v9 (by decide), st_main_v9 m c, ops_wr.after_take 63 main_v34 (by decide), st_main_v34 m c]
  rfl

theorem st_main_v36 (m : (ℓ : Loc nD τ sig) → Buf (Elt F) ℓ) (c : Dev nD) :
    after (ops (F := F)) (launchContents m c) (Proc.devRef .tc main_v36) = val_main_v36 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)) := by
  refine (ops_wr.after_at 64 (by decide) main_v36 (by decide) _).trans ?_
  show ((unary main_v35 main_v36 (Host.negf : (⟨S1024, .f32⟩ : BufTy).Contents (Elt F) → (⟨S1024, .f32⟩ : BufTy).Contents (Elt F)) : HloOp τ sig (Elt F))).result _ _ = _
  refine (unary_result ..).trans ?_
  rw [ops_wr.after_take 64 main_v35 (by decide), st_main_v35 m c]
  rfl

theorem st_main_v37 (m : (ℓ : Loc nD τ sig) → Buf (Elt F) ℓ) (c : Dev nD) :
    after (ops (F := F)) (launchContents m c) (Proc.devRef .tc main_v37) = val_main_v37 (F := F) (m ((c.tc : Thread nD τ).loc main_arg0)) (m ((c.tc : Thread nD τ).loc main_arg7)) := by
  refine (ops_wr.after_at 65 (by decide) main_v37 (by decide) _).trans ?_
  show ((binary main_arg0 main_arg7 main_v37 ((fun l r => Host.dotGeneral dot_S1024x512_S512x128_S1024x128_1_0_0_1_n_n none l r) : (⟨S1024x512, .f32⟩ : BufTy).Contents (Elt F) → (⟨S512x128, .f32⟩ : BufTy).Contents (Elt F) → (⟨S1024x128, .f32⟩ : BufTy).Contents (Elt F)) : HloOp τ sig (Elt F))).result _ _ = _
  refine (binary_result ..).trans ?_
  rw [ops_wr.after_take 65 main_arg0 (by decide), ops_wr.after_arg main_arg0 (by decide), ops_wr.after_take 65 main_arg7 (by decide), ops_wr.after_arg main_arg7 (by decide)]
  rfl

theorem st_main_v38 (m : (ℓ : Loc nD τ sig) → Buf (Elt F) ℓ) (c : Dev nD) :
    after (ops (F := F)) (launchContents m c) (Proc.devRef .tc main_v38) = val_main_v38 (F := F) (m ((c.tc : Thread nD τ).loc main_arg5)) := by
  refine (ops_wr.after_at 66 (by decide) main_v38 (by decide) _).trans ?_
  show ((unary main_arg5 main_v38 ((transpose S128x20000 [1, 0] · transposes_S20000x128_S128x20000_1_0) : (⟨S20000x128, .f32⟩ : BufTy).Contents (Elt F) → (⟨S128x20000, .f32⟩ : BufTy).Contents (Elt F)) : HloOp τ sig (Elt F))).result _ _ = _
  refine (unary_result ..).trans ?_
  rw [ops_wr.after_take 66 main_arg5 (by decide), ops_wr.after_arg main_arg5 (by decide)]
  rfl

theorem st_main_v39 (m : (ℓ : Loc nD τ sig) → Buf (Elt F) ℓ) (c : Dev nD) :
    after (ops (F := F)) (launchContents m c) (Proc.devRef .tc main_v39) = val_main_v39 (F := F) (m ((c.tc : Thread nD τ).loc main_arg0)) (m ((c.tc : Thread nD τ).loc main_arg5)) (m ((c.tc : Thread nD τ).loc main_arg7)) := by
  refine (ops_wr.after_at 67 (by decide) main_v39 (by decide) _).trans ?_
  show ((binary main_v37 main_v38 main_v39 ((fun l r => Host.dotGeneral dot_S1024x128_S128x20000_S1024x20000_1_0_0_1_n_n none l r) : (⟨S1024x128, .f32⟩ : BufTy).Contents (Elt F) → (⟨S128x20000, .f32⟩ : BufTy).Contents (Elt F) → (⟨S1024x20000, .f32⟩ : BufTy).Contents (Elt F)) : HloOp τ sig (Elt F))).result _ _ = _
  refine (binary_result ..).trans ?_
  rw [ops_wr.after_take 67 main_v37 (by decide), st_main_v37 m c, ops_wr.after_take 67 main_v38 (by decide), st_main_v38 m c]
  rfl

theorem st_main_v40 (m : (ℓ : Loc nD τ sig) → Buf (Elt F) ℓ) (c : Dev nD) :
    after (ops (F := F)) (launchContents m c) (Proc.devRef .tc main_v40) = val_main_v40 (F := F) (m ((c.tc : Thread nD τ).loc main_arg6)) := by
  refine (ops_wr.after_at 68 (by decide) main_v40 (by decide) _).trans ?_
  show ((unary main_arg6 main_v40 (broadcastInDim S1x20000 ![1] bcast_S20000_S1x20000_1 : (⟨S20000, .f32⟩ : BufTy).Contents (Elt F) → (⟨S1x20000, .f32⟩ : BufTy).Contents (Elt F)) : HloOp τ sig (Elt F))).result _ _ = _
  refine (unary_result ..).trans ?_
  rw [ops_wr.after_take 68 main_arg6 (by decide), ops_wr.after_arg main_arg6 (by decide)]
  rfl

theorem st_main_v41 (m : (ℓ : Loc nD τ sig) → Buf (Elt F) ℓ) (c : Dev nD) :
    after (ops (F := F)) (launchContents m c) (Proc.devRef .tc main_v41) = val_main_v41 (F := F) (m ((c.tc : Thread nD τ).loc main_arg6)) := by
  refine (ops_wr.after_at 69 (by decide) main_v41 (by decide) _).trans ?_
  show ((unary main_v40 main_v41 (broadcastInDim S1024x20000 ![0, 1] bcast_S1x20000_S1024x20000_0_1 : (⟨S1x20000, .f32⟩ : BufTy).Contents (Elt F) → (⟨S1024x20000, .f32⟩ : BufTy).Contents (Elt F)) : HloOp τ sig (Elt F))).result _ _ = _
  refine (unary_result ..).trans ?_
  rw [ops_wr.after_take 69 main_v40 (by decide), st_main_v40 m c]
  rfl

theorem st_main_v42 (m : (ℓ : Loc nD τ sig) → Buf (Elt F) ℓ) (c : Dev nD) :
    after (ops (F := F)) (launchContents m c) (Proc.devRef .tc main_v42) = val_main_v42 (F := F) (m ((c.tc : Thread nD τ).loc main_arg0)) (m ((c.tc : Thread nD τ).loc main_arg5)) (m ((c.tc : Thread nD τ).loc main_arg6)) (m ((c.tc : Thread nD τ).loc main_arg7)) := by
  refine (ops_wr.after_at 70 (by decide) main_v42 (by decide) _).trans ?_
  show ((binary main_v39 main_v41 main_v42 (addf : (⟨S1024x20000, .f32⟩ : BufTy).Contents (Elt F) → (⟨S1024x20000, .f32⟩ : BufTy).Contents (Elt F) → (⟨S1024x20000, .f32⟩ : BufTy).Contents (Elt F)) : HloOp τ sig (Elt F))).result _ _ = _
  refine (binary_result ..).trans ?_
  rw [ops_wr.after_take 70 main_v39 (by decide), st_main_v39 m c, ops_wr.after_take 70 main_v41 (by decide), st_main_v41 m c]
  rfl

theorem st_main_call2_cst (m : (ℓ : Loc nD τ sig) → Buf (Elt F) ℓ) (c : Dev nD) :
    after (ops (F := F)) (launchContents m c) (Proc.devRef .tc main_call2_cst) = val_main_call2_cst (F := F) := by
  refine (ops_wr.after_at 71 (by decide) main_call2_cst (by decide) _).trans ?_
  show ((TRef.nullary (TRef.of (T := ⟨S_, .f32⟩) main_call2_cst) (constant S_ .f32 0xFF800000#32) : HloOp τ sig (Elt F))).result _ _ = _
  exact eq_of_heq (TRef.nullary_result_heq _ _ _)

theorem st_main_call2_v0 (m : (ℓ : Loc nD τ sig) → Buf (Elt F) ℓ) (c : Dev nD) :
    after (ops (F := F)) (launchContents m c) (Proc.devRef .tc main_call2_v0) = val_main_call2_v0 (F := F) (m ((c.tc : Thread nD τ).loc main_arg0)) (m ((c.tc : Thread nD τ).loc main_arg5)) (m ((c.tc : Thread nD τ).loc main_arg6)) (m ((c.tc : Thread nD τ).loc main_arg7)) := by
  refine (ops_wr.after_at 72 (by decide) main_call2_v0 (by decide) _).trans ?_
  show ((TRef.binary (TRef.of (T := ⟨S1024x20000, .f32⟩) main_v42) (TRef.of (T := ⟨S_, .f32⟩) main_call2_cst) (TRef.of (T := ⟨S1024, .f32⟩) main_call2_v0) (fun x v => Host.reduce FloatOps.maximumf x v reducesTo_S1024x20000_S1024_d1 h_S_) : HloOp τ sig (Elt F))).result _ _ = _
  exact eq_of_heq (TRef.binary_result_heq _ _ _ _ _ (val_main_v42 (F := F) (m ((c.tc : Thread nD τ).loc main_arg0)) (m ((c.tc : Thread nD τ).loc main_arg5)) (m ((c.tc : Thread nD τ).loc main_arg6)) (m ((c.tc : Thread nD τ).loc main_arg7))) (val_main_call2_cst (F := F))
    (heq_of_eq ((ops_wr.after_take 72 main_v42 (by decide) _).trans (st_main_v42 m c)))
    (heq_of_eq ((ops_wr.after_take 72 main_call2_cst (by decide) _).trans (st_main_call2_cst m c))))

theorem st_main_call2_cst_0 (m : (ℓ : Loc nD τ sig) → Buf (Elt F) ℓ) (c : Dev nD) :
    after (ops (F := F)) (launchContents m c) (Proc.devRef .tc main_call2_cst_0) = val_main_call2_cst_0 (F := F) := by
  refine (ops_wr.after_at 73 (by decide) main_call2_cst_0 (by decide) _).trans ?_
  show ((TRef.nullary (TRef.of (T := ⟨S_, .f32⟩) main_call2_cst_0) (constant S_ .f32 0xFF800000#32) : HloOp τ sig (Elt F))).result _ _ = _
  exact eq_of_heq (TRef.nullary_result_heq _ _ _)

theorem st_main_call2_v1 (m : (ℓ : Loc nD τ sig) → Buf (Elt F) ℓ) (c : Dev nD) :
    after (ops (F := F)) (launchContents m c) (Proc.devRef .tc main_call2_v1) = val_main_call2_v1 (F := F) := by
  refine (ops_wr.after_at 74 (by decide) main_call2_v1 (by decide) _).trans ?_
  show ((TRef.unary (TRef.of (T := ⟨S_, .f32⟩) main_call2_cst_0) (TRef.of (T := ⟨S1024, .f32⟩) main_call2_v1) (broadcastInDim S1024 ![] bcast_S_S1024) : HloOp τ sig (Elt F))).result _ _ = _
  exact eq_of_heq (TRef.unary_result_heq _ _ _ _ (val_main_call2_cst_0 (F := F))
    (heq_of_eq ((ops_wr.after_take 74 main_call2_cst_0 (by decide) _).trans (st_main_call2_cst_0 m c))))

theorem st_main_call2_v2 (m : (ℓ : Loc nD τ sig) → Buf (Elt F) ℓ) (c : Dev nD) :
    after (ops (F := F)) (launchContents m c) (Proc.devRef .tc main_call2_v2) = val_main_call2_v2 (F := F) (m ((c.tc : Thread nD τ).loc main_arg0)) (m ((c.tc : Thread nD τ).loc main_arg5)) (m ((c.tc : Thread nD τ).loc main_arg6)) (m ((c.tc : Thread nD τ).loc main_arg7)) := by
  refine (ops_wr.after_at 75 (by decide) main_call2_v2 (by decide) _).trans ?_
  show ((TRef.binary (TRef.of (T := ⟨S1024, .f32⟩) main_call2_v1) (TRef.of (T := ⟨S1024, .f32⟩) main_call2_v0) (TRef.of (T := ⟨S1024, .f32⟩) main_call2_v2) maximumf : HloOp τ sig (Elt F))).result _ _ = _
  exact eq_of_heq (TRef.binary_result_heq _ _ _ _ _ (val_main_call2_v1 (F := F)) (val_main_call2_v0 (F := F) (m ((c.tc : Thread nD τ).loc main_arg0)) (m ((c.tc : Thread nD τ).loc main_arg5)) (m ((c.tc : Thread nD τ).loc main_arg6)) (m ((c.tc : Thread nD τ).loc main_arg7)))
    (heq_of_eq ((ops_wr.after_take 75 main_call2_v1 (by decide) _).trans (st_main_call2_v1 m c)))
    (heq_of_eq ((ops_wr.after_take 75 main_call2_v0 (by decide) _).trans (st_main_call2_v0 m c))))

theorem st_main_call2_v3 (m : (ℓ : Loc nD τ sig) → Buf (Elt F) ℓ) (c : Dev nD) :
    after (ops (F := F)) (launchContents m c) (Proc.devRef .tc main_call2_v3) = val_main_call2_v3 (F := F) (m ((c.tc : Thread nD τ).loc main_arg0)) (m ((c.tc : Thread nD τ).loc main_arg5)) (m ((c.tc : Thread nD τ).loc main_arg6)) (m ((c.tc : Thread nD τ).loc main_arg7)) := by
  refine (ops_wr.after_at 76 (by decide) main_call2_v3 (by decide) _).trans ?_
  show ((TRef.unary (TRef.of (T := ⟨S1024, .f32⟩) main_call2_v2) (TRef.of (T := ⟨S1024x1, .f32⟩) main_call2_v3) (broadcastInDim S1024x1 ![0] bcast_S1024_S1024x1_0) : HloOp τ sig (Elt F))).result _ _ = _
  exact eq_of_heq (TRef.unary_result_heq _ _ _ _ (val_main_call2_v2 (F := F) (m ((c.tc : Thread nD τ).loc main_arg0)) (m ((c.tc : Thread nD τ).loc main_arg5)) (m ((c.tc : Thread nD τ).loc main_arg6)) (m ((c.tc : Thread nD τ).loc main_arg7)))
    (heq_of_eq ((ops_wr.after_take 76 main_call2_v2 (by decide) _).trans (st_main_call2_v2 m c))))

theorem st_main_call2_v4 (m : (ℓ : Loc nD τ sig) → Buf (Elt F) ℓ) (c : Dev nD) :
    after (ops (F := F)) (launchContents m c) (Proc.devRef .tc main_call2_v4) = val_main_call2_v4 (F := F) (m ((c.tc : Thread nD τ).loc main_arg0)) (m ((c.tc : Thread nD τ).loc main_arg5)) (m ((c.tc : Thread nD τ).loc main_arg6)) (m ((c.tc : Thread nD τ).loc main_arg7)) := by
  refine (ops_wr.after_at 77 (by decide) main_call2_v4 (by decide) _).trans ?_
  show ((TRef.unary (TRef.of (T := ⟨S1024x1, .f32⟩) main_call2_v3) (TRef.of (T := ⟨S1024x20000, .f32⟩) main_call2_v4) (broadcastInDim S1024x20000 ![0, 1] bcast_S1024x1_S1024x20000_0_1) : HloOp τ sig (Elt F))).result _ _ = _
  exact eq_of_heq (TRef.unary_result_heq _ _ _ _ (val_main_call2_v3 (F := F) (m ((c.tc : Thread nD τ).loc main_arg0)) (m ((c.tc : Thread nD τ).loc main_arg5)) (m ((c.tc : Thread nD τ).loc main_arg6)) (m ((c.tc : Thread nD τ).loc main_arg7)))
    (heq_of_eq ((ops_wr.after_take 77 main_call2_v3 (by decide) _).trans (st_main_call2_v3 m c))))

theorem st_main_call2_v5 (m : (ℓ : Loc nD τ sig) → Buf (Elt F) ℓ) (c : Dev nD) :
    after (ops (F := F)) (launchContents m c) (Proc.devRef .tc main_call2_v5) = val_main_call2_v5 (F := F) (m ((c.tc : Thread nD τ).loc main_arg0)) (m ((c.tc : Thread nD τ).loc main_arg5)) (m ((c.tc : Thread nD τ).loc main_arg6)) (m ((c.tc : Thread nD τ).loc main_arg7)) := by
  refine (ops_wr.after_at 78 (by decide) main_call2_v5 (by decide) _).trans ?_
  show ((TRef.binary (TRef.of (T := ⟨S1024x20000, .f32⟩) main_v42) (TRef.of (T := ⟨S1024x20000, .f32⟩) main_call2_v4) (TRef.of (T := ⟨S1024x20000, .f32⟩) main_call2_v5) subf : HloOp τ sig (Elt F))).result _ _ = _
  exact eq_of_heq (TRef.binary_result_heq _ _ _ _ _ (val_main_v42 (F := F) (m ((c.tc : Thread nD τ).loc main_arg0)) (m ((c.tc : Thread nD τ).loc main_arg5)) (m ((c.tc : Thread nD τ).loc main_arg6)) (m ((c.tc : Thread nD τ).loc main_arg7))) (val_main_call2_v4 (F := F) (m ((c.tc : Thread nD τ).loc main_arg0)) (m ((c.tc : Thread nD τ).loc main_arg5)) (m ((c.tc : Thread nD τ).loc main_arg6)) (m ((c.tc : Thread nD τ).loc main_arg7)))
    (heq_of_eq ((ops_wr.after_take 78 main_v42 (by decide) _).trans (st_main_v42 m c)))
    (heq_of_eq ((ops_wr.after_take 78 main_call2_v4 (by decide) _).trans (st_main_call2_v4 m c))))

theorem st_main_call2_v6 (m : (ℓ : Loc nD τ sig) → Buf (Elt F) ℓ) (c : Dev nD) :
    after (ops (F := F)) (launchContents m c) (Proc.devRef .tc main_call2_v6) = val_main_call2_v6 (F := F) (m ((c.tc : Thread nD τ).loc main_arg0)) (m ((c.tc : Thread nD τ).loc main_arg5)) (m ((c.tc : Thread nD τ).loc main_arg6)) (m ((c.tc : Thread nD τ).loc main_arg7)) := by
  refine (ops_wr.after_at 79 (by decide) main_call2_v6 (by decide) _).trans ?_
  show ((TRef.unary (TRef.of (T := ⟨S1024x20000, .f32⟩) main_call2_v5) (TRef.of (T := ⟨S1024x20000, .f32⟩) main_call2_v6) Host.exp : HloOp τ sig (Elt F))).result _ _ = _
  exact eq_of_heq (TRef.unary_result_heq _ _ _ _ (val_main_call2_v5 (F := F) (m ((c.tc : Thread nD τ).loc main_arg0)) (m ((c.tc : Thread nD τ).loc main_arg5)) (m ((c.tc : Thread nD τ).loc main_arg6)) (m ((c.tc : Thread nD τ).loc main_arg7)))
    (heq_of_eq ((ops_wr.after_take 79 main_call2_v5 (by decide) _).trans (st_main_call2_v5 m c))))

theorem st_main_call2_cst_1 (m : (ℓ : Loc nD τ sig) → Buf (Elt F) ℓ) (c : Dev nD) :
    after (ops (F := F)) (launchContents m c) (Proc.devRef .tc main_call2_cst_1) = val_main_call2_cst_1 (F := F) := by
  refine (ops_wr.after_at 80 (by decide) main_call2_cst_1 (by decide) _).trans ?_
  show ((TRef.nullary (TRef.of (T := ⟨S_, .f32⟩) main_call2_cst_1) (constant S_ .f32 0x00000000#32) : HloOp τ sig (Elt F))).result _ _ = _
  exact eq_of_heq (TRef.nullary_result_heq _ _ _)

theorem st_main_call2_v7 (m : (ℓ : Loc nD τ sig) → Buf (Elt F) ℓ) (c : Dev nD) :
    after (ops (F := F)) (launchContents m c) (Proc.devRef .tc main_call2_v7) = val_main_call2_v7 (F := F) (m ((c.tc : Thread nD τ).loc main_arg0)) (m ((c.tc : Thread nD τ).loc main_arg5)) (m ((c.tc : Thread nD τ).loc main_arg6)) (m ((c.tc : Thread nD τ).loc main_arg7)) := by
  refine (ops_wr.after_at 81 (by decide) main_call2_v7 (by decide) _).trans ?_
  show ((TRef.binary (TRef.of (T := ⟨S1024x20000, .f32⟩) main_call2_v6) (TRef.of (T := ⟨S_, .f32⟩) main_call2_cst_1) (TRef.of (T := ⟨S1024, .f32⟩) main_call2_v7) (fun x v => Host.reduceAdd x v reducesTo_S1024x20000_S1024_d1 h_S_) : HloOp τ sig (Elt F))).result _ _ = _
  exact eq_of_heq (TRef.binary_result_heq _ _ _ _ _ (val_main_call2_v6 (F := F) (m ((c.tc : Thread nD τ).loc main_arg0)) (m ((c.tc : Thread nD τ).loc main_arg5)) (m ((c.tc : Thread nD τ).loc main_arg6)) (m ((c.tc : Thread nD τ).loc main_arg7))) (val_main_call2_cst_1 (F := F))
    (heq_of_eq ((ops_wr.after_take 81 main_call2_v6 (by decide) _).trans (st_main_call2_v6 m c)))
    (heq_of_eq ((ops_wr.after_take 81 main_call2_cst_1 (by decide) _).trans (st_main_call2_cst_1 m c))))

theorem st_main_call2_v8 (m : (ℓ : Loc nD τ sig) → Buf (Elt F) ℓ) (c : Dev nD) :
    after (ops (F := F)) (launchContents m c) (Proc.devRef .tc main_call2_v8) = val_main_call2_v8 (F := F) (m ((c.tc : Thread nD τ).loc main_arg0)) (m ((c.tc : Thread nD τ).loc main_arg5)) (m ((c.tc : Thread nD τ).loc main_arg6)) (m ((c.tc : Thread nD τ).loc main_arg7)) := by
  refine (ops_wr.after_at 82 (by decide) main_call2_v8 (by decide) _).trans ?_
  show ((TRef.unary (TRef.of (T := ⟨S1024, .f32⟩) main_call2_v7) (TRef.of (T := ⟨S1024x1, .f32⟩) main_call2_v8) (broadcastInDim S1024x1 ![0] bcast_S1024_S1024x1_0) : HloOp τ sig (Elt F))).result _ _ = _
  exact eq_of_heq (TRef.unary_result_heq _ _ _ _ (val_main_call2_v7 (F := F) (m ((c.tc : Thread nD τ).loc main_arg0)) (m ((c.tc : Thread nD τ).loc main_arg5)) (m ((c.tc : Thread nD τ).loc main_arg6)) (m ((c.tc : Thread nD τ).loc main_arg7)))
    (heq_of_eq ((ops_wr.after_take 82 main_call2_v7 (by decide) _).trans (st_main_call2_v7 m c))))

theorem st_main_call2_v9 (m : (ℓ : Loc nD τ sig) → Buf (Elt F) ℓ) (c : Dev nD) :
    after (ops (F := F)) (launchContents m c) (Proc.devRef .tc main_call2_v9) = val_main_call2_v9 (F := F) (m ((c.tc : Thread nD τ).loc main_arg0)) (m ((c.tc : Thread nD τ).loc main_arg5)) (m ((c.tc : Thread nD τ).loc main_arg6)) (m ((c.tc : Thread nD τ).loc main_arg7)) := by
  refine (ops_wr.after_at 83 (by decide) main_call2_v9 (by decide) _).trans ?_
  show ((TRef.unary (TRef.of (T := ⟨S1024x1, .f32⟩) main_call2_v8) (TRef.of (T := ⟨S1024x1, .f32⟩) main_call2_v9) Host.log : HloOp τ sig (Elt F))).result _ _ = _
  exact eq_of_heq (TRef.unary_result_heq _ _ _ _ (val_main_call2_v8 (F := F) (m ((c.tc : Thread nD τ).loc main_arg0)) (m ((c.tc : Thread nD τ).loc main_arg5)) (m ((c.tc : Thread nD τ).loc main_arg6)) (m ((c.tc : Thread nD τ).loc main_arg7)))
    (heq_of_eq ((ops_wr.after_take 83 main_call2_v8 (by decide) _).trans (st_main_call2_v8 m c))))

theorem st_main_call2_v10 (m : (ℓ : Loc nD τ sig) → Buf (Elt F) ℓ) (c : Dev nD) :
    after (ops (F := F)) (launchContents m c) (Proc.devRef .tc main_call2_v10) = val_main_call2_v10 (F := F) (m ((c.tc : Thread nD τ).loc main_arg0)) (m ((c.tc : Thread nD τ).loc main_arg5)) (m ((c.tc : Thread nD τ).loc main_arg6)) (m ((c.tc : Thread nD τ).loc main_arg7)) := by
  refine (ops_wr.after_at 84 (by decide) main_call2_v10 (by decide) _).trans ?_
  show ((TRef.unary (TRef.of (T := ⟨S1024x1, .f32⟩) main_call2_v9) (TRef.of (T := ⟨S1024x20000, .f32⟩) main_call2_v10) (broadcastInDim S1024x20000 ![0, 1] bcast_S1024x1_S1024x20000_0_1) : HloOp τ sig (Elt F))).result _ _ = _
  exact eq_of_heq (TRef.unary_result_heq _ _ _ _ (val_main_call2_v9 (F := F) (m ((c.tc : Thread nD τ).loc main_arg0)) (m ((c.tc : Thread nD τ).loc main_arg5)) (m ((c.tc : Thread nD τ).loc main_arg6)) (m ((c.tc : Thread nD τ).loc main_arg7)))
    (heq_of_eq ((ops_wr.after_take 84 main_call2_v9 (by decide) _).trans (st_main_call2_v9 m c))))

theorem st_main_v43 (m : (ℓ : Loc nD τ sig) → Buf (Elt F) ℓ) (c : Dev nD) :
    after (ops (F := F)) (launchContents m c) (Proc.devRef .tc main_v43) = val_main_v43 (F := F) (m ((c.tc : Thread nD τ).loc main_arg0)) (m ((c.tc : Thread nD τ).loc main_arg5)) (m ((c.tc : Thread nD τ).loc main_arg6)) (m ((c.tc : Thread nD τ).loc main_arg7)) := by
  refine (ops_wr.after_at 85 (by decide) main_v43 (by decide) _).trans ?_
  show ((TRef.binary (TRef.of (T := ⟨S1024x20000, .f32⟩) main_call2_v5) (TRef.of (T := ⟨S1024x20000, .f32⟩) main_call2_v10) (TRef.of (T := ⟨S1024x20000, .f32⟩) main_v43) subf : HloOp τ sig (Elt F))).result _ _ = _
  exact eq_of_heq (TRef.binary_result_heq _ _ _ _ _ (val_main_call2_v5 (F := F) (m ((c.tc : Thread nD τ).loc main_arg0)) (m ((c.tc : Thread nD τ).loc main_arg5)) (m ((c.tc : Thread nD τ).loc main_arg6)) (m ((c.tc : Thread nD τ).loc main_arg7))) (val_main_call2_v10 (F := F) (m ((c.tc : Thread nD τ).loc main_arg0)) (m ((c.tc : Thread nD τ).loc main_arg5)) (m ((c.tc : Thread nD τ).loc main_arg6)) (m ((c.tc : Thread nD τ).loc main_arg7)))
    (heq_of_eq ((ops_wr.after_take 85 main_call2_v5 (by decide) _).trans (st_main_call2_v5 m c)))
    (heq_of_eq ((ops_wr.after_take 85 main_call2_v10 (by decide) _).trans (st_main_call2_v10 m c))))

theorem st_main_c_8 (m : (ℓ : Loc nD τ sig) → Buf (Elt F) ℓ) (c : Dev nD) :
    after (ops (F := F)) (launchContents m c) (Proc.devRef .tc main_c_8) = val_main_c_8 (F := F) := by
  refine (ops_wr.after_at 86 (by decide) main_c_8 (by decide) _).trans ?_
  show ((nullary main_c_8 (constantI S_ 32 20000#32) : HloOp τ sig (Elt F))).result _ _ = _
  refine (nullary_result ..).trans ?_
  rfl

theorem st_main_v44 (m : (ℓ : Loc nD τ sig) → Buf (Elt F) ℓ) (c : Dev nD) :
    after (ops (F := F)) (launchContents m c) (Proc.devRef .tc main_v44) = val_main_v44 (F := F) := by
  refine (ops_wr.after_at 87 (by decide) main_v44 (by decide) _).trans ?_
  show ((unary main_c_8 main_v44 (broadcastInDim S1024 ![] bcast_S_S1024 : (⟨S_, .i32⟩ : BufTy).Contents (Elt F) → (⟨S1024, .i32⟩ : BufTy).Contents (Elt F)) : HloOp τ sig (Elt F))).result _ _ = _
  refine (unary_result ..).trans ?_
  rw [ops_wr.after_take 87 main_c_8 (by decide), st_main_c_8 m c]
  rfl

theorem st_main_v45 (m : (ℓ : Loc nD τ sig) → Buf (Elt F) ℓ) (c : Dev nD) :
    after (ops (F := F)) (launchContents m c) (Proc.devRef .tc main_v45) = val_main_v45 (F := F) (m ((c.tc : Thread nD τ).loc main_arg1)) := by
  refine (ops_wr.after_at 88 (by decide) main_v45 (by decide) _).trans ?_
  show ((binary main_arg1 main_v44 main_v45 (subi : (⟨S1024, .i32⟩ : BufTy).Contents (Elt F) → (⟨S1024, .i32⟩ : BufTy).Contents (Elt F) → (⟨S1024, .i32⟩ : BufTy).Contents (Elt F)) : HloOp τ sig (Elt F))).result _ _ = _
  refine (binary_result ..).trans ?_
  rw [ops_wr.after_take 88 main_arg1 (by decide), ops_wr.after_arg main_arg1 (by decide), ops_wr.after_take 88 main_v44 (by decide), st_main_v44 m c]
  rfl

theorem st_main_c_9 (m : (ℓ : Loc nD τ sig) → Buf (Elt F) ℓ) (c : Dev nD) :
    after (ops (F := F)) (launchContents m c) (Proc.devRef .tc main_c_9) = val_main_c_9 (F := F) := by
  refine (ops_wr.after_at 89 (by decide) main_c_9 (by decide) _).trans ?_
  show ((nullary main_c_9 (constantI S_ 32 0#32) : HloOp τ sig (Elt F))).result _ _ = _
  refine (nullary_result ..).trans ?_
  rfl

theorem st_main_c_10 (m : (ℓ : Loc nD τ sig) → Buf (Elt F) ℓ) (c : Dev nD) :
    after (ops (F := F)) (launchContents m c) (Proc.devRef .tc main_c_10) = val_main_c_10 (F := F) := by
  refine (ops_wr.after_at 90 (by decide) main_c_10 (by decide) _).trans ?_
  show ((nullary main_c_10 (constantI S_ 32 19999#32) : HloOp τ sig (Elt F))).result _ _ = _
  refine (nullary_result ..).trans ?_
  rfl

theorem st_main_call3_v0 (m : (ℓ : Loc nD τ sig) → Buf (Elt F) ℓ) (c : Dev nD) :
    after (ops (F := F)) (launchContents m c) (Proc.devRef .tc main_call3_v0) = val_main_call3_v0 (F := F) := by
  refine (ops_wr.after_at 91 (by decide) main_call3_v0 (by decide) _).trans ?_
  show ((TRef.unary (TRef.of (T := ⟨S_, .i32⟩) main_c_9) (TRef.of (T := ⟨S_, .i32⟩) main_call3_v0) id : HloOp τ sig (Elt F))).result _ _ = _
  exact eq_of_heq (TRef.unary_result_heq _ _ _ _ (val_main_c_9 (F := F))
    (heq_of_eq ((ops_wr.after_take 91 main_c_9 (by decide) _).trans (st_main_c_9 m c))))

theorem st_main_call3_v1 (m : (ℓ : Loc nD τ sig) → Buf (Elt F) ℓ) (c : Dev nD) :
    after (ops (F := F)) (launchContents m c) (Proc.devRef .tc main_call3_v1) = val_main_call3_v1 (F := F) := by
  refine (ops_wr.after_at 92 (by decide) main_call3_v1 (by decide) _).trans ?_
  show ((TRef.unary (TRef.of (T := ⟨S_, .i32⟩) main_call3_v0) (TRef.of (T := ⟨S1024, .i32⟩) main_call3_v1) (broadcastInDim S1024 ![] bcast_S_S1024) : HloOp τ sig (Elt F))).result _ _ = _
  exact eq_of_heq (TRef.unary_result_heq _ _ _ _ (val_main_call3_v0 (F := F))
    (heq_of_eq ((ops_wr.after_take 92 main_call3_v0 (by decide) _).trans (st_main_call3_v0 m c))))

theorem st_main_call3_v2 (m : (ℓ : Loc nD τ sig) → Buf (Elt F) ℓ) (c : Dev nD) :
    after (ops (F := F)) (launchContents m c) (Proc.devRef .tc main_call3_v2) = val_main_call3_v2 (F := F) (m ((c.tc : Thread nD τ).loc main_arg1)) := by
  refine (ops_wr.after_at 93 (by decide) main_call3_v2 (by decide) _).trans ?_
  show ((TRef.binary (TRef.of (T := ⟨S1024, .i32⟩) main_call3_v1) (TRef.of (T := ⟨S1024, .i32⟩) main_v45) (TRef.of (T := ⟨S1024, .i32⟩) main_call3_v2) maxsi : HloOp τ sig (Elt F))).result _ _ = _
  exact eq_of_heq (TRef.binary_result_heq _ _ _ _ _ (val_main_call3_v1 (F := F)) (val_main_v45 (F := F) (m ((c.tc : Thread nD τ).loc main_arg1)))
    (heq_of_eq ((ops_wr.after_take 93 main_call3_v1 (by decide) _).trans (st_main_call3_v1 m c)))
    (heq_of_eq ((ops_wr.after_take 93 main_v45 (by decide) _).trans (st_main_v45 m c))))

theorem st_main_call3_v3 (m : (ℓ : Loc nD τ sig) → Buf (Elt F) ℓ) (c : Dev nD) :
    after (ops (F := F)) (launchContents m c) (Proc.devRef .tc main_call3_v3) = val_main_call3_v3 (F := F) := by
  refine (ops_wr.after_at 94 (by decide) main_call3_v3 (by decide) _).trans ?_
  show ((TRef.unary (TRef.of (T := ⟨S_, .i32⟩) main_c_10) (TRef.of (T := ⟨S_, .i32⟩) main_call3_v3) id : HloOp τ sig (Elt F))).result _ _ = _
  exact eq_of_heq (TRef.unary_result_heq _ _ _ _ (val_main_c_10 (F := F))
    (heq_of_eq ((ops_wr.after_take 94 main_c_10 (by decide) _).trans (st_main_c_10 m c))))

theorem st_main_call3_v4 (m : (ℓ : Loc nD τ sig) → Buf (Elt F) ℓ) (c : Dev nD) :
    after (ops (F := F)) (launchContents m c) (Proc.devRef .tc main_call3_v4) = val_main_call3_v4 (F := F) := by
  refine (ops_wr.after_at 95 (by decide) main_call3_v4 (by decide) _).trans ?_
  show ((TRef.unary (TRef.of (T := ⟨S_, .i32⟩) main_call3_v3) (TRef.of (T := ⟨S1024, .i32⟩) main_call3_v4) (broadcastInDim S1024 ![] bcast_S_S1024) : HloOp τ sig (Elt F))).result _ _ = _
  exact eq_of_heq (TRef.unary_result_heq _ _ _ _ (val_main_call3_v3 (F := F))
    (heq_of_eq ((ops_wr.after_take 95 main_call3_v3 (by decide) _).trans (st_main_call3_v3 m c))))

end Cert.ReferenceIdeal.Stages

end
-- ==== Proof.Ref.Stages2.lean ====
/- The reference's @main read at its LAST valuation, operations 97 … 144 of 239: what the whole line of operations
   leaves in the reference an operation writes is that operation's stage value (the Read module's `val_<buffer>`) at
   the arguments' launch contents. Every reference is written once, so the last valuation of an operation's result is
   the operation's function of the last valuations of its operands: one lemma per operation, each from its operands'. -/
import proofs.«416365_j66236985639681_1_alg».proof.Proof.Ref.Stages1

set_option maxRecDepth 8192

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.Value Cert.ReferenceIdeal.Read

variable {F : FTy → Type} [FloatOps F]

theorem st_main_v46 (m : (ℓ : Loc nD τ sig) → Buf (Elt F) ℓ) (c : Dev nD) :
    after (ops (F := F)) (launchContents m c) (Proc.devRef .tc main_v46) = val_main_v46 (F := F) (m ((c.tc : Thread nD τ).loc main_arg1)) := by
  refine (ops_wr.after_at 96 (by decide) main_v46 (by decide) _).trans ?_
  show ((TRef.binary (TRef.of (T := ⟨S1024, .i32⟩) main_call3_v4) (TRef.of (T := ⟨S1024, .i32⟩) main_call3_v2) (TRef.of (T := ⟨S1024, .i32⟩) main_v46) minsi : HloOp τ sig (Elt F))).result _ _ = _
  exact eq_of_heq (TRef.binary_result_heq _ _ _ _ _ (val_main_call3_v4 (F := F)) (val_main_call3_v2 (F := F) (m ((c.tc : Thread nD τ).loc main_arg1)))
    (heq_of_eq ((ops_wr.after_take 96 main_call3_v4 (by decide) _).trans (st_main_call3_v4 m c)))
    (heq_of_eq ((ops_wr.after_take 96 main_call3_v2 (by decide) _).trans (st_main_call3_v2 m c))))

theorem st_main_v47 (m : (ℓ : Loc nD τ sig) → Buf (Elt F) ℓ) (c : Dev nD) :
    after (ops (F := F)) (launchContents m c) (Proc.devRef .tc main_v47) = val_main_v47 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)) := by
  refine (ops_wr.after_at 97 (by decide) main_v47 (by decide) _).trans ?_
  show ((unary main_v9 main_v47 ((extractStridedSlice S1024x1 ![0, 20002] · slices_S1024x20003_S1024x1_0_20002) : (⟨S1024x20003, .f32⟩ : BufTy).Contents (Elt F) → (⟨S1024x1, .f32⟩ : BufTy).Contents (Elt F)) : HloOp τ sig (Elt F))).result _ _ = _
  refine (unary_result ..).trans ?_
  rw [ops_wr.after_take 97 main_v9 (by decide), st_main_v9 m c]
  rfl

theorem st_main_v48 (m : (ℓ : Loc nD τ sig) → Buf (Elt F) ℓ) (c : Dev nD) :
    after (ops (F := F)) (launchContents m c) (Proc.devRef .tc main_v48) = val_main_v48 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)) := by
  refine (ops_wr.after_at 98 (by decide) main_v48 (by decide) _).trans ?_
  show ((reshape main_v47 main_v48 rfl shapeCasts_S1024x1_S1024 : HloOp τ sig (Elt F))).result _ _ = _
  refine (reshape_result ..).trans ?_
  rw [ops_wr.after_take 98 main_v47 (by decide), st_main_v47 m c]
  rfl

theorem st_main_c_11 (m : (ℓ : Loc nD τ sig) → Buf (Elt F) ℓ) (c : Dev nD) :
    after (ops (F := F)) (launchContents m c) (Proc.devRef .tc main_c_11) = val_main_c_11 (F := F) := by
  refine (ops_wr.after_at 99 (by decide) main_c_11 (by decide) _).trans ?_
  show ((nullary main_c_11 (constantI S_ 32 0#32) : HloOp τ sig (Elt F))).result _ _ = _
  refine (nullary_result ..).trans ?_
  rfl

theorem st_main_v49 (m : (ℓ : Loc nD τ sig) → Buf (Elt F) ℓ) (c : Dev nD) :
    after (ops (F := F)) (launchContents m c) (Proc.devRef .tc main_v49) = val_main_v49 (F := F) := by
  refine (ops_wr.after_at 100 (by decide) main_v49 (by decide) _).trans ?_
  show ((unary main_c_11 main_v49 (broadcastInDim S1024 ![] bcast_S_S1024 : (⟨S_, .i32⟩ : BufTy).Contents (Elt F) → (⟨S1024, .i32⟩ : BufTy).Contents (Elt F)) : HloOp τ sig (Elt F))).result _ _ = _
  refine (unary_result ..).trans ?_
  rw [ops_wr.after_take 100 main_c_11 (by decide), st_main_c_11 m c]
  rfl

theorem st_main_v50 (m : (ℓ : Loc nD τ sig) → Buf (Elt F) ℓ) (c : Dev nD) :
    after (ops (F := F)) (launchContents m c) (Proc.devRef .tc main_v50) = val_main_v50 (F := F) := by
  refine (ops_wr.after_at 101 (by decide) main_v50 (by decide) _).trans ?_
  show ((binary main_v0 main_v49 main_v50 (cmpi .slt : (⟨S1024, .i32⟩ : BufTy).Contents (Elt F) → (⟨S1024, .i32⟩ : BufTy).Contents (Elt F) → (⟨S1024, .i1⟩ : BufTy).Contents (Elt F)) : HloOp τ sig (Elt F))).result _ _ = _
  refine (binary_result ..).trans ?_
  rw [ops_wr.after_take 101 main_v0 (by decide), st_main_v0 m c, ops_wr.after_take 101 main_v49 (by decide), st_main_v49 m c]
  rfl

theorem st_main_c_12 (m : (ℓ : Loc nD τ sig) → Buf (Elt F) ℓ) (c : Dev nD) :
    after (ops (F := F)) (launchContents m c) (Proc.devRef .tc main_c_12) = val_main_c_12 (F := F) := by
  refine (ops_wr.after_at 102 (by decide) main_c_12 (by decide) _).trans ?_
  show ((nullary main_c_12 (constantI S_ 32 1024#32) : HloOp τ sig (Elt F))).result _ _ = _
  refine (nullary_result ..).trans ?_
  rfl

theorem st_main_v51 (m : (ℓ : Loc nD τ sig) → Buf (Elt F) ℓ) (c : Dev nD) :
    after (ops (F := F)) (launchContents m c) (Proc.devRef .tc main_v51) = val_main_v51 (F := F) := by
  refine (ops_wr.after_at 103 (by decide) main_v51 (by decide) _).trans ?_
  show ((unary main_c_12 main_v51 (broadcastInDim S1024 ![] bcast_S_S1024 : (⟨S_, .i32⟩ : BufTy).Contents (Elt F) → (⟨S1024, .i32⟩ : BufTy).Contents (Elt F)) : HloOp τ sig (Elt F))).result _ _ = _
  refine (unary_result ..).trans ?_
  rw [ops_wr.after_take 103 main_c_12 (by decide), st_main_c_12 m c]
  rfl

theorem st_main_v52 (m : (ℓ : Loc nD τ sig) → Buf (Elt F) ℓ) (c : Dev nD) :
    after (ops (F := F)) (launchContents m c) (Proc.devRef .tc main_v52) = val_main_v52 (F := F) := by
  refine (ops_wr.after_at 104 (by decide) main_v52 (by decide) _).trans ?_
  show ((binary main_v0 main_v51 main_v52 (addi : (⟨S1024, .i32⟩ : BufTy).Contents (Elt F) → (⟨S1024, .i32⟩ : BufTy).Contents (Elt F) → (⟨S1024, .i32⟩ : BufTy).Contents (Elt F)) : HloOp τ sig (Elt F))).result _ _ = _
  refine (binary_result ..).trans ?_
  rw [ops_wr.after_take 104 main_v0 (by decide), st_main_v0 m c, ops_wr.after_take 104 main_v51 (by decide), st_main_v51 m c]
  rfl

theorem st_main_v53 (m : (ℓ : Loc nD τ sig) → Buf (Elt F) ℓ) (c : Dev nD) :
    after (ops (F := F)) (launchContents m c) (Proc.devRef .tc main_v53) = val_main_v53 (F := F) := by
  refine (ops_wr.after_at 105 (by decide) main_v53 (by decide) _).trans ?_
  show ((ternary main_v50 main_v52 main_v0 main_v53 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) : HloOp τ sig (Elt F))).result _ _ = _
  refine (ternary_result ..).trans ?_
  rw [ops_wr.after_take 105 main_v50 (by decide), st_main_v50 m c, ops_wr.after_take 105 main_v52 (by decide), st_main_v52 m c, ops_wr.after_take 105 main_v0 (by decide), st_main_v0 m c]
  rfl

theorem st_main_c_13 (m : (ℓ : Loc nD τ sig) → Buf (Elt F) ℓ) (c : Dev nD) :
    after (ops (F := F)) (launchContents m c) (Proc.devRef .tc main_c_13) = val_main_c_13 (F := F) := by
  refine (ops_wr.after_at 106 (by decide) main_c_13 (by decide) _).trans ?_
  show ((nullary main_c_13 (constantI S_ 32 0#32) : HloOp τ sig (Elt F))).result _ _ = _
  refine (nullary_result ..).trans ?_
  rfl

theorem st_main_v54 (m : (ℓ : Loc nD τ sig) → Buf (Elt F) ℓ) (c : Dev nD) :
    after (ops (F := F)) (launchContents m c) (Proc.devRef .tc main_v54) = val_main_v54 (F := F) := by
  refine (ops_wr.after_at 107 (by decide) main_v54 (by decide) _).trans ?_
  show ((unary main_c_13 main_v54 (broadcastInDim S1024 ![] bcast_S_S1024 : (⟨S_, .i32⟩ : BufTy).Contents (Elt F) → (⟨S1024, .i32⟩ : BufTy).Contents (Elt F)) : HloOp τ sig (Elt F))).result _ _ = _
  refine (unary_result ..).trans ?_
  rw [ops_wr.after_take 107 main_c_13 (by decide), st_main_c_13 m c]
  rfl

theorem st_main_v55 (m : (ℓ : Loc nD τ sig) → Buf (Elt F) ℓ) (c : Dev nD) :
    after (ops (F := F)) (launchContents m c) (Proc.devRef .tc main_v55) = val_main_v55 (F := F) (m ((c.tc : Thread nD τ).loc main_arg1)) := by
  refine (ops_wr.after_at 108 (by decide) main_v55 (by decide) _).trans ?_
  show ((binary main_v46 main_v54 main_v55 (cmpi .slt : (⟨S1024, .i32⟩ : BufTy).Contents (Elt F) → (⟨S1024, .i32⟩ : BufTy).Contents (Elt F) → (⟨S1024, .i1⟩ : BufTy).Contents (Elt F)) : HloOp τ sig (Elt F))).result _ _ = _
  refine (binary_result ..).trans ?_
  rw [ops_wr.after_take 108 main_v46 (by decide), st_main_v46 m c, ops_wr.after_take 108 main_v54 (by decide), st_main_v54 m c]
  rfl

theorem st_main_c_14 (m : (ℓ : Loc nD τ sig) → Buf (Elt F) ℓ) (c : Dev nD) :
    after (ops (F := F)) (launchContents m c) (Proc.devRef .tc main_c_14) = val_main_c_14 (F := F) := by
  refine (ops_wr.after_at 109 (by decide) main_c_14 (by decide) _).trans ?_
  show ((nullary main_c_14 (constantI S_ 32 20000#32) : HloOp τ sig (Elt F))).result _ _ = _
  refine (nullary_result ..).trans ?_
  rfl

theorem st_main_v56 (m : (ℓ : Loc nD τ sig) → Buf (Elt F) ℓ) (c : Dev nD) :
    after (ops (F := F)) (launchContents m c) (Proc.devRef .tc main_v56) = val_main_v56 (F := F) := by
  refine (ops_wr.after_at 110 (by decide) main_v56 (by decide) _).trans ?_
  show ((unary main_c_14 main_v56 (broadcastInDim S1024 ![] bcast_S_S1024 : (⟨S_, .i32⟩ : BufTy).Contents (Elt F) → (⟨S1024, .i32⟩ : BufTy).Contents (Elt F)) : HloOp τ sig (Elt F))).result _ _ = _
  refine (unary_result ..).trans ?_
  rw [ops_wr.after_take 110 main_c_14 (by decide), st_main_c_14 m c]
  rfl

theorem st_main_v57 (m : (ℓ : Loc nD τ sig) → Buf (Elt F) ℓ) (c : Dev nD) :
    after (ops (F := F)) (launchContents m c) (Proc.devRef .tc main_v57) = val_main_v57 (F := F) (m ((c.tc : Thread nD τ).loc main_arg1)) := by
  refine (ops_wr.after_at 111 (by decide) main_v57 (by decide) _).trans ?_
  show ((binary main_v46 main_v56 main_v57 (addi : (⟨S1024, .i32⟩ : BufTy).Contents (Elt F) → (⟨S1024, .i32⟩ : BufTy).Contents (Elt F) → (⟨S1024, .i32⟩ : BufTy).Contents (Elt F)) : HloOp τ sig (Elt F))).result _ _ = _
  refine (binary_result ..).trans ?_
  rw [ops_wr.after_take 111 main_v46 (by decide), st_main_v46 m c, ops_wr.after_take 111 main_v56 (by decide), st_main_v56 m c]
  rfl

theorem st_main_v58 (m : (ℓ : Loc nD τ sig) → Buf (Elt F) ℓ) (c : Dev nD) :
    after (ops (F := F)) (launchContents m c) (Proc.devRef .tc main_v58) = val_main_v58 (F := F) (m ((c.tc : Thread nD τ).loc main_arg1)) := by
  refine (ops_wr.after_at 112 (by decide) main_v58 (by decide) _).trans ?_
  show ((ternary main_v55 main_v57 main_v46 main_v58 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) : HloOp τ sig (Elt F))).result _ _ = _
  refine (ternary_result ..).trans ?_
  rw [ops_wr.after_take 112 main_v55 (by decide), st_main_v55 m c, ops_wr.after_take 112 main_v57 (by decide), st_main_v57 m c, ops_wr.after_take 112 main_v46 (by decide), st_main_v46 m c]
  rfl

theorem st_main_v59 (m : (ℓ : Loc nD τ sig) → Buf (Elt F) ℓ) (c : Dev nD) :
    after (ops (F := F)) (launchContents m c) (Proc.devRef .tc main_v59) = val_main_v59 (F := F) := by
  refine (ops_wr.after_at 113 (by decide) main_v59 (by decide) _).trans ?_
  show ((unary main_v53 main_v59 (broadcastInDim S1024x1 ![0] bcast_S1024_S1024x1_0 : (⟨S1024, .i32⟩ : BufTy).Contents (Elt F) → (⟨S1024x1, .i32⟩ : BufTy).Contents (Elt F)) : HloOp τ sig (Elt F))).result _ _ = _
  refine (unary_result ..).trans ?_
  rw [ops_wr.after_take 113 main_v53 (by decide), st_main_v53 m c]
  rfl

theorem st_main_v60 (m : (ℓ : Loc nD τ sig) → Buf (Elt F) ℓ) (c : Dev nD) :
    after (ops (F := F)) (launchContents m c) (Proc.devRef .tc main_v60) = val_main_v60 (F := F) (m ((c.tc : Thread nD τ).loc main_arg1)) := by
  refine (ops_wr.after_at 114 (by decide) main_v60 (by decide) _).trans ?_
  show ((unary main_v58 main_v60 (broadcastInDim S1024x1 ![0] bcast_S1024_S1024x1_0 : (⟨S1024, .i32⟩ : BufTy).Contents (Elt F) → (⟨S1024x1, .i32⟩ : BufTy).Contents (Elt F)) : HloOp τ sig (Elt F))).result _ _ = _
  refine (unary_result ..).trans ?_
  rw [ops_wr.after_take 114 main_v58 (by decide), st_main_v58 m c]
  rfl

theorem st_main_v61 (m : (ℓ : Loc nD τ sig) → Buf (Elt F) ℓ) (c : Dev nD) :
    after (ops (F := F)) (launchContents m c) (Proc.devRef .tc main_v61) = val_main_v61 (F := F) (m ((c.tc : Thread nD τ).loc main_arg1)) := by
  refine (ops_wr.after_at 115 (by decide) main_v61 (by decide) _).trans ?_
  show ((binary main_v59 main_v60 main_v61 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F)) : HloOp τ sig (Elt F))).result _ _ = _
  refine (binary_result ..).trans ?_
  rw [ops_wr.after_take 115 main_v59 (by decide), st_main_v59 m c, ops_wr.after_take 115 main_v60 (by decide), st_main_v60 m c]
  rfl

theorem st_main_v62 (m : (ℓ : Loc nD τ sig) → Buf (Elt F) ℓ) (c : Dev nD) :
    after (ops (F := F)) (launchContents m c) (Proc.devRef .tc main_v62) = val_main_v62 (F := F) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) := by
  refine (ops_wr.after_at 116 (by decide) main_v62 (by decide) _).trans ?_
  show ((binary main_v43 main_v61 main_v62 ((fun x i => Host.gather gather_S1024x20000_S1024x2_S1024_n_01_n_n_01_1_11 x i) : (⟨S1024x20000, .f32⟩ : BufTy).Contents (Elt F) → (⟨S1024x2, .i32⟩ : BufTy).Contents (Elt F) → (⟨S1024, .f32⟩ : BufTy).Contents (Elt F)) : HloOp τ sig (Elt F))).result _ _ = _
  refine (binary_result ..).trans ?_
  rw [ops_wr.after_take 116 main_v43 (by decide), st_main_v43 m c, ops_wr.after_take 116 main_v61 (by decide), st_main_v61 m c]
  rfl

theorem st_main_v63 (m : (ℓ : Loc nD τ sig) → Buf (Elt F) ℓ) (c : Dev nD) :
    after (ops (F := F)) (launchContents m c) (Proc.devRef .tc main_v63) = val_main_v63 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg14)) (m ((c.tc : Thread nD τ).loc main_arg15)) := by
  refine (ops_wr.after_at 117 (by decide) main_v63 (by decide) _).trans ?_
  show ((binary main_v48 main_v62 main_v63 (addf : (⟨S1024, .f32⟩ : BufTy).Contents (Elt F) → (⟨S1024, .f32⟩ : BufTy).Contents (Elt F) → (⟨S1024, .f32⟩ : BufTy).Contents (Elt F)) : HloOp τ sig (Elt F))).result _ _ = _
  refine (binary_result ..).trans ?_
  rw [ops_wr.after_take 117 main_v48 (by decide), st_main_v48 m c, ops_wr.after_take 117 main_v62 (by decide), st_main_v62 m c]
  rfl

theorem st_main_c_15 (m : (ℓ : Loc nD τ sig) → Buf (Elt F) ℓ) (c : Dev nD) :
    after (ops (F := F)) (launchContents m c) (Proc.devRef .tc main_c_15) = val_main_c_15 (F := F) := by
  refine (ops_wr.after_at 118 (by decide) main_c_15 (by decide) _).trans ?_
  show ((nullary main_c_15 (constantI S_ 32 1#32) : HloOp τ sig (Elt F))).result _ _ = _
  refine (nullary_result ..).trans ?_
  rfl

theorem st_main_v64 (m : (ℓ : Loc nD τ sig) → Buf (Elt F) ℓ) (c : Dev nD) :
    after (ops (F := F)) (launchContents m c) (Proc.devRef .tc main_v64) = val_main_v64 (F := F) := by
  refine (ops_wr.after_at 119 (by decide) main_v64 (by decide) _).trans ?_
  show ((unary main_c_15 main_v64 (broadcastInDim S1024 ![] bcast_S_S1024 : (⟨S_, .i32⟩ : BufTy).Contents (Elt F) → (⟨S1024, .i32⟩ : BufTy).Contents (Elt F)) : HloOp τ sig (Elt F))).result _ _ = _
  refine (unary_result ..).trans ?_
  rw [ops_wr.after_take 119 main_c_15 (by decide), st_main_c_15 m c]
  rfl

theorem st_main_v65 (m : (ℓ : Loc nD τ sig) → Buf (Elt F) ℓ) (c : Dev nD) :
    after (ops (F := F)) (launchContents m c) (Proc.devRef .tc main_v65) = val_main_v65 (F := F) (m ((c.tc : Thread nD τ).loc main_arg1)) := by
  refine (ops_wr.after_at 120 (by decide) main_v65 (by decide) _).trans ?_
  show ((binary main_v20 main_v64 main_v65 (cmpi .eq : (⟨S1024, .i32⟩ : BufTy).Contents (Elt F) → (⟨S1024, .i32⟩ : BufTy).Contents (Elt F) → (⟨S1024, .i1⟩ : BufTy).Contents (Elt F)) : HloOp τ sig (Elt F))).result _ _ = _
  refine (binary_result ..).trans ?_
  rw [ops_wr.after_take 120 main_v20 (by decide), st_main_v20 m c, ops_wr.after_take 120 main_v64 (by decide), st_main_v64 m c]
  rfl

theorem st_main_v66 (m : (ℓ : Loc nD τ sig) → Buf (Elt F) ℓ) (c : Dev nD) :
    after (ops (F := F)) (launchContents m c) (Proc.devRef .tc main_v66) = val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg14)) (m ((c.tc : Thread nD τ).loc main_arg15)) := by
  refine (ops_wr.after_at 121 (by decide) main_v66 (by decide) _).trans ?_
  show ((unary main_v63 main_v66 (Host.negf : (⟨S1024, .f32⟩ : BufTy).Contents (Elt F) → (⟨S1024, .f32⟩ : BufTy).Contents (Elt F)) : HloOp τ sig (Elt F))).result _ _ = _
  refine (unary_result ..).trans ?_
  rw [ops_wr.after_take 121 main_v63 (by decide), st_main_v63 m c]
  rfl

theorem st_main_v67 (m : (ℓ : Loc nD τ sig) → Buf (Elt F) ℓ) (c : Dev nD) :
    after (ops (F := F)) (launchContents m c) (Proc.devRef .tc main_v67) = val_main_v67 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg14)) (m ((c.tc : Thread nD τ).loc main_arg15)) := by
  refine (ops_wr.after_at 122 (by decide) main_v67 (by decide) _).trans ?_
  show ((TRef.ternary (TRef.of (T := ⟨S1024, .i1⟩) main_v65) (TRef.of (T := ⟨S1024, .f32⟩) main_v66) (TRef.of (T := ⟨S1024, .f32⟩) main_v36) (TRef.of (T := ⟨S1024, .f32⟩) main_v67) select : HloOp τ sig (Elt F))).result _ _ = _
  exact eq_of_heq (TRef.ternary_result_heq _ _ _ _ _ _ (val_main_v65 (F := F) (m ((c.tc : Thread nD τ).loc main_arg1))) (val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg14)) (m ((c.tc : Thread nD τ).loc main_arg15))) (val_main_v36 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)))
    (heq_of_eq ((ops_wr.after_take 122 main_v65 (by decide) _).trans (st_main_v65 m c)))
    (heq_of_eq ((ops_wr.after_take 122 main_v66 (by decide) _).trans (st_main_v66 m c)))
    (heq_of_eq ((ops_wr.after_take 122 main_v36 (by decide) _).trans (st_main_v36 m c))))

theorem st_main_v68 (m : (ℓ : Loc nD τ sig) → Buf (Elt F) ℓ) (c : Dev nD) :
    after (ops (F := F)) (launchContents m c) (Proc.devRef .tc main_v68) = val_main_v68 (F := F) (m ((c.tc : Thread nD τ).loc main_arg0)) (m ((c.tc : Thread nD τ).loc main_arg10)) := by
  refine (ops_wr.after_at 123 (by decide) main_v68 (by decide) _).trans ?_
  show ((binary main_arg0 main_arg10 main_v68 ((fun l r => Host.dotGeneral dot_S1024x512_S512x32_S1024x32_1_0_0_1_n_n none l r) : (⟨S1024x512, .f32⟩ : BufTy).Contents (Elt F) → (⟨S512x32, .f32⟩ : BufTy).Contents (Elt F) → (⟨S1024x32, .f32⟩ : BufTy).Contents (Elt F)) : HloOp τ sig (Elt F))).result _ _ = _
  refine (binary_result ..).trans ?_
  rw [ops_wr.after_take 123 main_arg0 (by decide), ops_wr.after_arg main_arg0 (by decide), ops_wr.after_take 123 main_arg10 (by decide), ops_wr.after_arg main_arg10 (by decide)]
  rfl

theorem st_main_v69 (m : (ℓ : Loc nD τ sig) → Buf (Elt F) ℓ) (c : Dev nD) :
    after (ops (F := F)) (launchContents m c) (Proc.devRef .tc main_v69) = val_main_v69 (F := F) (m ((c.tc : Thread nD τ).loc main_arg8)) := by
  refine (ops_wr.after_at 124 (by decide) main_v69 (by decide) _).trans ?_
  show ((unary main_arg8 main_v69 ((transpose S32x160000 [1, 0] · transposes_S160000x32_S32x160000_1_0) : (⟨S160000x32, .f32⟩ : BufTy).Contents (Elt F) → (⟨S32x160000, .f32⟩ : BufTy).Contents (Elt F)) : HloOp τ sig (Elt F))).result _ _ = _
  refine (unary_result ..).trans ?_
  rw [ops_wr.after_take 124 main_arg8 (by decide), ops_wr.after_arg main_arg8 (by decide)]
  rfl

theorem st_main_v70 (m : (ℓ : Loc nD τ sig) → Buf (Elt F) ℓ) (c : Dev nD) :
    after (ops (F := F)) (launchContents m c) (Proc.devRef .tc main_v70) = val_main_v70 (F := F) (m ((c.tc : Thread nD τ).loc main_arg0)) (m ((c.tc : Thread nD τ).loc main_arg8)) (m ((c.tc : Thread nD τ).loc main_arg10)) := by
  refine (ops_wr.after_at 125 (by decide) main_v70 (by decide) _).trans ?_
  show ((binary main_v68 main_v69 main_v70 ((fun l r => Host.dotGeneral dot_S1024x32_S32x160000_S1024x160000_1_0_0_1_n_n none l r) : (⟨S1024x32, .f32⟩ : BufTy).Contents (Elt F) → (⟨S32x160000, .f32⟩ : BufTy).Contents (Elt F) → (⟨S1024x160000, .f32⟩ : BufTy).Contents (Elt F)) : HloOp τ sig (Elt F))).result _ _ = _
  refine (binary_result ..).trans ?_
  rw [ops_wr.after_take 125 main_v68 (by decide), st_main_v68 m c, ops_wr.after_take 125 main_v69 (by decide), st_main_v69 m c]
  rfl

theorem st_main_v71 (m : (ℓ : Loc nD τ sig) → Buf (Elt F) ℓ) (c : Dev nD) :
    after (ops (F := F)) (launchContents m c) (Proc.devRef .tc main_v71) = val_main_v71 (F := F) (m ((c.tc : Thread nD τ).loc main_arg9)) := by
  refine (ops_wr.after_at 126 (by decide) main_v71 (by decide) _).trans ?_
  show ((unary main_arg9 main_v71 (broadcastInDim S1x160000 ![1] bcast_S160000_S1x160000_1 : (⟨S160000, .f32⟩ : BufTy).Contents (Elt F) → (⟨S1x160000, .f32⟩ : BufTy).Contents (Elt F)) : HloOp τ sig (Elt F))).result _ _ = _
  refine (unary_result ..).trans ?_
  rw [ops_wr.after_take 126 main_arg9 (by decide), ops_wr.after_arg main_arg9 (by decide)]
  rfl

theorem st_main_v72 (m : (ℓ : Loc nD τ sig) → Buf (Elt F) ℓ) (c : Dev nD) :
    after (ops (F := F)) (launchContents m c) (Proc.devRef .tc main_v72) = val_main_v72 (F := F) (m ((c.tc : Thread nD τ).loc main_arg9)) := by
  refine (ops_wr.after_at 127 (by decide) main_v72 (by decide) _).trans ?_
  show ((unary main_v71 main_v72 (broadcastInDim S1024x160000 ![0, 1] bcast_S1x160000_S1024x160000_0_1 : (⟨S1x160000, .f32⟩ : BufTy).Contents (Elt F) → (⟨S1024x160000, .f32⟩ : BufTy).Contents (Elt F)) : HloOp τ sig (Elt F))).result _ _ = _
  refine (unary_result ..).trans ?_
  rw [ops_wr.after_take 127 main_v71 (by decide), st_main_v71 m c]
  rfl

theorem st_main_v73 (m : (ℓ : Loc nD τ sig) → Buf (Elt F) ℓ) (c : Dev nD) :
    after (ops (F := F)) (launchContents m c) (Proc.devRef .tc main_v73) = val_main_v73 (F := F) (m ((c.tc : Thread nD τ).loc main_arg0)) (m ((c.tc : Thread nD τ).loc main_arg8)) (m ((c.tc : Thread nD τ).loc main_arg9)) (m ((c.tc : Thread nD τ).loc main_arg10)) := by
  refine (ops_wr.after_at 128 (by decide) main_v73 (by decide) _).trans ?_
  show ((binary main_v70 main_v72 main_v73 (addf : (⟨S1024x160000, .f32⟩ : BufTy).Contents (Elt F) → (⟨S1024x160000, .f32⟩ : BufTy).Contents (Elt F) → (⟨S1024x160000, .f32⟩ : BufTy).Contents (Elt F)) : HloOp τ sig (Elt F))).result _ _ = _
  refine (binary_result ..).trans ?_
  rw [ops_wr.after_take 128 main_v70 (by decide), st_main_v70 m c, ops_wr.after_take 128 main_v72 (by decide), st_main_v72 m c]
  rfl

theorem st_main_call5_cst (m : (ℓ : Loc nD τ sig) → Buf (Elt F) ℓ) (c : Dev nD) :
    after (ops (F := F)) (launchContents m c) (Proc.devRef .tc main_call5_cst) = val_main_call5_cst (F := F) := by
  refine (ops_wr.after_at 129 (by decide) main_call5_cst (by decide) _).trans ?_
  show ((TRef.nullary (TRef.of (T := ⟨S_, .f32⟩) main_call5_cst) (constant S_ .f32 0xFF800000#32) : HloOp τ sig (Elt F))).result _ _ = _
  exact eq_of_heq (TRef.nullary_result_heq _ _ _)

theorem st_main_call5_v0 (m : (ℓ : Loc nD τ sig) → Buf (Elt F) ℓ) (c : Dev nD) :
    after (ops (F := F)) (launchContents m c) (Proc.devRef .tc main_call5_v0) = val_main_call5_v0 (F := F) (m ((c.tc : Thread nD τ).loc main_arg0)) (m ((c.tc : Thread nD τ).loc main_arg8)) (m ((c.tc : Thread nD τ).loc main_arg9)) (m ((c.tc : Thread nD τ).loc main_arg10)) := by
  refine (ops_wr.after_at 130 (by decide) main_call5_v0 (by decide) _).trans ?_
  show ((TRef.binary (TRef.of (T := ⟨S1024x160000, .f32⟩) main_v73) (TRef.of (T := ⟨S_, .f32⟩) main_call5_cst) (TRef.of (T := ⟨S1024, .f32⟩) main_call5_v0) (fun x v => Host.reduce FloatOps.maximumf x v reducesTo_S1024x160000_S1024_d1 h_S_) : HloOp τ sig (Elt F))).result _ _ = _
  exact eq_of_heq (TRef.binary_result_heq _ _ _ _ _ (val_main_v73 (F := F) (m ((c.tc : Thread nD τ).loc main_arg0)) (m ((c.tc : Thread nD τ).loc main_arg8)) (m ((c.tc : Thread nD τ).loc main_arg9)) (m ((c.tc : Thread nD τ).loc main_arg10))) (val_main_call5_cst (F := F))
    (heq_of_eq ((ops_wr.after_take 130 main_v73 (by decide) _).trans (st_main_v73 m c)))
    (heq_of_eq ((ops_wr.after_take 130 main_call5_cst (by decide) _).trans (st_main_call5_cst m c))))

theorem st_main_call5_cst_0 (m : (ℓ : Loc nD τ sig) → Buf (Elt F) ℓ) (c : Dev nD) :
    after (ops (F := F)) (launchContents m c) (Proc.devRef .tc main_call5_cst_0) = val_main_call5_cst_0 (F := F) := by
  refine (ops_wr.after_at 131 (by decide) main_call5_cst_0 (by decide) _).trans ?_
  show ((TRef.nullary (TRef.of (T := ⟨S_, .f32⟩) main_call5_cst_0) (constant S_ .f32 0xFF800000#32) : HloOp τ sig (Elt F))).result _ _ = _
  exact eq_of_heq (TRef.nullary_result_heq _ _ _)

theorem st_main_call5_v1 (m : (ℓ : Loc nD τ sig) → Buf (Elt F) ℓ) (c : Dev nD) :
    after (ops (F := F)) (launchContents m c) (Proc.devRef .tc main_call5_v1) = val_main_call5_v1 (F := F) := by
  refine (ops_wr.after_at 132 (by decide) main_call5_v1 (by decide) _).trans ?_
  show ((TRef.unary (TRef.of (T := ⟨S_, .f32⟩) main_call5_cst_0) (TRef.of (T := ⟨S1024, .f32⟩) main_call5_v1) (broadcastInDim S1024 ![] bcast_S_S1024) : HloOp τ sig (Elt F))).result _ _ = _
  exact eq_of_heq (TRef.unary_result_heq _ _ _ _ (val_main_call5_cst_0 (F := F))
    (heq_of_eq ((ops_wr.after_take 132 main_call5_cst_0 (by decide) _).trans (st_main_call5_cst_0 m c))))

theorem st_main_call5_v2 (m : (ℓ : Loc nD τ sig) → Buf (Elt F) ℓ) (c : Dev nD) :
    after (ops (F := F)) (launchContents m c) (Proc.devRef .tc main_call5_v2) = val_main_call5_v2 (F := F) (m ((c.tc : Thread nD τ).loc main_arg0)) (m ((c.tc : Thread nD τ).loc main_arg8)) (m ((c.tc : Thread nD τ).loc main_arg9)) (m ((c.tc : Thread nD τ).loc main_arg10)) := by
  refine (ops_wr.after_at 133 (by decide) main_call5_v2 (by decide) _).trans ?_
  show ((TRef.binary (TRef.of (T := ⟨S1024, .f32⟩) main_call5_v1) (TRef.of (T := ⟨S1024, .f32⟩) main_call5_v0) (TRef.of (T := ⟨S1024, .f32⟩) main_call5_v2) maximumf : HloOp τ sig (Elt F))).result _ _ = _
  exact eq_of_heq (TRef.binary_result_heq _ _ _ _ _ (val_main_call5_v1 (F := F)) (val_main_call5_v0 (F := F) (m ((c.tc : Thread nD τ).loc main_arg0)) (m ((c.tc : Thread nD τ).loc main_arg8)) (m ((c.tc : Thread nD τ).loc main_arg9)) (m ((c.tc : Thread nD τ).loc main_arg10)))
    (heq_of_eq ((ops_wr.after_take 133 main_call5_v1 (by decide) _).trans (st_main_call5_v1 m c)))
    (heq_of_eq ((ops_wr.after_take 133 main_call5_v0 (by decide) _).trans (st_main_call5_v0 m c))))

theorem st_main_call5_v3 (m : (ℓ : Loc nD τ sig) → Buf (Elt F) ℓ) (c : Dev nD) :
    after (ops (F := F)) (launchContents m c) (Proc.devRef .tc main_call5_v3) = val_main_call5_v3 (F := F) (m ((c.tc : Thread nD τ).loc main_arg0)) (m ((c.tc : Thread nD τ).loc main_arg8)) (m ((c.tc : Thread nD τ).loc main_arg9)) (m ((c.tc : Thread nD τ).loc main_arg10)) := by
  refine (ops_wr.after_at 134 (by decide) main_call5_v3 (by decide) _).trans ?_
  show ((TRef.unary (TRef.of (T := ⟨S1024, .f32⟩) main_call5_v2) (TRef.of (T := ⟨S1024x1, .f32⟩) main_call5_v3) (broadcastInDim S1024x1 ![0] bcast_S1024_S1024x1_0) : HloOp τ sig (Elt F))).result _ _ = _
  exact eq_of_heq (TRef.unary_result_heq _ _ _ _ (val_main_call5_v2 (F := F) (m ((c.tc : Thread nD τ).loc main_arg0)) (m ((c.tc : Thread nD τ).loc main_arg8)) (m ((c.tc : Thread nD τ).loc main_arg9)) (m ((c.tc : Thread nD τ).loc main_arg10)))
    (heq_of_eq ((ops_wr.after_take 134 main_call5_v2 (by decide) _).trans (st_main_call5_v2 m c))))

theorem st_main_call5_v4 (m : (ℓ : Loc nD τ sig) → Buf (Elt F) ℓ) (c : Dev nD) :
    after (ops (F := F)) (launchContents m c) (Proc.devRef .tc main_call5_v4) = val_main_call5_v4 (F := F) (m ((c.tc : Thread nD τ).loc main_arg0)) (m ((c.tc : Thread nD τ).loc main_arg8)) (m ((c.tc : Thread nD τ).loc main_arg9)) (m ((c.tc : Thread nD τ).loc main_arg10)) := by
  refine (ops_wr.after_at 135 (by decide) main_call5_v4 (by decide) _).trans ?_
  show ((TRef.unary (TRef.of (T := ⟨S1024x1, .f32⟩) main_call5_v3) (TRef.of (T := ⟨S1024x160000, .f32⟩) main_call5_v4) (broadcastInDim S1024x160000 ![0, 1] bcast_S1024x1_S1024x160000_0_1) : HloOp τ sig (Elt F))).result _ _ = _
  exact eq_of_heq (TRef.unary_result_heq _ _ _ _ (val_main_call5_v3 (F := F) (m ((c.tc : Thread nD τ).loc main_arg0)) (m ((c.tc : Thread nD τ).loc main_arg8)) (m ((c.tc : Thread nD τ).loc main_arg9)) (m ((c.tc : Thread nD τ).loc main_arg10)))
    (heq_of_eq ((ops_wr.after_take 135 main_call5_v3 (by decide) _).trans (st_main_call5_v3 m c))))

theorem st_main_call5_v5 (m : (ℓ : Loc nD τ sig) → Buf (Elt F) ℓ) (c : Dev nD) :
    after (ops (F := F)) (launchContents m c) (Proc.devRef .tc main_call5_v5) = val_main_call5_v5 (F := F) (m ((c.tc : Thread nD τ).loc main_arg0)) (m ((c.tc : Thread nD τ).loc main_arg8)) (m ((c.tc : Thread nD τ).loc main_arg9)) (m ((c.tc : Thread nD τ).loc main_arg10)) := by
  refine (ops_wr.after_at 136 (by decide) main_call5_v5 (by decide) _).trans ?_
  show ((TRef.binary (TRef.of (T := ⟨S1024x160000, .f32⟩) main_v73) (TRef.of (T := ⟨S1024x160000, .f32⟩) main_call5_v4) (TRef.of (T := ⟨S1024x160000, .f32⟩) main_call5_v5) subf : HloOp τ sig (Elt F))).result _ _ = _
  exact eq_of_heq (TRef.binary_result_heq _ _ _ _ _ (val_main_v73 (F := F) (m ((c.tc : Thread nD τ).loc main_arg0)) (m ((c.tc : Thread nD τ).loc main_arg8)) (m ((c.tc : Thread nD τ).loc main_arg9)) (m ((c.tc : Thread nD τ).loc main_arg10))) (val_main_call5_v4 (F := F) (m ((c.tc : Thread nD τ).loc main_arg0)) (m ((c.tc : Thread nD τ).loc main_arg8)) (m ((c.tc : Thread nD τ).loc main_arg9)) (m ((c.tc : Thread nD τ).loc main_arg10)))
    (heq_of_eq ((ops_wr.after_take 136 main_v73 (by decide) _).trans (st_main_v73 m c)))
    (heq_of_eq ((ops_wr.after_take 136 main_call5_v4 (by decide) _).trans (st_main_call5_v4 m c))))

theorem st_main_call5_v6 (m : (ℓ : Loc nD τ sig) → Buf (Elt F) ℓ) (c : Dev nD) :
    after (ops (F := F)) (launchContents m c) (Proc.devRef .tc main_call5_v6) = val_main_call5_v6 (F := F) (m ((c.tc : Thread nD τ).loc main_arg0)) (m ((c.tc : Thread nD τ).loc main_arg8)) (m ((c.tc : Thread nD τ).loc main_arg9)) (m ((c.tc : Thread nD τ).loc main_arg10)) := by
  refine (ops_wr.after_at 137 (by decide) main_call5_v6 (by decide) _).trans ?_
  show ((TRef.unary (TRef.of (T := ⟨S1024x160000, .f32⟩) main_call5_v5) (TRef.of (T := ⟨S1024x160000, .f32⟩) main_call5_v6) Host.exp : HloOp τ sig (Elt F))).result _ _ = _
  exact eq_of_heq (TRef.unary_result_heq _ _ _ _ (val_main_call5_v5 (F := F) (m ((c.tc : Thread nD τ).loc main_arg0)) (m ((c.tc : Thread nD τ).loc main_arg8)) (m ((c.tc : Thread nD τ).loc main_arg9)) (m ((c.tc : Thread nD τ).loc main_arg10)))
    (heq_of_eq ((ops_wr.after_take 137 main_call5_v5 (by decide) _).trans (st_main_call5_v5 m c))))

theorem st_main_call5_cst_1 (m : (ℓ : Loc nD τ sig) → Buf (Elt F) ℓ) (c : Dev nD) :
    after (ops (F := F)) (launchContents m c) (Proc.devRef .tc main_call5_cst_1) = val_main_call5_cst_1 (F := F) := by
  refine (ops_wr.after_at 138 (by decide) main_call5_cst_1 (by decide) _).trans ?_
  show ((TRef.nullary (TRef.of (T := ⟨S_, .f32⟩) main_call5_cst_1) (constant S_ .f32 0x00000000#32) : HloOp τ sig (Elt F))).result _ _ = _
  exact eq_of_heq (TRef.nullary_result_heq _ _ _)

theorem st_main_call5_v7 (m : (ℓ : Loc nD τ sig) → Buf (Elt F) ℓ) (c : Dev nD) :
    after (ops (F := F)) (launchContents m c) (Proc.devRef .tc main_call5_v7) = val_main_call5_v7 (F := F) (m ((c.tc : Thread nD τ).loc main_arg0)) (m ((c.tc : Thread nD τ).loc main_arg8)) (m ((c.tc : Thread nD τ).loc main_arg9)) (m ((c.tc : Thread nD τ).loc main_arg10)) := by
  refine (ops_wr.after_at 139 (by decide) main_call5_v7 (by decide) _).trans ?_
  show ((TRef.binary (TRef.of (T := ⟨S1024x160000, .f32⟩) main_call5_v6) (TRef.of (T := ⟨S_, .f32⟩) main_call5_cst_1) (TRef.of (T := ⟨S1024, .f32⟩) main_call5_v7) (fun x v => Host.reduceAdd x v reducesTo_S1024x160000_S1024_d1 h_S_) : HloOp τ sig (Elt F))).result _ _ = _
  exact eq_of_heq (TRef.binary_result_heq _ _ _ _ _ (val_main_call5_v6 (F := F) (m ((c.tc : Thread nD τ).loc main_arg0)) (m ((c.tc : Thread nD τ).loc main_arg8)) (m ((c.tc : Thread nD τ).loc main_arg9)) (m ((c.tc : Thread nD τ).loc main_arg10))) (val_main_call5_cst_1 (F := F))
    (heq_of_eq ((ops_wr.after_take 139 main_call5_v6 (by decide) _).trans (st_main_call5_v6 m c)))
    (heq_of_eq ((ops_wr.after_take 139 main_call5_cst_1 (by decide) _).trans (st_main_call5_cst_1 m c))))

theorem st_main_call5_v8 (m : (ℓ : Loc nD τ sig) → Buf (Elt F) ℓ) (c : Dev nD) :
    after (ops (F := F)) (launchContents m c) (Proc.devRef .tc main_call5_v8) = val_main_call5_v8 (F := F) (m ((c.tc : Thread nD τ).loc main_arg0)) (m ((c.tc : Thread nD τ).loc main_arg8)) (m ((c.tc : Thread nD τ).loc main_arg9)) (m ((c.tc : Thread nD τ).loc main_arg10)) := by
  refine (ops_wr.after_at 140 (by decide) main_call5_v8 (by decide) _).trans ?_
  show ((TRef.unary (TRef.of (T := ⟨S1024, .f32⟩) main_call5_v7) (TRef.of (T := ⟨S1024x1, .f32⟩) main_call5_v8) (broadcastInDim S1024x1 ![0] bcast_S1024_S1024x1_0) : HloOp τ sig (Elt F))).result _ _ = _
  exact eq_of_heq (TRef.unary_result_heq _ _ _ _ (val_main_call5_v7 (F := F) (m ((c.tc : Thread nD τ).loc main_arg0)) (m ((c.tc : Thread nD τ).loc main_arg8)) (m ((c.tc : Thread nD τ).loc main_arg9)) (m ((c.tc : Thread nD τ).loc main_arg10)))
    (heq_of_eq ((ops_wr.after_take 140 main_call5_v7 (by decide) _).trans (st_main_call5_v7 m c))))

theorem st_main_call5_v9 (m : (ℓ : Loc nD τ sig) → Buf (Elt F) ℓ) (c : Dev nD) :
    after (ops (F := F)) (launchContents m c) (Proc.devRef .tc main_call5_v9) = val_main_call5_v9 (F := F) (m ((c.tc : Thread nD τ).loc main_arg0)) (m ((c.tc : Thread nD τ).loc main_arg8)) (m ((c.tc : Thread nD τ).loc main_arg9)) (m ((c.tc : Thread nD τ).loc main_arg10)) := by
  refine (ops_wr.after_at 141 (by decide) main_call5_v9 (by decide) _).trans ?_
  show ((TRef.unary (TRef.of (T := ⟨S1024x1, .f32⟩) main_call5_v8) (TRef.of (T := ⟨S1024x1, .f32⟩) main_call5_v9) Host.log : HloOp τ sig (Elt F))).result _ _ = _
  exact eq_of_heq (TRef.unary_result_heq _ _ _ _ (val_main_call5_v8 (F := F) (m ((c.tc : Thread nD τ).loc main_arg0)) (m ((c.tc : Thread nD τ).loc main_arg8)) (m ((c.tc : Thread nD τ).loc main_arg9)) (m ((c.tc : Thread nD τ).loc main_arg10)))
    (heq_of_eq ((ops_wr.after_take 141 main_call5_v8 (by decide) _).trans (st_main_call5_v8 m c))))

theorem st_main_call5_v10 (m : (ℓ : Loc nD τ sig) → Buf (Elt F) ℓ) (c : Dev nD) :
    after (ops (F := F)) (launchContents m c) (Proc.devRef .tc main_call5_v10) = val_main_call5_v10 (F := F) (m ((c.tc : Thread nD τ).loc main_arg0)) (m ((c.tc : Thread nD τ).loc main_arg8)) (m ((c.tc : Thread nD τ).loc main_arg9)) (m ((c.tc : Thread nD τ).loc main_arg10)) := by
  refine (ops_wr.after_at 142 (by decide) main_call5_v10 (by decide) _).trans ?_
  show ((TRef.unary (TRef.of (T := ⟨S1024x1, .f32⟩) main_call5_v9) (TRef.of (T := ⟨S1024x160000, .f32⟩) main_call5_v10) (broadcastInDim S1024x160000 ![0, 1] bcast_S1024x1_S1024x160000_0_1) : HloOp τ sig (Elt F))).result _ _ = _
  exact eq_of_heq (TRef.unary_result_heq _ _ _ _ (val_main_call5_v9 (F := F) (m ((c.tc : Thread nD τ).loc main_arg0)) (m ((c.tc : Thread nD τ).loc main_arg8)) (m ((c.tc : Thread nD τ).loc main_arg9)) (m ((c.tc : Thread nD τ).loc main_arg10)))
    (heq_of_eq ((ops_wr.after_take 142 main_call5_v9 (by decide) _).trans (st_main_call5_v9 m c))))

theorem st_main_v74 (m : (ℓ : Loc nD τ sig) → Buf (Elt F) ℓ) (c : Dev nD) :
    after (ops (F := F)) (launchContents m c) (Proc.devRef .tc main_v74) = val_main_v74 (F := F) (m ((c.tc : Thread nD τ).loc main_arg0)) (m ((c.tc : Thread nD τ).loc main_arg8)) (m ((c.tc : Thread nD τ).loc main_arg9)) (m ((c.tc : Thread nD τ).loc main_arg10)) := by
  refine (ops_wr.after_at 143 (by decide) main_v74 (by decide) _).trans ?_
  show ((TRef.binary (TRef.of (T := ⟨S1024x160000, .f32⟩) main_call5_v5) (TRef.of (T := ⟨S1024x160000, .f32⟩) main_call5_v10) (TRef.of (T := ⟨S1024x160000, .f32⟩) main_v74) subf : HloOp τ sig (Elt F))).result _ _ = _
  exact eq_of_heq (TRef.binary_result_heq _ _ _ _ _ (val_main_call5_v5 (F := F) (m ((c.tc : Thread nD τ).loc main_arg0)) (m ((c.tc : Thread nD τ).loc main_arg8)) (m ((c.tc : Thread nD τ).loc main_arg9)) (m ((c.tc : Thread nD τ).loc main_arg10))) (val_main_call5_v10 (F := F) (m ((c.tc : Thread nD τ).loc main_arg0)) (m ((c.tc : Thread nD τ).loc main_arg8)) (m ((c.tc : Thread nD τ).loc main_arg9)) (m ((c.tc : Thread nD τ).loc main_arg10)))
    (heq_of_eq ((ops_wr.after_take 143 main_call5_v5 (by decide) _).trans (st_main_call5_v5 m c)))
    (heq_of_eq ((ops_wr.after_take 143 main_call5_v10 (by decide) _).trans (st_main_call5_v10 m c))))

end Cert.ReferenceIdeal.Stages

end
-- ==== Proof.Ref.Stages3.lean ====
/- The reference's @main read at its LAST valuation, operations 145 … 192 of 239: what the whole line of operations
   leaves in the reference an operation writes is that operation's stage value (the Read module's `val_<buffer>`) at
   the arguments' launch contents. Every reference is written once, so the last valuation of an operation's result is
   the operation's function of the last valuations of its operands: one lemma per operation, each from its operands'. -/
import proofs.«416365_j66236985639681_1_alg».proof.Proof.Ref.Stages2

set_option maxRecDepth 8192

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.Value Cert.ReferenceIdeal.Read

variable {F : FTy → Type} [FloatOps F]

theorem st_main_c_16 (m : (ℓ : Loc nD τ sig) → Buf (Elt F) ℓ) (c : Dev nD) :
    after (ops (F := F)) (launchContents m c) (Proc.devRef .tc main_c_16) = val_main_c_16 (F := F) := by
  refine (ops_wr.after_at 144 (by decide) main_c_16 (by decide) _).trans ?_
  show ((nullary main_c_16 (constantI S_ 32 40000#32) : HloOp τ sig (Elt F))).result _ _ = _
  refine (nullary_result ..).trans ?_
  rfl

theorem st_main_v75 (m : (ℓ : Loc nD τ sig) → Buf (Elt F) ℓ) (c : Dev nD) :
    after (ops (F := F)) (launchContents m c) (Proc.devRef .tc main_v75) = val_main_v75 (F := F) := by
  refine (ops_wr.after_at 145 (by decide) main_v75 (by decide) _).trans ?_
  show ((unary main_c_16 main_v75 (broadcastInDim S1024 ![] bcast_S_S1024 : (⟨S_, .i32⟩ : BufTy).Contents (Elt F) → (⟨S1024, .i32⟩ : BufTy).Contents (Elt F)) : HloOp τ sig (Elt F))).result _ _ = _
  refine (unary_result ..).trans ?_
  rw [ops_wr.after_take 145 main_c_16 (by decide), st_main_c_16 m c]
  rfl

theorem st_main_v76 (m : (ℓ : Loc nD τ sig) → Buf (Elt F) ℓ) (c : Dev nD) :
    after (ops (F := F)) (launchContents m c) (Proc.devRef .tc main_v76) = val_main_v76 (F := F) (m ((c.tc : Thread nD τ).loc main_arg1)) := by
  refine (ops_wr.after_at 146 (by decide) main_v76 (by decide) _).trans ?_
  show ((binary main_arg1 main_v75 main_v76 (subi : (⟨S1024, .i32⟩ : BufTy).Contents (Elt F) → (⟨S1024, .i32⟩ : BufTy).Contents (Elt F) → (⟨S1024, .i32⟩ : BufTy).Contents (Elt F)) : HloOp τ sig (Elt F))).result _ _ = _
  refine (binary_result ..).trans ?_
  rw [ops_wr.after_take 146 main_arg1 (by decide), ops_wr.after_arg main_arg1 (by decide), ops_wr.after_take 146 main_v75 (by decide), st_main_v75 m c]
  rfl

theorem st_main_c_17 (m : (ℓ : Loc nD τ sig) → Buf (Elt F) ℓ) (c : Dev nD) :
    after (ops (F := F)) (launchContents m c) (Proc.devRef .tc main_c_17) = val_main_c_17 (F := F) := by
  refine (ops_wr.after_at 147 (by decide) main_c_17 (by decide) _).trans ?_
  show ((nullary main_c_17 (constantI S_ 32 0#32) : HloOp τ sig (Elt F))).result _ _ = _
  refine (nullary_result ..).trans ?_
  rfl

theorem st_main_c_18 (m : (ℓ : Loc nD τ sig) → Buf (Elt F) ℓ) (c : Dev nD) :
    after (ops (F := F)) (launchContents m c) (Proc.devRef .tc main_c_18) = val_main_c_18 (F := F) := by
  refine (ops_wr.after_at 148 (by decide) main_c_18 (by decide) _).trans ?_
  show ((nullary main_c_18 (constantI S_ 32 159999#32) : HloOp τ sig (Elt F))).result _ _ = _
  refine (nullary_result ..).trans ?_
  rfl

theorem st_main_call6_v0 (m : (ℓ : Loc nD τ sig) → Buf (Elt F) ℓ) (c : Dev nD) :
    after (ops (F := F)) (launchContents m c) (Proc.devRef .tc main_call6_v0) = val_main_call6_v0 (F := F) := by
  refine (ops_wr.after_at 149 (by decide) main_call6_v0 (by decide) _).trans ?_
  show ((TRef.unary (TRef.of (T := ⟨S_, .i32⟩) main_c_17) (TRef.of (T := ⟨S_, .i32⟩) main_call6_v0) id : HloOp τ sig (Elt F))).result _ _ = _
  exact eq_of_heq (TRef.unary_result_heq _ _ _ _ (val_main_c_17 (F := F))
    (heq_of_eq ((ops_wr.after_take 149 main_c_17 (by decide) _).trans (st_main_c_17 m c))))

theorem st_main_call6_v1 (m : (ℓ : Loc nD τ sig) → Buf (Elt F) ℓ) (c : Dev nD) :
    after (ops (F := F)) (launchContents m c) (Proc.devRef .tc main_call6_v1) = val_main_call6_v1 (F := F) := by
  refine (ops_wr.after_at 150 (by decide) main_call6_v1 (by decide) _).trans ?_
  show ((TRef.unary (TRef.of (T := ⟨S_, .i32⟩) main_call6_v0) (TRef.of (T := ⟨S1024, .i32⟩) main_call6_v1) (broadcastInDim S1024 ![] bcast_S_S1024) : HloOp τ sig (Elt F))).result _ _ = _
  exact eq_of_heq (TRef.unary_result_heq _ _ _ _ (val_main_call6_v0 (F := F))
    (heq_of_eq ((ops_wr.after_take 150 main_call6_v0 (by decide) _).trans (st_main_call6_v0 m c))))

theorem st_main_call6_v2 (m : (ℓ : Loc nD τ sig) → Buf (Elt F) ℓ) (c : Dev nD) :
    after (ops (F := F)) (launchContents m c) (Proc.devRef .tc main_call6_v2) = val_main_call6_v2 (F := F) (m ((c.tc : Thread nD τ).loc main_arg1)) := by
  refine (ops_wr.after_at 151 (by decide) main_call6_v2 (by decide) _).trans ?_
  show ((TRef.binary (TRef.of (T := ⟨S1024, .i32⟩) main_call6_v1) (TRef.of (T := ⟨S1024, .i32⟩) main_v76) (TRef.of (T := ⟨S1024, .i32⟩) main_call6_v2) maxsi : HloOp τ sig (Elt F))).result _ _ = _
  exact eq_of_heq (TRef.binary_result_heq _ _ _ _ _ (val_main_call6_v1 (F := F)) (val_main_v76 (F := F) (m ((c.tc : Thread nD τ).loc main_arg1)))
    (heq_of_eq ((ops_wr.after_take 151 main_call6_v1 (by decide) _).trans (st_main_call6_v1 m c)))
    (heq_of_eq ((ops_wr.after_take 151 main_v76 (by decide) _).trans (st_main_v76 m c))))

theorem st_main_call6_v3 (m : (ℓ : Loc nD τ sig) → Buf (Elt F) ℓ) (c : Dev nD) :
    after (ops (F := F)) (launchContents m c) (Proc.devRef .tc main_call6_v3) = val_main_call6_v3 (F := F) := by
  refine (ops_wr.after_at 152 (by decide) main_call6_v3 (by decide) _).trans ?_
  show ((TRef.unary (TRef.of (T := ⟨S_, .i32⟩) main_c_18) (TRef.of (T := ⟨S_, .i32⟩) main_call6_v3) id : HloOp τ sig (Elt F))).result _ _ = _
  exact eq_of_heq (TRef.unary_result_heq _ _ _ _ (val_main_c_18 (F := F))
    (heq_of_eq ((ops_wr.after_take 152 main_c_18 (by decide) _).trans (st_main_c_18 m c))))

theorem st_main_call6_v4 (m : (ℓ : Loc nD τ sig) → Buf (Elt F) ℓ) (c : Dev nD) :
    after (ops (F := F)) (launchContents m c) (Proc.devRef .tc main_call6_v4) = val_main_call6_v4 (F := F) := by
  refine (ops_wr.after_at 153 (by decide) main_call6_v4 (by decide) _).trans ?_
  show ((TRef.unary (TRef.of (T := ⟨S_, .i32⟩) main_call6_v3) (TRef.of (T := ⟨S1024, .i32⟩) main_call6_v4) (broadcastInDim S1024 ![] bcast_S_S1024) : HloOp τ sig (Elt F))).result _ _ = _
  exact eq_of_heq (TRef.unary_result_heq _ _ _ _ (val_main_call6_v3 (F := F))
    (heq_of_eq ((ops_wr.after_take 153 main_call6_v3 (by decide) _).trans (st_main_call6_v3 m c))))

theorem st_main_v77 (m : (ℓ : Loc nD τ sig) → Buf (Elt F) ℓ) (c : Dev nD) :
    after (ops (F := F)) (launchContents m c) (Proc.devRef .tc main_v77) = val_main_v77 (F := F) (m ((c.tc : Thread nD τ).loc main_arg1)) := by
  refine (ops_wr.after_at 154 (by decide) main_v77 (by decide) _).trans ?_
  show ((TRef.binary (TRef.of (T := ⟨S1024, .i32⟩) main_call6_v4) (TRef.of (T := ⟨S1024, .i32⟩) main_call6_v2) (TRef.of (T := ⟨S1024, .i32⟩) main_v77) minsi : HloOp τ sig (Elt F))).result _ _ = _
  exact eq_of_heq (TRef.binary_result_heq _ _ _ _ _ (val_main_call6_v4 (F := F)) (val_main_call6_v2 (F := F) (m ((c.tc : Thread nD τ).loc main_arg1)))
    (heq_of_eq ((ops_wr.after_take 154 main_call6_v4 (by decide) _).trans (st_main_call6_v4 m c)))
    (heq_of_eq ((ops_wr.after_take 154 main_call6_v2 (by decide) _).trans (st_main_call6_v2 m c))))

theorem st_main_v78 (m : (ℓ : Loc nD τ sig) → Buf (Elt F) ℓ) (c : Dev nD) :
    after (ops (F := F)) (launchContents m c) (Proc.devRef .tc main_v78) = val_main_v78 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)) := by
  refine (ops_wr.after_at 155 (by decide) main_v78 (by decide) _).trans ?_
  show ((unary main_v9 main_v78 ((extractStridedSlice S1024x1 ![0, 20001] · slices_S1024x20003_S1024x1_0_20001) : (⟨S1024x20003, .f32⟩ : BufTy).Contents (Elt F) → (⟨S1024x1, .f32⟩ : BufTy).Contents (Elt F)) : HloOp τ sig (Elt F))).result _ _ = _
  refine (unary_result ..).trans ?_
  rw [ops_wr.after_take 155 main_v9 (by decide), st_main_v9 m c]
  rfl

theorem st_main_v79 (m : (ℓ : Loc nD τ sig) → Buf (Elt F) ℓ) (c : Dev nD) :
    after (ops (F := F)) (launchContents m c) (Proc.devRef .tc main_v79) = val_main_v79 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)) := by
  refine (ops_wr.after_at 156 (by decide) main_v79 (by decide) _).trans ?_
  show ((reshape main_v78 main_v79 rfl shapeCasts_S1024x1_S1024 : HloOp τ sig (Elt F))).result _ _ = _
  refine (reshape_result ..).trans ?_
  rw [ops_wr.after_take 156 main_v78 (by decide), st_main_v78 m c]
  rfl

theorem st_main_c_19 (m : (ℓ : Loc nD τ sig) → Buf (Elt F) ℓ) (c : Dev nD) :
    after (ops (F := F)) (launchContents m c) (Proc.devRef .tc main_c_19) = val_main_c_19 (F := F) := by
  refine (ops_wr.after_at 157 (by decide) main_c_19 (by decide) _).trans ?_
  show ((nullary main_c_19 (constantI S_ 32 0#32) : HloOp τ sig (Elt F))).result _ _ = _
  refine (nullary_result ..).trans ?_
  rfl

theorem st_main_v80 (m : (ℓ : Loc nD τ sig) → Buf (Elt F) ℓ) (c : Dev nD) :
    after (ops (F := F)) (launchContents m c) (Proc.devRef .tc main_v80) = val_main_v80 (F := F) := by
  refine (ops_wr.after_at 158 (by decide) main_v80 (by decide) _).trans ?_
  show ((unary main_c_19 main_v80 (broadcastInDim S1024 ![] bcast_S_S1024 : (⟨S_, .i32⟩ : BufTy).Contents (Elt F) → (⟨S1024, .i32⟩ : BufTy).Contents (Elt F)) : HloOp τ sig (Elt F))).result _ _ = _
  refine (unary_result ..).trans ?_
  rw [ops_wr.after_take 158 main_c_19 (by decide), st_main_c_19 m c]
  rfl

theorem st_main_v81 (m : (ℓ : Loc nD τ sig) → Buf (Elt F) ℓ) (c : Dev nD) :
    after (ops (F := F)) (launchContents m c) (Proc.devRef .tc main_v81) = val_main_v81 (F := F) := by
  refine (ops_wr.after_at 159 (by decide) main_v81 (by decide) _).trans ?_
  show ((binary main_v0 main_v80 main_v81 (cmpi .slt : (⟨S1024, .i32⟩ : BufTy).Contents (Elt F) → (⟨S1024, .i32⟩ : BufTy).Contents (Elt F) → (⟨S1024, .i1⟩ : BufTy).Contents (Elt F)) : HloOp τ sig (Elt F))).result _ _ = _
  refine (binary_result ..).trans ?_
  rw [ops_wr.after_take 159 main_v0 (by decide), st_main_v0 m c, ops_wr.after_take 159 main_v80 (by decide), st_main_v80 m c]
  rfl

theorem st_main_c_20 (m : (ℓ : Loc nD τ sig) → Buf (Elt F) ℓ) (c : Dev nD) :
    after (ops (F := F)) (launchContents m c) (Proc.devRef .tc main_c_20) = val_main_c_20 (F := F) := by
  refine (ops_wr.after_at 160 (by decide) main_c_20 (by decide) _).trans ?_
  show ((nullary main_c_20 (constantI S_ 32 1024#32) : HloOp τ sig (Elt F))).result _ _ = _
  refine (nullary_result ..).trans ?_
  rfl

theorem st_main_v82 (m : (ℓ : Loc nD τ sig) → Buf (Elt F) ℓ) (c : Dev nD) :
    after (ops (F := F)) (launchContents m c) (Proc.devRef .tc main_v82) = val_main_v82 (F := F) := by
  refine (ops_wr.after_at 161 (by decide) main_v82 (by decide) _).trans ?_
  show ((unary main_c_20 main_v82 (broadcastInDim S1024 ![] bcast_S_S1024 : (⟨S_, .i32⟩ : BufTy).Contents (Elt F) → (⟨S1024, .i32⟩ : BufTy).Contents (Elt F)) : HloOp τ sig (Elt F))).result _ _ = _
  refine (unary_result ..).trans ?_
  rw [ops_wr.after_take 161 main_c_20 (by decide), st_main_c_20 m c]
  rfl

theorem st_main_v83 (m : (ℓ : Loc nD τ sig) → Buf (Elt F) ℓ) (c : Dev nD) :
    after (ops (F := F)) (launchContents m c) (Proc.devRef .tc main_v83) = val_main_v83 (F := F) := by
  refine (ops_wr.after_at 162 (by decide) main_v83 (by decide) _).trans ?_
  show ((binary main_v0 main_v82 main_v83 (addi : (⟨S1024, .i32⟩ : BufTy).Contents (Elt F) → (⟨S1024, .i32⟩ : BufTy).Contents (Elt F) → (⟨S1024, .i32⟩ : BufTy).Contents (Elt F)) : HloOp τ sig (Elt F))).result _ _ = _
  refine (binary_result ..).trans ?_
  rw [ops_wr.after_take 162 main_v0 (by decide), st_main_v0 m c, ops_wr.after_take 162 main_v82 (by decide), st_main_v82 m c]
  rfl

theorem st_main_v84 (m : (ℓ : Loc nD τ sig) → Buf (Elt F) ℓ) (c : Dev nD) :
    after (ops (F := F)) (launchContents m c) (Proc.devRef .tc main_v84) = val_main_v84 (F := F) := by
  refine (ops_wr.after_at 163 (by decide) main_v84 (by decide) _).trans ?_
  show ((ternary main_v81 main_v83 main_v0 main_v84 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) : HloOp τ sig (Elt F))).result _ _ = _
  refine (ternary_result ..).trans ?_
  rw [ops_wr.after_take 163 main_v81 (by decide), st_main_v81 m c, ops_wr.after_take 163 main_v83 (by decide), st_main_v83 m c, ops_wr.after_take 163 main_v0 (by decide), st_main_v0 m c]
  rfl

theorem st_main_c_21 (m : (ℓ : Loc nD τ sig) → Buf (Elt F) ℓ) (c : Dev nD) :
    after (ops (F := F)) (launchContents m c) (Proc.devRef .tc main_c_21) = val_main_c_21 (F := F) := by
  refine (ops_wr.after_at 164 (by decide) main_c_21 (by decide) _).trans ?_
  show ((nullary main_c_21 (constantI S_ 32 0#32) : HloOp τ sig (Elt F))).result _ _ = _
  refine (nullary_result ..).trans ?_
  rfl

theorem st_main_v85 (m : (ℓ : Loc nD τ sig) → Buf (Elt F) ℓ) (c : Dev nD) :
    after (ops (F := F)) (launchContents m c) (Proc.devRef .tc main_v85) = val_main_v85 (F := F) := by
  refine (ops_wr.after_at 165 (by decide) main_v85 (by decide) _).trans ?_
  show ((unary main_c_21 main_v85 (broadcastInDim S1024 ![] bcast_S_S1024 : (⟨S_, .i32⟩ : BufTy).Contents (Elt F) → (⟨S1024, .i32⟩ : BufTy).Contents (Elt F)) : HloOp τ sig (Elt F))).result _ _ = _
  refine (unary_result ..).trans ?_
  rw [ops_wr.after_take 165 main_c_21 (by decide), st_main_c_21 m c]
  rfl

theorem st_main_v86 (m : (ℓ : Loc nD τ sig) → Buf (Elt F) ℓ) (c : Dev nD) :
    after (ops (F := F)) (launchContents m c) (Proc.devRef .tc main_v86) = val_main_v86 (F := F) (m ((c.tc : Thread nD τ).loc main_arg1)) := by
  refine (ops_wr.after_at 166 (by decide) main_v86 (by decide) _).trans ?_
  show ((binary main_v77 main_v85 main_v86 (cmpi .slt : (⟨S1024, .i32⟩ : BufTy).Contents (Elt F) → (⟨S1024, .i32⟩ : BufTy).Contents (Elt F) → (⟨S1024, .i1⟩ : BufTy).Contents (Elt F)) : HloOp τ sig (Elt F))).result _ _ = _
  refine (binary_result ..).trans ?_
  rw [ops_wr.after_take 166 main_v77 (by decide), st_main_v77 m c, ops_wr.after_take 166 main_v85 (by decide), st_main_v85 m c]
  rfl

theorem st_main_c_22 (m : (ℓ : Loc nD τ sig) → Buf (Elt F) ℓ) (c : Dev nD) :
    after (ops (F := F)) (launchContents m c) (Proc.devRef .tc main_c_22) = val_main_c_22 (F := F) := by
  refine (ops_wr.after_at 167 (by decide) main_c_22 (by decide) _).trans ?_
  show ((nullary main_c_22 (constantI S_ 32 160000#32) : HloOp τ sig (Elt F))).result _ _ = _
  refine (nullary_result ..).trans ?_
  rfl

theorem st_main_v87 (m : (ℓ : Loc nD τ sig) → Buf (Elt F) ℓ) (c : Dev nD) :
    after (ops (F := F)) (launchContents m c) (Proc.devRef .tc main_v87) = val_main_v87 (F := F) := by
  refine (ops_wr.after_at 168 (by decide) main_v87 (by decide) _).trans ?_
  show ((unary main_c_22 main_v87 (broadcastInDim S1024 ![] bcast_S_S1024 : (⟨S_, .i32⟩ : BufTy).Contents (Elt F) → (⟨S1024, .i32⟩ : BufTy).Contents (Elt F)) : HloOp τ sig (Elt F))).result _ _ = _
  refine (unary_result ..).trans ?_
  rw [ops_wr.after_take 168 main_c_22 (by decide), st_main_c_22 m c]
  rfl

theorem st_main_v88 (m : (ℓ : Loc nD τ sig) → Buf (Elt F) ℓ) (c : Dev nD) :
    after (ops (F := F)) (launchContents m c) (Proc.devRef .tc main_v88) = val_main_v88 (F := F) (m ((c.tc : Thread nD τ).loc main_arg1)) := by
  refine (ops_wr.after_at 169 (by decide) main_v88 (by decide) _).trans ?_
  show ((binary main_v77 main_v87 main_v88 (addi : (⟨S1024, .i32⟩ : BufTy).Contents (Elt F) → (⟨S1024, .i32⟩ : BufTy).Contents (Elt F) → (⟨S1024, .i32⟩ : BufTy).Contents (Elt F)) : HloOp τ sig (Elt F))).result _ _ = _
  refine (binary_result ..).trans ?_
  rw [ops_wr.after_take 169 main_v77 (by decide), st_main_v77 m c, ops_wr.after_take 169 main_v87 (by decide), st_main_v87 m c]
  rfl

theorem st_main_v89 (m : (ℓ : Loc nD τ sig) → Buf (Elt F) ℓ) (c : Dev nD) :
    after (ops (F := F)) (launchContents m c) (Proc.devRef .tc main_v89) = val_main_v89 (F := F) (m ((c.tc : Thread nD τ).loc main_arg1)) := by
  refine (ops_wr.after_at 170 (by decide) main_v89 (by decide) _).trans ?_
  show ((ternary main_v86 main_v88 main_v77 main_v89 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) : HloOp τ sig (Elt F))).result _ _ = _
  refine (ternary_result ..).trans ?_
  rw [ops_wr.after_take 170 main_v86 (by decide), st_main_v86 m c, ops_wr.after_take 170 main_v88 (by decide), st_main_v88 m c, ops_wr.after_take 170 main_v77 (by decide), st_main_v77 m c]
  rfl

theorem st_main_v90 (m : (ℓ : Loc nD τ sig) → Buf (Elt F) ℓ) (c : Dev nD) :
    after (ops (F := F)) (launchContents m c) (Proc.devRef .tc main_v90) = val_main_v90 (F := F) := by
  refine (ops_wr.after_at 171 (by decide) main_v90 (by decide) _).trans ?_
  show ((unary main_v84 main_v90 (broadcastInDim S1024x1 ![0] bcast_S1024_S1024x1_0 : (⟨S1024, .i32⟩ : BufTy).Contents (Elt F) → (⟨S1024x1, .i32⟩ : BufTy).Contents (Elt F)) : HloOp τ sig (Elt F))).result _ _ = _
  refine (unary_result ..).trans ?_
  rw [ops_wr.after_take 171 main_v84 (by decide), st_main_v84 m c]
  rfl

theorem st_main_v91 (m : (ℓ : Loc nD τ sig) → Buf (Elt F) ℓ) (c : Dev nD) :
    after (ops (F := F)) (launchContents m c) (Proc.devRef .tc main_v91) = val_main_v91 (F := F) (m ((c.tc : Thread nD τ).loc main_arg1)) := by
  refine (ops_wr.after_at 172 (by decide) main_v91 (by decide) _).trans ?_
  show ((unary main_v89 main_v91 (broadcastInDim S1024x1 ![0] bcast_S1024_S1024x1_0 : (⟨S1024, .i32⟩ : BufTy).Contents (Elt F) → (⟨S1024x1, .i32⟩ : BufTy).Contents (Elt F)) : HloOp τ sig (Elt F))).result _ _ = _
  refine (unary_result ..).trans ?_
  rw [ops_wr.after_take 172 main_v89 (by decide), st_main_v89 m c]
  rfl

theorem st_main_v92 (m : (ℓ : Loc nD τ sig) → Buf (Elt F) ℓ) (c : Dev nD) :
    after (ops (F := F)) (launchContents m c) (Proc.devRef .tc main_v92) = val_main_v92 (F := F) (m ((c.tc : Thread nD τ).loc main_arg1)) := by
  refine (ops_wr.after_at 173 (by decide) main_v92 (by decide) _).trans ?_
  show ((binary main_v90 main_v91 main_v92 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F)) : HloOp τ sig (Elt F))).result _ _ = _
  refine (binary_result ..).trans ?_
  rw [ops_wr.after_take 173 main_v90 (by decide), st_main_v90 m c, ops_wr.after_take 173 main_v91 (by decide), st_main_v91 m c]
  rfl

theorem st_main_v93 (m : (ℓ : Loc nD τ sig) → Buf (Elt F) ℓ) (c : Dev nD) :
    after (ops (F := F)) (launchContents m c) (Proc.devRef .tc main_v93) = val_main_v93 (F := F) (m ((c.tc : Thread nD τ).loc main_arg0)) (m ((c.tc : Thread nD τ).loc main_arg1)) (m ((c.tc : Thread nD τ).loc main_arg8)) (m ((c.tc : Thread nD τ).loc main_arg9)) (m ((c.tc : Thread nD τ).loc main_arg10)) := by
  refine (ops_wr.after_at 174 (by decide) main_v93 (by decide) _).trans ?_
  show ((binary main_v74 main_v92 main_v93 ((fun x i => Host.gather gather_S1024x160000_S1024x2_S1024_n_01_n_n_01_1_11 x i) : (⟨S1024x160000, .f32⟩ : BufTy).Contents (Elt F) → (⟨S1024x2, .i32⟩ : BufTy).Contents (Elt F) → (⟨S1024, .f32⟩ : BufTy).Contents (Elt F)) : HloOp τ sig (Elt F))).result _ _ = _
  refine (binary_result ..).trans ?_
  rw [ops_wr.after_take 174 main_v74 (by decide), st_main_v74 m c, ops_wr.after_take 174 main_v92 (by decide), st_main_v92 m c]
  rfl

theorem st_main_v94 (m : (ℓ : Loc nD τ sig) → Buf (Elt F) ℓ) (c : Dev nD) :
    after (ops (F := F)) (launchContents m c) (Proc.devRef .tc main_v94) = val_main_v94 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) (m ((c.tc : Thread nD τ).loc main_arg10)) (m ((c.tc : Thread nD τ).loc main_arg14)) (m ((c.tc : Thread nD τ).loc main_arg15)) := by
  refine (ops_wr.after_at 175 (by decide) main_v94 (by decide) _).trans ?_
  show ((binary main_v79 main_v93 main_v94 (addf : (⟨S1024, .f32⟩ : BufTy).Contents (Elt F) → (⟨S1024, .f32⟩ : BufTy).Contents (Elt F) → (⟨S1024, .f32⟩ : BufTy).Contents (Elt F)) : HloOp τ sig (Elt F))).result _ _ = _
  refine (binary_result ..).trans ?_
  rw [ops_wr.after_take 175 main_v79 (by decide), st_main_v79 m c, ops_wr.after_take 175 main_v93 (by decide), st_main_v93 m c]
  rfl

theorem st_main_c_23 (m : (ℓ : Loc nD τ sig) → Buf (Elt F) ℓ) (c : Dev nD) :
    after (ops (F := F)) (launchContents m c) (Proc.devRef .tc main_c_23) = val_main_c_23 (F := F) := by
  refine (ops_wr.after_at 176 (by decide) main_c_23 (by decide) _).trans ?_
  show ((nullary main_c_23 (constantI S_ 32 2#32) : HloOp τ sig (Elt F))).result _ _ = _
  refine (nullary_result ..).trans ?_
  rfl

theorem st_main_v95 (m : (ℓ : Loc nD τ sig) → Buf (Elt F) ℓ) (c : Dev nD) :
    after (ops (F := F)) (launchContents m c) (Proc.devRef .tc main_v95) = val_main_v95 (F := F) := by
  refine (ops_wr.after_at 177 (by decide) main_v95 (by decide) _).trans ?_
  show ((unary main_c_23 main_v95 (broadcastInDim S1024 ![] bcast_S_S1024 : (⟨S_, .i32⟩ : BufTy).Contents (Elt F) → (⟨S1024, .i32⟩ : BufTy).Contents (Elt F)) : HloOp τ sig (Elt F))).result _ _ = _
  refine (unary_result ..).trans ?_
  rw [ops_wr.after_take 177 main_c_23 (by decide), st_main_c_23 m c]
  rfl

theorem st_main_v96 (m : (ℓ : Loc nD τ sig) → Buf (Elt F) ℓ) (c : Dev nD) :
    after (ops (F := F)) (launchContents m c) (Proc.devRef .tc main_v96) = val_main_v96 (F := F) (m ((c.tc : Thread nD τ).loc main_arg1)) := by
  refine (ops_wr.after_at 178 (by decide) main_v96 (by decide) _).trans ?_
  show ((binary main_v20 main_v95 main_v96 (cmpi .eq : (⟨S1024, .i32⟩ : BufTy).Contents (Elt F) → (⟨S1024, .i32⟩ : BufTy).Contents (Elt F) → (⟨S1024, .i1⟩ : BufTy).Contents (Elt F)) : HloOp τ sig (Elt F))).result _ _ = _
  refine (binary_result ..).trans ?_
  rw [ops_wr.after_take 178 main_v20 (by decide), st_main_v20 m c, ops_wr.after_take 178 main_v95 (by decide), st_main_v95 m c]
  rfl

theorem st_main_v97 (m : (ℓ : Loc nD τ sig) → Buf (Elt F) ℓ) (c : Dev nD) :
    after (ops (F := F)) (launchContents m c) (Proc.devRef .tc main_v97) = val_main_v97 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) (m ((c.tc : Thread nD τ).loc main_arg10)) (m ((c.tc : Thread nD τ).loc main_arg14)) (m ((c.tc : Thread nD τ).loc main_arg15)) := by
  refine (ops_wr.after_at 179 (by decide) main_v97 (by decide) _).trans ?_
  show ((unary main_v94 main_v97 (Host.negf : (⟨S1024, .f32⟩ : BufTy).Contents (Elt F) → (⟨S1024, .f32⟩ : BufTy).Contents (Elt F)) : HloOp τ sig (Elt F))).result _ _ = _
  refine (unary_result ..).trans ?_
  rw [ops_wr.after_take 179 main_v94 (by decide), st_main_v94 m c]
  rfl

theorem st_main_v98 (m : (ℓ : Loc nD τ sig) → Buf (Elt F) ℓ) (c : Dev nD) :
    after (ops (F := F)) (launchContents m c) (Proc.devRef .tc main_v98) = val_main_v98 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg14)) (m ((c.tc : Thread nD τ).loc main_arg15)) := by
  refine (ops_wr.after_at 180 (by decide) main_v98 (by decide) _).trans ?_
  show ((TRef.ternary (TRef.of (T := ⟨S1024, .i1⟩) main_v96) (TRef.of (T := ⟨S1024, .f32⟩) main_v97) (TRef.of (T := ⟨S1024, .f32⟩) main_v67) (TRef.of (T := ⟨S1024, .f32⟩) main_v98) select : HloOp τ sig (Elt F))).result _ _ = _
  exact eq_of_heq (TRef.ternary_result_heq _ _ _ _ _ _ (val_main_v96 (F := F) (m ((c.tc : Thread nD τ).loc main_arg1))) (val_main_v97 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) (m ((c.tc : Thread nD τ).loc main_arg10)) (m ((c.tc : Thread nD τ).loc main_arg14)) (m ((c.tc : Thread nD τ).loc main_arg15))) (val_main_v67 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg14)) (m ((c.tc : Thread nD τ).loc main_arg15)))
    (heq_of_eq ((ops_wr.after_take 180 main_v96 (by decide) _).trans (st_main_v96 m c)))
    (heq_of_eq ((ops_wr.after_take 180 main_v97 (by decide) _).trans (st_main_v97 m c)))
    (heq_of_eq ((ops_wr.after_take 180 main_v67 (by decide) _).trans (st_main_v67 m c))))

theorem st_main_v99 (m : (ℓ : Loc nD τ sig) → Buf (Elt F) ℓ) (c : Dev nD) :
    after (ops (F := F)) (launchContents m c) (Proc.devRef .tc main_v99) = val_main_v99 (F := F) (m ((c.tc : Thread nD τ).loc main_arg0)) (m ((c.tc : Thread nD τ).loc main_arg13)) := by
  refine (ops_wr.after_at 181 (by decide) main_v99 (by decide) _).trans ?_
  show ((binary main_arg0 main_arg13 main_v99 ((fun l r => Host.dotGeneral dot_S1024x512_S512x8_S1024x8_1_0_0_1_n_n none l r) : (⟨S1024x512, .f32⟩ : BufTy).Contents (Elt F) → (⟨S512x8, .f32⟩ : BufTy).Contents (Elt F) → (⟨S1024x8, .f32⟩ : BufTy).Contents (Elt F)) : HloOp τ sig (Elt F))).result _ _ = _
  refine (binary_result ..).trans ?_
  rw [ops_wr.after_take 181 main_arg0 (by decide), ops_wr.after_arg main_arg0 (by decide), ops_wr.after_take 181 main_arg13 (by decide), ops_wr.after_arg main_arg13 (by decide)]
  rfl

theorem st_main_v100 (m : (ℓ : Loc nD τ sig) → Buf (Elt F) ℓ) (c : Dev nD) :
    after (ops (F := F)) (launchContents m c) (Proc.devRef .tc main_v100) = val_main_v100 (F := F) (m ((c.tc : Thread nD τ).loc main_arg11)) := by
  refine (ops_wr.after_at 182 (by decide) main_v100 (by decide) _).trans ?_
  show ((unary main_arg11 main_v100 ((transpose S8x67735 [1, 0] · transposes_S67735x8_S8x67735_1_0) : (⟨S67735x8, .f32⟩ : BufTy).Contents (Elt F) → (⟨S8x67735, .f32⟩ : BufTy).Contents (Elt F)) : HloOp τ sig (Elt F))).result _ _ = _
  refine (unary_result ..).trans ?_
  rw [ops_wr.after_take 182 main_arg11 (by decide), ops_wr.after_arg main_arg11 (by decide)]
  rfl

theorem st_main_v101 (m : (ℓ : Loc nD τ sig) → Buf (Elt F) ℓ) (c : Dev nD) :
    after (ops (F := F)) (launchContents m c) (Proc.devRef .tc main_v101) = val_main_v101 (F := F) (m ((c.tc : Thread nD τ).loc main_arg0)) (m ((c.tc : Thread nD τ).loc main_arg11)) (m ((c.tc : Thread nD τ).loc main_arg13)) := by
  refine (ops_wr.after_at 183 (by decide) main_v101 (by decide) _).trans ?_
  show ((binary main_v99 main_v100 main_v101 ((fun l r => Host.dotGeneral dot_S1024x8_S8x67735_S1024x67735_1_0_0_1_n_n none l r) : (⟨S1024x8, .f32⟩ : BufTy).Contents (Elt F) → (⟨S8x67735, .f32⟩ : BufTy).Contents (Elt F) → (⟨S1024x67735, .f32⟩ : BufTy).Contents (Elt F)) : HloOp τ sig (Elt F))).result _ _ = _
  refine (binary_result ..).trans ?_
  rw [ops_wr.after_take 183 main_v99 (by decide), st_main_v99 m c, ops_wr.after_take 183 main_v100 (by decide), st_main_v100 m c]
  rfl

theorem st_main_v102 (m : (ℓ : Loc nD τ sig) → Buf (Elt F) ℓ) (c : Dev nD) :
    after (ops (F := F)) (launchContents m c) (Proc.devRef .tc main_v102) = val_main_v102 (F := F) (m ((c.tc : Thread nD τ).loc main_arg12)) := by
  refine (ops_wr.after_at 184 (by decide) main_v102 (by decide) _).trans ?_
  show ((unary main_arg12 main_v102 (broadcastInDim S1x67735 ![1] bcast_S67735_S1x67735_1 : (⟨S67735, .f32⟩ : BufTy).Contents (Elt F) → (⟨S1x67735, .f32⟩ : BufTy).Contents (Elt F)) : HloOp τ sig (Elt F))).result _ _ = _
  refine (unary_result ..).trans ?_
  rw [ops_wr.after_take 184 main_arg12 (by decide), ops_wr.after_arg main_arg12 (by decide)]
  rfl

theorem st_main_v103 (m : (ℓ : Loc nD τ sig) → Buf (Elt F) ℓ) (c : Dev nD) :
    after (ops (F := F)) (launchContents m c) (Proc.devRef .tc main_v103) = val_main_v103 (F := F) (m ((c.tc : Thread nD τ).loc main_arg12)) := by
  refine (ops_wr.after_at 185 (by decide) main_v103 (by decide) _).trans ?_
  show ((unary main_v102 main_v103 (broadcastInDim S1024x67735 ![0, 1] bcast_S1x67735_S1024x67735_0_1 : (⟨S1x67735, .f32⟩ : BufTy).Contents (Elt F) → (⟨S1024x67735, .f32⟩ : BufTy).Contents (Elt F)) : HloOp τ sig (Elt F))).result _ _ = _
  refine (unary_result ..).trans ?_
  rw [ops_wr.after_take 185 main_v102 (by decide), st_main_v102 m c]
  rfl

theorem st_main_v104 (m : (ℓ : Loc nD τ sig) → Buf (Elt F) ℓ) (c : Dev nD) :
    after (ops (F := F)) (launchContents m c) (Proc.devRef .tc main_v104) = val_main_v104 (F := F) (m ((c.tc : Thread nD τ).loc main_arg0)) (m ((c.tc : Thread nD τ).loc main_arg11)) (m ((c.tc : Thread nD τ).loc main_arg12)) (m ((c.tc : Thread nD τ).loc main_arg13)) := by
  refine (ops_wr.after_at 186 (by decide) main_v104 (by decide) _).trans ?_
  show ((binary main_v101 main_v103 main_v104 (addf : (⟨S1024x67735, .f32⟩ : BufTy).Contents (Elt F) → (⟨S1024x67735, .f32⟩ : BufTy).Contents (Elt F) → (⟨S1024x67735, .f32⟩ : BufTy).Contents (Elt F)) : HloOp τ sig (Elt F))).result _ _ = _
  refine (binary_result ..).trans ?_
  rw [ops_wr.after_take 186 main_v101 (by decide), st_main_v101 m c, ops_wr.after_take 186 main_v103 (by decide), st_main_v103 m c]
  rfl

theorem st_main_call8_cst (m : (ℓ : Loc nD τ sig) → Buf (Elt F) ℓ) (c : Dev nD) :
    after (ops (F := F)) (launchContents m c) (Proc.devRef .tc main_call8_cst) = val_main_call8_cst (F := F) := by
  refine (ops_wr.after_at 187 (by decide) main_call8_cst (by decide) _).trans ?_
  show ((TRef.nullary (TRef.of (T := ⟨S_, .f32⟩) main_call8_cst) (constant S_ .f32 0xFF800000#32) : HloOp τ sig (Elt F))).result _ _ = _
  exact eq_of_heq (TRef.nullary_result_heq _ _ _)

theorem st_main_call8_v0 (m : (ℓ : Loc nD τ sig) → Buf (Elt F) ℓ) (c : Dev nD) :
    after (ops (F := F)) (launchContents m c) (Proc.devRef .tc main_call8_v0) = val_main_call8_v0 (F := F) (m ((c.tc : Thread nD τ).loc main_arg0)) (m ((c.tc : Thread nD τ).loc main_arg11)) (m ((c.tc : Thread nD τ).loc main_arg12)) (m ((c.tc : Thread nD τ).loc main_arg13)) := by
  refine (ops_wr.after_at 188 (by decide) main_call8_v0 (by decide) _).trans ?_
  show ((TRef.binary (TRef.of (T := ⟨S1024x67735, .f32⟩) main_v104) (TRef.of (T := ⟨S_, .f32⟩) main_call8_cst) (TRef.of (T := ⟨S1024, .f32⟩) main_call8_v0) (fun x v => Host.reduce FloatOps.maximumf x v reducesTo_S1024x67735_S1024_d1 h_S_) : HloOp τ sig (Elt F))).result _ _ = _
  exact eq_of_heq (TRef.binary_result_heq _ _ _ _ _ (val_main_v104 (F := F) (m ((c.tc : Thread nD τ).loc main_arg0)) (m ((c.tc : Thread nD τ).loc main_arg11)) (m ((c.tc : Thread nD τ).loc main_arg12)) (m ((c.tc : Thread nD τ).loc main_arg13))) (val_main_call8_cst (F := F))
    (heq_of_eq ((ops_wr.after_take 188 main_v104 (by decide) _).trans (st_main_v104 m c)))
    (heq_of_eq ((ops_wr.after_take 188 main_call8_cst (by decide) _).trans (st_main_call8_cst m c))))

theorem st_main_call8_cst_0 (m : (ℓ : Loc nD τ sig) → Buf (Elt F) ℓ) (c : Dev nD) :
    after (ops (F := F)) (launchContents m c) (Proc.devRef .tc main_call8_cst_0) = val_main_call8_cst_0 (F := F) := by
  refine (ops_wr.after_at 189 (by decide) main_call8_cst_0 (by decide) _).trans ?_
  show ((TRef.nullary (TRef.of (T := ⟨S_, .f32⟩) main_call8_cst_0) (constant S_ .f32 0xFF800000#32) : HloOp τ sig (Elt F))).result _ _ = _
  exact eq_of_heq (TRef.nullary_result_heq _ _ _)

theorem st_main_call8_v1 (m : (ℓ : Loc nD τ sig) → Buf (Elt F) ℓ) (c : Dev nD) :
    after (ops (F := F)) (launchContents m c) (Proc.devRef .tc main_call8_v1) = val_main_call8_v1 (F := F) := by
  refine (ops_wr.after_at 190 (by decide) main_call8_v1 (by decide) _).trans ?_
  show ((TRef.unary (TRef.of (T := ⟨S_, .f32⟩) main_call8_cst_0) (TRef.of (T := ⟨S1024, .f32⟩) main_call8_v1) (broadcastInDim S1024 ![] bcast_S_S1024) : HloOp τ sig (Elt F))).result _ _ = _
  exact eq_of_heq (TRef.unary_result_heq _ _ _ _ (val_main_call8_cst_0 (F := F))
    (heq_of_eq ((ops_wr.after_take 190 main_call8_cst_0 (by decide) _).trans (st_main_call8_cst_0 m c))))

theorem st_main_call8_v2 (m : (ℓ : Loc nD τ sig) → Buf (Elt F) ℓ) (c : Dev nD) :
    after (ops (F := F)) (launchContents m c) (Proc.devRef .tc main_call8_v2) = val_main_call8_v2 (F := F) (m ((c.tc : Thread nD τ).loc main_arg0)) (m ((c.tc : Thread nD τ).loc main_arg11)) (m ((c.tc : Thread nD τ).loc main_arg12)) (m ((c.tc : Thread nD τ).loc main_arg13)) := by
  refine (ops_wr.after_at 191 (by decide) main_call8_v2 (by decide) _).trans ?_
  show ((TRef.binary (TRef.of (T := ⟨S1024, .f32⟩) main_call8_v1) (TRef.of (T := ⟨S1024, .f32⟩) main_call8_v0) (TRef.of (T := ⟨S1024, .f32⟩) main_call8_v2) maximumf : HloOp τ sig (Elt F))).result _ _ = _
  exact eq_of_heq (TRef.binary_result_heq _ _ _ _ _ (val_main_call8_v1 (F := F)) (val_main_call8_v0 (F := F) (m ((c.tc : Thread nD τ).loc main_arg0)) (m ((c.tc : Thread nD τ).loc main_arg11)) (m ((c.tc : Thread nD τ).loc main_arg12)) (m ((c.tc : Thread nD τ).loc main_arg13)))
    (heq_of_eq ((ops_wr.after_take 191 main_call8_v1 (by decide) _).trans (st_main_call8_v1 m c)))
    (heq_of_eq ((ops_wr.after_take 191 main_call8_v0 (by decide) _).trans (st_main_call8_v0 m c))))

end Cert.ReferenceIdeal.Stages

end
-- ==== Proof.Ref.Stages4.lean ====
/- The reference's @main read at its LAST valuation, operations 193 … 239 of 239: what the whole line of operations
   leaves in the reference an operation writes is that operation's stage value (the Read module's `val_<buffer>`) at
   the arguments' launch contents. Every reference is written once, so the last valuation of an operation's result is
   the operation's function of the last valuations of its operands: one lemma per operation, each from its operands'. -/
import proofs.«416365_j66236985639681_1_alg».proof.Proof.Ref.Stages3

set_option maxRecDepth 8192

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.Value Cert.ReferenceIdeal.Read

variable {F : FTy → Type} [FloatOps F]

theorem st_main_call8_v3 (m : (ℓ : Loc nD τ sig) → Buf (Elt F) ℓ) (c : Dev nD) :
    after (ops (F := F)) (launchContents m c) (Proc.devRef .tc main_call8_v3) = val_main_call8_v3 (F := F) (m ((c.tc : Thread nD τ).loc main_arg0)) (m ((c.tc : Thread nD τ).loc main_arg11)) (m ((c.tc : Thread nD τ).loc main_arg12)) (m ((c.tc : Thread nD τ).loc main_arg13)) := by
  refine (ops_wr.after_at 192 (by decide) main_call8_v3 (by decide) _).trans ?_
  show ((TRef.unary (TRef.of (T := ⟨S1024, .f32⟩) main_call8_v2) (TRef.of (T := ⟨S1024x1, .f32⟩) main_call8_v3) (broadcastInDim S1024x1 ![0] bcast_S1024_S1024x1_0) : HloOp τ sig (Elt F))).result _ _ = _
  exact eq_of_heq (TRef.unary_result_heq _ _ _ _ (val_main_call8_v2 (F := F) (m ((c.tc : Thread nD τ).loc main_arg0)) (m ((c.tc : Thread nD τ).loc main_arg11)) (m ((c.tc : Thread nD τ).loc main_arg12)) (m ((c.tc : Thread nD τ).loc main_arg13)))
    (heq_of_eq ((ops_wr.after_take 192 main_call8_v2 (by decide) _).trans (st_main_call8_v2 m c))))

theorem st_main_call8_v4 (m : (ℓ : Loc nD τ sig) → Buf (Elt F) ℓ) (c : Dev nD) :
    after (ops (F := F)) (launchContents m c) (Proc.devRef .tc main_call8_v4) = val_main_call8_v4 (F := F) (m ((c.tc : Thread nD τ).loc main_arg0)) (m ((c.tc : Thread nD τ).loc main_arg11)) (m ((c.tc : Thread nD τ).loc main_arg12)) (m ((c.tc : Thread nD τ).loc main_arg13)) := by
  refine (ops_wr.after_at 193 (by decide) main_call8_v4 (by decide) _).trans ?_
  show ((TRef.unary (TRef.of (T := ⟨S1024x1, .f32⟩) main_call8_v3) (TRef.of (T := ⟨S1024x67735, .f32⟩) main_call8_v4) (broadcastInDim S1024x67735 ![0, 1] bcast_S1024x1_S1024x67735_0_1) : HloOp τ sig (Elt F))).result _ _ = _
  exact eq_of_heq (TRef.unary_result_heq _ _ _ _ (val_main_call8_v3 (F := F) (m ((c.tc : Thread nD τ).loc main_arg0)) (m ((c.tc : Thread nD τ).loc main_arg11)) (m ((c.tc : Thread nD τ).loc main_arg12)) (m ((c.tc : Thread nD τ).loc main_arg13)))
    (heq_of_eq ((ops_wr.after_take 193 main_call8_v3 (by decide) _).trans (st_main_call8_v3 m c))))

theorem st_main_call8_v5 (m : (ℓ : Loc nD τ sig) → Buf (Elt F) ℓ) (c : Dev nD) :
    after (ops (F := F)) (launchContents m c) (Proc.devRef .tc main_call8_v5) = val_main_call8_v5 (F := F) (m ((c.tc : Thread nD τ).loc main_arg0)) (m ((c.tc : Thread nD τ).loc main_arg11)) (m ((c.tc : Thread nD τ).loc main_arg12)) (m ((c.tc : Thread nD τ).loc main_arg13)) := by
  refine (ops_wr.after_at 194 (by decide) main_call8_v5 (by decide) _).trans ?_
  show ((TRef.binary (TRef.of (T := ⟨S1024x67735, .f32⟩) main_v104) (TRef.of (T := ⟨S1024x67735, .f32⟩) main_call8_v4) (TRef.of (T := ⟨S1024x67735, .f32⟩) main_call8_v5) subf : HloOp τ sig (Elt F))).result _ _ = _
  exact eq_of_heq (TRef.binary_result_heq _ _ _ _ _ (val_main_v104 (F := F) (m ((c.tc : Thread nD τ).loc main_arg0)) (m ((c.tc : Thread nD τ).loc main_arg11)) (m ((c.tc : Thread nD τ).loc main_arg12)) (m ((c.tc : Thread nD τ).loc main_arg13))) (val_main_call8_v4 (F := F) (m ((c.tc : Thread nD τ).loc main_arg0)) (m ((c.tc : Thread nD τ).loc main_arg11)) (m ((c.tc : Thread nD τ).loc main_arg12)) (m ((c.tc : Thread nD τ).loc main_arg13)))
    (heq_of_eq ((ops_wr.after_take 194 main_v104 (by decide) _).trans (st_main_v104 m c)))
    (heq_of_eq ((ops_wr.after_take 194 main_call8_v4 (by decide) _).trans (st_main_call8_v4 m c))))

theorem st_main_call8_v6 (m : (ℓ : Loc nD τ sig) → Buf (Elt F) ℓ) (c : Dev nD) :
    after (ops (F := F)) (launchContents m c) (Proc.devRef .tc main_call8_v6) = val_main_call8_v6 (F := F) (m ((c.tc : Thread nD τ).loc main_arg0)) (m ((c.tc : Thread nD τ).loc main_arg11)) (m ((c.tc : Thread nD τ).loc main_arg12)) (m ((c.tc : Thread nD τ).loc main_arg13)) := by
  refine (ops_wr.after_at 195 (by decide) main_call8_v6 (by decide) _).trans ?_
  show ((TRef.unary (TRef.of (T := ⟨S1024x67735, .f32⟩) main_call8_v5) (TRef.of (T := ⟨S1024x67735, .f32⟩) main_call8_v6) Host.exp : HloOp τ sig (Elt F))).result _ _ = _
  exact eq_of_heq (TRef.unary_result_heq _ _ _ _ (val_main_call8_v5 (F := F) (m ((c.tc : Thread nD τ).loc main_arg0)) (m ((c.tc : Thread nD τ).loc main_arg11)) (m ((c.tc : Thread nD τ).loc main_arg12)) (m ((c.tc : Thread nD τ).loc main_arg13)))
    (heq_of_eq ((ops_wr.after_take 195 main_call8_v5 (by decide) _).trans (st_main_call8_v5 m c))))

theorem st_main_call8_cst_1 (m : (ℓ : Loc nD τ sig) → Buf (Elt F) ℓ) (c : Dev nD) :
    after (ops (F := F)) (launchContents m c) (Proc.devRef .tc main_call8_cst_1) = val_main_call8_cst_1 (F := F) := by
  refine (ops_wr.after_at 196 (by decide) main_call8_cst_1 (by decide) _).trans ?_
  show ((TRef.nullary (TRef.of (T := ⟨S_, .f32⟩) main_call8_cst_1) (constant S_ .f32 0x00000000#32) : HloOp τ sig (Elt F))).result _ _ = _
  exact eq_of_heq (TRef.nullary_result_heq _ _ _)

theorem st_main_call8_v7 (m : (ℓ : Loc nD τ sig) → Buf (Elt F) ℓ) (c : Dev nD) :
    after (ops (F := F)) (launchContents m c) (Proc.devRef .tc main_call8_v7) = val_main_call8_v7 (F := F) (m ((c.tc : Thread nD τ).loc main_arg0)) (m ((c.tc : Thread nD τ).loc main_arg11)) (m ((c.tc : Thread nD τ).loc main_arg12)) (m ((c.tc : Thread nD τ).loc main_arg13)) := by
  refine (ops_wr.after_at 197 (by decide) main_call8_v7 (by decide) _).trans ?_
  show ((TRef.binary (TRef.of (T := ⟨S1024x67735, .f32⟩) main_call8_v6) (TRef.of (T := ⟨S_, .f32⟩) main_call8_cst_1) (TRef.of (T := ⟨S1024, .f32⟩) main_call8_v7) (fun x v => Host.reduceAdd x v reducesTo_S1024x67735_S1024_d1 h_S_) : HloOp τ sig (Elt F))).result _ _ = _
  exact eq_of_heq (TRef.binary_result_heq _ _ _ _ _ (val_main_call8_v6 (F := F) (m ((c.tc : Thread nD τ).loc main_arg0)) (m ((c.tc : Thread nD τ).loc main_arg11)) (m ((c.tc : Thread nD τ).loc main_arg12)) (m ((c.tc : Thread nD τ).loc main_arg13))) (val_main_call8_cst_1 (F := F))
    (heq_of_eq ((ops_wr.after_take 197 main_call8_v6 (by decide) _).trans (st_main_call8_v6 m c)))
    (heq_of_eq ((ops_wr.after_take 197 main_call8_cst_1 (by decide) _).trans (st_main_call8_cst_1 m c))))

theorem st_main_call8_v8 (m : (ℓ : Loc nD τ sig) → Buf (Elt F) ℓ) (c : Dev nD) :
    after (ops (F := F)) (launchContents m c) (Proc.devRef .tc main_call8_v8) = val_main_call8_v8 (F := F) (m ((c.tc : Thread nD τ).loc main_arg0)) (m ((c.tc : Thread nD τ).loc main_arg11)) (m ((c.tc : Thread nD τ).loc main_arg12)) (m ((c.tc : Thread nD τ).loc main_arg13)) := by
  refine (ops_wr.after_at 198 (by decide) main_call8_v8 (by decide) _).trans ?_
  show ((TRef.unary (TRef.of (T := ⟨S1024, .f32⟩) main_call8_v7) (TRef.of (T := ⟨S1024x1, .f32⟩) main_call8_v8) (broadcastInDim S1024x1 ![0] bcast_S1024_S1024x1_0) : HloOp τ sig (Elt F))).result _ _ = _
  exact eq_of_heq (TRef.unary_result_heq _ _ _ _ (val_main_call8_v7 (F := F) (m ((c.tc : Thread nD τ).loc main_arg0)) (m ((c.tc : Thread nD τ).loc main_arg11)) (m ((c.tc : Thread nD τ).loc main_arg12)) (m ((c.tc : Thread nD τ).loc main_arg13)))
    (heq_of_eq ((ops_wr.after_take 198 main_call8_v7 (by decide) _).trans (st_main_call8_v7 m c))))

theorem st_main_call8_v9 (m : (ℓ : Loc nD τ sig) → Buf (Elt F) ℓ) (c : Dev nD) :
    after (ops (F := F)) (launchContents m c) (Proc.devRef .tc main_call8_v9) = val_main_call8_v9 (F := F) (m ((c.tc : Thread nD τ).loc main_arg0)) (m ((c.tc : Thread nD τ).loc main_arg11)) (m ((c.tc : Thread nD τ).loc main_arg12)) (m ((c.tc : Thread nD τ).loc main_arg13)) := by
  refine (ops_wr.after_at 199 (by decide) main_call8_v9 (by decide) _).trans ?_
  show ((TRef.unary (TRef.of (T := ⟨S1024x1, .f32⟩) main_call8_v8) (TRef.of (T := ⟨S1024x1, .f32⟩) main_call8_v9) Host.log : HloOp τ sig (Elt F))).result _ _ = _
  exact eq_of_heq (TRef.unary_result_heq _ _ _ _ (val_main_call8_v8 (F := F) (m ((c.tc : Thread nD τ).loc main_arg0)) (m ((c.tc : Thread nD τ).loc main_arg11)) (m ((c.tc : Thread nD τ).loc main_arg12)) (m ((c.tc : Thread nD τ).loc main_arg13)))
    (heq_of_eq ((ops_wr.after_take 199 main_call8_v8 (by decide) _).trans (st_main_call8_v8 m c))))

theorem st_main_call8_v10 (m : (ℓ : Loc nD τ sig) → Buf (Elt F) ℓ) (c : Dev nD) :
    after (ops (F := F)) (launchContents m c) (Proc.devRef .tc main_call8_v10) = val_main_call8_v10 (F := F) (m ((c.tc : Thread nD τ).loc main_arg0)) (m ((c.tc : Thread nD τ).loc main_arg11)) (m ((c.tc : Thread nD τ).loc main_arg12)) (m ((c.tc : Thread nD τ).loc main_arg13)) := by
  refine (ops_wr.after_at 200 (by decide) main_call8_v10 (by decide) _).trans ?_
  show ((TRef.unary (TRef.of (T := ⟨S1024x1, .f32⟩) main_call8_v9) (TRef.of (T := ⟨S1024x67735, .f32⟩) main_call8_v10) (broadcastInDim S1024x67735 ![0, 1] bcast_S1024x1_S1024x67735_0_1) : HloOp τ sig (Elt F))).result _ _ = _
  exact eq_of_heq (TRef.unary_result_heq _ _ _ _ (val_main_call8_v9 (F := F) (m ((c.tc : Thread nD τ).loc main_arg0)) (m ((c.tc : Thread nD τ).loc main_arg11)) (m ((c.tc : Thread nD τ).loc main_arg12)) (m ((c.tc : Thread nD τ).loc main_arg13)))
    (heq_of_eq ((ops_wr.after_take 200 main_call8_v9 (by decide) _).trans (st_main_call8_v9 m c))))

theorem st_main_v105 (m : (ℓ : Loc nD τ sig) → Buf (Elt F) ℓ) (c : Dev nD) :
    after (ops (F := F)) (launchContents m c) (Proc.devRef .tc main_v105) = val_main_v105 (F := F) (m ((c.tc : Thread nD τ).loc main_arg0)) (m ((c.tc : Thread nD τ).loc main_arg11)) (m ((c.tc : Thread nD τ).loc main_arg12)) (m ((c.tc : Thread nD τ).loc main_arg13)) := by
  refine (ops_wr.after_at 201 (by decide) main_v105 (by decide) _).trans ?_
  show ((TRef.binary (TRef.of (T := ⟨S1024x67735, .f32⟩) main_call8_v5) (TRef.of (T := ⟨S1024x67735, .f32⟩) main_call8_v10) (TRef.of (T := ⟨S1024x67735, .f32⟩) main_v105) subf : HloOp τ sig (Elt F))).result _ _ = _
  exact eq_of_heq (TRef.binary_result_heq _ _ _ _ _ (val_main_call8_v5 (F := F) (m ((c.tc : Thread nD τ).loc main_arg0)) (m ((c.tc : Thread nD τ).loc main_arg11)) (m ((c.tc : Thread nD τ).loc main_arg12)) (m ((c.tc : Thread nD τ).loc main_arg13))) (val_main_call8_v10 (F := F) (m ((c.tc : Thread nD τ).loc main_arg0)) (m ((c.tc : Thread nD τ).loc main_arg11)) (m ((c.tc : Thread nD τ).loc main_arg12)) (m ((c.tc : Thread nD τ).loc main_arg13)))
    (heq_of_eq ((ops_wr.after_take 201 main_call8_v5 (by decide) _).trans (st_main_call8_v5 m c)))
    (heq_of_eq ((ops_wr.after_take 201 main_call8_v10 (by decide) _).trans (st_main_call8_v10 m c))))

theorem st_main_c_24 (m : (ℓ : Loc nD τ sig) → Buf (Elt F) ℓ) (c : Dev nD) :
    after (ops (F := F)) (launchContents m c) (Proc.devRef .tc main_c_24) = val_main_c_24 (F := F) := by
  refine (ops_wr.after_at 202 (by decide) main_c_24 (by decide) _).trans ?_
  show ((nullary main_c_24 (constantI S_ 32 200000#32) : HloOp τ sig (Elt F))).result _ _ = _
  refine (nullary_result ..).trans ?_
  rfl

theorem st_main_v106 (m : (ℓ : Loc nD τ sig) → Buf (Elt F) ℓ) (c : Dev nD) :
    after (ops (F := F)) (launchContents m c) (Proc.devRef .tc main_v106) = val_main_v106 (F := F) := by
  refine (ops_wr.after_at 203 (by decide) main_v106 (by decide) _).trans ?_
  show ((unary main_c_24 main_v106 (broadcastInDim S1024 ![] bcast_S_S1024 : (⟨S_, .i32⟩ : BufTy).Contents (Elt F) → (⟨S1024, .i32⟩ : BufTy).Contents (Elt F)) : HloOp τ sig (Elt F))).result _ _ = _
  refine (unary_result ..).trans ?_
  rw [ops_wr.after_take 203 main_c_24 (by decide), st_main_c_24 m c]
  rfl

theorem st_main_v107 (m : (ℓ : Loc nD τ sig) → Buf (Elt F) ℓ) (c : Dev nD) :
    after (ops (F := F)) (launchContents m c) (Proc.devRef .tc main_v107) = val_main_v107 (F := F) (m ((c.tc : Thread nD τ).loc main_arg1)) := by
  refine (ops_wr.after_at 204 (by decide) main_v107 (by decide) _).trans ?_
  show ((binary main_arg1 main_v106 main_v107 (subi : (⟨S1024, .i32⟩ : BufTy).Contents (Elt F) → (⟨S1024, .i32⟩ : BufTy).Contents (Elt F) → (⟨S1024, .i32⟩ : BufTy).Contents (Elt F)) : HloOp τ sig (Elt F))).result _ _ = _
  refine (binary_result ..).trans ?_
  rw [ops_wr.after_take 204 main_arg1 (by decide), ops_wr.after_arg main_arg1 (by decide), ops_wr.after_take 204 main_v106 (by decide), st_main_v106 m c]
  rfl

theorem st_main_c_25 (m : (ℓ : Loc nD τ sig) → Buf (Elt F) ℓ) (c : Dev nD) :
    after (ops (F := F)) (launchContents m c) (Proc.devRef .tc main_c_25) = val_main_c_25 (F := F) := by
  refine (ops_wr.after_at 205 (by decide) main_c_25 (by decide) _).trans ?_
  show ((nullary main_c_25 (constantI S_ 32 0#32) : HloOp τ sig (Elt F))).result _ _ = _
  refine (nullary_result ..).trans ?_
  rfl

theorem st_main_c_26 (m : (ℓ : Loc nD τ sig) → Buf (Elt F) ℓ) (c : Dev nD) :
    after (ops (F := F)) (launchContents m c) (Proc.devRef .tc main_c_26) = val_main_c_26 (F := F) := by
  refine (ops_wr.after_at 206 (by decide) main_c_26 (by decide) _).trans ?_
  show ((nullary main_c_26 (constantI S_ 32 67734#32) : HloOp τ sig (Elt F))).result _ _ = _
  refine (nullary_result ..).trans ?_
  rfl

theorem st_main_call9_v0 (m : (ℓ : Loc nD τ sig) → Buf (Elt F) ℓ) (c : Dev nD) :
    after (ops (F := F)) (launchContents m c) (Proc.devRef .tc main_call9_v0) = val_main_call9_v0 (F := F) := by
  refine (ops_wr.after_at 207 (by decide) main_call9_v0 (by decide) _).trans ?_
  show ((TRef.unary (TRef.of (T := ⟨S_, .i32⟩) main_c_25) (TRef.of (T := ⟨S_, .i32⟩) main_call9_v0) id : HloOp τ sig (Elt F))).result _ _ = _
  exact eq_of_heq (TRef.unary_result_heq _ _ _ _ (val_main_c_25 (F := F))
    (heq_of_eq ((ops_wr.after_take 207 main_c_25 (by decide) _).trans (st_main_c_25 m c))))

theorem st_main_call9_v1 (m : (ℓ : Loc nD τ sig) → Buf (Elt F) ℓ) (c : Dev nD) :
    after (ops (F := F)) (launchContents m c) (Proc.devRef .tc main_call9_v1) = val_main_call9_v1 (F := F) := by
  refine (ops_wr.after_at 208 (by decide) main_call9_v1 (by decide) _).trans ?_
  show ((TRef.unary (TRef.of (T := ⟨S_, .i32⟩) main_call9_v0) (TRef.of (T := ⟨S1024, .i32⟩) main_call9_v1) (broadcastInDim S1024 ![] bcast_S_S1024) : HloOp τ sig (Elt F))).result _ _ = _
  exact eq_of_heq (TRef.unary_result_heq _ _ _ _ (val_main_call9_v0 (F := F))
    (heq_of_eq ((ops_wr.after_take 208 main_call9_v0 (by decide) _).trans (st_main_call9_v0 m c))))

theorem st_main_call9_v2 (m : (ℓ : Loc nD τ sig) → Buf (Elt F) ℓ) (c : Dev nD) :
    after (ops (F := F)) (launchContents m c) (Proc.devRef .tc main_call9_v2) = val_main_call9_v2 (F := F) (m ((c.tc : Thread nD τ).loc main_arg1)) := by
  refine (ops_wr.after_at 209 (by decide) main_call9_v2 (by decide) _).trans ?_
  show ((TRef.binary (TRef.of (T := ⟨S1024, .i32⟩) main_call9_v1) (TRef.of (T := ⟨S1024, .i32⟩) main_v107) (TRef.of (T := ⟨S1024, .i32⟩) main_call9_v2) maxsi : HloOp τ sig (Elt F))).result _ _ = _
  exact eq_of_heq (TRef.binary_result_heq _ _ _ _ _ (val_main_call9_v1 (F := F)) (val_main_v107 (F := F) (m ((c.tc : Thread nD τ).loc main_arg1)))
    (heq_of_eq ((ops_wr.after_take 209 main_call9_v1 (by decide) _).trans (st_main_call9_v1 m c)))
    (heq_of_eq ((ops_wr.after_take 209 main_v107 (by decide) _).trans (st_main_v107 m c))))

theorem st_main_call9_v3 (m : (ℓ : Loc nD τ sig) → Buf (Elt F) ℓ) (c : Dev nD) :
    after (ops (F := F)) (launchContents m c) (Proc.devRef .tc main_call9_v3) = val_main_call9_v3 (F := F) := by
  refine (ops_wr.after_at 210 (by decide) main_call9_v3 (by decide) _).trans ?_
  show ((TRef.unary (TRef.of (T := ⟨S_, .i32⟩) main_c_26) (TRef.of (T := ⟨S_, .i32⟩) main_call9_v3) id : HloOp τ sig (Elt F))).result _ _ = _
  exact eq_of_heq (TRef.unary_result_heq _ _ _ _ (val_main_c_26 (F := F))
    (heq_of_eq ((ops_wr.after_take 210 main_c_26 (by decide) _).trans (st_main_c_26 m c))))

theorem st_main_call9_v4 (m : (ℓ : Loc nD τ sig) → Buf (Elt F) ℓ) (c : Dev nD) :
    after (ops (F := F)) (launchContents m c) (Proc.devRef .tc main_call9_v4) = val_main_call9_v4 (F := F) := by
  refine (ops_wr.after_at 211 (by decide) main_call9_v4 (by decide) _).trans ?_
  show ((TRef.unary (TRef.of (T := ⟨S_, .i32⟩) main_call9_v3) (TRef.of (T := ⟨S1024, .i32⟩) main_call9_v4) (broadcastInDim S1024 ![] bcast_S_S1024) : HloOp τ sig (Elt F))).result _ _ = _
  exact eq_of_heq (TRef.unary_result_heq _ _ _ _ (val_main_call9_v3 (F := F))
    (heq_of_eq ((ops_wr.after_take 211 main_call9_v3 (by decide) _).trans (st_main_call9_v3 m c))))

theorem st_main_v108 (m : (ℓ : Loc nD τ sig) → Buf (Elt F) ℓ) (c : Dev nD) :
    after (ops (F := F)) (launchContents m c) (Proc.devRef .tc main_v108) = val_main_v108 (F := F) (m ((c.tc : Thread nD τ).loc main_arg1)) := by
  refine (ops_wr.after_at 212 (by decide) main_v108 (by decide) _).trans ?_
  show ((TRef.binary (TRef.of (T := ⟨S1024, .i32⟩) main_call9_v4) (TRef.of (T := ⟨S1024, .i32⟩) main_call9_v2) (TRef.of (T := ⟨S1024, .i32⟩) main_v108) minsi : HloOp τ sig (Elt F))).result _ _ = _
  exact eq_of_heq (TRef.binary_result_heq _ _ _ _ _ (val_main_call9_v4 (F := F)) (val_main_call9_v2 (F := F) (m ((c.tc : Thread nD τ).loc main_arg1)))
    (heq_of_eq ((ops_wr.after_take 212 main_call9_v4 (by decide) _).trans (st_main_call9_v4 m c)))
    (heq_of_eq ((ops_wr.after_take 212 main_call9_v2 (by decide) _).trans (st_main_call9_v2 m c))))

theorem st_main_v109 (m : (ℓ : Loc nD τ sig) → Buf (Elt F) ℓ) (c : Dev nD) :
    after (ops (F := F)) (launchContents m c) (Proc.devRef .tc main_v109) = val_main_v109 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)) := by
  refine (ops_wr.after_at 213 (by decide) main_v109 (by decide) _).trans ?_
  show ((unary main_v9 main_v109 ((extractStridedSlice S1024x1 ![0, 20000] · slices_S1024x20003_S1024x1_0_20000) : (⟨S1024x20003, .f32⟩ : BufTy).Contents (Elt F) → (⟨S1024x1, .f32⟩ : BufTy).Contents (Elt F)) : HloOp τ sig (Elt F))).result _ _ = _
  refine (unary_result ..).trans ?_
  rw [ops_wr.after_take 213 main_v9 (by decide), st_main_v9 m c]
  rfl

theorem st_main_v110 (m : (ℓ : Loc nD τ sig) → Buf (Elt F) ℓ) (c : Dev nD) :
    after (ops (F := F)) (launchContents m c) (Proc.devRef .tc main_v110) = val_main_v110 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15)) := by
  refine (ops_wr.after_at 214 (by decide) main_v110 (by decide) _).trans ?_
  show ((reshape main_v109 main_v110 rfl shapeCasts_S1024x1_S1024 : HloOp τ sig (Elt F))).result _ _ = _
  refine (reshape_result ..).trans ?_
  rw [ops_wr.after_take 214 main_v109 (by decide), st_main_v109 m c]
  rfl

theorem st_main_c_27 (m : (ℓ : Loc nD τ sig) → Buf (Elt F) ℓ) (c : Dev nD) :
    after (ops (F := F)) (launchContents m c) (Proc.devRef .tc main_c_27) = val_main_c_27 (F := F) := by
  refine (ops_wr.after_at 215 (by decide) main_c_27 (by decide) _).trans ?_
  show ((nullary main_c_27 (constantI S_ 32 0#32) : HloOp τ sig (Elt F))).result _ _ = _
  refine (nullary_result ..).trans ?_
  rfl

theorem st_main_v111 (m : (ℓ : Loc nD τ sig) → Buf (Elt F) ℓ) (c : Dev nD) :
    after (ops (F := F)) (launchContents m c) (Proc.devRef .tc main_v111) = val_main_v111 (F := F) := by
  refine (ops_wr.after_at 216 (by decide) main_v111 (by decide) _).trans ?_
  show ((unary main_c_27 main_v111 (broadcastInDim S1024 ![] bcast_S_S1024 : (⟨S_, .i32⟩ : BufTy).Contents (Elt F) → (⟨S1024, .i32⟩ : BufTy).Contents (Elt F)) : HloOp τ sig (Elt F))).result _ _ = _
  refine (unary_result ..).trans ?_
  rw [ops_wr.after_take 216 main_c_27 (by decide), st_main_c_27 m c]
  rfl

theorem st_main_v112 (m : (ℓ : Loc nD τ sig) → Buf (Elt F) ℓ) (c : Dev nD) :
    after (ops (F := F)) (launchContents m c) (Proc.devRef .tc main_v112) = val_main_v112 (F := F) := by
  refine (ops_wr.after_at 217 (by decide) main_v112 (by decide) _).trans ?_
  show ((binary main_v0 main_v111 main_v112 (cmpi .slt : (⟨S1024, .i32⟩ : BufTy).Contents (Elt F) → (⟨S1024, .i32⟩ : BufTy).Contents (Elt F) → (⟨S1024, .i1⟩ : BufTy).Contents (Elt F)) : HloOp τ sig (Elt F))).result _ _ = _
  refine (binary_result ..).trans ?_
  rw [ops_wr.after_take 217 main_v0 (by decide), st_main_v0 m c, ops_wr.after_take 217 main_v111 (by decide), st_main_v111 m c]
  rfl

theorem st_main_c_28 (m : (ℓ : Loc nD τ sig) → Buf (Elt F) ℓ) (c : Dev nD) :
    after (ops (F := F)) (launchContents m c) (Proc.devRef .tc main_c_28) = val_main_c_28 (F := F) := by
  refine (ops_wr.after_at 218 (by decide) main_c_28 (by decide) _).trans ?_
  show ((nullary main_c_28 (constantI S_ 32 1024#32) : HloOp τ sig (Elt F))).result _ _ = _
  refine (nullary_result ..).trans ?_
  rfl

theorem st_main_v113 (m : (ℓ : Loc nD τ sig) → Buf (Elt F) ℓ) (c : Dev nD) :
    after (ops (F := F)) (launchContents m c) (Proc.devRef .tc main_v113) = val_main_v113 (F := F) := by
  refine (ops_wr.after_at 219 (by decide) main_v113 (by decide) _).trans ?_
  show ((unary main_c_28 main_v113 (broadcastInDim S1024 ![] bcast_S_S1024 : (⟨S_, .i32⟩ : BufTy).Contents (Elt F) → (⟨S1024, .i32⟩ : BufTy).Contents (Elt F)) : HloOp τ sig (Elt F))).result _ _ = _
  refine (unary_result ..).trans ?_
  rw [ops_wr.after_take 219 main_c_28 (by decide), st_main_c_28 m c]
  rfl

theorem st_main_v114 (m : (ℓ : Loc nD τ sig) → Buf (Elt F) ℓ) (c : Dev nD) :
    after (ops (F := F)) (launchContents m c) (Proc.devRef .tc main_v114) = val_main_v114 (F := F) := by
  refine (ops_wr.after_at 220 (by decide) main_v114 (by decide) _).trans ?_
  show ((binary main_v0 main_v113 main_v114 (addi : (⟨S1024, .i32⟩ : BufTy).Contents (Elt F) → (⟨S1024, .i32⟩ : BufTy).Contents (Elt F) → (⟨S1024, .i32⟩ : BufTy).Contents (Elt F)) : HloOp τ sig (Elt F))).result _ _ = _
  refine (binary_result ..).trans ?_
  rw [ops_wr.after_take 220 main_v0 (by decide), st_main_v0 m c, ops_wr.after_take 220 main_v113 (by decide), st_main_v113 m c]
  rfl

theorem st_main_v115 (m : (ℓ : Loc nD τ sig) → Buf (Elt F) ℓ) (c : Dev nD) :
    after (ops (F := F)) (launchContents m c) (Proc.devRef .tc main_v115) = val_main_v115 (F := F) := by
  refine (ops_wr.after_at 221 (by decide) main_v115 (by decide) _).trans ?_
  show ((ternary main_v112 main_v114 main_v0 main_v115 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) : HloOp τ sig (Elt F))).result _ _ = _
  refine (ternary_result ..).trans ?_
  rw [ops_wr.after_take 221 main_v112 (by decide), st_main_v112 m c, ops_wr.after_take 221 main_v114 (by decide), st_main_v114 m c, ops_wr.after_take 221 main_v0 (by decide), st_main_v0 m c]
  rfl

theorem st_main_c_29 (m : (ℓ : Loc nD τ sig) → Buf (Elt F) ℓ) (c : Dev nD) :
    after (ops (F := F)) (launchContents m c) (Proc.devRef .tc main_c_29) = val_main_c_29 (F := F) := by
  refine (ops_wr.after_at 222 (by decide) main_c_29 (by decide) _).trans ?_
  show ((nullary main_c_29 (constantI S_ 32 0#32) : HloOp τ sig (Elt F))).result _ _ = _
  refine (nullary_result ..).trans ?_
  rfl

theorem st_main_v116 (m : (ℓ : Loc nD τ sig) → Buf (Elt F) ℓ) (c : Dev nD) :
    after (ops (F := F)) (launchContents m c) (Proc.devRef .tc main_v116) = val_main_v116 (F := F) := by
  refine (ops_wr.after_at 223 (by decide) main_v116 (by decide) _).trans ?_
  show ((unary main_c_29 main_v116 (broadcastInDim S1024 ![] bcast_S_S1024 : (⟨S_, .i32⟩ : BufTy).Contents (Elt F) → (⟨S1024, .i32⟩ : BufTy).Contents (Elt F)) : HloOp τ sig (Elt F))).result _ _ = _
  refine (unary_result ..).trans ?_
  rw [ops_wr.after_take 223 main_c_29 (by decide), st_main_c_29 m c]
  rfl

theorem st_main_v117 (m : (ℓ : Loc nD τ sig) → Buf (Elt F) ℓ) (c : Dev nD) :
    after (ops (F := F)) (launchContents m c) (Proc.devRef .tc main_v117) = val_main_v117 (F := F) (m ((c.tc : Thread nD τ).loc main_arg1)) := by
  refine (ops_wr.after_at 224 (by decide) main_v117 (by decide) _).trans ?_
  show ((binary main_v108 main_v116 main_v117 (cmpi .slt : (⟨S1024, .i32⟩ : BufTy).Contents (Elt F) → (⟨S1024, .i32⟩ : BufTy).Contents (Elt F) → (⟨S1024, .i1⟩ : BufTy).Contents (Elt F)) : HloOp τ sig (Elt F))).result _ _ = _
  refine (binary_result ..).trans ?_
  rw [ops_wr.after_take 224 main_v108 (by decide), st_main_v108 m c, ops_wr.after_take 224 main_v116 (by decide), st_main_v116 m c]
  rfl

theorem st_main_c_30 (m : (ℓ : Loc nD τ sig) → Buf (Elt F) ℓ) (c : Dev nD) :
    after (ops (F := F)) (launchContents m c) (Proc.devRef .tc main_c_30) = val_main_c_30 (F := F) := by
  refine (ops_wr.after_at 225 (by decide) main_c_30 (by decide) _).trans ?_
  show ((nullary main_c_30 (constantI S_ 32 67735#32) : HloOp τ sig (Elt F))).result _ _ = _
  refine (nullary_result ..).trans ?_
  rfl

theorem st_main_v118 (m : (ℓ : Loc nD τ sig) → Buf (Elt F) ℓ) (c : Dev nD) :
    after (ops (F := F)) (launchContents m c) (Proc.devRef .tc main_v118) = val_main_v118 (F := F) := by
  refine (ops_wr.after_at 226 (by decide) main_v118 (by decide) _).trans ?_
  show ((unary main_c_30 main_v118 (broadcastInDim S1024 ![] bcast_S_S1024 : (⟨S_, .i32⟩ : BufTy).Contents (Elt F) → (⟨S1024, .i32⟩ : BufTy).Contents (Elt F)) : HloOp τ sig (Elt F))).result _ _ = _
  refine (unary_result ..).trans ?_
  rw [ops_wr.after_take 226 main_c_30 (by decide), st_main_c_30 m c]
  rfl

theorem st_main_v119 (m : (ℓ : Loc nD τ sig) → Buf (Elt F) ℓ) (c : Dev nD) :
    after (ops (F := F)) (launchContents m c) (Proc.devRef .tc main_v119) = val_main_v119 (F := F) (m ((c.tc : Thread nD τ).loc main_arg1)) := by
  refine (ops_wr.after_at 227 (by decide) main_v119 (by decide) _).trans ?_
  show ((binary main_v108 main_v118 main_v119 (addi : (⟨S1024, .i32⟩ : BufTy).Contents (Elt F) → (⟨S1024, .i32⟩ : BufTy).Contents (Elt F) → (⟨S1024, .i32⟩ : BufTy).Contents (Elt F)) : HloOp τ sig (Elt F))).result _ _ = _
  refine (binary_result ..).trans ?_
  rw [ops_wr.after_take 227 main_v108 (by decide), st_main_v108 m c, ops_wr.after_take 227 main_v118 (by decide), st_main_v118 m c]
  rfl

theorem st_main_v120 (m : (ℓ : Loc nD τ sig) → Buf (Elt F) ℓ) (c : Dev nD) :
    after (ops (F := F)) (launchContents m c) (Proc.devRef .tc main_v120) = val_main_v120 (F := F) (m ((c.tc : Thread nD τ).loc main_arg1)) := by
  refine (ops_wr.after_at 228 (by decide) main_v120 (by decide) _).trans ?_
  show ((ternary main_v117 main_v119 main_v108 main_v120 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) : HloOp τ sig (Elt F))).result _ _ = _
  refine (ternary_result ..).trans ?_
  rw [ops_wr.after_take 228 main_v117 (by decide), st_main_v117 m c, ops_wr.after_take 228 main_v119 (by decide), st_main_v119 m c, ops_wr.after_take 228 main_v108 (by decide), st_main_v108 m c]
  rfl

theorem st_main_v121 (m : (ℓ : Loc nD τ sig) → Buf (Elt F) ℓ) (c : Dev nD) :
    after (ops (F := F)) (launchContents m c) (Proc.devRef .tc main_v121) = val_main_v121 (F := F) := by
  refine (ops_wr.after_at 229 (by decide) main_v121 (by decide) _).trans ?_
  show ((unary main_v115 main_v121 (broadcastInDim S1024x1 ![0] bcast_S1024_S1024x1_0 : (⟨S1024, .i32⟩ : BufTy).Contents (Elt F) → (⟨S1024x1, .i32⟩ : BufTy).Contents (Elt F)) : HloOp τ sig (Elt F))).result _ _ = _
  refine (unary_result ..).trans ?_
  rw [ops_wr.after_take 229 main_v115 (by decide), st_main_v115 m c]
  rfl

theorem st_main_v122 (m : (ℓ : Loc nD τ sig) → Buf (Elt F) ℓ) (c : Dev nD) :
    after (ops (F := F)) (launchContents m c) (Proc.devRef .tc main_v122) = val_main_v122 (F := F) (m ((c.tc : Thread nD τ).loc main_arg1)) := by
  refine (ops_wr.after_at 230 (by decide) main_v122 (by decide) _).trans ?_
  show ((unary main_v120 main_v122 (broadcastInDim S1024x1 ![0] bcast_S1024_S1024x1_0 : (⟨S1024, .i32⟩ : BufTy).Contents (Elt F) → (⟨S1024x1, .i32⟩ : BufTy).Contents (Elt F)) : HloOp τ sig (Elt F))).result _ _ = _
  refine (unary_result ..).trans ?_
  rw [ops_wr.after_take 230 main_v120 (by decide), st_main_v120 m c]
  rfl

theorem st_main_v123 (m : (ℓ : Loc nD τ sig) → Buf (Elt F) ℓ) (c : Dev nD) :
    after (ops (F := F)) (launchContents m c) (Proc.devRef .tc main_v123) = val_main_v123 (F := F) (m ((c.tc : Thread nD τ).loc main_arg1)) := by
  refine (ops_wr.after_at 231 (by decide) main_v123 (by decide) _).trans ?_
  show ((binary main_v121 main_v122 main_v123 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F)) : HloOp τ sig (Elt F))).result _ _ = _
  refine (binary_result ..).trans ?_
  rw [ops_wr.after_take 231 main_v121 (by decide), st_main_v121 m c, ops_wr.after_take 231 main_v122 (by decide), st_main_v122 m c]
  rfl

theorem st_main_v124 (m : (ℓ : Loc nD τ sig) → Buf (Elt F) ℓ) (c : Dev nD) :
    after (ops (F := F)) (launchContents m c) (Proc.devRef .tc main_v124) = val_main_v124 (F := F) (m ((c.tc : Thread nD τ).loc main_arg0)) (m ((c.tc : Thread nD τ).loc main_arg1)) (m ((c.tc : Thread nD τ).loc main_arg11)) (m ((c.tc : Thread nD τ).loc main_arg12)) (m ((c.tc : Thread nD τ).loc main_arg13)) := by
  refine (ops_wr.after_at 232 (by decide) main_v124 (by decide) _).trans ?_
  show ((binary main_v105 main_v123 main_v124 ((fun x i => Host.gather gather_S1024x67735_S1024x2_S1024_n_01_n_n_01_1_11 x i) : (⟨S1024x67735, .f32⟩ : BufTy).Contents (Elt F) → (⟨S1024x2, .i32⟩ : BufTy).Contents (Elt F) → (⟨S1024, .f32⟩ : BufTy).Contents (Elt F)) : HloOp τ sig (Elt F))).result _ _ = _
  refine (binary_result ..).trans ?_
  rw [ops_wr.after_take 232 main_v105 (by decide), st_main_v105 m c, ops_wr.after_take 232 main_v123 (by decide), st_main_v123 m c]
  rfl

theorem st_main_v125 (m : (ℓ : Loc nD τ sig) → Buf (Elt F) ℓ) (c : Dev nD) :
    after (ops (F := F)) (launchContents m c) (Proc.devRef .tc main_v125) = val_main_v125 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  refine (ops_wr.after_at 233 (by decide) main_v125 (by decide) _).trans ?_
  show ((binary main_v110 main_v124 main_v125 (addf : (⟨S1024, .f32⟩ : BufTy).Contents (Elt F) → (⟨S1024, .f32⟩ : BufTy).Contents (Elt F) → (⟨S1024, .f32⟩ : BufTy).Contents (Elt F)) : HloOp τ sig (Elt F))).result _ _ = _
  refine (binary_result ..).trans ?_
  rw [ops_wr.after_take 233 main_v110 (by decide), st_main_v110 m c, ops_wr.after_take 233 main_v124 (by decide), st_main_v124 m c]
  rfl

theorem st_main_c_31 (m : (ℓ : Loc nD τ sig) → Buf (Elt F) ℓ) (c : Dev nD) :
    after (ops (F := F)) (launchContents m c) (Proc.devRef .tc main_c_31) = val_main_c_31 (F := F) := by
  refine (ops_wr.after_at 234 (by decide) main_c_31 (by decide) _).trans ?_
  show ((nullary main_c_31 (constantI S_ 32 3#32) : HloOp τ sig (Elt F))).result _ _ = _
  refine (nullary_result ..).trans ?_
  rfl

theorem st_main_v126 (m : (ℓ : Loc nD τ sig) → Buf (Elt F) ℓ) (c : Dev nD) :
    after (ops (F := F)) (launchContents m c) (Proc.devRef .tc main_v126) = val_main_v126 (F := F) := by
  refine (ops_wr.after_at 235 (by decide) main_v126 (by decide) _).trans ?_
  show ((unary main_c_31 main_v126 (broadcastInDim S1024 ![] bcast_S_S1024 : (⟨S_, .i32⟩ : BufTy).Contents (Elt F) → (⟨S1024, .i32⟩ : BufTy).Contents (Elt F)) : HloOp τ sig (Elt F))).result _ _ = _
  refine (unary_result ..).trans ?_
  rw [ops_wr.after_take 235 main_c_31 (by decide), st_main_c_31 m c]
  rfl

theorem st_main_v127 (m : (ℓ : Loc nD τ sig) → Buf (Elt F) ℓ) (c : Dev nD) :
    after (ops (F := F)) (launchContents m c) (Proc.devRef .tc main_v127) = val_main_v127 (F := F) (m ((c.tc : Thread nD τ).loc main_arg1)) := by
  refine (ops_wr.after_at 236 (by decide) main_v127 (by decide) _).trans ?_
  show ((binary main_v20 main_v126 main_v127 (cmpi .eq : (⟨S1024, .i32⟩ : BufTy).Contents (Elt F) → (⟨S1024, .i32⟩ : BufTy).Contents (Elt F) → (⟨S1024, .i1⟩ : BufTy).Contents (Elt F)) : HloOp τ sig (Elt F))).result _ _ = _
  refine (binary_result ..).trans ?_
  rw [ops_wr.after_take 236 main_v20 (by decide), st_main_v20 m c, ops_wr.after_take 236 main_v126 (by decide), st_main_v126 m c]
  rfl

theorem st_main_v128 (m : (ℓ : Loc nD τ sig) → Buf (Elt F) ℓ) (c : Dev nD) :
    after (ops (F := F)) (launchContents m c) (Proc.devRef .tc main_v128) = val_main_v128 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  refine (ops_wr.after_at 237 (by decide) main_v128 (by decide) _).trans ?_
  show ((unary main_v125 main_v128 (Host.negf : (⟨S1024, .f32⟩ : BufTy).Contents (Elt F) → (⟨S1024, .f32⟩ : BufTy).Contents (Elt F)) : HloOp τ sig (Elt F))).result _ _ = _
  refine (unary_result ..).trans ?_
  rw [ops_wr.after_take 237 main_v125 (by decide), st_main_v125 m c]
  rfl

theorem st_main_v129 (m : (ℓ : Loc nD τ sig) → Buf (Elt F) ℓ) (c : Dev nD) :
    after (ops (F := F)) (launchContents m c) (Proc.devRef .tc main_v129) = val_main_v129 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  refine (ops_wr.after_at 238 (by decide) main_v129 (by decide) _).trans ?_
  show ((TRef.ternary (TRef.of (T := ⟨S1024, .i1⟩) main_v127) (TRef.of (T := ⟨S1024, .f32⟩) main_v128) (TRef.of (T := ⟨S1024, .f32⟩) main_v98) (TRef.of (T := ⟨S1024, .f32⟩) main_v129) select : HloOp τ sig (Elt F))).result _ _ = _
  exact eq_of_heq (TRef.ternary_result_heq _ _ _ _ _ _ (val_main_v127 (F := F) (m ((c.tc : Thread nD τ).loc main_arg1))) (val_main_v128 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) (val_main_v98 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg14)) (m ((c.tc : Thread nD τ).loc main_arg15)))
    (heq_of_eq ((ops_wr.after_take 238 main_v127 (by decide) _).trans (st_main_v127 m c)))
    (heq_of_eq ((ops_wr.after_take 238 main_v128 (by decide) _).trans (st_main_v128 m c)))
    (heq_of_eq ((ops_wr.after_take 238 main_v98 (by decide) _).trans (st_main_v98 m c))))

end Cert.ReferenceIdeal.Stages

end
-- ==== Proof.Ref.Words.lean ====
import Idealize.ShloMosaic.Lib.WordArith
import Idealize.ShloMosaic.Lib.ValueIdx

namespace Cert.ReferenceIdeal.RefValue

open Idealize.ShloMosaic

theorem geWord (t k : BitVec 32) :
    (IntOp.cmpi .sge t k).setWidth 32 = if k.toInt ≤ t.toInt then 1#32 else 0#32 := by
  show (BitVec.ofBool (k.sle t)).setWidth 32 = _
  rw [BitVec.sle_eq_decide]
  by_cases h : k.toInt ≤ t.toInt
  · rw [if_pos h, decide_eq_true h]; rfl
  · rw [if_neg h, decide_eq_false h]; rfl

def cidWord (t : BitVec 32) : BitVec 32 :=
  IntOp.addi (IntOp.addi ((IntOp.cmpi .sge t 20000#32).setWidth 32) ((IntOp.cmpi .sge t 40000#32).setWidth 32))
    ((IntOp.cmpi .sge t 200000#32).setWidth 32)

theorem cidWord_eq (t : BitVec 32) :
    cidWord t = if 200000 ≤ t.toInt then 3#32 else if 40000 ≤ t.toInt then 2#32 else if 20000 ≤ t.toInt then 1#32 else 0#32 := by
  unfold cidWord
  rw [geWord, geWord, geWord]
  have e1 : (20000#32 : BitVec 32).toInt = 20000 := by decide
  have e2 : (40000#32 : BitVec 32).toInt = 40000 := by decide
  have e3 : (200000#32 : BitVec 32).toInt = 200000 := by decide
  rw [e1, e2, e3]
  split_ifs <;> first | rfl | omega

theorem select_cid {α : Type} (t k : BitVec 32) (A B : α) :
    Scalar.select (IntOp.cmpi .eq (cidWord t) k) A B = if cidWord t = k then A else B := by
  show (if BitVec.ofBool (cidWord t == k) = 1 then A else B) = _
  by_cases h : cidWord t = k
  · rw [if_pos h, h, beq_self_eq_true]; rfl
  · rw [if_neg h, beq_eq_false_iff_ne.2 h]; rfl

theorem where_chain {α : Type} (t : BitVec 32) (A3 A2 A1 A0 : α) :
    Scalar.select (IntOp.cmpi .eq (cidWord t) 3#32) A3
      (Scalar.select (IntOp.cmpi .eq (cidWord t) 2#32) A2 (Scalar.select (IntOp.cmpi .eq (cidWord t) 1#32) A1 A0))
    = if 200000 ≤ t.toInt then A3 else if 40000 ≤ t.toInt then A2 else if 20000 ≤ t.toInt then A1 else A0 := by
  rw [select_cid, select_cid, select_cid, cidWord_eq]
  split_ifs <;> first | rfl | (exfalso; omega) | (exfalso; simp_all)

theorem clip_toInt (z hi : BitVec 32) (hhi : 0 ≤ hi.toInt) :
    (IntOp.minsi hi (IntOp.maxsi 0#32 z)).toInt = max 0 (min z.toInt hi.toInt) := by
  unfold IntOp.minsi IntOp.maxsi
  simp only [BitVec.slt_eq_decide]
  have e0 : (0#32 : BitVec 32).toInt = 0 := by decide
  split_ifs <;> simp_all <;> omega

theorem wrap_of_nonneg (c V : BitVec 32) (hc : 0 ≤ c.toInt) :
    Scalar.select (IntOp.cmpi .slt c 0#32) (IntOp.addi c V) c = c := by
  show (if BitVec.ofBool (c.slt 0#32) = 1 then _ else _) = _
  have e0 : (0#32 : BitVec 32).toInt = 0 := by decide
  have : c.slt 0#32 = false := by rw [BitVec.slt_eq_decide, e0]; exact decide_eq_false (by omega)
  rw [this]; rfl

theorem rowWord_toInt (n : Fin 1024) : (BitVec.ofNat 32 n.val).toInt = n.val :=
  WordArith.toInt_ofNat_small _ (by have := n.isLt; omega)

end Cert.ReferenceIdeal.RefValue
-- ==== Proof.Ref.Gather.lean ====
import Idealize.ShloMosaic.Lib.ValueIdx

namespace Cert.ReferenceIdeal.RefValue

open Idealize.ShloMosaic Idealize.ShloMosaic.ValueIdx

section Pair
variable {α : Type}

abbrev pairDims (R V : Nat) (wf : GatherDims.WF ⟨2, ![R, V]⟩ ⟨2, ![R, 2]⟩ ⟨1, ![R]⟩ [] [0, 1] [] [0, 1] [] 1 ![1, 1]) :
    GatherDims ⟨2, ![R, V]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

theorem gather_pair_apply {R V w : Nat} (hR : 0 < R) (hV : 0 < V)
    (wf : GatherDims.WF ⟨2, ![R, V]⟩ ⟨2, ![R, 2]⟩ ⟨1, ![R]⟩ [] [0, 1] [] [0, 1] [] 1 ![1, 1])
    (x : (⟨2, ![R, V]⟩ : Shape).Idx → α) (idx : IVec ⟨2, ![R, 2]⟩ w) (n : Fin R) :
    Host.gather (pairDims R V wf) x idx (ix1 n)
      = x (ix2 ⟨min (idx (ix2 n 0)).toInt.toNat (R - 1), by omega⟩ ⟨min (idx (ix2 n 1)).toInt.toNat (V - 1), by omega⟩) := by
  unfold Host.gather
  congr 1
  funext a
  refine Fin.ext ?_
  show (pairDims R V wf).start (ix1 n) idx a + (pairDims R V wf).batchCoord (ix1 n) a + (pairDims R V wf).offCoord (ix1 n) a = _
  rw [GatherDims.batchCoord_eq_zero _ _ _ List.not_mem_nil]
  match a with
  | ⟨0, _⟩ =>
    have hm : (0 : Fin 2) ∈ (pairDims R V wf).startIndexMap := List.mem_cons_self
    rw [GatherDims.offCoord_eq_zero _ _ _ (fun h => ((GatherDims.mem_sKept _ _).mp h).1 List.mem_cons_self)]
    simp only [Nat.add_zero]
    unfold GatherDims.start
    rw [dif_pos]
    swap
    · exact hm
    refine congrArg₂ min (congrArg (fun j => (idx j).toInt.toNat) ?_) rfl
    funext b; refine Fin.ext ?_
    match b with
    | ⟨0, _⟩ => rfl
    | ⟨1, _⟩ => rfl
  | ⟨1, _⟩ =>
    have hm : (1 : Fin 2) ∈ (pairDims R V wf).startIndexMap := List.mem_cons_of_mem _ List.mem_cons_self
    rw [GatherDims.offCoord_eq_zero _ _ _ (fun h => ((GatherDims.mem_sKept _ _).mp h).1 (List.mem_cons_of_mem _ List.mem_cons_self))]
    simp only [Nat.add_zero]
    unfold GatherDims.start
    rw [dif_pos]
    swap
    · exact hm
    refine congrArg₂ min (congrArg (fun j => (idx j).toInt.toNat) ?_) rfl
    funext b; refine Fin.ext ?_
    match b with
    | ⟨0, _⟩ => rfl
    | ⟨1, _⟩ => rfl

end Pair

end Cert.ReferenceIdeal.RefValue
-- ==== Proof.Ref.Rows.lean ====
import Idealize.ShloMosaic.Lib.ValueIdx
import Idealize.ShloMosaic.PureOps.Reduce
import Idealize.ShloMosaic.PureOps.Ideal.Laws
import proofs.«416365_j66236985639681_1_alg».proof.Proof.Spec

namespace Cert.ReferenceIdeal.RefValue

open Idealize.ShloMosaic Idealize.ShloMosaic.ValueIdx

theorem ofBits_neg_inf : Ideal.ofBits .f32 0xFF800000#32 = (⊥ : EReal) := by
  simp [Ideal.ofBits, Ideal.ieee]

theorem lift_row {R V : Nat} (h : (⟨2, ![R, V]⟩ : Shape).Reduces [1] (⟨1, ![R]⟩ : Shape)) (n : Fin R)
    (k : Fin ((⟨2, ![R, V]⟩ : Shape).size 1)) : h.lift (ix1 n) k = ix2 n (⟨k.val, k.isLt⟩ : Fin V) := by
  funext c; apply Fin.ext
  fin_cases c <;> rfl

theorem hostReduce_max_row {R V : Nat} (x : FVec Ideal ⟨2, ![R, V]⟩ .f32) (init : FVec Ideal ⟨0, ![]⟩ .f32)
    (h' : (⟨2, ![R, V]⟩ : Shape).ReducesTo [1] (⟨1, ![R]⟩ : Shape))
    (h : (⟨2, ![R, V]⟩ : Shape).Reduces [1] (⟨1, ![R]⟩ : Shape)) (hu : 0 < (⟨0, ![]⟩ : Shape).numel)
    (hinit : init (Shape.Idx.first hu) = (⊥ : EReal)) (n : Fin R) :
    Host.reduce FloatOps.maximumf x init h' hu (ix1 n) = Finset.univ.sup fun v : Fin V => (x (ix2 n v) : EReal) := by
  rw [Host.reduce_eq_fold_single FloatOps.maximumf x _ h' h hu, hinit]
  have hf : (x ∘ h.lift (ix1 n)) = fun k : Fin V => x (ix2 n k) := funext fun k => congrArg x (lift_row h n k)
  rw [hf]
  rfl

theorem logSoftmax_of_parts {V : Nat} (x : Fin V → EReal) (v : Fin V) (M z : EReal)
    (hM : M = max ⊥ (Finset.univ.sup x)) (hz : z = 0) :
    (x v - M) - Ideal.log (z + ∑ k, Ideal.exp (x k - M)) = Cert.Spec.logSoftmax x v := by
  subst hz
  have e : M = Finset.univ.sup x := by rw [hM]; exact max_eq_right bot_le
  subst e
  rw [zero_add]
  rfl

theorem lsm_row {V : Nat} (logit sh ex out : (⟨2, ![1024, V]⟩ : Shape).Idx → EReal) (mx sm : (⟨1, ![1024]⟩ : Shape).Idx → EReal)
    (z : EReal) (n : Fin 1024)
    (h_mx : mx (ix1 n) = max ⊥ (Finset.univ.sup fun v : Fin V => logit (ix2 n v)))
    (h_sh : ∀ k : Fin V, sh (ix2 n k) = logit (ix2 n k) - mx (ix1 n))
    (h_ex : ∀ k : Fin V, ex (ix2 n k) = Ideal.exp (sh (ix2 n k)))
    (h_sm : sm (ix1 n) = z + ∑ k : Fin V, ex (ix2 n k)) (hz : z = 0)
    (h_out : ∀ k : Fin V, out (ix2 n k) = sh (ix2 n k) - Ideal.log (sm (ix1 n))) (v : Fin V) :
    out (ix2 n v) = Cert.Spec.logSoftmax (fun v' => logit (ix2 n v')) v := by
  have hs : (∑ k : Fin V, ex (ix2 n k)) = ∑ k : Fin V, Ideal.exp (logit (ix2 n k) - mx (ix1 n)) :=
    Finset.sum_congr rfl fun k _ => by rw [h_ex, h_sh]
  rw [h_out, h_sh, h_sm, hs]
  exact logSoftmax_of_parts (fun v' => logit (ix2 n v')) v (mx (ix1 n)) z h_mx hz

end Cert.ReferenceIdeal.RefValue
-- ==== Proof.Ref.Cols.lean ====
import Idealize.ShloMosaic.Lib.Pipeline.Value
import proofs.«416365_j66236985639681_1_alg».proof.Proof.Spec
import proofs.«416365_j66236985639681_1_alg».proof.Proof.Ref.Words
import proofs.«416365_j66236985639681_1_alg».proof.Proof.Ref.Gather

namespace Cert.ReferenceIdeal.RefValue

open Idealize.ShloMosaic Idealize.ShloMosaic.ValueIdx

theorem ix2_of {n0 n1 : Nat} (i : (⟨2, ![n0, n1]⟩ : Shape).Idx) (a : Fin n0) (b : Fin n1) (h0 : (i 0).val = a.val)
    (h1 : (i 1).val = b.val) : i = ix2 a b := by
  rw [eq_ix2 i]; exact congrArg₂ ix2 (Fin.ext h0) (Fin.ext h1)

theorem ix1_of {n0 : Nat} (i : (⟨1, ![n0]⟩ : Shape).Idx) (a : Fin n0) (h0 : (i 0).val = a.val) : i = ix1 a := by
  rw [eq_ix1 i]; exact congrArg ix1 (Fin.ext h0)

section Cols
variable {α : Type}

theorem cols_left {R : Nat} (A B : (⟨2, ![R, 1]⟩ : Shape).Idx → α)
    (h : Shape.Concatenates [(⟨2, ![R, 1]⟩ : Shape), (⟨2, ![R, 1]⟩ : Shape)] (⟨2, ![R, 2]⟩ : Shape) 1) (n : Fin R) :
    concatenate (⟨2, ![R, 2]⟩ : Shape) 1 [⟨(⟨2, ![R, 1]⟩ : Shape), A⟩, ⟨(⟨2, ![R, 1]⟩ : Shape), B⟩] h (ix2 n 0) = A (ix2 n 0) :=
  concatenate_pair_apply_left 1 A B h (ix2 n 0) rfl (ix2 n 0) (fun b => match b with
    | ⟨0, _⟩ => rfl
    | ⟨1, _⟩ => rfl)

theorem cols_right {R : Nat} (A B : (⟨2, ![R, 1]⟩ : Shape).Idx → α)
    (h : Shape.Concatenates [(⟨2, ![R, 1]⟩ : Shape), (⟨2, ![R, 1]⟩ : Shape)] (⟨2, ![R, 2]⟩ : Shape) 1) (n : Fin R) :
    concatenate (⟨2, ![R, 2]⟩ : Shape) 1 [⟨(⟨2, ![R, 1]⟩ : Shape), A⟩, ⟨(⟨2, ![R, 1]⟩ : Shape), B⟩] h (ix2 n 1) = B (ix2 n 0) :=
  concatenate_pair_apply_right 1 A B h (ix2 n 1) rfl rfl (ix2 n 0) (fun b hb => match b, hb with
    | ⟨0, _⟩, _ => rfl
    | ⟨1, _⟩, hb => absurd rfl hb) rfl

theorem gather_cols {R V w : Nat} (hR : 0 < R) (hV : 0 < V)
    (wf : GatherDims.WF ⟨2, ![R, V]⟩ ⟨2, ![R, 2]⟩ ⟨1, ![R]⟩ [] [0, 1] [] [0, 1] [] 1 ![1, 1])
    (x : (⟨2, ![R, V]⟩ : Shape).Idx → α) (A B : IVec ⟨2, ![R, 1]⟩ w)
    (h : Shape.Concatenates [(⟨2, ![R, 1]⟩ : Shape), (⟨2, ![R, 1]⟩ : Shape)] (⟨2, ![R, 2]⟩ : Shape) 1) (n : Fin R) :
    Host.gather (pairDims R V wf) x
        (concatenate (⟨2, ![R, 2]⟩ : Shape) 1 [⟨(⟨2, ![R, 1]⟩ : Shape), A⟩, ⟨(⟨2, ![R, 1]⟩ : Shape), B⟩] h) (ix1 n)
      = x (ix2 ⟨min (A (ix2 n 0)).toInt.toNat (R - 1), by omega⟩ ⟨min (B (ix2 n 0)).toInt.toNat (V - 1), by omega⟩) := by
  rw [gather_pair_apply hR hV wf]
  refine congrArg x (congrArg₂ ix2 (Fin.ext ?_) (Fin.ext ?_))
  · exact congrArg (fun z : BitVec w => min z.toInt.toNat (R - 1)) (cols_left A B h n)
  · exact congrArg (fun z : BitVec w => min z.toInt.toNat (V - 1)) (cols_right A B h n)

theorem rows_joined {N₁ N₂ N K : Nat} (hN : N₁ + N₂ = N) (A : (⟨2, ![N₁, K]⟩ : Shape).Idx → α)
    (B : (⟨2, ![N₂, K]⟩ : Shape).Idx → α)
    (h : Shape.Concatenates [(⟨2, ![N₁, K]⟩ : Shape), (⟨2, ![N₂, K]⟩ : Shape)] (⟨2, ![N, K]⟩ : Shape) 0) (v : Fin N) (e : Fin K) :
    concatenate (⟨2, ![N, K]⟩ : Shape) 0 [⟨(⟨2, ![N₁, K]⟩ : Shape), A⟩, ⟨(⟨2, ![N₂, K]⟩ : Shape), B⟩] h (ix2 v e)
      = if hv : v.val < N₁ then A (ix2 ⟨v.val, hv⟩ e) else B (ix2 ⟨v.val - N₁, by have := v.isLt; omega⟩ e) := by
  split
  · next hv =>
    exact concatenate_pair_apply_left 0 A B h (ix2 v e) rfl (ix2 ⟨v.val, hv⟩ e) (fun b => match b with
      | ⟨0, _⟩ => rfl
      | ⟨1, _⟩ => rfl)
  · next hv =>
    exact concatenate_pair_apply_right 0 A B h (ix2 v e) rfl rfl (ix2 ⟨v.val - N₁, by have := v.isLt; omega⟩ e)
      (fun b hb => match b, hb with
        | ⟨0, _⟩, hb => absurd rfl hb
        | ⟨1, _⟩, _ => rfl)
      (by show v.val - N₁ + N₁ = v.val; omega)

theorem vec_joined {N₁ N₂ N : Nat} (hN : N₁ + N₂ = N) (A : (⟨1, ![N₁]⟩ : Shape).Idx → α) (B : (⟨1, ![N₂]⟩ : Shape).Idx → α)
    (h : Shape.Concatenates [(⟨1, ![N₁]⟩ : Shape), (⟨1, ![N₂]⟩ : Shape)] (⟨1, ![N]⟩ : Shape) 0) (v : Fin N) :
    concatenate (⟨1, ![N]⟩ : Shape) 0 [⟨(⟨1, ![N₁]⟩ : Shape), A⟩, ⟨(⟨1, ![N₂]⟩ : Shape), B⟩] h (ix1 v)
      = if hv : v.val < N₁ then A (ix1 ⟨v.val, hv⟩) else B (ix1 ⟨v.val - N₁, by have := v.isLt; omega⟩) := by
  split
  · next hv =>
    exact concatenate_pair_apply_left 0 A B h (ix1 v) rfl (ix1 ⟨v.val, hv⟩) (fun b => match b with
      | ⟨0, _⟩ => rfl)
  · next hv =>
    exact concatenate_pair_apply_right 0 A B h (ix1 v) rfl rfl (ix1 ⟨v.val - N₁, by have := v.isLt; omega⟩)
      (fun b hb => match b, hb with
        | ⟨0, _⟩, hb => absurd rfl hb)
      (by show v.val - N₁ + N₁ = v.val; omega)

end Cols

theorem row_index (n : Fin 1024) :
    min (Scalar.select (IntOp.cmpi .slt (BitVec.ofNat 32 n.val) 0#32) (IntOp.addi (BitVec.ofNat 32 n.val) 1024#32)
      (BitVec.ofNat 32 n.val)).toInt.toNat (1024 - 1) = n.val := by
  rw [wrap_of_nonneg _ _ (by rw [rowWord_toInt]; omega), rowWord_toInt]
  have := n.isLt
  omega

theorem col_index (z hi fold : BitVec 32) (W V : Nat) (hW : 0 < W) (hWV : W ≤ V) (hhi : hi.toInt = (W : ℤ) - 1) :
    min (Scalar.select (IntOp.cmpi .slt (IntOp.minsi hi (IntOp.maxsi 0#32 z)) 0#32)
      (IntOp.addi (IntOp.minsi hi (IntOp.maxsi 0#32 z)) fold) (IntOp.minsi hi (IntOp.maxsi 0#32 z))).toInt.toNat (V - 1)
      = (Cert.Spec.clipIdx W hW z.toInt).val := by
  have hc := clip_toInt z hi (by omega)
  rw [wrap_of_nonneg _ _ (by rw [hc]; omega), hc, hhi]
  show _ = (max 0 (min z.toInt ((W : ℤ) - 1))).toNat
  omega

end Cert.ReferenceIdeal.RefValue
-- ==== Proof.Ref.RefValue.lean ====
import proofs.«416365_j66236985639681_1_alg».proof.Proof.Ref.ReadP
import proofs.«416365_j66236985639681_1_alg».proof.Proof.Spec
import proofs.«416365_j66236985639681_1_alg».proof.Proof.Ref.Words
import proofs.«416365_j66236985639681_1_alg».proof.Proof.Ref.Gather
import proofs.«416365_j66236985639681_1_alg».proof.Proof.Ref.Rows
import proofs.«416365_j66236985639681_1_alg».proof.Proof.Ref.Cols

noncomputable section

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx

abbrev mat {n0 n1 : Nat} (x : (⟨2, ![n0, n1]⟩ : Shape).Idx → EReal) : Fin n0 → Fin n1 → EReal := fun a b => x (ix2 a b)

abbrev vec {n0 : Nat} (x : (⟨1, ![n0]⟩ : Shape).Idx → EReal) : Fin n0 → EReal := fun a => x (ix1 a)

section Stages

variable (x0 : (⟨S1024x512, .f32⟩ : BufTy).Contents (Elt Ideal)) (x1 : (⟨S1024, .i32⟩ : BufTy).Contents (Elt Ideal))
  (x2 : (⟨S20000x512, .f32⟩ : BufTy).Contents (Elt Ideal)) (x3 : (⟨S20000, .f32⟩ : BufTy).Contents (Elt Ideal))
  (x4 : (⟨S512x512, .f32⟩ : BufTy).Contents (Elt Ideal)) (x5 : (⟨S20000x128, .f32⟩ : BufTy).Contents (Elt Ideal))
  (x6 : (⟨S20000, .f32⟩ : BufTy).Contents (Elt Ideal)) (x7 : (⟨S512x128, .f32⟩ : BufTy).Contents (Elt Ideal))
  (x8 : (⟨S160000x32, .f32⟩ : BufTy).Contents (Elt Ideal)) (x9 : (⟨S160000, .f32⟩ : BufTy).Contents (Elt Ideal))
  (x10 : (⟨S512x32, .f32⟩ : BufTy).Contents (Elt Ideal)) (x11 : (⟨S67735x8, .f32⟩ : BufTy).Contents (Elt Ideal))
  (x12 : (⟨S67735, .f32⟩ : BufTy).Contents (Elt Ideal)) (x13 : (⟨S512x8, .f32⟩ : BufTy).Contents (Elt Ideal))
  (x14 : (⟨S3x512, .f32⟩ : BufTy).Contents (Elt Ideal)) (x15 : (⟨S3, .f32⟩ : BufTy).Contents (Elt Ideal))

theorem proj0_at (n : Fin 1024) (e : Fin 512) :
    val_main_v3 (F := Ideal) x0 x4 (ix2 n e) = Cert.Spec.proj (mat x0) (mat x4) n e := by
  rw [val_main_v3_apply]
  refine Finset.sum_congr rfl fun d _ => ?_
  rw [ix2_of (lidx_main_v3 (ix2 n e) d) n d rfl rfl, ix2_of (ridx_main_v3 (ix2 n e) d) d e rfl rfl]

theorem proj1_at (n : Fin 1024) (e : Fin 128) :
    val_main_v37 (F := Ideal) x0 x7 (ix2 n e) = Cert.Spec.proj (mat x0) (mat x7) n e := by
  rw [val_main_v37_apply]
  refine Finset.sum_congr rfl fun d _ => ?_
  rw [ix2_of (lidx_main_v37 (ix2 n e) d) n d rfl rfl, ix2_of (ridx_main_v37 (ix2 n e) d) d e rfl rfl]

theorem proj2_at (n : Fin 1024) (e : Fin 32) :
    val_main_v68 (F := Ideal) x0 x10 (ix2 n e) = Cert.Spec.proj (mat x0) (mat x10) n e := by
  rw [val_main_v68_apply]
  refine Finset.sum_congr rfl fun d _ => ?_
  rw [ix2_of (lidx_main_v68 (ix2 n e) d) n d rfl rfl, ix2_of (ridx_main_v68 (ix2 n e) d) d e rfl rfl]

theorem proj3_at (n : Fin 1024) (e : Fin 8) :
    val_main_v99 (F := Ideal) x0 x13 (ix2 n e) = Cert.Spec.proj (mat x0) (mat x13) n e := by
  rw [val_main_v99_apply]
  refine Finset.sum_congr rfl fun d _ => ?_
  rw [ix2_of (lidx_main_v99 (ix2 n e) d) n d rfl rfl, ix2_of (ridx_main_v99 (ix2 n e) d) d e rfl rfl]

theorem headW_at (v : Fin 20003) (e : Fin 512) :
    val_main_v1 (F := Ideal) x2 x14 (ix2 v e) = Cert.Spec.headW (mat x2) (mat x14) v e :=
  (rows_joined (N₁ := 20000) (N₂ := 3) (N := 20003) (K := 512) rfl x2 x14 concatenates_S20000x512_S3x512_S20003x512_d0 v e).trans rfl

theorem headB_at (v : Fin 20003) :
    val_main_v2 (F := Ideal) x3 x15 (ix1 v) = Cert.Spec.headB (vec x3) (vec x15) v :=
  (vec_joined (N₁ := 20000) (N₂ := 3) (N := 20003) rfl x3 x15 concatenates_S20000_S3_S20003_d0 v).trans rfl

theorem head_logits (n : Fin 1024) (v : Fin 20003) :
    val_main_v8 (F := Ideal) x0 x2 x3 x4 x14 x15 (ix2 n v)
      = Cert.Spec.logits (Cert.Spec.proj (mat x0) (mat x4)) (Cert.Spec.headW (mat x2) (mat x14)) (Cert.Spec.headB (vec x3) (vec x15)) n v := by
  rw [val_main_v8_apply, val_main_v5_apply, val_main_v7_apply, val_main_v6_apply, Ideal.addf_def]
  unfold Cert.Spec.logits
  refine congrArg₂ (· + ·) (Finset.sum_congr rfl fun e _ => ?_) ?_
  · rw [val_main_v4_apply, ix2_of (lidx_main_v5 (ix2 n v) e) n e rfl rfl,
      ix2_of (idx_main_v4 (ridx_main_v5 (ix2 n v) e)) v e rfl rfl, proj0_at, headW_at]
  · rw [ix1_of (idx_main_v6 (idx_main_v7 (ix2 n v))) v rfl, headB_at]

theorem tail1_logits (n : Fin 1024) (v : Fin 20000) :
    val_main_v42 (F := Ideal) x0 x5 x6 x7 (ix2 n v)
      = Cert.Spec.logits (Cert.Spec.proj (mat x0) (mat x7)) (mat x5) (vec x6) n v := by
  rw [val_main_v42_apply, val_main_v39_apply, val_main_v41_apply, val_main_v40_apply, Ideal.addf_def]
  unfold Cert.Spec.logits
  refine congrArg₂ (· + ·) (Finset.sum_congr rfl fun e _ => ?_) ?_
  · rw [val_main_v38_apply, ix2_of (lidx_main_v39 (ix2 n v) e) n e rfl rfl,
      ix2_of (idx_main_v38 (ridx_main_v39 (ix2 n v) e)) v e rfl rfl, proj1_at]
  · rw [ix1_of (idx_main_v40 (idx_main_v41 (ix2 n v))) v rfl]

theorem tail2_logits (n : Fin 1024) (v : Fin 160000) :
    val_main_v73 (F := Ideal) x0 x8 x9 x10 (ix2 n v)
      = Cert.Spec.logits (Cert.Spec.proj (mat x0) (mat x10)) (mat x8) (vec x9) n v := by
  rw [val_main_v73_apply, val_main_v70_apply, val_main_v72_apply, val_main_v71_apply, Ideal.addf_def]
  unfold Cert.Spec.logits
  refine congrArg₂ (· + ·) (Finset.sum_congr rfl fun e _ => ?_) ?_
  · rw [val_main_v69_apply, ix2_of (lidx_main_v70 (ix2 n v) e) n e rfl rfl,
      ix2_of (idx_main_v69 (ridx_main_v70 (ix2 n v) e)) v e rfl rfl, proj2_at]
  · rw [ix1_of (idx_main_v71 (idx_main_v72 (ix2 n v))) v rfl]

theorem tail3_logits (n : Fin 1024) (v : Fin 67735) :
    val_main_v104 (F := Ideal) x0 x11 x12 x13 (ix2 n v)
      = Cert.Spec.logits (Cert.Spec.proj (mat x0) (mat x13)) (mat x11) (vec x12) n v := by
  rw [val_main_v104_apply, val_main_v101_apply, val_main_v103_apply, val_main_v102_apply, Ideal.addf_def]
  unfold Cert.Spec.logits
  refine congrArg₂ (· + ·) (Finset.sum_congr rfl fun e _ => ?_) ?_
  · rw [val_main_v100_apply, ix2_of (lidx_main_v101 (ix2 n v) e) n e rfl rfl,
      ix2_of (idx_main_v100 (ridx_main_v101 (ix2 n v) e)) v e rfl rfl, proj3_at]
  · rw [ix1_of (idx_main_v102 (idx_main_v103 (ix2 n v))) v rfl]

theorem head_max (n : Fin 1024) :
    val_main_call0_v2 (F := Ideal) x0 x2 x3 x4 x14 x15 (ix1 n)
      = max ⊥ (Finset.univ.sup fun v : Fin 20003 => (val_main_v8 (F := Ideal) x0 x2 x3 x4 x14 x15 (ix2 n v) : EReal)) := by
  rw [val_main_call0_v2_apply, val_main_call0_v1_apply, val_main_call0_cst_0_apply]
  unfold val_main_call0_v0
  rw [hostReduce_max_row (R := 1024) (V := 20003) _ _ reducesTo_S1024x20003_S1024_d1 (by decide) h_S_ ofBits_neg_inf n]
  exact congrArg (max · _) ofBits_neg_inf

theorem head_lsm (n : Fin 1024) (v : Fin 20003) :
    val_main_v9 (F := Ideal) x0 x2 x3 x4 x14 x15 (ix2 n v)
      = Cert.Spec.logSoftmax (fun v' => (val_main_v8 (F := Ideal) x0 x2 x3 x4 x14 x15 (ix2 n v') : EReal)) v :=
  lsm_row (V := 20003) (val_main_v8 (F := Ideal) x0 x2 x3 x4 x14 x15) (val_main_call0_v5 (F := Ideal) x0 x2 x3 x4 x14 x15)
    (val_main_call0_v6 (F := Ideal) x0 x2 x3 x4 x14 x15) (val_main_v9 (F := Ideal) x0 x2 x3 x4 x14 x15)
    (val_main_call0_v2 (F := Ideal) x0 x2 x3 x4 x14 x15) (val_main_call0_v7 (F := Ideal) x0 x2 x3 x4 x14 x15)
    (Ideal.ofBits .f32 0x00000000#32) n (head_max x0 x2 x3 x4 x14 x15 n)
    (fun k => by
      rw [val_main_call0_v5_apply, val_main_call0_v4_apply, val_main_call0_v3_apply,
        ix1_of (idx_main_call0_v3 (idx_main_call0_v4 (ix2 n k))) n rfl, Ideal.subf_def])
    (fun k => by rw [val_main_call0_v6_apply, Ideal.hostUnary_exp_def])
    (by
      rw [val_main_call0_v7_apply, val_main_call0_cst_1_apply]
      exact congrArg (_ + ·) (Finset.sum_congr rfl fun k _ => by rw [ix2_of (idx_main_call0_v7 (ix1 n) k) n k rfl rfl]))
    Ideal.ofBits_zero_f32
    (fun k => by
      rw [val_main_v9_apply, val_main_call0_v10_apply, val_main_call0_v9_apply, val_main_call0_v8_apply,
        ix1_of (idx_main_call0_v8 (idx_main_call0_v10 (ix2 n k))) n rfl, Ideal.subf_def, Ideal.hostUnary_log_def]) v

theorem head_lp (n : Fin 1024) (v : Fin 20003) :
    val_main_v9 (F := Ideal) x0 x2 x3 x4 x14 x15 (ix2 n v)
      = Cert.Spec.logSoftmax (Cert.Spec.logits (Cert.Spec.proj (mat x0) (mat x4)) (Cert.Spec.headW (mat x2) (mat x14)) (Cert.Spec.headB (vec x3) (vec x15)) n) v := by
  rw [head_lsm]
  exact congrArg (Cert.Spec.logSoftmax · v) (funext fun v' => head_logits x0 x2 x3 x4 x14 x15 n v')

theorem tail1_max (n : Fin 1024) :
    val_main_call2_v2 (F := Ideal) x0 x5 x6 x7 (ix1 n)
      = max ⊥ (Finset.univ.sup fun v : Fin 20000 => (val_main_v42 (F := Ideal) x0 x5 x6 x7 (ix2 n v) : EReal)) := by
  rw [val_main_call2_v2_apply, val_main_call2_v1_apply, val_main_call2_cst_0_apply]
  unfold val_main_call2_v0
  rw [hostReduce_max_row (R := 1024) (V := 20000) _ _ reducesTo_S1024x20000_S1024_d1 (by decide) h_S_ ofBits_neg_inf n]
  exact congrArg (max · _) ofBits_neg_inf

theorem tail1_lsm (n : Fin 1024) (v : Fin 20000) :
    val_main_v43 (F := Ideal) x0 x5 x6 x7 (ix2 n v)
      = Cert.Spec.logSoftmax (fun v' => (val_main_v42 (F := Ideal) x0 x5 x6 x7 (ix2 n v') : EReal)) v :=
  lsm_row (V := 20000) (val_main_v42 (F := Ideal) x0 x5 x6 x7) (val_main_call2_v5 (F := Ideal) x0 x5 x6 x7)
    (val_main_call2_v6 (F := Ideal) x0 x5 x6 x7) (val_main_v43 (F := Ideal) x0 x5 x6 x7)
    (val_main_call2_v2 (F := Ideal) x0 x5 x6 x7) (val_main_call2_v7 (F := Ideal) x0 x5 x6 x7)
    (Ideal.ofBits .f32 0x00000000#32) n (tail1_max x0 x5 x6 x7 n)
    (fun k => by
      rw [val_main_call2_v5_apply, val_main_call2_v4_apply, val_main_call2_v3_apply,
        ix1_of (idx_main_call2_v3 (idx_main_call2_v4 (ix2 n k))) n rfl, Ideal.subf_def])
    (fun k => by rw [val_main_call2_v6_apply, Ideal.hostUnary_exp_def])
    (by
      rw [val_main_call2_v7_apply, val_main_call2_cst_1_apply]
      exact congrArg (_ + ·) (Finset.sum_congr rfl fun k _ => by rw [ix2_of (idx_main_call2_v7 (ix1 n) k) n k rfl rfl]))
    Ideal.ofBits_zero_f32
    (fun k => by
      rw [val_main_v43_apply, val_main_call2_v10_apply, val_main_call2_v9_apply, val_main_call2_v8_apply,
        ix1_of (idx_main_call2_v8 (idx_main_call2_v10 (ix2 n k))) n rfl, Ideal.subf_def, Ideal.hostUnary_log_def]) v

theorem tail1_lp (n : Fin 1024) (v : Fin 20000) :
    val_main_v43 (F := Ideal) x0 x5 x6 x7 (ix2 n v)
      = Cert.Spec.logSoftmax (Cert.Spec.logits (Cert.Spec.proj (mat x0) (mat x7)) (mat x5) (vec x6) n) v := by
  rw [tail1_lsm]
  exact congrArg (Cert.Spec.logSoftmax · v) (funext fun v' => tail1_logits x0 x5 x6 x7 n v')

theorem tail2_max (n : Fin 1024) :
    val_main_call5_v2 (F := Ideal) x0 x8 x9 x10 (ix1 n)
      = max ⊥ (Finset.univ.sup fun v : Fin 160000 => (val_main_v73 (F := Ideal) x0 x8 x9 x10 (ix2 n v) : EReal)) := by
  rw [val_main_call5_v2_apply, val_main_call5_v1_apply, val_main_call5_cst_0_apply]
  unfold val_main_call5_v0
  rw [hostReduce_max_row (R := 1024) (V := 160000) _ _ reducesTo_S1024x160000_S1024_d1 (by decide) h_S_ ofBits_neg_inf n]
  exact congrArg (max · _) ofBits_neg_inf

theorem tail2_lsm (n : Fin 1024) (v : Fin 160000) :
    val_main_v74 (F := Ideal) x0 x8 x9 x10 (ix2 n v)
      = Cert.Spec.logSoftmax (fun v' => (val_main_v73 (F := Ideal) x0 x8 x9 x10 (ix2 n v') : EReal)) v :=
  lsm_row (V := 160000) (val_main_v73 (F := Ideal) x0 x8 x9 x10) (val_main_call5_v5 (F := Ideal) x0 x8 x9 x10)
    (val_main_call5_v6 (F := Ideal) x0 x8 x9 x10) (val_main_v74 (F := Ideal) x0 x8 x9 x10)
    (val_main_call5_v2 (F := Ideal) x0 x8 x9 x10) (val_main_call5_v7 (F := Ideal) x0 x8 x9 x10)
    (Ideal.ofBits .f32 0x00000000#32) n (tail2_max x0 x8 x9 x10 n)
    (fun k => by
      rw [val_main_call5_v5_apply, val_main_call5_v4_apply, val_main_call5_v3_apply,
        ix1_of (idx_main_call5_v3 (idx_main_call5_v4 (ix2 n k))) n rfl, Ideal.subf_def])
    (fun k => by rw [val_main_call5_v6_apply, Ideal.hostUnary_exp_def])
    (by
      rw [val_main_call5_v7_apply, val_main_call5_cst_1_apply]
      exact congrArg (_ + ·) (Finset.sum_congr rfl fun k _ => by rw [ix2_of (idx_main_call5_v7 (ix1 n) k) n k rfl rfl]))
    Ideal.ofBits_zero_f32
    (fun k => by
      rw [val_main_v74_apply, val_main_call5_v10_apply, val_main_call5_v9_apply, val_main_call5_v8_apply,
        ix1_of (idx_main_call5_v8 (idx_main_call5_v10 (ix2 n k))) n rfl, Ideal.subf_def, Ideal.hostUnary_log_def]) v

theorem tail2_lp (n : Fin 1024) (v : Fin 160000) :
    val_main_v74 (F := Ideal) x0 x8 x9 x10 (ix2 n v)
      = Cert.Spec.logSoftmax (Cert.Spec.logits (Cert.Spec.proj (mat x0) (mat x10)) (mat x8) (vec x9) n) v := by
  rw [tail2_lsm]
  exact congrArg (Cert.Spec.logSoftmax · v) (funext fun v' => tail2_logits x0 x8 x9 x10 n v')

theorem tail3_max (n : Fin 1024) :
    val_main_call8_v2 (F := Ideal) x0 x11 x12 x13 (ix1 n)
      = max ⊥ (Finset.univ.sup fun v : Fin 67735 => (val_main_v104 (F := Ideal) x0 x11 x12 x13 (ix2 n v) : EReal)) := by
  rw [val_main_call8_v2_apply, val_main_call8_v1_apply, val_main_call8_cst_0_apply]
  unfold val_main_call8_v0
  rw [hostReduce_max_row (R := 1024) (V := 67735) _ _ reducesTo_S1024x67735_S1024_d1 (by decide) h_S_ ofBits_neg_inf n]
  exact congrArg (max · _) ofBits_neg_inf

theorem tail3_lsm (n : Fin 1024) (v : Fin 67735) :
    val_main_v105 (F := Ideal) x0 x11 x12 x13 (ix2 n v)
      = Cert.Spec.logSoftmax (fun v' => (val_main_v104 (F := Ideal) x0 x11 x12 x13 (ix2 n v') : EReal)) v :=
  lsm_row (V := 67735) (val_main_v104 (F := Ideal) x0 x11 x12 x13) (val_main_call8_v5 (F := Ideal) x0 x11 x12 x13)
    (val_main_call8_v6 (F := Ideal) x0 x11 x12 x13) (val_main_v105 (F := Ideal) x0 x11 x12 x13)
    (val_main_call8_v2 (F := Ideal) x0 x11 x12 x13) (val_main_call8_v7 (F := Ideal) x0 x11 x12 x13)
    (Ideal.ofBits .f32 0x00000000#32) n (tail3_max x0 x11 x12 x13 n)
    (fun k => by
      rw [val_main_call8_v5_apply, val_main_call8_v4_apply, val_main_call8_v3_apply,
        ix1_of (idx_main_call8_v3 (idx_main_call8_v4 (ix2 n k))) n rfl, Ideal.subf_def])
    (fun k => by rw [val_main_call8_v6_apply, Ideal.hostUnary_exp_def])
    (by
      rw [val_main_call8_v7_apply, val_main_call8_cst_1_apply]
      exact congrArg (_ + ·) (Finset.sum_congr rfl fun k _ => by rw [ix2_of (idx_main_call8_v7 (ix1 n) k) n k rfl rfl]))
    Ideal.ofBits_zero_f32
    (fun k => by
      rw [val_main_v105_apply, val_main_call8_v10_apply, val_main_call8_v9_apply, val_main_call8_v8_apply,
        ix1_of (idx_main_call8_v8 (idx_main_call8_v10 (ix2 n k))) n rfl, Ideal.subf_def, Ideal.hostUnary_log_def]) v

theorem tail3_lp (n : Fin 1024) (v : Fin 67735) :
    val_main_v105 (F := Ideal) x0 x11 x12 x13 (ix2 n v)
      = Cert.Spec.logSoftmax (Cert.Spec.logits (Cert.Spec.proj (mat x0) (mat x13)) (mat x11) (vec x12) n) v := by
  rw [tail3_lsm]
  exact congrArg (Cert.Spec.logSoftmax · v) (funext fun v' => tail3_logits x0 x11 x12 x13 n v')

theorem slice1_at (n : Fin 1024) :
    val_main_v48 (F := Ideal) x0 x2 x3 x4 x14 x15 (ix1 n) = val_main_v9 (F := Ideal) x0 x2 x3 x4 x14 x15 (ix2 n ⟨20002, by omega⟩) := by
  rw [val_main_v48_apply, val_main_v47_apply,
    ix2_of (idx_main_v47 (idx_main_v48 (ix1 n))) n ⟨20002, by omega⟩ (Nat.div_one _) rfl]

theorem slice2_at (n : Fin 1024) :
    val_main_v79 (F := Ideal) x0 x2 x3 x4 x14 x15 (ix1 n) = val_main_v9 (F := Ideal) x0 x2 x3 x4 x14 x15 (ix2 n ⟨20001, by omega⟩) := by
  rw [val_main_v79_apply, val_main_v78_apply,
    ix2_of (idx_main_v78 (idx_main_v79 (ix1 n))) n ⟨20001, by omega⟩ (Nat.div_one _) rfl]

theorem slice3_at (n : Fin 1024) :
    val_main_v110 (F := Ideal) x0 x2 x3 x4 x14 x15 (ix1 n) = val_main_v9 (F := Ideal) x0 x2 x3 x4 x14 x15 (ix2 n ⟨20000, by omega⟩) := by
  rw [val_main_v110_apply, val_main_v109_apply,
    ix2_of (idx_main_v109 (idx_main_v110 (ix1 n))) n ⟨20000, by omega⟩ (Nat.div_one _) rfl]

theorem gather0_at (n : Fin 1024) :
    val_main_v35 (F := Ideal) x0 x1 x2 x3 x4 x14 x15 (ix1 n)
      = val_main_v9 (F := Ideal) x0 x2 x3 x4 x14 x15
          (ix2 n (Fin.castLE (by omega) (Cert.Spec.clipIdx 20000 (by omega) (x1 (ix1 n)).toInt))) := by
  unfold val_main_v35 val_main_v34
  refine (gather_cols (R := 1024) (V := 20003) (by omega) (by omega) gather_S1024x20003_S1024x2_S1024_n_01_n_n_01_1_11_wf
    (val_main_v9 (F := Ideal) x0 x2 x3 x4 x14 x15) (val_main_v32 (F := Ideal)) (val_main_v33 (F := Ideal) x1)
    concatenates_S1024x1_S1024x1_S1024x2_d1 n).trans ?_
  refine congrArg (val_main_v9 (F := Ideal) x0 x2 x3 x4 x14 x15) (congrArg₂ ix2 (Fin.ext ?_) (Fin.ext ?_))
  · simp only [val_main_v32_apply, val_main_v26_apply, val_main_v23_apply, val_main_v25_apply, val_main_v22_apply,
      val_main_v24_apply, val_main_c_4_apply, val_main_c_5_apply, val_main_v0_apply]
    exact row_index n
  · simp only [val_main_v33_apply, val_main_v31_apply, val_main_v28_apply, val_main_v30_apply, val_main_v27_apply,
      val_main_v29_apply, val_main_c_6_apply, val_main_c_7_apply, val_main_v21_apply, val_main_call1_v4_apply,
      val_main_call1_v3_apply, val_main_c_3_apply, val_main_call1_v2_apply, val_main_call1_v1_apply,
      val_main_call1_v0_apply, val_main_c_2_apply]
    rw [ix1_of (idx_main_v33 (ix2 n 0)) n rfl]
    exact col_index _ 19999#32 _ 20000 20003 (by omega) (by omega) (by decide)

theorem gather1_at (n : Fin 1024) :
    val_main_v62 (F := Ideal) x0 x1 x5 x6 x7 (ix1 n)
      = val_main_v43 (F := Ideal) x0 x5 x6 x7
          (ix2 n (Cert.Spec.clipIdx 20000 (by omega) (IntOp.subi (x1 (ix1 n)) 20000#32).toInt)) := by
  unfold val_main_v62 val_main_v61
  refine (gather_cols (R := 1024) (V := 20000) (by omega) (by omega) gather_S1024x20000_S1024x2_S1024_n_01_n_n_01_1_11_wf
    (val_main_v43 (F := Ideal) x0 x5 x6 x7) (val_main_v59 (F := Ideal)) (val_main_v60 (F := Ideal) x1)
    concatenates_S1024x1_S1024x1_S1024x2_d1 n).trans ?_
  refine congrArg (val_main_v43 (F := Ideal) x0 x5 x6 x7) (congrArg₂ ix2 (Fin.ext ?_) (Fin.ext ?_))
  · simp only [val_main_v59_apply, val_main_v53_apply, val_main_v50_apply, val_main_v52_apply, val_main_v49_apply,
      val_main_v51_apply, val_main_c_11_apply, val_main_c_12_apply, val_main_v0_apply]
    exact row_index n
  · simp only [val_main_v60_apply, val_main_v58_apply, val_main_v55_apply, val_main_v57_apply, val_main_v54_apply,
      val_main_v56_apply, val_main_c_13_apply, val_main_c_14_apply, val_main_v46_apply, val_main_call3_v4_apply,
      val_main_call3_v3_apply, val_main_c_10_apply, val_main_call3_v2_apply, val_main_call3_v1_apply,
      val_main_call3_v0_apply, val_main_c_9_apply, val_main_v45_apply, val_main_v44_apply, val_main_c_8_apply]
    rw [ix1_of (idx_main_v60 (ix2 n 0)) n rfl]
    exact col_index _ 19999#32 _ 20000 20000 (by omega) (by omega) (by decide)

theorem gather2_at (n : Fin 1024) :
    val_main_v93 (F := Ideal) x0 x1 x8 x9 x10 (ix1 n)
      = val_main_v74 (F := Ideal) x0 x8 x9 x10
          (ix2 n (Cert.Spec.clipIdx 160000 (by omega) (IntOp.subi (x1 (ix1 n)) 40000#32).toInt)) := by
  unfold val_main_v93 val_main_v92
  refine (gather_cols (R := 1024) (V := 160000) (by omega) (by omega) gather_S1024x160000_S1024x2_S1024_n_01_n_n_01_1_11_wf
    (val_main_v74 (F := Ideal) x0 x8 x9 x10) (val_main_v90 (F := Ideal)) (val_main_v91 (F := Ideal) x1)
    concatenates_S1024x1_S1024x1_S1024x2_d1 n).trans ?_
  refine congrArg (val_main_v74 (F := Ideal) x0 x8 x9 x10) (congrArg₂ ix2 (Fin.ext ?_) (Fin.ext ?_))
  · simp only [val_main_v90_apply, val_main_v84_apply, val_main_v81_apply, val_main_v83_apply, val_main_v80_apply,
      val_main_v82_apply, val_main_c_19_apply, val_main_c_20_apply, val_main_v0_apply]
    exact row_index n
  · simp only [val_main_v91_apply, val_main_v89_apply, val_main_v86_apply, val_main_v88_apply, val_main_v85_apply,
      val_main_v87_apply, val_main_c_21_apply, val_main_c_22_apply, val_main_v77_apply, val_main_call6_v4_apply,
      val_main_call6_v3_apply, val_main_c_18_apply, val_main_call6_v2_apply, val_main_call6_v1_apply,
      val_main_call6_v0_apply, val_main_c_17_apply, val_main_v76_apply, val_main_v75_apply, val_main_c_16_apply]
    rw [ix1_of (idx_main_v91 (ix2 n 0)) n rfl]
    exact col_index _ 159999#32 _ 160000 160000 (by omega) (by omega) (by decide)

theorem gather3_at (n : Fin 1024) :
    val_main_v124 (F := Ideal) x0 x1 x11 x12 x13 (ix1 n)
      = val_main_v105 (F := Ideal) x0 x11 x12 x13
          (ix2 n (Cert.Spec.clipIdx 67735 (by omega) (IntOp.subi (x1 (ix1 n)) 200000#32).toInt)) := by
  unfold val_main_v124 val_main_v123
  refine (gather_cols (R := 1024) (V := 67735) (by omega) (by omega) gather_S1024x67735_S1024x2_S1024_n_01_n_n_01_1_11_wf
    (val_main_v105 (F := Ideal) x0 x11 x12 x13) (val_main_v121 (F := Ideal)) (val_main_v122 (F := Ideal) x1)
    concatenates_S1024x1_S1024x1_S1024x2_d1 n).trans ?_
  refine congrArg (val_main_v105 (F := Ideal) x0 x11 x12 x13) (congrArg₂ ix2 (Fin.ext ?_) (Fin.ext ?_))
  · simp only [val_main_v121_apply, val_main_v115_apply, val_main_v112_apply, val_main_v114_apply, val_main_v111_apply,
      val_main_v113_apply, val_main_c_27_apply, val_main_c_28_apply, val_main_v0_apply]
    exact row_index n
  · simp only [val_main_v122_apply, val_main_v120_apply, val_main_v117_apply, val_main_v119_apply, val_main_v116_apply,
      val_main_v118_apply, val_main_c_29_apply, val_main_c_30_apply, val_main_v108_apply, val_main_call9_v4_apply,
      val_main_call9_v3_apply, val_main_c_26_apply, val_main_call9_v2_apply, val_main_call9_v1_apply,
      val_main_call9_v0_apply, val_main_c_25_apply, val_main_v107_apply, val_main_v106_apply, val_main_c_24_apply]
    rw [ix1_of (idx_main_v122 (ix2 n 0)) n rfl]
    exact col_index _ 67734#32 _ 67735 67735 (by omega) (by omega) (by decide)

theorem cid_at (n : Fin 1024) : val_main_v20 (F := Ideal) x1 (ix1 n) = cidWord (x1 (ix1 n)) := by
  simp only [val_main_v20_apply, val_main_v16_apply, val_main_v19_apply, val_main_v18_apply, val_main_v17_apply,
    val_main_c_1_apply, val_main_v15_apply, val_main_v14_apply, val_main_v13_apply, val_main_c_0_apply,
    val_main_v12_apply, val_main_v11_apply, val_main_v10_apply, val_main_c_apply]
  rfl

theorem sub_toInt (t lo : BitVec 32) (k : ℤ) (hk : lo.toInt = k) (h0 : 0 ≤ k) (h : k ≤ t.toInt) :
    (IntOp.subi t lo).toInt = t.toInt - k := by
  have h1 := BitVec.toInt_lt (x := t)
  have h2 := BitVec.le_toInt (x := t)
  rw [← hk] at h0 h ⊢
  exact WordArith.toInt_sub_of_bounds t lo (by omega) (by omega)

def argsAt : Cert.Spec.Args where
  hidden := mat x0
  target := fun a => x1 (ix1 a)
  W0 := mat x2
  b0 := vec x3
  proj0 := mat x4
  W1 := mat x5
  b1 := vec x6
  proj1 := mat x7
  W2 := mat x8
  b2 := vec x9
  proj2 := mat x10
  W3 := mat x11
  b3 := vec x12
  proj3 := mat x13
  cw := mat x14
  cb := vec x15

local notation "𝔞" => argsAt x0 x1 x2 x3 x4 x5 x6 x7 x8 x9 x10 x11 x12 x13 x14 x15

theorem branch0 (n : Fin 1024) :
    val_main_v36 (F := Ideal) x0 x1 x2 x3 x4 x14 x15 (ix1 n)
      = -(Cert.Spec.headLp 𝔞 n (Fin.castLE (by omega) (Cert.Spec.clipIdx 20000 (by omega) (x1 (ix1 n)).toInt))) := by
  rw [val_main_v36_apply, gather0_at, head_lp, Ideal.hostNegf_def, Ideal.negf_def]
  rfl

theorem branch1 (n : Fin 1024) (h : 20000 ≤ (x1 (ix1 n)).toInt) :
    val_main_v66 (F := Ideal) x0 x1 x2 x3 x4 x5 x6 x7 x14 x15 (ix1 n)
      = -(Cert.Spec.headLp 𝔞 n ⟨20002, by omega⟩
          + Cert.Spec.tail1Lp 𝔞 n (Cert.Spec.clipIdx 20000 (by omega) ((x1 (ix1 n)).toInt - 20000))) := by
  rw [val_main_v66_apply, val_main_v63_apply, slice1_at, gather1_at, head_lp, tail1_lp, Ideal.hostNegf_def, Ideal.negf_def,
    Ideal.addf_def, sub_toInt _ _ 20000 (by decide) (by omega) h]
  rfl

theorem branch2 (n : Fin 1024) (h : 40000 ≤ (x1 (ix1 n)).toInt) :
    val_main_v97 (F := Ideal) x0 x1 x2 x3 x4 x8 x9 x10 x14 x15 (ix1 n)
      = -(Cert.Spec.headLp 𝔞 n ⟨20001, by omega⟩
          + Cert.Spec.tail2Lp 𝔞 n (Cert.Spec.clipIdx 160000 (by omega) ((x1 (ix1 n)).toInt - 40000))) := by
  rw [val_main_v97_apply, val_main_v94_apply, slice2_at, gather2_at, head_lp, tail2_lp, Ideal.hostNegf_def, Ideal.negf_def,
    Ideal.addf_def, sub_toInt _ _ 40000 (by decide) (by omega) h]
  rfl

theorem branch3 (n : Fin 1024) (h : 200000 ≤ (x1 (ix1 n)).toInt) :
    val_main_v128 (F := Ideal) x0 x1 x2 x3 x4 x11 x12 x13 x14 x15 (ix1 n)
      = -(Cert.Spec.headLp 𝔞 n ⟨20000, by omega⟩
          + Cert.Spec.tail3Lp 𝔞 n (Cert.Spec.clipIdx 67735 (by omega) ((x1 (ix1 n)).toInt - 200000))) := by
  rw [val_main_v128_apply, val_main_v125_apply, slice3_at, gather3_at, head_lp, tail3_lp, Ideal.hostNegf_def, Ideal.negf_def,
    Ideal.addf_def, sub_toInt _ _ 200000 (by decide) (by omega) h]
  rfl

theorem result_stage (n : Fin 1024) :
    val_main_v129 (F := Ideal) x0 x1 x2 x3 x4 x5 x6 x7 x8 x9 x10 x11 x12 x13 x14 x15 (ix1 n) = Cert.Spec.nll 𝔞 n := by
  simp only [val_main_v129_apply, val_main_v127_apply, val_main_v126_apply, val_main_c_31_apply, val_main_v98_apply,
    val_main_v96_apply, val_main_v95_apply, val_main_c_23_apply, val_main_v67_apply, val_main_v65_apply,
    val_main_v64_apply, val_main_c_15_apply, cid_at]
  rw [where_chain]
  show _ = (if 200000 ≤ (x1 (ix1 n)).toInt then _ else if 40000 ≤ (x1 (ix1 n)).toInt then _
    else if 20000 ≤ (x1 (ix1 n)).toInt then _ else _)
  by_cases h3 : 200000 ≤ (x1 (ix1 n)).toInt
  · rw [if_pos h3, if_pos h3]
    exact branch3 x0 x1 x2 x3 x4 x5 x6 x7 x8 x9 x10 x11 x12 x13 x14 x15 n h3
  · rw [if_neg h3, if_neg h3]
    by_cases h2 : 40000 ≤ (x1 (ix1 n)).toInt
    · rw [if_pos h2, if_pos h2]
      exact branch2 x0 x1 x2 x3 x4 x5 x6 x7 x8 x9 x10 x11 x12 x13 x14 x15 n h2
    · rw [if_neg h2, if_neg h2]
      by_cases h1 : 20000 ≤ (x1 (ix1 n)).toInt
      · rw [if_pos h1, if_pos h1]
        exact branch1 x0 x1 x2 x3 x4 x5 x6 x7 x8 x9 x10 x11 x12 x13 x14 x15 n h1
      · rw [if_neg h1, if_neg h1]
        exact branch0 x0 x1 x2 x3 x4 x5 x6 x7 x8 x9 x10 x11 x12 x13 x14 x15 n

end Stages

def argsOf (m' : (ℓ : Loc nD τ sig) → Buf (Elt Ideal) ℓ) (c : Dev nD) : Cert.Spec.Args :=
  argsAt (m' ((c.tc : Thread nD τ).loc main_arg0)) (m' ((c.tc : Thread nD τ).loc main_arg1)) (m' ((c.tc : Thread nD τ).loc main_arg2)) (m' ((c.tc : Thread nD τ).loc main_arg3))
    (m' ((c.tc : Thread nD τ).loc main_arg4)) (m' ((c.tc : Thread nD τ).loc main_arg5)) (m' ((c.tc : Thread nD τ).loc main_arg6)) (m' ((c.tc : Thread nD τ).loc main_arg7))
    (m' ((c.tc : Thread nD τ).loc main_arg8)) (m' ((c.tc : Thread nD τ).loc main_arg9)) (m' ((c.tc : Thread nD τ).loc main_arg10)) (m' ((c.tc : Thread nD τ).loc main_arg11))
    (m' ((c.tc : Thread nD τ).loc main_arg12)) (m' ((c.tc : Thread nD τ).loc main_arg13)) (m' ((c.tc : Thread nD τ).loc main_arg14)) (m' ((c.tc : Thread nD τ).loc main_arg15))

theorem result_val (m' : (ℓ : Loc nD τ sig) → Buf (Elt Ideal) ℓ) (c : Dev nD) (n : Fin 1024) :
    val_main_v129 (F := Ideal) (m' ((c.tc : Thread nD τ).loc main_arg0)) (m' ((c.tc : Thread nD τ).loc main_arg1)) (m' ((c.tc : Thread nD τ).loc main_arg2)) (m' ((c.tc : Thread nD τ).loc main_arg3))
        (m' ((c.tc : Thread nD τ).loc main_arg4)) (m' ((c.tc : Thread nD τ).loc main_arg5)) (m' ((c.tc : Thread nD τ).loc main_arg6)) (m' ((c.tc : Thread nD τ).loc main_arg7))
        (m' ((c.tc : Thread nD τ).loc main_arg8)) (m' ((c.tc : Thread nD τ).loc main_arg9)) (m' ((c.tc : Thread nD τ).loc main_arg10)) (m' ((c.tc : Thread nD τ).loc main_arg11))
        (m' ((c.tc : Thread nD τ).loc main_arg12)) (m' ((c.tc : Thread nD τ).loc main_arg13)) (m' ((c.tc : Thread nD τ).loc main_arg14)) (m' ((c.tc : Thread nD τ).loc main_arg15)) (ix1 n)
      = Cert.Spec.nll (argsOf m' c) n :=
  result_stage _ _ _ _ _ _ _ _ _ _ _ _ _ _ _ _ n

end Cert.ReferenceIdeal.RefValue

end
-- ==== Proof.Ref.RefRun.lean ====
import proofs.«416365_j66236985639681_1_alg».proof.Defs
import proofs.«416365_j66236985639681_1_alg».proof.Proof.Gen.Pre_finite_inputs
import proofs.«416365_j66236985639681_1_alg».proof.Proof.Ref.RunP
import proofs.«416365_j66236985639681_1_alg».proof.Proof.Ref.LibAfter
import proofs.«416365_j66236985639681_1_alg».proof.Proof.Ref.Stages4
import proofs.«416365_j66236985639681_1_alg».proof.Proof.Ref.RefValue

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Value Cert.ReferenceIdeal.Read Cert.ReferenceIdeal.Stages Idealize.ShloMosaic.ValueIdx

theorem run_stage {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v129) = val_main_v129 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v129).trans (st_main_v129 m c),
      (h c main_arg0).trans (ops_wr.after_arg main_arg0 (by decide) _),
      (h c main_arg1).trans (ops_wr.after_arg main_arg1 (by decide) _),
      (h c main_arg2).trans (ops_wr.after_arg main_arg2 (by decide) _),
      (h c main_arg3).trans (ops_wr.after_arg main_arg3 (by decide) _),
      (h c main_arg4).trans (ops_wr.after_arg main_arg4 (by decide) _),
      (h c main_arg5).trans (ops_wr.after_arg main_arg5 (by decide) _),
      (h c main_arg6).trans (ops_wr.after_arg main_arg6 (by decide) _),
      (h c main_arg7).trans (ops_wr.after_arg main_arg7 (by decide) _),
      (h c main_arg8).trans (ops_wr.after_arg main_arg8 (by decide) _),
      (h c main_arg9).trans (ops_wr.after_arg main_arg9 (by decide) _),
      (h c main_arg10).trans (ops_wr.after_arg main_arg10 (by decide) _),
      (h c main_arg11).trans (ops_wr.after_arg main_arg11 (by decide) _),
      (h c main_arg12).trans (ops_wr.after_arg main_arg12 (by decide) _),
      (h c main_arg13).trans (ops_wr.after_arg main_arg13 (by decide) _),
      (h c main_arg14).trans (ops_wr.after_arg main_arg14 (by decide) _),
      (h c main_arg15).trans (ops_wr.after_arg main_arg15 (by decide) _)⟩)
    (run_seq scopedRefs_eq scopedSems_eq defs main (fun _ => ops) main_eq (fun _ => ops_sub) m ρ (fun _ => ops_fresh))

theorem run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      (∀ n : Fin 1024, r.2.mem ((c.tc : Thread nD τ).loc main_v129) (ix1 n) = Cert.Spec.nll (argsOf m' c) n)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)) :=
  (θ_run defs _ _).mono (fun _ h c => ⟨fun n => (congrFun (h c).1 (ix1 n)).trans (result_val m' c n), (h c).2⟩)
    (run_stage (F := Ideal) m' ρ')

theorem frame_ri : Cert.frame_ReferenceIdeal := fun m ρ _ =>
  (θ_run Cert.ReferenceIdeal.defs _ _).mono (fun _ h c => (h c).2) (run_stage (F := Ideal) m ρ)

end Cert.ReferenceIdeal.RefValue

end
-- ==== Proof.lean ====
/- Both programs compute the adaptive-softmax negative log-likelihood `Cert.Spec.nll` of the sixteen arguments, row by row. -/
import proofs.«416365_j66236985639681_1_alg».proof.Defs
import proofs.«416365_j66236985639681_1_alg».proof.Proof.Gen.Kernel
import proofs.«416365_j66236985639681_1_alg».proof.Proof.Gen.KernelIdeal
import proofs.«416365_j66236985639681_1_alg».proof.Proof.Gen.ReferenceIdeal
import proofs.«416365_j66236985639681_1_alg».proof.Proof.Gen.Pre_finite_inputs
import proofs.«416365_j66236985639681_1_alg».proof.Proof.Preserves
import proofs.«416365_j66236985639681_1_alg».proof.Proof.KI.Assemble
import proofs.«416365_j66236985639681_1_alg».proof.Proof.KI.KernelValue
import proofs.«416365_j66236985639681_1_alg».proof.Proof.Ref.RefRun
import Idealize.ShloMosaic.Adequacy
import Idealize.ShloMosaic.Init

noncomputable section

namespace Cert.Proof

open Idealize.ShloMosaic Idealize.ShloMosaic.TcCoe Idealize.SL.Sem

/-- At machine words a named constant is its literal word. -/
@[reducible] def namedBits : Named Bits := ⟨fun _ _ {φ} b => Scalar.ofBits φ b⟩

attribute [local instance] namedBits

set_option maxHeartbeats 1000000 in
/-- The idealized program's kernel bodies, read at machine words with each named constant its literal, are the word-level program's. -/
theorem defs₀_eq : (Cert.Kernel.defs₀ (F := Bits)) = Cert.KernelIdeal.defs₀ (F := Bits) := by
  unfold Cert.Kernel.defs₀ Cert.KernelIdeal.defs₀
  refine congrArg Defs.onTc ?_
  funext p a
  match p, a with
  | 0, (t, s) => rfl
  | 1, (t, s) => rfl
  | 2, (t, s) => rfl
  | 3, (t, s) => rfl

set_option maxHeartbeats 1000000 in
theorem defs_eq : (Cert.Kernel.defs (F := Bits)) = Cert.KernelIdeal.defs (F := Bits) :=
  congrArg (Pipeline.defs Cert.KernelIdeal.pcfgs) defs₀_eq

set_option maxHeartbeats 4000000 in
theorem main_eq : (Cert.Kernel.main (F := Bits)) = Cert.KernelIdeal.main (F := Bits) := rfl

set_option maxHeartbeats 1000000 in
/-- The word-level program is the idealized text at machine words, and that text's run holds at any float values and any reading of the named constants. -/
theorem frame_k : Cert.frame_Kernel := fun m ρ _ => by
  rw [defs_eq, main_eq]
  exact (θ_run _ _ _).mono (fun _ h c => (h c).2) (Cert.KernelIdeal.H.run_value (F := Bits) m ρ)

/-- The idealized program's frame: its run with the result dropped. -/
theorem frame_ki : Cert.frame_KernelIdeal := fun m ρ _ =>
  (θ_run _ _ _).mono (fun _ h c => (h c).2) (Cert.KernelIdeal.H.run_value (F := Ideal) m ρ)

theorem algebraic : Cert.algebraic_KernelIdeal_ReferenceIdeal := by
  intro m ρ m' ρ' hpre hagree
  refine ⟨fun c => Cert.KernelIdeal.Gen.V38 m (Cert.KernelIdeal.H.outsOf m) c Cert.KernelIdeal.main_v73,
    Cert.KernelIdeal.H.run_value (F := Ideal) m ρ, ?_⟩
  refine (θ_run (Cert.ReferenceIdeal.defs (F := Ideal)) _ _).mono (fun r h c => ⟨?_, (h c).2⟩)
    (Cert.ReferenceIdeal.RefValue.run m' ρ')
  funext i
  obtain ⟨n, rfl⟩ : ∃ n : Fin 1024, i = ValueIdx.ix1 n := ⟨i 0, ValueIdx.eq_ix1 i⟩
  obtain ⟨a0, a1, a2, a3, a4, a5, a6, a7, a8, a9, a10, a11, a12, a13, a14, a15⟩ := hagree c
  have hargs : Cert.ReferenceIdeal.RefValue.argsOf m' c = Cert.KernelIdeal.H.Head.argsOf m c := by
    unfold Cert.ReferenceIdeal.RefValue.argsOf Cert.KernelIdeal.H.Head.argsOf
    rw [a0, a1, a2, a3, a4, a5, a6, a7, a8, a9, a10, a11, a12, a13, a14, a15]
    rfl
  rw [(h c).1 n, hargs]
  exact (Cert.KernelIdeal.H.KV.kernel_value m hpre c n).symm

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, Cert.Proof.Parts.preserves, algebraic⟩

end Cert.Proof

end
